-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1536, 768]⟩ ⟨2, ![1536, 24576]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![768, 1536]⟩ ⟨2, ![24576, 1536]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![48, 1536]⟩ ⟨2, ![1536, 1536]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1536x768 : Shape := ⟨2, ![1536, 768]⟩
abbrev S768x1536 : Shape := ⟨2, ![768, 1536]⟩
abbrev S_ : Shape := ⟨0, ![]⟩

class Facts : Prop where
  bcast_S_S1536x768 : S_.BroadcastsInDim S1536x768 (![] : Fin 0 → Fin S1536x768.rank)
  reducesTo_S1536x768_S_d0_1 : S1536x768.ReducesTo [0, 1] S_
  h_S_ : 0 < S_.numel
  bcast_S_S768x1536 : S_.BroadcastsInDim S768x1536 (![] : Fin 0 → Fin S768x1536.rank)
  reducesTo_S768x1536_S_d0_1 : S768x1536.ReducesTo [0, 1] S_

variable [Facts]

def fn {F : FTy → Type} [FloatOps F] (main_arg0 : FVec F S1536x768 .f32) (main_arg1 : FVec F S768x1536 .f32) : IVec S_ 1 :=
  let main_v0 : FVec F S1536x768 .f32 := Host.absf main_arg0
  let main_cst : FVec F S_ .f32 := constant S_ .f32 0x7F800000#32
  let main_v1 : FVec F S1536x768 .f32 := broadcastInDim S1536x768 ![] bcast_S_S1536x768 main_cst
  let main_v2 : IVec S1536x768 1 := cmpf .olt main_v0 main_v1
  let main_c : IVec S_ 1 := constantI S_ 1 1#1
  let main_v3 : IVec S_ 1 := (fun x v => Host.reduce IntOp.andi x v reducesTo_S1536x768_S_d0_1 h_S_) main_v2 main_c
  let main_v4 : FVec F S768x1536 .f32 := Host.absf main_arg1
  let main_cst_0 : FVec F S_ .f32 := constant S_ .f32 0x7F800000#32
  let main_v5 : FVec F S768x1536 .f32 := broadcastInDim S768x1536 ![] bcast_S_S768x1536 main_cst_0
  let main_v6 : IVec S768x1536 1 := cmpf .olt main_v4 main_v5
  let main_c_1 : IVec S_ 1 := constantI S_ 1 1#1
  let main_v7 : IVec S_ 1 := (fun x v => Host.reduce IntOp.andi x v reducesTo_S768x1536_S_d0_1 h_S_) main_v6 main_c_1
  let main_v8 : IVec S_ 1 := andi main_v3 main_v7
  main_v8
-- ==== Pre_finite_inputs_ReferenceIdeal.lean ====
abbrev S1536x24576 : Shape := ⟨2, ![1536, 24576]⟩
abbrev S24576x1536 : Shape := ⟨2, ![24576, 1536]⟩
abbrev S_ : Shape := ⟨0, ![]⟩

class Facts : Prop where
  bcast_S_S1536x24576 : S_.BroadcastsInDim S1536x24576 (![] : Fin 0 → Fin S1536x24576.rank)
  reducesTo_S1536x24576_S_d0_1 : S1536x24576.ReducesTo [0, 1] S_
  h_S_ : 0 < S_.numel
  bcast_S_S24576x1536 : S_.BroadcastsInDim S24576x1536 (![] : Fin 0 → Fin S24576x1536.rank)
  reducesTo_S24576x1536_S_d0_1 : S24576x1536.ReducesTo [0, 1] S_

variable [Facts]

def fn {F : FTy → Type} [FloatOps F] (main_arg0 : FVec F S1536x24576 .f32) (main_arg1 : FVec F S24576x1536 .f32) : IVec S_ 1 :=
  let main_v0 : FVec F S1536x24576 .f32 := Host.absf main_arg0
  let main_cst : FVec F S_ .f32 := constant S_ .f32 0x7F800000#32
  let main_v1 : FVec F S1536x24576 .f32 := broadcastInDim S1536x24576 ![] bcast_S_S1536x24576 main_cst
  let main_v2 : IVec S1536x24576 1 := cmpf .olt main_v0 main_v1
  let main_c : IVec S_ 1 := constantI S_ 1 1#1
  let main_v3 : IVec S_ 1 := (fun x v => Host.reduce IntOp.andi x v reducesTo_S1536x24576_S_d0_1 h_S_) main_v2 main_c
  let main_v4 : FVec F S24576x1536 .f32 := Host.absf main_arg1
  let main_cst_0 : FVec F S_ .f32 := constant S_ .f32 0x7F800000#32
  let main_v5 : FVec F S24576x1536 .f32 := broadcastInDim S24576x1536 ![] bcast_S_S24576x1536 main_cst_0
  let main_v6 : IVec S24576x1536 1 := cmpf .olt main_v4 main_v5
  let main_c_1 : IVec S_ 1 := constantI S_ 1 1#1
  let main_v7 : IVec S_ 1 := (fun x v => Host.reduce IntOp.andi x v reducesTo_S24576x1536_S_d0_1 h_S_) main_v6 main_c_1
  let main_v8 : IVec S_ 1 := andi main_v3 main_v7
  main_v8
-- ==== Kernel.lean ====
abbrev S1536x768 : Shape := ⟨2, ![1536, 768]⟩
abbrev S768x1536 : Shape := ⟨2, ![768, 1536]⟩
abbrev S48x1536 : Shape := ⟨2, ![48, 1536]⟩
abbrev S1536x1536 : Shape := ⟨2, ![1536, 1536]⟩
abbrev S4x384x768 : Shape := ⟨3, ![4, 384, 768]⟩
abbrev S384x1536 : Shape := ⟨2, ![384, 1536]⟩
abbrev S7x48x1536 : Shape := ⟨3, ![7, 48, 1536]⟩
abbrev S3x4 : Shape := ⟨2, ![3, 4]⟩
abbrev S7 : Shape := ⟨1, ![7]⟩
abbrev S_ : Shape := ⟨0, ![]⟩
abbrev S384x768 : Shape := ⟨2, ![384, 768]⟩
abbrev S768x768 : Shape := ⟨2, ![768, 768]⟩
abbrev S1x384x768 : Shape := ⟨3, ![1, 384, 768]⟩
abbrev S1x1 : Shape := ⟨2, ![1, 1]⟩
abbrev S1x192x768 : Shape := ⟨3, ![1, 192, 768]⟩
abbrev S192x768 : Shape := ⟨2, ![192, 768]⟩
abbrev S192x1536 : Shape := ⟨2, ![192, 1536]⟩
abbrev S1 : Shape := ⟨1, ![1]⟩
abbrev S1x48x1536 : Shape := ⟨3, ![1, 48, 1536]⟩

abbrev nBuf : Space → Nat
  | .hbm => 3
  | .vmem => 9
  | .smem => 0
  | _ => 0

abbrev bufTy : (tb : Table) → Fin (tcTables nBuf tb) → BufTy
  | .hbm, ⟨0, _⟩ => ⟨S1536x768, .f32⟩
  | .hbm, ⟨1, _⟩ => ⟨S768x1536, .f32⟩
  | .hbm, ⟨2, _⟩ => ⟨S48x1536, .f32⟩
  | .local _ .vmem, ⟨0, _⟩ => ⟨S1536x768, .f32⟩
  | .local _ .vmem, ⟨1, _⟩ => ⟨S768x1536, .f32⟩
  | .local _ .vmem, ⟨2, _⟩ => ⟨S48x1536, .f32⟩
  | .local _ .vmem, ⟨3, _⟩ => ⟨S1536x1536, .f32⟩
  | .local _ .vmem, ⟨4, _⟩ => ⟨S4x384x768, .bf16⟩
  | .local _ .vmem, ⟨5, _⟩ => ⟨S4x384x768, .bf16⟩
  | .local _ .vmem, ⟨6, _⟩ => ⟨S384x1536, .f32⟩
  | .local _ .vmem, ⟨7, _⟩ => ⟨S384x1536, .bf16⟩
  | .local _ .vmem, ⟨8, _⟩ => ⟨S7x48x1536, .bf16⟩
  | _, _ => ⟨S1536x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  (ofTc nBuf bufTy 1 65 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v43 : BitVec 32 := Scalar.addi v19 c3_i32
  let c4_i32_18 : BitVec 32 := 4#32
  let c0_i32_19 : BitVec 32 := 0#32
  let v44 : BitVec 1 := Scalar.cmpi .eq c4_i32_18 c0_i32_19
  let c1_i32_20 : BitVec 32 := 1#32
  let v45 : BitVec 32 := Scalar.select v44 c1_i32_20 c4_i32_18
  let v46 : BitVec 32 := Scalar.remsi v43 v45
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let c0_i32_21 : BitVec 32 := 0#32
  let v47 : BitVec 1 := Scalar.cmpi .ne v46 c0_i32_21
  let v51 : BitVec 1 := Scalar.andi v50 v47
  let v52 : BitVec 32 := Scalar.addi v46 v45
  let v53 : BitVec 32 := Scalar.select v51 v52 v46
  let c8_i32_24 : BitVec 32 := 8#32
  let v54 : BitVec 32 := Scalar.muli v53 c8_i32_24
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v55 : BitVec 32 := Scalar.addi v54 v29
  let c1_i32_78 : BitVec 32 := 1#32
  let v148 : BitVec 32 := Scalar.muli v55 c1_i32_78
  let v149 : BitVec 32 := Scalar.addi c0_i32_79 v148
  v149.toNat
def k0_dev2 (d0 : Dev nD) : Nat :=
  let c0_i32_82 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_11 : BitVec 32 := 1#32
  let v30 : BitVec 32 := Scalar.addi v19 c1_i32_11
  let c4_i32 : BitVec 32 := 4#32
  let c0_i32_12 : BitVec 32 := 0#32
  let v31 : BitVec 1 := Scalar.cmpi .eq c4_i32 c0_i32_12
  let c1_i32_13 : BitVec 32 := 1#32
  let v32 : BitVec 32 := Scalar.select v31 c1_i32_13 c4_i32
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c8_i32_17 : BitVec 32 := 8#32
  let v41 : BitVec 32 := Scalar.muli v40 c8_i32_17
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v42 : BitVec 32 := Scalar.addi v41 v29
  let c1_i32_81 : BitVec 32 := 1#32
  let v150 : BitVec 32 := Scalar.muli v42 c1_i32_81
  let v151 : BitVec 32 := Scalar.addi c0_i32_82 v150
  v151.toNat
def k0_dev3 (d0 : Dev nD) : Nat :=
  let c0_i32_85 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_25 : BitVec 32 := 8#32
  let v57 : BitVec 32 := Scalar.muli v19 c8_i32_25
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_26 : BitVec 32 := 1#32
  let v58 : BitVec 32 := Scalar.addi v29 c1_i32_26
  let c8_i32_27 : BitVec 32 := 8#32
  let c0_i32_28 : BitVec 32 := 0#32
  let v59 : BitVec 1 := Scalar.cmpi .eq c8_i32_27 c0_i32_28
  let c1_i32_29 : BitVec 32 := 1#32
  let v60 : BitVec 32 := Scalar.select v59 c1_i32_29 c8_i32_27
  let v61 : BitVec 32 := Scalar.remsi v58 v60
  let c0_i32_31 : BitVec 32 := 0#32
  let v63 : BitVec 1 := Scalar.cmpi .slt v61 c0_i32_31
  let c0_i32_32 : BitVec 32 := 0#32
  let v64 : BitVec 1 := Scalar.cmpi .slt v60 c0_i32_32
  let v65 : BitVec 1 := Scalar.xori v63 v64
  let c0_i32_30 : BitVec 32 := 0#32
  let v62 : BitVec 1 := Scalar.cmpi .ne v61 c0_i32_30
  let v66 : BitVec 1 := Scalar.andi v65 v62
  let v67 : BitVec 32 := Scalar.addi v61 v60
  let v68 : BitVec 32 := Scalar.select v66 v67 v61
  let v69 : BitVec 32 := Scalar.addi v57 v68
  let c1_i32_84 : BitVec 32 := 1#32
  let v152 : BitVec 32 := Scalar.muli v69 c1_i32_84
  let v153 : BitVec 32 := Scalar.addi c0_i32_85 v152
  v153.toNat
def k0_dev4 (d0 : Dev nD) : Nat :=
  let c0_i32_88 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_33 : BitVec 32 := 8#32
  let v70 : BitVec 32 := Scalar.muli v19 c8_i32_33
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v71 : BitVec 32 := Scalar.addi v29 c2_i32
  let c8_i32_34 : BitVec 32 := 8#32
  let c0_i32_35 : BitVec 32 := 0#32
  let v72 : BitVec 1 := Scalar.cmpi .eq c8_i32_34 c0_i32_35
  let c1_i32_36 : BitVec 32 := 1#32
  let v73 : BitVec 32 := Scalar.select v72 c1_i32_36 c8_i32_34
  let v74 : BitVec 32 := Scalar.remsi v71 v73
  let c0_i32_38 : BitVec 32 := 0#32
  let v76 : BitVec 1 := Scalar.cmpi .slt v74 c0_i32_38
  let c0_i32_39 : BitVec 32 := 0#32
  let v77 : BitVec 1 := Scalar.cmpi .slt v73 c0_i32_39
  let v78 : BitVec 1 := Scalar.xori v76 v77
  let c0_i32_37 : BitVec 32 := 0#32
  let v75 : BitVec 1 := Scalar.cmpi .ne v74 c0_i32_37
  let v79 : BitVec 1 := Scalar.andi v78 v75
  let v80 : BitVec 32 := Scalar.addi v74 v73
  let v81 : BitVec 32 := Scalar.select v79 v80 v74
  let v82 : BitVec 32 := Scalar.addi v70 v81
  let c1_i32_87 : BitVec 32 := 1#32
  let v154 : BitVec 32 := Scalar.muli v82 c1_i32_87
  let v155 : BitVec 32 := Scalar.addi c0_i32_88 v154
  v155.toNat
def k0_dev5 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_40 : BitVec 32 := 8#32
  let v83 : BitVec 32 := Scalar.muli v19 c8_i32_40
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_41 : BitVec 32 := 3#32
  let v84 : BitVec 32 := Scalar.addi v29 c3_i32_41
  let c8_i32_42 : BitVec 32 := 8#32
  let c0_i32_43 : BitVec 32 := 0#32
  let v85 : BitVec 1 := Scalar.cmpi .eq c8_i32_42 c0_i32_43
  let c1_i32_44 : BitVec 32 := 1#32
  let v86 : BitVec 32 := Scalar.select v85 c1_i32_44 c8_i32_42
  let v87 : BitVec 32 := Scalar.remsi v84 v86
  let c0_i32_46 : BitVec 32 := 0#32
  let v89 : BitVec 1 := Scalar.cmpi .slt v87 c0_i32_46
  let c0_i32_47 : BitVec 32 := 0#32
  let v90 : BitVec 1 := Scalar.cmpi .slt v86 c0_i32_47
  let v91 : BitVec 1 := Scalar.xori v89 v90
  let c0_i32_45 : BitVec 32 := 0#32
  let v88 : BitVec 1 := Scalar.cmpi .ne v87 c0_i32_45
  let v92 : BitVec 1 := Scalar.andi v91 v88
  let v93 : BitVec 32 := Scalar.addi v87 v86
  let v94 : BitVec 32 := Scalar.select v92 v93 v87
  let v95 : BitVec 32 := Scalar.addi v83 v94
  let c1_i32_90 : BitVec 32 := 1#32
  let v156 : BitVec 32 := Scalar.muli v95 c1_i32_90
  let v157 : BitVec 32 := Scalar.addi c0_i32_91 v156
  v157.toNat
def k0_dev6 (d0 : Dev nD) : Nat :=
  let c0_i32_94 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_48 : BitVec 32 := 8#32
  let v96 : BitVec 32 := Scalar.muli v19 c8_i32_48
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_49 : BitVec 32 := 4#32
  let v97 : BitVec 32 := Scalar.addi v29 c4_i32_49
  let c8_i32_50 : BitVec 32 := 8#32
  let c0_i32_51 : BitVec 32 := 0#32
  let v98 : BitVec 1 := Scalar.cmpi .eq c8_i32_50 c0_i32_51
  let c1_i32_52 : BitVec 32 := 1#32
  let v99 : BitVec 32 := Scalar.select v98 c1_i32_52 c8_i32_50
  let v100 : BitVec 32 := Scalar.remsi v97 v99
  let c0_i32_54 : BitVec 32 := 0#32
  let v102 : BitVec 1 := Scalar.cmpi .slt v100 c0_i32_54
  let c0_i32_55 : BitVec 32 := 0#32
  let v103 : BitVec 1 := Scalar.cmpi .slt v99 c0_i32_55
  let v104 : BitVec 1 := Scalar.xori v102 v103
  let c0_i32_53 : BitVec 32 := 0#32
  let v101 : BitVec 1 := Scalar.cmpi .ne v100 c0_i32_53
  let v105 : BitVec 1 := Scalar.andi v104 v101
  let v106 : BitVec 32 := Scalar.addi v100 v99
  let v107 : BitVec 32 := Scalar.select v105 v106 v100
  let v108 : BitVec 32 := Scalar.addi v96 v107
  let c1_i32_93 : BitVec 32 := 1#32
  let v158 : BitVec 32 := Scalar.muli v108 c1_i32_93
  let v159 : BitVec 32 := Scalar.addi c0_i32_94 v158
  v159.toNat
def k0_dev7 (d0 : Dev nD) : Nat :=
  let c0_i32_97 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_56 : BitVec 32 := 8#32
  let v109 : BitVec 32 := Scalar.muli v19 c8_i32_56
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c5_i32 : BitVec 32 := 5#32
  let v110 : BitVec 32 := Scalar.addi v29 c5_i32
  let c8_i32_57 : BitVec 32 := 8#32
  let c0_i32_58 : BitVec 32 := 0#32
  let v111 : BitVec 1 := Scalar.cmpi .eq c8_i32_57 c0_i32_58
  let c1_i32_59 : BitVec 32 := 1#32
  let v112 : BitVec 32 := Scalar.select v111 c1_i32_59 c8_i32_57
  let v113 : BitVec 32 := Scalar.remsi v110 v112
  let c0_i32_61 : BitVec 32 := 0#32
  let v115 : BitVec 1 := Scalar.cmpi .slt v113 c0_i32_61
  let c0_i32_62 : BitVec 32 := 0#32
  let v116 : BitVec 1 := Scalar.cmpi .slt v112 c0_i32_62
  let v117 : BitVec 1 := Scalar.xori v115 v116
  let c0_i32_60 : BitVec 32 := 0#32
  let v114 : BitVec 1 := Scalar.cmpi .ne v113 c0_i32_60
  let v118 : BitVec 1 := Scalar.andi v117 v114
  let v119 : BitVec 32 := Scalar.addi v113 v112
  let v120 : BitVec 32 := Scalar.select v118 v119 v113
  let v121 : BitVec 32 := Scalar.addi v109 v120
  let c1_i32_96 : BitVec 32 := 1#32
  let v160 : BitVec 32 := Scalar.muli v121 c1_i32_96
  let v161 : BitVec 32 := Scalar.addi c0_i32_97 v160
  v161.toNat
def k0_dev8 (d0 : Dev nD) : Nat :=
  let c0_i32_100 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_63 : BitVec 32 := 8#32
  let v122 : BitVec 32 := Scalar.muli v19 c8_i32_63
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c6_i32 : BitVec 32 := 6#32
  let v123 : BitVec 32 := Scalar.addi v29 c6_i32
  let c8_i32_64 : BitVec 32 := 8#32
  let c0_i32_65 : BitVec 32 := 0#32
  let v124 : BitVec 1 := Scalar.cmpi .eq c8_i32_64 c0_i32_65
  let c1_i32_66 : BitVec 32 := 1#32
  let v125 : BitVec 32 := Scalar.select v124 c1_i32_66 c8_i32_64
  let v126 : BitVec 32 := Scalar.remsi v123 v125
  let c0_i32_68 : BitVec 32 := 0#32
  let v128 : BitVec 1 := Scalar.cmpi .slt v126 c0_i32_68
  let c0_i32_69 : BitVec 32 := 0#32
  let v129 : BitVec 1 := Scalar.cmpi .slt v125 c0_i32_69
  let v130 : BitVec 1 := Scalar.xori v128 v129
  let c0_i32_67 : BitVec 32 := 0#32
  let v127 : BitVec 1 := Scalar.cmpi .ne v126 c0_i32_67
  let v131 : BitVec 1 := Scalar.andi v130 v127
  let v132 : BitVec 32 := Scalar.addi v126 v125
  let v133 : BitVec 32 := Scalar.select v131 v132 v126
  let v134 : BitVec 32 := Scalar.addi v122 v133
  let c1_i32_99 : BitVec 32 := 1#32
  let v162 : BitVec 32 := Scalar.muli v134 c1_i32_99
  let v163 : BitVec 32 := Scalar.addi c0_i32_100 v162
  v163.toNat
def k0_dev9 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_70 : BitVec 32 := 8#32
  let v135 : BitVec 32 := Scalar.muli v19 c8_i32_70
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32 : BitVec 32 := 7#32
  let v136 : BitVec 32 := Scalar.addi v29 c7_i32
  let c8_i32_71 : BitVec 32 := 8#32
  let c0_i32_72 : BitVec 32 := 0#32
  let v137 : BitVec 1 := Scalar.cmpi .eq c8_i32_71 c0_i32_72
  let c1_i32_73 : BitVec 32 := 1#32
  let v138 : BitVec 32 := Scalar.select v137 c1_i32_73 c8_i32_71
  let v139 : BitVec 32 := Scalar.remsi v136 v138
  let c0_i32_75 : BitVec 32 := 0#32
  let v141 : BitVec 1 := Scalar.cmpi .slt v139 c0_i32_75
  let c0_i32_76 : BitVec 32 := 0#32
  let v142 : BitVec 1 := Scalar.cmpi .slt v138 c0_i32_76
  let v143 : BitVec 1 := Scalar.xori v141 v142
  let c0_i32_74 : BitVec 32 := 0#32
  let v140 : BitVec 1 := Scalar.cmpi .ne v139 c0_i32_74
  let v144 : BitVec 1 := Scalar.andi v143 v140
  let v145 : BitVec 32 := Scalar.addi v139 v138
  let v146 : BitVec 32 := Scalar.select v144 v145 v139
  let v147 : BitVec 32 := Scalar.addi v135 v146
  let c1_i32_102 : BitVec 32 := 1#32
  let v164 : BitVec 32 := Scalar.muli v147 c1_i32_102
  let v165 : BitVec 32 := Scalar.addi c0_i32_103 v164
  v165.toNat
def k0_off1 (d0 : Dev nD) (c3_i32_104 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v166 : BitVec 32 := Scalar.addi v19 c3_i32_104
  let c4_i32_105 : BitVec 32 := 4#32
  let c0_i32_106 : BitVec 32 := 0#32
  let v167 : BitVec 1 := Scalar.cmpi .eq c4_i32_105 c0_i32_106
  let c1_i32_107 : BitVec 32 := 1#32
  let v168 : BitVec 32 := Scalar.select v167 c1_i32_107 c4_i32_105
  let v169 : BitVec 32 := Scalar.remsi v166 v168
  let c0_i32_109 : BitVec 32 := 0#32
  let v171 : BitVec 1 := Scalar.cmpi .slt v169 c0_i32_109
  let c0_i32_110 : BitVec 32 := 0#32
  let v172 : BitVec 1 := Scalar.cmpi .slt v168 c0_i32_110
  let v173 : BitVec 1 := Scalar.xori v171 v172
  let c0_i32_108 : BitVec 32 := 0#32
  let v170 : BitVec 1 := Scalar.cmpi .ne v169 c0_i32_108
  let v174 : BitVec 1 := Scalar.andi v173 v170
  let v175 : BitVec 32 := Scalar.addi v169 v168
  let v176 : BitVec 32 := Scalar.select v174 v175 v169
  let c384_i32 : BitVec 32 := 384#32
  let v177 : BitVec 32 := Scalar.muli v176 c384_i32
  let v178 : Index := Scalar.indexCast v177
  let c0 : Index := 0#32
  ![v178.toNat, 0]
def k0_off2 (d0 : Dev nD) (c3_i32_104 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v166 : BitVec 32 := Scalar.addi v19 c3_i32_104
  let c4_i32_105 : BitVec 32 := 4#32
  let c0_i32_106 : BitVec 32 := 0#32
  let v167 : BitVec 1 := Scalar.cmpi .eq c4_i32_105 c0_i32_106
  let c1_i32_107 : BitVec 32 := 1#32
  let v168 : BitVec 32 := Scalar.select v167 c1_i32_107 c4_i32_105
  let v169 : BitVec 32 := Scalar.remsi v166 v168
  let c0_i32_109 : BitVec 32 := 0#32
  let v171 : BitVec 1 := Scalar.cmpi .slt v169 c0_i32_109
  let c0_i32_110 : BitVec 32 := 0#32
  let v172 : BitVec 1 := Scalar.cmpi .slt v168 c0_i32_110
  let v173 : BitVec 1 := Scalar.xori v171 v172
  let c0_i32_108 : BitVec 32 := 0#32
  let v170 : BitVec 1 := Scalar.cmpi .ne v169 c0_i32_108
  let v174 : BitVec 1 := Scalar.andi v173 v170
  let v175 : BitVec 32 := Scalar.addi v169 v168
  let v176 : BitVec 32 := Scalar.select v174 v175 v169
  let c384_i32_113 : BitVec 32 := 384#32
  let v184 : BitVec 32 := Scalar.muli v176 c384_i32_113
  let v185 : Index := Scalar.indexCast v184
  let c0_114 : Index := 0#32
  ![v185.toNat, 0]
def k0_dev10 (d0 : Dev nD) : Nat :=
  let c0_i32_133 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_11 : BitVec 32 := 1#32
  let v30 : BitVec 32 := Scalar.addi v19 c1_i32_11
  let c4_i32 : BitVec 32 := 4#32
  let c0_i32_12 : BitVec 32 := 0#32
  let v31 : BitVec 1 := Scalar.cmpi .eq c4_i32 c0_i32_12
  let c1_i32_13 : BitVec 32 := 1#32
  let v32 : BitVec 32 := Scalar.select v31 c1_i32_13 c4_i32
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c8_i32_17 : BitVec 32 := 8#32
  let v41 : BitVec 32 := Scalar.muli v40 c8_i32_17
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v42 : BitVec 32 := Scalar.addi v41 v29
  let c1_i32_132 : BitVec 32 := 1#32
  let v207 : BitVec 32 := Scalar.muli v42 c1_i32_132
  let v208 : BitVec 32 := Scalar.addi c0_i32_133 v207
  v208.toNat
def k0_dev11 (d0 : Dev nD) : Nat :=
  let c0_i32_145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_11 : BitVec 32 := 1#32
  let v30 : BitVec 32 := Scalar.addi v19 c1_i32_11
  let c4_i32 : BitVec 32 := 4#32
  let c0_i32_12 : BitVec 32 := 0#32
  let v31 : BitVec 1 := Scalar.cmpi .eq c4_i32 c0_i32_12
  let c1_i32_13 : BitVec 32 := 1#32
  let v32 : BitVec 32 := Scalar.select v31 c1_i32_13 c4_i32
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c8_i32_17 : BitVec 32 := 8#32
  let v41 : BitVec 32 := Scalar.muli v40 c8_i32_17
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v42 : BitVec 32 := Scalar.addi v41 v29
  let c1_i32_144 : BitVec 32 := 1#32
  let v217 : BitVec 32 := Scalar.muli v42 c1_i32_144
  let v218 : BitVec 32 := Scalar.addi c0_i32_145 v217
  v218.toNat
def k0_off3 (d0 : Dev nD) (c1_i32_149 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v227 : BitVec 32 := Scalar.addi v19 c1_i32_149
  let c4_i32_150 : BitVec 32 := 4#32
  let c0_i32_151 : BitVec 32 := 0#32
  let v228 : BitVec 1 := Scalar.cmpi .eq c4_i32_150 c0_i32_151
  let c1_i32_152 : BitVec 32 := 1#32
  let v229 : BitVec 32 := Scalar.select v228 c1_i32_152 c4_i32_150
  let v230 : BitVec 32 := Scalar.remsi v227 v229
  let c0_i32_154 : BitVec 32 := 0#32
  let v232 : BitVec 1 := Scalar.cmpi .slt v230 c0_i32_154
  let c0_i32_155 : BitVec 32 := 0#32
  let v233 : BitVec 1 := Scalar.cmpi .slt v229 c0_i32_155
  let v234 : BitVec 1 := Scalar.xori v232 v233
  let c0_i32_153 : BitVec 32 := 0#32
  let v231 : BitVec 1 := Scalar.cmpi .ne v230 c0_i32_153
  let v235 : BitVec 1 := Scalar.andi v234 v231
  let v236 : BitVec 32 := Scalar.addi v230 v229
  let v237 : BitVec 32 := Scalar.select v235 v236 v230
  let c384_i32_160 : BitVec 32 := 384#32
  let v245 : BitVec 32 := Scalar.muli v237 c384_i32_160
  let v246 : Index := Scalar.indexCast v245
  let c768_161 : Index := 768#32
  ![v246.toNat, 768]
def k0_dev12 (d0 : Dev nD) : Nat :=
  let c0_i32_181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v43 : BitVec 32 := Scalar.addi v19 c3_i32
  let c4_i32_18 : BitVec 32 := 4#32
  let c0_i32_19 : BitVec 32 := 0#32
  let v44 : BitVec 1 := Scalar.cmpi .eq c4_i32_18 c0_i32_19
  let c1_i32_20 : BitVec 32 := 1#32
  let v45 : BitVec 32 := Scalar.select v44 c1_i32_20 c4_i32_18
  let v46 : BitVec 32 := Scalar.remsi v43 v45
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let c0_i32_21 : BitVec 32 := 0#32
  let v47 : BitVec 1 := Scalar.cmpi .ne v46 c0_i32_21
  let v51 : BitVec 1 := Scalar.andi v50 v47
  let v52 : BitVec 32 := Scalar.addi v46 v45
  let v53 : BitVec 32 := Scalar.select v51 v52 v46
  let c8_i32_24 : BitVec 32 := 8#32
  let v54 : BitVec 32 := Scalar.muli v53 c8_i32_24
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v55 : BitVec 32 := Scalar.addi v54 v29
  let c1_i32_180 : BitVec 32 := 1#32
  let v268 : BitVec 32 := Scalar.muli v55 c1_i32_180
  let v269 : BitVec 32 := Scalar.addi c0_i32_181 v268
  v269.toNat
def k0_dev13 (d0 : Dev nD) : Nat :=
  let c0_i32_193 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v43 : BitVec 32 := Scalar.addi v19 c3_i32
  let c4_i32_18 : BitVec 32 := 4#32
  let c0_i32_19 : BitVec 32 := 0#32
  let v44 : BitVec 1 := Scalar.cmpi .eq c4_i32_18 c0_i32_19
  let c1_i32_20 : BitVec 32 := 1#32
  let v45 : BitVec 32 := Scalar.select v44 c1_i32_20 c4_i32_18
  let v46 : BitVec 32 := Scalar.remsi v43 v45
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let c0_i32_21 : BitVec 32 := 0#32
  let v47 : BitVec 1 := Scalar.cmpi .ne v46 c0_i32_21
  let v51 : BitVec 1 := Scalar.andi v50 v47
  let v52 : BitVec 32 := Scalar.addi v46 v45
  let v53 : BitVec 32 := Scalar.select v51 v52 v46
  let c8_i32_24 : BitVec 32 := 8#32
  let v54 : BitVec 32 := Scalar.muli v53 c8_i32_24
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v55 : BitVec 32 := Scalar.addi v54 v29
  let c1_i32_192 : BitVec 32 := 1#32
  let v278 : BitVec 32 := Scalar.muli v55 c1_i32_192
  let v279 : BitVec 32 := Scalar.addi c0_i32_193 v278
  v279.toNat
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c384_i32_254 : BitVec 32 := 384#32
  let v380 : BitVec 32 := Scalar.muli v19 c384_i32_254
  let v381 : Index := Scalar.indexCast v380
  let c0_255 : Index := 0#32
  ![v381.toNat, 0]
def k0_off5 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c384_i32_259 : BitVec 32 := 384#32
  let v387 : BitVec 32 := Scalar.muli v19 c384_i32_259
  let v388 : Index := Scalar.indexCast v387
  let c0_260 : Index := 0#32
  ![v388.toNat, 0]
def k0_off6 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c384_i32_266 : BitVec 32 := 384#32
  let v399 : BitVec 32 := Scalar.muli v19 c384_i32_266
  let v400 : Index := Scalar.indexCast v399
  let c768_267 : Index := 768#32
  ![v400.toNat, 768]
def k0_off7 (d0 : Dev nD) (c0_i32_269 : BitVec 32) (c0_i32_334 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c6_i32_268 : BitVec 32 := 6#32
  let v404 : BitVec 32 := Scalar.addi v19 c6_i32_268
  let v405 : BitVec 32 := Scalar.subi v404 c0_i32_269
  let c4_i32_270 : BitVec 32 := 4#32
  let c0_i32_271 : BitVec 32 := 0#32
  let v406 : BitVec 1 := Scalar.cmpi .eq c4_i32_270 c0_i32_271
  let c1_i32_272 : BitVec 32 := 1#32
  let v407 : BitVec 32 := Scalar.select v406 c1_i32_272 c4_i32_270
  let v408 : BitVec 32 := Scalar.remsi v405 v407
  let c0_i32_274 : BitVec 32 := 0#32
  let v410 : BitVec 1 := Scalar.cmpi .slt v408 c0_i32_274
  let c0_i32_275 : BitVec 32 := 0#32
  let v411 : BitVec 1 := Scalar.cmpi .slt v407 c0_i32_275
  let v412 : BitVec 1 := Scalar.xori v410 v411
  let c0_i32_273 : BitVec 32 := 0#32
  let v409 : BitVec 1 := Scalar.cmpi .ne v408 c0_i32_273
  let v413 : BitVec 1 := Scalar.andi v412 v409
  let v414 : BitVec 32 := Scalar.addi v408 v407
  let v415 : BitVec 32 := Scalar.select v413 v414 v408
  let c384_i32_333 : BitVec 32 := 384#32
  let v459 : BitVec 32 := Scalar.muli v415 c384_i32_333
  let v460 : BitVec 32 := Scalar.addi v459 c0_i32_334
  let v461 : Index := Scalar.indexCast v460
  let c0_335 : Index := 0#32
  ![v461.toNat, 0]
def k0_off8 (d0 : Dev nD) (c0_i32_277 : BitVec 32) (c0_i32_343 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_276 : BitVec 32 := 2#32
  let v416 : BitVec 32 := Scalar.addi v19 c2_i32_276
  let v417 : BitVec 32 := Scalar.addi v416 c0_i32_277
  let c4_i32_278 : BitVec 32 := 4#32
  let c0_i32_279 : BitVec 32 := 0#32
  let v418 : BitVec 1 := Scalar.cmpi .eq c4_i32_278 c0_i32_279
  let c1_i32_280 : BitVec 32 := 1#32
  let v419 : BitVec 32 := Scalar.select v418 c1_i32_280 c4_i32_278
  let v420 : BitVec 32 := Scalar.remsi v417 v419
  let c0_i32_282 : BitVec 32 := 0#32
  let v422 : BitVec 1 := Scalar.cmpi .slt v420 c0_i32_282
  let c0_i32_283 : BitVec 32 := 0#32
  let v423 : BitVec 1 := Scalar.cmpi .slt v419 c0_i32_283
  let v424 : BitVec 1 := Scalar.xori v422 v423
  let c0_i32_281 : BitVec 32 := 0#32
  let v421 : BitVec 1 := Scalar.cmpi .ne v420 c0_i32_281
  let v425 : BitVec 1 := Scalar.andi v424 v421
  let v426 : BitVec 32 := Scalar.addi v420 v419
  let v427 : BitVec 32 := Scalar.select v425 v426 v420
  let c384_i32_342 : BitVec 32 := 384#32
  let v471 : BitVec 32 := Scalar.muli v427 c384_i32_342
  let v472 : BitVec 32 := Scalar.addi v471 c0_i32_343
  let v473 : Index := Scalar.indexCast v472
  let c768_344 : Index := 768#32
  ![v473.toNat, 768]
def k0_dev14 (d0 : Dev nD) : Nat :=
  let c0_i32_355 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_11 : BitVec 32 := 1#32
  let v30 : BitVec 32 := Scalar.addi v19 c1_i32_11
  let c4_i32 : BitVec 32 := 4#32
  let c0_i32_12 : BitVec 32 := 0#32
  let v31 : BitVec 1 := Scalar.cmpi .eq c4_i32 c0_i32_12
  let c1_i32_13 : BitVec 32 := 1#32
  let v32 : BitVec 32 := Scalar.select v31 c1_i32_13 c4_i32
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c8_i32_17 : BitVec 32 := 8#32
  let v41 : BitVec 32 := Scalar.muli v40 c8_i32_17
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v42 : BitVec 32 := Scalar.addi v41 v29
  let c1_i32_354 : BitVec 32 := 1#32
  let v480 : BitVec 32 := Scalar.muli v42 c1_i32_354
  let v481 : BitVec 32 := Scalar.addi c0_i32_355 v480
  v481.toNat
def k0_dev15 (d0 : Dev nD) : Nat :=
  let c0_i32_367 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v43 : BitVec 32 := Scalar.addi v19 c3_i32
  let c4_i32_18 : BitVec 32 := 4#32
  let c0_i32_19 : BitVec 32 := 0#32
  let v44 : BitVec 1 := Scalar.cmpi .eq c4_i32_18 c0_i32_19
  let c1_i32_20 : BitVec 32 := 1#32
  let v45 : BitVec 32 := Scalar.select v44 c1_i32_20 c4_i32_18
  let v46 : BitVec 32 := Scalar.remsi v43 v45
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let c0_i32_21 : BitVec 32 := 0#32
  let v47 : BitVec 1 := Scalar.cmpi .ne v46 c0_i32_21
  let v51 : BitVec 1 := Scalar.andi v50 v47
  let v52 : BitVec 32 := Scalar.addi v46 v45
  let v53 : BitVec 32 := Scalar.select v51 v52 v46
  let c8_i32_24 : BitVec 32 := 8#32
  let v54 : BitVec 32 := Scalar.muli v53 c8_i32_24
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v55 : BitVec 32 := Scalar.addi v54 v29
  let c1_i32_366 : BitVec 32 := 1#32
  let v490 : BitVec 32 := Scalar.muli v55 c1_i32_366
  let v491 : BitVec 32 := Scalar.addi c0_i32_367 v490
  v491.toNat
def k0_dev16 (d0 : Dev nD) : Nat :=
  let c0_i32_442 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_11 : BitVec 32 := 1#32
  let v30 : BitVec 32 := Scalar.addi v19 c1_i32_11
  let c4_i32 : BitVec 32 := 4#32
  let c0_i32_12 : BitVec 32 := 0#32
  let v31 : BitVec 1 := Scalar.cmpi .eq c4_i32 c0_i32_12
  let c1_i32_13 : BitVec 32 := 1#32
  let v32 : BitVec 32 := Scalar.select v31 c1_i32_13 c4_i32
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c8_i32_17 : BitVec 32 := 8#32
  let v41 : BitVec 32 := Scalar.muli v40 c8_i32_17
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v42 : BitVec 32 := Scalar.addi v41 v29
  let c1_i32_441 : BitVec 32 := 1#32
  let v552 : BitVec 32 := Scalar.muli v42 c1_i32_441
  let v553 : BitVec 32 := Scalar.addi c0_i32_442 v552
  v553.toNat
def k0_dev17 (d0 : Dev nD) : Nat :=
  let c0_i32_454 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v43 : BitVec 32 := Scalar.addi v19 c3_i32
  let c4_i32_18 : BitVec 32 := 4#32
  let c0_i32_19 : BitVec 32 := 0#32
  let v44 : BitVec 1 := Scalar.cmpi .eq c4_i32_18 c0_i32_19
  let c1_i32_20 : BitVec 32 := 1#32
  let v45 : BitVec 32 := Scalar.select v44 c1_i32_20 c4_i32_18
  let v46 : BitVec 32 := Scalar.remsi v43 v45
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let c0_i32_21 : BitVec 32 := 0#32
  let v47 : BitVec 1 := Scalar.cmpi .ne v46 c0_i32_21
  let v51 : BitVec 1 := Scalar.andi v50 v47
  let v52 : BitVec 32 := Scalar.addi v46 v45
  let v53 : BitVec 32 := Scalar.select v51 v52 v46
  let c8_i32_24 : BitVec 32 := 8#32
  let v54 : BitVec 32 := Scalar.muli v53 c8_i32_24
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v55 : BitVec 32 := Scalar.addi v54 v29
  let c1_i32_453 : BitVec 32 := 1#32
  let v562 : BitVec 32 := Scalar.muli v55 c1_i32_453
  let v563 : BitVec 32 := Scalar.addi c0_i32_454 v562
  v563.toNat
def k0_dev18 (d0 : Dev nD) : Nat :=
  let c0_i32_545 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_11 : BitVec 32 := 1#32
  let v30 : BitVec 32 := Scalar.addi v19 c1_i32_11
  let c4_i32 : BitVec 32 := 4#32
  let c0_i32_12 : BitVec 32 := 0#32
  let v31 : BitVec 1 := Scalar.cmpi .eq c4_i32 c0_i32_12
  let c1_i32_13 : BitVec 32 := 1#32
  let v32 : BitVec 32 := Scalar.select v31 c1_i32_13 c4_i32
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c8_i32_17 : BitVec 32 := 8#32
  let v41 : BitVec 32 := Scalar.muli v40 c8_i32_17
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v42 : BitVec 32 := Scalar.addi v41 v29
  let c1_i32_544 : BitVec 32 := 1#32
  let v648 : BitVec 32 := Scalar.muli v42 c1_i32_544
  let v649 : BitVec 32 := Scalar.addi c0_i32_545 v648
  v649.toNat
def k0_dev19 (d0 : Dev nD) : Nat :=
  let c0_i32_557 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v43 : BitVec 32 := Scalar.addi v19 c3_i32
  let c4_i32_18 : BitVec 32 := 4#32
  let c0_i32_19 : BitVec 32 := 0#32
  let v44 : BitVec 1 := Scalar.cmpi .eq c4_i32_18 c0_i32_19
  let c1_i32_20 : BitVec 32 := 1#32
  let v45 : BitVec 32 := Scalar.select v44 c1_i32_20 c4_i32_18
  let v46 : BitVec 32 := Scalar.remsi v43 v45
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let c0_i32_21 : BitVec 32 := 0#32
  let v47 : BitVec 1 := Scalar.cmpi .ne v46 c0_i32_21
  let v51 : BitVec 1 := Scalar.andi v50 v47
  let v52 : BitVec 32 := Scalar.addi v46 v45
  let v53 : BitVec 32 := Scalar.select v51 v52 v46
  let c8_i32_24 : BitVec 32 := 8#32
  let v54 : BitVec 32 := Scalar.muli v53 c8_i32_24
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v55 : BitVec 32 := Scalar.addi v54 v29
  let c1_i32_556 : BitVec 32 := 1#32
  let v658 : BitVec 32 := Scalar.muli v55 c1_i32_556
  let v659 : BitVec 32 := Scalar.addi c0_i32_557 v658
  v659.toNat
def k0_dev20 (d0 : Dev nD) : Nat :=
  let c0_i32_633 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_11 : BitVec 32 := 1#32
  let v30 : BitVec 32 := Scalar.addi v19 c1_i32_11
  let c4_i32 : BitVec 32 := 4#32
  let c0_i32_12 : BitVec 32 := 0#32
  let v31 : BitVec 1 := Scalar.cmpi .eq c4_i32 c0_i32_12
  let c1_i32_13 : BitVec 32 := 1#32
  let v32 : BitVec 32 := Scalar.select v31 c1_i32_13 c4_i32
  let v33 : BitVec 32 := Scalar.remsi v30 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let c8_i32_17 : BitVec 32 := 8#32
  let v41 : BitVec 32 := Scalar.muli v40 c8_i32_17
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v42 : BitVec 32 := Scalar.addi v41 v29
  let c1_i32_632 : BitVec 32 := 1#32
  let v720 : BitVec 32 := Scalar.muli v42 c1_i32_632
  let v721 : BitVec 32 := Scalar.addi c0_i32_633 v720
  v721.toNat
def k0_dev21 (d0 : Dev nD) : Nat :=
  let c0_i32_645 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v43 : BitVec 32 := Scalar.addi v19 c3_i32
  let c4_i32_18 : BitVec 32 := 4#32
  let c0_i32_19 : BitVec 32 := 0#32
  let v44 : BitVec 1 := Scalar.cmpi .eq c4_i32_18 c0_i32_19
  let c1_i32_20 : BitVec 32 := 1#32
  let v45 : BitVec 32 := Scalar.select v44 c1_i32_20 c4_i32_18
  let v46 : BitVec 32 := Scalar.remsi v43 v45
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let c0_i32_21 : BitVec 32 := 0#32
  let v47 : BitVec 1 := Scalar.cmpi .ne v46 c0_i32_21
  let v51 : BitVec 1 := Scalar.andi v50 v47
  let v52 : BitVec 32 := Scalar.addi v46 v45
  let v53 : BitVec 32 := Scalar.select v51 v52 v46
  let c8_i32_24 : BitVec 32 := 8#32
  let v54 : BitVec 32 := Scalar.muli v53 c8_i32_24
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v55 : BitVec 32 := Scalar.addi v54 v29
  let c1_i32_644 : BitVec 32 := 1#32
  let v730 : BitVec 32 := Scalar.muli v55 c1_i32_644
  let v731 : BitVec 32 := Scalar.addi c0_i32_645 v730
  v731.toNat
def k0_off9 (d0 : Dev nD) (c0_i32_699 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c384_i32_698 : BitVec 32 := 384#32
  let v771 : BitVec 32 := Scalar.muli v19 c384_i32_698
  let v772 : BitVec 32 := Scalar.addi v771 c0_i32_699
  let v773 : Index := Scalar.indexCast v772
  let c0_700 : Index := 0#32
  ![v773.toNat, 0]
def k0_off10 (d0 : Dev nD) (c0_i32_707 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c384_i32_706 : BitVec 32 := 384#32
  let v782 : BitVec 32 := Scalar.muli v19 c384_i32_706
  let v783 : BitVec 32 := Scalar.addi v782 c0_i32_707
  let v784 : Index := Scalar.indexCast v783
  let c768_708 : Index := 768#32
  ![v784.toNat, 768]
def k0_off11 (d0 : Dev nD) (c1_i32_781 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v850 : BitVec 32 := Scalar.addi v29 c1_i32_781
  let c8_i32_782 : BitVec 32 := 8#32
  let c0_i32_783 : BitVec 32 := 0#32
  let v851 : BitVec 1 := Scalar.cmpi .eq c8_i32_782 c0_i32_783
  let c1_i32_784 : BitVec 32 := 1#32
  let v852 : BitVec 32 := Scalar.select v851 c1_i32_784 c8_i32_782
  let v853 : BitVec 32 := Scalar.remsi v850 v852
  let c0_i32_786 : BitVec 32 := 0#32
  let v855 : BitVec 1 := Scalar.cmpi .slt v853 c0_i32_786
  let c0_i32_787 : BitVec 32 := 0#32
  let v856 : BitVec 1 := Scalar.cmpi .slt v852 c0_i32_787
  let v857 : BitVec 1 := Scalar.xori v855 v856
  let c0_i32_785 : BitVec 32 := 0#32
  let v854 : BitVec 1 := Scalar.cmpi .ne v853 c0_i32_785
  let v858 : BitVec 1 := Scalar.andi v857 v854
  let v859 : BitVec 32 := Scalar.addi v853 v852
  let v860 : BitVec 32 := Scalar.select v858 v859 v853
  let c48_i32 : BitVec 32 := 48#32
  let v861 : BitVec 32 := Scalar.muli v860 c48_i32
  let c0_i32_796 : BitVec 32 := 0#32
  ![v861.toNat, 0]
def k0_dev22 (d0 : Dev nD) : Nat :=
  let c0_i32_793 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_788 : BitVec 32 := 8#32
  let v862 : BitVec 32 := Scalar.muli v19 c8_i32_788
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_781 : BitVec 32 := 1#32
  let v850 : BitVec 32 := Scalar.addi v29 c1_i32_781
  let c8_i32_782 : BitVec 32 := 8#32
  let c0_i32_783 : BitVec 32 := 0#32
  let v851 : BitVec 1 := Scalar.cmpi .eq c8_i32_782 c0_i32_783
  let c1_i32_784 : BitVec 32 := 1#32
  let v852 : BitVec 32 := Scalar.select v851 c1_i32_784 c8_i32_782
  let v853 : BitVec 32 := Scalar.remsi v850 v852
  let c0_i32_786 : BitVec 32 := 0#32
  let v855 : BitVec 1 := Scalar.cmpi .slt v853 c0_i32_786
  let c0_i32_787 : BitVec 32 := 0#32
  let v856 : BitVec 1 := Scalar.cmpi .slt v852 c0_i32_787
  let v857 : BitVec 1 := Scalar.xori v855 v856
  let c0_i32_785 : BitVec 32 := 0#32
  let v854 : BitVec 1 := Scalar.cmpi .ne v853 c0_i32_785
  let v858 : BitVec 1 := Scalar.andi v857 v854
  let v859 : BitVec 32 := Scalar.addi v853 v852
  let v860 : BitVec 32 := Scalar.select v858 v859 v853
  let v863 : BitVec 32 := Scalar.addi v862 v860
  let c1_i32_792 : BitVec 32 := 1#32
  let v864 : BitVec 32 := Scalar.muli v863 c1_i32_792
  let v865 : BitVec 32 := Scalar.addi c0_i32_793 v864
  v865.toNat
def k0_dev23 (d0 : Dev nD) : Nat :=
  let c0_i32_810 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_805 : BitVec 32 := 8#32
  let v885 : BitVec 32 := Scalar.muli v19 c8_i32_805
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_797 : BitVec 32 := 2#32
  let v873 : BitVec 32 := Scalar.addi v29 c2_i32_797
  let c8_i32_798 : BitVec 32 := 8#32
  let c0_i32_799 : BitVec 32 := 0#32
  let v874 : BitVec 1 := Scalar.cmpi .eq c8_i32_798 c0_i32_799
  let c1_i32_800 : BitVec 32 := 1#32
  let v875 : BitVec 32 := Scalar.select v874 c1_i32_800 c8_i32_798
  let v876 : BitVec 32 := Scalar.remsi v873 v875
  let c0_i32_802 : BitVec 32 := 0#32
  let v878 : BitVec 1 := Scalar.cmpi .slt v876 c0_i32_802
  let c0_i32_803 : BitVec 32 := 0#32
  let v879 : BitVec 1 := Scalar.cmpi .slt v875 c0_i32_803
  let v880 : BitVec 1 := Scalar.xori v878 v879
  let c0_i32_801 : BitVec 32 := 0#32
  let v877 : BitVec 1 := Scalar.cmpi .ne v876 c0_i32_801
  let v881 : BitVec 1 := Scalar.andi v880 v877
  let v882 : BitVec 32 := Scalar.addi v876 v875
  let v883 : BitVec 32 := Scalar.select v881 v882 v876
  let v886 : BitVec 32 := Scalar.addi v885 v883
  let c1_i32_809 : BitVec 32 := 1#32
  let v887 : BitVec 32 := Scalar.muli v886 c1_i32_809
  let v888 : BitVec 32 := Scalar.addi c0_i32_810 v887
  v888.toNat
def k0_dev24 (d0 : Dev nD) : Nat :=
  let c0_i32_827 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_822 : BitVec 32 := 8#32
  let v908 : BitVec 32 := Scalar.muli v19 c8_i32_822
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_814 : BitVec 32 := 3#32
  let v896 : BitVec 32 := Scalar.addi v29 c3_i32_814
  let c8_i32_815 : BitVec 32 := 8#32
  let c0_i32_816 : BitVec 32 := 0#32
  let v897 : BitVec 1 := Scalar.cmpi .eq c8_i32_815 c0_i32_816
  let c1_i32_817 : BitVec 32 := 1#32
  let v898 : BitVec 32 := Scalar.select v897 c1_i32_817 c8_i32_815
  let v899 : BitVec 32 := Scalar.remsi v896 v898
  let c0_i32_819 : BitVec 32 := 0#32
  let v901 : BitVec 1 := Scalar.cmpi .slt v899 c0_i32_819
  let c0_i32_820 : BitVec 32 := 0#32
  let v902 : BitVec 1 := Scalar.cmpi .slt v898 c0_i32_820
  let v903 : BitVec 1 := Scalar.xori v901 v902
  let c0_i32_818 : BitVec 32 := 0#32
  let v900 : BitVec 1 := Scalar.cmpi .ne v899 c0_i32_818
  let v904 : BitVec 1 := Scalar.andi v903 v900
  let v905 : BitVec 32 := Scalar.addi v899 v898
  let v906 : BitVec 32 := Scalar.select v904 v905 v899
  let v909 : BitVec 32 := Scalar.addi v908 v906
  let c1_i32_826 : BitVec 32 := 1#32
  let v910 : BitVec 32 := Scalar.muli v909 c1_i32_826
  let v911 : BitVec 32 := Scalar.addi c0_i32_827 v910
  v911.toNat
def k0_dev25 (d0 : Dev nD) : Nat :=
  let c0_i32_844 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_839 : BitVec 32 := 8#32
  let v931 : BitVec 32 := Scalar.muli v19 c8_i32_839
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_831 : BitVec 32 := 4#32
  let v919 : BitVec 32 := Scalar.addi v29 c4_i32_831
  let c8_i32_832 : BitVec 32 := 8#32
  let c0_i32_833 : BitVec 32 := 0#32
  let v920 : BitVec 1 := Scalar.cmpi .eq c8_i32_832 c0_i32_833
  let c1_i32_834 : BitVec 32 := 1#32
  let v921 : BitVec 32 := Scalar.select v920 c1_i32_834 c8_i32_832
  let v922 : BitVec 32 := Scalar.remsi v919 v921
  let c0_i32_836 : BitVec 32 := 0#32
  let v924 : BitVec 1 := Scalar.cmpi .slt v922 c0_i32_836
  let c0_i32_837 : BitVec 32 := 0#32
  let v925 : BitVec 1 := Scalar.cmpi .slt v921 c0_i32_837
  let v926 : BitVec 1 := Scalar.xori v924 v925
  let c0_i32_835 : BitVec 32 := 0#32
  let v923 : BitVec 1 := Scalar.cmpi .ne v922 c0_i32_835
  let v927 : BitVec 1 := Scalar.andi v926 v923
  let v928 : BitVec 32 := Scalar.addi v922 v921
  let v929 : BitVec 32 := Scalar.select v927 v928 v922
  let v932 : BitVec 32 := Scalar.addi v931 v929
  let c1_i32_843 : BitVec 32 := 1#32
  let v933 : BitVec 32 := Scalar.muli v932 c1_i32_843
  let v934 : BitVec 32 := Scalar.addi c0_i32_844 v933
  v934.toNat
def k0_dev26 (d0 : Dev nD) : Nat :=
  let c0_i32_861 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_856 : BitVec 32 := 8#32
  let v954 : BitVec 32 := Scalar.muli v19 c8_i32_856
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c5_i32_848 : BitVec 32 := 5#32
  let v942 : BitVec 32 := Scalar.addi v29 c5_i32_848
  let c8_i32_849 : BitVec 32 := 8#32
  let c0_i32_850 : BitVec 32 := 0#32
  let v943 : BitVec 1 := Scalar.cmpi .eq c8_i32_849 c0_i32_850
  let c1_i32_851 : BitVec 32 := 1#32
  let v944 : BitVec 32 := Scalar.select v943 c1_i32_851 c8_i32_849
  let v945 : BitVec 32 := Scalar.remsi v942 v944
  let c0_i32_853 : BitVec 32 := 0#32
  let v947 : BitVec 1 := Scalar.cmpi .slt v945 c0_i32_853
  let c0_i32_854 : BitVec 32 := 0#32
  let v948 : BitVec 1 := Scalar.cmpi .slt v944 c0_i32_854
  let v949 : BitVec 1 := Scalar.xori v947 v948
  let c0_i32_852 : BitVec 32 := 0#32
  let v946 : BitVec 1 := Scalar.cmpi .ne v945 c0_i32_852
  let v950 : BitVec 1 := Scalar.andi v949 v946
  let v951 : BitVec 32 := Scalar.addi v945 v944
  let v952 : BitVec 32 := Scalar.select v950 v951 v945
  let v955 : BitVec 32 := Scalar.addi v954 v952
  let c1_i32_860 : BitVec 32 := 1#32
  let v956 : BitVec 32 := Scalar.muli v955 c1_i32_860
  let v957 : BitVec 32 := Scalar.addi c0_i32_861 v956
  v957.toNat
def k0_dev27 (d0 : Dev nD) : Nat :=
  let c0_i32_878 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_873 : BitVec 32 := 8#32
  let v977 : BitVec 32 := Scalar.muli v19 c8_i32_873
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c6_i32_865 : BitVec 32 := 6#32
  let v965 : BitVec 32 := Scalar.addi v29 c6_i32_865
  let c8_i32_866 : BitVec 32 := 8#32
  let c0_i32_867 : BitVec 32 := 0#32
  let v966 : BitVec 1 := Scalar.cmpi .eq c8_i32_866 c0_i32_867
  let c1_i32_868 : BitVec 32 := 1#32
  let v967 : BitVec 32 := Scalar.select v966 c1_i32_868 c8_i32_866
  let v968 : BitVec 32 := Scalar.remsi v965 v967
  let c0_i32_870 : BitVec 32 := 0#32
  let v970 : BitVec 1 := Scalar.cmpi .slt v968 c0_i32_870
  let c0_i32_871 : BitVec 32 := 0#32
  let v971 : BitVec 1 := Scalar.cmpi .slt v967 c0_i32_871
  let v972 : BitVec 1 := Scalar.xori v970 v971
  let c0_i32_869 : BitVec 32 := 0#32
  let v969 : BitVec 1 := Scalar.cmpi .ne v968 c0_i32_869
  let v973 : BitVec 1 := Scalar.andi v972 v969
  let v974 : BitVec 32 := Scalar.addi v968 v967
  let v975 : BitVec 32 := Scalar.select v973 v974 v968
  let v978 : BitVec 32 := Scalar.addi v977 v975
  let c1_i32_877 : BitVec 32 := 1#32
  let v979 : BitVec 32 := Scalar.muli v978 c1_i32_877
  let v980 : BitVec 32 := Scalar.addi c0_i32_878 v979
  v980.toNat
def k0_dev28 (d0 : Dev nD) : Nat :=
  let c0_i32_895 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_890 : BitVec 32 := 8#32
  let v1000 : BitVec 32 := Scalar.muli v19 c8_i32_890
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_882 : BitVec 32 := 7#32
  let v988 : BitVec 32 := Scalar.addi v29 c7_i32_882
  let c8_i32_883 : BitVec 32 := 8#32
  let c0_i32_884 : BitVec 32 := 0#32
  let v989 : BitVec 1 := Scalar.cmpi .eq c8_i32_883 c0_i32_884
  let c1_i32_885 : BitVec 32 := 1#32
  let v990 : BitVec 32 := Scalar.select v989 c1_i32_885 c8_i32_883
  let v991 : BitVec 32 := Scalar.remsi v988 v990
  let c0_i32_887 : BitVec 32 := 0#32
  let v993 : BitVec 1 := Scalar.cmpi .slt v991 c0_i32_887
  let c0_i32_888 : BitVec 32 := 0#32
  let v994 : BitVec 1 := Scalar.cmpi .slt v990 c0_i32_888
  let v995 : BitVec 1 := Scalar.xori v993 v994
  let c0_i32_886 : BitVec 32 := 0#32
  let v992 : BitVec 1 := Scalar.cmpi .ne v991 c0_i32_886
  let v996 : BitVec 1 := Scalar.andi v995 v992
  let v997 : BitVec 32 := Scalar.addi v991 v990
  let v998 : BitVec 32 := Scalar.select v996 v997 v991
  let v1001 : BitVec 32 := Scalar.addi v1000 v998
  let c1_i32_894 : BitVec 32 := 1#32
  let v1002 : BitVec 32 := Scalar.muli v1001 c1_i32_894
  let v1003 : BitVec 32 := Scalar.addi c0_i32_895 v1002
  v1003.toNat
def k0_off12 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c48_i32_899 : BitVec 32 := 48#32
  let v1011 : BitVec 32 := Scalar.muli v29 c48_i32_899
  let v1012 : Index := Scalar.indexCast v1011
  let c0_900 : Index := 0#32
  ![v1012.toNat, 0]
abbrev stage0_0 : Fin 1 → Memref sig .tc .vmem S1536x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S48x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  hamt_1 : (1#32 : BitVec 32).msb = false
  hamt_9 : (9#32 : BitVec 32).msb = false
  h_S384x768 : 0 < S384x768.numel
  shapeCasts_S384x768_S384x768 : S384x768.ShapeCasts S384x768
  inb_S768x1536_S768x768_0_0 : ∀ a, (![0, 0] : Fin 2 → Nat) a + S768x768.size a ≤ S768x1536.size a
  h_S768x768 : 0 < S768x768.numel
  shapeCasts_S768x768_S768x768 : S768x768.ShapeCasts S768x768
  bitsLt_bf16_f32 : FTy.bits .bf16 < FTy.bits .f32
  inb_S4x384x768_S1x384x768_3_0_0 : ∀ a, (![3, 0, 0] : Fin 3 → Nat) a + S1x384x768.size a ≤ S4x384x768.size a
  h_S1x384x768 : 0 < S1x384x768.numel
  shapeCasts_S1x384x768_S384x768 : S1x384x768.ShapeCasts S384x768
  shapeCasts_S384x768_S1x384x768 : S384x768.ShapeCasts S1x384x768
  packedbf16_S4x384x768_S1x384x768_3_0_0 : (Rect.unit (s := S4x384x768) ![3, 0, 0] S1x384x768.size inb_S4x384x768_S1x384x768_3_0_0).PackedRows (EltTy.packing .bf16)
  inb_S3x4_S1x1_0_0 : ∀ a, (![0, 0] : Fin 2 → Nat) a + S1x1.size a ≤ S3x4.size a
  squeezes_S1x1_S_ : S1x1.Squeezes S_
  inb_S4x384x768_S1x192x768_0_0_0 : ∀ a, (![0, 0, 0] : Fin 3 → Nat) a + S1x192x768.size a ≤ S4x384x768.size a
  squeezes_S1x192x768_S192x768 : S1x192x768.Squeezes S192x768
  inb_S4x384x768_S1x192x768_3_0_0 : ∀ a, (![3, 0, 0] : Fin 3 → Nat) a + S1x192x768.size a ≤ S4x384x768.size a
  wordsbf16_S4x384x768_S1x192x768_3_0_0 : (Rect.unit (s := S4x384x768) ![3, 0, 0] S1x192x768.size inb_S4x384x768_S1x192x768_3_0_0).WholeWords (EltTy.packing .bf16)
  wordsbf16_S4x384x768_S1x192x768_0_0_0 : (Rect.unit (s := S4x384x768) ![0, 0, 0] S1x192x768.size inb_S4x384x768_S1x192x768_0_0_0).WholeWords (EltTy.packing .bf16)
  inb_S3x4_S1x1_0_1 : ∀ a, (![0, 1] : Fin 2 → Nat) a + S1x1.size a ≤ S3x4.size a
  inb_S4x384x768_S1x192x768_0_192_0 : ∀ a, (![0, 192, 0] : Fin 3 → Nat) a + S1x192x768.size a ≤ S4x384x768.size a
  inb_S4x384x768_S1x192x768_3_192_0 : ∀ a, (![3, 192, 0] : Fin 3 → Nat) a + S1x192x768.size a ≤ S4x384x768.size a
  wordsbf16_S4x384x768_S1x192x768_3_192_0 : (Rect.unit (s := S4x384x768) ![3, 192, 0] S1x192x768.size inb_S4x384x768_S1x192x768_3_192_0).WholeWords (EltTy.packing .bf16)
  wordsbf16_S4x384x768_S1x192x768_0_192_0 : (Rect.unit (s := S4x384x768) ![0, 192, 0] S1x192x768.size inb_S4x384x768_S1x192x768_0_192_0).WholeWords (EltTy.packing .bf16)
  inb_S768x1536_S768x768_0_768 : ∀ a, (![0, 768] : Fin 2 → Nat) a + S768x768.size a ≤ S768x1536.size a
  h_S1x192x768 : 0 < S1x192x768.numel
  shapeCasts_S1x192x768_S192x768 : S1x192x768.ShapeCasts S192x768
  h_S192x768 : 0 < S192x768.numel
  shapeCasts_S192x768_S1x192x768 : S192x768.ShapeCasts S1x192x768
  packedbf16_S4x384x768_S1x192x768_0_0_0 : (Rect.unit (s := S4x384x768) ![0, 0, 0] S1x192x768.size inb_S4x384x768_S1x192x768_0_0_0).PackedRows (EltTy.packing .bf16)
  inb_S3x4_S1x1_1_0 : ∀ a, (![1, 0] : Fin 2 → Nat) a + S1x1.size a ≤ S3x4.size a
  inb_S4x384x768_S1x192x768_1_0_0 : ∀ a, (![1, 0, 0] : Fin 3 → Nat) a + S1x192x768.size a ≤ S4x384x768.size a
  wordsbf16_S4x384x768_S1x192x768_1_0_0 : (Rect.unit (s := S4x384x768) ![1, 0, 0] S1x192x768.size inb_S4x384x768_S1x192x768_1_0_0).WholeWords (EltTy.packing .bf16)
  packedbf16_S4x384x768_S1x192x768_0_192_0 : (Rect.unit (s := S4x384x768) ![0, 192, 0] S1x192x768.size inb_S4x384x768_S1x192x768_0_192_0).PackedRows (EltTy.packing .bf16)
  inb_S3x4_S1x1_1_1 : ∀ a, (![1, 1] : Fin 2 → Nat) a + S1x1.size a ≤ S3x4.size a
  inb_S4x384x768_S1x192x768_1_192_0 : ∀ a, (![1, 192, 0] : Fin 3 → Nat) a + S1x192x768.size a ≤ S4x384x768.size a
  wordsbf16_S4x384x768_S1x192x768_1_192_0 : (Rect.unit (s := S4x384x768) ![1, 192, 0] S1x192x768.size inb_S4x384x768_S1x192x768_1_192_0).WholeWords (EltTy.packing .bf16)
  packedbf16_S4x384x768_S1x192x768_1_0_0 : (Rect.unit (s := S4x384x768) ![1, 0, 0] S1x192x768.size inb_S4x384x768_S1x192x768_1_0_0).PackedRows (EltTy.packing .bf16)
  inb_S3x4_S1x1_2_0 : ∀ a, (![2, 0] : Fin 2 → Nat) a + S1x1.size a ≤ S3x4.size a
  inb_S4x384x768_S1x192x768_2_0_0 : ∀ a, (![2, 0, 0] : Fin 3 → Nat) a + S1x192x768.size a ≤ S4x384x768.size a
  wordsbf16_S4x384x768_S1x192x768_2_0_0 : (Rect.unit (s := S4x384x768) ![2, 0, 0] S1x192x768.size inb_S4x384x768_S1x192x768_2_0_0).WholeWords (EltTy.packing .bf16)
  packedbf16_S4x384x768_S1x192x768_1_192_0 : (Rect.unit (s := S4x384x768) ![1, 192, 0] S1x192x768.size inb_S4x384x768_S1x192x768_1_192_0).PackedRows (EltTy.packing .bf16)
  inb_S3x4_S1x1_2_1 : ∀ a, (![2, 1] : Fin 2 → Nat) a + S1x1.size a ≤ S3x4.size a
  inb_S4x384x768_S1x192x768_2_192_0 : ∀ a, (![2, 192, 0] : Fin 3 → Nat) a + S1x192x768.size a ≤ S4x384x768.size a
  wordsbf16_S4x384x768_S1x192x768_2_192_0 : (Rect.unit (s := S4x384x768) ![2, 192, 0] S1x192x768.size inb_S4x384x768_S1x192x768_2_192_0).WholeWords (EltTy.packing .bf16)
  inb_S384x1536_S192x768_0_0 : ∀ a, (![0, 0] : Fin 2 → Nat) a + S192x768.size a ≤ S384x1536.size a
  shapeCasts_S192x768_S192x768 : S192x768.ShapeCasts S192x768
  inb_S384x1536_S192x768_0_768 : ∀ a, (![0, 768] : Fin 2 → Nat) a + S192x768.size a ≤ S384x1536.size a
  inb_S384x1536_S192x1536_0_0 : ∀ a, (![0, 0] : Fin 2 → Nat) a + S192x1536.size a ≤ S384x1536.size a
  h_S192x1536 : 0 < S192x1536.numel
  shapeCasts_S192x1536_S192x1536 : S192x1536.ShapeCasts S192x1536
  packedbf16_S384x1536_S192x1536_0_0 : (Rect.unit (s := S384x1536) ![0, 0] S192x1536.size inb_S384x1536_S192x1536_0_0).PackedRows (EltTy.packing .bf16)
  inb_S384x1536_S192x768_192_0 : ∀ a, (![192, 0] : Fin 2 → Nat) a + S192x768.size a ≤ S384x1536.size a
  inb_S384x1536_S192x768_192_768 : ∀ a, (![192, 768] : Fin 2 → Nat) a + S192x768.size a ≤ S384x1536.size a
  inb_S384x1536_S192x1536_192_0 : ∀ a, (![192, 0] : Fin 2 → Nat) a + S192x1536.size a ≤ S384x1536.size a
  packedbf16_S384x1536_S192x1536_192_0 : (Rect.unit (s := S384x1536) ![192, 0] S192x1536.size inb_S384x1536_S192x1536_192_0).PackedRows (EltTy.packing .bf16)
  inb_S7_S1_0 : ∀ a, (![0] : Fin 1 → Nat) a + S1.size a ≤ S7.size a
  squeezes_S1_S_ : S1.Squeezes S_
  inb_S7x48x1536_S1x48x1536_0_0_0 : ∀ a, (![0, 0, 0] : Fin 3 → Nat) a + S1x48x1536.size a ≤ S7x48x1536.size a
  squeezes_S1x48x1536_S48x1536 : S1x48x1536.Squeezes S48x1536
  wordsbf16_S7x48x1536_S1x48x1536_0_0_0 : (Rect.unit (s := S7x48x1536) ![0, 0, 0] S1x48x1536.size inb_S7x48x1536_S1x48x1536_0_0_0).WholeWords (EltTy.packing .bf16)
  inb_S7_S1_1 : ∀ a, (![1] : Fin 1 → Nat) a + S1.size a ≤ S7.size a
  inb_S7x48x1536_S1x48x1536_1_0_0 : ∀ a, (![1, 0, 0] : Fin 3 → Nat) a + S1x48x1536.size a ≤ S7x48x1536.size a
  wordsbf16_S7x48x1536_S1x48x1536_1_0_0 : (Rect.unit (s := S7x48x1536) ![1, 0, 0] S1x48x1536.size inb_S7x48x1536_S1x48x1536_1_0_0).WholeWords (EltTy.packing .bf16)
  inb_S7_S1_2 : ∀ a, (![2] : Fin 1 → Nat) a + S1.size a ≤ S7.size a
  inb_S7x48x1536_S1x48x1536_2_0_0 : ∀ a, (![2, 0, 0] : Fin 3 → Nat) a + S1x48x1536.size a ≤ S7x48x1536.size a
  wordsbf16_S7x48x1536_S1x48x1536_2_0_0 : (Rect.unit (s := S7x48x1536) ![2, 0, 0] S1x48x1536.size inb_S7x48x1536_S1x48x1536_2_0_0).WholeWords (EltTy.packing .bf16)
  inb_S7_S1_3 : ∀ a, (![3] : Fin 1 → Nat) a + S1.size a ≤ S7.size a
  inb_S7x48x1536_S1x48x1536_3_0_0 : ∀ a, (![3, 0, 0] : Fin 3 → Nat) a + S1x48x1536.size a ≤ S7x48x1536.size a
  wordsbf16_S7x48x1536_S1x48x1536_3_0_0 : (Rect.unit (s := S7x48x1536) ![3, 0, 0] S1x48x1536.size inb_S7x48x1536_S1x48x1536_3_0_0).WholeWords (EltTy.packing .bf16)
  inb_S7_S1_4 : ∀ a, (![4] : Fin 1 → Nat) a + S1.size a ≤ S7.size a
  inb_S7x48x1536_S1x48x1536_4_0_0 : ∀ a, (![4, 0, 0] : Fin 3 → Nat) a + S1x48x1536.size a ≤ S7x48x1536.size a
  wordsbf16_S7x48x1536_S1x48x1536_4_0_0 : (Rect.unit (s := S7x48x1536) ![4, 0, 0] S1x48x1536.size inb_S7x48x1536_S1x48x1536_4_0_0).WholeWords (EltTy.packing .bf16)
  inb_S7_S1_5 : ∀ a, (![5] : Fin 1 → Nat) a + S1.size a ≤ S7.size a
  inb_S7x48x1536_S1x48x1536_5_0_0 : ∀ a, (![5, 0, 0] : Fin 3 → Nat) a + S1x48x1536.size a ≤ S7x48x1536.size a
  wordsbf16_S7x48x1536_S1x48x1536_5_0_0 : (Rect.unit (s := S7x48x1536) ![5, 0, 0] S1x48x1536.size inb_S7x48x1536_S1x48x1536_5_0_0).WholeWords (EltTy.packing .bf16)
  inb_S7_S1_6 : ∀ a, (![6] : Fin 1 → Nat) a + S1.size a ≤ S7.size a
  inb_S7x48x1536_S1x48x1536_6_0_0 : ∀ a, (![6, 0, 0] : Fin 3 → Nat) a + S1x48x1536.size a ≤ S7x48x1536.size a
  wordsbf16_S7x48x1536_S1x48x1536_6_0_0 : (Rect.unit (s := S7x48x1536) ![6, 0, 0] S1x48x1536.size inb_S7x48x1536_S1x48x1536_6_0_0).WholeWords (EltTy.packing .bf16)
  h_S48x1536 : 0 < S48x1536.numel
  inb_S48x1536_S48x1536_0_0 : ∀ a, (![0, 0] : Fin 2 → Nat) a + S48x1536.size a ≤ S48x1536.size a
  shapeCasts_S48x1536_S48x1536 : S48x1536.ShapeCasts S48x1536
  h_S1x48x1536 : 0 < S1x48x1536.numel
  shapeCasts_S1x48x1536_S48x1536 : S1x48x1536.ShapeCasts S48x1536
  dot_S384x768_S768x768_S384x768_1_0_0_1_n_n_wf : DotDims.WF S384x768 S768x768 S384x768 [1] [0] [0] [1] [] []
  hcc0_scratch6 : 3 + S3x4.numel ≤ 65
  hcc0_scratch7 : 15 + S3x4.numel ≤ 65
  hcc0_scratch8 : 27 + S3x4.numel ≤ 65
  hcc0_scratch9 : 39 + S3x4.numel ≤ 65
  hcc0_scratch10 : 51 + S7.numel ≤ 65
  hcc0_scratch11 : 58 + S7.numel ≤ 65
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_off1_inb : ∀ d0 : Dev nD, ∀ (r : Fin 3), ∀ a, (k0_off1 d0 (BitVec.ofNat 32 (1 + r.val))) a + S384x768.size a ≤ S1536x768.size a
  k0_off2_inb : ∀ d0 : Dev nD, ∀ (r : Fin 3), ∀ a, (k0_off2 d0 (BitVec.ofNat 32 (1 + r.val))) a + S384x768.size a ≤ S1536x1536.size a
  k0_dev10_lt : ∀ d0 : Dev nD, (k0_dev10 d0) < nD
  k0_dev11_lt : ∀ d0 : Dev nD, (k0_dev11 d0) < nD
  k0_off3_inb : ∀ d0 : Dev nD, ∀ (r : Fin 3), ∀ a, (k0_off3 d0 (BitVec.ofNat 32 (1 + r.val))) a + S384x768.size a ≤ S1536x1536.size a
  k0_dev12_lt : ∀ d0 : Dev nD, (k0_dev12 d0) < nD
  k0_dev13_lt : ∀ d0 : Dev nD, (k0_dev13 d0) < nD
  k0_off4_inb : ∀ d0 : Dev nD, ∀ a, (k0_off4 d0) a + S384x768.size a ≤ S1536x768.size a
  k0_off5_inb : ∀ d0 : Dev nD, ∀ a, (k0_off5 d0) a + S384x768.size a ≤ S1536x1536.size a
  k0_off6_inb : ∀ d0 : Dev nD, ∀ a, (k0_off6 d0) a + S384x768.size a ≤ S1536x1536.size a
  k0_off7_inb : ∀ d0 : Dev nD, ∀ (r₁ : Fin 2) (r₂ : Fin 2), ∀ a, (k0_off7 d0 (BitVec.ofNat 32 r₁.val) (BitVec.ofNat 32 (192 * r₂.val))) a + S192x768.size a ≤ S1536x1536.size a
  k0_off8_inb : ∀ d0 : Dev nD, ∀ (r₁ : Fin 2) (r₂ : Fin 2), ∀ a, (k0_off8 d0 (BitVec.ofNat 32 r₁.val) (BitVec.ofNat 32 (192 * r₂.val))) a + S192x768.size a ≤ S1536x1536.size a
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_off9_inb : ∀ d0 : Dev nD, ∀ (r : Fin 2), ∀ a, (k0_off9 d0 (BitVec.ofNat 32 (192 * r.val))) a + S192x768.size a ≤ S1536x1536.size a
  k0_off10_inb : ∀ d0 : Dev nD, ∀ (r : Fin 2), ∀ a, (k0_off10 d0 (BitVec.ofNat 32 (192 * r.val))) a + S192x768.size a ≤ S1536x1536.size a
  k0_off11_inb : ∀ d0 : Dev nD, ∀ (r : Fin 7), ∀ a, (k0_off11 d0 (BitVec.ofNat 32 (1 + r.val))) a + S48x1536.size a ≤ S384x1536.size a
  k0_off11_wordsbf16 : ∀ d0 : Dev nD, ∀ (r : Fin 7), (Rect.unit (s := S384x1536) (k0_off11 d0 (BitVec.ofNat 32 (1 + r.val))) S48x1536.size (k0_off11_inb d0 r)).WholeWords (EltTy.packing .bf16)
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_off12_inb : ∀ d0 : Dev nD, ∀ a, (k0_off12 d0) a + S48x1536.size a ≤ S384x1536.size a
  hstage0_0 : ∀ j, (stage0_0 j).IsWhole
  hstage0_1 : ∀ j, (stage0_1 j).IsWhole
  hstage0_2 : ∀ j, (stage0_2 j).IsWhole

variable [Facts₀]

abbrev cc0_scratch6 : DmaSems sig S3x4 := SemArray.consecutive 3 S3x4 hcc0_scratch6
abbrev cc0_scratch7 : DmaSems sig S3x4 := SemArray.consecutive 15 S3x4 hcc0_scratch7
abbrev cc0_scratch8 : DmaSems sig S3x4 := SemArray.consecutive 27 S3x4 hcc0_scratch8
abbrev cc0_scratch9 : DmaSems sig S3x4 := SemArray.consecutive 39 S3x4 hcc0_scratch9
abbrev cc0_scratch10 : DmaSems sig S7 := SemArray.consecutive 51 S7 hcc0_scratch10
abbrev cc0_scratch11 : DmaSems sig S7 := SemArray.consecutive 58 S7 hcc0_scratch11
def dot_S384x768_S768x768_S384x768_1_0_0_1_n_n : DotDims S384x768 S768x768 S384x768 where
  lhsContracting := [1]
  rhsContracting := [0]
  lhsNonContracting := [0]
  rhsNonContracting := [1]
  lhsBatch := []
  rhsBatch := []
  wf := dot_S384x768_S768x768_S384x768_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1536x24576 : Shape := ⟨2, ![1536, 24576]⟩
abbrev S24576x1536 : Shape := ⟨2, ![24576, 1536]⟩
abbrev S1536x1536 : Shape := ⟨2, ![1536, 1536]⟩

abbrev nBuf : Space → Nat
  | .hbm => 3
  | .vmem => 0
  | .smem => 0
  | _ => 0

abbrev bufTy : (tb : Table) → Fin (tcTables nBuf tb) → BufTy
  | .hbm, ⟨0, _⟩ => ⟨S1536x24576, .f32⟩
  | .hbm, ⟨1, _⟩ => ⟨S24576x1536, .f32⟩
  | .hbm, ⟨2, _⟩ => ⟨S1536x1536, .f32⟩
  | _, _ => ⟨S1536x24576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S1536x24576_S24576x1536_S1536x1536_1_0_0_1_n_n_wf : DotDims.WF S1536x24576 S24576x1536 S1536x1536 [1] [0] [0] [1] [] []

variable [Facts₀]

def dot_S1536x24576_S24576x1536_S1536x1536_1_0_0_1_n_n : DotDims S1536x24576 S24576x1536 S1536x1536 where
  lhsContracting := [1]
  rhsContracting := [0]
  lhsNonContracting := [0]
  rhsNonContracting := [1]
  lhsBatch := []
  rhsBatch := []
  wf := dot_S1536x24576_S24576x1536_S1536x1536_1_0_0_1_n_n_wf

class Facts : Prop extends Facts₀ where

variable [Facts]
-- ==== Proof.Mesh.lean ====
/- The 32 devices as four planes of eight places, and the neighbours a device addresses as arithmetic on its number. -/
import proofs.«900894_g7700000000000895_dist_matmul_mk_i_outk_m1536_n1536_k768_v7x_i32_f32_1_alg».proof.Proof.Gen.KernelIdeal
import Idealize.ShloMosaic.Lib.Decide

set_option Elab.async false

namespace Cert.KernelIdeal.Mesh

open Idealize.ShloMosaic Cert.KernelIdeal Cert.KernelIdeal.Gen

def zr (c : Dev nD) : Dev nD := ⟨((c.val / 8 + 1) % 4) * 8 + c.val % 8, by have h : c.val < 32 := c.isLt; show _ < 32; omega⟩
def zl (c : Dev nD) : Dev nD := ⟨((c.val / 8 + 3) % 4) * 8 + c.val % 8, by have h : c.val < 32 := c.isLt; show _ < 32; omega⟩
def inp (o : ℕ) (c : Dev nD) : Dev nD := ⟨(c.val / 8) * 8 + (c.val % 8 + o) % 8, by have h : c.val < 32 := c.isLt; show _ < 32; omega⟩

theorem zl_zr (c : Dev nD) : zl (zr c) = c := by revert c; decide
theorem zr_zl (c : Dev nD) : zr (zl c) = c := by revert c; decide
theorem inp_inp (o : Fin 7) (c : Dev nD) : inp (7 - o.val) (inp (o.val + 1) c) = c := by revert o c; decide
theorem inp_inp' (o : Fin 7) (c : Dev nD) : inp (o.val + 1) (inp (7 - o.val) c) = c := by revert o c; decide

theorem dev1_eq (c : Dev nD) : (⟨k0_dev1 c, k0_dev1_lt c⟩ : Dev nD) = zl c := Fin.ext (by revert c; decide +kernel)
theorem dev2_eq (c : Dev nD) : (⟨k0_dev2 c, k0_dev2_lt c⟩ : Dev nD) = zr c := Fin.ext (by revert c; decide +kernel)
theorem dev3_eq (c : Dev nD) : (⟨k0_dev3 c, k0_dev3_lt c⟩ : Dev nD) = inp 1 c := Fin.ext (by revert c; decide +kernel)
theorem dev4_eq (c : Dev nD) : (⟨k0_dev4 c, k0_dev4_lt c⟩ : Dev nD) = inp 2 c := Fin.ext (by revert c; decide +kernel)
theorem dev5_eq (c : Dev nD) : (⟨k0_dev5 c, k0_dev5_lt c⟩ : Dev nD) = inp 3 c := Fin.ext (by revert c; decide +kernel)
theorem dev6_eq (c : Dev nD) : (⟨k0_dev6 c, k0_dev6_lt c⟩ : Dev nD) = inp 4 c := Fin.ext (by revert c; decide +kernel)
theorem dev7_eq (c : Dev nD) : (⟨k0_dev7 c, k0_dev7_lt c⟩ : Dev nD) = inp 5 c := Fin.ext (by revert c; decide +kernel)
theorem dev8_eq (c : Dev nD) : (⟨k0_dev8 c, k0_dev8_lt c⟩ : Dev nD) = inp 6 c := Fin.ext (by revert c; decide +kernel)
theorem dev9_eq (c : Dev nD) : (⟨k0_dev9 c, k0_dev9_lt c⟩ : Dev nD) = inp 7 c := Fin.ext (by revert c; decide +kernel)
theorem dev10_eq (c : Dev nD) : (⟨k0_dev10 c, k0_dev10_lt c⟩ : Dev nD) = zr c := Fin.ext (by revert c; decide +kernel)
theorem dev11_eq (c : Dev nD) : (⟨k0_dev11 c, k0_dev11_lt c⟩ : Dev nD) = zr c := Fin.ext (by revert c; decide +kernel)
theorem dev12_eq (c : Dev nD) : (⟨k0_dev12 c, k0_dev12_lt c⟩ : Dev nD) = zl c := Fin.ext (by revert c; decide +kernel)
theorem dev13_eq (c : Dev nD) : (⟨k0_dev13 c, k0_dev13_lt c⟩ : Dev nD) = zl c := Fin.ext (by revert c; decide +kernel)
theorem dev14_eq (c : Dev nD) : (⟨k0_dev14 c, k0_dev14_lt c⟩ : Dev nD) = zr c := Fin.ext (by revert c; decide +kernel)
theorem dev15_eq (c : Dev nD) : (⟨k0_dev15 c, k0_dev15_lt c⟩ : Dev nD) = zl c := Fin.ext (by revert c; decide +kernel)
theorem dev16_eq (c : Dev nD) : (⟨k0_dev16 c, k0_dev16_lt c⟩ : Dev nD) = zr c := Fin.ext (by revert c; decide +kernel)
theorem dev17_eq (c : Dev nD) : (⟨k0_dev17 c, k0_dev17_lt c⟩ : Dev nD) = zl c := Fin.ext (by revert c; decide +kernel)
theorem dev18_eq (c : Dev nD) : (⟨k0_dev18 c, k0_dev18_lt c⟩ : Dev nD) = zr c := Fin.ext (by revert c; decide +kernel)
theorem dev19_eq (c : Dev nD) : (⟨k0_dev19 c, k0_dev19_lt c⟩ : Dev nD) = zl c := Fin.ext (by revert c; decide +kernel)
theorem dev20_eq (c : Dev nD) : (⟨k0_dev20 c, k0_dev20_lt c⟩ : Dev nD) = zr c := Fin.ext (by revert c; decide +kernel)
theorem dev21_eq (c : Dev nD) : (⟨k0_dev21 c, k0_dev21_lt c⟩ : Dev nD) = zl c := Fin.ext (by revert c; decide +kernel)
theorem dev22_eq (c : Dev nD) : (⟨k0_dev22 c, k0_dev22_lt c⟩ : Dev nD) = inp 1 c := Fin.ext (by revert c; decide +kernel)
theorem dev23_eq (c : Dev nD) : (⟨k0_dev23 c, k0_dev23_lt c⟩ : Dev nD) = inp 2 c := Fin.ext (by revert c; decide +kernel)
theorem dev24_eq (c : Dev nD) : (⟨k0_dev24 c, k0_dev24_lt c⟩ : Dev nD) = inp 3 c := Fin.ext (by revert c; decide +kernel)
theorem dev25_eq (c : Dev nD) : (⟨k0_dev25 c, k0_dev25_lt c⟩ : Dev nD) = inp 4 c := Fin.ext (by revert c; decide +kernel)
theorem dev26_eq (c : Dev nD) : (⟨k0_dev26 c, k0_dev26_lt c⟩ : Dev nD) = inp 5 c := Fin.ext (by revert c; decide +kernel)
theorem dev27_eq (c : Dev nD) : (⟨k0_dev27 c, k0_dev27_lt c⟩ : Dev nD) = inp 6 c := Fin.ext (by revert c; decide +kernel)
theorem dev28_eq (c : Dev nD) : (⟨k0_dev28 c, k0_dev28_lt c⟩ : Dev nD) = inp 7 c := Fin.ext (by revert c; decide +kernel)

end Cert.KernelIdeal.Mesh
-- ==== Proof.Cells.lean ====
/- Shared vocabulary: the buffers, the pieces they are held by, and the semaphore cells. -/
import proofs.«900894_g7700000000000895_dist_matmul_mk_i_outk_m1536_n1536_k768_v7x_i32_f32_1_alg».proof.Proof.Mesh
import proofs.«900894_g7700000000000895_dist_matmul_mk_i_outk_m1536_n1536_k768_v7x_i32_f32_1_alg».proof.Proof.Gen.KernelIdeal.Skeleton
import proofs.«900894_g7700000000000895_dist_matmul_mk_i_outk_m1536_n1536_k768_v7x_i32_f32_1_alg».proof.Proof.Gen.KernelIdeal.Launch
import proofs.«900894_g7700000000000895_dist_matmul_mk_i_outk_m1536_n1536_k768_v7x_i32_f32_1_alg».proof.Proof.Gen.KernelIdeal.Points
import Idealize.ShloMosaic.Lib.Pipeline.Launch
import Idealize.ShloMosaic.Lib.Pipeline.Kit
import Idealize.ShloMosaic.Lib.Pipeline.FrameBody
import Idealize.ShloMosaic.Lib.Pipeline.Value
import Idealize.ShloMosaic.Lib.Ring
import Idealize.ShloMosaic.Lib.Tactic
import Mathlib.Tactic.DeriveFintype

noncomputable section

namespace Cert.KernelIdeal.Ring

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 9)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev Mem (F : FTy → Type) : Type := (ℓ : Loc nD τ sig) → Buf (Elt F) ℓ

def s₀ (m : Mem F) (ρ : Dev nD → PrngReg) : MemSt nD τ sig (Elt F) := ⟨m, fun _ => 0, ρ⟩

abbrev 𝒱₀ : Variants := Variants.none

abbrev aM : Memref sig .tc .vmem S1536x768 .f32 := Memref.whole cc0_stg0_0
abbrev bM : Memref sig .tc .vmem S768x1536 .f32 := Memref.whole cc0_stg1_0
abbrev oM : Memref sig .tc .vmem S48x1536 .f32 := Memref.whole cc0_stg2_0
abbrev pM : Memref sig .tc .vmem S1536x1536 .f32 := Memref.whole cc0_scratch0
abbrev cfM : Memref sig .tc .vmem S4x384x768 .bf16 := Memref.whole cc0_scratch1
abbrev cbM : Memref sig .tc .vmem S4x384x768 .bf16 := Memref.whole cc0_scratch2
abbrev r1M : Memref sig .tc .vmem S384x1536 .f32 := Memref.whole cc0_scratch3
abbrev r1bM : Memref sig .tc .vmem S384x1536 .bf16 := Memref.whole cc0_scratch4
abbrev cdM : Memref sig .tc .vmem S7x48x1536 .bf16 := Memref.whole cc0_scratch5

abbrev pieceOff (k : Fin 4) (s : Fin 2) : Fin 3 → Nat := ![k.val, 192 * s.val, 0]
theorem piece_inb : ∀ (k : Fin 4) (s : Fin 2) a, pieceOff k s a + S1x192x768.size a ≤ S4x384x768.size a := by decide
abbrev pieceR (k : Fin 4) (s : Fin 2) : Rect S4x384x768 := Rect.unit (s := S4x384x768) (pieceOff k s) S1x192x768.size (piece_inb k s)
abbrev cfP (k : Fin 4) (s : Fin 2) : Memref sig .tc .vmem S192x768 .bf16 :=
  (cfM.slice (pieceR k s) (fun _ => rfl)).squeeze S192x768 squeezes_S1x192x768_S192x768
abbrev cbP (k : Fin 4) (s : Fin 2) : Memref sig .tc .vmem S192x768 .bf16 :=
  (cbM.slice (pieceR k s) (fun _ => rfl)).squeeze S192x768 squeezes_S1x192x768_S192x768

abbrev cdOff (o : Fin 7) : Fin 3 → Nat := ![o.val, 0, 0]
theorem cd_inb : ∀ (o : Fin 7) a, cdOff o a + S1x48x1536.size a ≤ S7x48x1536.size a := by decide
abbrev cdR (o : Fin 7) : Rect S7x48x1536 := Rect.unit (s := S7x48x1536) (cdOff o) S1x48x1536.size (cd_inb o)
abbrev cdP (o : Fin 7) : Memref sig .tc .vmem S48x1536 .bf16 :=
  (cdM.slice (cdR o) (fun _ => rfl)).squeeze S48x1536 squeezes_S1x48x1536_S48x1536

abbrev chR (c : Dev nD) (o : Fin 7) : Rect S384x1536 :=
  Rect.unit (s := S384x1536) (k0_off11 c (BitVec.ofNat 32 (1 + o.val))) S48x1536.size (k0_off11_inb c o)
abbrev chM (c : Dev nD) (o : Fin 7) : Memref sig .tc .vmem S48x1536 .bf16 := r1bM.slice (chR c o) (fun _ => rfl)

abbrev N192 : ℕ := (cfP 0 0).view.dmaCredit
abbrev N48 : ℕ := (cdP 0).view.dmaCredit
theorem N192_pos : 0 < N192 := View.dmaCredit_pos _ (by decide)
theorem N48_pos : 0 < N48 := View.dmaCredit_pos _ (by decide)

abbrev barS : Sem sig := (SemArray.scalar (sig.barrier 0 rfl) : Sems sig S_).sem

abbrev fSs (h : Fin 3) (s : Fin 2) : DmaSem sig := ⟨3 + 4 * h.val + s.val, by have := h.isLt; have := s.isLt; show _ < 65; omega⟩
abbrev fRs (h : Fin 3) (s : Fin 2) : DmaSem sig := ⟨15 + 4 * h.val + s.val, by have := h.isLt; have := s.isLt; show _ < 65; omega⟩
abbrev bSs (h : Fin 3) (s : Fin 2) : DmaSem sig := ⟨27 + 4 * h.val + s.val, by have := h.isLt; have := s.isLt; show _ < 65; omega⟩
abbrev bRs (h : Fin 3) (s : Fin 2) : DmaSem sig := ⟨39 + 4 * h.val + s.val, by have := h.isLt; have := s.isLt; show _ < 65; omega⟩
abbrev dSs (o : Fin 7) : DmaSem sig := ⟨51 + o.val, by have := o.isLt; show _ < 65; omega⟩
abbrev dRs (o : Fin 7) : DmaSem sig := ⟨58 + o.val, by have := o.isLt; show _ < 65; omega⟩

inductive CK
  | bar
  | fS (h : Fin 3) (s : Fin 2) | fR (h : Fin 3) (s : Fin 2)
  | bS (h : Fin 3) (s : Fin 2) | bR (h : Fin 3) (s : Fin 2)
  | dS (o : Fin 7) | dR (o : Fin 7)
  deriving DecidableEq, Fintype

def csem : CK → SemLoc sig
  | .bar => .reg barS
  | .fS h s => .dma (fSs h s) | .fR h s => .dma (fRs h s)
  | .bS h s => .dma (bSs h s) | .bR h s => .dma (bRs h s)
  | .dS o => .dma (dSs o) | .dR o => .dma (dRs o)

abbrev kcell (ck : Dev nD × CK) : GSem nD τ sig := ((ck.1 : Thread nD τ), csem ck.2)

def kindOf : SemLoc sig → Option CK
  | .reg s => if s = barS then some .bar else none
  | .dma q =>
    if h : 3 ≤ q.val ∧ q.val < 15 ∧ (q.val - 3) % 4 < 2 then some (.fS ⟨(q.val - 3) / 4, by omega⟩ ⟨(q.val - 3) % 4, h.2.2⟩)
    else if h : 15 ≤ q.val ∧ q.val < 27 ∧ (q.val - 15) % 4 < 2 then some (.fR ⟨(q.val - 15) / 4, by omega⟩ ⟨(q.val - 15) % 4, h.2.2⟩)
    else if h : 27 ≤ q.val ∧ q.val < 39 ∧ (q.val - 27) % 4 < 2 then some (.bS ⟨(q.val - 27) / 4, by omega⟩ ⟨(q.val - 27) % 4, h.2.2⟩)
    else if h : 39 ≤ q.val ∧ q.val < 51 ∧ (q.val - 39) % 4 < 2 then some (.bR ⟨(q.val - 39) / 4, by omega⟩ ⟨(q.val - 39) % 4, h.2.2⟩)
    else if h : 51 ≤ q.val ∧ q.val < 58 then some (.dS ⟨q.val - 51, by omega⟩)
    else if h : 58 ≤ q.val ∧ q.val < 65 then some (.dR ⟨q.val - 58, by omega⟩)
    else none

theorem kindOf_csem : ∀ k : CK, kindOf (csem k) = some k := by decide
theorem csem_injective : Function.Injective csem := fun a b h => Option.some.inj ((kindOf_csem a).symm.trans ((congrArg kindOf h).trans (kindOf_csem b)))
theorem kcell_injective : Function.Injective (kcell : Dev nD × CK → GSem nD τ sig) := by
  rintro ⟨c, k⟩ ⟨c', k'⟩ h
  have h1 : c = c' := congrArg (fun g : GSem nD τ sig => g.1.1) h
  subst h1
  have : k = k' := csem_injective (congrArg Prod.snd h)
  subst this; rfl

def amt : CK → ℕ
  | .bar => 1
  | .dS _ | .dR _ => N48
  | _ => N192
theorem amt_pos (k : CK) : 0 < amt k := by cases k <;> first | exact Nat.one_pos | exact N192_pos | exact N48_pos

end Cert.KernelIdeal.Ring

end
-- ==== Proof.Sched.lean ====
/- The schedule: each cell has one round; a payment hands the cell's owner the piece it concerns, holding the value sent. -/
import proofs.«900894_g7700000000000895_dist_matmul_mk_i_outk_m1536_n1536_k768_v7x_i32_f32_1_alg».proof.Proof.Cells

noncomputable section

namespace Cert.KernelIdeal.Ring

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

def holds (c : Dev nD) {s : Shape} {e : EltTy} (M : Memref sig .tc .vmem s e) (V : Vec F s e) : sProp 𝕄 :=
  iprop(∃ f : Buf (Elt F) (M.view.loc (c : Thread nD τ)), ⌜M.view.read (Elt F) f = V⌝ ∗ (M.view.loc (c : Thread nD τ) ↦[M.view.set]{fullShare} f))
def free (c : Dev nD) {s : Shape} {e : EltTy} (M : Memref sig .tc .vmem s e) : sProp 𝕄 :=
  iprop(∃ f : Buf (Elt F) (M.view.loc (c : Thread nD τ)), (M.view.loc (c : Thread nD τ) ↦[M.view.set]{fullShare} f))

omit [FloatOps F] in
instance holds_storable (c : Dev nD) {s : Shape} {e : EltTy} (M : Memref sig .tc .vmem s e) (V : Vec F s e) :
    BI.Storable (upEmb : UEmb _ 𝕄) (holds c M V) := by unfold holds; infer_instance
omit [FloatOps F] in
instance free_storable (c : Dev nD) {s : Shape} {e : EltTy} (M : Memref sig .tc .vmem s e) :
    BI.Storable (upEmb : UEmb _ 𝕄) (free (F := F) c M) := by unfold free; infer_instance

def srcSlot : Fin 3 → Fin 4
  | 0 => 3
  | 1 => 0
  | 2 => 1
def dstSlot (h : Fin 3) : Fin 4 := ⟨h.val, by omega⟩

variable (Vf Vb : Dev nD → Fin 3 → Fin 2 → Vec F S192x768 .bf16) (Vd : Dev nD → Fin 7 → Vec F S48x1536 .bf16)
variable (R1b : Dev nD → (cc0_scratch4 : Ref sig .tc).ty.Contents (Elt F))

def sixFree (d : Dev nD) (P : Fin 4 → Fin 2 → Memref sig .tc .vmem S192x768 .bf16) : sProp 𝕄 :=
  iprop(free d (P 0 0) ∗ free d (P 0 1) ∗ free d (P 1 0) ∗ free d (P 1 1) ∗ free d (P 2 0) ∗ free d (P 2 1))

def barPay (c : Dev nD) (j : Fin 9) : sProp 𝕄 :=
  if j.val = 0 then sixFree (F := F) (zr c) cfP
  else if j.val = 1 then sixFree (F := F) (zl c) cbP
  else if h : j.val < 9 ∧ 2 ≤ j.val then free (F := F) (inp (9 - j.val) c) (cdP ⟨8 - j.val, by omega⟩)
  else iprop(emp)

def cellPay (c : Dev nD) : CK → Fin 9 → sProp 𝕄
  | .bar, j => barPay (F := F) c j
  | .fS h s, _ => holds c (cfP (srcSlot h) s) (Vf c h s)
  | .fR h s, _ => holds c (cfP (dstSlot h) s) (Vf (zl c) h s)
  | .bS h s, _ => holds c (cbP (srcSlot h) s) (Vb c h s)
  | .bR h s, _ => holds c (cbP (dstSlot h) s) (Vb (zr c) h s)
  | .dS o, _ => ((chM c o).view.loc (c : Thread nD τ) ↦[(chM c o).view.set]{fullShare} R1b c)
  | .dR o, _ => holds c (cdP o) (Vd (inp (7 - o.val) c) o)

omit [FloatOps F] in
instance barPay_storable (c : Dev nD) (j : Fin 9) : BI.Storable (upEmb : UEmb _ 𝕄) (barPay (F := F) c j) := by
  unfold barPay sixFree; (repeat' split) <;> infer_instance
omit [FloatOps F] in
instance cellPay_storable (c : Dev nD) (k : CK) (j : Fin 9) : BI.Storable (upEmb : UEmb _ 𝕄) (cellPay Vf Vb Vd R1b c k j) := by
  cases k <;> unfold cellPay <;> infer_instance

def ringRd : Rounds.Schedule (GSem nD τ sig) (Fin 9) 𝕄 where
  duties g r :=
    if g.1.2 = .tc ∧ r = 0 then
      match kindOf g.2 with
      | some .bar => Finset.univ
      | some _ => {0}
      | none => ∅
    else ∅
  unitless _ := False
  amount g _ _ := match kindOf g.2 with
    | some k => amt k
    | none => 1
  payload g _ d := match kindOf g.2 with
    | some k => cellPay Vf Vb Vd R1b g.1.1 k d
    | none => iprop(emp)
  amount_pos g _ _ _ := by
    cases kindOf g.2 with
    | none => exact Nat.one_pos
    | some k => exact amt_pos k

omit [FloatOps F] in
instance ringRd_payload_storable (g : GSem nD τ sig) (r : ℕ) (d : Fin 9) :
    BI.Storable (upEmb : UEmb _ 𝕄) ((ringRd Vf Vb Vd R1b).payload g r d) := by
  show BI.Storable upEmb (match kindOf g.2 with
    | some k => cellPay Vf Vb Vd R1b g.1.1 k d
    | none => iprop(emp))
  split <;> infer_instance

section Sched
variable (c : Dev nD)

omit [FloatOps F] in
theorem duties_bar : (ringRd Vf Vb Vd R1b).duties (kcell (c, .bar)) 0 = Finset.univ := by
  simp only [ringRd, kindOf_csem, and_self, if_true]
omit [FloatOps F] in
theorem duties_one (k : CK) (hk : k ≠ .bar) : (ringRd Vf Vb Vd R1b).duties (kcell (c, k)) 0 = {0} := by
  simp only [ringRd, kindOf_csem, and_self, if_true]
omit [FloatOps F] in
theorem duties_later (g : GSem nD τ sig) : ∀ r, 1 ≤ r → (ringRd Vf Vb Vd R1b).duties g r = ∅ := fun r hr => by
  dsimp only [ringRd]; rw [if_neg fun h => by omega]
omit [FloatOps F] in
theorem amount_cell (k : CK) (r : ℕ) (d : Fin 9) : (ringRd Vf Vb Vd R1b).amount (kcell (c, k)) r d = amt k := by
  simp only [ringRd, kindOf_csem]
omit [FloatOps F] in
theorem payload_cell (k : CK) (r : ℕ) (d : Fin 9) : (ringRd Vf Vb Vd R1b).payload (kcell (c, k)) r d = cellPay Vf Vb Vd R1b c k d := by
  simp only [ringRd, kindOf_csem]

omit [FloatOps F] in
theorem expect_bar : (ringRd Vf Vb Vd R1b).expect (kcell (c, .bar)) 0 = 9 := by
  unfold Schedule.expect Schedule.amountOf
  rw [duties_bar, Finset.sum_congr rfl fun d _ => amount_cell Vf Vb Vd R1b c .bar 0 d, Finset.sum_const, Finset.card_univ, Fintype.card_fin, smul_eq_mul]
  rfl
omit [FloatOps F] in
theorem expect_one (k : CK) (hk : k ≠ .bar) : (ringRd Vf Vb Vd R1b).expect (kcell (c, k)) 0 = amt k := by
  unfold Schedule.expect Schedule.amountOf; rw [duties_one Vf Vb Vd R1b c k hk, Finset.sum_singleton, amount_cell]

omit [FloatOps F] in
theorem rest_one (k : CK) (hk : k ≠ .bar) :
    bigSep ((ringRd Vf Vb Vd R1b).duties (kcell (c, k)) 0 \ ∅) (fun d => (ringRd Vf Vb Vd R1b).payload (kcell (c, k)) 0 d) = cellPay Vf Vb Vd R1b c k 0 := by
  rw [Finset.sdiff_empty, duties_one Vf Vb Vd R1b c k hk, bigSep_singleton, payload_cell]

omit [FloatOps F] in
theorem rest_bar :
    bigSep ((ringRd Vf Vb Vd R1b).duties (kcell (c, .bar)) 0 \ ∅) (fun d => (ringRd Vf Vb Vd R1b).payload (kcell (c, .bar)) 0 d)
      = iprop(barPay (F := F) c 0 ∗ barPay (F := F) c 1 ∗ barPay (F := F) c 2 ∗ barPay (F := F) c 3 ∗ barPay (F := F) c 4 ∗ barPay (F := F) c 5
          ∗ barPay (F := F) c 6 ∗ barPay (F := F) c 7 ∗ barPay (F := F) c 8) := by
  rw [Finset.sdiff_empty, duties_bar, bigSep_univ_eq_bigSepL [0, 1, 2, 3, 4, 5, 6, 7, 8] (by decide) (by decide)]
  simp only [payload_cell, cellPay]
  rfl

end Sched

end Cert.KernelIdeal.Ring

end
-- ==== Proof.Owed.lean ====
/- The 28 payments a device owes its neighbours' cells, and the levels that order the waits: a wait is for a cell
   strictly below everything still owed, so no interleaving blocks. -/
import proofs.«900894_g7700000000000895_dist_matmul_mk_i_outk_m1536_n1536_k768_v7x_i32_f32_1_alg».proof.Proof.Cells
import Idealize.ShloMosaic.Lib.Pipeline.Launch
import Mathlib.Tactic.DeriveFintype

noncomputable section

namespace Cert.KernelIdeal.Ring

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

inductive PK
  | sig (j : Fin 9)
  | rf (h : Fin 3) (s : Fin 2)
  | rb (h : Fin 3) (s : Fin 2)
  | dd (o : Fin 7)
  deriving DecidableEq, Fintype

def peer (j : Fin 9) (c : Dev nD) : Dev nD :=
  if j.val = 0 then zl c else if j.val = 1 then zr c else inp (j.val - 1) c

def peerInv (j : Fin 9) (c : Dev nD) : Dev nD :=
  if j.val = 0 then zr c else if j.val = 1 then zl c else inp (9 - j.val) c

theorem peer_peerInv : ∀ (j : Fin 9) (c : Dev nD), peer j (peerInv j c) = c := by decide
theorem peerInv_peer : ∀ (j : Fin 9) (c : Dev nD), peerInv j (peer j c) = c := by decide

def ckOf : PK → CK
  | .sig _ => .bar
  | .rf h s => .fR h s
  | .rb h s => .bR h s
  | .dd o => .dR o

def pdev : PK → Dev nD → Dev nD
  | .sig j => peer j
  | .rf _ _ => zr
  | .rb _ _ => zl
  | .dd o => inp (o.val + 1)

def pinv : PK → Dev nD → Dev nD
  | .sig j => peerInv j
  | .rf _ _ => zl
  | .rb _ _ => zr
  | .dd o => inp (7 - o.val)

theorem pdev_pinv (i : PK) (c : Dev nD) : pdev i (pinv i c) = c := by
  cases i with
  | sig j => exact peer_peerInv j c
  | rf h s => exact zr_zl c
  | rb h s => exact zl_zr c
  | dd o => exact inp_inp' o c

theorem pinv_pdev (i : PK) (c : Dev nD) : pinv i (pdev i c) = c := by
  cases i with
  | sig j => exact peerInv_peer j c
  | rf h s => exact zl_zr c
  | rb h s => exact zr_zl c
  | dd o => exact inp_inp o c

def pcell (c : Dev nD) : PK → GSem nD τ sig
  | .sig j => kcell (peer j c, .bar)
  | .rf h s => kcell (zr c, .fR h s)
  | .rb h s => kcell (zl c, .bR h s)
  | .dd o => kcell (inp (o.val + 1) c, .dR o)

def pamt : PK → ℕ
  | .sig _ => 1
  | .rf _ _ => N192
  | .rb _ _ => N192
  | .dd _ => N48

theorem pcell_eq (c : Dev nD) (i : PK) : pcell c i = kcell (pdev i c, ckOf i) := by cases i <;> rfl
theorem pamt_eq (i : PK) : pamt i = amt (ckOf i) := by cases i <;> rfl

theorem kcell_eq_pcell_iff (c d : Dev nD) (k : CK) (i : PK) : kcell (c, k) = pcell d i ↔ d = pinv i c ∧ k = ckOf i := by
  rw [pcell_eq]
  constructor
  · intro h
    have h' := kcell_injective h
    have h1 : c = pdev i d := congrArg Prod.fst h'
    have h2 : k = ckOf i := congrArg Prod.snd h'
    exact ⟨by rw [h1, pinv_pdev], h2⟩
  · rintro ⟨rfl, rfl⟩
    rw [pdev_pinv]

def Orem (c : Dev nD) (S : Finset PK) : CellTallies nD τ sig Unit := ∑ i ∈ S, tallyAt (pcell c i) () (pamt i)

def O₀ (c : Dev nD) : CellTallies nD τ sig Unit := Orem c Finset.univ

theorem Orem_empty (c : Dev nD) : Orem c ∅ = 0 := Finset.sum_empty

theorem Orem_erase (c : Dev nD) {S : Finset PK} {i : PK} (hi : i ∈ S) :
    Orem c S = Orem c (S.erase i) + tallyAt (pcell c i) () (pamt i) :=
  (Finset.sum_erase_add S (fun i => tallyAt (pcell c i) () (pamt i)) hi).symm

theorem Orem_apply (c : Dev nD) (S : Finset PK) (g : GSem nD τ sig) :
    Orem c S g () = ∑ i ∈ S, if g = pcell c i then pamt i else 0 := by
  unfold Orem
  rw [Finset.sum_apply, Finsupp.finsetSum_apply]
  refine Finset.sum_congr rfl fun i _ => ?_
  rw [tallyAt_apply]
  by_cases h : g = pcell c i
  · rw [if_pos ⟨h, rfl⟩, if_pos h]
  · rw [if_neg (fun h' => h h'.1), if_neg h]

theorem Orem_pos {c : Dev nD} {S : Finset PK} {g : GSem nD τ sig} {u : Unit} (h : 0 < Orem c S g u) :
    ∃ i ∈ S, g = pcell c i := by
  obtain ⟨i, hi, hpos⟩ := Pipeline.sum_pos_exists h
  refine ⟨i, hi, ?_⟩
  by_contra hne
  rw [tallyAt_ne_cell hne] at hpos
  exact Nat.lt_irrefl 0 hpos

def L (g : GSem nD τ sig) : Finset Unit := if g.1.2 = .tc then {()} else ∅

theorem L_of_ne (g : GSem nD τ sig) (h : g.1.2 ≠ .tc) : L g = ∅ := if_neg h
theorem L_tc (c : Dev nD) (sm : SemLoc sig) : L ((c : Thread nD τ), sm) = {()} := if_pos rfl
theorem L_pcell (c : Dev nD) (i : PK) : L (pcell c i) = {()} := by rw [pcell_eq]; exact L_tc _ _

def lvK : CK → ℕ
  | .bar => 1
  | .fR h s => 2 + 2 * h.val + s.val
  | .bR h s => 2 + 2 * h.val + s.val
  | .dR _ => 8
  | .fS _ _ => 0
  | .bS _ _ => 0
  | .dS _ => 0

def lvP : PK → ℕ
  | .sig _ => 1
  | .rf h s => 2 + 2 * h.val + s.val
  | .rb h s => 2 + 2 * h.val + s.val
  | .dd _ => 8

def lv (g : GSem nD τ sig) (_ : Unit) : ℕ :=
  match kindOf g.2 with
  | some k => lvK k
  | none => 0

theorem lv_kcell (c : Dev nD) (k : CK) : lv (kcell (c, k)) () = lvK k := by
  unfold lv
  rw [show (kcell (c, k)).2 = csem k from rfl, kindOf_csem]

theorem lvP_eq (i : PK) : lvP i = lvK (ckOf i) := by cases i <;> rfl
theorem lv_pcell (c : Dev nD) (i : PK) : lv (pcell c i) () = lvP i := by rw [pcell_eq, lv_kcell, lvP_eq]
theorem lvP_pos (i : PK) : 0 < lvP i := by cases i <;> simp only [lvP] <;> omega

omit [FloatOps F] in
theorem mayWait_cell (c : Dev nD) (k : CK) (S : Finset PK) (h : ∀ i ∈ S, lvK k < lv (pcell c i) ()) :
    (levAts L lv : sProp 𝕄) ⊢ MayWait (c : Thread nD τ) (csem k) () (Orem c S) :=
  MayOwe.of_cut (L := L) (lev := lv) (lvK k)
    (fun p hp => by rw [Finset.mem_singleton.mp hp, L_tc]; exact Finset.mem_singleton_self _)
    (fun g u hg => by obtain ⟨i, _, rfl⟩ := Orem_pos hg; rw [L_pcell]; exact Finset.mem_singleton_self _)
    (fun p hp => by rw [Finset.mem_singleton.mp hp]; exact le_of_eq (lv_kcell c k))
    (fun g u hg => by obtain ⟨i, hi, rfl⟩ := Orem_pos hg; cases u; exact h i hi)

omit [FloatOps F] in
theorem mayWait_cellP (c : Dev nD) (k : CK) (S : Finset PK) (h : ∀ i ∈ S, lvK k < lvP i) :
    (levAts L lv : sProp 𝕄) ⊢ MayWait (c : Thread nD τ) (csem k) () (Orem c S) :=
  mayWait_cell c k S fun i hi => by rw [lv_pcell]; exact h i hi

omit [FloatOps F] in
theorem mayWait_stage (c : Dev nD) (q : DmaSem sig) (hq : kindOf (.dma q) = none) (S : Finset PK) :
    (levAts L lv : sProp 𝕄) ⊢ MayWait (c : Thread nD τ) (.dma q) () (Orem c S) :=
  MayOwe.of_cut (L := L) (lev := lv) 0
    (fun p hp => by rw [Finset.mem_singleton.mp hp, L_tc]; exact Finset.mem_singleton_self _)
    (fun g u hg => by obtain ⟨i, _, rfl⟩ := Orem_pos hg; rw [L_pcell]; exact Finset.mem_singleton_self _)
    (fun p hp => by
      rw [Finset.mem_singleton.mp hp]
      show lv ((c : Thread nD τ), SemLoc.dma q) () ≤ 0
      unfold lv
      rw [show (((c : Thread nD τ), SemLoc.dma q) : GSem nD τ sig).2 = SemLoc.dma q from rfl, hq])
    (fun g u hg => by obtain ⟨i, hi, rfl⟩ := Orem_pos hg; cases u; rw [lv_pcell]; exact lvP_pos i)

def cnt : CK → ℕ
  | .bar => 9
  | .fR _ _ => 1
  | .bR _ _ => 1
  | .dR _ => 1
  | .fS _ _ => 0
  | .bS _ _ => 0
  | .dS _ => 0

def credK : CK → ℕ
  | .bar => 9
  | .fR _ _ => N192
  | .bR _ _ => N192
  | .dR _ => N48
  | .fS _ _ => 0
  | .bS _ _ => 0
  | .dS _ => 0

theorem card_ckOf : ∀ k : CK, (Finset.univ.filter fun i : PK => k = ckOf i).card = cnt k := by decide

theorem credK_eq (k : CK) : credK k = cnt k * amt k := by
  cases k <;> simp only [credK, cnt, amt, Nat.mul_one, Nat.one_mul, Nat.zero_mul]

theorem owed_cell (c : Dev nD) (k : CK) : ∑ d : Dev nD, O₀ d (kcell (c, k)) () = credK k := by
  unfold O₀
  rw [Finset.sum_congr rfl fun d _ => Orem_apply d Finset.univ (kcell (c, k)), Finset.sum_comm]
  have hin (i : PK) : (∑ d : Dev nD, if kcell (c, k) = pcell d i then pamt i else 0) = if k = ckOf i then amt k else 0 := by
    by_cases hk : k = ckOf i
    · rw [if_pos hk, Finset.sum_eq_single (pinv i c)
        (fun d _ hd => if_neg fun h => hd ((kcell_eq_pcell_iff c d k i).mp h).1)
        (fun hn => absurd (Finset.mem_univ _) hn),
        if_pos ((kcell_eq_pcell_iff c _ k i).mpr ⟨rfl, hk⟩), pamt_eq, hk]
    · rw [if_neg hk]
      exact Finset.sum_eq_zero fun d _ => if_neg fun h => hk ((kcell_eq_pcell_iff c d k i).mp h).2
  rw [Finset.sum_congr rfl fun i _ => hin i, Finset.sum_ite, Finset.sum_const_zero, Nat.add_zero, Finset.sum_const, card_ckOf,
    smul_eq_mul, credK_eq]

omit [FloatOps F] in
theorem launch_cell (c : Dev nD) (k : CK) :
    tallyOn (kcell (c, k)) (launchCredit (Pipeline.owing O₀) 0 (kcell (c, k))) = (tallyAt (kcell (c, k)) () (credK k) : CellTallies nD τ sig Unit) := by
  unfold tallyAt; refine congrArg _ (Finsupp.ext fun u => ?_); cases u
  rw [Pipeline.launchCredit_owing, Finsupp.single_eq_same, owed_cell]

theorem creds_kinds (c : Dev nD) :
    (Pipeline.launchCred O₀ c : sProp 𝕄) ⊢ bigSep (Finset.univ : Finset CK) fun k => cred (tallyAt (kcell (c, k)) () (credK k)) := by
  unfold Pipeline.launchCred
  refine (bigSep_subset (Finset.subset_univ (Finset.univ.image csem))).trans ?_
  rw [bigSep_image_of_injOn (csem_injective.injOn)]
  exact bigSep_mono fun k _ => Entails.of_eq (congrArg cred (launch_cell c k))

theorem creds (c : Dev nD) :
    (Pipeline.launchCred O₀ c : sProp 𝕄) ⊢ iprop(cred (tallyAt (kcell (c, .bar)) () 9)
      ∗ (bigSep Finset.univ fun hs : Fin 3 × Fin 2 => cred (tallyAt (kcell (c, .fR hs.1 hs.2)) () N192))
      ∗ (bigSep Finset.univ fun hs : Fin 3 × Fin 2 => cred (tallyAt (kcell (c, .bR hs.1 hs.2)) () N192))
      ∗ (bigSep Finset.univ fun o : Fin 7 => cred (tallyAt (kcell (c, .dR o)) () N48))) := by
  refine (creds_kinds c).trans ?_
  have hA : Set.InjOn (fun hs : Fin 3 × Fin 2 => CK.fR hs.1 hs.2) (Finset.univ : Finset (Fin 3 × Fin 2)) :=
    fun a _ b _ h => Prod.ext (CK.fR.inj h).1 (CK.fR.inj h).2
  have hB : Set.InjOn (fun hs : Fin 3 × Fin 2 => CK.bR hs.1 hs.2) (Finset.univ : Finset (Fin 3 × Fin 2)) :=
    fun a _ b _ h => Prod.ext (CK.bR.inj h).1 (CK.bR.inj h).2
  have hC : Set.InjOn (fun o : Fin 7 => CK.dR o) (Finset.univ : Finset (Fin 7)) :=
    fun a _ b _ h => CK.dR.inj h
  rw [bigSep_univ_at _ CK.bar]
  refine sep_mono_right ?_
  refine (bigSep_subset (t := (Finset.univ.image fun hs : Fin 3 × Fin 2 => CK.fR hs.1 hs.2)
      ∪ ((Finset.univ.image fun hs : Fin 3 × Fin 2 => CK.bR hs.1 hs.2) ∪ (Finset.univ.image fun o : Fin 7 => CK.dR o))) (by decide)).trans ?_
  rw [bigSep_union (by decide), bigSep_union (by decide), bigSep_image_of_injOn hA, bigSep_image_of_injOn hB, bigSep_image_of_injOn hC]
  exact .refl _

end Cert.KernelIdeal.Ring

end
-- ==== Proof.Stage.lean ====
/- Each device's blocks of the two factors. -/
import proofs.«900894_g7700000000000895_dist_matmul_mk_i_outk_m1536_n1536_k768_v7x_i32_f32_1_alg».proof.Proof.Cells

noncomputable section

namespace Cert.KernelIdeal.Ring

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

section
variable (m : Mem F) (ρ : Dev nD → PrngReg)

def Astg (c : Dev nD) : (cc0_stg0_0 : Ref sig .tc).ty.Contents (Elt F) :=
  (win0_0.blk (0 : Fin 1)).view.read (Elt F) ((s₀ m ρ).mem ((c : Thread nD τ).loc main_arg0))
def Bstg (c : Dev nD) : (cc0_stg1_0 : Ref sig .tc).ty.Contents (Elt F) :=
  (win0_1.blk (0 : Fin 1)).view.read (Elt F) ((s₀ m ρ).mem ((c : Thread nD τ).loc main_arg1))
end

end Cert.KernelIdeal.Ring

end
-- ==== Proof.Ghost.lean ====
/- What a device holds from launch to exit. -/
import proofs.«900894_g7700000000000895_dist_matmul_mk_i_outk_m1536_n1536_k768_v7x_i32_f32_1_alg».proof.Proof.Sched
import proofs.«900894_g7700000000000895_dist_matmul_mk_i_outk_m1536_n1536_k768_v7x_i32_f32_1_alg».proof.Proof.Owed
import proofs.«900894_g7700000000000895_dist_matmul_mk_i_outk_m1536_n1536_k768_v7x_i32_f32_1_alg».proof.Proof.Stage

noncomputable section

namespace Cert.KernelIdeal.Ring

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

inductive SK | f (h : Fin 3) (s : Fin 2) | b (h : Fin 3) (s : Fin 2) | d (o : Fin 7)
  deriving DecidableEq, Fintype
def SK.ck : SK → CK
  | .f h s => .fS h s | .b h s => .bS h s | .d o => .dS o

abbrev TK : Type := PK ⊕ SK
def tokCell (c : Dev nD) : TK → GSem nD τ sig
  | .inl i => pcell c i
  | .inr k => kcell (c, k.ck)
def tokDuty : TK → Fin 9
  | .inl (.sig j) => j
  | _ => 0
abbrev tokOf (ci : Dev nD × TK) : GSem nD τ sig × ℕ × Fin 9 := (tokCell ci.1 ci.2, 0, tokDuty ci.2)

abbrev OK : Type := {k : CK // k ≠ .bar}
abbrev osem : OK → SemLoc sig := fun k => csem k.1

section
variable (Vf Vb : Dev nD → Fin 3 → Fin 2 → Vec F S192x768 .bf16) (Vd : Dev nD → Fin 7 → Vec F S48x1536 .bf16)
variable (R1b : Dev nD → (cc0_scratch4 : Ref sig .tc).ty.Contents (Elt F))

def records (K : Dev nD × CK → ℕ) : sProp 𝕄 :=
  iprop((bigSep Finset.univ fun ck : Dev nD × CK => cellInv ER (ringRd Vf Vb Vd R1b) (K ck) (kcell ck))
    ∗ bigSep Finset.univ fun ck : Dev nD × CK => reached ER (kcell ck) 0)

omit [FloatOps F] in
instance records_persistent (K : Dev nD × CK → ℕ) : BI.Persistent (records Vf Vb Vd R1b K) := by unfold records; infer_instance

omit [FloatOps F] in
theorem inv_at (K : Dev nD × CK → ℕ) (ck : Dev nD × CK) :
    records Vf Vb Vd R1b K ⊢ cellInv ER (ringRd Vf Vb Vd R1b) (K ck) (kcell ck) := by
  have h : (bigSep Finset.univ fun ck : Dev nD × CK => (cellInv ER (ringRd Vf Vb Vd R1b) (K ck) (kcell ck) : sProp 𝕄))
      ⊢ cellInv ER (ringRd Vf Vb Vd R1b) (K ck) (kcell ck) := bigSep_elim (Finset.mem_univ ck)
  unfold records; iintro ⟨H, -⟩; iapply h; iexact H
omit [FloatOps F] in
theorem reached_at (K : Dev nD × CK → ℕ) (ck : Dev nD × CK) :
    records Vf Vb Vd R1b K ⊢ (reached ER (kcell ck) 0 : sProp 𝕄) := by
  have h : (bigSep Finset.univ fun ck : Dev nD × CK => (reached ER (kcell ck) 0 : sProp 𝕄)) ⊢ reached ER (kcell ck) 0 :=
    bigSep_elim (Finset.mem_univ ck)
  unfold records; iintro ⟨-, H⟩; iapply h; iexact H

def posAt (c : Dev nD) (S : Finset CK) : sProp 𝕄 := bigSep S fun k => atPos ER (kcell (c, k)) 0 ∅ 0
def toksAt (c : Dev nD) (T : Finset TK) : sProp 𝕄 := bigSep T fun i => dutyTok ER (tokCell c i) 0 (tokDuty i)
def credsAt (c : Dev nD) : sProp 𝕄 :=
  iprop(cred (tallyAt (kcell (c, .bar)) () 9)
    ∗ (bigSep Finset.univ fun hs : Fin 3 × Fin 2 => cred (tallyAt (kcell (c, .fR hs.1 hs.2)) () N192))
    ∗ (bigSep Finset.univ fun hs : Fin 3 × Fin 2 => cred (tallyAt (kcell (c, .bR hs.1 hs.2)) () N192))
    ∗ (bigSep Finset.univ fun o : Fin 7 => cred (tallyAt (kcell (c, .dR o)) () N48)))

def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f)
    ∗ (∃ f : Buf (Elt F) ((c : Thread nD τ).loc cc0_scratch5), ((c : Thread nD τ).loc cc0_scratch5) ↦{fullShare} f))

def ghost (K : Dev nD × CK → ℕ) (c : Dev nD) : sProp 𝕄 :=
  iprop(records Vf Vb Vd R1b K ∗ posAt (F := F) c Finset.univ ∗ toksAt (F := F) c Finset.univ)

def start (c : Dev nD) : sProp 𝕄 :=
  iprop((∃ K, ghost Vf Vb Vd R1b K c) ∗ credsAt (F := F) c ∗ levAts L lv)

def Φ₀ (c : Dev nD) : sProp 𝕄 := iprop(start Vf Vb Vd R1b c ∗ scratch (F := F) c)
def Φ₁ (c : Dev nD) : sProp 𝕄 := iprop(scratch (F := F) c ∗ Pipeline.ownSems0 osem c)

variable (m : Mem F) (ρ : Dev nD → PrngReg) (outV : Dev nD → (cc0_stg2_0 : Ref sig .tc).ty.Contents (Elt F))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => Astg m ρ c
    | ⟨1, _⟩ => Bstg m ρ c
    | ⟨2, _⟩ => outV c
  Φ t := match t with
    | ⟨0, _⟩ => Φ₀ Vf Vb Vd R1b c
    | ⟨_ + 1, _⟩ => Φ₁ (F := F) c
  q _ := fullShare
  owed t := match t with
    | ⟨0, _⟩ => O₀ c
    | ⟨_ + 1, _⟩ => 0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × CK → ℕ) (c : Dev nD) : sProp 𝕄 :=
  iprop((ghost Vf Vb Vd R1b K c ∗ credsAt (F := F) c ∗ levAts L lv ∗ scratch (F := F) c)
    ∗ (dats Vf Vb Vd R1b m ρ outV 0 c).owesAt () t₀.castSucc
    ∗ (∃ d, stg c cc0_stg0_0 ((dats Vf Vb Vd R1b m ρ outV 0 c).before (0 : Fin 3) t₀ d))
    ∗ (∃ d, stg c cc0_stg1_0 ((dats Vf Vb Vd R1b m ρ outV 0 c).before (1 : Fin 3) t₀ d))
    ∗ (∃ d, stg c cc0_stg2_0 ((dats Vf Vb Vd R1b m ρ outV 0 c).before (2 : Fin 3) t₀ d)))

def bodyPost (c : Dev nD) : sProp 𝕄 :=
  iprop(Φ₁ (F := F) c ∗ (dats Vf Vb Vd R1b m ρ outV 0 c).owesAt () t₀.succ
    ∗ stg c cc0_stg0_0 (Astg m ρ c) ∗ stg c cc0_stg1_0 (Bstg m ρ c) ∗ stg c cc0_stg2_0 (outV c))

end

end Cert.KernelIdeal.Ring

end
-- ==== Proof.Launch.lean ====
/- From one device's body at a symbolic device to the run of the whole mesh. -/
import proofs.«900894_g7700000000000895_dist_matmul_mk_i_outk_m1536_n1536_k768_v7x_i32_f32_1_alg».proof.Proof.Ghost

noncomputable section

namespace Cert.KernelIdeal.Ring

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem ownSemFacts : Pipeline.OwnSemFacts cfg0.spec osem := by decide

theorem ckOf_ne_ck : ∀ (i : PK) (k : SK), ckOf i ≠ k.ck := by decide
theorem SK.ck_injective : Function.Injective SK.ck := by decide
theorem pk_of_ck_duty : ∀ i i' : PK, ckOf i = ckOf i' → tokDuty (.inl i) = tokDuty (.inl i') → i = i' := by decide

theorem tokOf_injective : Function.Injective (tokOf : Dev nD × TK → GSem nD τ sig × ℕ × Fin 9) := by
  rintro ⟨c, t⟩ ⟨c', t'⟩ h
  have hg : tokCell c t = tokCell c' t' := congrArg Prod.fst h
  have hd : tokDuty t = tokDuty t' := congrArg (fun x : GSem nD τ sig × ℕ × Fin 9 => x.2.2) h
  rcases t with i | k <;> rcases t' with i' | k'
  · change pcell c i = pcell c' i' at hg
    rw [pcell_eq, pcell_eq] at hg
    have h' := kcell_injective hg
    have h1 : pdev i c = pdev i' c' := congrArg Prod.fst h'
    have h2 : ckOf i = ckOf i' := congrArg Prod.snd h'
    obtain rfl := pk_of_ck_duty i i' h2 hd
    have h3 : c = c' := by rw [← pinv_pdev i c, h1, pinv_pdev]
    subst h3; rfl
  · exfalso
    change pcell c i = kcell (c', k'.ck) at hg
    rw [pcell_eq] at hg
    exact ckOf_ne_ck i k' (congrArg Prod.snd (kcell_injective hg))
  · exfalso
    change kcell (c, k.ck) = pcell c' i' at hg
    rw [pcell_eq] at hg
    exact ckOf_ne_ck i' k (congrArg Prod.snd (kcell_injective hg)).symm
  · change kcell (c, k.ck) = kcell (c', k'.ck) at hg
    have h' := kcell_injective hg
    have h1 : c = c' := congrArg Prod.fst h'
    have h2 : k = k' := SK.ck_injective (congrArg Prod.snd h')
    subst h1; subst h2; rfl

def ringCells : Finset (GSem nD τ sig) := Finset.univ.map ⟨kcell, kcell_injective⟩
def ringToks : Finset (GSem nD τ sig × ℕ × Fin 9) := Finset.univ.map ⟨tokOf, tokOf_injective⟩

def u₀ : UU :=
  (initOf (Pipeline.cells cfgs cellOf_inj) (Pipeline.launchToks cfgs cellOf_inj), initOf ringCells ringToks)

section
variable (Vf Vb : Dev nD → Fin 3 → Fin 2 → Vec F S192x768 .bf16) (Vd : Dev nD → Fin 7 → Vec F S48x1536 .bf16)
variable (R1b : Dev nD → (cc0_scratch4 : Ref sig .tc).ty.Contents (Elt F))

def dealt (c : Dev nD) : sProp 𝕄 :=
  iprop((bigSep Finset.univ fun k : CK => roundState ER (ringRd Vf Vb Vd R1b) (kcell (c, k)) 0)
    ∗ (bigSep Finset.univ fun k : CK => iprop(atPos ER (kcell (c, k)) 0 ∅ 0 ∗ reached ER (kcell (c, k)) 0))
    ∗ toksAt (F := F) c Finset.univ)

def started (c : Dev nD) : sProp 𝕄 := iprop(∃ K, ghost Vf Vb Vd R1b K c)

theorem fund_ring : BI.own (ER (initOf ringCells ringToks)) ⊢ (|==> bigSep Finset.univ (dealt Vf Vb Vd R1b) : sProp 𝕄) := by
  have hX (Φ : GSem nD τ sig → sProp 𝕄) :
      bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄))
      = bigSep Finset.univ fun c : Dev nD => toksAt (F := F) c Finset.univ := by
    unfold ringToks; rw [bigSep_map, bigSep_univ_prod]; rfl
  iintro HX
  imod (Rounds.fund ER (ringRd Vf Vb Vd R1b) ringCells ringToks) $$ HX with ⟨Hst, Hr, Hat, Htok⟩
  imodintro
  ihave Hst' := (Entails.of_eq (hX fun g => roundState ER (ringRd Vf Vb Vd R1b) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (kcell (c, .bar)) 0 := by
  unfold unscopedSems0; rw [bigSep_eq_bigSepL_of_eq [SemLoc.reg barS] (by decide) (by decide)]; rfl

theorem sems0 (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [unscopedSems0_eq, bigSep_univ_at (fun k : CK => (semVal (kcell (c, k)) 0 : sProp 𝕄)) CK.bar,
    ← bigSep_subtype_ne CK.bar (fun k : CK => (semVal (kcell (c, k)) 0 : sProp 𝕄))]
  unfold Pipeline.ownSems0
  iintro ⟨HO, HB⟩
  isplitl [HB]; · iexact HB
  iexact HO

theorem core_alloc (c : Dev nD) :
    iprop(Pipeline.ownSems0 (Ix := Unit) (Name := ℕ) (U := UU) (Lvl := ℕ) (Val := Elt F) (τ := τ) osem c ∗ unscopedSems0 c ∗ dealt Vf Vb Vd R1b c)
      ⊢ |={Set.univ}=> iprop((bigSep Finset.univ fun k : CK => iprop(∃ κ : ℕ, cellInv ER (ringRd Vf Vb Vd R1b) κ (kcell (c, k))))
          ∗ (bigSep Finset.univ fun k : CK => iprop(atPos ER (kcell (c, k)) 0 ∅ 0 ∗ reached ER (kcell (c, k)) 0))
          ∗ toksAt (F := F) c Finset.univ) := by
  unfold dealt
  iintro ⟨Hos, Hus, Hst, Hat, Htok⟩
  ihave Hv := (sems0 (F := F) c) $$ [Hos Hus]
  · isplitl [Hos] <;> iassumption
  imod (show iprop((bigSep Finset.univ fun k : CK => semVal (kcell (c, k)) 0)
        ∗ bigSep Finset.univ fun k : CK => roundState ER (ringRd Vf Vb Vd R1b) (kcell (c, k)) 0)
      ⊢ (|={Set.univ}=> bigSep Finset.univ fun k : CK => iprop(∃ κ : ℕ, cellInv ER (ringRd Vf Vb Vd R1b) κ (kcell (c, k))) : sProp 𝕄) from by
        rw [← bigSep_sep']
        exact (bigSep_mono fun k _ => (Rounds.body_intro ER (ringRd Vf Vb Vd R1b) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × CK → ℕ) (c : Dev nD) :
    iprop(records Vf Vb Vd R1b K ∗ posAt (F := F) c Finset.univ ∗ toksAt (F := F) c Finset.univ) ⊢ started Vf Vb Vd R1b c := by
  unfold started ghost
  iintro ⟨HR, HP, HT⟩
  iexists K
  isplitl [HR]; · iexact HR
  isplitl [HP] <;> iassumption

theorem regroup :
    (bigSep Finset.univ fun c : Dev nD => iprop((bigSep Finset.univ fun k : CK => iprop(∃ κ : ℕ, cellInv ER (ringRd Vf Vb Vd R1b) κ (kcell (c, k))))
          ∗ (bigSep Finset.univ fun k : CK => iprop(atPos ER (kcell (c, k)) 0 ∅ 0 ∗ reached ER (kcell (c, k)) 0))
          ∗ toksAt (F := F) c Finset.univ) : sProp 𝕄)
      ⊢ bigSep Finset.univ (started Vf Vb Vd R1b) := by
  rw [bigSep_sep', bigSep_sep', ← bigSep_univ_prod (fun ck : Dev nD × CK => iprop(∃ κ : ℕ, cellInv ER (ringRd Vf Vb Vd R1b) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (ringRd Vf Vb Vd R1b) κ (kcell ck) : sProp 𝕄))) $$ HI
  icases HK with ⟨%K, #HI⟩
  iapply (bigSep_with_persistent (R := records Vf Vb Vd R1b K) fun c _ => ghost_intro Vf Vb Vd R1b K c)
  isplitr
  · unfold records; isplitl; · iexact HI
    iexact HR
  · iapply (Entails.of_eq (bigSep_sep' Finset.univ (fun c : Dev nD => posAt (F := F) c Finset.univ) (fun c : Dev nD => toksAt (F := F) c Finset.univ)).symm)
    isplitl [Hat]; · unfold posAt; iexact Hat
    iexact Htok

theorem glob : (bigSep Finset.univ fun c => iprop(Pipeline.ownSems0 (Ix := Unit) (Name := ℕ) (U := UU) (Lvl := ℕ) (Val := Elt F) (τ := τ) osem c ∗ unscopedSems0 c ∗ dealt Vf Vb Vd R1b c) : sProp 𝕄)
    ⊢ |={Set.univ}=> bigSep Finset.univ (started Vf Vb Vd R1b) :=
  ((bigSep_mono fun c _ => core_alloc Vf Vb Vd R1b c).trans (bigSep_fupd _ _)).trans (BI.fupd_mono (regroup Vf Vb Vd R1b))

variable (m : Mem F) (ρ : Dev nD → PrngReg) (outV : Dev nD → (cc0_stg2_0 : Ref sig .tc).ty.Contents (Elt F))

theorem share_eq (c : Dev nD) (w : Fin cfg0.W) : (dats Vf Vb Vd R1b m ρ outV 0 c).share w = fullShare := by
  unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ started Vf Vb Vd R1b c)
      ⊢ |={Set.univ}=> iprop(start Vf Vb Vd R1b c ∗ emp) := by
  iintro ⟨-, Hlev, Hcr, -, HG⟩
  ihave Hc := (creds (F := F) c) $$ Hcr
  imodintro
  unfold start started credsAt
  isplitl
  · isplitl [HG]; · iexact HG
    isplitl [Hc]; · iexact Hc
    iexact Hlev
  · iempintro

theorem phi0_intro (c : Dev nD) :
    iprop(start Vf Vb Vd R1b c ∗ Pipeline.prefHeld Pipeline.Prefetch.none c (fun _ => fullShare.right) (fun k => k.elim0) ∗ Pipeline.scopedRest cfg0.spec c)
      ⊢ (dats Vf Vb Vd R1b m ρ outV 0 c).Φ 0 := by
  rw [show (dats Vf Vb Vd R1b m ρ outV 0 c).Φ 0 = Φ₀ Vf Vb Vd R1b c from rfl, scopedRest0_eq]
  unfold Φ₀ scratch
  iintro ⟨Hs, -, Hr⟩
  isplitl [Hs]; · iexact Hs
  iexact Hr

theorem phi1_exit (c : Dev nD) :
    (dats Vf Vb Vd R1b m ρ outV 0 c).Φ (Fin.last cfg0.N) ⊢ iprop(emp ∗ Pipeline.ownSems0 osem c ∗ Pipeline.scopedRest cfg0.spec c) := by
  rw [show (dats Vf Vb Vd R1b m ρ outV 0 c).Φ (Fin.last cfg0.N) = Φ₁ (F := F) c from rfl, scopedRest0_eq]
  unfold Φ₁ scratch
  iintro ⟨Hr, Hz⟩
  isplitr; · iempintro
  isplitl [Hz]; · iexact Hz
  iexact Hr

theorem waits (c : Dev nD) : (levAts L lv : sProp 𝕄) ⊢ Pipeline.cellsWaits cfgs (dats Vf Vb Vd R1b m ρ outV) () 0 c :=
  Pipeline.cellsWaits_intro cfgs (dats Vf Vb Vd R1b m ρ outV) () 0 c fun w s t => by
    have hq : kindOf (.dma (((cfgs 0).win w).sem s)) = none := by fin_cases w <;> fin_cases s <;> decide
    rcases t with ⟨_ | _, ht⟩
    · exact mayWait_stage (F := F) c _ hq Finset.univ
    · have h := mayWait_stage (F := F) c _ hq ∅
      rw [Orem_empty] at h
      exact h

def finalA (c : Dev nD) (w : Fin cfg0.W) : Buf (Elt F) ((cfg0.win w).arr.view.loc (c : Thread nD τ)) :=
  (dats Vf Vb Vd R1b m ρ outV 0 c).arrAt w cfg0.N

def QC : PUnit × MemSt nD τ sig (Elt F) → Prop := fun r =>
  ∀ c : Dev nD, ∀ w : Fin cfg0.W, r.2.mem ((cfg0.win w).arr.view.loc (c : Thread nD τ)) = finalA Vf Vb Vd R1b m ρ outV c w

set_option maxRecDepth 8000 in
theorem run_main (hbody : ∀ c, BodyObligation (dats Vf Vb Vd R1b m ρ outV 0 c) (defs₀ (F := F)) 𝒱₀ () Set.univ) :
    θ_run defs (onTc (τ := τ) (main (F := F))) (s₀ m ρ) (QC Vf Vb Vd R1b m ρ outV) :=
  Pipeline.θ_run_region_owing_glob_pf (fun p => (cfgs p).toPCfg) (fun p => (cfgs p).toPCfg_adm) (dats Vf Vb Vd R1b m ρ outV) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0)
    (hshare := share_eq Vf Vb Vd R1b m ρ outV)
    (hdistinct := winFacts0.arr_inj)
    (O₀ := O₀) (howed₀ := fun _ => rfl) (howedN := fun _ => rfl)
    (L := L) (lv := lv) (hL := L_of_ne) (hwaits := waits Vf Vb Vd R1b m ρ outV)
    (G := dealt Vf Vb Vd R1b) (G' := started Vf Vb Vd R1b) (u₀ := u₀)
    (hu₀ := by
      unfold u₀
      iintro Hu
      ihave H := (ownU_pair _ _) $$ Hu
      icases H with ⟨HP, HX⟩
      imod (fund_ring Vf Vb Vd R1b) $$ HX with HG
      imodintro
      isplitl [HP] <;> iassumption)
    (hglob := glob Vf Vb Vd R1b)
    (hA := fun _ _ => rfl) (hpf := fun _ k => k.elim0)
    (X := start Vf Vb Vd R1b) (Y := fun _ => iprop(emp)) (Z := fun _ => iprop(emp))
    (hX := start_intro Vf Vb Vd R1b m ρ) (hin := phi0_intro Vf Vb Vd R1b m ρ outV) (hout := phi1_exit Vf Vb Vd R1b m ρ outV)
    (QY := fun _ _ => True)
    (hY := fun c s' => by
      iintro ⟨-, -, HSI⟩
      imodintro
      isplitr; · ipureintro; trivial
      iexact HSI)
    (hQ := fun _ h c w => (h c).1 w)

theorem finalA_in0 (c : Dev nD) : finalA Vf Vb Vd R1b m ρ outV c (0 : Fin 3) = m ((c : Thread nD τ).loc main_arg0) :=
  (dats (F := F) Vf Vb Vd R1b m ρ outV 0 c).arrAt_in (0 : Fin 3) rfl _
theorem finalA_in1 (c : Dev nD) : finalA Vf Vb Vd R1b m ρ outV c (1 : Fin 3) = m ((c : Thread nD τ).loc main_arg1) :=
  (dats (F := F) Vf Vb Vd R1b m ρ outV 0 c).arrAt_in (1 : Fin 3) rfl _

theorem finalA_out (c : Dev nD) : finalA Vf Vb Vd R1b m ρ outV c (2 : Fin 3) = outV c := by
  unfold finalA
  refine ((dats (F := F) Vf Vb Vd R1b m ρ outV 0 c).arrAt_succ (2 : Fin 3) t₀).trans ?_
  rw [flush0_2 t₀, if_pos rfl]
  exact Memref.write_access_unit_zero_univ (Elt F) main_v1 (funext fun a => Nat.zero_mul _) _ _ (outV c)

theorem run_post (hbody : ∀ c, BodyObligation (dats Vf Vb Vd R1b m ρ outV 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outV c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c (2 : Fin 3)).trans (finalA_out Vf Vb Vd R1b m ρ outV c),
      (h c (0 : Fin 3)).trans (finalA_in0 Vf Vb Vd R1b m ρ outV c),
      (h c (1 : Fin 3)).trans (finalA_in1 Vf Vb Vd R1b m ρ outV c)⟩)
    (run_main Vf Vb Vd R1b m ρ outV hbody)

end

end Cert.KernelIdeal.Ring

end
-- ==== Proof.Vals.lean ====
/- The values that travel, as terms of the devices' own blocks: three ring hops over the four planes, each adding
   the device's own strip, then the sum over the eight places of a plane. -/
import proofs.«900894_g7700000000000895_dist_matmul_mk_i_outk_m1536_n1536_k768_v7x_i32_f32_1_alg».proof.Proof.Mesh
import Idealize.ShloMosaic.PureOps
import Idealize.ShloMosaic.Lib.ValueIdx

noncomputable section

namespace Cert.KernelIdeal.Ring

open Idealize.ShloMosaic Cert.KernelIdeal Cert.KernelIdeal.Gen Cert.KernelIdeal.Mesh
open Idealize.ShloMosaic.ValueIdx (ix2 idx2_lt0 idx2_lt1)

variable {F : FTy → Type} [FloatOps F]

abbrev zi (c : Dev nD) : ℕ := c.val / 8
abbrev wi (c : Dev nD) : ℕ := c.val % 8
abbrev q4 (n : ℕ) : Fin 4 := ⟨n % 4, Nat.mod_lt _ (by decide)⟩

theorem zi_lt (c : Dev nD) : zi c < 4 := by have h : c.val < 32 := c.isLt; show c.val / 8 < 4; omega
theorem wi_lt (c : Dev nD) : wi c < 8 := Nat.mod_lt _ (by decide)

variable (A : Dev nD → Vec F S1536x768 .f32) (B : Dev nD → Vec F S768x1536 .f32)

def aRows (c : Dev nD) (q : Fin 4) : Vec F S384x768 .f32 := fun i =>
  A c (ix2 (⟨384 * q.val + (i 0).val, by have := idx2_lt0 i; have := q.isLt; omega⟩ : Fin 1536)
    (⟨(i 1).val, idx2_lt1 i⟩ : Fin 768))

def bCols (c : Dev nD) (hf : Fin 2) : Vec F S768x768 .f32 := fun i =>
  B c (ix2 (⟨(i 0).val, idx2_lt0 i⟩ : Fin 768)
    (⟨768 * hf.val + (i 1).val, by have := idx2_lt1 i; have := hf.isLt; omega⟩ : Fin 1536))

def mm (c : Dev nD) (q : Fin 4) (hf : Fin 2) : FVec F S384x768 .f32 :=
  matmul dot_S384x768_S768x768_S384x768_1_0_0_1_n_n none (aRows A c q) (bCols B c hf) (constant S384x768 .f32 0x00000000#32)

def X (c : Dev nD) (q : Fin 4) (hf : Fin 2) (s : Fin 2) : FVec F S192x768 .f32 := fun i =>
  mm A B c q hf (ix2 (⟨192 * s.val + (i 0).val, by have := idx2_lt0 i; have := s.isLt; omega⟩ : Fin 384)
    (⟨(i 1).val, idx2_lt1 i⟩ : Fin 768))

def VfN : ℕ → Dev nD → Fin 2 → FVec F S192x768 .bf16
  | 0, c, s => truncf .bf16 (X A B c (q4 (zi c + 3)) 0 s) bitsLt_bf16_f32
  | h + 1, c, s => truncf .bf16 (addf (extf .f32 (VfN h (zl c) s) bitsLt_bf16_f32) (X A B c (q4 (zi c + 6 - h)) 0 s)) bitsLt_bf16_f32

def VbN : ℕ → Dev nD → Fin 2 → FVec F S192x768 .bf16
  | 0, c, s => truncf .bf16 (X A B c (q4 (zi c + 1)) 1 s) bitsLt_bf16_f32
  | h + 1, c, s => truncf .bf16 (addf (extf .f32 (VbN h (zr c) s) bitsLt_bf16_f32) (X A B c (q4 (zi c + 2 + h)) 1 s)) bitsLt_bf16_f32

def R1 (c : Dev nD) (hf : Fin 2) (s : Fin 2) : FVec F S192x768 .f32 :=
  match hf with
  | ⟨0, _⟩ => addf (extf .f32 (VfN A B 2 (zl c) s) bitsLt_bf16_f32) (X A B c (q4 (zi c)) 0 s)
  | ⟨1, _⟩ => addf (extf .f32 (VbN A B 2 (zr c) s) bitsLt_bf16_f32) (X A B c (q4 (zi c)) 1 s)

def R1full (c : Dev nD) : FVec F S384x1536 .f32 := fun i =>
  R1 A B c (⟨(i 1).val / 768, by have := idx2_lt1 i; omega⟩ : Fin 2) (⟨(i 0).val / 192, by have := idx2_lt0 i; omega⟩ : Fin 2)
    (ix2 (⟨(i 0).val % 192, Nat.mod_lt _ (by decide)⟩ : Fin 192) (⟨(i 1).val % 768, Nat.mod_lt _ (by decide)⟩ : Fin 768))

def R1b (c : Dev nD) : FVec F S384x1536 .bf16 := truncf .bf16 (R1full A B c) bitsLt_bf16_f32

def Vd (c : Dev nD) (o : Fin 7) : FVec F S48x1536 .bf16 := fun i =>
  R1b A B c (ix2 (⟨48 * ((wi c + o.val + 1) % 8) + (i 0).val, by have := idx2_lt0 i; omega⟩ : Fin 384)
    (⟨(i 1).val, idx2_lt1 i⟩ : Fin 1536))

def outN : ℕ → Dev nD → FVec F S48x1536 .f32
  | 0, c => fun i =>
      R1full A B c (ix2 (⟨48 * wi c + (i 0).val, by have := idx2_lt0 i; have := wi_lt c; omega⟩ : Fin 384)
        (⟨(i 1).val, idx2_lt1 i⟩ : Fin 1536))
  | n + 1, c =>
      if h : n < 7 then addf (outN n c) (extf .f32 (Vd A B (inp (7 - n) c) ⟨n, h⟩) bitsLt_bf16_f32) else outN n c

theorem outN_succ (n : ℕ) (h : n < 7) (c : Dev nD) :
    outN A B (n + 1) c = addf (outN A B n c) (extf .f32 (Vd A B (inp (7 - n) c) ⟨n, h⟩) bitsLt_bf16_f32) := by
  show (if h : n < 7 then _ else _) = _
  rw [dif_pos h]

def outVal (c : Dev nD) : FVec F S48x1536 .f32 := outN A B 7 c

end Cert.KernelIdeal.Ring

end
-- ==== Proof.Inst.lean ====
/- The schedule's values are the reduce-scatter's values at each device's own blocks. -/
import proofs.«900894_g7700000000000895_dist_matmul_mk_i_outk_m1536_n1536_k768_v7x_i32_f32_1_alg».proof.Proof.Stage
import proofs.«900894_g7700000000000895_dist_matmul_mk_i_outk_m1536_n1536_k768_v7x_i32_f32_1_alg».proof.Proof.Vals

noncomputable section

namespace Cert.KernelIdeal.Ring

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section
variable (m : Mem F) (ρ : Dev nD → PrngReg)

def VfI (c : Dev nD) (h : Fin 3) (s : Fin 2) : Vec F S192x768 .bf16 := VfN (Astg m ρ) (Bstg m ρ) h.val c s
def VbI (c : Dev nD) (h : Fin 3) (s : Fin 2) : Vec F S192x768 .bf16 := VbN (Astg m ρ) (Bstg m ρ) h.val c s
def VdI (c : Dev nD) (o : Fin 7) : Vec F S48x1536 .bf16 := Vd (Astg m ρ) (Bstg m ρ) c o
def R1bI (c : Dev nD) : (cc0_scratch4 : Ref sig .tc).ty.Contents (Elt F) := R1b (Astg m ρ) (Bstg m ρ) c
def outI (c : Dev nD) : (cc0_stg2_0 : Ref sig .tc).ty.Contents (Elt F) := outVal (Astg m ρ) (Bstg m ρ) c
end

end Cert.KernelIdeal.Ring

end
-- ==== Proof.BodyOb.lean ====
/- The body's run, regrouped into the form the launch asks for. -/
import proofs.«900894_g7700000000000895_dist_matmul_mk_i_outk_m1536_n1536_k768_v7x_i32_f32_1_alg».proof.Proof.Ghost
import proofs.«900894_g7700000000000895_dist_matmul_mk_i_outk_m1536_n1536_k768_v7x_i32_f32_1_alg».proof.Proof.Inst

noncomputable section

namespace Cert.KernelIdeal.Ring

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

section
variable (Vf Vb : Dev nD → Fin 3 → Fin 2 → Vec F S192x768 .bf16) (Vd : Dev nD → Fin 7 → Vec F S48x1536 .bf16)
variable (R1b : Dev nD → (cc0_scratch4 : Ref sig .tc).ty.Contents (Elt F))
variable (m : Mem F) (ρ : Dev nD → PrngReg) (outV : Dev nD → (cc0_stg2_0 : Ref sig .tc).ty.Contents (Elt F))

def bodyPre' (c : Dev nD) : sProp 𝕄 :=
  iprop(Φ₀ Vf Vb Vd R1b c ∗ (dats Vf Vb Vd R1b m ρ outV 0 c).owesAt () t₀.castSucc
    ∗ (∃ d, stg c cc0_stg0_0 ((dats Vf Vb Vd R1b m ρ outV 0 c).before (0 : Fin 3) t₀ d))
    ∗ (∃ d, stg c cc0_stg1_0 ((dats Vf Vb Vd R1b m ρ outV 0 c).before (1 : Fin 3) t₀ d))
    ∗ (∃ d, stg c cc0_stg2_0 ((dats Vf Vb Vd R1b m ρ outV 0 c).before (2 : Fin 3) t₀ d)))

set_option maxRecDepth 65536 in
theorem body_obligation_gen
    (hsb : ∀ (K : Dev nD × CK → ℕ) (c : Dev nD) (Kt : PUnit → sProp 𝕄),
      iprop(bodyPre Vf Vb Vd R1b m ρ outV K c ∗ (bodyPost Vf Vb Vd R1b m ρ outV c -∗ Kt ⟨⟩))
        ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            cc0_scratch6 cc0_scratch7 cc0_scratch8 cc0_scratch9 cc0_scratch10 cc0_scratch11) Kt)
    (c : Dev nD) : BodyObligation (dats Vf Vb Vd R1b m ρ outV 0 c) (defs₀ (F := F)) 𝒱₀ () Set.univ := fun t => by
  rw [fin_N t]
  rw [bigSep_W0, bigSep_W0]
  simp only [owns_whole_eq]
  show bodyPre' Vf Vb Vd R1b m ρ outV c ⊢ wp frame (wpE (defs₀ (F := F)) 𝒱₀ c none) Set.univ
    (cc0_body (Memref.whole cc0_stg0_0) (Memref.isWhole_whole _) (Memref.whole cc0_stg1_0) (Memref.isWhole_whole _)
            (Memref.whole cc0_stg2_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            cc0_scratch6 cc0_scratch7 cc0_scratch8 cc0_scratch9 cc0_scratch10 cc0_scratch11) (fun _ => bodyPost Vf Vb Vd R1b m ρ outV c)
  unfold bodyPre' Φ₀ start
  iintro ⟨⟨⟨⟨%K, Hg⟩, Hcr, Hlev⟩, Hscr⟩, Ho, Ha, Hb, Hout⟩
  iapply (hsb K c fun _ => bodyPost Vf Vb Vd R1b m ρ outV c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Ha]; · iexact Ha
    isplitl [Hb] <;> iassumption
  · iintro H; iexact H

end

theorem body_obligation_of (m : Mem F) (ρ : Dev nD → PrngReg)
    (hsb : ∀ (K : Dev nD × CK → ℕ) (c : Dev nD) (Kt : PUnit → sProp 𝕄),
      iprop(bodyPre (VfI m ρ) (VbI m ρ) (VdI m ρ) (R1bI m ρ) m ρ (outI m ρ) K c ∗ (bodyPost (VfI m ρ) (VbI m ρ) (VdI m ρ) (R1bI m ρ) m ρ (outI m ρ) c -∗ Kt ⟨⟩))
        ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            cc0_scratch6 cc0_scratch7 cc0_scratch8 cc0_scratch9 cc0_scratch10 cc0_scratch11) Kt)
    (c : Dev nD) :
    BodyObligation (dats (VfI m ρ) (VbI m ρ) (VdI m ρ) (R1bI m ρ) m ρ (outI m ρ) 0 c) (defs₀ (F := F)) 𝒱₀ () Set.univ :=
  body_obligation_gen (VfI m ρ) (VbI m ρ) (VdI m ρ) (R1bI m ρ) m ρ (outI m ρ) hsb c

end Cert.KernelIdeal.Ring

end
-- ==== Proof.RunOf.lean ====
/- The mesh's run: every device ends with the protocol's value and its arguments unchanged. -/
import proofs.«900894_g7700000000000895_dist_matmul_mk_i_outk_m1536_n1536_k768_v7x_i32_f32_1_alg».proof.Proof.Launch
import proofs.«900894_g7700000000000895_dist_matmul_mk_i_outk_m1536_n1536_k768_v7x_i32_f32_1_alg».proof.Proof.BodyOb

noncomputable section

namespace Cert.KernelIdeal.Ring

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

def BodyRun (F : FTy → Type) [FloatOps F] : Prop :=
  ∀ (m : Mem F) (ρ : Dev nD → PrngReg) (K : Dev nD × CK → ℕ) (c : Dev nD) (Kt : PUnit → sProp (MT nD τ sig Unit (Elt F) ℕ UU ℕ)),
    iprop(bodyPre (VfI m ρ) (VbI m ρ) (VdI m ρ) (R1bI m ρ) m ρ (outI m ρ) K c ∗ (bodyPost (VfI m ρ) (VbI m ρ) (VdI m ρ) (R1bI m ρ) m ρ (outI m ρ) c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            cc0_scratch6 cc0_scratch7 cc0_scratch8 cc0_scratch9 cc0_scratch10 cc0_scratch11) Kt

theorem run_of {F : FTy → Type} [FloatOps F] (hsb : BodyRun F) (m : Mem F) (ρ : Dev nD → PrngReg) :
    θ_run defs (onTc (τ := τ) (main (F := F))) ⟨m, fun _ => 0, ρ⟩ (fun r => ∀ c : Dev nD,
      r.2.mem ((c.tc : Thread nD τ).loc main_v1) = outI m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_post (VfI m ρ) (VbI m ρ) (VdI m ρ) (R1bI m ρ) m ρ (outI m ρ) (body_obligation_of m ρ (hsb m ρ))

end Cert.KernelIdeal.Ring

end
-- ==== Proof.ValsMath.lean ====
/- Over the extended reals the protocol's value on device c is rows 48 c … of the sum of all 32 products: only
   commutativity and associativity of + are used, each device being counted once. -/
import proofs.«900894_g7700000000000895_dist_matmul_mk_i_outk_m1536_n1536_k768_v7x_i32_f32_1_alg».proof.Proof.Vals
import Idealize.ShloMosaic.PureOps.Ideal.Laws
import Idealize.ShloMosaic.Lib.ValueIdx
import Idealize.ShloMosaic.Lib.Decide
import Mathlib.Algebra.BigOperators.Fin

noncomputable section

namespace Cert.KernelIdeal.Ring

open Idealize.ShloMosaic Cert.KernelIdeal Cert.KernelIdeal.Gen Cert.KernelIdeal.Mesh

open Idealize.ShloMosaic.ValueIdx (ix2)

variable (A : Dev nD → Vec Ideal S1536x768 .f32) (B : Dev nD → Vec Ideal S768x1536 .f32)

def P (d : Dev nD) (R J : Fin 1536) : EReal :=
  ∑ k : Fin 768, (show EReal from A d (ix2 R k)) * (show EReal from B d (ix2 k J))

theorem P_congr (d : Dev nD) {R R' J J' : Fin 1536} (hR : R.val = R'.val) (hJ : J.val = J'.val) :
    P A B d R J = P A B d R' J' := by
  rw [Fin.ext hR, Fin.ext hJ]

theorem lhs_mm_0 (i : S384x768.Idx) (q : dot_S384x768_S768x768_S384x768_1_0_0_1_n_n.contr.Idx) :
    (dot_S384x768_S768x768_S384x768_1_0_0_1_n_n.lhsIdx i q 0).val = (i 0).val := by
  unfold DotDims.lhsIdx
  rw [dif_neg (show ¬(0 : Fin S384x768.rank) ∈ dot_S384x768_S768x768_S384x768_1_0_0_1_n_n.lhsBatch by decide), dif_pos (show (0 : Fin S384x768.rank) ∈ dot_S384x768_S768x768_S384x768_1_0_0_1_n_n.lhsNonContracting by decide)]
  rfl
theorem lhs_mm_1 (i : S384x768.Idx) (q : dot_S384x768_S768x768_S384x768_1_0_0_1_n_n.contr.Idx) :
    (dot_S384x768_S768x768_S384x768_1_0_0_1_n_n.lhsIdx i q 1).val = (q ⟨0, by decide⟩).val :=
  dot_S384x768_S768x768_S384x768_1_0_0_1_n_n.lhsIdx_val_of_single rfl i q
theorem rhs_mm_0 (i : S384x768.Idx) (q : dot_S384x768_S768x768_S384x768_1_0_0_1_n_n.contr.Idx) :
    (dot_S384x768_S768x768_S384x768_1_0_0_1_n_n.rhsIdx i q 0).val = (q ⟨0, by decide⟩).val :=
  dot_S384x768_S768x768_S384x768_1_0_0_1_n_n.rhsIdx_val_of_single rfl i q
theorem rhs_mm_1 (i : S384x768.Idx) (q : dot_S384x768_S768x768_S384x768_1_0_0_1_n_n.contr.Idx) :
    (dot_S384x768_S768x768_S384x768_1_0_0_1_n_n.rhsIdx i q 1).val = (i 1).val := by
  unfold DotDims.rhsIdx
  rw [dif_neg (show ¬(1 : Fin S768x768.rank) ∈ dot_S384x768_S768x768_S384x768_1_0_0_1_n_n.rhsBatch by decide), dif_pos (show (1 : Fin S768x768.rank) ∈ dot_S384x768_S768x768_S384x768_1_0_0_1_n_n.rhsNonContracting by decide)]
  rfl

theorem mm_apply (c : Dev nD) (q : Fin 4) (hf : Fin 2) (r : Fin 384) (j : Fin 768) :
    mm (F := Ideal) A B c q hf (ix2 r j)
      = P A B c ⟨384 * q.val + r.val, by have := q.isLt; have := r.isLt; omega⟩
          ⟨768 * hf.val + j.val, by have := hf.isLt; have := j.isLt; omega⟩ := by
  unfold mm P
  simp only [matmul]
  rw [Ideal.matmul_constant_zero_apply, ← Equiv.sum_comp (ValueIdx.contrEquiv1 dot_S384x768_S768x768_S384x768_1_0_0_1_n_n 768 rfl rfl).symm]
  refine Finset.sum_congr rfl fun k _ => ?_
  have hk := ValueIdx.contrEquiv1_symm_val dot_S384x768_S768x768_S384x768_1_0_0_1_n_n 768 rfl rfl k
  have el : aRows A c q (dot_S384x768_S768x768_S384x768_1_0_0_1_n_n.lhsIdx (ix2 r j) ((ValueIdx.contrEquiv1 dot_S384x768_S768x768_S384x768_1_0_0_1_n_n 768 rfl rfl).symm k))
      = A c (ix2 (⟨384 * q.val + r.val, by have := q.isLt; have := r.isLt; omega⟩ : Fin 1536) k) := by
    unfold aRows
    exact congrArg (A c) (funext fun a => Fin.ext (by
      match a with
      | ⟨0, _⟩ => exact congrArg (384 * q.val + ·) (lhs_mm_0 (ix2 r j) _)
      | ⟨1, _⟩ => exact (lhs_mm_1 (ix2 r j) _).trans hk))
  have er : bCols B c hf (dot_S384x768_S768x768_S384x768_1_0_0_1_n_n.rhsIdx (ix2 r j) ((ValueIdx.contrEquiv1 dot_S384x768_S768x768_S384x768_1_0_0_1_n_n 768 rfl rfl).symm k))
      = B c (ix2 k (⟨768 * hf.val + j.val, by have := hf.isLt; have := j.isLt; omega⟩ : Fin 1536)) := by
    unfold bCols
    exact congrArg (B c) (funext fun a => Fin.ext (by
      match a with
      | ⟨0, _⟩ => exact (rhs_mm_0 (ix2 r j) _).trans hk
      | ⟨1, _⟩ => exact congrArg (768 * hf.val + ·) (rhs_mm_1 (ix2 r j) _)))
  rw [el, er]

theorem X_apply (c : Dev nD) (q : Fin 4) (hf s : Fin 2) (r : Fin 192) (j : Fin 768) :
    X (F := Ideal) A B c q hf s (ix2 r j)
      = P A B c ⟨384 * q.val + (192 * s.val + r.val), by have := q.isLt; have := s.isLt; have := r.isLt; omega⟩
          ⟨768 * hf.val + j.val, by have := hf.isLt; have := j.isLt; omega⟩ :=
  mm_apply A B c q hf ⟨192 * s.val + r.val, by have := s.isLt; have := r.isLt; omega⟩ j

def dev (z : Fin 4) (w : Fin 8) : Dev nD :=
  ⟨z.val * 8 + w.val, by have := z.isLt; have := w.isLt; show _ < 32; omega⟩
def wf (c : Dev nD) : Fin 8 := ⟨wi c, wi_lt c⟩

theorem ring_fwd (c : Dev nD) :
    [zl (zl (zl c)), zl (zl c), zl c, c].Perm ((List.finRange 4).map fun z => dev z (wf c)) := by
  revert c; decide
theorem ring_bwd (c : Dev nD) :
    [zr (zr (zr c)), zr (zr c), zr c, c].Perm ((List.finRange 4).map fun z => dev z (wf c)) := by
  revert c; decide

theorem list_sum_of_perm {α : Type} [DecidableEq α] {n : ℕ} (f : α → EReal) (l : List α) (g : Fin n → α)
    (h : l.Perm ((List.finRange n).map g)) : (l.map f).sum = ∑ z : Fin n, f (g z) := by
  rw [Fin.sum_univ_def, (h.map f).sum_eq, List.map_map]
  first | done | rfl

theorem sum4_fwd (f : Dev nD → EReal) (c : Dev nD) :
    f (zl (zl (zl c))) + f (zl (zl c)) + f (zl c) + f c = ∑ z : Fin 4, f (dev z (wf c)) := by
  rw [← list_sum_of_perm f _ _ (ring_fwd c)]
  simp only [List.map_cons, List.map_nil, List.sum_cons, List.sum_nil, add_zero, add_assoc]
theorem sum4_bwd (f : Dev nD → EReal) (c : Dev nD) :
    f (zr (zr (zr c))) + f (zr (zr c)) + f (zr c) + f c = ∑ z : Fin 4, f (dev z (wf c)) := by
  rw [← list_sum_of_perm f _ _ (ring_bwd c)]
  simp only [List.map_cons, List.map_nil, List.sum_cons, List.sum_nil, add_zero, add_assoc]

theorem R1_fwd_unfold (c : Dev nD) (s : Fin 2) (h0 : 0 < 2) (i : S192x768.Idx) :
    R1 (F := Ideal) A B c ⟨0, h0⟩ s i
      = X A B (zl (zl (zl c))) (q4 (zi (zl (zl (zl c))) + 3)) 0 s i
        + X A B (zl (zl c)) (q4 (zi (zl (zl c)) + 6 - 0)) 0 s i
        + X A B (zl c) (q4 (zi (zl c) + 6 - 1)) 0 s i
        + X A B c (q4 (zi c)) 0 s i := rfl
theorem R1_bwd_unfold (c : Dev nD) (s : Fin 2) (h1 : 1 < 2) (i : S192x768.Idx) :
    R1 (F := Ideal) A B c ⟨1, h1⟩ s i
      = X A B (zr (zr (zr c))) (q4 (zi (zr (zr (zr c))) + 1)) 1 s i
        + X A B (zr (zr c)) (q4 (zi (zr (zr c)) + 2 + 0)) 1 s i
        + X A B (zr c) (q4 (zi (zr c) + 2 + 1)) 1 s i
        + X A B c (q4 (zi c)) 1 s i := rfl

theorem q4_f0 (c : Dev nD) : q4 (zi (zl (zl (zl c))) + 3) = q4 (zi c) := by revert c; decide
theorem q4_f1 (c : Dev nD) : q4 (zi (zl (zl c)) + 6 - 0) = q4 (zi c) := by revert c; decide
theorem q4_f2 (c : Dev nD) : q4 (zi (zl c) + 6 - 1) = q4 (zi c) := by revert c; decide
theorem q4_b0 (c : Dev nD) : q4 (zi (zr (zr (zr c))) + 1) = q4 (zi c) := by revert c; decide
theorem q4_b1 (c : Dev nD) : q4 (zi (zr (zr c)) + 2 + 0) = q4 (zi c) := by revert c; decide
theorem q4_b2 (c : Dev nD) : q4 (zi (zr c) + 2 + 1) = q4 (zi c) := by revert c; decide

theorem R1_apply (c : Dev nD) (hf s : Fin 2) (r : Fin 192) (j : Fin 768) :
    R1 (F := Ideal) A B c hf s (ix2 r j)
      = ∑ z : Fin 4, P A B (dev z (wf c))
          ⟨384 * (q4 (zi c)).val + (192 * s.val + r.val), by have := (q4 (zi c)).isLt; have := s.isLt; have := r.isLt; omega⟩
          ⟨768 * hf.val + j.val, by have := hf.isLt; have := j.isLt; omega⟩ := by
  match hf with
  | ⟨0, h0⟩ =>
    rw [R1_fwd_unfold, q4_f0, q4_f1, q4_f2, X_apply, X_apply, X_apply, X_apply]
    exact sum4_fwd (fun d => P A B d _ _) c
  | ⟨1, h1⟩ =>
    rw [R1_bwd_unfold, q4_b0, q4_b1, q4_b2, X_apply, X_apply, X_apply, X_apply]
    exact sum4_bwd (fun d => P A B d _ _) c

theorem R1full_apply (c : Dev nD) (r : Fin 384) (j : Fin 1536) :
    R1full (F := Ideal) A B c (ix2 r j)
      = ∑ z : Fin 4, P A B (dev z (wf c)) ⟨384 * zi c + r.val, by have := zi_lt c; have := r.isLt; omega⟩ j := by
  refine (R1_apply A B c ⟨j.val / 768, by have := j.isLt; omega⟩ ⟨r.val / 192, by have := r.isLt; omega⟩
    ⟨r.val % 192, Nat.mod_lt _ (by decide)⟩ ⟨j.val % 768, Nat.mod_lt _ (by decide)⟩).trans ?_
  refine Finset.sum_congr rfl fun z _ => P_congr A B _ ?_ ?_
  · show 384 * (zi c % 4) + (192 * (r.val / 192) + r.val % 192) = 384 * zi c + r.val
    have := zi_lt c; omega
  · show 768 * (j.val / 768) + j.val % 768 = j.val
    omega

def rowOf (c : Dev nD) (r : Fin 48) : Fin 1536 :=
  ⟨384 * zi c + (48 * wi c + r.val), by have := zi_lt c; have := wi_lt c; have := r.isLt; omega⟩

def G (R J : Fin 1536) (w : Fin 8) : EReal := ∑ z : Fin 4, P A B (dev z w) R J

theorem outN_zero_apply (c : Dev nD) (r : Fin 48) (j : Fin 1536) :
    outN (F := Ideal) A B 0 c (ix2 r j) = G A B (rowOf c r) j (wf c) :=
  R1full_apply A B c ⟨48 * wi c + r.val, by have := wi_lt c; have := r.isLt; omega⟩ j

theorem Vd_apply (c : Dev nD) (o : Fin 7) (r : Fin 48) (j : Fin 1536) :
    Vd (F := Ideal) A B c o (ix2 r j)
      = ∑ z : Fin 4, P A B (dev z (wf c))
          ⟨384 * zi c + (48 * ((wi c + o.val + 1) % 8) + r.val), by have := zi_lt c; have := r.isLt; omega⟩ j :=
  R1full_apply A B c ⟨48 * ((wi c + o.val + 1) % 8) + r.val, by have := r.isLt; omega⟩ j

theorem zi_inp (o : ℕ) (c : Dev nD) : zi (inp o c) = zi c := by
  show (c.val / 8 * 8 + (c.val % 8 + o) % 8) / 8 = c.val / 8
  omega
theorem wi_inp_back (n : ℕ) (h : n < 7) (c : Dev nD) : (wi (inp (7 - n) c) + n + 1) % 8 = wi c := by
  show ((c.val / 8 * 8 + (c.val % 8 + (7 - n)) % 8) % 8 + n + 1) % 8 = c.val % 8
  omega

theorem Vd_sender (c : Dev nD) (n : ℕ) (h : n < 7) (r : Fin 48) (j : Fin 1536) :
    Vd (F := Ideal) A B (inp (7 - n) c) ⟨n, h⟩ (ix2 r j) = G A B (rowOf c r) j (wf (inp (7 - n) c)) := by
  rw [Vd_apply]
  unfold G
  refine Finset.sum_congr rfl fun z _ => P_congr A B _ ?_ rfl
  show 384 * zi (inp (7 - n) c) + (48 * ((wi (inp (7 - n) c) + n + 1) % 8) + r.val) = 384 * zi c + (48 * wi c + r.val)
  rw [zi_inp, wi_inp_back n h]

theorem outN_apply (c : Dev nD) (r : Fin 48) (j : Fin 1536) : ∀ n : ℕ, n ≤ 7 →
    outN (F := Ideal) A B n c (ix2 r j)
      = G A B (rowOf c r) j (wf c) + ∑ m ∈ Finset.range n, G A B (rowOf c r) j (wf (inp (7 - m) c))
  | 0, _ => by
    rw [Finset.sum_range_zero, add_zero]
    exact outN_zero_apply A B c r j
  | n + 1, hn => by
    have h : n < 7 := hn
    rw [Finset.sum_range_succ, ← add_assoc, ← outN_apply c r j n (Nat.le_of_lt h), ← Vd_sender A B c n h r j,
      outN_succ A B n h c]
    rfl

theorem plane_perm (c : Dev nD) :
    [wf c, wf (inp (7 - 0) c), wf (inp (7 - 1) c), wf (inp (7 - 2) c), wf (inp (7 - 3) c), wf (inp (7 - 4) c),
      wf (inp (7 - 5) c), wf (inp (7 - 6) c)].Perm ((List.finRange 8).map fun w => w) := by
  revert c; decide

theorem sum8 (g : Fin 8 → EReal) (c : Dev nD) :
    g (wf c) + ∑ m ∈ Finset.range 7, g (wf (inp (7 - m) c)) = ∑ w : Fin 8, g w := by
  rw [← list_sum_of_perm g _ (fun w => w) (plane_perm c)]
  simp only [Finset.sum_range_succ, Finset.sum_range_zero, zero_add, List.map_cons, List.map_nil, List.sum_cons,
    List.sum_nil, add_zero, add_assoc]

def devEquiv : Fin 8 × Fin 4 ≃ Dev nD where
  toFun p := dev p.2 p.1
  invFun d := (⟨d.val % 8, Nat.mod_lt _ (by decide)⟩, ⟨d.val / 8, by have h : d.val < 32 := d.isLt; omega⟩)
  left_inv p := by
    obtain ⟨⟨w, hw⟩, ⟨z, hz⟩⟩ := p
    refine Prod.ext (Fin.ext ?_) (Fin.ext ?_)
    · show (z * 8 + w) % 8 = w; omega
    · show (z * 8 + w) / 8 = z; omega
  right_inv d := by
    refine Fin.ext ?_
    show d.val / 8 * 8 + d.val % 8 = d.val; omega

theorem sum_devs (f : Dev nD → EReal) : ∑ w : Fin 8, ∑ z : Fin 4, f (dev z w) = ∑ d : Fin 32, f d := by
  rw [← Equiv.sum_comp devEquiv f, Fintype.sum_prod_type]
  first | done | rfl

theorem outVal_apply_of (c : Dev nD) (r : Fin 48) (j : Fin 1536) (R : Fin 1536) (hR : R.val = 48 * c.val + r.val) :
    outVal (F := Ideal) A B c (ix2 r j) = ∑ d : Fin 32, ∑ k : Fin 768, A d (ix2 R k) * B d (ix2 k j) := by
  show outN A B 7 c (ix2 r j) = _
  rw [outN_apply A B c r j 7 le_rfl, sum8 (G A B (rowOf c r) j) c]
  unfold G
  rw [sum_devs (fun d => P A B d (rowOf c r) j)]
  refine Finset.sum_congr rfl fun d _ => ?_
  rw [P_congr A B d (R' := R) (J' := j)
    (by show 384 * (c.val / 8) + (48 * (c.val % 8) + r.val) = R.val; rw [hR]; omega) rfl]
  rfl

theorem outVal_apply (c : Dev nD) (r : Fin 48) (j : Fin 1536) :
    outVal (F := Ideal) A B c (ix2 r j)
      = ∑ d : Fin 32, ∑ k : Fin 768,
          A d (ix2 (⟨48 * c.val + r.val, by have h : c.val < 32 := c.isLt; have := r.isLt; omega⟩ : Fin 1536) k) * B d (ix2 k j) :=
  outVal_apply_of A B c r j _ rfl

end Cert.KernelIdeal.Ring

end
-- ==== Proof.RefSide.lean ====
/- The reference's result entry by entry, as a sum over the 32 blocks of the inner dimension. -/
import proofs.«900894_g7700000000000895_dist_matmul_mk_i_outk_m1536_n1536_k768_v7x_i32_f32_1_alg».proof.Defs
import proofs.«900894_g7700000000000895_dist_matmul_mk_i_outk_m1536_n1536_k768_v7x_i32_f32_1_alg».proof.Proof.Gen.ReferenceIdeal
import proofs.«900894_g7700000000000895_dist_matmul_mk_i_outk_m1536_n1536_k768_v7x_i32_f32_1_alg».proof.Proof.Gen.Pre_finite_inputs_ReferenceIdeal
import proofs.«900894_g7700000000000895_dist_matmul_mk_i_outk_m1536_n1536_k768_v7x_i32_f32_1_alg».proof.Proof.Gen.ReferenceIdeal.Run
import proofs.«900894_g7700000000000895_dist_matmul_mk_i_outk_m1536_n1536_k768_v7x_i32_f32_1_alg».proof.Proof.Gen.ReferenceIdeal.Read
import Idealize.ShloMosaic.Lib.ValueIdx
import Idealize.ShloMosaic.Lib.Layout
import Idealize.ShloMosaic.Lib.Pipeline.Value
import Idealize.ShloMosaic.PureOps.Ideal.Laws
import Idealize.ShloMosaic.Lib.StableHlo.Run

noncomputable section

namespace Cert.RefSide

open Idealize.ShloMosaic Idealize.ShloMosaic.TcCoe Idealize.SL.Sem

open Cert.ReferenceIdeal Cert.ReferenceIdeal.Gen
open Idealize.ShloMosaic.ValueIdx (ix2)

theorem frame_ri : Cert.frame_ReferenceIdeal :=
  fun m ρ _ => (θ_run Cert.ReferenceIdeal.defs _ _).mono (fun _ h c => (h c).2)
    (Cert.ReferenceIdeal.Value.run (F := Ideal) m ρ)

def refOut (a : (⟨S1536x24576, .f32⟩ : BufTy).Contents (Elt Ideal))
    (b : (⟨S24576x1536, .f32⟩ : BufTy).Contents (Elt Ideal)) :
    (⟨S1536x1536, .f32⟩ : BufTy).Contents (Elt Ideal) :=
  Cert.ReferenceIdeal.Read.val_main_v0 (F := Ideal) a b

theorem refOut_apply (a : (⟨S1536x24576, .f32⟩ : BufTy).Contents (Elt Ideal))
    (b : (⟨S24576x1536, .f32⟩ : BufTy).Contents (Elt Ideal)) (i : S1536x1536.Idx) :
    refOut a b i = ∑ k : Fin 24576, a (Cert.ReferenceIdeal.Read.lidx_main_v0 i k) * b (Cert.ReferenceIdeal.Read.ridx_main_v0 i k) :=
  Cert.ReferenceIdeal.Read.val_main_v0_apply a b i

theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r =>
      r.2.mem (((0 : Dev Cert.ReferenceIdeal.nD).tc : Thread Cert.ReferenceIdeal.nD Cert.ReferenceIdeal.τ).loc Cert.ReferenceIdeal.main_v0)
          = refOut (m' (((0 : Dev Cert.ReferenceIdeal.nD).tc : Thread Cert.ReferenceIdeal.nD Cert.ReferenceIdeal.τ).loc Cert.ReferenceIdeal.main_arg0))
                   (m' (((0 : Dev Cert.ReferenceIdeal.nD).tc : Thread Cert.ReferenceIdeal.nD Cert.ReferenceIdeal.τ).loc Cert.ReferenceIdeal.main_arg1))
      ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
      ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) :=
  (θ_run Cert.ReferenceIdeal.defs _ _).mono (fun _ h => h 0)
    (Cert.ReferenceIdeal.Value.run (F := Ideal) m' ρ')

def splitK : Fin 32 × Fin 768 ≃ Fin 24576 where
  toFun p := ⟨p.1.val * 768 + p.2.val, by have := p.1.isLt; have := p.2.isLt; omega⟩
  invFun k := (⟨k.val / 768, by have := k.isLt; omega⟩, ⟨k.val % 768, Nat.mod_lt _ (by decide)⟩)
  left_inv p := by
    obtain ⟨⟨d, hd⟩, ⟨k, hk⟩⟩ := p
    refine Prod.ext (Fin.ext ?_) (Fin.ext ?_)
    · show (d * 768 + k) / 768 = d; omega
    · show (d * 768 + k) % 768 = k; omega
  right_inv k := by
    refine Fin.ext ?_
    show k.val / 768 * 768 + k.val % 768 = k.val; omega

theorem sum_splitK (f : Fin 24576 → EReal) :
    ∑ k : Fin 24576, f k = ∑ d : Fin 32, ∑ k : Fin 768, f (splitK (d, k)) := by
  rw [← Equiv.sum_comp splitK f, Fintype.sum_prod_type]

theorem refOut_block_of (a : (⟨S1536x24576, .f32⟩ : BufTy).Contents (Elt Ideal))
    (b : (⟨S24576x1536, .f32⟩ : BufTy).Contents (Elt Ideal))
    (c : Fin 32) (r : Fin 48) (j : Fin 1536) (R : Fin 1536) (hR : R.val = 48 * c.val + r.val) :
    (Layout.block ⟨2, ![48, 1536]⟩ ⟨2, ![1536, 1536]⟩ 0 32 c (refOut a b)) (ix2 r j)
      = ∑ d : Fin 32, ∑ k : Fin 768,
          (Layout.block ⟨2, ![1536, 768]⟩ ⟨2, ![1536, 24576]⟩ 1 32 d a) (ix2 R k)
            * (Layout.block ⟨2, ![768, 1536]⟩ ⟨2, ![24576, 1536]⟩ 0 32 d b) (ix2 k j) := by
  rw [Layout.block_apply, refOut_apply, sum_splitK]
  refine Finset.sum_congr rfl fun d _ => Finset.sum_congr rfl fun k _ => ?_
  rw [Layout.block_apply, Layout.block_apply]
  have el : Cert.ReferenceIdeal.Read.lidx_main_v0
      ((by decide : Layout.Tiles ⟨2, ![48, 1536]⟩ ⟨2, ![1536, 1536]⟩ 0 32).idx c (ix2 r j)) (splitK (d, k))
      = (by decide : Layout.Tiles ⟨2, ![1536, 768]⟩ ⟨2, ![1536, 24576]⟩ 1 32).idx d (ix2 R k) :=
    funext fun x => Fin.ext (by
      match x with
      | ⟨0, _⟩ => show c.val * 48 + r.val = R.val; omega
      | ⟨1, _⟩ => rfl)
  have er : Cert.ReferenceIdeal.Read.ridx_main_v0
      ((by decide : Layout.Tiles ⟨2, ![48, 1536]⟩ ⟨2, ![1536, 1536]⟩ 0 32).idx c (ix2 r j)) (splitK (d, k))
      = (by decide : Layout.Tiles ⟨2, ![768, 1536]⟩ ⟨2, ![24576, 1536]⟩ 0 32).idx d (ix2 k j) :=
    funext fun x => Fin.ext (by
      match x with
      | ⟨0, _⟩ => rfl
      | ⟨1, _⟩ => rfl)
  rw [el, er]

theorem refOut_block (a : (⟨S1536x24576, .f32⟩ : BufTy).Contents (Elt Ideal))
    (b : (⟨S24576x1536, .f32⟩ : BufTy).Contents (Elt Ideal))
    (c : Fin 32) (r : Fin 48) (j : Fin 1536) :
    (Layout.block ⟨2, ![48, 1536]⟩ ⟨2, ![1536, 1536]⟩ 0 32 c (refOut a b)) (ix2 r j)
      = ∑ d : Fin 32, ∑ k : Fin 768,
          (Layout.block ⟨2, ![1536, 768]⟩ ⟨2, ![1536, 24576]⟩ 1 32 d a)
              (ix2 (⟨48 * c.val + r.val, by have := c.isLt; have := r.isLt; omega⟩ : Fin 1536) k)
            * (Layout.block ⟨2, ![768, 1536]⟩ ⟨2, ![24576, 1536]⟩ 0 32 d b) (ix2 k j) :=
  refOut_block_of a b c r j _ rfl

end Cert.RefSide

end
-- ==== Proof.Bridge.lean ====
/- Both sides are the same sum over 32 devices and 768 inner positions. -/
import proofs.«900894_g7700000000000895_dist_matmul_mk_i_outk_m1536_n1536_k768_v7x_i32_f32_1_alg».proof.Proof.Stage
import proofs.«900894_g7700000000000895_dist_matmul_mk_i_outk_m1536_n1536_k768_v7x_i32_f32_1_alg».proof.Proof.ValsMath
import proofs.«900894_g7700000000000895_dist_matmul_mk_i_outk_m1536_n1536_k768_v7x_i32_f32_1_alg».proof.Proof.RefSide
import Idealize.ShloMosaic.Lib.Layout
import Idealize.ShloMosaic.Lib.ValueIdx

noncomputable section

namespace Cert.KernelIdeal.Ring

open Cert.KernelIdeal Cert.KernelIdeal.Gen Cert.KernelIdeal.Mesh
open Idealize.ShloMosaic
open Idealize.ShloMosaic.TcCoe
open Idealize.SL.Sem
open Idealize.ShloMosaic.ValueIdx (ix2)

variable {F : FTy → Type} [FloatOps F]

theorem Astg_eq (m : Mem F) (ρ : Dev nD → PrngReg) (c : Dev nD) :
    Astg m ρ c = m ((c : Thread nD τ).loc main_arg0) := by
  unfold Astg
  exact Memref.read_access_unit_zero (Elt F) main_arg0 (funext fun a => Nat.zero_mul _) _ _
theorem Bstg_eq (m : Mem F) (ρ : Dev nD → PrngReg) (c : Dev nD) :
    Bstg m ρ c = m ((c : Thread nD τ).loc main_arg1) := by
  unfold Bstg
  exact Memref.read_access_unit_zero (Elt F) main_arg1 (funext fun a => Nat.zero_mul _) _ _

theorem outVal_eq_refBlock
    (a : (⟨Cert.ReferenceIdeal.S1536x24576, .f32⟩ : BufTy).Contents (Elt Ideal))
    (b : (⟨Cert.ReferenceIdeal.S24576x1536, .f32⟩ : BufTy).Contents (Elt Ideal))
    (A : Dev nD → Vec Ideal S1536x768 .f32) (B : Dev nD → Vec Ideal S768x1536 .f32)
    (hA : ∀ d, A d = Layout.block ⟨2, ![1536, 768]⟩ ⟨2, ![1536, 24576]⟩ 1 32 d a)
    (hB : ∀ d, B d = Layout.block ⟨2, ![768, 1536]⟩ ⟨2, ![24576, 1536]⟩ 0 32 d b)
    (c : Dev nD) :
    outVal (F := Ideal) A B c
      = Layout.block ⟨2, ![48, 1536]⟩ ⟨2, ![1536, 1536]⟩ 0 32 c (Cert.RefSide.refOut a b) := by
  funext i
  obtain ⟨r, j, rfl⟩ : ∃ (r : Fin 48) (j : Fin 1536), i = ix2 r j := ⟨i 0, i 1, ValueIdx.eq_ix2 i⟩
  rw [outVal_apply, Cert.RefSide.refOut_block]
  simp only [hA, hB]

theorem bridge (m : Mem Ideal) (ρ : Dev nD → PrngReg)
    (m' : (ℓ : Loc Cert.ReferenceIdeal.nD Cert.ReferenceIdeal.τ Cert.ReferenceIdeal.sig) → Buf (Elt Ideal) ℓ)
    (hagree : ∀ c : Dev Cert.KernelIdeal.nD,
      m ((c.tc : Thread Cert.KernelIdeal.nD Cert.KernelIdeal.τ).loc Cert.KernelIdeal.main_arg0) = Layout.block ⟨2, ![1536, 768]⟩ ⟨2, ![1536, 24576]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![768, 1536]⟩ ⟨2, ![24576, 1536]⟩ 0 32 c (m' (((0 : Dev Cert.ReferenceIdeal.nD).tc : Thread Cert.ReferenceIdeal.nD Cert.ReferenceIdeal.τ).loc Cert.ReferenceIdeal.main_arg1)))
    (c : Dev nD) :
    outVal (F := Ideal) (Astg m ρ) (Bstg m ρ) c
      = Layout.block ⟨2, ![48, 1536]⟩ ⟨2, ![1536, 1536]⟩ 0 32 c
          (Cert.RefSide.refOut
            (m' (((0 : Dev Cert.ReferenceIdeal.nD).tc : Thread Cert.ReferenceIdeal.nD Cert.ReferenceIdeal.τ).loc Cert.ReferenceIdeal.main_arg0))
            (m' (((0 : Dev Cert.ReferenceIdeal.nD).tc : Thread Cert.ReferenceIdeal.nD Cert.ReferenceIdeal.τ).loc Cert.ReferenceIdeal.main_arg1))) :=
  outVal_eq_refBlock _ _ _ _ (fun d => (Astg_eq m ρ d).trans (hagree d).1)
    (fun d => (Bstg_eq m ρ d).trans (hagree d).2) c

end Cert.KernelIdeal.Ring

end
-- ==== Proof.Claims.lean ====
/- The claims about the idealised program, from one device's body. -/
import proofs.«900894_g7700000000000895_dist_matmul_mk_i_outk_m1536_n1536_k768_v7x_i32_f32_1_alg».proof.Proof.RunOf
import proofs.«900894_g7700000000000895_dist_matmul_mk_i_outk_m1536_n1536_k768_v7x_i32_f32_1_alg».proof.Proof.Bridge
import proofs.«900894_g7700000000000895_dist_matmul_mk_i_outk_m1536_n1536_k768_v7x_i32_f32_1_alg».proof.Proof.RefSide
import proofs.«900894_g7700000000000895_dist_matmul_mk_i_outk_m1536_n1536_k768_v7x_i32_f32_1_alg».proof.Defs
import proofs.«900894_g7700000000000895_dist_matmul_mk_i_outk_m1536_n1536_k768_v7x_i32_f32_1_alg».proof.Proof.Gen.KernelIdeal
import proofs.«900894_g7700000000000895_dist_matmul_mk_i_outk_m1536_n1536_k768_v7x_i32_f32_1_alg».proof.Proof.Gen.ReferenceIdeal
import proofs.«900894_g7700000000000895_dist_matmul_mk_i_outk_m1536_n1536_k768_v7x_i32_f32_1_alg».proof.Proof.Gen.Pre_finite_inputs_Kernel
import proofs.«900894_g7700000000000895_dist_matmul_mk_i_outk_m1536_n1536_k768_v7x_i32_f32_1_alg».proof.Proof.Gen.Pre_finite_inputs_ReferenceIdeal

noncomputable section

namespace Cert.KernelIdeal.Ring

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

theorem frame_pi_of (hsb : BodyRun Ideal) : Cert.frame_KernelIdeal :=
  fun m g _ => (θ_run Cert.KernelIdeal.defs _ _).mono (fun _ h c => (h c).2) (run_of hsb m g)

theorem algebraic_of (hsb : BodyRun Ideal) : Cert.algebraic_KernelIdeal_ReferenceIdeal :=
  fun m g m' g' _ hagree =>
    ⟨Cert.RefSide.refOut
        (m' (((0 : Dev Cert.ReferenceIdeal.nD).tc : Thread Cert.ReferenceIdeal.nD Cert.ReferenceIdeal.τ).loc Cert.ReferenceIdeal.main_arg0))
        (m' (((0 : Dev Cert.ReferenceIdeal.nD).tc : Thread Cert.ReferenceIdeal.nD Cert.ReferenceIdeal.τ).loc Cert.ReferenceIdeal.main_arg1)),
      (θ_run Cert.KernelIdeal.defs _ _).mono (fun _ h c => ⟨((h c).1).trans (bridge m g m' hagree c), (h c).2⟩) (run_of hsb m g),
      Cert.RefSide.ref_run m' g'⟩

end Cert.KernelIdeal.Ring

end
-- ==== Proof.K.Mesh.lean ====
/- The 32 devices as four planes of eight places, and the neighbours a device addresses as arithmetic on its number. -/
import proofs.«900894_g7700000000000895_dist_matmul_mk_i_outk_m1536_n1536_k768_v7x_i32_f32_1_alg».proof.Proof.Gen.Kernel
import Idealize.ShloMosaic.Lib.Decide

set_option Elab.async false

namespace Cert.Kernel.Mesh

open Idealize.ShloMosaic Cert.Kernel Cert.Kernel.Gen

def zr (c : Dev nD) : Dev nD := ⟨((c.val / 8 + 1) % 4) * 8 + c.val % 8, by have h : c.val < 32 := c.isLt; show _ < 32; omega⟩
def zl (c : Dev nD) : Dev nD := ⟨((c.val / 8 + 3) % 4) * 8 + c.val % 8, by have h : c.val < 32 := c.isLt; show _ < 32; omega⟩
def inp (o : ℕ) (c : Dev nD) : Dev nD := ⟨(c.val / 8) * 8 + (c.val % 8 + o) % 8, by have h : c.val < 32 := c.isLt; show _ < 32; omega⟩

theorem zl_zr (c : Dev nD) : zl (zr c) = c := by revert c; decide
theorem zr_zl (c : Dev nD) : zr (zl c) = c := by revert c; decide
theorem inp_inp (o : Fin 7) (c : Dev nD) : inp (7 - o.val) (inp (o.val + 1) c) = c := by revert o c; decide
theorem inp_inp' (o : Fin 7) (c : Dev nD) : inp (o.val + 1) (inp (7 - o.val) c) = c := by revert o c; decide

theorem dev1_eq (c : Dev nD) : (⟨k0_dev1 c, k0_dev1_lt c⟩ : Dev nD) = zl c := Fin.ext (by revert c; decide +kernel)
theorem dev2_eq (c : Dev nD) : (⟨k0_dev2 c, k0_dev2_lt c⟩ : Dev nD) = zr c := Fin.ext (by revert c; decide +kernel)
theorem dev3_eq (c : Dev nD) : (⟨k0_dev3 c, k0_dev3_lt c⟩ : Dev nD) = inp 1 c := Fin.ext (by revert c; decide +kernel)
theorem dev4_eq (c : Dev nD) : (⟨k0_dev4 c, k0_dev4_lt c⟩ : Dev nD) = inp 2 c := Fin.ext (by revert c; decide +kernel)
theorem dev5_eq (c : Dev nD) : (⟨k0_dev5 c, k0_dev5_lt c⟩ : Dev nD) = inp 3 c := Fin.ext (by revert c; decide +kernel)
theorem dev6_eq (c : Dev nD) : (⟨k0_dev6 c, k0_dev6_lt c⟩ : Dev nD) = inp 4 c := Fin.ext (by revert c; decide +kernel)
theorem dev7_eq (c : Dev nD) : (⟨k0_dev7 c, k0_dev7_lt c⟩ : Dev nD) = inp 5 c := Fin.ext (by revert c; decide +kernel)
theorem dev8_eq (c : Dev nD) : (⟨k0_dev8 c, k0_dev8_lt c⟩ : Dev nD) = inp 6 c := Fin.ext (by revert c; decide +kernel)
theorem dev9_eq (c : Dev nD) : (⟨k0_dev9 c, k0_dev9_lt c⟩ : Dev nD) = inp 7 c := Fin.ext (by revert c; decide +kernel)
theorem dev10_eq (c : Dev nD) : (⟨k0_dev10 c, k0_dev10_lt c⟩ : Dev nD) = zr c := Fin.ext (by revert c; decide +kernel)
theorem dev11_eq (c : Dev nD) : (⟨k0_dev11 c, k0_dev11_lt c⟩ : Dev nD) = zr c := Fin.ext (by revert c; decide +kernel)
theorem dev12_eq (c : Dev nD) : (⟨k0_dev12 c, k0_dev12_lt c⟩ : Dev nD) = zl c := Fin.ext (by revert c; decide +kernel)
theorem dev13_eq (c : Dev nD) : (⟨k0_dev13 c, k0_dev13_lt c⟩ : Dev nD) = zl c := Fin.ext (by revert c; decide +kernel)
theorem dev14_eq (c : Dev nD) : (⟨k0_dev14 c, k0_dev14_lt c⟩ : Dev nD) = zr c := Fin.ext (by revert c; decide +kernel)
theorem dev15_eq (c : Dev nD) : (⟨k0_dev15 c, k0_dev15_lt c⟩ : Dev nD) = zl c := Fin.ext (by revert c; decide +kernel)
theorem dev16_eq (c : Dev nD) : (⟨k0_dev16 c, k0_dev16_lt c⟩ : Dev nD) = zr c := Fin.ext (by revert c; decide +kernel)
theorem dev17_eq (c : Dev nD) : (⟨k0_dev17 c, k0_dev17_lt c⟩ : Dev nD) = zl c := Fin.ext (by revert c; decide +kernel)
theorem dev18_eq (c : Dev nD) : (⟨k0_dev18 c, k0_dev18_lt c⟩ : Dev nD) = zr c := Fin.ext (by revert c; decide +kernel)
theorem dev19_eq (c : Dev nD) : (⟨k0_dev19 c, k0_dev19_lt c⟩ : Dev nD) = zl c := Fin.ext (by revert c; decide +kernel)
theorem dev20_eq (c : Dev nD) : (⟨k0_dev20 c, k0_dev20_lt c⟩ : Dev nD) = zr c := Fin.ext (by revert c; decide +kernel)
theorem dev21_eq (c : Dev nD) : (⟨k0_dev21 c, k0_dev21_lt c⟩ : Dev nD) = zl c := Fin.ext (by revert c; decide +kernel)
theorem dev22_eq (c : Dev nD) : (⟨k0_dev22 c, k0_dev22_lt c⟩ : Dev nD) = inp 1 c := Fin.ext (by revert c; decide +kernel)
theorem dev23_eq (c : Dev nD) : (⟨k0_dev23 c, k0_dev23_lt c⟩ : Dev nD) = inp 2 c := Fin.ext (by revert c; decide +kernel)
theorem dev24_eq (c : Dev nD) : (⟨k0_dev24 c, k0_dev24_lt c⟩ : Dev nD) = inp 3 c := Fin.ext (by revert c; decide +kernel)
theorem dev25_eq (c : Dev nD) : (⟨k0_dev25 c, k0_dev25_lt c⟩ : Dev nD) = inp 4 c := Fin.ext (by revert c; decide +kernel)
theorem dev26_eq (c : Dev nD) : (⟨k0_dev26 c, k0_dev26_lt c⟩ : Dev nD) = inp 5 c := Fin.ext (by revert c; decide +kernel)
theorem dev27_eq (c : Dev nD) : (⟨k0_dev27 c, k0_dev27_lt c⟩ : Dev nD) = inp 6 c := Fin.ext (by revert c; decide +kernel)
theorem dev28_eq (c : Dev nD) : (⟨k0_dev28 c, k0_dev28_lt c⟩ : Dev nD) = inp 7 c := Fin.ext (by revert c; decide +kernel)

end Cert.Kernel.Mesh
-- ==== Proof.K.Cells.lean ====
/- Shared vocabulary: the buffers, the pieces they are held by, and the semaphore cells. -/
import proofs.«900894_g7700000000000895_dist_matmul_mk_i_outk_m1536_n1536_k768_v7x_i32_f32_1_alg».proof.Proof.K.Mesh
import proofs.«900894_g7700000000000895_dist_matmul_mk_i_outk_m1536_n1536_k768_v7x_i32_f32_1_alg».proof.Proof.Gen.Kernel.Skeleton
import proofs.«900894_g7700000000000895_dist_matmul_mk_i_outk_m1536_n1536_k768_v7x_i32_f32_1_alg».proof.Proof.Gen.Kernel.Launch
import proofs.«900894_g7700000000000895_dist_matmul_mk_i_outk_m1536_n1536_k768_v7x_i32_f32_1_alg».proof.Proof.Gen.Kernel.Points
import Idealize.ShloMosaic.Lib.Pipeline.Launch
import Idealize.ShloMosaic.Lib.Pipeline.Kit
import Idealize.ShloMosaic.Lib.Pipeline.FrameBody
import Idealize.ShloMosaic.Lib.Pipeline.Value
import Idealize.ShloMosaic.Lib.Ring
import Idealize.ShloMosaic.Lib.Tactic
import Mathlib.Tactic.DeriveFintype

noncomputable section

namespace Cert.Kernel.Ring

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 9)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev Mem (F : FTy → Type) : Type := (ℓ : Loc nD τ sig) → Buf (Elt F) ℓ

def s₀ (m : Mem F) (ρ : Dev nD → PrngReg) : MemSt nD τ sig (Elt F) := ⟨m, fun _ => 0, ρ⟩

abbrev 𝒱₀ : Variants := Variants.none

abbrev aM : Memref sig .tc .vmem S1536x768 .f32 := Memref.whole cc0_stg0_0
abbrev bM : Memref sig .tc .vmem S768x1536 .f32 := Memref.whole cc0_stg1_0
abbrev oM : Memref sig .tc .vmem S48x1536 .f32 := Memref.whole cc0_stg2_0
abbrev pM : Memref sig .tc .vmem S1536x1536 .f32 := Memref.whole cc0_scratch0
abbrev cfM : Memref sig .tc .vmem S4x384x768 .bf16 := Memref.whole cc0_scratch1
abbrev cbM : Memref sig .tc .vmem S4x384x768 .bf16 := Memref.whole cc0_scratch2
abbrev r1M : Memref sig .tc .vmem S384x1536 .f32 := Memref.whole cc0_scratch3
abbrev r1bM : Memref sig .tc .vmem S384x1536 .bf16 := Memref.whole cc0_scratch4
abbrev cdM : Memref sig .tc .vmem S7x48x1536 .bf16 := Memref.whole cc0_scratch5

abbrev pieceOff (k : Fin 4) (s : Fin 2) : Fin 3 → Nat := ![k.val, 192 * s.val, 0]
theorem piece_inb : ∀ (k : Fin 4) (s : Fin 2) a, pieceOff k s a + S1x192x768.size a ≤ S4x384x768.size a := by decide
abbrev pieceR (k : Fin 4) (s : Fin 2) : Rect S4x384x768 := Rect.unit (s := S4x384x768) (pieceOff k s) S1x192x768.size (piece_inb k s)
abbrev cfP (k : Fin 4) (s : Fin 2) : Memref sig .tc .vmem S192x768 .bf16 :=
  (cfM.slice (pieceR k s) (fun _ => rfl)).squeeze S192x768 squeezes_S1x192x768_S192x768
abbrev cbP (k : Fin 4) (s : Fin 2) : Memref sig .tc .vmem S192x768 .bf16 :=
  (cbM.slice (pieceR k s) (fun _ => rfl)).squeeze S192x768 squeezes_S1x192x768_S192x768

abbrev cdOff (o : Fin 7) : Fin 3 → Nat := ![o.val, 0, 0]
theorem cd_inb : ∀ (o : Fin 7) a, cdOff o a + S1x48x1536.size a ≤ S7x48x1536.size a := by decide
abbrev cdR (o : Fin 7) : Rect S7x48x1536 := Rect.unit (s := S7x48x1536) (cdOff o) S1x48x1536.size (cd_inb o)
abbrev cdP (o : Fin 7) : Memref sig .tc .vmem S48x1536 .bf16 :=
  (cdM.slice (cdR o) (fun _ => rfl)).squeeze S48x1536 squeezes_S1x48x1536_S48x1536

abbrev chR (c : Dev nD) (o : Fin 7) : Rect S384x1536 :=
  Rect.unit (s := S384x1536) (k0_off11 c (BitVec.ofNat 32 (1 + o.val))) S48x1536.size (k0_off11_inb c o)
abbrev chM (c : Dev nD) (o : Fin 7) : Memref sig .tc .vmem S48x1536 .bf16 := r1bM.slice (chR c o) (fun _ => rfl)

abbrev N192 : ℕ := (cfP 0 0).view.dmaCredit
abbrev N48 : ℕ := (cdP 0).view.dmaCredit
theorem N192_pos : 0 < N192 := View.dmaCredit_pos _ (by decide)
theorem N48_pos : 0 < N48 := View.dmaCredit_pos _ (by decide)

abbrev barS : Sem sig := (SemArray.scalar (sig.barrier 0 rfl) : Sems sig S_).sem

abbrev fSs (h : Fin 3) (s : Fin 2) : DmaSem sig := ⟨3 + 4 * h.val + s.val, by have := h.isLt; have := s.isLt; show _ < 65; omega⟩
abbrev fRs (h : Fin 3) (s : Fin 2) : DmaSem sig := ⟨15 + 4 * h.val + s.val, by have := h.isLt; have := s.isLt; show _ < 65; omega⟩
abbrev bSs (h : Fin 3) (s : Fin 2) : DmaSem sig := ⟨27 + 4 * h.val + s.val, by have := h.isLt; have := s.isLt; show _ < 65; omega⟩
abbrev bRs (h : Fin 3) (s : Fin 2) : DmaSem sig := ⟨39 + 4 * h.val + s.val, by have := h.isLt; have := s.isLt; show _ < 65; omega⟩
abbrev dSs (o : Fin 7) : DmaSem sig := ⟨51 + o.val, by have := o.isLt; show _ < 65; omega⟩
abbrev dRs (o : Fin 7) : DmaSem sig := ⟨58 + o.val, by have := o.isLt; show _ < 65; omega⟩

inductive CK
  | bar
  | fS (h : Fin 3) (s : Fin 2) | fR (h : Fin 3) (s : Fin 2)
  | bS (h : Fin 3) (s : Fin 2) | bR (h : Fin 3) (s : Fin 2)
  | dS (o : Fin 7) | dR (o : Fin 7)
  deriving DecidableEq, Fintype

def csem : CK → SemLoc sig
  | .bar => .reg barS
  | .fS h s => .dma (fSs h s) | .fR h s => .dma (fRs h s)
  | .bS h s => .dma (bSs h s) | .bR h s => .dma (bRs h s)
  | .dS o => .dma (dSs o) | .dR o => .dma (dRs o)

abbrev kcell (ck : Dev nD × CK) : GSem nD τ sig := ((ck.1 : Thread nD τ), csem ck.2)

def kindOf : SemLoc sig → Option CK
  | .reg s => if s = barS then some .bar else none
  | .dma q =>
    if h : 3 ≤ q.val ∧ q.val < 15 ∧ (q.val - 3) % 4 < 2 then some (.fS ⟨(q.val - 3) / 4, by omega⟩ ⟨(q.val - 3) % 4, h.2.2⟩)
    else if h : 15 ≤ q.val ∧ q.val < 27 ∧ (q.val - 15) % 4 < 2 then some (.fR ⟨(q.val - 15) / 4, by omega⟩ ⟨(q.val - 15) % 4, h.2.2⟩)
    else if h : 27 ≤ q.val ∧ q.val < 39 ∧ (q.val - 27) % 4 < 2 then some (.bS ⟨(q.val - 27) / 4, by omega⟩ ⟨(q.val - 27) % 4, h.2.2⟩)
    else if h : 39 ≤ q.val ∧ q.val < 51 ∧ (q.val - 39) % 4 < 2 then some (.bR ⟨(q.val - 39) / 4, by omega⟩ ⟨(q.val - 39) % 4, h.2.2⟩)
    else if h : 51 ≤ q.val ∧ q.val < 58 then some (.dS ⟨q.val - 51, by omega⟩)
    else if h : 58 ≤ q.val ∧ q.val < 65 then some (.dR ⟨q.val - 58, by omega⟩)
    else none

theorem kindOf_csem : ∀ k : CK, kindOf (csem k) = some k := by decide
theorem csem_injective : Function.Injective csem := fun a b h => Option.some.inj ((kindOf_csem a).symm.trans ((congrArg kindOf h).trans (kindOf_csem b)))
theorem kcell_injective : Function.Injective (kcell : Dev nD × CK → GSem nD τ sig) := by
  rintro ⟨c, k⟩ ⟨c', k'⟩ h
  have h1 : c = c' := congrArg (fun g : GSem nD τ sig => g.1.1) h
  subst h1
  have : k = k' := csem_injective (congrArg Prod.snd h)
  subst this; rfl

def amt : CK → ℕ
  | .bar => 1
  | .dS _ | .dR _ => N48
  | _ => N192
theorem amt_pos (k : CK) : 0 < amt k := by cases k <;> first | exact Nat.one_pos | exact N192_pos | exact N48_pos

end Cert.Kernel.Ring

end
-- ==== Proof.K.Sched.lean ====
/- The schedule: each cell has one round; a payment hands the cell's owner the piece it concerns, holding the value sent. -/
import proofs.«900894_g7700000000000895_dist_matmul_mk_i_outk_m1536_n1536_k768_v7x_i32_f32_1_alg».proof.Proof.K.Cells

noncomputable section

namespace Cert.Kernel.Ring

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

def holds (c : Dev nD) {s : Shape} {e : EltTy} (M : Memref sig .tc .vmem s e) (V : Vec F s e) : sProp 𝕄 :=
  iprop(∃ f : Buf (Elt F) (M.view.loc (c : Thread nD τ)), ⌜M.view.read (Elt F) f = V⌝ ∗ (M.view.loc (c : Thread nD τ) ↦[M.view.set]{fullShare} f))
def free (c : Dev nD) {s : Shape} {e : EltTy} (M : Memref sig .tc .vmem s e) : sProp 𝕄 :=
  iprop(∃ f : Buf (Elt F) (M.view.loc (c : Thread nD τ)), (M.view.loc (c : Thread nD τ) ↦[M.view.set]{fullShare} f))

omit [FloatOps F] in
instance holds_storable (c : Dev nD) {s : Shape} {e : EltTy} (M : Memref sig .tc .vmem s e) (V : Vec F s e) :
    BI.Storable (upEmb : UEmb _ 𝕄) (holds c M V) := by unfold holds; infer_instance
omit [FloatOps F] in
instance free_storable (c : Dev nD) {s : Shape} {e : EltTy} (M : Memref sig .tc .vmem s e) :
    BI.Storable (upEmb : UEmb _ 𝕄) (free (F := F) c M) := by unfold free; infer_instance

def srcSlot : Fin 3 → Fin 4
  | 0 => 3
  | 1 => 0
  | 2 => 1
def dstSlot (h : Fin 3) : Fin 4 := ⟨h.val, by omega⟩

variable (Vf Vb : Dev nD → Fin 3 → Fin 2 → Vec F S192x768 .bf16) (Vd : Dev nD → Fin 7 → Vec F S48x1536 .bf16)
variable (R1b : Dev nD → (cc0_scratch4 : Ref sig .tc).ty.Contents (Elt F))

def sixFree (d : Dev nD) (P : Fin 4 → Fin 2 → Memref sig .tc .vmem S192x768 .bf16) : sProp 𝕄 :=
  iprop(free d (P 0 0) ∗ free d (P 0 1) ∗ free d (P 1 0) ∗ free d (P 1 1) ∗ free d (P 2 0) ∗ free d (P 2 1))

def barPay (c : Dev nD) (j : Fin 9) : sProp 𝕄 :=
  if j.val = 0 then sixFree (F := F) (zr c) cfP
  else if j.val = 1 then sixFree (F := F) (zl c) cbP
  else if h : j.val < 9 ∧ 2 ≤ j.val then free (F := F) (inp (9 - j.val) c) (cdP ⟨8 - j.val, by omega⟩)
  else iprop(emp)

def cellPay (c : Dev nD) : CK → Fin 9 → sProp 𝕄
  | .bar, j => barPay (F := F) c j
  | .fS h s, _ => holds c (cfP (srcSlot h) s) (Vf c h s)
  | .fR h s, _ => holds c (cfP (dstSlot h) s) (Vf (zl c) h s)
  | .bS h s, _ => holds c (cbP (srcSlot h) s) (Vb c h s)
  | .bR h s, _ => holds c (cbP (dstSlot h) s) (Vb (zr c) h s)
  | .dS o, _ => ((chM c o).view.loc (c : Thread nD τ) ↦[(chM c o).view.set]{fullShare} R1b c)
  | .dR o, _ => holds c (cdP o) (Vd (inp (7 - o.val) c) o)

omit [FloatOps F] in
instance barPay_storable (c : Dev nD) (j : Fin 9) : BI.Storable (upEmb : UEmb _ 𝕄) (barPay (F := F) c j) := by
  unfold barPay sixFree; (repeat' split) <;> infer_instance
omit [FloatOps F] in
instance cellPay_storable (c : Dev nD) (k : CK) (j : Fin 9) : BI.Storable (upEmb : UEmb _ 𝕄) (cellPay Vf Vb Vd R1b c k j) := by
  cases k <;> unfold cellPay <;> infer_instance

def ringRd : Rounds.Schedule (GSem nD τ sig) (Fin 9) 𝕄 where
  duties g r :=
    if g.1.2 = .tc ∧ r = 0 then
      match kindOf g.2 with
      | some .bar => Finset.univ
      | some _ => {0}
      | none => ∅
    else ∅
  unitless _ := False
  amount g _ _ := match kindOf g.2 with
    | some k => amt k
    | none => 1
  payload g _ d := match kindOf g.2 with
    | some k => cellPay Vf Vb Vd R1b g.1.1 k d
    | none => iprop(emp)
  amount_pos g _ _ _ := by
    cases kindOf g.2 with
    | none => exact Nat.one_pos
    | some k => exact amt_pos k

omit [FloatOps F] in
instance ringRd_payload_storable (g : GSem nD τ sig) (r : ℕ) (d : Fin 9) :
    BI.Storable (upEmb : UEmb _ 𝕄) ((ringRd Vf Vb Vd R1b).payload g r d) := by
  show BI.Storable upEmb (match kindOf g.2 with
    | some k => cellPay Vf Vb Vd R1b g.1.1 k d
    | none => iprop(emp))
  split <;> infer_instance

section Sched
variable (c : Dev nD)

omit [FloatOps F] in
theorem duties_bar : (ringRd Vf Vb Vd R1b).duties (kcell (c, .bar)) 0 = Finset.univ := by
  simp only [ringRd, kindOf_csem, and_self, if_true]
omit [FloatOps F] in
theorem duties_one (k : CK) (hk : k ≠ .bar) : (ringRd Vf Vb Vd R1b).duties (kcell (c, k)) 0 = {0} := by
  simp only [ringRd, kindOf_csem, and_self, if_true]
omit [FloatOps F] in
theorem duties_later (g : GSem nD τ sig) : ∀ r, 1 ≤ r → (ringRd Vf Vb Vd R1b).duties g r = ∅ := fun r hr => by
  dsimp only [ringRd]; rw [if_neg fun h => by omega]
omit [FloatOps F] in
theorem amount_cell (k : CK) (r : ℕ) (d : Fin 9) : (ringRd Vf Vb Vd R1b).amount (kcell (c, k)) r d = amt k := by
  simp only [ringRd, kindOf_csem]
omit [FloatOps F] in
theorem payload_cell (k : CK) (r : ℕ) (d : Fin 9) : (ringRd Vf Vb Vd R1b).payload (kcell (c, k)) r d = cellPay Vf Vb Vd R1b c k d := by
  simp only [ringRd, kindOf_csem]

omit [FloatOps F] in
theorem expect_bar : (ringRd Vf Vb Vd R1b).expect (kcell (c, .bar)) 0 = 9 := by
  unfold Schedule.expect Schedule.amountOf
  rw [duties_bar, Finset.sum_congr rfl fun d _ => amount_cell Vf Vb Vd R1b c .bar 0 d, Finset.sum_const, Finset.card_univ, Fintype.card_fin, smul_eq_mul]
  rfl
omit [FloatOps F] in
theorem expect_one (k : CK) (hk : k ≠ .bar) : (ringRd Vf Vb Vd R1b).expect (kcell (c, k)) 0 = amt k := by
  unfold Schedule.expect Schedule.amountOf; rw [duties_one Vf Vb Vd R1b c k hk, Finset.sum_singleton, amount_cell]

omit [FloatOps F] in
theorem rest_one (k : CK) (hk : k ≠ .bar) :
    bigSep ((ringRd Vf Vb Vd R1b).duties (kcell (c, k)) 0 \ ∅) (fun d => (ringRd Vf Vb Vd R1b).payload (kcell (c, k)) 0 d) = cellPay Vf Vb Vd R1b c k 0 := by
  rw [Finset.sdiff_empty, duties_one Vf Vb Vd R1b c k hk, bigSep_singleton, payload_cell]

omit [FloatOps F] in
theorem rest_bar :
    bigSep ((ringRd Vf Vb Vd R1b).duties (kcell (c, .bar)) 0 \ ∅) (fun d => (ringRd Vf Vb Vd R1b).payload (kcell (c, .bar)) 0 d)
      = iprop(barPay (F := F) c 0 ∗ barPay (F := F) c 1 ∗ barPay (F := F) c 2 ∗ barPay (F := F) c 3 ∗ barPay (F := F) c 4 ∗ barPay (F := F) c 5
          ∗ barPay (F := F) c 6 ∗ barPay (F := F) c 7 ∗ barPay (F := F) c 8) := by
  rw [Finset.sdiff_empty, duties_bar, bigSep_univ_eq_bigSepL [0, 1, 2, 3, 4, 5, 6, 7, 8] (by decide) (by decide)]
  simp only [payload_cell, cellPay]
  rfl

end Sched

end Cert.Kernel.Ring

end
-- ==== Proof.K.Owed.lean ====
/- The 28 payments a device owes its neighbours' cells, and the levels that order the waits: a wait is for a cell
   strictly below everything still owed, so no interleaving blocks. -/
import proofs.«900894_g7700000000000895_dist_matmul_mk_i_outk_m1536_n1536_k768_v7x_i32_f32_1_alg».proof.Proof.K.Cells
import Idealize.ShloMosaic.Lib.Pipeline.Launch
import Mathlib.Tactic.DeriveFintype

noncomputable section

namespace Cert.Kernel.Ring

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

inductive PK
  | sig (j : Fin 9)
  | rf (h : Fin 3) (s : Fin 2)
  | rb (h : Fin 3) (s : Fin 2)
  | dd (o : Fin 7)
  deriving DecidableEq, Fintype

def peer (j : Fin 9) (c : Dev nD) : Dev nD :=
  if j.val = 0 then zl c else if j.val = 1 then zr c else inp (j.val - 1) c

def peerInv (j : Fin 9) (c : Dev nD) : Dev nD :=
  if j.val = 0 then zr c else if j.val = 1 then zl c else inp (9 - j.val) c

theorem peer_peerInv : ∀ (j : Fin 9) (c : Dev nD), peer j (peerInv j c) = c := by decide
theorem peerInv_peer : ∀ (j : Fin 9) (c : Dev nD), peerInv j (peer j c) = c := by decide

def ckOf : PK → CK
  | .sig _ => .bar
  | .rf h s => .fR h s
  | .rb h s => .bR h s
  | .dd o => .dR o

def pdev : PK → Dev nD → Dev nD
  | .sig j => peer j
  | .rf _ _ => zr
  | .rb _ _ => zl
  | .dd o => inp (o.val + 1)

def pinv : PK → Dev nD → Dev nD
  | .sig j => peerInv j
  | .rf _ _ => zl
  | .rb _ _ => zr
  | .dd o => inp (7 - o.val)

theorem pdev_pinv (i : PK) (c : Dev nD) : pdev i (pinv i c) = c := by
  cases i with
  | sig j => exact peer_peerInv j c
  | rf h s => exact zr_zl c
  | rb h s => exact zl_zr c
  | dd o => exact inp_inp' o c

theorem pinv_pdev (i : PK) (c : Dev nD) : pinv i (pdev i c) = c := by
  cases i with
  | sig j => exact peerInv_peer j c
  | rf h s => exact zl_zr c
  | rb h s => exact zr_zl c
  | dd o => exact inp_inp o c

def pcell (c : Dev nD) : PK → GSem nD τ sig
  | .sig j => kcell (peer j c, .bar)
  | .rf h s => kcell (zr c, .fR h s)
  | .rb h s => kcell (zl c, .bR h s)
  | .dd o => kcell (inp (o.val + 1) c, .dR o)

def pamt : PK → ℕ
  | .sig _ => 1
  | .rf _ _ => N192
  | .rb _ _ => N192
  | .dd _ => N48

theorem pcell_eq (c : Dev nD) (i : PK) : pcell c i = kcell (pdev i c, ckOf i) := by cases i <;> rfl
theorem pamt_eq (i : PK) : pamt i = amt (ckOf i) := by cases i <;> rfl

theorem kcell_eq_pcell_iff (c d : Dev nD) (k : CK) (i : PK) : kcell (c, k) = pcell d i ↔ d = pinv i c ∧ k = ckOf i := by
  rw [pcell_eq]
  constructor
  · intro h
    have h' := kcell_injective h
    have h1 : c = pdev i d := congrArg Prod.fst h'
    have h2 : k = ckOf i := congrArg Prod.snd h'
    exact ⟨by rw [h1, pinv_pdev], h2⟩
  · rintro ⟨rfl, rfl⟩
    rw [pdev_pinv]

def Orem (c : Dev nD) (S : Finset PK) : CellTallies nD τ sig Unit := ∑ i ∈ S, tallyAt (pcell c i) () (pamt i)

def O₀ (c : Dev nD) : CellTallies nD τ sig Unit := Orem c Finset.univ

theorem Orem_empty (c : Dev nD) : Orem c ∅ = 0 := Finset.sum_empty

theorem Orem_erase (c : Dev nD) {S : Finset PK} {i : PK} (hi : i ∈ S) :
    Orem c S = Orem c (S.erase i) + tallyAt (pcell c i) () (pamt i) :=
  (Finset.sum_erase_add S (fun i => tallyAt (pcell c i) () (pamt i)) hi).symm

theorem Orem_apply (c : Dev nD) (S : Finset PK) (g : GSem nD τ sig) :
    Orem c S g () = ∑ i ∈ S, if g = pcell c i then pamt i else 0 := by
  unfold Orem
  rw [Finset.sum_apply, Finsupp.finsetSum_apply]
  refine Finset.sum_congr rfl fun i _ => ?_
  rw [tallyAt_apply]
  by_cases h : g = pcell c i
  · rw [if_pos ⟨h, rfl⟩, if_pos h]
  · rw [if_neg (fun h' => h h'.1), if_neg h]

theorem Orem_pos {c : Dev nD} {S : Finset PK} {g : GSem nD τ sig} {u : Unit} (h : 0 < Orem c S g u) :
    ∃ i ∈ S, g = pcell c i := by
  obtain ⟨i, hi, hpos⟩ := Pipeline.sum_pos_exists h
  refine ⟨i, hi, ?_⟩
  by_contra hne
  rw [tallyAt_ne_cell hne] at hpos
  exact Nat.lt_irrefl 0 hpos

def L (g : GSem nD τ sig) : Finset Unit := if g.1.2 = .tc then {()} else ∅

theorem L_of_ne (g : GSem nD τ sig) (h : g.1.2 ≠ .tc) : L g = ∅ := if_neg h
theorem L_tc (c : Dev nD) (sm : SemLoc sig) : L ((c : Thread nD τ), sm) = {()} := if_pos rfl
theorem L_pcell (c : Dev nD) (i : PK) : L (pcell c i) = {()} := by rw [pcell_eq]; exact L_tc _ _

def lvK : CK → ℕ
  | .bar => 1
  | .fR h s => 2 + 2 * h.val + s.val
  | .bR h s => 2 + 2 * h.val + s.val
  | .dR _ => 8
  | .fS _ _ => 0
  | .bS _ _ => 0
  | .dS _ => 0

def lvP : PK → ℕ
  | .sig _ => 1
  | .rf h s => 2 + 2 * h.val + s.val
  | .rb h s => 2 + 2 * h.val + s.val
  | .dd _ => 8

def lv (g : GSem nD τ sig) (_ : Unit) : ℕ :=
  match kindOf g.2 with
  | some k => lvK k
  | none => 0

theorem lv_kcell (c : Dev nD) (k : CK) : lv (kcell (c, k)) () = lvK k := by
  unfold lv
  rw [show (kcell (c, k)).2 = csem k from rfl, kindOf_csem]

theorem lvP_eq (i : PK) : lvP i = lvK (ckOf i) := by cases i <;> rfl
theorem lv_pcell (c : Dev nD) (i : PK) : lv (pcell c i) () = lvP i := by rw [pcell_eq, lv_kcell, lvP_eq]
theorem lvP_pos (i : PK) : 0 < lvP i := by cases i <;> simp only [lvP] <;> omega

omit [FloatOps F] in
theorem mayWait_cell (c : Dev nD) (k : CK) (S : Finset PK) (h : ∀ i ∈ S, lvK k < lv (pcell c i) ()) :
    (levAts L lv : sProp 𝕄) ⊢ MayWait (c : Thread nD τ) (csem k) () (Orem c S) :=
  MayOwe.of_cut (L := L) (lev := lv) (lvK k)
    (fun p hp => by rw [Finset.mem_singleton.mp hp, L_tc]; exact Finset.mem_singleton_self _)
    (fun g u hg => by obtain ⟨i, _, rfl⟩ := Orem_pos hg; rw [L_pcell]; exact Finset.mem_singleton_self _)
    (fun p hp => by rw [Finset.mem_singleton.mp hp]; exact le_of_eq (lv_kcell c k))
    (fun g u hg => by obtain ⟨i, hi, rfl⟩ := Orem_pos hg; cases u; exact h i hi)

omit [FloatOps F] in
theorem mayWait_cellP (c : Dev nD) (k : CK) (S : Finset PK) (h : ∀ i ∈ S, lvK k < lvP i) :
    (levAts L lv : sProp 𝕄) ⊢ MayWait (c : Thread nD τ) (csem k) () (Orem c S) :=
  mayWait_cell c k S fun i hi => by rw [lv_pcell]; exact h i hi

omit [FloatOps F] in
theorem mayWait_stage (c : Dev nD) (q : DmaSem sig) (hq : kindOf (.dma q) = none) (S : Finset PK) :
    (levAts L lv : sProp 𝕄) ⊢ MayWait (c : Thread nD τ) (.dma q) () (Orem c S) :=
  MayOwe.of_cut (L := L) (lev := lv) 0
    (fun p hp => by rw [Finset.mem_singleton.mp hp, L_tc]; exact Finset.mem_singleton_self _)
    (fun g u hg => by obtain ⟨i, _, rfl⟩ := Orem_pos hg; rw [L_pcell]; exact Finset.mem_singleton_self _)
    (fun p hp => by
      rw [Finset.mem_singleton.mp hp]
      show lv ((c : Thread nD τ), SemLoc.dma q) () ≤ 0
      unfold lv
      rw [show (((c : Thread nD τ), SemLoc.dma q) : GSem nD τ sig).2 = SemLoc.dma q from rfl, hq])
    (fun g u hg => by obtain ⟨i, hi, rfl⟩ := Orem_pos hg; cases u; rw [lv_pcell]; exact lvP_pos i)

def cnt : CK → ℕ
  | .bar => 9
  | .fR _ _ => 1
  | .bR _ _ => 1
  | .dR _ => 1
  | .fS _ _ => 0
  | .bS _ _ => 0
  | .dS _ => 0

def credK : CK → ℕ
  | .bar => 9
  | .fR _ _ => N192
  | .bR _ _ => N192
  | .dR _ => N48
  | .fS _ _ => 0
  | .bS _ _ => 0
  | .dS _ => 0

theorem card_ckOf : ∀ k : CK, (Finset.univ.filter fun i : PK => k = ckOf i).card = cnt k := by decide

theorem credK_eq (k : CK) : credK k = cnt k * amt k := by
  cases k <;> simp only [credK, cnt, amt, Nat.mul_one, Nat.one_mul, Nat.zero_mul]

theorem owed_cell (c : Dev nD) (k : CK) : ∑ d : Dev nD, O₀ d (kcell (c, k)) () = credK k := by
  unfold O₀
  rw [Finset.sum_congr rfl fun d _ => Orem_apply d Finset.univ (kcell (c, k)), Finset.sum_comm]
  have hin (i : PK) : (∑ d : Dev nD, if kcell (c, k) = pcell d i then pamt i else 0) = if k = ckOf i then amt k else 0 := by
    by_cases hk : k = ckOf i
    · rw [if_pos hk, Finset.sum_eq_single (pinv i c)
        (fun d _ hd => if_neg fun h => hd ((kcell_eq_pcell_iff c d k i).mp h).1)
        (fun hn => absurd (Finset.mem_univ _) hn),
        if_pos ((kcell_eq_pcell_iff c _ k i).mpr ⟨rfl, hk⟩), pamt_eq, hk]
    · rw [if_neg hk]
      exact Finset.sum_eq_zero fun d _ => if_neg fun h => hk ((kcell_eq_pcell_iff c d k i).mp h).2
  rw [Finset.sum_congr rfl fun i _ => hin i, Finset.sum_ite, Finset.sum_const_zero, Nat.add_zero, Finset.sum_const, card_ckOf,
    smul_eq_mul, credK_eq]

omit [FloatOps F] in
theorem launch_cell (c : Dev nD) (k : CK) :
    tallyOn (kcell (c, k)) (launchCredit (Pipeline.owing O₀) 0 (kcell (c, k))) = (tallyAt (kcell (c, k)) () (credK k) : CellTallies nD τ sig Unit) := by
  unfold tallyAt; refine congrArg _ (Finsupp.ext fun u => ?_); cases u
  rw [Pipeline.launchCredit_owing, Finsupp.single_eq_same, owed_cell]

theorem creds_kinds (c : Dev nD) :
    (Pipeline.launchCred O₀ c : sProp 𝕄) ⊢ bigSep (Finset.univ : Finset CK) fun k => cred (tallyAt (kcell (c, k)) () (credK k)) := by
  unfold Pipeline.launchCred
  refine (bigSep_subset (Finset.subset_univ (Finset.univ.image csem))).trans ?_
  rw [bigSep_image_of_injOn (csem_injective.injOn)]
  exact bigSep_mono fun k _ => Entails.of_eq (congrArg cred (launch_cell c k))

theorem creds (c : Dev nD) :
    (Pipeline.launchCred O₀ c : sProp 𝕄) ⊢ iprop(cred (tallyAt (kcell (c, .bar)) () 9)
      ∗ (bigSep Finset.univ fun hs : Fin 3 × Fin 2 => cred (tallyAt (kcell (c, .fR hs.1 hs.2)) () N192))
      ∗ (bigSep Finset.univ fun hs : Fin 3 × Fin 2 => cred (tallyAt (kcell (c, .bR hs.1 hs.2)) () N192))
      ∗ (bigSep Finset.univ fun o : Fin 7 => cred (tallyAt (kcell (c, .dR o)) () N48))) := by
  refine (creds_kinds c).trans ?_
  have hA : Set.InjOn (fun hs : Fin 3 × Fin 2 => CK.fR hs.1 hs.2) (Finset.univ : Finset (Fin 3 × Fin 2)) :=
    fun a _ b _ h => Prod.ext (CK.fR.inj h).1 (CK.fR.inj h).2
  have hB : Set.InjOn (fun hs : Fin 3 × Fin 2 => CK.bR hs.1 hs.2) (Finset.univ : Finset (Fin 3 × Fin 2)) :=
    fun a _ b _ h => Prod.ext (CK.bR.inj h).1 (CK.bR.inj h).2
  have hC : Set.InjOn (fun o : Fin 7 => CK.dR o) (Finset.univ : Finset (Fin 7)) :=
    fun a _ b _ h => CK.dR.inj h
  rw [bigSep_univ_at _ CK.bar]
  refine sep_mono_right ?_
  refine (bigSep_subset (t := (Finset.univ.image fun hs : Fin 3 × Fin 2 => CK.fR hs.1 hs.2)
      ∪ ((Finset.univ.image fun hs : Fin 3 × Fin 2 => CK.bR hs.1 hs.2) ∪ (Finset.univ.image fun o : Fin 7 => CK.dR o))) (by decide)).trans ?_
  rw [bigSep_union (by decide), bigSep_union (by decide), bigSep_image_of_injOn hA, bigSep_image_of_injOn hB, bigSep_image_of_injOn hC]
  exact .refl _

end Cert.Kernel.Ring

end
-- ==== Proof.K.Stage.lean ====
/- Each device's blocks of the two factors. -/
import proofs.«900894_g7700000000000895_dist_matmul_mk_i_outk_m1536_n1536_k768_v7x_i32_f32_1_alg».proof.Proof.K.Cells

noncomputable section

namespace Cert.Kernel.Ring

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

section
variable (m : Mem F) (ρ : Dev nD → PrngReg)

def Astg (c : Dev nD) : (cc0_stg0_0 : Ref sig .tc).ty.Contents (Elt F) :=
  (win0_0.blk (0 : Fin 1)).view.read (Elt F) ((s₀ m ρ).mem ((c : Thread nD τ).loc main_arg0))
def Bstg (c : Dev nD) : (cc0_stg1_0 : Ref sig .tc).ty.Contents (Elt F) :=
  (win0_1.blk (0 : Fin 1)).view.read (Elt F) ((s₀ m ρ).mem ((c : Thread nD τ).loc main_arg1))
end

end Cert.Kernel.Ring

end
-- ==== Proof.K.Ghost.lean ====
/- What a device holds from launch to exit. -/
import proofs.«900894_g7700000000000895_dist_matmul_mk_i_outk_m1536_n1536_k768_v7x_i32_f32_1_alg».proof.Proof.K.Sched
import proofs.«900894_g7700000000000895_dist_matmul_mk_i_outk_m1536_n1536_k768_v7x_i32_f32_1_alg».proof.Proof.K.Owed
import proofs.«900894_g7700000000000895_dist_matmul_mk_i_outk_m1536_n1536_k768_v7x_i32_f32_1_alg».proof.Proof.K.Stage

noncomputable section

namespace Cert.Kernel.Ring

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

inductive SK | f (h : Fin 3) (s : Fin 2) | b (h : Fin 3) (s : Fin 2) | d (o : Fin 7)
  deriving DecidableEq, Fintype
def SK.ck : SK → CK
  | .f h s => .fS h s | .b h s => .bS h s | .d o => .dS o

abbrev TK : Type := PK ⊕ SK
def tokCell (c : Dev nD) : TK → GSem nD τ sig
  | .inl i => pcell c i
  | .inr k => kcell (c, k.ck)
def tokDuty : TK → Fin 9
  | .inl (.sig j) => j
  | _ => 0
abbrev tokOf (ci : Dev nD × TK) : GSem nD τ sig × ℕ × Fin 9 := (tokCell ci.1 ci.2, 0, tokDuty ci.2)

abbrev OK : Type := {k : CK // k ≠ .bar}
abbrev osem : OK → SemLoc sig := fun k => csem k.1

section
variable (Vf Vb : Dev nD → Fin 3 → Fin 2 → Vec F S192x768 .bf16) (Vd : Dev nD → Fin 7 → Vec F S48x1536 .bf16)
variable (R1b : Dev nD → (cc0_scratch4 : Ref sig .tc).ty.Contents (Elt F))

def records (K : Dev nD × CK → ℕ) : sProp 𝕄 :=
  iprop((bigSep Finset.univ fun ck : Dev nD × CK => cellInv ER (ringRd Vf Vb Vd R1b) (K ck) (kcell ck))
    ∗ bigSep Finset.univ fun ck : Dev nD × CK => reached ER (kcell ck) 0)

omit [FloatOps F] in
instance records_persistent (K : Dev nD × CK → ℕ) : BI.Persistent (records Vf Vb Vd R1b K) := by unfold records; infer_instance

omit [FloatOps F] in
theorem inv_at (K : Dev nD × CK → ℕ) (ck : Dev nD × CK) :
    records Vf Vb Vd R1b K ⊢ cellInv ER (ringRd Vf Vb Vd R1b) (K ck) (kcell ck) := by
  have h : (bigSep Finset.univ fun ck : Dev nD × CK => (cellInv ER (ringRd Vf Vb Vd R1b) (K ck) (kcell ck) : sProp 𝕄))
      ⊢ cellInv ER (ringRd Vf Vb Vd R1b) (K ck) (kcell ck) := bigSep_elim (Finset.mem_univ ck)
  unfold records; iintro ⟨H, -⟩; iapply h; iexact H
omit [FloatOps F] in
theorem reached_at (K : Dev nD × CK → ℕ) (ck : Dev nD × CK) :
    records Vf Vb Vd R1b K ⊢ (reached ER (kcell ck) 0 : sProp 𝕄) := by
  have h : (bigSep Finset.univ fun ck : Dev nD × CK => (reached ER (kcell ck) 0 : sProp 𝕄)) ⊢ reached ER (kcell ck) 0 :=
    bigSep_elim (Finset.mem_univ ck)
  unfold records; iintro ⟨-, H⟩; iapply h; iexact H

def posAt (c : Dev nD) (S : Finset CK) : sProp 𝕄 := bigSep S fun k => atPos ER (kcell (c, k)) 0 ∅ 0
def toksAt (c : Dev nD) (T : Finset TK) : sProp 𝕄 := bigSep T fun i => dutyTok ER (tokCell c i) 0 (tokDuty i)
def credsAt (c : Dev nD) : sProp 𝕄 :=
  iprop(cred (tallyAt (kcell (c, .bar)) () 9)
    ∗ (bigSep Finset.univ fun hs : Fin 3 × Fin 2 => cred (tallyAt (kcell (c, .fR hs.1 hs.2)) () N192))
    ∗ (bigSep Finset.univ fun hs : Fin 3 × Fin 2 => cred (tallyAt (kcell (c, .bR hs.1 hs.2)) () N192))
    ∗ (bigSep Finset.univ fun o : Fin 7 => cred (tallyAt (kcell (c, .dR o)) () N48)))

def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f)
    ∗ (∃ f : Buf (Elt F) ((c : Thread nD τ).loc cc0_scratch5), ((c : Thread nD τ).loc cc0_scratch5) ↦{fullShare} f))

def ghost (K : Dev nD × CK → ℕ) (c : Dev nD) : sProp 𝕄 :=
  iprop(records Vf Vb Vd R1b K ∗ posAt (F := F) c Finset.univ ∗ toksAt (F := F) c Finset.univ)

def start (c : Dev nD) : sProp 𝕄 :=
  iprop((∃ K, ghost Vf Vb Vd R1b K c) ∗ credsAt (F := F) c ∗ levAts L lv)

def Φ₀ (c : Dev nD) : sProp 𝕄 := iprop(start Vf Vb Vd R1b c ∗ scratch (F := F) c)
def Φ₁ (c : Dev nD) : sProp 𝕄 := iprop(scratch (F := F) c ∗ Pipeline.ownSems0 osem c)

variable (m : Mem F) (ρ : Dev nD → PrngReg) (outV : Dev nD → (cc0_stg2_0 : Ref sig .tc).ty.Contents (Elt F))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => Astg m ρ c
    | ⟨1, _⟩ => Bstg m ρ c
    | ⟨2, _⟩ => outV c
  Φ t := match t with
    | ⟨0, _⟩ => Φ₀ Vf Vb Vd R1b c
    | ⟨_ + 1, _⟩ => Φ₁ (F := F) c
  q _ := fullShare
  owed t := match t with
    | ⟨0, _⟩ => O₀ c
    | ⟨_ + 1, _⟩ => 0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × CK → ℕ) (c : Dev nD) : sProp 𝕄 :=
  iprop((ghost Vf Vb Vd R1b K c ∗ credsAt (F := F) c ∗ levAts L lv ∗ scratch (F := F) c)
    ∗ (dats Vf Vb Vd R1b m ρ outV 0 c).owesAt () t₀.castSucc
    ∗ (∃ d, stg c cc0_stg0_0 ((dats Vf Vb Vd R1b m ρ outV 0 c).before (0 : Fin 3) t₀ d))
    ∗ (∃ d, stg c cc0_stg1_0 ((dats Vf Vb Vd R1b m ρ outV 0 c).before (1 : Fin 3) t₀ d))
    ∗ (∃ d, stg c cc0_stg2_0 ((dats Vf Vb Vd R1b m ρ outV 0 c).before (2 : Fin 3) t₀ d)))

def bodyPost (c : Dev nD) : sProp 𝕄 :=
  iprop(Φ₁ (F := F) c ∗ (dats Vf Vb Vd R1b m ρ outV 0 c).owesAt () t₀.succ
    ∗ stg c cc0_stg0_0 (Astg m ρ c) ∗ stg c cc0_stg1_0 (Bstg m ρ c) ∗ stg c cc0_stg2_0 (outV c))

end

end Cert.Kernel.Ring

end
-- ==== Proof.K.Launch.lean ====
/- From one device's body at a symbolic device to the run of the whole mesh. -/
import proofs.«900894_g7700000000000895_dist_matmul_mk_i_outk_m1536_n1536_k768_v7x_i32_f32_1_alg».proof.Proof.K.Ghost

noncomputable section

namespace Cert.Kernel.Ring

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem ownSemFacts : Pipeline.OwnSemFacts cfg0.spec osem := by decide

theorem ckOf_ne_ck : ∀ (i : PK) (k : SK), ckOf i ≠ k.ck := by decide
theorem SK.ck_injective : Function.Injective SK.ck := by decide
theorem pk_of_ck_duty : ∀ i i' : PK, ckOf i = ckOf i' → tokDuty (.inl i) = tokDuty (.inl i') → i = i' := by decide

theorem tokOf_injective : Function.Injective (tokOf : Dev nD × TK → GSem nD τ sig × ℕ × Fin 9) := by
  rintro ⟨c, t⟩ ⟨c', t'⟩ h
  have hg : tokCell c t = tokCell c' t' := congrArg Prod.fst h
  have hd : tokDuty t = tokDuty t' := congrArg (fun x : GSem nD τ sig × ℕ × Fin 9 => x.2.2) h
  rcases t with i | k <;> rcases t' with i' | k'
  · change pcell c i = pcell c' i' at hg
    rw [pcell_eq, pcell_eq] at hg
    have h' := kcell_injective hg
    have h1 : pdev i c = pdev i' c' := congrArg Prod.fst h'
    have h2 : ckOf i = ckOf i' := congrArg Prod.snd h'
    obtain rfl := pk_of_ck_duty i i' h2 hd
    have h3 : c = c' := by rw [← pinv_pdev i c, h1, pinv_pdev]
    subst h3; rfl
  · exfalso
    change pcell c i = kcell (c', k'.ck) at hg
    rw [pcell_eq] at hg
    exact ckOf_ne_ck i k' (congrArg Prod.snd (kcell_injective hg))
  · exfalso
    change kcell (c, k.ck) = pcell c' i' at hg
    rw [pcell_eq] at hg
    exact ckOf_ne_ck i' k (congrArg Prod.snd (kcell_injective hg)).symm
  · change kcell (c, k.ck) = kcell (c', k'.ck) at hg
    have h' := kcell_injective hg
    have h1 : c = c' := congrArg Prod.fst h'
    have h2 : k = k' := SK.ck_injective (congrArg Prod.snd h')
    subst h1; subst h2; rfl

def ringCells : Finset (GSem nD τ sig) := Finset.univ.map ⟨kcell, kcell_injective⟩
def ringToks : Finset (GSem nD τ sig × ℕ × Fin 9) := Finset.univ.map ⟨tokOf, tokOf_injective⟩

def u₀ : UU :=
  (initOf (Pipeline.cells cfgs cellOf_inj) (Pipeline.launchToks cfgs cellOf_inj), initOf ringCells ringToks)

section
variable (Vf Vb : Dev nD → Fin 3 → Fin 2 → Vec F S192x768 .bf16) (Vd : Dev nD → Fin 7 → Vec F S48x1536 .bf16)
variable (R1b : Dev nD → (cc0_scratch4 : Ref sig .tc).ty.Contents (Elt F))

def dealt (c : Dev nD) : sProp 𝕄 :=
  iprop((bigSep Finset.univ fun k : CK => roundState ER (ringRd Vf Vb Vd R1b) (kcell (c, k)) 0)
    ∗ (bigSep Finset.univ fun k : CK => iprop(atPos ER (kcell (c, k)) 0 ∅ 0 ∗ reached ER (kcell (c, k)) 0))
    ∗ toksAt (F := F) c Finset.univ)

def started (c : Dev nD) : sProp 𝕄 := iprop(∃ K, ghost Vf Vb Vd R1b K c)

theorem fund_ring : BI.own (ER (initOf ringCells ringToks)) ⊢ (|==> bigSep Finset.univ (dealt Vf Vb Vd R1b) : sProp 𝕄) := by
  have hX (Φ : GSem nD τ sig → sProp 𝕄) :
      bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄))
      = bigSep Finset.univ fun c : Dev nD => toksAt (F := F) c Finset.univ := by
    unfold ringToks; rw [bigSep_map, bigSep_univ_prod]; rfl
  iintro HX
  imod (Rounds.fund ER (ringRd Vf Vb Vd R1b) ringCells ringToks) $$ HX with ⟨Hst, Hr, Hat, Htok⟩
  imodintro
  ihave Hst' := (Entails.of_eq (hX fun g => roundState ER (ringRd Vf Vb Vd R1b) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (kcell (c, .bar)) 0 := by
  unfold unscopedSems0; rw [bigSep_eq_bigSepL_of_eq [SemLoc.reg barS] (by decide) (by decide)]; rfl

theorem sems0 (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [unscopedSems0_eq, bigSep_univ_at (fun k : CK => (semVal (kcell (c, k)) 0 : sProp 𝕄)) CK.bar,
    ← bigSep_subtype_ne CK.bar (fun k : CK => (semVal (kcell (c, k)) 0 : sProp 𝕄))]
  unfold Pipeline.ownSems0
  iintro ⟨HO, HB⟩
  isplitl [HB]; · iexact HB
  iexact HO

theorem core_alloc (c : Dev nD) :
    iprop(Pipeline.ownSems0 (Ix := Unit) (Name := ℕ) (U := UU) (Lvl := ℕ) (Val := Elt F) (τ := τ) osem c ∗ unscopedSems0 c ∗ dealt Vf Vb Vd R1b c)
      ⊢ |={Set.univ}=> iprop((bigSep Finset.univ fun k : CK => iprop(∃ κ : ℕ, cellInv ER (ringRd Vf Vb Vd R1b) κ (kcell (c, k))))
          ∗ (bigSep Finset.univ fun k : CK => iprop(atPos ER (kcell (c, k)) 0 ∅ 0 ∗ reached ER (kcell (c, k)) 0))
          ∗ toksAt (F := F) c Finset.univ) := by
  unfold dealt
  iintro ⟨Hos, Hus, Hst, Hat, Htok⟩
  ihave Hv := (sems0 (F := F) c) $$ [Hos Hus]
  · isplitl [Hos] <;> iassumption
  imod (show iprop((bigSep Finset.univ fun k : CK => semVal (kcell (c, k)) 0)
        ∗ bigSep Finset.univ fun k : CK => roundState ER (ringRd Vf Vb Vd R1b) (kcell (c, k)) 0)
      ⊢ (|={Set.univ}=> bigSep Finset.univ fun k : CK => iprop(∃ κ : ℕ, cellInv ER (ringRd Vf Vb Vd R1b) κ (kcell (c, k))) : sProp 𝕄) from by
        rw [← bigSep_sep']
        exact (bigSep_mono fun k _ => (Rounds.body_intro ER (ringRd Vf Vb Vd R1b) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × CK → ℕ) (c : Dev nD) :
    iprop(records Vf Vb Vd R1b K ∗ posAt (F := F) c Finset.univ ∗ toksAt (F := F) c Finset.univ) ⊢ started Vf Vb Vd R1b c := by
  unfold started ghost
  iintro ⟨HR, HP, HT⟩
  iexists K
  isplitl [HR]; · iexact HR
  isplitl [HP] <;> iassumption

theorem regroup :
    (bigSep Finset.univ fun c : Dev nD => iprop((bigSep Finset.univ fun k : CK => iprop(∃ κ : ℕ, cellInv ER (ringRd Vf Vb Vd R1b) κ (kcell (c, k))))
          ∗ (bigSep Finset.univ fun k : CK => iprop(atPos ER (kcell (c, k)) 0 ∅ 0 ∗ reached ER (kcell (c, k)) 0))
          ∗ toksAt (F := F) c Finset.univ) : sProp 𝕄)
      ⊢ bigSep Finset.univ (started Vf Vb Vd R1b) := by
  rw [bigSep_sep', bigSep_sep', ← bigSep_univ_prod (fun ck : Dev nD × CK => iprop(∃ κ : ℕ, cellInv ER (ringRd Vf Vb Vd R1b) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (ringRd Vf Vb Vd R1b) κ (kcell ck) : sProp 𝕄))) $$ HI
  icases HK with ⟨%K, #HI⟩
  iapply (bigSep_with_persistent (R := records Vf Vb Vd R1b K) fun c _ => ghost_intro Vf Vb Vd R1b K c)
  isplitr
  · unfold records; isplitl; · iexact HI
    iexact HR
  · iapply (Entails.of_eq (bigSep_sep' Finset.univ (fun c : Dev nD => posAt (F := F) c Finset.univ) (fun c : Dev nD => toksAt (F := F) c Finset.univ)).symm)
    isplitl [Hat]; · unfold posAt; iexact Hat
    iexact Htok

theorem glob : (bigSep Finset.univ fun c => iprop(Pipeline.ownSems0 (Ix := Unit) (Name := ℕ) (U := UU) (Lvl := ℕ) (Val := Elt F) (τ := τ) osem c ∗ unscopedSems0 c ∗ dealt Vf Vb Vd R1b c) : sProp 𝕄)
    ⊢ |={Set.univ}=> bigSep Finset.univ (started Vf Vb Vd R1b) :=
  ((bigSep_mono fun c _ => core_alloc Vf Vb Vd R1b c).trans (bigSep_fupd _ _)).trans (BI.fupd_mono (regroup Vf Vb Vd R1b))

variable (m : Mem F) (ρ : Dev nD → PrngReg) (outV : Dev nD → (cc0_stg2_0 : Ref sig .tc).ty.Contents (Elt F))

theorem share_eq (c : Dev nD) (w : Fin cfg0.W) : (dats Vf Vb Vd R1b m ρ outV 0 c).share w = fullShare := by
  unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ started Vf Vb Vd R1b c)
      ⊢ |={Set.univ}=> iprop(start Vf Vb Vd R1b c ∗ emp) := by
  iintro ⟨-, Hlev, Hcr, -, HG⟩
  ihave Hc := (creds (F := F) c) $$ Hcr
  imodintro
  unfold start started credsAt
  isplitl
  · isplitl [HG]; · iexact HG
    isplitl [Hc]; · iexact Hc
    iexact Hlev
  · iempintro

theorem phi0_intro (c : Dev nD) :
    iprop(start Vf Vb Vd R1b c ∗ Pipeline.prefHeld Pipeline.Prefetch.none c (fun _ => fullShare.right) (fun k => k.elim0) ∗ Pipeline.scopedRest cfg0.spec c)
      ⊢ (dats Vf Vb Vd R1b m ρ outV 0 c).Φ 0 := by
  rw [show (dats Vf Vb Vd R1b m ρ outV 0 c).Φ 0 = Φ₀ Vf Vb Vd R1b c from rfl, scopedRest0_eq]
  unfold Φ₀ scratch
  iintro ⟨Hs, -, Hr⟩
  isplitl [Hs]; · iexact Hs
  iexact Hr

theorem phi1_exit (c : Dev nD) :
    (dats Vf Vb Vd R1b m ρ outV 0 c).Φ (Fin.last cfg0.N) ⊢ iprop(emp ∗ Pipeline.ownSems0 osem c ∗ Pipeline.scopedRest cfg0.spec c) := by
  rw [show (dats Vf Vb Vd R1b m ρ outV 0 c).Φ (Fin.last cfg0.N) = Φ₁ (F := F) c from rfl, scopedRest0_eq]
  unfold Φ₁ scratch
  iintro ⟨Hr, Hz⟩
  isplitr; · iempintro
  isplitl [Hz]; · iexact Hz
  iexact Hr

theorem waits (c : Dev nD) : (levAts L lv : sProp 𝕄) ⊢ Pipeline.cellsWaits cfgs (dats Vf Vb Vd R1b m ρ outV) () 0 c :=
  Pipeline.cellsWaits_intro cfgs (dats Vf Vb Vd R1b m ρ outV) () 0 c fun w s t => by
    have hq : kindOf (.dma (((cfgs 0).win w).sem s)) = none := by fin_cases w <;> fin_cases s <;> decide
    rcases t with ⟨_ | _, ht⟩
    · exact mayWait_stage (F := F) c _ hq Finset.univ
    · have h := mayWait_stage (F := F) c _ hq ∅
      rw [Orem_empty] at h
      exact h

def finalA (c : Dev nD) (w : Fin cfg0.W) : Buf (Elt F) ((cfg0.win w).arr.view.loc (c : Thread nD τ)) :=
  (dats Vf Vb Vd R1b m ρ outV 0 c).arrAt w cfg0.N

def QC : PUnit × MemSt nD τ sig (Elt F) → Prop := fun r =>
  ∀ c : Dev nD, ∀ w : Fin cfg0.W, r.2.mem ((cfg0.win w).arr.view.loc (c : Thread nD τ)) = finalA Vf Vb Vd R1b m ρ outV c w

set_option maxRecDepth 8000 in
theorem run_main (hbody : ∀ c, BodyObligation (dats Vf Vb Vd R1b m ρ outV 0 c) (defs₀ (F := F)) 𝒱₀ () Set.univ) :
    θ_run defs (onTc (τ := τ) (main (F := F))) (s₀ m ρ) (QC Vf Vb Vd R1b m ρ outV) :=
  Pipeline.θ_run_region_owing_glob_pf (fun p => (cfgs p).toPCfg) (fun p => (cfgs p).toPCfg_adm) (dats Vf Vb Vd R1b m ρ outV) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0)
    (hshare := share_eq Vf Vb Vd R1b m ρ outV)
    (hdistinct := winFacts0.arr_inj)
    (O₀ := O₀) (howed₀ := fun _ => rfl) (howedN := fun _ => rfl)
    (L := L) (lv := lv) (hL := L_of_ne) (hwaits := waits Vf Vb Vd R1b m ρ outV)
    (G := dealt Vf Vb Vd R1b) (G' := started Vf Vb Vd R1b) (u₀ := u₀)
    (hu₀ := by
      unfold u₀
      iintro Hu
      ihave H := (ownU_pair _ _) $$ Hu
      icases H with ⟨HP, HX⟩
      imod (fund_ring Vf Vb Vd R1b) $$ HX with HG
      imodintro
      isplitl [HP] <;> iassumption)
    (hglob := glob Vf Vb Vd R1b)
    (hA := fun _ _ => rfl) (hpf := fun _ k => k.elim0)
    (X := start Vf Vb Vd R1b) (Y := fun _ => iprop(emp)) (Z := fun _ => iprop(emp))
    (hX := start_intro Vf Vb Vd R1b m ρ) (hin := phi0_intro Vf Vb Vd R1b m ρ outV) (hout := phi1_exit Vf Vb Vd R1b m ρ outV)
    (QY := fun _ _ => True)
    (hY := fun c s' => by
      iintro ⟨-, -, HSI⟩
      imodintro
      isplitr; · ipureintro; trivial
      iexact HSI)
    (hQ := fun _ h c w => (h c).1 w)

theorem finalA_in0 (c : Dev nD) : finalA Vf Vb Vd R1b m ρ outV c (0 : Fin 3) = m ((c : Thread nD τ).loc main_arg0) :=
  (dats (F := F) Vf Vb Vd R1b m ρ outV 0 c).arrAt_in (0 : Fin 3) rfl _
theorem finalA_in1 (c : Dev nD) : finalA Vf Vb Vd R1b m ρ outV c (1 : Fin 3) = m ((c : Thread nD τ).loc main_arg1) :=
  (dats (F := F) Vf Vb Vd R1b m ρ outV 0 c).arrAt_in (1 : Fin 3) rfl _

theorem finalA_out (c : Dev nD) : finalA Vf Vb Vd R1b m ρ outV c (2 : Fin 3) = outV c := by
  unfold finalA
  refine ((dats (F := F) Vf Vb Vd R1b m ρ outV 0 c).arrAt_succ (2 : Fin 3) t₀).trans ?_
  rw [flush0_2 t₀, if_pos rfl]
  exact Memref.write_access_unit_zero_univ (Elt F) main_v1 (funext fun a => Nat.zero_mul _) _ _ (outV c)

theorem run_post (hbody : ∀ c, BodyObligation (dats Vf Vb Vd R1b m ρ outV 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outV c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c (2 : Fin 3)).trans (finalA_out Vf Vb Vd R1b m ρ outV c),
      (h c (0 : Fin 3)).trans (finalA_in0 Vf Vb Vd R1b m ρ outV c),
      (h c (1 : Fin 3)).trans (finalA_in1 Vf Vb Vd R1b m ρ outV c)⟩)
    (run_main Vf Vb Vd R1b m ρ outV hbody)

end

end Cert.Kernel.Ring

end
-- ==== Proof.K.Vals.lean ====
/- The values that travel, as terms of the devices' own blocks: three ring hops over the four planes, each adding
   the device's own strip, then the sum over the eight places of a plane. -/
import proofs.«900894_g7700000000000895_dist_matmul_mk_i_outk_m1536_n1536_k768_v7x_i32_f32_1_alg».proof.Proof.K.Mesh
import Idealize.ShloMosaic.PureOps
import Idealize.ShloMosaic.Lib.ValueIdx

noncomputable section

namespace Cert.Kernel.Ring

open Idealize.ShloMosaic Cert.Kernel Cert.Kernel.Gen Cert.Kernel.Mesh
open Idealize.ShloMosaic.ValueIdx (ix2 idx2_lt0 idx2_lt1)

variable {F : FTy → Type} [FloatOps F]

abbrev zi (c : Dev nD) : ℕ := c.val / 8
abbrev wi (c : Dev nD) : ℕ := c.val % 8
abbrev q4 (n : ℕ) : Fin 4 := ⟨n % 4, Nat.mod_lt _ (by decide)⟩

theorem zi_lt (c : Dev nD) : zi c < 4 := by have h : c.val < 32 := c.isLt; show c.val / 8 < 4; omega
theorem wi_lt (c : Dev nD) : wi c < 8 := Nat.mod_lt _ (by decide)

variable (A : Dev nD → Vec F S1536x768 .f32) (B : Dev nD → Vec F S768x1536 .f32)

def aRows (c : Dev nD) (q : Fin 4) : Vec F S384x768 .f32 := fun i =>
  A c (ix2 (⟨384 * q.val + (i 0).val, by have := idx2_lt0 i; have := q.isLt; omega⟩ : Fin 1536)
    (⟨(i 1).val, idx2_lt1 i⟩ : Fin 768))

def bCols (c : Dev nD) (hf : Fin 2) : Vec F S768x768 .f32 := fun i =>
  B c (ix2 (⟨(i 0).val, idx2_lt0 i⟩ : Fin 768)
    (⟨768 * hf.val + (i 1).val, by have := idx2_lt1 i; have := hf.isLt; omega⟩ : Fin 1536))

def mm (c : Dev nD) (q : Fin 4) (hf : Fin 2) : FVec F S384x768 .f32 :=
  matmul dot_S384x768_S768x768_S384x768_1_0_0_1_n_n none (aRows A c q) (bCols B c hf) (constant S384x768 .f32 0x00000000#32)

def X (c : Dev nD) (q : Fin 4) (hf : Fin 2) (s : Fin 2) : FVec F S192x768 .f32 := fun i =>
  mm A B c q hf (ix2 (⟨192 * s.val + (i 0).val, by have := idx2_lt0 i; have := s.isLt; omega⟩ : Fin 384)
    (⟨(i 1).val, idx2_lt1 i⟩ : Fin 768))

def VfN : ℕ → Dev nD → Fin 2 → FVec F S192x768 .bf16
  | 0, c, s => truncf .bf16 (X A B c (q4 (zi c + 3)) 0 s) bitsLt_bf16_f32
  | h + 1, c, s => truncf .bf16 (addf (extf .f32 (VfN h (zl c) s) bitsLt_bf16_f32) (X A B c (q4 (zi c + 6 - h)) 0 s)) bitsLt_bf16_f32

def VbN : ℕ → Dev nD → Fin 2 → FVec F S192x768 .bf16
  | 0, c, s => truncf .bf16 (X A B c (q4 (zi c + 1)) 1 s) bitsLt_bf16_f32
  | h + 1, c, s => truncf .bf16 (addf (extf .f32 (VbN h (zr c) s) bitsLt_bf16_f32) (X A B c (q4 (zi c + 2 + h)) 1 s)) bitsLt_bf16_f32

def R1 (c : Dev nD) (hf : Fin 2) (s : Fin 2) : FVec F S192x768 .f32 :=
  match hf with
  | ⟨0, _⟩ => addf (extf .f32 (VfN A B 2 (zl c) s) bitsLt_bf16_f32) (X A B c (q4 (zi c)) 0 s)
  | ⟨1, _⟩ => addf (extf .f32 (VbN A B 2 (zr c) s) bitsLt_bf16_f32) (X A B c (q4 (zi c)) 1 s)

def R1full (c : Dev nD) : FVec F S384x1536 .f32 := fun i =>
  R1 A B c (⟨(i 1).val / 768, by have := idx2_lt1 i; omega⟩ : Fin 2) (⟨(i 0).val / 192, by have := idx2_lt0 i; omega⟩ : Fin 2)
    (ix2 (⟨(i 0).val % 192, Nat.mod_lt _ (by decide)⟩ : Fin 192) (⟨(i 1).val % 768, Nat.mod_lt _ (by decide)⟩ : Fin 768))

def R1b (c : Dev nD) : FVec F S384x1536 .bf16 := truncf .bf16 (R1full A B c) bitsLt_bf16_f32

def Vd (c : Dev nD) (o : Fin 7) : FVec F S48x1536 .bf16 := fun i =>
  R1b A B c (ix2 (⟨48 * ((wi c + o.val + 1) % 8) + (i 0).val, by have := idx2_lt0 i; omega⟩ : Fin 384)
    (⟨(i 1).val, idx2_lt1 i⟩ : Fin 1536))

def outN : ℕ → Dev nD → FVec F S48x1536 .f32
  | 0, c => fun i =>
      R1full A B c (ix2 (⟨48 * wi c + (i 0).val, by have := idx2_lt0 i; have := wi_lt c; omega⟩ : Fin 384)
        (⟨(i 1).val, idx2_lt1 i⟩ : Fin 1536))
  | n + 1, c =>
      if h : n < 7 then addf (outN n c) (extf .f32 (Vd A B (inp (7 - n) c) ⟨n, h⟩) bitsLt_bf16_f32) else outN n c

theorem outN_succ (n : ℕ) (h : n < 7) (c : Dev nD) :
    outN A B (n + 1) c = addf (outN A B n c) (extf .f32 (Vd A B (inp (7 - n) c) ⟨n, h⟩) bitsLt_bf16_f32) := by
  show (if h : n < 7 then _ else _) = _
  rw [dif_pos h]

def outVal (c : Dev nD) : FVec F S48x1536 .f32 := outN A B 7 c

end Cert.Kernel.Ring

end
-- ==== Proof.K.Inst.lean ====
/- The schedule's values are the reduce-scatter's values at each device's own blocks. -/
import proofs.«900894_g7700000000000895_dist_matmul_mk_i_outk_m1536_n1536_k768_v7x_i32_f32_1_alg».proof.Proof.K.Stage
import proofs.«900894_g7700000000000895_dist_matmul_mk_i_outk_m1536_n1536_k768_v7x_i32_f32_1_alg».proof.Proof.K.Vals

noncomputable section

namespace Cert.Kernel.Ring

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section
variable (m : Mem F) (ρ : Dev nD → PrngReg)

def VfI (c : Dev nD) (h : Fin 3) (s : Fin 2) : Vec F S192x768 .bf16 := VfN (Astg m ρ) (Bstg m ρ) h.val c s
def VbI (c : Dev nD) (h : Fin 3) (s : Fin 2) : Vec F S192x768 .bf16 := VbN (Astg m ρ) (Bstg m ρ) h.val c s
def VdI (c : Dev nD) (o : Fin 7) : Vec F S48x1536 .bf16 := Vd (Astg m ρ) (Bstg m ρ) c o
def R1bI (c : Dev nD) : (cc0_scratch4 : Ref sig .tc).ty.Contents (Elt F) := R1b (Astg m ρ) (Bstg m ρ) c
def outI (c : Dev nD) : (cc0_stg2_0 : Ref sig .tc).ty.Contents (Elt F) := outVal (Astg m ρ) (Bstg m ρ) c
end

end Cert.Kernel.Ring

end
-- ==== Proof.K.BodyOb.lean ====
/- The body's run, regrouped into the form the launch asks for. -/
import proofs.«900894_g7700000000000895_dist_matmul_mk_i_outk_m1536_n1536_k768_v7x_i32_f32_1_alg».proof.Proof.K.Ghost
import proofs.«900894_g7700000000000895_dist_matmul_mk_i_outk_m1536_n1536_k768_v7x_i32_f32_1_alg».proof.Proof.K.Inst

noncomputable section

namespace Cert.Kernel.Ring

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

section
variable (Vf Vb : Dev nD → Fin 3 → Fin 2 → Vec F S192x768 .bf16) (Vd : Dev nD → Fin 7 → Vec F S48x1536 .bf16)
variable (R1b : Dev nD → (cc0_scratch4 : Ref sig .tc).ty.Contents (Elt F))
variable (m : Mem F) (ρ : Dev nD → PrngReg) (outV : Dev nD → (cc0_stg2_0 : Ref sig .tc).ty.Contents (Elt F))

def bodyPre' (c : Dev nD) : sProp 𝕄 :=
  iprop(Φ₀ Vf Vb Vd R1b c ∗ (dats Vf Vb Vd R1b m ρ outV 0 c).owesAt () t₀.castSucc
    ∗ (∃ d, stg c cc0_stg0_0 ((dats Vf Vb Vd R1b m ρ outV 0 c).before (0 : Fin 3) t₀ d))
    ∗ (∃ d, stg c cc0_stg1_0 ((dats Vf Vb Vd R1b m ρ outV 0 c).before (1 : Fin 3) t₀ d))
    ∗ (∃ d, stg c cc0_stg2_0 ((dats Vf Vb Vd R1b m ρ outV 0 c).before (2 : Fin 3) t₀ d)))

set_option maxRecDepth 65536 in
theorem body_obligation_gen
    (hsb : ∀ (K : Dev nD × CK → ℕ) (c : Dev nD) (Kt : PUnit → sProp 𝕄),
      iprop(bodyPre Vf Vb Vd R1b m ρ outV K c ∗ (bodyPost Vf Vb Vd R1b m ρ outV c -∗ Kt ⟨⟩))
        ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            cc0_scratch6 cc0_scratch7 cc0_scratch8 cc0_scratch9 cc0_scratch10 cc0_scratch11) Kt)
    (c : Dev nD) : BodyObligation (dats Vf Vb Vd R1b m ρ outV 0 c) (defs₀ (F := F)) 𝒱₀ () Set.univ := fun t => by
  rw [fin_N t]
  rw [bigSep_W0, bigSep_W0]
  simp only [owns_whole_eq]
  show bodyPre' Vf Vb Vd R1b m ρ outV c ⊢ wp frame (wpE (defs₀ (F := F)) 𝒱₀ c none) Set.univ
    (cc0_body (Memref.whole cc0_stg0_0) (Memref.isWhole_whole _) (Memref.whole cc0_stg1_0) (Memref.isWhole_whole _)
            (Memref.whole cc0_stg2_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            cc0_scratch6 cc0_scratch7 cc0_scratch8 cc0_scratch9 cc0_scratch10 cc0_scratch11) (fun _ => bodyPost Vf Vb Vd R1b m ρ outV c)
  unfold bodyPre' Φ₀ start
  iintro ⟨⟨⟨⟨%K, Hg⟩, Hcr, Hlev⟩, Hscr⟩, Ho, Ha, Hb, Hout⟩
  iapply (hsb K c fun _ => bodyPost Vf Vb Vd R1b m ρ outV c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Ha]; · iexact Ha
    isplitl [Hb] <;> iassumption
  · iintro H; iexact H

end

theorem body_obligation_of (m : Mem F) (ρ : Dev nD → PrngReg)
    (hsb : ∀ (K : Dev nD × CK → ℕ) (c : Dev nD) (Kt : PUnit → sProp 𝕄),
      iprop(bodyPre (VfI m ρ) (VbI m ρ) (VdI m ρ) (R1bI m ρ) m ρ (outI m ρ) K c ∗ (bodyPost (VfI m ρ) (VbI m ρ) (VdI m ρ) (R1bI m ρ) m ρ (outI m ρ) c -∗ Kt ⟨⟩))
        ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            cc0_scratch6 cc0_scratch7 cc0_scratch8 cc0_scratch9 cc0_scratch10 cc0_scratch11) Kt)
    (c : Dev nD) :
    BodyObligation (dats (VfI m ρ) (VbI m ρ) (VdI m ρ) (R1bI m ρ) m ρ (outI m ρ) 0 c) (defs₀ (F := F)) 𝒱₀ () Set.univ :=
  body_obligation_gen (VfI m ρ) (VbI m ρ) (VdI m ρ) (R1bI m ρ) m ρ (outI m ρ) hsb c

end Cert.Kernel.Ring

end
-- ==== Proof.K.RunOf.lean ====
/- The mesh's run: every device ends with the protocol's value and its arguments unchanged. -/
import proofs.«900894_g7700000000000895_dist_matmul_mk_i_outk_m1536_n1536_k768_v7x_i32_f32_1_alg».proof.Proof.K.Launch
import proofs.«900894_g7700000000000895_dist_matmul_mk_i_outk_m1536_n1536_k768_v7x_i32_f32_1_alg».proof.Proof.K.BodyOb

noncomputable section

namespace Cert.Kernel.Ring

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

def BodyRun (F : FTy → Type) [FloatOps F] : Prop :=
  ∀ (m : Mem F) (ρ : Dev nD → PrngReg) (K : Dev nD × CK → ℕ) (c : Dev nD) (Kt : PUnit → sProp (MT nD τ sig Unit (Elt F) ℕ UU ℕ)),
    iprop(bodyPre (VfI m ρ) (VbI m ρ) (VdI m ρ) (R1bI m ρ) m ρ (outI m ρ) K c ∗ (bodyPost (VfI m ρ) (VbI m ρ) (VdI m ρ) (R1bI m ρ) m ρ (outI m ρ) c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            cc0_scratch6 cc0_scratch7 cc0_scratch8 cc0_scratch9 cc0_scratch10 cc0_scratch11) Kt

theorem run_of {F : FTy → Type} [FloatOps F] (hsb : BodyRun F) (m : Mem F) (ρ : Dev nD → PrngReg) :
    θ_run defs (onTc (τ := τ) (main (F := F))) ⟨m, fun _ => 0, ρ⟩ (fun r => ∀ c : Dev nD,
      r.2.mem ((c.tc : Thread nD τ).loc main_v1) = outI m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_post (VfI m ρ) (VbI m ρ) (VdI m ρ) (R1bI m ρ) m ρ (outI m ρ) (body_obligation_of m ρ (hsb m ρ))

end Cert.Kernel.Ring

end
-- ==== Proof.KClaims.lean ====
/- The frame of the program as printed, from one device's body. -/
import proofs.«900894_g7700000000000895_dist_matmul_mk_i_outk_m1536_n1536_k768_v7x_i32_f32_1_alg».proof.Proof.K.RunOf
import proofs.«900894_g7700000000000895_dist_matmul_mk_i_outk_m1536_n1536_k768_v7x_i32_f32_1_alg».proof.Defs
import proofs.«900894_g7700000000000895_dist_matmul_mk_i_outk_m1536_n1536_k768_v7x_i32_f32_1_alg».proof.Proof.Gen.Kernel
import proofs.«900894_g7700000000000895_dist_matmul_mk_i_outk_m1536_n1536_k768_v7x_i32_f32_1_alg».proof.Proof.Gen.Pre_finite_inputs_Kernel

noncomputable section

namespace Cert.Kernel.Ring

open Cert.Kernel Cert.Kernel.Gen Cert.Kernel.Mesh

open Idealize.ShloMosaic
open Idealize.ShloMosaic.TcCoe
open Idealize.SL.Sem

theorem frame_p_of (hsb : BodyRun Bits) : Cert.frame_Kernel :=
  fun m g _ => (θ_run Cert.Kernel.defs _ _).mono (fun _ h c => (h c).2) (run_of hsb m g)

end Cert.Kernel.Ring

end
-- ==== Proof.Steps.lean ====
/- One rule for each kind of step: an entry signal, the entry wait, a transfer, a wait for a transfer. A step erases
   what it pays from what is owed. -/
import proofs.«900894_g7700000000000895_dist_matmul_mk_i_outk_m1536_n1536_k768_v7x_i32_f32_1_alg».proof.Proof.Ghost

noncomputable section

namespace Cert.KernelIdeal.Ring

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section
variable (Vf Vb : Dev nD → Fin 3 → Fin 2 → Vec F S192x768 .bf16) (Vd : Dev nD → Fin 7 → Vec F S48x1536 .bf16)
variable (R1b : Dev nD → (cc0_scratch4 : Ref sig .tc).ty.Contents (Elt F))
variable (K : Dev nD × CK → ℕ) (c : Dev nD)

omit [FloatOps F] in
theorem toks_take {T : Finset TK} {i : TK} (hi : i ∈ T) :
    toksAt (F := F) c T = iprop(dutyTok ER (tokCell c i) 0 (tokDuty i) ∗ toksAt (F := F) c (T.erase i)) := by
  unfold toksAt; exact bigSep_erase hi
omit [FloatOps F] in
theorem pos_take {S : Finset CK} {k : CK} (hk : k ∈ S) :
    posAt (F := F) c S = iprop(atPos ER (kcell (c, k)) 0 ∅ 0 ∗ posAt (F := F) c (S.erase k)) := by
  unfold posAt; exact bigSep_erase hk
def myPay (j : Fin 9) : sProp 𝕄 :=
  if j.val = 0 then sixFree (F := F) c cfP
  else if j.val = 1 then sixFree (F := F) c cbP
  else if h : j.val < 9 ∧ 2 ≤ j.val then free (F := F) c (cdP ⟨8 - j.val, by omega⟩)
  else iprop(emp)

omit [FloatOps F] in
theorem barPay_peer (j : Fin 9) : barPay (F := F) (peer j c) j = myPay (F := F) c j := by
  unfold barPay myPay
  by_cases h0 : j.val = 0
  · have hp : peer j c = zl c := if_pos h0
    rw [if_pos h0, if_pos h0, hp, zr_zl]
  · by_cases h1 : j.val = 1
    · have hp : peer j c = zr c := by unfold peer; rw [if_neg h0, if_pos h1]
      rw [if_neg h0, if_pos h1, if_neg h0, if_pos h1, hp, zl_zr]
    · have h2 : j.val < 9 ∧ 2 ≤ j.val := ⟨j.isLt, by omega⟩
      have hp : inp (9 - j.val) (peer j c) = c := by
        have := peerInv_peer j c
        unfold peerInv at this
        rwa [if_neg h0, if_neg h1] at this
      rw [if_neg h0, if_neg h1, dif_pos h2, if_neg h0, if_neg h1, dif_pos h2, hp]

omit [FloatOps F] in
theorem myPay_0 : myPay (F := F) c 0 = sixFree (F := F) c cfP := rfl
omit [FloatOps F] in
theorem myPay_1 : myPay (F := F) c 1 = sixFree (F := F) c cbP := rfl
omit [FloatOps F] in
theorem myPay_2 : myPay (F := F) c 2 = free (F := F) c (cdP 6) := rfl
omit [FloatOps F] in
theorem myPay_3 : myPay (F := F) c 3 = free (F := F) c (cdP 5) := rfl
omit [FloatOps F] in
theorem myPay_4 : myPay (F := F) c 4 = free (F := F) c (cdP 4) := rfl
omit [FloatOps F] in
theorem myPay_5 : myPay (F := F) c 5 = free (F := F) c (cdP 3) := rfl
omit [FloatOps F] in
theorem myPay_6 : myPay (F := F) c 6 = free (F := F) c (cdP 2) := rfl
omit [FloatOps F] in
theorem myPay_7 : myPay (F := F) c 7 = free (F := F) c (cdP 1) := rfl
omit [FloatOps F] in
theorem myPay_8 : myPay (F := F) c 8 = free (F := F) c (cdP 0) := rfl

omit [FloatOps F] in
theorem sixFree_def (d : Dev nD) (P : Fin 4 → Fin 2 → Memref sig .tc .vmem S192x768 .bf16) :
    sixFree (F := F) d P = iprop(free (F := F) d (P 0 0) ∗ free (F := F) d (P 0 1) ∗ free (F := F) d (P 1 0) ∗ free (F := F) d (P 1 1)
      ∗ free (F := F) d (P 2 0) ∗ free (F := F) d (P 2 1)) := rfl

omit [FloatOps F] in
theorem free_intro (d : Dev nD) {s : Shape} {e : EltTy} (M : Memref sig .tc .vmem s e) (f : Buf (Elt F) (M.view.loc (d : Thread nD τ))) :
    (M.view.loc (d : Thread nD τ) ↦[M.view.set]{fullShare} f) ⊢ free (F := F) d M := by
  unfold free; iintro H; iexists f; iexact H

theorem wp_sig (j : Fin 9) (n : Dev nD) (hn : n = peer j c) {S : Finset PK} (hS : PK.sig j ∈ S) {T : Finset TK} (hT : Sum.inl (PK.sig j) ∈ T)
    (W : Waits sig Unit) {α : Type} {Q : α → sProp 𝕄} {k : PUnit → Prog (TpuEff nD τ sig (Elt F) Λ₀ .tc) α} :
    iprop(records Vf Vb Vd R1b K ∗ owes (c : Thread nD τ) (Orem c S) W ∗ toksAt (F := F) c T ∗ myPay (F := F) c j)
      ⊢ iprop(((owes (c : Thread nD τ) (Orem c (S.erase (.sig j))) W ∗ toksAt (F := F) c (T.erase (.inl (.sig j))))
            -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS 1) k) Q) := by
  subst hn
  have hpay : myPay (F := F) c j ⊢ (ringRd Vf Vb Vd R1b).payload (((peer j c : Dev nD) : Thread nD τ), SemLoc.reg barS) 0 j := by
    show myPay (F := F) c j ⊢ (ringRd Vf Vb Vd R1b).payload (kcell (peer j c, .bar)) 0 j
    rw [payload_cell, ← barPay_peer]; exact .rfl
  have hrule := Rounds.wp_signal 𝒱₀ ER (ringRd Vf Vb Vd R1b) (c : Thread nD τ) none (dst := (peer j c : Thread nD τ)) (sem := barS) (r := 0) (d := j) (k' := 1)
    (defs := defs₀ (F := F)) (Γ := .empty) (Q := Q) (k := k) (κ := K (peer j c, .bar))
    (by rw [show (((peer j c : Dev nD) : Thread nD τ), SemLoc.reg barS) = kcell (peer j c, .bar) from rfl, duties_bar]; exact Finset.mem_univ _)
    (amount_cell Vf Vb Vd R1b (peer j c) .bar 0 j) () (Orem c (S.erase (.sig j))) (Orem_erase c hS) (W := W) (Es := Set.univ)
  rw [toks_take c hT]
  iintro ⟨#Hrec, HL, ⟨Ht, Htok⟩, Hpay⟩ Hk
  iapply hrule $$ [HL Ht Hpay] [Hk Htok]
  · isplitr; · iapply (inv_at Vf Vb Vd R1b K (peer j c, .bar)); iexact Hrec
    isplitl [HL]; · iexact HL
    isplitl [Ht]; · iexact Ht
    isplitl [Hpay]; · iapply hpay; iexact Hpay
    iapply (reached_at Vf Vb Vd R1b K (peer j c, .bar)); iexact Hrec
  · iintro HL
    iapply Hk
    isplitl [HL]; · iexact HL
    iexact Htok

theorem wp_bar_wait {S : Finset PK} (hlev : ∀ i ∈ S, 1 < lvP i) (W : Waits sig Unit)
    {w : TpuEff nD τ sig (Elt F) Λ₀ .tc PUnit}
    (hw : ∀ K' : PUnit → sProp 𝕄, wpE (defs₀ (F := F)) 𝒱₀ (c : Thread nD τ) none Set.univ w K' = waitSpec (c : Thread nD τ) Set.univ (.reg barS) 9 K')
    {α : Type} {Q : α → sProp 𝕄} {k : PUnit → Prog (TpuEff nD τ sig (Elt F) Λ₀ .tc) α} :
    iprop(records Vf Vb Vd R1b K ∗ cred (tallyAt (kcell (c, .bar)) () 9) ∗ owes (c : Thread nD τ) (Orem c S) W ∗ levAts L lv
        ∗ atPos ER (kcell (c, .bar)) 0 ∅ 0)
      ⊢ iprop(((owes (c : Thread nD τ) (Orem c S) (insert (SemLoc.reg barS, ()) W)
              ∗ sixFree (F := F) (zr c) cfP ∗ sixFree (F := F) (zl c) cbP
              ∗ free (F := F) (inp 7 c) (cdP 6) ∗ free (F := F) (inp 6 c) (cdP 5) ∗ free (F := F) (inp 5 c) (cdP 4) ∗ free (F := F) (inp 4 c) (cdP 3)
              ∗ free (F := F) (inp 3 c) (cdP 2) ∗ free (F := F) (inp 2 c) (cdP 1) ∗ free (F := F) (inp 1 c) (cdP 0))
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  have hrule := Rounds.wp_wait_rest_token 𝒱₀ ER (ringRd Vf Vb Vd R1b) (c : Thread nD τ) none (sm := csem .bar) (k' := 9) (κ := K (c, .bar))
    (Q := Q) (k := k) hw (Set.mem_univ _) () (O := Orem c S) (W := W) (R := 0) (m := 0) (T := ∅)
    (by rw [Nat.zero_add]; exact (expect_bar Vf Vb Vd R1b c).symm)
  rw [rest_bar Vf Vb Vd R1b c] at hrule
  iintro ⟨#Hrec, Hc, HL, #Hlev, Hat⟩ Hk
  iapply hrule $$ [Hc HL Hat] [Hk]
  · isplitr; · iapply (inv_at Vf Vb Vd R1b K (c, .bar)); iexact Hrec
    isplitl [Hc]; · iexact Hc
    isplitl [HL]; · iexact HL
    isplitr; · iapply (mayWait_cellP c .bar S hlev); iexact Hlev
    iexact Hat
  · iintro ⟨HL, -, -, Hpay⟩
    iapply Hk
    isplitl [HL]; · iexact HL
    iexact Hpay

theorem wp_send_f (h : Fin 3) (s : Fin 2) (n : Dev nD) (hn : n = zr c) {S : Finset PK} (hS : PK.rf h s ∈ S) {T : Finset TK}
    (hT1 : Sum.inl (PK.rf h s) ∈ T) (hT2 : Sum.inr (SK.f h s) ∈ T) (W : Waits sig Unit)
    (fs : Buf (Elt F) ((cfP (srcSlot h) s).view.loc (c : Thread nD τ))) (hV : (cfP (srcSlot h) s).view.read (Elt F) fs = Vf c h s)
    {hsc : (cfP (dstSlot h) s : Memref sig (Dev.tc n : Thread nD τ).2.kind .vmem S192x768 .bf16).view.ref.isScScratch = false}
    {hsrc : (cfP (srcSlot h) s).view.WordExact} {hdst : (cfP (dstSlot h) s).view.WordExact}
    {hsem : DmaTarget.Typed .vmem (.dma (fRs h s)) (.remote (Dev.tc n : Thread nD τ) (cfP (dstSlot h) s) (.dma (fSs h s)) hsc)}
    {α : Type} {Q : α → sProp 𝕄} {k : PUnit → Prog (TpuEff nD τ sig (Elt F) Λ₀ .tc) α} :
    iprop(records Vf Vb Vd R1b K ∗ owes (c : Thread nD τ) (Orem c S) W ∗ toksAt (F := F) c T
        ∗ ((cfP (srcSlot h) s).view.loc (c : Thread nD τ) ↦[(cfP (srcSlot h) s).view.set]{fullShare} fs)
        ∗ free (F := F) (zr c) (cfP (dstSlot h) s))
      ⊢ iprop(((cred (tallyAt (kcell (c, .fS h s)) () N192) ∗ owes (c : Thread nD τ) (Orem c (S.erase (.rf h s))) W
              ∗ toksAt (F := F) c ((T.erase (.inl (.rf h s))).erase (.inr (.f h s))))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (cfP (srcSlot h) s) (.remote (Dev.tc n : Thread nD τ) (cfP (dstSlot h) s) (.dma (fSs h s)) hsc) (.dma (fRs h s)) hsrc hdst hsem) k) Q) := by
  subst hn
  have hkS : CK.fS h s ≠ CK.bar := fun e => by cases e
  have hkR : CK.fR h s ≠ CK.bar := fun e => by cases e
  have hpay₁ : ((cfP (srcSlot h) s).view.loc (c : Thread nD τ) ↦[(cfP (srcSlot h) s).view.set]{fullShare} fs)
      ⊢ (ringRd Vf Vb Vd R1b).payload (kcell (c, CK.fS h s)) 0 0 := by
    rw [payload_cell]
    show _ ⊢ holds c (cfP (srcSlot h) s) (Vf c h s)
    unfold holds
    iintro H; iexists fs; isplitr
    · ipureintro; exact hV
    iexact H
  have hpay₂ (fd : Buf (Elt F) ((cfP (dstSlot h) s).view.loc (zr c : Thread nD τ))) :
      ((cfP (dstSlot h) s).view.loc (zr c : Thread nD τ) ↦[(cfP (dstSlot h) s).view.set]{fullShare}
          ((cfP (dstSlot h) s).view.write (Elt F) fd ((cfP (srcSlot h) s).view.read (Elt F) fs) Finset.univ))
      ⊢ (ringRd Vf Vb Vd R1b).payload (kcell (zr c, CK.fR h s)) 0 0 := by
    rw [payload_cell]
    show _ ⊢ holds (zr c) (cfP (dstSlot h) s) (Vf (zl (zr c)) h s)
    rw [zl_zr]
    unfold holds
    iintro H
    iexists ((cfP (dstSlot h) s).view.write (Elt F) fd ((cfP (srcSlot h) s).view.read (Elt F) fs) Finset.univ)
    isplitr
    · ipureintro; rw [View.read_write_univ]; exact hV
    iexact H
  have hrule (fd : Buf (Elt F) ((cfP (dstSlot h) s).view.loc (zr c : Thread nD τ))) :=
    Rounds.wp_send_pointsTo 𝒱₀ ER (ringRd Vf Vb Vd R1b) (c : Thread nD τ) none (defs := defs₀ (F := F)) (Γ := .empty) (Q := Q) (k := k)
      (c' := (zr c : Thread nD τ)) (src := cfP (srcSlot h) s) (dst := cfP (dstSlot h) s) (hsc := hsc) (sS := .dma (fSs h s)) (sem := .dma (fRs h s))
      (hsrc := hsrc) (hdst := hdst) (hsem := hsem) (q := fullShare) (fs := fs) (fd := fd)
      (r₁ := 0) (r₂ := 0) (d₁ := 0) (d₂ := 0) (κ₁ := K (c, CK.fS h s)) (κ₂ := K (zr c, CK.fR h s))
      (by rw [show ((c : Thread nD τ), SemLoc.dma (fSs h s)) = kcell (c, CK.fS h s) from rfl, duties_one Vf Vb Vd R1b c _ hkS]; exact Finset.mem_singleton_self _)
      (by rw [show (((zr c : Dev nD) : Thread nD τ), SemLoc.dma (fRs h s)) = kcell (zr c, CK.fR h s) from rfl, duties_one Vf Vb Vd R1b (zr c) _ hkR]; exact Finset.mem_singleton_self _)
      () () N192 rfl (amount_cell Vf Vb Vd R1b c (CK.fS h s) 0 0) (amount_cell Vf Vb Vd R1b (zr c) (CK.fR h s) 0 0)
      (Orem c (S.erase (PK.rf h s))) (Orem_erase c hS) (W := W) (Es := Set.univ) hpay₁ (hpay₂ fd)
  rw [toks_take c hT1, toks_take c (Finset.mem_erase.mpr ⟨Sum.inr_ne_inl, hT2⟩)]
  unfold free
  iintro ⟨#Hrec, HL, ⟨Ht1, Ht2, Htok⟩, Hs, ⟨%fd, Hd⟩⟩ Hk
  iapply (hrule fd) $$ [HL Ht1 Ht2 Hs Hd] [Hk Htok]
  · isplitr; · iapply (inv_at Vf Vb Vd R1b K (c, CK.fS h s)); iexact Hrec
    isplitr; · iapply (inv_at Vf Vb Vd R1b K (zr c, CK.fR h s)); iexact Hrec
    isplitl [Hs]; · iexact Hs
    isplitl [Hd]; · iexact Hd
    isplitl [HL]; · iexact HL
    isplitl [Ht2]; · iexact Ht2
    isplitr; · iapply (reached_at Vf Vb Vd R1b K (c, CK.fS h s)); iexact Hrec
    isplitl [Ht1]; · iexact Ht1
    iapply (reached_at Vf Vb Vd R1b K (zr c, CK.fR h s)); iexact Hrec
  · iintro ⟨Hc, HL⟩
    iapply Hk
    isplitl [Hc]; · iexact Hc
    isplitl [HL]; · iexact HL
    iexact Htok

theorem wp_send_b (h : Fin 3) (s : Fin 2) (n : Dev nD) (hn : n = zl c) {S : Finset PK} (hS : PK.rb h s ∈ S) {T : Finset TK}
    (hT1 : Sum.inl (PK.rb h s) ∈ T) (hT2 : Sum.inr (SK.b h s) ∈ T) (W : Waits sig Unit)
    (fs : Buf (Elt F) ((cbP (srcSlot h) s).view.loc (c : Thread nD τ))) (hV : (cbP (srcSlot h) s).view.read (Elt F) fs = Vb c h s)
    {hsc : (cbP (dstSlot h) s : Memref sig (Dev.tc n : Thread nD τ).2.kind .vmem S192x768 .bf16).view.ref.isScScratch = false}
    {hsrc : (cbP (srcSlot h) s).view.WordExact} {hdst : (cbP (dstSlot h) s).view.WordExact}
    {hsem : DmaTarget.Typed .vmem (.dma (bRs h s)) (.remote (Dev.tc n : Thread nD τ) (cbP (dstSlot h) s) (.dma (bSs h s)) hsc)}
    {α : Type} {Q : α → sProp 𝕄} {k : PUnit → Prog (TpuEff nD τ sig (Elt F) Λ₀ .tc) α} :
    iprop(records Vf Vb Vd R1b K ∗ owes (c : Thread nD τ) (Orem c S) W ∗ toksAt (F := F) c T
        ∗ ((cbP (srcSlot h) s).view.loc (c : Thread nD τ) ↦[(cbP (srcSlot h) s).view.set]{fullShare} fs)
        ∗ free (F := F) (zl c) (cbP (dstSlot h) s))
      ⊢ iprop(((cred (tallyAt (kcell (c, .bS h s)) () N192) ∗ owes (c : Thread nD τ) (Orem c (S.erase (.rb h s))) W
              ∗ toksAt (F := F) c ((T.erase (.inl (.rb h s))).erase (.inr (.b h s))))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (cbP (srcSlot h) s) (.remote (Dev.tc n : Thread nD τ) (cbP (dstSlot h) s) (.dma (bSs h s)) hsc) (.dma (bRs h s)) hsrc hdst hsem) k) Q) := by
  subst hn
  have hkS : CK.bS h s ≠ CK.bar := fun e => by cases e
  have hkR : CK.bR h s ≠ CK.bar := fun e => by cases e
  have hpay₁ : ((cbP (srcSlot h) s).view.loc (c : Thread nD τ) ↦[(cbP (srcSlot h) s).view.set]{fullShare} fs)
      ⊢ (ringRd Vf Vb Vd R1b).payload (kcell (c, CK.bS h s)) 0 0 := by
    rw [payload_cell]
    show _ ⊢ holds c (cbP (srcSlot h) s) (Vb c h s)
    unfold holds
    iintro H; iexists fs; isplitr
    · ipureintro; exact hV
    iexact H
  have hpay₂ (fd : Buf (Elt F) ((cbP (dstSlot h) s).view.loc (zl c : Thread nD τ))) :
      ((cbP (dstSlot h) s).view.loc (zl c : Thread nD τ) ↦[(cbP (dstSlot h) s).view.set]{fullShare}
          ((cbP (dstSlot h) s).view.write (Elt F) fd ((cbP (srcSlot h) s).view.read (Elt F) fs) Finset.univ))
      ⊢ (ringRd Vf Vb Vd R1b).payload (kcell (zl c, CK.bR h s)) 0 0 := by
    rw [payload_cell]
    show _ ⊢ holds (zl c) (cbP (dstSlot h) s) (Vb (zr (zl c)) h s)
    rw [zr_zl]
    unfold holds
    iintro H
    iexists ((cbP (dstSlot h) s).view.write (Elt F) fd ((cbP (srcSlot h) s).view.read (Elt F) fs) Finset.univ)
    isplitr
    · ipureintro; rw [View.read_write_univ]; exact hV
    iexact H
  have hrule (fd : Buf (Elt F) ((cbP (dstSlot h) s).view.loc (zl c : Thread nD τ))) :=
    Rounds.wp_send_pointsTo 𝒱₀ ER (ringRd Vf Vb Vd R1b) (c : Thread nD τ) none (defs := defs₀ (F := F)) (Γ := .empty) (Q := Q) (k := k)
      (c' := (zl c : Thread nD τ)) (src := cbP (srcSlot h) s) (dst := cbP (dstSlot h) s) (hsc := hsc) (sS := .dma (bSs h s)) (sem := .dma (bRs h s))
      (hsrc := hsrc) (hdst := hdst) (hsem := hsem) (q := fullShare) (fs := fs) (fd := fd)
      (r₁ := 0) (r₂ := 0) (d₁ := 0) (d₂ := 0) (κ₁ := K (c, CK.bS h s)) (κ₂ := K (zl c, CK.bR h s))
      (by rw [show ((c : Thread nD τ), SemLoc.dma (bSs h s)) = kcell (c, CK.bS h s) from rfl, duties_one Vf Vb Vd R1b c _ hkS]; exact Finset.mem_singleton_self _)
      (by rw [show (((zl c : Dev nD) : Thread nD τ), SemLoc.dma (bRs h s)) = kcell (zl c, CK.bR h s) from rfl, duties_one Vf Vb Vd R1b (zl c) _ hkR]; exact Finset.mem_singleton_self _)
      () () N192 rfl (amount_cell Vf Vb Vd R1b c (CK.bS h s) 0 0) (amount_cell Vf Vb Vd R1b (zl c) (CK.bR h s) 0 0)
      (Orem c (S.erase (PK.rb h s))) (Orem_erase c hS) (W := W) (Es := Set.univ) hpay₁ (hpay₂ fd)
  rw [toks_take c hT1, toks_take c (Finset.mem_erase.mpr ⟨Sum.inr_ne_inl, hT2⟩)]
  unfold free
  iintro ⟨#Hrec, HL, ⟨Ht1, Ht2, Htok⟩, Hs, ⟨%fd, Hd⟩⟩ Hk
  iapply (hrule fd) $$ [HL Ht1 Ht2 Hs Hd] [Hk Htok]
  · isplitr; · iapply (inv_at Vf Vb Vd R1b K (c, CK.bS h s)); iexact Hrec
    isplitr; · iapply (inv_at Vf Vb Vd R1b K (zl c, CK.bR h s)); iexact Hrec
    isplitl [Hs]; · iexact Hs
    isplitl [Hd]; · iexact Hd
    isplitl [HL]; · iexact HL
    isplitl [Ht2]; · iexact Ht2
    isplitr; · iapply (reached_at Vf Vb Vd R1b K (c, CK.bS h s)); iexact Hrec
    isplitl [Ht1]; · iexact Ht1
    iapply (reached_at Vf Vb Vd R1b K (zl c, CK.bR h s)); iexact Hrec
  · iintro ⟨Hc, HL⟩
    iapply Hk
    isplitl [Hc]; · iexact Hc
    isplitl [HL]; · iexact HL
    iexact Htok

theorem wp_send_d (o : Fin 7) (n : Dev nD) (hn : n = inp (o.val + 1) c) {S : Finset PK} (hS : PK.dd o ∈ S) {T : Finset TK}
    (hT1 : Sum.inl (PK.dd o) ∈ T) (hT2 : Sum.inr (SK.d o) ∈ T) (W : Waits sig Unit)
    (hV : (chM c o).view.read (Elt F) (R1b c) = Vd c o)
    {hsc : (cdP o : Memref sig (Dev.tc n : Thread nD τ).2.kind .vmem S48x1536 .bf16).view.ref.isScScratch = false}
    {hsrc : (chM c o).view.WordExact} {hdst : (cdP o).view.WordExact}
    {hsem : DmaTarget.Typed .vmem (.dma (dRs o)) (.remote (Dev.tc n : Thread nD τ) (cdP o) (.dma (dSs o)) hsc)}
    {α : Type} {Q : α → sProp 𝕄} {k : PUnit → Prog (TpuEff nD τ sig (Elt F) Λ₀ .tc) α} :
    iprop(records Vf Vb Vd R1b K ∗ owes (c : Thread nD τ) (Orem c S) W ∗ toksAt (F := F) c T
        ∗ ((chM c o).view.loc (c : Thread nD τ) ↦[(chM c o).view.set]{fullShare} R1b c)
        ∗ free (F := F) (inp (o.val + 1) c) (cdP o))
      ⊢ iprop(((cred (tallyAt (kcell (c, .dS o)) () N48) ∗ owes (c : Thread nD τ) (Orem c (S.erase (.dd o))) W
              ∗ toksAt (F := F) c ((T.erase (.inl (.dd o))).erase (.inr (.d o))))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (chM c o) (.remote (Dev.tc n : Thread nD τ) (cdP o) (.dma (dSs o)) hsc) (.dma (dRs o)) hsrc hdst hsem) k) Q) := by
  subst hn
  have hkS : CK.dS o ≠ CK.bar := fun e => by cases e
  have hkR : CK.dR o ≠ CK.bar := fun e => by cases e
  have hpay₁ : ((chM c o).view.loc (c : Thread nD τ) ↦[(chM c o).view.set]{fullShare} (R1b c))
      ⊢ (ringRd Vf Vb Vd R1b).payload (kcell (c, CK.dS o)) 0 0 := by
    rw [payload_cell]
    exact .rfl
  have hpay₂ (fd : Buf (Elt F) ((cdP o).view.loc (inp (o.val + 1) c : Thread nD τ))) :
      ((cdP o).view.loc (inp (o.val + 1) c : Thread nD τ) ↦[(cdP o).view.set]{fullShare}
          ((cdP o).view.write (Elt F) fd ((chM c o).view.read (Elt F) (R1b c)) Finset.univ))
      ⊢ (ringRd Vf Vb Vd R1b).payload (kcell (inp (o.val + 1) c, CK.dR o)) 0 0 := by
    rw [payload_cell]
    show _ ⊢ holds (inp (o.val + 1) c) (cdP o) (Vd (inp (7 - o.val) (inp (o.val + 1) c)) o)
    rw [inp_inp o c]
    unfold holds
    iintro H
    iexists ((cdP o).view.write (Elt F) fd ((chM c o).view.read (Elt F) (R1b c)) Finset.univ)
    isplitr
    · ipureintro; rw [View.read_write_univ]; exact hV
    iexact H
  have hrule (fd : Buf (Elt F) ((cdP o).view.loc (inp (o.val + 1) c : Thread nD τ))) :=
    Rounds.wp_send_pointsTo 𝒱₀ ER (ringRd Vf Vb Vd R1b) (c : Thread nD τ) none (defs := defs₀ (F := F)) (Γ := .empty) (Q := Q) (k := k)
      (c' := (inp (o.val + 1) c : Thread nD τ)) (src := chM c o) (dst := cdP o) (hsc := hsc) (sS := .dma (dSs o)) (sem := .dma (dRs o))
      (hsrc := hsrc) (hdst := hdst) (hsem := hsem) (q := fullShare) (fs := (R1b c)) (fd := fd)
      (r₁ := 0) (r₂ := 0) (d₁ := 0) (d₂ := 0) (κ₁ := K (c, CK.dS o)) (κ₂ := K (inp (o.val + 1) c, CK.dR o))
      (by rw [show ((c : Thread nD τ), SemLoc.dma (dSs o)) = kcell (c, CK.dS o) from rfl, duties_one Vf Vb Vd R1b c _ hkS]; exact Finset.mem_singleton_self _)
      (by rw [show (((inp (o.val + 1) c : Dev nD) : Thread nD τ), SemLoc.dma (dRs o)) = kcell (inp (o.val + 1) c, CK.dR o) from rfl, duties_one Vf Vb Vd R1b (inp (o.val + 1) c) _ hkR]; exact Finset.mem_singleton_self _)
      () () N48 rfl (amount_cell Vf Vb Vd R1b c (CK.dS o) 0 0) (amount_cell Vf Vb Vd R1b (inp (o.val + 1) c) (CK.dR o) 0 0)
      (Orem c (S.erase (PK.dd o))) (Orem_erase c hS) (W := W) (Es := Set.univ) hpay₁ (hpay₂ fd)
  rw [toks_take c hT1, toks_take c (Finset.mem_erase.mpr ⟨Sum.inr_ne_inl, hT2⟩)]
  unfold free
  iintro ⟨#Hrec, HL, ⟨Ht1, Ht2, Htok⟩, Hs, ⟨%fd, Hd⟩⟩ Hk
  iapply (hrule fd) $$ [HL Ht1 Ht2 Hs Hd] [Hk Htok]
  · isplitr; · iapply (inv_at Vf Vb Vd R1b K (c, CK.dS o)); iexact Hrec
    isplitr; · iapply (inv_at Vf Vb Vd R1b K (inp (o.val + 1) c, CK.dR o)); iexact Hrec
    isplitl [Hs]; · iexact Hs
    isplitl [Hd]; · iexact Hd
    isplitl [HL]; · iexact HL
    isplitl [Ht2]; · iexact Ht2
    isplitr; · iapply (reached_at Vf Vb Vd R1b K (c, CK.dS o)); iexact Hrec
    isplitl [Ht1]; · iexact Ht1
    iapply (reached_at Vf Vb Vd R1b K (inp (o.val + 1) c, CK.dR o)); iexact Hrec
  · iintro ⟨Hc, HL⟩
    iapply Hk
    isplitl [Hc]; · iexact Hc
    isplitl [HL]; · iexact HL
    iexact Htok

theorem wp_wait_dma (k : CK) (hk : k ≠ .bar) {S : Finset PK} (hlev : ∀ i ∈ S, lvK k < lvP i) {P : Finset CK} (hP : k ∈ P) (W : Waits sig Unit)
    (sem : DmaSem sig) {sh : Shape} {e : EltTy} (src dst : Memref sig .tc .vmem sh e)
    {hsrc : src.view.WordExact} {hdst : dst.view.WordExact}
    (hsem : SemLoc.dma sem = csem k) (hamt : dst.view.dmaCredit = amt k)
    {α : Type} {Q : α → sProp 𝕄} {k' : PUnit → Prog (TpuEff nD τ sig (Elt F) Λ₀ .tc) α} :
    iprop(records Vf Vb Vd R1b K ∗ cred (tallyAt (kcell (c, k)) () (amt k)) ∗ owes (c : Thread nD τ) (Orem c S) W ∗ levAts L lv
        ∗ posAt (F := F) c P)
      ⊢ iprop(((owes (c : Thread nD τ) (Orem c S) (insert (csem k, ()) W) ∗ atPos ER (kcell (c, k)) 1 ∅ 0 ∗ cellPay Vf Vb Vd R1b c k 0
              ∗ posAt (F := F) c (P.erase k))
            -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 sem src dst hsrc hdst) k') Q) := by
  have hw : ∀ K' : PUnit → sProp 𝕄, wpE (defs₀ (F := F)) 𝒱₀ (c : Thread nD τ) none Set.univ (.waitDma2 sem src dst hsrc hdst) K'
      = waitSpec (c : Thread nD τ) Set.univ (csem k) (amt k) K' := fun K' => by rw [wpE_waitDma2_eq, hsem, hamt]
  have hrule := Rounds.wp_wait_rest_token 𝒱₀ ER (ringRd Vf Vb Vd R1b) (c : Thread nD τ) none (sm := csem k) (k' := amt k) (κ := K (c, k))
    (Q := Q) (k := k') hw (Set.mem_univ _) () (O := Orem c S) (W := W) (R := 0) (m := 0) (T := ∅)
    (by rw [Nat.zero_add]; exact (expect_one Vf Vb Vd R1b c k hk).symm)
  rw [rest_one Vf Vb Vd R1b c k hk] at hrule
  rw [pos_take c hP]
  iintro ⟨#Hrec, Hc, HL, #Hlev, Hat, Hpos⟩ Hk
  iapply hrule $$ [Hc HL Hat] [Hk Hpos]
  · isplitr; · iapply (inv_at Vf Vb Vd R1b K (c, k)); iexact Hrec
    isplitl [Hc]; · iexact Hc
    isplitl [HL]; · iexact HL
    isplitr; · iapply (mayWait_cellP c k S hlev); iexact Hlev
    iexact Hat
  · iintro ⟨HL, Hat, -, Hpay⟩
    iapply Hk
    isplitl [HL]; · iexact HL
    isplitl [Hat]; · iexact Hat
    isplitl [Hpay]; · iexact Hpay
    iexact Hpos

theorem close_one (k : CK) (hk : k ≠ .bar) :
    iprop(records Vf Vb Vd R1b K ∗ atPos ER (kcell (c, k)) 1 ∅ 0) ⊢ (|={Set.univ}=> semVal (kcell (c, k)) 0 : sProp 𝕄) :=
  (sep_mono_left (inv_at Vf Vb Vd R1b K (c, k))).trans
    (Rounds.cell_close ER (ringRd Vf Vb Vd R1b) (Set.mem_univ (K (c, k))) (fun h => h) (R := 1) (duties_later Vf Vb Vd R1b (kcell (c, k))))

end

end Cert.KernelIdeal.Ring

end
-- ==== Proof.Pieces.lean ====
/- A buffer is the disjoint union of its pieces, so holding it whole is holding every piece. -/
import proofs.«900894_g7700000000000895_dist_matmul_mk_i_outk_m1536_n1536_k768_v7x_i32_f32_1_alg».proof.Proof.Cells
import Idealize.ShloMosaic.Lib.Pipeline.Value
import Idealize.ShloMosaic.Rules.PointsTo
import Idealize.SL.ProofMode.BigOp
import Idealize.ShloMosaic.Lib.ValueIdx

noncomputable section

namespace Cert.KernelIdeal.Ring

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix3)

variable {F : FTy → Type} [FloatOps F]

local notation "𝕄" => MT nD τ sig Unit (Elt F) ℕ UU ℕ

theorem cf_set (k : Fin 4) (s : Fin 2) : (cfP k s).view.set = (pieceR k s).set :=
  (View.set_reshape (cfM.view.slice (pieceR k s)) _).trans (View.set_slice_whole cc0_scratch1 (pieceR k s))

theorem cb_set (k : Fin 4) (s : Fin 2) : (cbP k s).view.set = (pieceR k s).set :=
  (View.set_reshape (cbM.view.slice (pieceR k s)) _).trans (View.set_slice_whole cc0_scratch2 (pieceR k s))

theorem cd_set (o : Fin 7) : (cdP o).view.set = (cdR o).set :=
  (View.set_reshape (cdM.view.slice (cdR o)) _).trans (View.set_slice_whole cc0_scratch5 (cdR o))

theorem ch_set (c : Dev nD) (o : Fin 7) : (chM c o).view.set = (chR c o).set :=
  View.set_slice_whole cc0_scratch4 (chR c o)

theorem mem_piece (k : Fin 4) (s : Fin 2) (i : S4x384x768.Idx) :
    i ∈ (pieceR k s).set ↔ (i 0).val = k.val ∧ 192 * s.val ≤ (i 1).val ∧ (i 1).val < 192 * s.val + 192 := by
  rw [Rect.mem_set_unit]
  have h2 : (i 2).val < 768 := (i 2).isLt
  constructor
  · intro H
    have a0 : k.val ≤ (i 0).val ∧ (i 0).val < k.val + 1 := H 0
    have a1 : 192 * s.val ≤ (i 1).val ∧ (i 1).val < 192 * s.val + 192 := H 1
    omega
  · intro H a
    fin_cases a
    · show k.val ≤ (i 0).val ∧ (i 0).val < k.val + 1; omega
    · show 192 * s.val ≤ (i 1).val ∧ (i 1).val < 192 * s.val + 192; omega
    · show 0 ≤ (i 2).val ∧ (i 2).val < 0 + 768; omega

theorem mem_cd (o : Fin 7) (i : S7x48x1536.Idx) : i ∈ (cdR o).set ↔ (i 0).val = o.val := by
  rw [Rect.mem_set_unit]
  have h1 : (i 1).val < 48 := (i 1).isLt
  have h2 : (i 2).val < 1536 := (i 2).isLt
  constructor
  · intro H
    have a0 : o.val ≤ (i 0).val ∧ (i 0).val < o.val + 1 := H 0
    omega
  · intro H a
    fin_cases a
    · show o.val ≤ (i 0).val ∧ (i 0).val < o.val + 1; omega
    · show 0 ≤ (i 1).val ∧ (i 1).val < 0 + 48; omega
    · show 0 ≤ (i 2).val ∧ (i 2).val < 0 + 1536; omega

theorem piece_disjoint {k k' : Fin 4} {s s' : Fin 2} (h : (k, s) ≠ (k', s')) :
    Disjoint (pieceR k s).set (pieceR k' s').set := by
  rw [Finset.disjoint_left]
  intro i hi hi'
  rw [mem_piece] at hi hi'
  have hk : k = k' := Fin.ext (by omega)
  have hs : s = s' := Fin.ext (by omega)
  exact h (by rw [hk, hs])

theorem piece_cover :
    (Finset.univ : Finset (Fin 4 × Fin 2)).biUnion (fun ks => (pieceR ks.1 ks.2).set) = Finset.univ := by
  ext i
  simp only [Finset.mem_biUnion, Finset.mem_univ, true_and, iff_true]
  have h0 : (i 0).val < 4 := (i 0).isLt
  have h1 : (i 1).val < 384 := (i 1).isLt
  refine ⟨(⟨(i 0).val, h0⟩, ⟨(i 1).val / 192, by omega⟩), ?_⟩
  rw [mem_piece]
  refine ⟨rfl, ?_, ?_⟩
  · show 192 * ((i 1).val / 192) ≤ (i 1).val; omega
  · show (i 1).val < 192 * ((i 1).val / 192) + 192; omega

theorem cd_disjoint {o o' : Fin 7} (h : o ≠ o') : Disjoint (cdR o).set (cdR o').set := by
  rw [Finset.disjoint_left]
  intro i hi hi'
  rw [mem_cd] at hi hi'
  exact h (Fin.ext (by omega))

theorem cd_cover : (Finset.univ : Finset (Fin 7)).biUnion (fun o => (cdR o).set) = Finset.univ := by
  ext i
  simp only [Finset.mem_biUnion, Finset.mem_univ, true_and, iff_true]
  have h0 : (i 0).val < 7 := (i 0).isLt
  exact ⟨⟨(i 0).val, h0⟩, (mem_cd _ i).mpr rfl⟩

universe u

theorem bigSep_pieces {M : Type u} [URA M] (Φ : Fin 4 × Fin 2 → sProp M) :
    bigSep Finset.univ Φ
      = iprop(Φ (0, 0) ∗ Φ (0, 1) ∗ Φ (1, 0) ∗ Φ (1, 1) ∗ Φ (2, 0) ∗ Φ (2, 1) ∗ Φ (3, 0) ∗ Φ (3, 1)) := by
  rw [show (Finset.univ : Finset (Fin 4 × Fin 2))
        = {(0, 0), (0, 1), (1, 0), (1, 1), (2, 0), (2, 1), (3, 0), (3, 1)} from by decide,
    bigSep_insert (by decide), bigSep_insert (by decide), bigSep_insert (by decide), bigSep_insert (by decide),
    bigSep_insert (by decide), bigSep_insert (by decide), bigSep_insert (by decide), bigSep_singleton]
  rfl

theorem bigSep_slots {M : Type u} [URA M] (Φ : Fin 7 → sProp M) :
    bigSep Finset.univ Φ = iprop(Φ 0 ∗ Φ 1 ∗ Φ 2 ∗ Φ 3 ∗ Φ 4 ∗ Φ 5 ∗ Φ 6) := by
  rw [show (Finset.univ : Finset (Fin 7)) = {0, 1, 2, 3, 4, 5, 6} from by decide,
    bigSep_insert (by decide), bigSep_insert (by decide), bigSep_insert (by decide), bigSep_insert (by decide),
    bigSep_insert (by decide), bigSep_insert (by decide), bigSep_singleton]
  rfl

theorem pointsTo_univ_family {ℓ : Loc nD τ sig} {T : Type} [Fintype T] (K : T → Finset (Idx ℓ))
    (hd : ∀ t t', t ≠ t' → Disjoint (K t) (K t')) (hc : Finset.univ.biUnion K = Finset.univ)
    (f : Buf (Elt F) ℓ) :
    (ℓ ↦{fullShare} f : sProp 𝕄) = bigSep Finset.univ fun t => (ℓ ↦[K t]{fullShare} f : sProp 𝕄) := by
  rw [← pointsTo_biUnion Finset.univ K (fun t _ t' _ h => hd t t' h), hc]

theorem pointsTo_univ_family_join {ℓ : Loc nD τ sig} {T : Type} [Fintype T] [DecidableEq T] (K : T → Finset (Idx ℓ))
    (hd : ∀ t t', t ≠ t' → Disjoint (K t) (K t')) (hc : Finset.univ.biUnion K = Finset.univ) :
    bigSep Finset.univ (fun t => (iprop(∃ f : Buf (Elt F) ℓ, ℓ ↦[K t]{fullShare} f) : sProp 𝕄))
      ⊢ (iprop(∃ f : Buf (Elt F) ℓ, ℓ ↦{fullShare} f) : sProp 𝕄) := by
  have f₀ : Buf (Elt F) ℓ := Classical.choice inferInstance
  have hj := fun fs : T → Buf (Elt F) ℓ =>
    pointsTo_biUnion_join (nD := nD) (τ := τ) (sig := sig) (Ix := Unit) (Val := Elt F) (Name := ℕ) (U := UU) (Lvl := ℕ)
      (q := fullShare) Finset.univ K fs f₀ (fun t _ t' _ h => hd t t' h)
  rw [hc] at hj
  iintro H
  ihave H := (bigSep_exists_pi Finset.univ (fun t (f : Buf (Elt F) ℓ) => (ℓ ↦[K t]{fullShare} f : sProp 𝕄))) $$ H
  icases H with ⟨%fs, H⟩
  ihave H := (hj fs) $$ H
  icases H with ⟨%g, %hg, H⟩
  iexists g
  iexact H

abbrev cfK (t : Fin 4 × Fin 2) : Finset S4x384x768.Idx := (cfP t.1 t.2).view.set

theorem cfK_disjoint (t t' : Fin 4 × Fin 2) (h : t ≠ t') : Disjoint (cfK t) (cfK t') := by
  show Disjoint (cfP t.1 t.2).view.set (cfP t'.1 t'.2).view.set
  rw [cf_set, cf_set]
  exact piece_disjoint fun e => h (Prod.ext (congrArg Prod.fst e) (congrArg Prod.snd e))

theorem cfK_cover : (Finset.univ : Finset (Fin 4 × Fin 2)).biUnion cfK = Finset.univ := by
  have e : cfK = fun t => (pieceR t.1 t.2).set := funext fun t => cf_set t.1 t.2
  rw [e]
  exact piece_cover

theorem cf_split_eq (c : Dev nD) (f : Buf (Elt F) ((c : Thread nD τ).loc cc0_scratch1)) :
    ((c : Thread nD τ).loc cc0_scratch1 ↦{fullShare} f : sProp 𝕄)
      = iprop(((cfP 0 0).view.loc c ↦[(cfP 0 0).view.set]{fullShare} f) ∗ ((cfP 0 1).view.loc c ↦[(cfP 0 1).view.set]{fullShare} f)
          ∗ ((cfP 1 0).view.loc c ↦[(cfP 1 0).view.set]{fullShare} f) ∗ ((cfP 1 1).view.loc c ↦[(cfP 1 1).view.set]{fullShare} f)
          ∗ ((cfP 2 0).view.loc c ↦[(cfP 2 0).view.set]{fullShare} f) ∗ ((cfP 2 1).view.loc c ↦[(cfP 2 1).view.set]{fullShare} f)
          ∗ ((cfP 3 0).view.loc c ↦[(cfP 3 0).view.set]{fullShare} f) ∗ ((cfP 3 1).view.loc c ↦[(cfP 3 1).view.set]{fullShare} f)) := by
  have e := pointsTo_univ_family (F := F) (ℓ := (c : Thread nD τ).loc cc0_scratch1) cfK cfK_disjoint cfK_cover f
  rw [bigSep_pieces] at e
  exact e

theorem cf_join (c : Dev nD) :
    (iprop((∃ f, (cfP 0 0).view.loc c ↦[(cfP 0 0).view.set]{fullShare} f) ∗ (∃ f, (cfP 0 1).view.loc c ↦[(cfP 0 1).view.set]{fullShare} f)
          ∗ (∃ f, (cfP 1 0).view.loc c ↦[(cfP 1 0).view.set]{fullShare} f) ∗ (∃ f, (cfP 1 1).view.loc c ↦[(cfP 1 1).view.set]{fullShare} f)
          ∗ (∃ f, (cfP 2 0).view.loc c ↦[(cfP 2 0).view.set]{fullShare} f) ∗ (∃ f, (cfP 2 1).view.loc c ↦[(cfP 2 1).view.set]{fullShare} f)
          ∗ (∃ f, (cfP 3 0).view.loc c ↦[(cfP 3 0).view.set]{fullShare} f) ∗ (∃ f, (cfP 3 1).view.loc c ↦[(cfP 3 1).view.set]{fullShare} f)) : sProp 𝕄)
      ⊢ iprop(∃ f, (c : Thread nD τ).loc cc0_scratch1 ↦{fullShare} f) := by
  have e := pointsTo_univ_family_join (F := F) (ℓ := (c : Thread nD τ).loc cc0_scratch1) cfK cfK_disjoint cfK_cover
  rw [bigSep_pieces] at e
  exact e

abbrev cbK (t : Fin 4 × Fin 2) : Finset S4x384x768.Idx := (cbP t.1 t.2).view.set

theorem cbK_disjoint (t t' : Fin 4 × Fin 2) (h : t ≠ t') : Disjoint (cbK t) (cbK t') := by
  show Disjoint (cbP t.1 t.2).view.set (cbP t'.1 t'.2).view.set
  rw [cb_set, cb_set]
  exact piece_disjoint fun e => h (Prod.ext (congrArg Prod.fst e) (congrArg Prod.snd e))

theorem cbK_cover : (Finset.univ : Finset (Fin 4 × Fin 2)).biUnion cbK = Finset.univ := by
  have e : cbK = fun t => (pieceR t.1 t.2).set := funext fun t => cb_set t.1 t.2
  rw [e]
  exact piece_cover

theorem cb_split_eq (c : Dev nD) (f : Buf (Elt F) ((c : Thread nD τ).loc cc0_scratch2)) :
    ((c : Thread nD τ).loc cc0_scratch2 ↦{fullShare} f : sProp 𝕄)
      = iprop(((cbP 0 0).view.loc c ↦[(cbP 0 0).view.set]{fullShare} f) ∗ ((cbP 0 1).view.loc c ↦[(cbP 0 1).view.set]{fullShare} f)
          ∗ ((cbP 1 0).view.loc c ↦[(cbP 1 0).view.set]{fullShare} f) ∗ ((cbP 1 1).view.loc c ↦[(cbP 1 1).view.set]{fullShare} f)
          ∗ ((cbP 2 0).view.loc c ↦[(cbP 2 0).view.set]{fullShare} f) ∗ ((cbP 2 1).view.loc c ↦[(cbP 2 1).view.set]{fullShare} f)
          ∗ ((cbP 3 0).view.loc c ↦[(cbP 3 0).view.set]{fullShare} f) ∗ ((cbP 3 1).view.loc c ↦[(cbP 3 1).view.set]{fullShare} f)) := by
  have e := pointsTo_univ_family (F := F) (ℓ := (c : Thread nD τ).loc cc0_scratch2) cbK cbK_disjoint cbK_cover f
  rw [bigSep_pieces] at e
  exact e

theorem cb_join (c : Dev nD) :
    (iprop((∃ f, (cbP 0 0).view.loc c ↦[(cbP 0 0).view.set]{fullShare} f) ∗ (∃ f, (cbP 0 1).view.loc c ↦[(cbP 0 1).view.set]{fullShare} f)
          ∗ (∃ f, (cbP 1 0).view.loc c ↦[(cbP 1 0).view.set]{fullShare} f) ∗ (∃ f, (cbP 1 1).view.loc c ↦[(cbP 1 1).view.set]{fullShare} f)
          ∗ (∃ f, (cbP 2 0).view.loc c ↦[(cbP 2 0).view.set]{fullShare} f) ∗ (∃ f, (cbP 2 1).view.loc c ↦[(cbP 2 1).view.set]{fullShare} f)
          ∗ (∃ f, (cbP 3 0).view.loc c ↦[(cbP 3 0).view.set]{fullShare} f) ∗ (∃ f, (cbP 3 1).view.loc c ↦[(cbP 3 1).view.set]{fullShare} f)) : sProp 𝕄)
      ⊢ iprop(∃ f, (c : Thread nD τ).loc cc0_scratch2 ↦{fullShare} f) := by
  have e := pointsTo_univ_family_join (F := F) (ℓ := (c : Thread nD τ).loc cc0_scratch2) cbK cbK_disjoint cbK_cover
  rw [bigSep_pieces] at e
  exact e

abbrev cdK (o : Fin 7) : Finset S7x48x1536.Idx := (cdP o).view.set

theorem cdK_disjoint (o o' : Fin 7) (h : o ≠ o') : Disjoint (cdK o) (cdK o') := by
  show Disjoint (cdP o).view.set (cdP o').view.set
  rw [cd_set, cd_set]
  exact cd_disjoint h

theorem cdK_cover : (Finset.univ : Finset (Fin 7)).biUnion cdK = Finset.univ := by
  have e : cdK = fun o => (cdR o).set := funext fun o => cd_set o
  rw [e]
  exact cd_cover

theorem cd_split_eq (c : Dev nD) (f : Buf (Elt F) ((c : Thread nD τ).loc cc0_scratch5)) :
    ((c : Thread nD τ).loc cc0_scratch5 ↦{fullShare} f : sProp 𝕄)
      = iprop(((cdP 0).view.loc c ↦[(cdP 0).view.set]{fullShare} f) ∗ ((cdP 1).view.loc c ↦[(cdP 1).view.set]{fullShare} f) ∗ ((cdP 2).view.loc c ↦[(cdP 2).view.set]{fullShare} f)
          ∗ ((cdP 3).view.loc c ↦[(cdP 3).view.set]{fullShare} f) ∗ ((cdP 4).view.loc c ↦[(cdP 4).view.set]{fullShare} f) ∗ ((cdP 5).view.loc c ↦[(cdP 5).view.set]{fullShare} f)
          ∗ ((cdP 6).view.loc c ↦[(cdP 6).view.set]{fullShare} f)) := by
  have e := pointsTo_univ_family (F := F) (ℓ := (c : Thread nD τ).loc cc0_scratch5) cdK cdK_disjoint cdK_cover f
  rw [bigSep_slots] at e
  exact e

theorem cd_join (c : Dev nD) :
    (iprop((∃ f, (cdP 0).view.loc c ↦[(cdP 0).view.set]{fullShare} f) ∗ (∃ f, (cdP 1).view.loc c ↦[(cdP 1).view.set]{fullShare} f) ∗ (∃ f, (cdP 2).view.loc c ↦[(cdP 2).view.set]{fullShare} f)
          ∗ (∃ f, (cdP 3).view.loc c ↦[(cdP 3).view.set]{fullShare} f) ∗ (∃ f, (cdP 4).view.loc c ↦[(cdP 4).view.set]{fullShare} f) ∗ (∃ f, (cdP 5).view.loc c ↦[(cdP 5).view.set]{fullShare} f)
          ∗ (∃ f, (cdP 6).view.loc c ↦[(cdP 6).view.set]{fullShare} f)) : sProp 𝕄)
      ⊢ iprop(∃ f, (c : Thread nD τ).loc cc0_scratch5 ↦{fullShare} f) := by
  have e := pointsTo_univ_family_join (F := F) (ℓ := (c : Thread nD τ).loc cc0_scratch5) cdK cdK_disjoint cdK_cover
  rw [bigSep_slots] at e
  exact e

abbrev top3R : Rect S4x384x768 :=
  Rect.unit (s := S4x384x768) ![3, 0, 0] S1x384x768.size inb_S4x384x768_S1x384x768_3_0_0

theorem mem_top3 (i : S4x384x768.Idx) : i ∈ top3R.set ↔ (i 0).val = 3 := by
  rw [Rect.mem_set_unit]
  have h1 : (i 1).val < 384 := (i 1).isLt
  have h2 : (i 2).val < 768 := (i 2).isLt
  constructor
  · intro H
    have a0 : 3 ≤ (i 0).val ∧ (i 0).val < 3 + 1 := H 0
    omega
  · intro H a
    fin_cases a
    · show 3 ≤ (i 0).val ∧ (i 0).val < 3 + 1; omega
    · show 0 ≤ (i 1).val ∧ (i 1).val < 0 + 384; omega
    · show 0 ≤ (i 2).val ∧ (i 2).val < 0 + 768; omega

theorem top3_set : top3R.set = (pieceR 3 0).set ∪ (pieceR 3 1).set := by
  ext i
  rw [Finset.mem_union, mem_top3, mem_piece, mem_piece]
  have h1 : (i 1).val < 384 := (i 1).isLt
  show (i 0).val = 3 ↔ ((i 0).val = 3 ∧ 192 * 0 ≤ (i 1).val ∧ (i 1).val < 192 * 0 + 192)
      ∨ ((i 0).val = 3 ∧ 192 * 1 ≤ (i 1).val ∧ (i 1).val < 192 * 1 + 192)
  omega

theorem top3_disjoint : Disjoint (pieceR 3 0).set (pieceR 3 1).set := piece_disjoint (by decide)

theorem cf_top3_split (c : Dev nD) (f : Buf (Elt F) ((c : Thread nD τ).loc cc0_scratch1)) :
    ((c : Thread nD τ).loc cc0_scratch1 ↦[top3R.set]{fullShare} f : sProp 𝕄)
      ⊣⊢ iprop(((cfP 3 0).view.loc c ↦[(cfP 3 0).view.set]{fullShare} f) ∗ ((cfP 3 1).view.loc c ↦[(cfP 3 1).view.set]{fullShare} f)) := by
  rw [cf_set, cf_set, top3_set]
  exact pointsTo_union top3_disjoint

theorem cb_top3_split (c : Dev nD) (f : Buf (Elt F) ((c : Thread nD τ).loc cc0_scratch2)) :
    ((c : Thread nD τ).loc cc0_scratch2 ↦[top3R.set]{fullShare} f : sProp 𝕄)
      ⊣⊢ iprop(((cbP 3 0).view.loc c ↦[(cbP 3 0).view.set]{fullShare} f) ∗ ((cbP 3 1).view.loc c ↦[(cbP 3 1).view.set]{fullShare} f)) := by
  rw [cb_set, cb_set, top3_set]
  exact pointsTo_union top3_disjoint

theorem ch_off : ∀ (c : Dev nD) (o : Fin 7),
    k0_off11 c (BitVec.ofNat 32 (1 + o.val)) = ![48 * ((c.val % 8 + o.val + 1) % 8), 0] := by decide +kernel

theorem mem_ch (c : Dev nD) (o : Fin 7) (i : S384x1536.Idx) :
    i ∈ (chR c o).set ↔ (48 * ((c.val % 8 + o.val + 1) % 8)) ≤ (i 0).val ∧ (i 0).val < (48 * ((c.val % 8 + o.val + 1) % 8)) + 48 := by
  rw [Rect.mem_set_unit, ch_off c o]
  have h1 : (i 1).val < 1536 := (i 1).isLt
  constructor
  · intro H
    have a0 : (48 * ((c.val % 8 + o.val + 1) % 8)) ≤ (i 0).val ∧ (i 0).val < (48 * ((c.val % 8 + o.val + 1) % 8)) + 48 := H 0
    exact a0
  · intro H a
    fin_cases a
    · show (48 * ((c.val % 8 + o.val + 1) % 8)) ≤ (i 0).val ∧ (i 0).val < (48 * ((c.val % 8 + o.val + 1) % 8)) + 48; exact H
    · show 0 ≤ (i 1).val ∧ (i 1).val < 0 + 1536; omega

theorem ch_disjoint (c : Dev nD) {o o' : Fin 7} (h : o ≠ o') : Disjoint (chR c o).set (chR c o').set := by
  rw [Finset.disjoint_left]
  intro i hi hi'
  rw [mem_ch] at hi hi'
  have := o.isLt
  have := o'.isLt
  exact h (Fin.ext (by omega))

abbrev chK (c : Dev nD) (o : Fin 7) : Finset S384x1536.Idx := (chM c o).view.set

theorem chK_disjoint (c : Dev nD) (o o' : Fin 7) (h : o ≠ o') : Disjoint (chK c o) (chK c o') := by
  show Disjoint (chM c o).view.set (chM c o').view.set
  rw [ch_set, ch_set]
  exact ch_disjoint c h

theorem ch_split_eq (c : Dev nD) (f : Buf (Elt F) ((c : Thread nD τ).loc cc0_scratch4)) :
    ((c : Thread nD τ).loc cc0_scratch4 ↦{fullShare} f : sProp 𝕄)
      = iprop((((chM c 0).view.loc c ↦[(chM c 0).view.set]{fullShare} f) ∗ ((chM c 1).view.loc c ↦[(chM c 1).view.set]{fullShare} f) ∗ ((chM c 2).view.loc c ↦[(chM c 2).view.set]{fullShare} f)
          ∗ ((chM c 3).view.loc c ↦[(chM c 3).view.set]{fullShare} f) ∗ ((chM c 4).view.loc c ↦[(chM c 4).view.set]{fullShare} f) ∗ ((chM c 5).view.loc c ↦[(chM c 5).view.set]{fullShare} f)
          ∗ ((chM c 6).view.loc c ↦[(chM c 6).view.set]{fullShare} f))
          ∗ ((c : Thread nD τ).loc cc0_scratch4 ↦[Finset.univ \ Finset.univ.biUnion (chK c)]{fullShare} f)) := by
  have h : ((c : Thread nD τ).loc cc0_scratch4 ↦{fullShare} f : sProp 𝕄)
      ⊣⊢ iprop(((c : Thread nD τ).loc cc0_scratch4 ↦[Finset.univ.biUnion (chK c)]{fullShare} f)
          ∗ ((c : Thread nD τ).loc cc0_scratch4 ↦[Finset.univ \ Finset.univ.biUnion (chK c)]{fullShare} f)) :=
    pointsTo_split_subset (Finset.subset_univ _)
  have e := BI.equiv_iff.mp ⟨h.1, h.2⟩
  have e1 : ((c : Thread nD τ).loc cc0_scratch4 ↦[Finset.univ.biUnion (chK c)]{fullShare} f : sProp 𝕄)
      = bigSep Finset.univ fun o => ((c : Thread nD τ).loc cc0_scratch4 ↦[chK c o]{fullShare} f : sProp 𝕄) :=
    pointsTo_biUnion (ℓ := (c : Thread nD τ).loc cc0_scratch4) (q := fullShare) (f := f)
      Finset.univ (chK c) (fun t _ t' _ hne => chK_disjoint c t t' hne)
  rw [bigSep_slots] at e1
  exact e.trans (congrArg
    (fun P : sProp 𝕄 =>
      iprop(P ∗ ((c : Thread nD τ).loc cc0_scratch4 ↦[Finset.univ \ Finset.univ.biUnion (chK c)]{fullShare} f))) e1)

theorem ch_split (c : Dev nD) (f : Buf (Elt F) ((c : Thread nD τ).loc cc0_scratch4)) :
    ((c : Thread nD τ).loc cc0_scratch4 ↦{fullShare} f : sProp 𝕄)
      ⊣⊢ iprop((((chM c 0).view.loc c ↦[(chM c 0).view.set]{fullShare} f) ∗ ((chM c 1).view.loc c ↦[(chM c 1).view.set]{fullShare} f) ∗ ((chM c 2).view.loc c ↦[(chM c 2).view.set]{fullShare} f)
          ∗ ((chM c 3).view.loc c ↦[(chM c 3).view.set]{fullShare} f) ∗ ((chM c 4).view.loc c ↦[(chM c 4).view.set]{fullShare} f) ∗ ((chM c 5).view.loc c ↦[(chM c 5).view.set]{fullShare} f)
          ∗ ((chM c 6).view.loc c ↦[(chM c 6).view.set]{fullShare} f))
          ∗ ((c : Thread nD τ).loc cc0_scratch4 ↦[Finset.univ \ Finset.univ.biUnion (chK c)]{fullShare} f)) :=
  BiEntails.of_eq (ch_split_eq c f)

theorem cf_read (k : Fin 4) (s : Fin 2) (f : (cc0_scratch1 : Ref sig .tc).ty.Contents (Elt F)) :
    (cfP k s).view.read (Elt F) f
      = shapeCast S192x768 (cfM.view.readAt (Elt F) (pieceR k s).toLoadRect f) shapeCasts_S1x192x768_S192x768 :=
  Memref.read_squeeze_slice cfM (pieceR k s) (fun _ => rfl) squeezes_S1x192x768_S192x768 shapeCasts_S1x192x768_S192x768 f

theorem cf_read_write (k : Fin 4) (s : Fin 2) {off : Fin 3 → Nat} (hoff : off = pieceOff k s)
    (inb : ∀ a, off a + S1x192x768.size a ≤ S4x384x768.size a)
    (f : (cc0_scratch1 : Ref sig .tc).ty.Contents (Elt F)) (w : Vec F S1x192x768 .bf16) :
    (cfP k s).view.read (Elt F)
        (View.write (Elt F) (cfM.access (Rect.unit (s := S4x384x768) off S1x192x768.size inb)) f w Finset.univ)
      = shapeCast S192x768 w shapeCasts_S1x192x768_S192x768 := by
  subst hoff
  have hw : (cfM.access (pieceR k s)).read (Elt F) (View.write (Elt F) (cfM.access (pieceR k s)) f w Finset.univ) = w :=
    View.read_write_univ _ _
  rw [cf_read, View.readAt_rect]
  exact congrArg (fun v => shapeCast S192x768 v shapeCasts_S1x192x768_S192x768) hw

theorem cb_read (k : Fin 4) (s : Fin 2) (f : (cc0_scratch2 : Ref sig .tc).ty.Contents (Elt F)) :
    (cbP k s).view.read (Elt F) f
      = shapeCast S192x768 (cbM.view.readAt (Elt F) (pieceR k s).toLoadRect f) shapeCasts_S1x192x768_S192x768 :=
  Memref.read_squeeze_slice cbM (pieceR k s) (fun _ => rfl) squeezes_S1x192x768_S192x768 shapeCasts_S1x192x768_S192x768 f

theorem cb_read_write (k : Fin 4) (s : Fin 2) {off : Fin 3 → Nat} (hoff : off = pieceOff k s)
    (inb : ∀ a, off a + S1x192x768.size a ≤ S4x384x768.size a)
    (f : (cc0_scratch2 : Ref sig .tc).ty.Contents (Elt F)) (w : Vec F S1x192x768 .bf16) :
    (cbP k s).view.read (Elt F)
        (View.write (Elt F) (cbM.access (Rect.unit (s := S4x384x768) off S1x192x768.size inb)) f w Finset.univ)
      = shapeCast S192x768 w shapeCasts_S1x192x768_S192x768 := by
  subst hoff
  have hw : (cbM.access (pieceR k s)).read (Elt F) (View.write (Elt F) (cbM.access (pieceR k s)) f w Finset.univ) = w :=
    View.read_write_univ _ _
  rw [cb_read, View.readAt_rect]
  exact congrArg (fun v => shapeCast S192x768 v shapeCasts_S1x192x768_S192x768) hw

theorem cd_read (o : Fin 7) (f : (cc0_scratch5 : Ref sig .tc).ty.Contents (Elt F)) :
    (cdP o).view.read (Elt F) f
      = shapeCast S48x1536 (cdM.view.readAt (Elt F) (cdR o).toLoadRect f) shapeCasts_S1x48x1536_S48x1536 :=
  Memref.read_squeeze_slice cdM (cdR o) (fun _ => rfl) squeezes_S1x48x1536_S48x1536 shapeCasts_S1x48x1536_S48x1536 f

theorem cf_top3_read_write (s : Fin 2) {off : Fin 3 → Nat} (hoff : off = ![3, 0, 0])
    (inb : ∀ a, off a + S1x384x768.size a ≤ S4x384x768.size a)
    (f : (cc0_scratch1 : Ref sig .tc).ty.Contents (Elt F)) (w : Vec F S1x384x768 .bf16)
    (x : S192x768.Idx) (y : S1x384x768.Idx)
    (h0 : (y 0).val = 0) (h1 : (y 1).val = 192 * s.val + (x 0).val) (h2 : (y 2).val = (x 1).val) :
    (cfP 3 s).view.read (Elt F)
        (View.write (Elt F) (cfM.access (Rect.unit (s := S4x384x768) off S1x384x768.size inb)) f w Finset.univ) x
      = w y := by
  subst hoff
  rw [cf_read]
  refine (shapeCast_dropUnit_apply (![192, 768] : Fin 2 → Nat) _ shapeCasts_S1x192x768_S192x768 x).trans ?_
  rw [View.readAt_rect, View.read_apply]
  have hemb : (cfM.view.slice (pieceR 3 s)).emb (Fin.cons ⟨0, Nat.one_pos⟩ x)
      = (cfM.access (Rect.unit (s := S4x384x768) ![3, 0, 0] S1x384x768.size inb)).emb y := by
    have key : ∀ a : Fin 3, ((cfM.view.slice (pieceR 3 s)).emb (Fin.cons ⟨0, Nat.one_pos⟩ x) a).val
        = ((cfM.access (Rect.unit (s := S4x384x768) ![3, 0, 0] S1x384x768.size inb)).emb y a).val := by
      intro a
      fin_cases a
      · show 3 + 1 * 0 = 3 + 1 * (y 0).val; omega
      · show 192 * s.val + 1 * (x 0).val = 0 + 1 * (y 1).val; omega
      · show 0 + 1 * (x 1).val = 0 + 1 * (y 2).val; omega
    exact funext fun a => Fin.ext (key a)
  rw [hemb, View.write_emb_of_mem _ _ (Finset.mem_univ y), cast_cast, cast_eq]

theorem cb_top3_read_write (s : Fin 2) {off : Fin 3 → Nat} (hoff : off = ![3, 0, 0])
    (inb : ∀ a, off a + S1x384x768.size a ≤ S4x384x768.size a)
    (f : (cc0_scratch2 : Ref sig .tc).ty.Contents (Elt F)) (w : Vec F S1x384x768 .bf16)
    (x : S192x768.Idx) (y : S1x384x768.Idx)
    (h0 : (y 0).val = 0) (h1 : (y 1).val = 192 * s.val + (x 0).val) (h2 : (y 2).val = (x 1).val) :
    (cbP 3 s).view.read (Elt F)
        (View.write (Elt F) (cbM.access (Rect.unit (s := S4x384x768) off S1x384x768.size inb)) f w Finset.univ) x
      = w y := by
  subst hoff
  rw [cb_read]
  refine (shapeCast_dropUnit_apply (![192, 768] : Fin 2 → Nat) _ shapeCasts_S1x192x768_S192x768 x).trans ?_
  rw [View.readAt_rect, View.read_apply]
  have hemb : (cbM.view.slice (pieceR 3 s)).emb (Fin.cons ⟨0, Nat.one_pos⟩ x)
      = (cbM.access (Rect.unit (s := S4x384x768) ![3, 0, 0] S1x384x768.size inb)).emb y := by
    have key : ∀ a : Fin 3, ((cbM.view.slice (pieceR 3 s)).emb (Fin.cons ⟨0, Nat.one_pos⟩ x) a).val
        = ((cbM.access (Rect.unit (s := S4x384x768) ![3, 0, 0] S1x384x768.size inb)).emb y a).val := by
      intro a
      fin_cases a
      · show 3 + 1 * 0 = 3 + 1 * (y 0).val; omega
      · show 192 * s.val + 1 * (x 0).val = 0 + 1 * (y 1).val; omega
      · show 0 + 1 * (x 1).val = 0 + 1 * (y 2).val; omega
    exact funext fun a => Fin.ext (key a)
  rw [hemb, View.write_emb_of_mem _ _ (Finset.mem_univ y), cast_cast, cast_eq]

end Cert.KernelIdeal.Ring

end
-- ==== Proof.Exit.lean ====
/- A cell whose one round is consumed closes with its counter at zero. -/
import proofs.«900894_g7700000000000895_dist_matmul_mk_i_outk_m1536_n1536_k768_v7x_i32_f32_1_alg».proof.Proof.Steps

noncomputable section

namespace Cert.KernelIdeal.Ring

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

def doneAt (c : Dev nD) (D : Finset CK) : sProp 𝕄 := bigSep D fun k => atPos ER (kcell (c, k)) 1 ∅ 0

section
variable (Vf Vb : Dev nD → Fin 3 → Fin 2 → Vec F S192x768 .bf16) (Vd : Dev nD → Fin 7 → Vec F S48x1536 .bf16)
variable (R1b : Dev nD → (cc0_scratch4 : Ref sig .tc).ty.Contents (Elt F))
variable (K : Dev nD × CK → ℕ) (c : Dev nD)

theorem close_all :
    iprop(records Vf Vb Vd R1b K ∗ doneAt (F := F) c (Finset.univ.erase CK.bar)) ⊢ (|={Set.univ}=> Pipeline.ownSems0 osem c : sProp 𝕄) := by
  have hsems : (Pipeline.ownSems0 osem c : sProp 𝕄) = bigSep (Finset.univ.erase CK.bar) fun k => semVal (kcell (c, k)) 0 := by
    unfold Pipeline.ownSems0
    exact bigSep_subtype_ne CK.bar fun k => (semVal (kcell (c, k)) 0 : sProp 𝕄)
  rw [hsems]
  unfold doneAt
  refine (bigSep_with_persistent (Ψ := fun k => iprop(|={Set.univ}=> semVal (kcell (c, k)) 0)) fun k hk => ?_).trans (bigSep_fupd _ _)
  exact close_one Vf Vb Vd R1b K c k (Finset.ne_of_mem_erase hk)

omit [FloatOps F] in
theorem credF_take {S : Finset (Fin 3 × Fin 2)} {hs : Fin 3 × Fin 2} (h : hs ∈ S) :
    (bigSep S fun hs : Fin 3 × Fin 2 => (cred (tallyAt (kcell (c, .fR hs.1 hs.2)) () N192) : sProp 𝕄))
      = iprop(cred (tallyAt (kcell (c, .fR hs.1 hs.2)) () N192) ∗ bigSep (S.erase hs) fun hs : Fin 3 × Fin 2 => cred (tallyAt (kcell (c, .fR hs.1 hs.2)) () N192)) :=
  bigSep_erase h

omit [FloatOps F] in
theorem credB_take {S : Finset (Fin 3 × Fin 2)} {hs : Fin 3 × Fin 2} (h : hs ∈ S) :
    (bigSep S fun hs : Fin 3 × Fin 2 => (cred (tallyAt (kcell (c, .bR hs.1 hs.2)) () N192) : sProp 𝕄))
      = iprop(cred (tallyAt (kcell (c, .bR hs.1 hs.2)) () N192) ∗ bigSep (S.erase hs) fun hs : Fin 3 × Fin 2 => cred (tallyAt (kcell (c, .bR hs.1 hs.2)) () N192)) :=
  bigSep_erase h

omit [FloatOps F] in
theorem credD_take {S : Finset (Fin 7)} {o : Fin 7} (h : o ∈ S) :
    (bigSep S fun o : Fin 7 => (cred (tallyAt (kcell (c, .dR o)) () N48) : sProp 𝕄))
      = iprop(cred (tallyAt (kcell (c, .dR o)) () N48) ∗ bigSep (S.erase o) fun o : Fin 7 => cred (tallyAt (kcell (c, .dR o)) () N48)) :=
  bigSep_erase h

end

end Cert.KernelIdeal.Ring

end
-- ==== Proof.Finish.lean ====
/- The exit: pieces rejoin to whole buffers and nothing is owed. -/
import proofs.«900894_g7700000000000895_dist_matmul_mk_i_outk_m1536_n1536_k768_v7x_i32_f32_1_alg».proof.Proof.Exit
import proofs.«900894_g7700000000000895_dist_matmul_mk_i_outk_m1536_n1536_k768_v7x_i32_f32_1_alg».proof.Proof.Pieces
import proofs.«900894_g7700000000000895_dist_matmul_mk_i_outk_m1536_n1536_k768_v7x_i32_f32_1_alg».proof.Proof.Inst

noncomputable section

namespace Cert.KernelIdeal.Ring

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section
variable (m : Mem F) (ρ : Dev nD → PrngReg)

theorem finish (K : Dev nD × CK → ℕ) (c : Dev nD) (W' : Waits sig Unit)
    (fp : Buf (Elt F) (pM.view.loc (c : Thread nD τ))) (f3' : Buf (Elt F) (r1M.view.loc (c : Thread nD τ)))
    (f4' : Buf (Elt F) (r1bM.view.loc (c : Thread nD τ))) (go : Buf (Elt F) (oM.view.loc (c : Thread nD τ))) (hgo : go = outI m ρ c) :
    iprop(records (VfI m ρ) (VbI m ρ) (VdI m ρ) (R1bI m ρ) K ∗ doneAt (F := F) c (Finset.univ.erase CK.bar) ∗ owes (c : Thread nD τ) 0 W'
        ∗ (pM.view.loc (c : Thread nD τ) ↦[pM.view.set]{fullShare} fp)
        ∗ (free (F := F) c (cfP 0 0) ∗ free (F := F) c (cfP 0 1) ∗ free (F := F) c (cfP 1 0) ∗ free (F := F) c (cfP 1 1)
            ∗ free (F := F) c (cfP 2 0) ∗ free (F := F) c (cfP 2 1) ∗ free (F := F) c (cfP 3 0) ∗ free (F := F) c (cfP 3 1))
        ∗ (free (F := F) c (cbP 0 0) ∗ free (F := F) c (cbP 0 1) ∗ free (F := F) c (cbP 1 0) ∗ free (F := F) c (cbP 1 1)
            ∗ free (F := F) c (cbP 2 0) ∗ free (F := F) c (cbP 2 1) ∗ free (F := F) c (cbP 3 0) ∗ free (F := F) c (cbP 3 1))
        ∗ (r1M.view.loc (c : Thread nD τ) ↦[r1M.view.set]{fullShare} f3') ∗ (r1bM.view.loc (c : Thread nD τ) ↦[r1bM.view.set]{fullShare} f4')
        ∗ (free (F := F) c (cdP 0) ∗ free (F := F) c (cdP 1) ∗ free (F := F) c (cdP 2) ∗ free (F := F) c (cdP 3)
            ∗ free (F := F) c (cdP 4) ∗ free (F := F) c (cdP 5) ∗ free (F := F) c (cdP 6))
        ∗ (aM.view.loc (c : Thread nD τ) ↦[aM.view.set]{fullShare} Astg m ρ c) ∗ (bM.view.loc (c : Thread nD τ) ↦[bM.view.set]{fullShare} Bstg m ρ c)
        ∗ (oM.view.loc (c : Thread nD τ) ↦[oM.view.set]{fullShare} go))
      ⊢ (|={Set.univ}=> bodyPost (VfI m ρ) (VbI m ρ) (VdI m ρ) (R1bI m ρ) m ρ (outI m ρ) c : sProp 𝕄) := by
  subst hgo
  unfold bodyPost Φ₁ scratch free
  iintro ⟨#Hrec, Hdone, HL, H0, Hcf, Hcb, H3, H4, Hcd, Ha, Hb, Ho⟩
  imod (close_all (VfI m ρ) (VbI m ρ) (VdI m ρ) (R1bI m ρ) K c) $$ [Hdone] with Hsems
  · isplitr; · iexact Hrec
    iexact Hdone
  imodintro
  ihave H1 := (cf_join (F := F) c) $$ Hcf
  ihave H2 := (cb_join (F := F) c) $$ Hcb
  ihave H5 := (cd_join (F := F) c) $$ Hcd
  ihave H0 := (Entails.of_eq (show ((pM.view.loc (c : Thread nD τ) ↦[pM.view.set]{fullShare} fp) : sProp 𝕄)
      = (((c : Thread nD τ).loc cc0_scratch0) ↦{fullShare} fp) from by rw [View.set_whole])) $$ H0
  ihave H3 := (Entails.of_eq (show ((r1M.view.loc (c : Thread nD τ) ↦[r1M.view.set]{fullShare} f3') : sProp 𝕄)
      = (((c : Thread nD τ).loc cc0_scratch3) ↦{fullShare} f3') from by rw [View.set_whole])) $$ H3
  ihave H4 := (Entails.of_eq (show ((r1bM.view.loc (c : Thread nD τ) ↦[r1bM.view.set]{fullShare} f4') : sProp 𝕄)
      = (((c : Thread nD τ).loc cc0_scratch4) ↦{fullShare} f4') from by rw [View.set_whole])) $$ H4
  ihave Ha := (Entails.of_eq (show ((aM.view.loc (c : Thread nD τ) ↦[aM.view.set]{fullShare} Astg m ρ c) : sProp 𝕄)
      = (((c : Thread nD τ).loc cc0_stg0_0) ↦{fullShare} Astg m ρ c) from by rw [View.set_whole])) $$ Ha
  ihave Hb := (Entails.of_eq (show ((bM.view.loc (c : Thread nD τ) ↦[bM.view.set]{fullShare} Bstg m ρ c) : sProp 𝕄)
      = (((c : Thread nD τ).loc cc0_stg1_0) ↦{fullShare} Bstg m ρ c) from by rw [View.set_whole])) $$ Hb
  ihave Ho := (Entails.of_eq (show ((oM.view.loc (c : Thread nD τ) ↦[oM.view.set]{fullShare} outI m ρ c) : sProp 𝕄)
      = (((c : Thread nD τ).loc cc0_stg2_0) ↦{fullShare} outI m ρ c) from by rw [View.set_whole])) $$ Ho
  isplitl [H0 H1 H2 H3 H4 H5 Hsems]
  · isplitr [Hsems]
    · isplitl [H0]; · iexists fp; iexact H0
      isplitl [H1]; · iexact H1
      isplitl [H2]; · iexact H2
      isplitl [H3]; · iexists f3'; iexact H3
      isplitl [H4]; · iexists f4'; iexact H4
      iexact H5
    · iexact Hsems
  isplitl [HL]
  · iexists W'
    isplitr
    · ipureintro; exact fun _ _ => Or.inl trivial
    iexact HL
  isplitl [Ha]
  · iexists (Astg m ρ c); isplitr
    · ipureintro; rfl
    iexact Ha
  isplitl [Hb]
  · iexists (Bstg m ρ c); isplitr
    · ipureintro; rfl
    iexact Hb
  iexists (outI m ρ c); isplitr
  · ipureintro; rfl
  iexact Ho

end

end Cert.KernelIdeal.Ring

end
-- ==== Proof.Gather.lean ====
/- The consumed cells, gathered: all of a device's cells but the entry cell. -/
import proofs.«900894_g7700000000000895_dist_matmul_mk_i_outk_m1536_n1536_k768_v7x_i32_f32_1_alg».proof.Proof.Exit
import Idealize.ShloMosaic.Lib.Pipeline.Kit

noncomputable section

namespace Cert.KernelIdeal.Ring

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.SL.BI (bigSepL bigSep_eq_bigSepL_of_eq)

variable {F : FTy → Type} [FloatOps F]

local notation "𝕄" => MT nD τ sig Unit (Elt F) ℕ UU ℕ

def doneList : List CK :=
  [CK.fS 0 0, CK.fR 0 0, CK.bS 0 0, CK.bR 0 0, CK.fS 0 1, CK.fR 0 1, CK.bS 0 1, CK.bR 0 1,
   CK.fS 1 0, CK.fR 1 0, CK.bS 1 0, CK.bR 1 0, CK.fS 1 1, CK.fR 1 1, CK.bS 1 1, CK.bR 1 1,
   CK.fS 2 0, CK.fR 2 0, CK.bS 2 0, CK.bR 2 0, CK.fS 2 1, CK.fR 2 1, CK.bS 2 1, CK.bR 2 1,
   CK.dS 0, CK.dR 0, CK.dS 1, CK.dR 1, CK.dS 2, CK.dR 2, CK.dS 3, CK.dR 3, CK.dS 4, CK.dR 4, CK.dS 5, CK.dR 5, CK.dS 6, CK.dR 6]

theorem doneList_all : Finset.univ.erase CK.bar = doneList.toFinset := by decide
theorem doneList_nodup : doneList.Nodup := by decide

omit [FloatOps F] in
theorem doneAt_list (c : Dev nD) :
    doneAt (F := F) c (Finset.univ.erase CK.bar) = bigSepL doneList fun k => (atPos ER (kcell (c, k)) 1 ∅ 0 : sProp 𝕄) := by
  unfold doneAt
  exact bigSep_eq_bigSepL_of_eq doneList doneList_all doneList_nodup _

omit [FloatOps F] in
theorem done_all (c : Dev nD) :
    (iprop(atPos ER (kcell (c, CK.fS 0 0)) 1 ∅ 0 ∗ atPos ER (kcell (c, CK.fR 0 0)) 1 ∅ 0 ∗ atPos ER (kcell (c, CK.bS 0 0)) 1 ∅ 0 ∗ atPos ER (kcell (c, CK.bR 0 0)) 1 ∅ 0
      ∗ atPos ER (kcell (c, CK.fS 0 1)) 1 ∅ 0 ∗ atPos ER (kcell (c, CK.fR 0 1)) 1 ∅ 0 ∗ atPos ER (kcell (c, CK.bS 0 1)) 1 ∅ 0 ∗ atPos ER (kcell (c, CK.bR 0 1)) 1 ∅ 0
      ∗ atPos ER (kcell (c, CK.fS 1 0)) 1 ∅ 0 ∗ atPos ER (kcell (c, CK.fR 1 0)) 1 ∅ 0 ∗ atPos ER (kcell (c, CK.bS 1 0)) 1 ∅ 0 ∗ atPos ER (kcell (c, CK.bR 1 0)) 1 ∅ 0
      ∗ atPos ER (kcell (c, CK.fS 1 1)) 1 ∅ 0 ∗ atPos ER (kcell (c, CK.fR 1 1)) 1 ∅ 0 ∗ atPos ER (kcell (c, CK.bS 1 1)) 1 ∅ 0 ∗ atPos ER (kcell (c, CK.bR 1 1)) 1 ∅ 0
      ∗ atPos ER (kcell (c, CK.fS 2 0)) 1 ∅ 0 ∗ atPos ER (kcell (c, CK.fR 2 0)) 1 ∅ 0 ∗ atPos ER (kcell (c, CK.bS 2 0)) 1 ∅ 0 ∗ atPos ER (kcell (c, CK.bR 2 0)) 1 ∅ 0
      ∗ atPos ER (kcell (c, CK.fS 2 1)) 1 ∅ 0 ∗ atPos ER (kcell (c, CK.fR 2 1)) 1 ∅ 0 ∗ atPos ER (kcell (c, CK.bS 2 1)) 1 ∅ 0 ∗ atPos ER (kcell (c, CK.bR 2 1)) 1 ∅ 0
      ∗ atPos ER (kcell (c, CK.dS 0)) 1 ∅ 0 ∗ atPos ER (kcell (c, CK.dR 0)) 1 ∅ 0 ∗ atPos ER (kcell (c, CK.dS 1)) 1 ∅ 0 ∗ atPos ER (kcell (c, CK.dR 1)) 1 ∅ 0
      ∗ atPos ER (kcell (c, CK.dS 2)) 1 ∅ 0 ∗ atPos ER (kcell (c, CK.dR 2)) 1 ∅ 0 ∗ atPos ER (kcell (c, CK.dS 3)) 1 ∅ 0 ∗ atPos ER (kcell (c, CK.dR 3)) 1 ∅ 0
      ∗ atPos ER (kcell (c, CK.dS 4)) 1 ∅ 0 ∗ atPos ER (kcell (c, CK.dR 4)) 1 ∅ 0 ∗ atPos ER (kcell (c, CK.dS 5)) 1 ∅ 0 ∗ atPos ER (kcell (c, CK.dR 5)) 1 ∅ 0
      ∗ atPos ER (kcell (c, CK.dS 6)) 1 ∅ 0 ∗ atPos ER (kcell (c, CK.dR 6)) 1 ∅ 0) : sProp 𝕄)
      ⊢ doneAt (F := F) c (Finset.univ.erase CK.bar) := by
  rw [doneAt_list]
  exact .rfl

theorem Orem_done (c : Dev nD) (S : Finset PK) (hS : S = ∅) : Orem c S = 0 := by
  subst hS; exact Orem_empty c

end Cert.KernelIdeal.Ring

end
-- ==== Proof.Offs.lean ====
/- Every offset the body computes from the device's number, in closed form, decided over the 32 devices. -/
import proofs.«900894_g7700000000000895_dist_matmul_mk_i_outk_m1536_n1536_k768_v7x_i32_f32_1_alg».proof.Proof.Vals
import Idealize.ShloMosaic.Lib.Decide

set_option Elab.async false

namespace Cert.KernelIdeal.Ring

open Idealize.ShloMosaic Cert.KernelIdeal Cert.KernelIdeal.Gen Cert.KernelIdeal.Mesh

theorem off1_1 (c : Dev nD) : k0_off1 c 1#32 = ![384 * (q4 (zi c + 1)).val, 0] := by revert c; decide +kernel
theorem off1_2 (c : Dev nD) : k0_off1 c 2#32 = ![384 * (q4 (zi c + 2)).val, 0] := by revert c; decide +kernel
theorem off1_3 (c : Dev nD) : k0_off1 c 3#32 = ![384 * (q4 (zi c + 3)).val, 0] := by revert c; decide +kernel

theorem off2_1 (c : Dev nD) : k0_off2 c 1#32 = ![384 * (q4 (zi c + 1)).val, 0] := by revert c; decide +kernel
theorem off2_2 (c : Dev nD) : k0_off2 c 2#32 = ![384 * (q4 (zi c + 2)).val, 0] := by revert c; decide +kernel
theorem off2_3 (c : Dev nD) : k0_off2 c 3#32 = ![384 * (q4 (zi c + 3)).val, 0] := by revert c; decide +kernel

theorem off3_1 (c : Dev nD) : k0_off3 c 1#32 = ![384 * (q4 (zi c + 1)).val, 768] := by revert c; decide +kernel
theorem off3_2 (c : Dev nD) : k0_off3 c 2#32 = ![384 * (q4 (zi c + 2)).val, 768] := by revert c; decide +kernel
theorem off3_3 (c : Dev nD) : k0_off3 c 3#32 = ![384 * (q4 (zi c + 3)).val, 768] := by revert c; decide +kernel

theorem off4_eq (c : Dev nD) : k0_off4 c = ![384 * (q4 (zi c)).val, 0] := by revert c; decide +kernel
theorem off5_eq (c : Dev nD) : k0_off5 c = ![384 * (q4 (zi c)).val, 0] := by revert c; decide +kernel
theorem off6_eq (c : Dev nD) : k0_off6 c = ![384 * (q4 (zi c)).val, 768] := by revert c; decide +kernel

theorem off7_0_0 (c : Dev nD) : k0_off7 c 0#32 0#32 = ![384 * (q4 (zi c + 6)).val, 0] := by revert c; decide +kernel
theorem off7_0_192 (c : Dev nD) : k0_off7 c 0#32 192#32 = ![384 * (q4 (zi c + 6)).val + 192, 0] := by revert c; decide +kernel
theorem off7_1_0 (c : Dev nD) : k0_off7 c 1#32 0#32 = ![384 * (q4 (zi c + 5)).val, 0] := by revert c; decide +kernel
theorem off7_1_192 (c : Dev nD) : k0_off7 c 1#32 192#32 = ![384 * (q4 (zi c + 5)).val + 192, 0] := by revert c; decide +kernel

theorem off8_0_0 (c : Dev nD) : k0_off8 c 0#32 0#32 = ![384 * (q4 (zi c + 2)).val, 768] := by revert c; decide +kernel
theorem off8_0_192 (c : Dev nD) : k0_off8 c 0#32 192#32 = ![384 * (q4 (zi c + 2)).val + 192, 768] := by revert c; decide +kernel
theorem off8_1_0 (c : Dev nD) : k0_off8 c 1#32 0#32 = ![384 * (q4 (zi c + 3)).val, 768] := by revert c; decide +kernel
theorem off8_1_192 (c : Dev nD) : k0_off8 c 1#32 192#32 = ![384 * (q4 (zi c + 3)).val + 192, 768] := by revert c; decide +kernel

theorem off9_0 (c : Dev nD) : k0_off9 c 0#32 = ![384 * (q4 (zi c)).val, 0] := by revert c; decide +kernel
theorem off9_192 (c : Dev nD) : k0_off9 c 192#32 = ![384 * (q4 (zi c)).val + 192, 0] := by revert c; decide +kernel

theorem off10_0 (c : Dev nD) : k0_off10 c 0#32 = ![384 * (q4 (zi c)).val, 768] := by revert c; decide +kernel
theorem off10_192 (c : Dev nD) : k0_off10 c 192#32 = ![384 * (q4 (zi c)).val + 192, 768] := by revert c; decide +kernel

theorem off11_r (c : Dev nD) (r : Fin 7) :
    k0_off11 c (BitVec.ofNat 32 (1 + r.val)) = ![48 * ((wi c + r.val + 1) % 8), 0] := by
  revert c r; decide +kernel
theorem off11_1 (c : Dev nD) : k0_off11 c 1#32 = ![48 * ((wi c + 1) % 8), 0] := by revert c; decide +kernel
theorem off11_2 (c : Dev nD) : k0_off11 c 2#32 = ![48 * ((wi c + 2) % 8), 0] := by revert c; decide +kernel
theorem off11_3 (c : Dev nD) : k0_off11 c 3#32 = ![48 * ((wi c + 3) % 8), 0] := by revert c; decide +kernel
theorem off11_4 (c : Dev nD) : k0_off11 c 4#32 = ![48 * ((wi c + 4) % 8), 0] := by revert c; decide +kernel
theorem off11_5 (c : Dev nD) : k0_off11 c 5#32 = ![48 * ((wi c + 5) % 8), 0] := by revert c; decide +kernel
theorem off11_6 (c : Dev nD) : k0_off11 c 6#32 = ![48 * ((wi c + 6) % 8), 0] := by revert c; decide +kernel
theorem off11_7 (c : Dev nD) : k0_off11 c 7#32 = ![48 * ((wi c + 7) % 8), 0] := by revert c; decide +kernel

theorem off12_eq (c : Dev nD) : k0_off12 c = ![48 * wi c, 0] := by revert c; decide +kernel

end Cert.KernelIdeal.Ring
-- ==== Proof.ReadAt.lean ====
/- Reading a rectangle of an array at coordinates: the entry at off + i; re-indexing commutes with pointwise operations. -/
import proofs.«900894_g7700000000000895_dist_matmul_mk_i_outk_m1536_n1536_k768_v7x_i32_f32_1_alg».proof.Proof.Cells
import Idealize.ShloMosaic.Lib.ValueIdx
import Idealize.ShloMosaic.Lib.ValueLayout
import Idealize.ShloMosaic.Lib.Pipeline.Value

noncomputable section

namespace Cert.KernelIdeal.Ring

open Cert.KernelIdeal Cert.KernelIdeal.Gen Cert.KernelIdeal.Mesh
open Idealize.ShloMosaic
open Idealize.ShloMosaic.ValueIdx (ix2 ix3 eq_ix2 eq_ix3 idx2_lt0 idx2_lt1)

section Landing
variable {α : Type}

theorem unit_idx2 {R C : ℕ} (off size : Fin 2 → Nat) (inb : ∀ a, off a + size a ≤ (⟨2, ![R, C]⟩ : Shape).size a)
    (x : (Rect.unit (s := ⟨2, ![R, C]⟩) off size inb).toLoadRect.shape.Idx) :
    (Rect.unit (s := ⟨2, ![R, C]⟩) off size inb).toLoadRect.idx x
      = ix2 (⟨off 0 + (x 0).val, by have h1 : off 0 + size 0 ≤ R := inb 0; have h2 : (x 0).val < size 0 := (x 0).isLt; omega⟩ : Fin R)
          (⟨off 1 + (x 1).val, by have h1 : off 1 + size 1 ≤ C := inb 1; have h2 : (x 1).val < size 1 := (x 1).isLt; omega⟩ : Fin C) :=
  funext fun a => Fin.ext (by
    match a with
    | ⟨0, _⟩ => show off 0 + 1 * (x 0).val = off 0 + (x 0).val; rw [Nat.one_mul]
    | ⟨1, _⟩ => show off 1 + 1 * (x 1).val = off 1 + (x 1).val; rw [Nat.one_mul])

theorem comp_unit_idx2 {R C : ℕ} (g : (⟨2, ![R, C]⟩ : Shape).Idx → α) (off size : Fin 2 → Nat)
    (inb : ∀ a, off a + size a ≤ (⟨2, ![R, C]⟩ : Shape).size a) :
    (fun x => g ((Rect.unit (s := ⟨2, ![R, C]⟩) off size inb).toLoadRect.idx x))
      = fun x : (Rect.unit (s := ⟨2, ![R, C]⟩) off size inb).toLoadRect.shape.Idx =>
          g (ix2 (⟨off 0 + (x 0).val, by have h1 : off 0 + size 0 ≤ R := inb 0; have h2 : (x 0).val < size 0 := (x 0).isLt; omega⟩ : Fin R)
            (⟨off 1 + (x 1).val, by have h1 : off 1 + size 1 ≤ C := inb 1; have h2 : (x 1).val < size 1 := (x 1).isLt; omega⟩ : Fin C)) :=
  funext fun x => congrArg g (unit_idx2 off size inb x)

end Landing

section Pointwise
variable {F : FTy → Type} [FloatOps F] {s t : Shape} {φ ψ : FTy}

end Pointwise

section Buffers
variable {F : FTy → Type} [FloatOps F]

theorem aM_readAt (off size : Fin 2 → Nat) (inb : ∀ a, off a + size a ≤ S1536x768.size a) (f : Vec F S1536x768 .f32) :
    aM.view.readAt (Elt F) (Rect.unit (s := S1536x768) off size inb).toLoadRect f
      = fun x : (Rect.unit (s := S1536x768) off size inb).toLoadRect.shape.Idx =>
          f (ix2 (⟨off 0 + (x 0).val, by have h1 : off 0 + size 0 ≤ 1536 := inb 0; have h2 : (x 0).val < size 0 := (x 0).isLt; omega⟩ : Fin 1536)
            (⟨off 1 + (x 1).val, by have h1 : off 1 + size 1 ≤ 768 := inb 1; have h2 : (x 1).val < size 1 := (x 1).isLt; omega⟩ : Fin 768)) :=
  comp_unit_idx2 f off size inb
theorem bM_readAt (off size : Fin 2 → Nat) (inb : ∀ a, off a + size a ≤ S768x1536.size a) (f : Vec F S768x1536 .f32) :
    bM.view.readAt (Elt F) (Rect.unit (s := S768x1536) off size inb).toLoadRect f
      = fun x : (Rect.unit (s := S768x1536) off size inb).toLoadRect.shape.Idx =>
          f (ix2 (⟨off 0 + (x 0).val, by have h1 : off 0 + size 0 ≤ 768 := inb 0; have h2 : (x 0).val < size 0 := (x 0).isLt; omega⟩ : Fin 768)
            (⟨off 1 + (x 1).val, by have h1 : off 1 + size 1 ≤ 1536 := inb 1; have h2 : (x 1).val < size 1 := (x 1).isLt; omega⟩ : Fin 1536)) :=
  comp_unit_idx2 f off size inb
theorem r1M_readAt (off size : Fin 2 → Nat) (inb : ∀ a, off a + size a ≤ S384x1536.size a) (f : Vec F S384x1536 .f32) :
    r1M.view.readAt (Elt F) (Rect.unit (s := S384x1536) off size inb).toLoadRect f
      = fun x : (Rect.unit (s := S384x1536) off size inb).toLoadRect.shape.Idx =>
          f (ix2 (⟨off 0 + (x 0).val, by have h1 : off 0 + size 0 ≤ 384 := inb 0; have h2 : (x 0).val < size 0 := (x 0).isLt; omega⟩ : Fin 384)
            (⟨off 1 + (x 1).val, by have h1 : off 1 + size 1 ≤ 1536 := inb 1; have h2 : (x 1).val < size 1 := (x 1).isLt; omega⟩ : Fin 1536)) :=
  comp_unit_idx2 f off size inb
theorem r1bM_readAt (off size : Fin 2 → Nat) (inb : ∀ a, off a + size a ≤ S384x1536.size a) (f : Vec F S384x1536 .bf16) :
    r1bM.view.readAt (Elt F) (Rect.unit (s := S384x1536) off size inb).toLoadRect f
      = fun x : (Rect.unit (s := S384x1536) off size inb).toLoadRect.shape.Idx =>
          f (ix2 (⟨off 0 + (x 0).val, by have h1 : off 0 + size 0 ≤ 384 := inb 0; have h2 : (x 0).val < size 0 := (x 0).isLt; omega⟩ : Fin 384)
            (⟨off 1 + (x 1).val, by have h1 : off 1 + size 1 ≤ 1536 := inb 1; have h2 : (x 1).val < size 1 := (x 1).isLt; omega⟩ : Fin 1536)) :=
  comp_unit_idx2 f off size inb
end Buffers

end Cert.KernelIdeal.Ring

end
-- ==== Proof.Loads.lean ====
/- Each of the eight block products is a row block times a column half of the device's own factors. -/
import proofs.«900894_g7700000000000895_dist_matmul_mk_i_outk_m1536_n1536_k768_v7x_i32_f32_1_alg».proof.Proof.Offs
import proofs.«900894_g7700000000000895_dist_matmul_mk_i_outk_m1536_n1536_k768_v7x_i32_f32_1_alg».proof.Proof.ReadAt
import proofs.«900894_g7700000000000895_dist_matmul_mk_i_outk_m1536_n1536_k768_v7x_i32_f32_1_alg».proof.Proof.Gen.KernelIdeal.Skeleton

noncomputable section

namespace Cert.KernelIdeal.Ring

open Cert.KernelIdeal Cert.KernelIdeal.Gen Cert.KernelIdeal.Mesh
open Idealize.ShloMosaic
open Idealize.ShloMosaic.ValueIdx (ix2)

variable {F : FTy → Type} [FloatOps F]

theorem aM_rows (A : Dev nD → Vec F S1536x768 .f32) (c : Dev nD) (off : Fin 2 → Nat) (q : Fin 4)
    (hoff : off = ![384 * q.val, 0]) (inb : ∀ a, off a + S384x768.size a ≤ S1536x768.size a) :
    aM.view.readAt (Elt F) (Rect.unit (s := S1536x768) off S384x768.size inb).toLoadRect (A c) = aRows A c q := by
  subst hoff
  rw [aM_readAt]
  unfold aRows
  funext x
  exact congrArg (A c) (funext fun a => Fin.ext (by
    match a with
    | ⟨0, _⟩ => rfl
    | ⟨1, _⟩ => exact Nat.zero_add _))

theorem bM_cols (B : Dev nD → Vec F S768x1536 .f32) (c : Dev nD) (off : Fin 2 → Nat) (hf : Fin 2)
    (hoff : off = ![0, 768 * hf.val]) (inb : ∀ a, off a + S768x768.size a ≤ S768x1536.size a) :
    bM.view.readAt (Elt F) (Rect.unit (s := S768x1536) off S768x768.size inb).toLoadRect (B c) = bCols B c hf := by
  subst hoff
  rw [bM_readAt]
  unfold bCols
  funext x
  exact congrArg (B c) (funext fun a => Fin.ext (by
    match a with
    | ⟨0, _⟩ => exact Nat.zero_add _
    | ⟨1, _⟩ => rfl))

variable (A : Dev nD → Vec F S1536x768 .f32) (B : Dev nD → Vec F S768x1536 .f32)

theorem k0_pay2_eq (u : Vec F S384x768 .f32) (w : Vec F S768x768 .f32) :
    k0_pay2 u w = matmul dot_S384x768_S768x768_S384x768_1_0_0_1_n_n none u w (constant S384x768 .f32 0x00000000#32) := by
  unfold k0_pay2; simp only [shapeCast_self]
theorem k0_pay5_eq (u : Vec F S384x768 .f32) (w : Vec F S768x768 .f32) :
    k0_pay5 u w = matmul dot_S384x768_S768x768_S384x768_1_0_0_1_n_n none u w (constant S384x768 .f32 0x00000000#32) := by
  unfold k0_pay5; simp only [shapeCast_self]
theorem k0_pay7_eq (u : Vec F S384x768 .f32) (w : Vec F S768x768 .f32) :
    k0_pay7 u w = matmul dot_S384x768_S768x768_S384x768_1_0_0_1_n_n none u w (constant S384x768 .f32 0x00000000#32) := by
  unfold k0_pay7; simp only [shapeCast_self]
theorem k0_pay8_eq (u : Vec F S384x768 .f32) (w : Vec F S768x768 .f32) :
    k0_pay8 u w = matmul dot_S384x768_S768x768_S384x768_1_0_0_1_n_n none u w (constant S384x768 .f32 0x00000000#32) := by
  unfold k0_pay8; simp only [shapeCast_self]
theorem k0_pay9_eq (u : Vec F S384x768 .f32) (w : Vec F S768x768 .f32) :
    k0_pay9 u w = matmul dot_S384x768_S768x768_S384x768_1_0_0_1_n_n none u w (constant S384x768 .f32 0x00000000#32) := by
  unfold k0_pay9; simp only [shapeCast_self]
theorem k0_pay10_eq (u : Vec F S384x768 .f32) (w : Vec F S768x768 .f32) :
    k0_pay10 u w = matmul dot_S384x768_S768x768_S384x768_1_0_0_1_n_n none u w (constant S384x768 .f32 0x00000000#32) := by
  unfold k0_pay10; simp only [shapeCast_self]
theorem k0_pay11_eq (u : Vec F S384x768 .f32) (w : Vec F S768x768 .f32) :
    k0_pay11 u w = matmul dot_S384x768_S768x768_S384x768_1_0_0_1_n_n none u w (constant S384x768 .f32 0x00000000#32) := by
  unfold k0_pay11; simp only [shapeCast_self]
theorem k0_pay12_eq (u : Vec F S384x768 .f32) (w : Vec F S768x768 .f32) :
    k0_pay12 u w = matmul dot_S384x768_S768x768_S384x768_1_0_0_1_n_n none u w (constant S384x768 .f32 0x00000000#32) := by
  unfold k0_pay12; simp only [shapeCast_self]

/- A block product of a row-block load and a column-half load is that piece of the device's own product. -/
theorem pay_loads (p : Vec F S384x768 .f32 → Vec F S768x768 .f32 → Vec F S384x768 .f32)
    (hp : ∀ u w, p u w = matmul dot_S384x768_S768x768_S384x768_1_0_0_1_n_n none u w (constant S384x768 .f32 0x00000000#32))
    (c : Dev nD) (q : Fin 4) (hf : Fin 2) (oa ob : Fin 2 → Nat) (ha : oa = ![384 * q.val, 0]) (hb : ob = ![0, 768 * hf.val])
    (ia : ∀ a, oa a + S384x768.size a ≤ S1536x768.size a) (ib : ∀ a, ob a + S768x768.size a ≤ S768x1536.size a) :
    p (aM.view.readAt (Elt F) (Rect.unit (s := S1536x768) oa S384x768.size ia).toLoadRect (A c))
        (bM.view.readAt (Elt F) (Rect.unit (s := S768x1536) ob S768x768.size ib).toLoadRect (B c))
      = mm A B c q hf := by
  rw [aM_rows A c oa q ha ia, bM_cols B c ob hf hb ib]; exact hp _ _

end Cert.KernelIdeal.Ring

end
-- ==== Proof.SendVals.lean ====
/- What the first sends carry: the strips of the block product just stored. -/
import proofs.«900894_g7700000000000895_dist_matmul_mk_i_outk_m1536_n1536_k768_v7x_i32_f32_1_alg».proof.Proof.Loads
import proofs.«900894_g7700000000000895_dist_matmul_mk_i_outk_m1536_n1536_k768_v7x_i32_f32_1_alg».proof.Proof.Pieces
import proofs.«900894_g7700000000000895_dist_matmul_mk_i_outk_m1536_n1536_k768_v7x_i32_f32_1_alg».proof.Proof.Inst
import proofs.«900894_g7700000000000895_dist_matmul_mk_i_outk_m1536_n1536_k768_v7x_i32_f32_1_alg».proof.Proof.Gen.KernelIdeal.Skeleton

noncomputable section

namespace Cert.KernelIdeal.Ring

open Cert.KernelIdeal Cert.KernelIdeal.Gen Cert.KernelIdeal.Mesh
open Idealize.ShloMosaic
open Idealize.ShloMosaic.TcCoe
open Idealize.SL.Sem
open Idealize.ShloMosaic.ValueIdx (ix2 ix3)

variable {F : FTy → Type} [FloatOps F]

theorem k0_pay4_apply (u : FVec F S384x768 .bf16) (p : Fin 384) (q : Fin 768) :
    k0_pay4 u (ix3 (0 : Fin 1) p q) = u (ix2 p q) :=
  ValueIdx.shapeCast_ab_1ab_apply u shapeCasts_S384x768_S1x384x768 0 p q
theorem k0_pay6_apply (v : Vec F S384x768 .f32) (p : Fin 384) (q : Fin 768) :
    k0_pay6 v (ix3 (0 : Fin 1) p q) = truncf .bf16 v bitsLt_bf16_f32 (ix2 p q) :=
  ValueIdx.shapeCast_ab_1ab_apply (truncf .bf16 v bitsLt_bf16_f32) shapeCasts_S384x768_S1x384x768 0 p q

theorem sendF0 (m : Mem F) (ρ : Dev nD → PrngReg) (c : Dev nD) (s : Fin 2)
    (f1 : (cc0_scratch1 : Ref sig .tc).ty.Contents (Elt F)) (L : List (View.Piece (Elt F) S1536x1536 .f32))
    (i1 : ∀ a, k0_off1 c 3#32 a + S384x768.size a ≤ S1536x768.size a)
    (ib : ∀ a, (![0, 0] : Fin 2 → Nat) a + S768x768.size a ≤ S768x1536.size a)
    (i2 i2' : ∀ a, k0_off2 c 3#32 a + S384x768.size a ≤ S1536x1536.size a)
    (i3 : ∀ a, (![3, 0, 0] : Fin 3 → Nat) a + S1x384x768.size a ≤ S4x384x768.size a) :
    (cfP 3 s).view.read (Elt F)
        (View.write (Elt F) ((Memref.whole cc0_scratch1).access (Rect.unit (s := S4x384x768) ![3, 0, 0] S1x384x768.size i3)) f1
          (k0_pay4 (k0_pay3 (pM.view.readCov
            ((⟨Rect.unit (s := S1536x1536) (k0_off2 c 3#32) S384x768.size i2',
                k0_pay2 (aM.view.readAt (Elt F) (Rect.unit (s := S1536x768) (k0_off1 c 3#32) S384x768.size i1).toLoadRect (Astg m ρ c))
                  (bM.view.readAt (Elt F) (Rect.unit (s := S768x1536) ![0, 0] S768x768.size ib).toLoadRect (Bstg m ρ c))⟩
              : View.Piece (Elt F) S1536x1536 .f32) :: L)
            (Rect.unit (s := S1536x1536) (k0_off2 c 3#32) S384x768.size i2).toLoadRect)))
          Finset.univ)
      = VfI m ρ c 0 s := by
  rw [View.readCov_cons_toLoadRect, pay_loads _ _ k0_pay2 k0_pay2_eq c (q4 (zi c + 3)) 0 _ ![0, 0] (off1_3 c) rfl]
  funext x
  rw [cf_top3_read_write s rfl i3 f1 _ x
    (ix3 (0 : Fin 1) (⟨192 * s.val + (x 0).val, by have h : (x 0).val < 192 := (x 0).isLt; have := s.isLt; omega⟩ : Fin 384)
      (⟨(x 1).val, (x 1).isLt⟩ : Fin 768)) rfl rfl rfl,
    k0_pay4_apply]
  rfl

theorem sendB0 (m : Mem F) (ρ : Dev nD → PrngReg) (c : Dev nD) (s : Fin 2)
    (f2 : (cc0_scratch2 : Ref sig .tc).ty.Contents (Elt F)) (L : List (View.Piece (Elt F) S1536x1536 .f32))
    (i1 : ∀ a, k0_off1 c 1#32 a + S384x768.size a ≤ S1536x768.size a)
    (ib : ∀ a, (![0, 768] : Fin 2 → Nat) a + S768x768.size a ≤ S768x1536.size a)
    (i2 i2' : ∀ a, k0_off3 c 1#32 a + S384x768.size a ≤ S1536x1536.size a)
    (i3 : ∀ a, (![3, 0, 0] : Fin 3 → Nat) a + S1x384x768.size a ≤ S4x384x768.size a) :
    (cbP 3 s).view.read (Elt F)
        (View.write (Elt F) ((Memref.whole cc0_scratch2).access (Rect.unit (s := S4x384x768) ![3, 0, 0] S1x384x768.size i3)) f2
          (k0_pay6 (pM.view.readCov
            ((⟨Rect.unit (s := S1536x1536) (k0_off3 c 1#32) S384x768.size i2',
                k0_pay5 (aM.view.readAt (Elt F) (Rect.unit (s := S1536x768) (k0_off1 c 1#32) S384x768.size i1).toLoadRect (Astg m ρ c))
                  (bM.view.readAt (Elt F) (Rect.unit (s := S768x1536) ![0, 768] S768x768.size ib).toLoadRect (Bstg m ρ c))⟩
              : View.Piece (Elt F) S1536x1536 .f32) :: L)
            (Rect.unit (s := S1536x1536) (k0_off3 c 1#32) S384x768.size i2).toLoadRect))
          Finset.univ)
      = VbI m ρ c 0 s := by
  rw [View.readCov_cons_toLoadRect, pay_loads _ _ k0_pay5 k0_pay5_eq c (q4 (zi c + 1)) 1 _ ![0, 768] (off1_1 c) rfl]
  funext x
  rw [cb_top3_read_write s rfl i3 f2 _ x
    (ix3 (0 : Fin 1) (⟨192 * s.val + (x 0).val, by have h : (x 0).val < 192 := (x 0).isLt; have := s.isLt; omega⟩ : Fin 384)
      (⟨(x 1).val, (x 1).isLt⟩ : Fin 768)) rfl rfl rfl,
    k0_pay6_apply]
  rfl

end Cert.KernelIdeal.Ring

end
-- ==== Proof.Pays.lean ====
/- The body's arithmetic: a received piece widened, plus the device's own strip, narrowed again. -/
import proofs.«900894_g7700000000000895_dist_matmul_mk_i_outk_m1536_n1536_k768_v7x_i32_f32_1_alg».proof.Proof.Gen.KernelIdeal.Skeleton
import Idealize.ShloMosaic.Lib.Pipeline.Value

noncomputable section

namespace Cert.KernelIdeal.Ring

open Cert.KernelIdeal Cert.KernelIdeal.Gen
open Idealize.ShloMosaic

variable {F : FTy → Type} [FloatOps F]

abbrev recv (u : Vec F S1x192x768 .bf16) : FVec F S192x768 .bf16 := shapeCast S192x768 u shapeCasts_S1x192x768_S192x768
abbrev hopVal (u : Vec F S1x192x768 .bf16) (x : Vec F S192x768 .f32) : FVec F S192x768 .bf16 :=
  truncf .bf16 (addf (extf .f32 (recv u) bitsLt_bf16_f32) x) bitsLt_bf16_f32
abbrev lastVal (u : Vec F S1x192x768 .bf16) (x : Vec F S192x768 .f32) : FVec F S192x768 .f32 :=
  addf (extf .f32 (recv u) bitsLt_bf16_f32) x
abbrev recvD (w : Vec F S1x48x1536 .bf16) : FVec F S48x1536 .bf16 := shapeCast S48x1536 w shapeCasts_S1x48x1536_S48x1536

theorem pay14_13_cast (u : Vec F S1x192x768 .bf16) (x : Vec F S192x768 .f32) :
    shapeCast S192x768 (k0_pay14 (k0_pay13 u) x) shapeCasts_S1x192x768_S192x768 = hopVal u x :=
  shapeCast_shapeCast (hopVal u x) shapeCasts_S192x768_S1x192x768 shapeCasts_S1x192x768_S192x768

theorem pay15_cast (u : Vec F S1x192x768 .bf16) (x : Vec F S192x768 .f32) :
    shapeCast S192x768 (k0_pay15 u x) shapeCasts_S1x192x768_S192x768 = hopVal u x :=
  shapeCast_shapeCast (hopVal u x) shapeCasts_S192x768_S1x192x768 shapeCasts_S1x192x768_S192x768

theorem pay17_16_cast (u : Vec F S1x192x768 .bf16) (x : Vec F S192x768 .f32) :
    shapeCast S192x768 (k0_pay17 (k0_pay16 u x)) shapeCasts_S1x192x768_S192x768 = hopVal u x :=
  shapeCast_shapeCast (hopVal u x) shapeCasts_S192x768_S1x192x768 shapeCasts_S1x192x768_S192x768

theorem pay18_cast (u : Vec F S1x192x768 .bf16) (x : Vec F S192x768 .f32) :
    shapeCast S192x768 (k0_pay18 u x) shapeCasts_S1x192x768_S192x768 = hopVal u x :=
  shapeCast_shapeCast (hopVal u x) shapeCasts_S192x768_S1x192x768 shapeCasts_S1x192x768_S192x768

theorem pay19_cast (u : Vec F S1x192x768 .bf16) (x : Vec F S192x768 .f32) :
    shapeCast S192x768 (k0_pay19 u x) shapeCasts_S1x192x768_S192x768 = hopVal u x :=
  shapeCast_shapeCast (hopVal u x) shapeCasts_S192x768_S1x192x768 shapeCasts_S1x192x768_S192x768

theorem pay20_cast (u : Vec F S1x192x768 .bf16) (x : Vec F S192x768 .f32) :
    shapeCast S192x768 (k0_pay20 u x) shapeCasts_S1x192x768_S192x768 = hopVal u x :=
  shapeCast_shapeCast (hopVal u x) shapeCasts_S192x768_S1x192x768 shapeCasts_S1x192x768_S192x768

theorem pay21_cast (u : Vec F S1x192x768 .bf16) (x : Vec F S192x768 .f32) :
    shapeCast S192x768 (k0_pay21 u x) shapeCasts_S1x192x768_S192x768 = hopVal u x :=
  shapeCast_shapeCast (hopVal u x) shapeCasts_S192x768_S1x192x768 shapeCasts_S1x192x768_S192x768

theorem pay22_cast (u : Vec F S1x192x768 .bf16) (x : Vec F S192x768 .f32) :
    shapeCast S192x768 (k0_pay22 u x) shapeCasts_S1x192x768_S192x768 = hopVal u x :=
  shapeCast_shapeCast (hopVal u x) shapeCasts_S192x768_S1x192x768 shapeCasts_S1x192x768_S192x768

theorem pay24_23 (u : Vec F S1x192x768 .bf16) (x : Vec F S192x768 .f32) : k0_pay24 (k0_pay23 u x) = lastVal u x :=
  shapeCast_self _ _
theorem pay25_eq (u : Vec F S1x192x768 .bf16) (x : Vec F S192x768 .f32) : k0_pay25 u x = lastVal u x :=
  shapeCast_self _ _
theorem pay28_27 (u : Vec F S1x192x768 .bf16) (x : Vec F S192x768 .f32) : k0_pay28 (k0_pay27 u) x = lastVal u x :=
  shapeCast_self _ _
theorem pay29_eq (u : Vec F S1x192x768 .bf16) (x : Vec F S192x768 .f32) : k0_pay29 u x = lastVal u x :=
  shapeCast_self _ _
theorem pay26_eq (v : Vec F S192x1536 .f32) : k0_pay26 v = truncf .bf16 v bitsLt_bf16_f32 := shapeCast_self _ _
theorem pay30_eq (v : Vec F S192x1536 .f32) : k0_pay30 v = truncf .bf16 v bitsLt_bf16_f32 := shapeCast_self _ _

theorem pay32_eq (v : Vec F S48x1536 .f32) : k0_pay32 v = v := shapeCast_self _ _
theorem pay33_eq (v : FVec F S48x1536 .f32) (w : Vec F S1x48x1536 .bf16) :
    k0_pay33 v w = addf v (extf .f32 (recvD w) bitsLt_bf16_f32) := rfl
theorem pay1_eq (v : Vec F S48x1536 .f32) (w : Vec F S1x48x1536 .bf16) :
    k0_pay1 v w = addf v (extf .f32 (recvD w) bitsLt_bf16_f32) := by
  unfold k0_pay1; simp only [shapeCast_self]
theorem pay31_eq (v : Vec F S48x1536 .f32) (w : Vec F S1x48x1536 .bf16) :
    k0_pay31 v w = addf v (extf .f32 (recvD w) bitsLt_bf16_f32) := by
  unfold k0_pay31; simp only [shapeCast_self]
theorem pay34_eq (v : Vec F S48x1536 .f32) (w : Vec F S1x48x1536 .bf16) :
    k0_pay34 v w = addf v (extf .f32 (recvD w) bitsLt_bf16_f32) := by
  unfold k0_pay34; simp only [shapeCast_self]
theorem pay35_eq (v : Vec F S48x1536 .f32) (w : Vec F S1x48x1536 .bf16) :
    k0_pay35 v w = addf v (extf .f32 (recvD w) bitsLt_bf16_f32) := by
  unfold k0_pay35; simp only [shapeCast_self]
theorem pay36_eq (v : Vec F S48x1536 .f32) (w : Vec F S1x48x1536 .bf16) :
    k0_pay36 v w = addf v (extf .f32 (recvD w) bitsLt_bf16_f32) := by
  unfold k0_pay36; simp only [shapeCast_self]
theorem pay37_eq (v : Vec F S48x1536 .f32) (w : Vec F S1x48x1536 .bf16) :
    k0_pay37 v w = addf v (extf .f32 (recvD w) bitsLt_bf16_f32) := by
  unfold k0_pay37; simp only [shapeCast_self]

end Cert.KernelIdeal.Ring

end
-- ==== Proof.Hops.lean ====
/- One hop: from what arrived and the device's own strip to what is sent on. -/
import proofs.«900894_g7700000000000895_dist_matmul_mk_i_outk_m1536_n1536_k768_v7x_i32_f32_1_alg».proof.Proof.Vals
import proofs.«900894_g7700000000000895_dist_matmul_mk_i_outk_m1536_n1536_k768_v7x_i32_f32_1_alg».proof.Proof.Pays

noncomputable section

namespace Cert.KernelIdeal.Ring

open Cert.KernelIdeal Cert.KernelIdeal.Gen Cert.KernelIdeal.Mesh
open Idealize.ShloMosaic

variable {F : FTy → Type} [FloatOps F]
variable (A : Dev nD → Vec F S1536x768 .f32) (B : Dev nD → Vec F S768x1536 .f32)

theorem hopF (c : Dev nD) (h : ℕ) (s : Fin 2) (u : Vec F S1x192x768 .bf16) (x : Vec F S192x768 .f32)
    (hu : recv u = VfN A B h (zl c) s) (hx : x = X A B c (q4 (zi c + 6 - h)) 0 s) :
    hopVal u x = VfN A B (h + 1) c s := by
  subst hx; show truncf .bf16 (addf (extf .f32 (recv u) bitsLt_bf16_f32) _) bitsLt_bf16_f32 = _; rw [hu]; rfl

theorem hopB (c : Dev nD) (h : ℕ) (s : Fin 2) (u : Vec F S1x192x768 .bf16) (x : Vec F S192x768 .f32)
    (hu : recv u = VbN A B h (zr c) s) (hx : x = X A B c (q4 (zi c + 2 + h)) 1 s) :
    hopVal u x = VbN A B (h + 1) c s := by
  subst hx; show truncf .bf16 (addf (extf .f32 (recv u) bitsLt_bf16_f32) _) bitsLt_bf16_f32 = _; rw [hu]; rfl

theorem lastF (c : Dev nD) (s : Fin 2) (u : Vec F S1x192x768 .bf16) (x : Vec F S192x768 .f32)
    (hu : recv u = VfN A B 2 (zl c) s) (hx : x = X A B c (q4 (zi c)) 0 s) :
    lastVal u x = R1 A B c 0 s := by
  subst hx; show addf (extf .f32 (recv u) bitsLt_bf16_f32) _ = _; rw [hu]; rfl
theorem lastB (c : Dev nD) (s : Fin 2) (u : Vec F S1x192x768 .bf16) (x : Vec F S192x768 .f32)
    (hu : recv u = VbN A B 2 (zr c) s) (hx : x = X A B c (q4 (zi c)) 1 s) :
    lastVal u x = R1 A B c 1 s := by
  subst hx; show addf (extf .f32 (recv u) bitsLt_bf16_f32) _ = _; rw [hu]; rfl

theorem planeStep (c : Dev nD) (n : ℕ) (hn : n < 7) (v : FVec F S48x1536 .f32) (w : Vec F S1x48x1536 .bf16)
    (hv : v = outN A B n c) (hw : recvD w = Vd A B (inp (7 - n) c) ⟨n, hn⟩) :
    addf v (extf .f32 (recvD w) bitsLt_bf16_f32) = outN A B (n + 1) c := by
  subst hv; rw [hw, outN_succ A B n hn c]

end Cert.KernelIdeal.Ring

end
-- ==== Proof.Partial.lean ====
/- The eight block products tile the device's own 1536 × 1536 product; a strip read from it is the protocol's strip. -/
import proofs.«900894_g7700000000000895_dist_matmul_mk_i_outk_m1536_n1536_k768_v7x_i32_f32_1_alg».proof.Proof.Loads
import Idealize.ShloMosaic.Lib.Decide

set_option Elab.async false

noncomputable section

namespace Cert.KernelIdeal.Ring

open Cert.KernelIdeal Cert.KernelIdeal.Gen Cert.KernelIdeal.Mesh
open Idealize.ShloMosaic
open Idealize.ShloMosaic.ValueIdx (ix2 idx2_lt0 idx2_lt1)

variable {F : FTy → Type} [FloatOps F]
variable (A : Dev nD → Vec F S1536x768 .f32) (B : Dev nD → Vec F S768x1536 .f32)

theorem mm_congr (c : Dev nD) {q q' : Fin 4} {hf hf' : Fin 2} {i i' : S384x768.Idx}
    (hq : q.val = q'.val) (hh : hf.val = hf'.val) (h0 : (i 0).val = (i' 0).val) (h1 : (i 1).val = (i' 1).val) :
    mm A B c q hf i = mm A B c q' hf' i' := by
  obtain rfl : q = q' := Fin.ext hq
  obtain rfl : hf = hf' := Fin.ext hh
  obtain rfl : i = i' := funext fun a => Fin.ext (by
    match a with
    | ⟨0, _⟩ => exact h0
    | ⟨1, _⟩ => exact h1)
  rfl

def Pfull (c : Dev nD) : Vec F S1536x1536 .f32 := fun y =>
  mm A B c (⟨(y 0).val / 384, by have := idx2_lt0 y; omega⟩ : Fin 4) (⟨(y 1).val / 768, by have := idx2_lt1 y; omega⟩ : Fin 2)
    (ix2 (⟨(y 0).val % 384, Nat.mod_lt _ (by decide)⟩ : Fin 384) (⟨(y 1).val % 768, Nat.mod_lt _ (by decide)⟩ : Fin 768))

theorem Pfull_at (c : Dev nD) (y : S1536x1536.Idx) (q : Fin 4) (hf : Fin 2) (i : S384x768.Idx)
    (h0 : (y 0).val = 384 * q.val + (i 0).val) (h1 : (y 1).val = 768 * hf.val + (i 1).val) :
    Pfull A B c y = mm A B c q hf i := by
  have hi0 := idx2_lt0 i
  have hi1 := idx2_lt1 i
  exact mm_congr A B c (by show (y 0).val / 384 = q.val; omega) (by show (y 1).val / 768 = hf.val; omega)
    (by show (y 0).val % 384 = (i 0).val; omega) (by show (y 1).val % 768 = (i 1).val; omega)

theorem agrees_mm (c : Dev nD) (q : Fin 4) (hf : Fin 2) (off : Fin 2 → Nat) (hoff : off = ![384 * q.val, 768 * hf.val])
    (inb : ∀ a, off a + S384x768.size a ≤ S1536x1536.size a)
    (w : (Rect.unit (s := S1536x1536) off S384x768.size inb).shape.Idx → Elt F .f32) (hw : w = mm A B c q hf)
    (x : (Rect.unit (s := S1536x1536) off S384x768.size inb).shape.Idx) :
    w x = Pfull A B c ((Rect.unit (s := S1536x1536) off S384x768.size inb).emb x) := by
  subst hoff hw
  refine (Pfull_at A B c _ q hf x ?_ ?_).symm
  · show 384 * q.val + 1 * (x 0).val = 384 * q.val + (x 0).val; rw [Nat.one_mul]
  · show 768 * hf.val + 1 * (x 1).val = 768 * hf.val + (x 1).val; rw [Nat.one_mul]

theorem strip_mem (q : Fin 4) (hf s : Fin 2) (off0 off : Fin 2 → Nat) (h0 : off0 = ![384 * q.val, 768 * hf.val])
    (h : off = ![384 * q.val + 192 * s.val, 768 * hf.val])
    (inb0 : ∀ a, off0 a + S384x768.size a ≤ S1536x1536.size a) (inb : ∀ a, off a + S192x768.size a ≤ S1536x1536.size a)
    (j : (Rect.unit (s := S1536x1536) off S192x768.size inb).toLoadRect.shape.Idx) :
    (Rect.unit (s := S1536x1536) off S192x768.size inb).toLoadRect.idx j
      ∈ (Rect.unit (s := S1536x1536) off0 S384x768.size inb0).set := by
  subst h0 h
  rw [Rect.mem_set_unit]
  have hj0 : (j 0).val < 192 := (j 0).isLt
  have hj1 : (j 1).val < 768 := (j 1).isLt
  have hs := s.isLt
  intro a
  match a with
  | ⟨0, _⟩ =>
    show 384 * q.val ≤ 384 * q.val + 192 * s.val + 1 * (j 0).val ∧ 384 * q.val + 192 * s.val + 1 * (j 0).val < 384 * q.val + 384
    omega
  | ⟨1, _⟩ =>
    show 768 * hf.val ≤ 768 * hf.val + 1 * (j 1).val ∧ 768 * hf.val + 1 * (j 1).val < 768 * hf.val + 768
    omega

theorem readCov_strip (c : Dev nD) (L : List (View.Piece (Elt F) S1536x1536 .f32))
    (hL : ∀ p ∈ L, ∀ x : p.1.shape.Idx, p.2 x = Pfull A B c (p.1.emb x))
    (q : Fin 4) (hf s : Fin 2) (off : Fin 2 → Nat) (hoff : off = ![384 * q.val + 192 * s.val, 768 * hf.val])
    (inb : ∀ a, off a + S192x768.size a ≤ S1536x1536.size a)
    (hcov : ∀ j : (Rect.unit (s := S1536x1536) off S192x768.size inb).toLoadRect.shape.Idx,
      ∃ p ∈ L, (Rect.unit (s := S1536x1536) off S192x768.size inb).toLoadRect.idx j ∈ p.1.set) :
    pM.view.readCov L (Rect.unit (s := S1536x1536) off S192x768.size inb).toLoadRect = X A B c q hf s := by
  subst hoff
  rw [View.readCov_eq_canon']
  funext j
  rw [View.canon_apply_of_pieces (Pfull A B c) L hL _ (hcov j)]
  refine Pfull_at A B c _ q hf _ ?_ ?_
  · show 384 * q.val + 192 * s.val + 1 * (j 0).val = 384 * q.val + (192 * s.val + (j 0).val); omega
  · show 768 * hf.val + 1 * (j 1).val = 768 * hf.val + (j 1).val; omega

theorem readCov_strip_of_mem (c : Dev nD) (L : List (View.Piece (Elt F) S1536x1536 .f32))
    (hL : ∀ p ∈ L, ∀ x : p.1.shape.Idx, p.2 x = Pfull A B c (p.1.emb x))
    (q : Fin 4) (hf s : Fin 2) (off0 off : Fin 2 → Nat) (h0 : off0 = ![384 * q.val, 768 * hf.val])
    (hoff : off = ![384 * q.val + 192 * s.val, 768 * hf.val])
    (inb0 : ∀ a, off0 a + S384x768.size a ≤ S1536x1536.size a) (inb : ∀ a, off a + S192x768.size a ≤ S1536x1536.size a)
    (w : (Rect.unit (s := S1536x1536) off0 S384x768.size inb0).shape.Idx → Elt F .f32)
    (hmem : (⟨Rect.unit (s := S1536x1536) off0 S384x768.size inb0, w⟩ : View.Piece (Elt F) S1536x1536 .f32) ∈ L) :
    pM.view.readCov L (Rect.unit (s := S1536x1536) off S192x768.size inb).toLoadRect = X A B c q hf s :=
  readCov_strip A B c L hL q hf s off hoff inb fun j =>
    ⟨_, hmem, strip_mem q hf s off0 off h0 hoff inb0 inb j⟩

theorem agrees_pay (p : Vec F S384x768 .f32 → Vec F S768x768 .f32 → Vec F S384x768 .f32)
    (hp : ∀ u w, p u w = matmul dot_S384x768_S768x768_S384x768_1_0_0_1_n_n none u w (constant S384x768 .f32 0x00000000#32))
    (c : Dev nD) (q : Fin 4) (hf : Fin 2) (oa ob o3 : Fin 2 → Nat) (ha : oa = ![384 * q.val, 0]) (hb : ob = ![0, 768 * hf.val])
    (h3 : o3 = ![384 * q.val, 768 * hf.val])
    (ia : ∀ a, oa a + S384x768.size a ≤ S1536x768.size a) (ib : ∀ a, ob a + S768x768.size a ≤ S768x1536.size a)
    (ir : ∀ a, o3 a + S384x768.size a ≤ S1536x1536.size a)
    (x : (Rect.unit (s := S1536x1536) o3 S384x768.size ir).shape.Idx) :
    p (aM.view.readAt (Elt F) (Rect.unit (s := S1536x768) oa S384x768.size ia).toLoadRect (A c))
        (bM.view.readAt (Elt F) (Rect.unit (s := S768x1536) ob S768x768.size ib).toLoadRect (B c)) x
      = Pfull A B c ((Rect.unit (s := S1536x1536) o3 S384x768.size ir).emb x) :=
  agrees_mm A B c q hf o3 h3 ir _ (pay_loads A B p hp c q hf oa ob ha hb ia ib) x

theorem strip7_0_0_cov (c : Dev nD) : (k0_off2 c 2#32) = ![384 * (q4 (zi c + 6 - 0)).val, 768 * (0 : Fin 2).val] := by revert c; decide +kernel
theorem strip7_0_0_off (c : Dev nD) : (k0_off7 c 0#32 0#32) = ![384 * (q4 (zi c + 6 - 0)).val + 192 * (0 : Fin 2).val, 768 * (0 : Fin 2).val] := by
  revert c; decide +kernel
theorem strip8_0_0_cov (c : Dev nD) : (k0_off3 c 2#32) = ![384 * (q4 (zi c + 2 + 0)).val, 768 * (1 : Fin 2).val] := by revert c; decide +kernel
theorem strip8_0_0_off (c : Dev nD) : (k0_off8 c 0#32 0#32) = ![384 * (q4 (zi c + 2 + 0)).val + 192 * (0 : Fin 2).val, 768 * (1 : Fin 2).val] := by
  revert c; decide +kernel
theorem strip7_0_1_cov (c : Dev nD) : (k0_off2 c 2#32) = ![384 * (q4 (zi c + 6 - 0)).val, 768 * (0 : Fin 2).val] := by revert c; decide +kernel
theorem strip7_0_1_off (c : Dev nD) : (k0_off7 c 0#32 192#32) = ![384 * (q4 (zi c + 6 - 0)).val + 192 * (1 : Fin 2).val, 768 * (0 : Fin 2).val] := by
  revert c; decide +kernel
theorem strip8_0_1_cov (c : Dev nD) : (k0_off3 c 2#32) = ![384 * (q4 (zi c + 2 + 0)).val, 768 * (1 : Fin 2).val] := by revert c; decide +kernel
theorem strip8_0_1_off (c : Dev nD) : (k0_off8 c 0#32 192#32) = ![384 * (q4 (zi c + 2 + 0)).val + 192 * (1 : Fin 2).val, 768 * (1 : Fin 2).val] := by
  revert c; decide +kernel
theorem strip7_1_0_cov (c : Dev nD) : (k0_off2 c 1#32) = ![384 * (q4 (zi c + 6 - 1)).val, 768 * (0 : Fin 2).val] := by revert c; decide +kernel
theorem strip7_1_0_off (c : Dev nD) : (k0_off7 c 1#32 0#32) = ![384 * (q4 (zi c + 6 - 1)).val + 192 * (0 : Fin 2).val, 768 * (0 : Fin 2).val] := by
  revert c; decide +kernel
theorem strip8_1_0_cov (c : Dev nD) : (k0_off3 c 3#32) = ![384 * (q4 (zi c + 2 + 1)).val, 768 * (1 : Fin 2).val] := by revert c; decide +kernel
theorem strip8_1_0_off (c : Dev nD) : (k0_off8 c 1#32 0#32) = ![384 * (q4 (zi c + 2 + 1)).val + 192 * (0 : Fin 2).val, 768 * (1 : Fin 2).val] := by
  revert c; decide +kernel
theorem strip7_1_1_cov (c : Dev nD) : (k0_off2 c 1#32) = ![384 * (q4 (zi c + 6 - 1)).val, 768 * (0 : Fin 2).val] := by revert c; decide +kernel
theorem strip7_1_1_off (c : Dev nD) : (k0_off7 c 1#32 192#32) = ![384 * (q4 (zi c + 6 - 1)).val + 192 * (1 : Fin 2).val, 768 * (0 : Fin 2).val] := by
  revert c; decide +kernel
theorem strip8_1_1_cov (c : Dev nD) : (k0_off3 c 3#32) = ![384 * (q4 (zi c + 2 + 1)).val, 768 * (1 : Fin 2).val] := by revert c; decide +kernel
theorem strip8_1_1_off (c : Dev nD) : (k0_off8 c 1#32 192#32) = ![384 * (q4 (zi c + 2 + 1)).val + 192 * (1 : Fin 2).val, 768 * (1 : Fin 2).val] := by
  revert c; decide +kernel
theorem strip9_0_cov (c : Dev nD) : (k0_off5 c) = ![384 * (q4 (zi c)).val, 768 * (0 : Fin 2).val] := by revert c; decide +kernel
theorem strip9_0_off (c : Dev nD) : (k0_off9 c 0#32) = ![384 * (q4 (zi c)).val + 192 * (0 : Fin 2).val, 768 * (0 : Fin 2).val] := by
  revert c; decide +kernel
theorem strip10_0_cov (c : Dev nD) : (k0_off6 c) = ![384 * (q4 (zi c)).val, 768 * (1 : Fin 2).val] := by revert c; decide +kernel
theorem strip10_0_off (c : Dev nD) : (k0_off10 c 0#32) = ![384 * (q4 (zi c)).val + 192 * (0 : Fin 2).val, 768 * (1 : Fin 2).val] := by
  revert c; decide +kernel
theorem strip9_1_cov (c : Dev nD) : (k0_off5 c) = ![384 * (q4 (zi c)).val, 768 * (0 : Fin 2).val] := by revert c; decide +kernel
theorem strip9_1_off (c : Dev nD) : (k0_off9 c 192#32) = ![384 * (q4 (zi c)).val + 192 * (1 : Fin 2).val, 768 * (0 : Fin 2).val] := by
  revert c; decide +kernel
theorem strip10_1_cov (c : Dev nD) : (k0_off6 c) = ![384 * (q4 (zi c)).val, 768 * (1 : Fin 2).val] := by revert c; decide +kernel
theorem strip10_1_off (c : Dev nD) : (k0_off10 c 192#32) = ![384 * (q4 (zi c)).val + 192 * (1 : Fin 2).val, 768 * (1 : Fin 2).val] := by
  revert c; decide +kernel
end Cert.KernelIdeal.Ring

end
-- ==== Proof.HopVals.lean ====
/- What each later send carries: the piece received, plus the device's own strip. -/
import proofs.«900894_g7700000000000895_dist_matmul_mk_i_outk_m1536_n1536_k768_v7x_i32_f32_1_alg».proof.Proof.SendVals
import proofs.«900894_g7700000000000895_dist_matmul_mk_i_outk_m1536_n1536_k768_v7x_i32_f32_1_alg».proof.Proof.Hops
import proofs.«900894_g7700000000000895_dist_matmul_mk_i_outk_m1536_n1536_k768_v7x_i32_f32_1_alg».proof.Proof.Partial

noncomputable section

namespace Cert.KernelIdeal.Ring

open Cert.KernelIdeal Cert.KernelIdeal.Gen Cert.KernelIdeal.Mesh
open Idealize.ShloMosaic
open Idealize.ShloMosaic.TcCoe
open Idealize.SL.Sem
open Idealize.ShloMosaic.ValueIdx (ix2 ix3)

variable {F : FTy → Type} [FloatOps F]

section List
variable (A : Dev nD → Vec F S1536x768 .f32) (B : Dev nD → Vec F S768x1536 .f32)

def prodList (c : Dev nD) : List (View.Piece (Elt F) S1536x1536 .f32) :=
  [ (⟨Rect.unit (s := S1536x1536) (k0_off6 c) S384x768.size (k0_off6_inb c),
        k0_pay12 (aM.view.readAt (Elt F) (Rect.unit (s := S1536x768) (k0_off4 c) S384x768.size (k0_off4_inb c)).toLoadRect (A c))
          (bM.view.readAt (Elt F) (Rect.unit (s := S768x1536) ![0, 768] S768x768.size inb_S768x1536_S768x768_0_768).toLoadRect (B c))⟩
      : View.Piece (Elt F) S1536x1536 .f32),
    (⟨Rect.unit (s := S1536x1536) (k0_off5 c) S384x768.size (k0_off5_inb c),
        k0_pay11 (aM.view.readAt (Elt F) (Rect.unit (s := S1536x768) (k0_off4 c) S384x768.size (k0_off4_inb c)).toLoadRect (A c))
          (bM.view.readAt (Elt F) (Rect.unit (s := S768x1536) ![0, 0] S768x768.size inb_S768x1536_S768x768_0_0).toLoadRect (B c))⟩
      : View.Piece (Elt F) S1536x1536 .f32),
    (⟨Rect.unit (s := S1536x1536) (k0_off3 c 3#32) S384x768.size (k0_off3_inb c 2),
        k0_pay10 (aM.view.readAt (Elt F) (Rect.unit (s := S1536x768) (k0_off1 c 3#32) S384x768.size (k0_off1_inb c 2)).toLoadRect (A c))
          (bM.view.readAt (Elt F) (Rect.unit (s := S768x1536) ![0, 768] S768x768.size inb_S768x1536_S768x768_0_768).toLoadRect (B c))⟩
      : View.Piece (Elt F) S1536x1536 .f32),
    (⟨Rect.unit (s := S1536x1536) (k0_off2 c 1#32) S384x768.size (k0_off2_inb c 0),
        k0_pay9 (aM.view.readAt (Elt F) (Rect.unit (s := S1536x768) (k0_off1 c 1#32) S384x768.size (k0_off1_inb c 0)).toLoadRect (A c))
          (bM.view.readAt (Elt F) (Rect.unit (s := S768x1536) ![0, 0] S768x768.size inb_S768x1536_S768x768_0_0).toLoadRect (B c))⟩
      : View.Piece (Elt F) S1536x1536 .f32),
    (⟨Rect.unit (s := S1536x1536) (k0_off3 c 2#32) S384x768.size (k0_off3_inb c 1),
        k0_pay8 (aM.view.readAt (Elt F) (Rect.unit (s := S1536x768) (k0_off1 c 2#32) S384x768.size (k0_off1_inb c 1)).toLoadRect (A c))
          (bM.view.readAt (Elt F) (Rect.unit (s := S768x1536) ![0, 768] S768x768.size inb_S768x1536_S768x768_0_768).toLoadRect (B c))⟩
      : View.Piece (Elt F) S1536x1536 .f32),
    (⟨Rect.unit (s := S1536x1536) (k0_off2 c 2#32) S384x768.size (k0_off2_inb c 1),
        k0_pay7 (aM.view.readAt (Elt F) (Rect.unit (s := S1536x768) (k0_off1 c 2#32) S384x768.size (k0_off1_inb c 1)).toLoadRect (A c))
          (bM.view.readAt (Elt F) (Rect.unit (s := S768x1536) ![0, 0] S768x768.size inb_S768x1536_S768x768_0_0).toLoadRect (B c))⟩
      : View.Piece (Elt F) S1536x1536 .f32),
    (⟨Rect.unit (s := S1536x1536) (k0_off3 c 1#32) S384x768.size (k0_off3_inb c 0),
        k0_pay5 (aM.view.readAt (Elt F) (Rect.unit (s := S1536x768) (k0_off1 c 1#32) S384x768.size (k0_off1_inb c 0)).toLoadRect (A c))
          (bM.view.readAt (Elt F) (Rect.unit (s := S768x1536) ![0, 768] S768x768.size inb_S768x1536_S768x768_0_768).toLoadRect (B c))⟩
      : View.Piece (Elt F) S1536x1536 .f32),
    (⟨Rect.unit (s := S1536x1536) (k0_off2 c 3#32) S384x768.size (k0_off2_inb c 2),
        k0_pay2 (aM.view.readAt (Elt F) (Rect.unit (s := S1536x768) (k0_off1 c 3#32) S384x768.size (k0_off1_inb c 2)).toLoadRect (A c))
          (bM.view.readAt (Elt F) (Rect.unit (s := S768x1536) ![0, 0] S768x768.size inb_S768x1536_S768x768_0_0).toLoadRect (B c))⟩
      : View.Piece (Elt F) S1536x1536 .f32) ]

theorem prodList_agrees (c : Dev nD) :
    ∀ p ∈ prodList A B c, ∀ x : p.1.shape.Idx, p.2 x = Pfull A B c (p.1.emb x) := by
  intro p hp
  simp only [prodList, List.mem_cons, List.mem_singleton, List.not_mem_nil, or_false] at hp
  rcases hp with rfl | rfl | rfl | rfl | rfl | rfl | rfl | rfl
  · exact agrees_pay A B k0_pay12 k0_pay12_eq c (q4 (zi c)) 1 _ ![0, 768] _ (off4_eq c) rfl ((off6_eq c).trans rfl) (k0_off4_inb c) inb_S768x1536_S768x768_0_768 (k0_off6_inb c)
  · exact agrees_pay A B k0_pay11 k0_pay11_eq c (q4 (zi c)) 0 _ ![0, 0] _ (off4_eq c) rfl ((off5_eq c).trans rfl) (k0_off4_inb c) inb_S768x1536_S768x768_0_0 (k0_off5_inb c)
  · exact agrees_pay A B k0_pay10 k0_pay10_eq c (q4 (zi c + 3)) 1 _ ![0, 768] _ (off1_3 c) rfl ((off3_3 c).trans rfl) (k0_off1_inb c 2) inb_S768x1536_S768x768_0_768 (k0_off3_inb c 2)
  · exact agrees_pay A B k0_pay9 k0_pay9_eq c (q4 (zi c + 1)) 0 _ ![0, 0] _ (off1_1 c) rfl ((off2_1 c).trans rfl) (k0_off1_inb c 0) inb_S768x1536_S768x768_0_0 (k0_off2_inb c 0)
  · exact agrees_pay A B k0_pay8 k0_pay8_eq c (q4 (zi c + 2)) 1 _ ![0, 768] _ (off1_2 c) rfl ((off3_2 c).trans rfl) (k0_off1_inb c 1) inb_S768x1536_S768x768_0_768 (k0_off3_inb c 1)
  · exact agrees_pay A B k0_pay7 k0_pay7_eq c (q4 (zi c + 2)) 0 _ ![0, 0] _ (off1_2 c) rfl ((off2_2 c).trans rfl) (k0_off1_inb c 1) inb_S768x1536_S768x768_0_0 (k0_off2_inb c 1)
  · exact agrees_pay A B k0_pay5 k0_pay5_eq c (q4 (zi c + 1)) 1 _ ![0, 768] _ (off1_1 c) rfl ((off3_1 c).trans rfl) (k0_off1_inb c 0) inb_S768x1536_S768x768_0_768 (k0_off3_inb c 0)
  · exact agrees_pay A B k0_pay2 k0_pay2_eq c (q4 (zi c + 3)) 0 _ ![0, 0] _ (off1_3 c) rfl ((off2_3 c).trans rfl) (k0_off1_inb c 2) inb_S768x1536_S768x768_0_0 (k0_off2_inb c 2)
theorem prodList_mem12 (c : Dev nD) : (⟨Rect.unit (s := S1536x1536) (k0_off6 c) S384x768.size (k0_off6_inb c),
        k0_pay12 (aM.view.readAt (Elt F) (Rect.unit (s := S1536x768) (k0_off4 c) S384x768.size (k0_off4_inb c)).toLoadRect (A c))
          (bM.view.readAt (Elt F) (Rect.unit (s := S768x1536) ![0, 768] S768x768.size inb_S768x1536_S768x768_0_768).toLoadRect (B c))⟩
      : View.Piece (Elt F) S1536x1536 .f32) ∈ prodList A B c := List.mem_cons_self
theorem prodList_mem11 (c : Dev nD) : (⟨Rect.unit (s := S1536x1536) (k0_off5 c) S384x768.size (k0_off5_inb c),
        k0_pay11 (aM.view.readAt (Elt F) (Rect.unit (s := S1536x768) (k0_off4 c) S384x768.size (k0_off4_inb c)).toLoadRect (A c))
          (bM.view.readAt (Elt F) (Rect.unit (s := S768x1536) ![0, 0] S768x768.size inb_S768x1536_S768x768_0_0).toLoadRect (B c))⟩
      : View.Piece (Elt F) S1536x1536 .f32) ∈ prodList A B c := List.mem_cons_of_mem _ (List.mem_cons_self)
theorem prodList_mem10 (c : Dev nD) : (⟨Rect.unit (s := S1536x1536) (k0_off3 c 3#32) S384x768.size (k0_off3_inb c 2),
        k0_pay10 (aM.view.readAt (Elt F) (Rect.unit (s := S1536x768) (k0_off1 c 3#32) S384x768.size (k0_off1_inb c 2)).toLoadRect (A c))
          (bM.view.readAt (Elt F) (Rect.unit (s := S768x1536) ![0, 768] S768x768.size inb_S768x1536_S768x768_0_768).toLoadRect (B c))⟩
      : View.Piece (Elt F) S1536x1536 .f32) ∈ prodList A B c := List.mem_cons_of_mem _ (List.mem_cons_of_mem _ (List.mem_cons_self))
theorem prodList_mem9 (c : Dev nD) : (⟨Rect.unit (s := S1536x1536) (k0_off2 c 1#32) S384x768.size (k0_off2_inb c 0),
        k0_pay9 (aM.view.readAt (Elt F) (Rect.unit (s := S1536x768) (k0_off1 c 1#32) S384x768.size (k0_off1_inb c 0)).toLoadRect (A c))
          (bM.view.readAt (Elt F) (Rect.unit (s := S768x1536) ![0, 0] S768x768.size inb_S768x1536_S768x768_0_0).toLoadRect (B c))⟩
      : View.Piece (Elt F) S1536x1536 .f32) ∈ prodList A B c := List.mem_cons_of_mem _ (List.mem_cons_of_mem _ (List.mem_cons_of_mem _ (List.mem_cons_self)))
theorem prodList_mem8 (c : Dev nD) : (⟨Rect.unit (s := S1536x1536) (k0_off3 c 2#32) S384x768.size (k0_off3_inb c 1),
        k0_pay8 (aM.view.readAt (Elt F) (Rect.unit (s := S1536x768) (k0_off1 c 2#32) S384x768.size (k0_off1_inb c 1)).toLoadRect (A c))
          (bM.view.readAt (Elt F) (Rect.unit (s := S768x1536) ![0, 768] S768x768.size inb_S768x1536_S768x768_0_768).toLoadRect (B c))⟩
      : View.Piece (Elt F) S1536x1536 .f32) ∈ prodList A B c := List.mem_cons_of_mem _ (List.mem_cons_of_mem _ (List.mem_cons_of_mem _ (List.mem_cons_of_mem _ (List.mem_cons_self))))
theorem prodList_mem7 (c : Dev nD) : (⟨Rect.unit (s := S1536x1536) (k0_off2 c 2#32) S384x768.size (k0_off2_inb c 1),
        k0_pay7 (aM.view.readAt (Elt F) (Rect.unit (s := S1536x768) (k0_off1 c 2#32) S384x768.size (k0_off1_inb c 1)).toLoadRect (A c))
          (bM.view.readAt (Elt F) (Rect.unit (s := S768x1536) ![0, 0] S768x768.size inb_S768x1536_S768x768_0_0).toLoadRect (B c))⟩
      : View.Piece (Elt F) S1536x1536 .f32) ∈ prodList A B c := List.mem_cons_of_mem _ (List.mem_cons_of_mem _ (List.mem_cons_of_mem _ (List.mem_cons_of_mem _ (List.mem_cons_of_mem _ (List.mem_cons_self)))))
/- A strip of 192 rows of a stored block product, read out of the listed stores, is the protocol's strip. -/
theorem strip_cov (c : Dev nD) (q : Fin 4) (hf s : Fin 2) (off0 off : Fin 2 → Nat) (h0 : off0 = ![384 * q.val, 768 * hf.val])
    (hoff : off = ![384 * q.val + 192 * s.val, 768 * hf.val])
    (inb0 : ∀ a, off0 a + S384x768.size a ≤ S1536x1536.size a) (inb : ∀ a, off a + S192x768.size a ≤ S1536x1536.size a)
    (w : (Rect.unit (s := S1536x1536) off0 S384x768.size inb0).shape.Idx → Elt F .f32)
    (hmem : (⟨Rect.unit (s := S1536x1536) off0 S384x768.size inb0, w⟩ : View.Piece (Elt F) S1536x1536 .f32) ∈ prodList A B c) :
    pM.view.readCov (prodList A B c) (Rect.unit (s := S1536x1536) off S192x768.size inb).toLoadRect = X A B c q hf s :=
  readCov_strip_of_mem A B c (prodList A B c) (prodList_agrees A B c) q hf s off0 off h0 hoff inb0 inb w hmem

theorem strip_at (c : Dev nD) (q : Fin 4) (hf s : Fin 2) (off0 off : Fin 2 → Nat) (h0 : off0 = ![384 * q.val, 768 * hf.val])
    (hoff : off = ![384 * q.val + 192 * s.val, 768 * hf.val])
    (inb0 : ∀ a, off0 a + S384x768.size a ≤ S1536x1536.size a) (inb : ∀ a, off a + S192x768.size a ≤ S1536x1536.size a)
    (w : (Rect.unit (s := S1536x1536) off0 S384x768.size inb0).shape.Idx → Elt F .f32)
    (hmem : (⟨Rect.unit (s := S1536x1536) off0 S384x768.size inb0, w⟩ : View.Piece (Elt F) S1536x1536 .f32) ∈ prodList A B c)
    (f0 : Vec F S1536x1536 .f32) :
    pM.view.readAt (Elt F) (Rect.unit (s := S1536x1536) off S192x768.size inb).toLoadRect (pM.view.writes (Elt F) f0 (prodList A B c))
      = X A B c q hf s :=
  (View.readAt_writes_of_cover pM.view f0 (prodList A B c) _ fun j =>
    ⟨_, hmem, strip_mem q hf s off0 off h0 hoff inb0 inb j⟩).trans (strip_cov A B c q hf s off0 off h0 hoff inb0 inb w hmem)

end List

section Sends
variable (m : Mem F) (ρ : Dev nD → PrngReg)

theorem hop_send_f (c : Dev nD) (hn : ℕ) (s : Fin 2) (k : Fin 4)
    (lf : (cc0_scratch1 : Ref sig .tc).ty.Contents (Elt F))
    (hlf : (cfP k s).view.read (Elt F) lf = VfN (Astg m ρ) (Bstg m ρ) hn (zl c) s)
    (off : Fin 3 → Nat) (hoff : off = pieceOff k s)
    (i1 i2 : ∀ a, off a + S1x192x768.size a ≤ S4x384x768.size a)
    (w : Vec F S1x192x768 .bf16) (x : Vec F S192x768 .f32)
    (hw : shapeCast S192x768 w shapeCasts_S1x192x768_S192x768
        = hopVal ((Memref.whole cc0_scratch1).view.readAt (Elt F) (Rect.unit (s := S4x384x768) off S1x192x768.size i2).toLoadRect lf) x)
    (hx : x = X (Astg m ρ) (Bstg m ρ) c (q4 (zi c + 6 - hn)) 0 s) :
    (cfP k s).view.read (Elt F)
        (View.write (Elt F) ((Memref.whole cc0_scratch1).access (Rect.unit (s := S4x384x768) off S1x192x768.size i1)) lf w Finset.univ)
      = VfN (Astg m ρ) (Bstg m ρ) (hn + 1) c s := by
  subst hoff
  rw [cf_read_write k s rfl i1 lf w, hw]
  exact hopF (Astg m ρ) (Bstg m ρ) c hn s _ x ((cf_read k s lf).symm.trans hlf) hx

theorem hop_send_b (c : Dev nD) (hn : ℕ) (s : Fin 2) (k : Fin 4)
    (lb : (cc0_scratch2 : Ref sig .tc).ty.Contents (Elt F))
    (hlb : (cbP k s).view.read (Elt F) lb = VbN (Astg m ρ) (Bstg m ρ) hn (zr c) s)
    (off : Fin 3 → Nat) (hoff : off = pieceOff k s)
    (i1 i2 : ∀ a, off a + S1x192x768.size a ≤ S4x384x768.size a)
    (w : Vec F S1x192x768 .bf16) (x : Vec F S192x768 .f32)
    (hw : shapeCast S192x768 w shapeCasts_S1x192x768_S192x768
        = hopVal ((Memref.whole cc0_scratch2).view.readAt (Elt F) (Rect.unit (s := S4x384x768) off S1x192x768.size i2).toLoadRect lb) x)
    (hx : x = X (Astg m ρ) (Bstg m ρ) c (q4 (zi c + 2 + hn)) 1 s) :
    (cbP k s).view.read (Elt F)
        (View.write (Elt F) ((Memref.whole cc0_scratch2).access (Rect.unit (s := S4x384x768) off S1x192x768.size i1)) lb w Finset.univ)
      = VbN (Astg m ρ) (Bstg m ρ) (hn + 1) c s := by
  subst hoff
  rw [cb_read_write k s rfl i1 lb w, hw]
  exact hopB (Astg m ρ) (Bstg m ρ) c hn s _ x ((cb_read k s lb).symm.trans hlb) hx

end Sends

end Cert.KernelIdeal.Ring

end
-- ==== Proof.Plane.lean ====
/- The chunk sent o + 1 places on is the receiving place's 48 rows of the plane's sum. -/
import proofs.«900894_g7700000000000895_dist_matmul_mk_i_outk_m1536_n1536_k768_v7x_i32_f32_1_alg».proof.Proof.Inst
import proofs.«900894_g7700000000000895_dist_matmul_mk_i_outk_m1536_n1536_k768_v7x_i32_f32_1_alg».proof.Proof.Offs
import proofs.«900894_g7700000000000895_dist_matmul_mk_i_outk_m1536_n1536_k768_v7x_i32_f32_1_alg».proof.Proof.ReadAt

noncomputable section

namespace Cert.KernelIdeal.Ring

open Cert.KernelIdeal Cert.KernelIdeal.Gen Cert.KernelIdeal.Mesh
open Idealize.ShloMosaic
open Idealize.ShloMosaic.TcCoe
open Idealize.SL.Sem
open Idealize.ShloMosaic.ValueIdx (ix2)

variable {F : FTy → Type} [FloatOps F]

theorem chunk_read_of (c : Dev nD) (o : Fin 7) (f : Vec F S384x1536 .bf16) :
    (chM c o).view.read (Elt F) f
      = fun x : S48x1536.Idx =>
          f (ix2 (⟨48 * ((wi c + o.val + 1) % 8) + (x 0).val, by have h : (x 0).val < 48 := (x 0).isLt; omega⟩ : Fin 384)
            (⟨(x 1).val, (x 1).isLt⟩ : Fin 1536)) := by
  show r1bM.view.readAt (Elt F) (chR c o).toLoadRect f = _
  rw [r1bM_readAt]
  funext x
  have h := off11_r c o
  exact congrArg f (funext fun a => Fin.ext (by
    match a with
    | ⟨0, _⟩ => exact congrArg (· + (x 0).val) (congrFun h 0)
    | ⟨1, _⟩ => exact (congrArg (· + (x 1).val) (congrFun h 1)).trans (Nat.zero_add _)))

theorem chunk_read (m : Mem F) (ρ : Dev nD → PrngReg) (c : Dev nD) (o : Fin 7) :
    (chM c o).view.read (Elt F) (R1bI m ρ c) = VdI m ρ c o :=
  chunk_read_of c o (R1b (Astg m ρ) (Bstg m ρ) c)

end Cert.KernelIdeal.Ring

end
-- ==== Proof.Quarter.lean ====
/- After the ring the device holds its plane's sum of its own row block; the result is that sum's 48 rows plus the seven chunks received. -/
import proofs.«900894_g7700000000000895_dist_matmul_mk_i_outk_m1536_n1536_k768_v7x_i32_f32_1_alg».proof.Proof.HopVals
import proofs.«900894_g7700000000000895_dist_matmul_mk_i_outk_m1536_n1536_k768_v7x_i32_f32_1_alg».proof.Proof.Plane

noncomputable section

namespace Cert.KernelIdeal.Ring

open Cert.KernelIdeal Cert.KernelIdeal.Gen Cert.KernelIdeal.Mesh
open Idealize.ShloMosaic
open Idealize.ShloMosaic.TcCoe
open Idealize.SL.Sem
open Idealize.ShloMosaic.ValueIdx (ix2 idx2_lt0 idx2_lt1)

variable {F : FTy → Type} [FloatOps F]

section Pure
variable (A : Dev nD → Vec F S1536x768 .f32) (B : Dev nD → Vec F S768x1536 .f32)

theorem R1_congr (c : Dev nD) {hf hf' s s' : Fin 2} {i i' : S192x768.Idx}
    (hh : hf.val = hf'.val) (hs : s.val = s'.val) (h0 : (i 0).val = (i' 0).val) (h1 : (i 1).val = (i' 1).val) :
    R1 A B c hf s i = R1 A B c hf' s' i' := by
  obtain rfl : hf = hf' := Fin.ext hh
  obtain rfl : s = s' := Fin.ext hs
  obtain rfl : i = i' := funext fun a => Fin.ext (by
    match a with
    | ⟨0, _⟩ => exact h0
    | ⟨1, _⟩ => exact h1)
  rfl

theorem R1full_at (c : Dev nD) (y : S384x1536.Idx) (hf s : Fin 2) (i : S192x768.Idx)
    (h0 : (y 0).val = 192 * s.val + (i 0).val) (h1 : (y 1).val = 768 * hf.val + (i 1).val) :
    R1full A B c y = R1 A B c hf s i := by
  have hi0 := idx2_lt0 i
  have hi1 := idx2_lt1 i
  exact R1_congr A B c (by show (y 1).val / 768 = hf.val; omega) (by show (y 0).val / 192 = s.val; omega)
    (by show (y 0).val % 192 = (i 0).val; omega) (by show (y 1).val % 768 = (i 1).val; omega)

theorem agrees_last (c : Dev nD) (hf s : Fin 2) (off : Fin 2 → Nat) (hoff : off = ![192 * s.val, 768 * hf.val])
    (inb : ∀ a, off a + S192x768.size a ≤ S384x1536.size a)
    (w : (Rect.unit (s := S384x1536) off S192x768.size inb).shape.Idx → Elt F .f32) (hw : w = R1 A B c hf s)
    (x : (Rect.unit (s := S384x1536) off S192x768.size inb).shape.Idx) :
    w x = R1full A B c ((Rect.unit (s := S384x1536) off S192x768.size inb).emb x) := by
  subst hoff hw
  refine (R1full_at A B c _ hf s x ?_ ?_).symm
  · show 192 * s.val + 1 * (x 0).val = 192 * s.val + (x 0).val; rw [Nat.one_mul]
  · show 768 * hf.val + 1 * (x 1).val = 768 * hf.val + (x 1).val; rw [Nat.one_mul]

theorem quarter_canon (c : Dev nD) (L : List (View.Piece (Elt F) S384x1536 .f32))
    (hL : ∀ p ∈ L, ∀ x : p.1.shape.Idx, p.2 x = R1full A B c (p.1.emb x)) (y : S384x1536.Idx)
    (hy : ∃ p ∈ L, y ∈ p.1.set) : View.canon L y = R1full A B c y :=
  View.canon_apply_of_pieces (R1full A B c) L hL y hy

theorem mem_last (hf s : Fin 2) (off : Fin 2 → Nat) (hoff : off = ![192 * s.val, 768 * hf.val])
    (inb : ∀ a, off a + S192x768.size a ≤ S384x1536.size a) (y : S384x1536.Idx)
    (h0 : 192 * s.val ≤ (y 0).val ∧ (y 0).val < 192 * s.val + 192)
    (h1 : 768 * hf.val ≤ (y 1).val ∧ (y 1).val < 768 * hf.val + 768) :
    y ∈ (Rect.unit (s := S384x1536) off S192x768.size inb).set := by
  subst hoff
  rw [Rect.mem_set_unit]
  intro a
  match a with
  | ⟨0, _⟩ => exact h0
  | ⟨1, _⟩ => exact h1

theorem narrow_of_lists (A : Dev nD → Vec F S1536x768 .f32) (B : Dev nD → Vec F S768x1536 .f32) (c : Dev nD)
    (f4 : Vec F S384x1536 .bf16) (L4 L2 : List (View.Piece (Elt F) S384x1536 .f32))
    (h4 : ∀ p ∈ L4, ∀ x : p.1.shape.Idx, p.2 x = R1full A B c (p.1.emb x))
    (h2 : ∀ p ∈ L2, ∀ x : p.1.shape.Idx, p.2 x = R1full A B c (p.1.emb x))
    (c4 : ∀ y : S384x1536.Idx, ∃ p ∈ L4, y ∈ p.1.set)
    (c2 : ∀ y : S384x1536.Idx, (y 0).val < 192 → ∃ p ∈ L2, y ∈ p.1.set) :
    r1bM.view.writes (Elt F) f4
        [ (⟨Rect.unit (s := S384x1536) ![192, 0] S192x1536.size inb_S384x1536_S192x1536_192_0,
            k0_pay30 (r1M.view.readCov L4
              (Rect.unit (s := S384x1536) ![192, 0] S192x1536.size inb_S384x1536_S192x1536_192_0).toLoadRect)⟩
            : View.Piece (Elt F) S384x1536 .bf16),
          (⟨Rect.unit (s := S384x1536) ![0, 0] S192x1536.size inb_S384x1536_S192x1536_0_0,
            k0_pay26 (r1M.view.readCov L2
              (Rect.unit (s := S384x1536) ![0, 0] S192x1536.size inb_S384x1536_S192x1536_0_0).toLoadRect)⟩
            : View.Piece (Elt F) S384x1536 .bf16) ]
      = R1b A B c := by
  funext y
  have h0 : (y 0).val < 384 := idx2_lt0 y
  have h1 : (y 1).val < 1536 := idx2_lt1 y
  generalize hv4 : r1M.view.readCov L4
      (Rect.unit (s := S384x1536) ![192, 0] S192x1536.size inb_S384x1536_S192x1536_192_0).toLoadRect = v4
  generalize hv2 : r1M.view.readCov L2
      (Rect.unit (s := S384x1536) ![0, 0] S192x1536.size inb_S384x1536_S192x1536_0_0).toLoadRect = v2
  have e4 : ∀ x, v4 x = R1full A B c ((Rect.unit (s := S384x1536) ![192, 0] S192x1536.size inb_S384x1536_S192x1536_192_0).emb x) := by
    intro x
    rw [← hv4]
    exact (congrFun (View.readCov_eq_canon' r1M.view L4 _) x).trans (quarter_canon A B c L4 h4 _ (c4 _))
  have e2 : ∀ x, v2 x = R1full A B c ((Rect.unit (s := S384x1536) ![0, 0] S192x1536.size inb_S384x1536_S192x1536_0_0).emb x) := by
    intro x
    have hx0 : (x 0).val < 192 := (x 0).isLt
    rw [← hv2]
    exact (congrFun (View.readCov_eq_canon' r1M.view L2 _) x).trans
      (quarter_canon A B c L2 h2 _ (c2 _ (by show 0 + 1 * (x 0).val < 192; omega)))
  have hy : ∃ p ∈ ([ (⟨Rect.unit (s := S384x1536) ![192, 0] S192x1536.size inb_S384x1536_S192x1536_192_0, k0_pay30 v4⟩
            : View.Piece (Elt F) S384x1536 .bf16),
          (⟨Rect.unit (s := S384x1536) ![0, 0] S192x1536.size inb_S384x1536_S192x1536_0_0, k0_pay26 v2⟩
            : View.Piece (Elt F) S384x1536 .bf16) ] : List (View.Piece (Elt F) S384x1536 .bf16)), y ∈ p.1.set := by
    by_cases hr : (y 0).val < 192
    · refine ⟨_, List.mem_cons_of_mem _ List.mem_cons_self, ?_⟩
      rw [Rect.mem_set_unit]
      intro a
      match a with
      | ⟨0, _⟩ => exact ⟨Nat.zero_le _, by show (y 0).val < 0 + 192; omega⟩
      | ⟨1, _⟩ => exact ⟨Nat.zero_le _, by show (y 1).val < 0 + 1536; omega⟩
    · refine ⟨_, List.mem_cons_self, ?_⟩
      rw [Rect.mem_set_unit]
      intro a
      match a with
      | ⟨0, _⟩ => exact ⟨by show 192 ≤ (y 0).val; omega, by show (y 0).val < 192 + 192; omega⟩
      | ⟨1, _⟩ => exact ⟨Nat.zero_le _, by show (y 1).val < 0 + 1536; omega⟩
  generalize hLN : ([ (⟨Rect.unit (s := S384x1536) ![192, 0] S192x1536.size inb_S384x1536_S192x1536_192_0, k0_pay30 v4⟩
            : View.Piece (Elt F) S384x1536 .bf16),
          (⟨Rect.unit (s := S384x1536) ![0, 0] S192x1536.size inb_S384x1536_S192x1536_0_0, k0_pay26 v2⟩
            : View.Piece (Elt F) S384x1536 .bf16) ] : List (View.Piece (Elt F) S384x1536 .bf16)) = LN at hy ⊢
  have e1 : r1bM.view.writes (Elt F) f4 LN y = r1bM.view.read (Elt F) (r1bM.view.writes (Elt F) f4 LN) y := rfl
  rw [e1, View.read_writes_apply_eq_canon r1bM.view f4 y LN hy]
  refine View.canon_apply_of_pieces (R1b A B c) LN ?_ y hy
  intro p hp
  rw [← hLN] at hp
  simp only [List.mem_cons, List.mem_singleton, List.not_mem_nil, or_false] at hp
  rcases hp with rfl | rfl
  · intro x
    rw [pay30_eq]
    exact congrArg (FloatOps.truncf .bf16 bitsLt_bf16_f32) (e4 x)
  · intro x
    rw [pay26_eq]
    exact congrArg (FloatOps.truncf .bf16 bitsLt_bf16_f32) (e2 x)

end Pure

section Concrete
variable (m : Mem F) (ρ : Dev nD → PrngReg)

def lastList2 (c : Dev nD) (lf20 : (cc0_scratch1 : Ref sig .tc).ty.Contents (Elt F)) (lb20 : (cc0_scratch2 : Ref sig .tc).ty.Contents (Elt F))
    (L : List (View.Piece (Elt F) S1536x1536 .f32)) : List (View.Piece (Elt F) S384x1536 .f32) :=
  [ (⟨Rect.unit (s := S384x1536) ![0, 768] S192x768.size inb_S384x1536_S192x768_0_768,
        k0_pay25 ((Memref.whole cc0_scratch2).view.readAt (Elt F) (Rect.unit (s := S4x384x768) ![2, 0, 0] S1x192x768.size inb_S4x384x768_S1x192x768_2_0_0).toLoadRect lb20)
          (pM.view.readCov L (Rect.unit (s := S1536x1536) (k0_off10 c 0#32) S192x768.size (k0_off10_inb c 0)).toLoadRect)⟩
      : View.Piece (Elt F) S384x1536 .f32),
    (⟨Rect.unit (s := S384x1536) ![0, 0] S192x768.size inb_S384x1536_S192x768_0_0,
        k0_pay24 (k0_pay23 ((Memref.whole cc0_scratch1).view.readAt (Elt F) (Rect.unit (s := S4x384x768) ![2, 0, 0] S1x192x768.size inb_S4x384x768_S1x192x768_2_0_0).toLoadRect lf20)
          (pM.view.readCov L (Rect.unit (s := S1536x1536) (k0_off9 c 0#32) S192x768.size (k0_off9_inb c 0)).toLoadRect))⟩
      : View.Piece (Elt F) S384x1536 .f32) ]

def lastList4 (c : Dev nD) (lf20 : (cc0_scratch1 : Ref sig .tc).ty.Contents (Elt F)) (lb20 : (cc0_scratch2 : Ref sig .tc).ty.Contents (Elt F))
    (lf21 : (cc0_scratch1 : Ref sig .tc).ty.Contents (Elt F)) (lb21 : (cc0_scratch2 : Ref sig .tc).ty.Contents (Elt F))
    (L : List (View.Piece (Elt F) S1536x1536 .f32)) : List (View.Piece (Elt F) S384x1536 .f32) :=
  (⟨Rect.unit (s := S384x1536) ![192, 768] S192x768.size inb_S384x1536_S192x768_192_768,
        k0_pay29 ((Memref.whole cc0_scratch2).view.readAt (Elt F) (Rect.unit (s := S4x384x768) ![2, 192, 0] S1x192x768.size inb_S4x384x768_S1x192x768_2_192_0).toLoadRect lb21)
          (pM.view.readCov L (Rect.unit (s := S1536x1536) (k0_off10 c 192#32) S192x768.size (k0_off10_inb c 1)).toLoadRect)⟩
      : View.Piece (Elt F) S384x1536 .f32) ::
    (⟨Rect.unit (s := S384x1536) ![192, 0] S192x768.size inb_S384x1536_S192x768_192_0,
        k0_pay28 (k0_pay27 ((Memref.whole cc0_scratch1).view.readAt (Elt F) (Rect.unit (s := S4x384x768) ![2, 192, 0] S1x192x768.size inb_S4x384x768_S1x192x768_2_192_0).toLoadRect lf21))
          (pM.view.readCov L (Rect.unit (s := S1536x1536) (k0_off9 c 192#32) S192x768.size (k0_off9_inb c 1)).toLoadRect)⟩
      : View.Piece (Elt F) S384x1536 .f32) ::
    lastList2 c lf20 lb20 L

variable (c : Dev nD)
  (lf20 : (cc0_scratch1 : Ref sig .tc).ty.Contents (Elt F)) (lb20 : (cc0_scratch2 : Ref sig .tc).ty.Contents (Elt F))
  (lf21 : (cc0_scratch1 : Ref sig .tc).ty.Contents (Elt F)) (lb21 : (cc0_scratch2 : Ref sig .tc).ty.Contents (Elt F))
  (hlf20 : (cfP 2 0).view.read (Elt F) lf20 = VfI m ρ (zl c) 2 0) (hlb20 : (cbP 2 0).view.read (Elt F) lb20 = VbI m ρ (zr c) 2 0)
  (hlf21 : (cfP 2 1).view.read (Elt F) lf21 = VfI m ρ (zl c) 2 1) (hlb21 : (cbP 2 1).view.read (Elt F) lb21 = VbI m ρ (zr c) 2 1)

include hlf20 hlb20 in
theorem lastList2_agrees :
    ∀ p ∈ lastList2 c lf20 lb20 (prodList (Astg m ρ) (Bstg m ρ) c), ∀ x : p.1.shape.Idx,
      p.2 x = R1full (Astg m ρ) (Bstg m ρ) c (p.1.emb x) := by
  intro p hp
  simp only [lastList2, List.mem_cons, List.mem_singleton, List.not_mem_nil, or_false] at hp
  rcases hp with rfl | rfl
  · exact agrees_last (Astg m ρ) (Bstg m ρ) c 1 0 _ rfl inb_S384x1536_S192x768_0_768 _
      ((pay25_eq _ _).trans (lastB (Astg m ρ) (Bstg m ρ) c 0 _ _ ((cb_read 2 0 lb20).symm.trans hlb20)
        (strip_cov (Astg m ρ) (Bstg m ρ) c (q4 (zi c)) 1 0 _ _ (strip10_0_cov c) (strip10_0_off c) (k0_off6_inb c) (k0_off10_inb c 0) _ (prodList_mem12 _ _ c))))
  · exact agrees_last (Astg m ρ) (Bstg m ρ) c 0 0 _ rfl inb_S384x1536_S192x768_0_0 _
      ((pay24_23 _ _).trans (lastF (Astg m ρ) (Bstg m ρ) c 0 _ _ ((cf_read 2 0 lf20).symm.trans hlf20)
        (strip_cov (Astg m ρ) (Bstg m ρ) c (q4 (zi c)) 0 0 _ _ (strip9_0_cov c) (strip9_0_off c) (k0_off5_inb c) (k0_off9_inb c 0) _ (prodList_mem11 _ _ c))))

include hlf20 hlb20 hlf21 hlb21 in
theorem lastList4_agrees :
    ∀ p ∈ lastList4 c lf20 lb20 lf21 lb21 (prodList (Astg m ρ) (Bstg m ρ) c), ∀ x : p.1.shape.Idx,
      p.2 x = R1full (Astg m ρ) (Bstg m ρ) c (p.1.emb x) := by
  intro p hp
  rcases List.mem_cons.mp hp with rfl | hp
  · exact agrees_last (Astg m ρ) (Bstg m ρ) c 1 1 _ rfl inb_S384x1536_S192x768_192_768 _
      ((pay29_eq _ _).trans (lastB (Astg m ρ) (Bstg m ρ) c 1 _ _ ((cb_read 2 1 lb21).symm.trans hlb21)
        (strip_cov (Astg m ρ) (Bstg m ρ) c (q4 (zi c)) 1 1 _ _ (strip10_1_cov c) (strip10_1_off c) (k0_off6_inb c) (k0_off10_inb c 1) _ (prodList_mem12 _ _ c))))
  rcases List.mem_cons.mp hp with rfl | hp
  · exact agrees_last (Astg m ρ) (Bstg m ρ) c 0 1 _ rfl inb_S384x1536_S192x768_192_0 _
      ((pay28_27 _ _).trans (lastF (Astg m ρ) (Bstg m ρ) c 1 _ _ ((cf_read 2 1 lf21).symm.trans hlf21)
        (strip_cov (Astg m ρ) (Bstg m ρ) c (q4 (zi c)) 0 1 _ _ (strip9_1_cov c) (strip9_1_off c) (k0_off5_inb c) (k0_off9_inb c 1) _ (prodList_mem11 _ _ c))))
  · exact lastList2_agrees m ρ c lf20 lb20 hlf20 hlb20 p hp

end Concrete

section Final
variable (m : Mem F) (ρ : Dev nD → PrngReg) (c : Dev nD)
  (lf20 : (cc0_scratch1 : Ref sig .tc).ty.Contents (Elt F)) (lb20 : (cc0_scratch2 : Ref sig .tc).ty.Contents (Elt F))
  (lf21 : (cc0_scratch1 : Ref sig .tc).ty.Contents (Elt F)) (lb21 : (cc0_scratch2 : Ref sig .tc).ty.Contents (Elt F))
  (hlf20 : (cfP 2 0).view.read (Elt F) lf20 = VfI m ρ (zl c) 2 0) (hlb20 : (cbP 2 0).view.read (Elt F) lb20 = VbI m ρ (zr c) 2 0)
  (hlf21 : (cfP 2 1).view.read (Elt F) lf21 = VfI m ρ (zl c) 2 1) (hlb21 : (cbP 2 1).view.read (Elt F) lb21 = VbI m ρ (zr c) 2 1)

theorem lastList2_cover (L : List (View.Piece (Elt F) S1536x1536 .f32)) (y : S384x1536.Idx) (h : (y 0).val < 192) :
    ∃ p ∈ lastList2 c lf20 lb20 L, y ∈ p.1.set := by
  have h1 : (y 1).val < 1536 := idx2_lt1 y
  by_cases hc : (y 1).val < 768
  · exact ⟨_, List.mem_cons_of_mem _ List.mem_cons_self,
      mem_last 0 0 _ rfl inb_S384x1536_S192x768_0_0 y ⟨by show 192 * 0 ≤ _; omega, by show _ < 192 * 0 + 192; omega⟩
        ⟨by show 768 * 0 ≤ _; omega, by show _ < 768 * 0 + 768; omega⟩⟩
  · exact ⟨_, List.mem_cons_self,
      mem_last 1 0 _ rfl inb_S384x1536_S192x768_0_768 y ⟨by show 192 * 0 ≤ _; omega, by show _ < 192 * 0 + 192; omega⟩
        ⟨by show 768 * 1 ≤ _; omega, by show _ < 768 * 1 + 768; omega⟩⟩

theorem lastList4_cover (L : List (View.Piece (Elt F) S1536x1536 .f32)) (y : S384x1536.Idx) :
    ∃ p ∈ lastList4 c lf20 lb20 lf21 lb21 L, y ∈ p.1.set := by
  have h0 : (y 0).val < 384 := idx2_lt0 y
  have h1 : (y 1).val < 1536 := idx2_lt1 y
  by_cases hr : (y 0).val < 192
  · obtain ⟨p, hp, hy⟩ := lastList2_cover c lf20 lb20 L y hr
    exact ⟨p, List.mem_cons_of_mem _ (List.mem_cons_of_mem _ hp), hy⟩
  by_cases hc : (y 1).val < 768
  · exact ⟨_, List.mem_cons_of_mem _ List.mem_cons_self,
      mem_last 0 1 _ rfl inb_S384x1536_S192x768_192_0 y ⟨by show 192 * 1 ≤ _; omega, by show _ < 192 * 1 + 192; omega⟩
        ⟨by show 768 * 0 ≤ _; omega, by show _ < 768 * 0 + 768; omega⟩⟩
  · exact ⟨_, List.mem_cons_self,
      mem_last 1 1 _ rfl inb_S384x1536_S192x768_192_768 y ⟨by show 192 * 1 ≤ _; omega, by show _ < 192 * 1 + 192; omega⟩
        ⟨by show 768 * 1 ≤ _; omega, by show _ < 768 * 1 + 768; omega⟩⟩

include hlf20 hlb20 hlf21 hlb21 in
theorem quarter_writes (g : Vec F S384x1536 .f32) :
    r1M.view.writes (Elt F) g (lastList4 c lf20 lb20 lf21 lb21 (prodList (Astg m ρ) (Bstg m ρ) c))
      = R1full (Astg m ρ) (Bstg m ρ) c := by
  funext y
  have hag := lastList4_agrees m ρ c lf20 lb20 lf21 lb21 hlf20 hlb20 hlf21 hlb21
  have hy := lastList4_cover c lf20 lb20 lf21 lb21 (prodList (Astg m ρ) (Bstg m ρ) c) y
  generalize lastList4 c lf20 lb20 lf21 lb21 (prodList (Astg m ρ) (Bstg m ρ) c) = LL at hag hy ⊢
  have e1 : r1M.view.writes (Elt F) g LL y = r1M.view.read (Elt F) (r1M.view.writes (Elt F) g LL) y := rfl
  rw [e1, View.read_writes_apply_eq_canon r1M.view g y LL hy]
  exact quarter_canon (Astg m ρ) (Bstg m ρ) c LL hag y hy

include hlf20 hlb20 hlf21 hlb21 in
theorem quarter_eq (f4 : Vec F S384x1536 .bf16) (L : List (View.Piece (Elt F) S1536x1536 .f32))
    (hL : L = prodList (Astg m ρ) (Bstg m ρ) c) :
    r1bM.view.writes (Elt F) f4
        [ (⟨Rect.unit (s := S384x1536) ![192, 0] S192x1536.size inb_S384x1536_S192x1536_192_0,
            k0_pay30 (r1M.view.readCov (lastList4 c lf20 lb20 lf21 lb21 L)
              (Rect.unit (s := S384x1536) ![192, 0] S192x1536.size inb_S384x1536_S192x1536_192_0).toLoadRect)⟩
            : View.Piece (Elt F) S384x1536 .bf16),
          (⟨Rect.unit (s := S384x1536) ![0, 0] S192x1536.size inb_S384x1536_S192x1536_0_0,
            k0_pay26 (r1M.view.readCov (lastList2 c lf20 lb20 L)
              (Rect.unit (s := S384x1536) ![0, 0] S192x1536.size inb_S384x1536_S192x1536_0_0).toLoadRect)⟩
            : View.Piece (Elt F) S384x1536 .bf16) ]
      = R1bI m ρ c := by
  subst hL
  exact narrow_of_lists (Astg m ρ) (Bstg m ρ) c f4 _ _
    (lastList4_agrees m ρ c lf20 lb20 lf21 lb21 hlf20 hlb20 hlf21 hlb21)
    (lastList2_agrees m ρ c lf20 lb20 hlf20 hlb20)
    (lastList4_cover c lf20 lb20 lf21 lb21 _)
    (lastList2_cover c lf20 lb20 _)

end Final

section Out
variable (m : Mem F) (ρ : Dev nD → PrngReg) (c : Dev nD)

theorem out_writes_top (g2 w : Vec F S48x1536 .f32) (T : List (View.Piece (Elt F) S48x1536 .f32))
    (inb : ∀ a, (![0, 0] : Fin 2 → Nat) a + S48x1536.size a ≤ S48x1536.size a) :
    oM.view.writes (Elt F) g2 ((⟨Rect.unit (s := S48x1536) ![0, 0] S48x1536.size inb, w⟩ : View.Piece (Elt F) S48x1536 .f32) :: T) = w :=
  Memref.write_access_unit_zero_univ (Elt F) cc0_stg2_0
    (funext fun a => by
      match a with
      | ⟨0, _⟩ => rfl
      | ⟨1, _⟩ => rfl) inb _ w

theorem out_s_base (g : Vec F S384x1536 .f32)
    (lf20 : (cc0_scratch1 : Ref sig .tc).ty.Contents (Elt F)) (lb20 : (cc0_scratch2 : Ref sig .tc).ty.Contents (Elt F))
    (lf21 : (cc0_scratch1 : Ref sig .tc).ty.Contents (Elt F)) (lb21 : (cc0_scratch2 : Ref sig .tc).ty.Contents (Elt F))
    (hlf20 : (cfP 2 0).view.read (Elt F) lf20 = VfI m ρ (zl c) 2 0) (hlb20 : (cbP 2 0).view.read (Elt F) lb20 = VbI m ρ (zr c) 2 0)
    (hlf21 : (cfP 2 1).view.read (Elt F) lf21 = VfI m ρ (zl c) 2 1) (hlb21 : (cbP 2 1).view.read (Elt F) lb21 = VbI m ρ (zr c) 2 1)
    (L : List (View.Piece (Elt F) S1536x1536 .f32)) (hL : L = prodList (Astg m ρ) (Bstg m ρ) c)
    (inb : ∀ a, k0_off12 c a + S48x1536.size a ≤ S384x1536.size a) :
    r1M.view.readAt (Elt F) (Rect.unit (s := S384x1536) (k0_off12 c) S48x1536.size inb).toLoadRect
        (r1M.view.writes (Elt F) g (lastList4 c lf20 lb20 lf21 lb21 L))
      = outN (Astg m ρ) (Bstg m ρ) 0 c := by
  subst hL
  rw [quarter_writes m ρ c lf20 lb20 lf21 lb21 hlf20 hlb20 hlf21 hlb21 g, r1M_readAt]
  funext x
  have h := off12_eq c
  exact congrArg (R1full (Astg m ρ) (Bstg m ρ) c) (funext fun a => Fin.ext (by
    match a with
    | ⟨0, _⟩ => exact congrArg (· + (x 0).val) (congrFun h 0)
    | ⟨1, _⟩ => exact (congrArg (· + (x 1).val) (congrFun h 1)).trans (Nat.zero_add _)))

theorem out_step (o : Fin 7) (p : Vec F S48x1536 .f32 → Vec F S1x48x1536 .bf16 → Vec F S48x1536 .f32)
    (hp : ∀ v w, p v w = addf v (extf .f32 (recvD w) bitsLt_bf16_f32))
    (T : List (View.Piece (Elt F) S48x1536 .f32)) (w : Vec F S48x1536 .f32)
    (hw : w = outN (Astg m ρ) (Bstg m ρ) o.val c)
    (ld : (cc0_scratch5 : Ref sig .tc).ty.Contents (Elt F))
    (hld : (cdP o).view.read (Elt F) ld = VdI m ρ (inp (7 - o.val) c) o)
    (i1 i2 : ∀ a, (![0, 0] : Fin 2 → Nat) a + S48x1536.size a ≤ S48x1536.size a)
    (i3 : ∀ a, (![o.val, 0, 0] : Fin 3 → Nat) a + S1x48x1536.size a ≤ S7x48x1536.size a) :
    p (oM.view.readCov ((⟨Rect.unit (s := S48x1536) ![0, 0] S48x1536.size i1, w⟩ : View.Piece (Elt F) S48x1536 .f32) :: T) (Rect.unit (s := S48x1536) ![0, 0] S48x1536.size i2).toLoadRect) ((Memref.whole cc0_scratch5).view.readAt (Elt F) (Rect.unit (s := S7x48x1536) ![o.val, 0, 0] S1x48x1536.size i3).toLoadRect ld) = outN (Astg m ρ) (Bstg m ρ) (o.val + 1) c := by
  rw [hp, View.readCov_cons_toLoadRect]
  exact planeStep (Astg m ρ) (Bstg m ρ) c o.val o.isLt w _ hw ((cd_read o ld).symm.trans hld)

theorem out_final (g2 w : Vec F S48x1536 .f32) (T : List (View.Piece (Elt F) S48x1536 .f32))
    (hw : w = outN (Astg m ρ) (Bstg m ρ) 7 c)
    (inb : ∀ a, (![0, 0] : Fin 2 → Nat) a + S48x1536.size a ≤ S48x1536.size a) :
    oM.view.writes (Elt F) g2 ((⟨Rect.unit (s := S48x1536) ![0, 0] S48x1536.size inb, w⟩ : View.Piece (Elt F) S48x1536 .f32) :: T)
      = outI m ρ c :=
  (out_writes_top g2 w T inb).trans hw

end Out

section Chain
variable (m : Mem F) (ρ : Dev nD → PrngReg)
variable (c : Dev nD) (lf20 : (cc0_scratch1 : Ref sig .tc).ty.Contents (Elt F)) (lb20 : (cc0_scratch2 : Ref sig .tc).ty.Contents (Elt F)) (lf21 : (cc0_scratch1 : Ref sig .tc).ty.Contents (Elt F)) (lb21 : (cc0_scratch2 : Ref sig .tc).ty.Contents (Elt F))
  (hlf20 : (cfP 2 0).view.read (Elt F) lf20 = VfI m ρ (zl c) 2 0) (hlb20 : (cbP 2 0).view.read (Elt F) lb20 = VbI m ρ (zr c) 2 0)
  (hlf21 : (cfP 2 1).view.read (Elt F) lf21 = VfI m ρ (zl c) 2 1) (hlb21 : (cbP 2 1).view.read (Elt F) lb21 = VbI m ρ (zr c) 2 1)
  (ld0 : (cc0_scratch5 : Ref sig .tc).ty.Contents (Elt F)) (ld1 : (cc0_scratch5 : Ref sig .tc).ty.Contents (Elt F)) (ld2 : (cc0_scratch5 : Ref sig .tc).ty.Contents (Elt F)) (ld3 : (cc0_scratch5 : Ref sig .tc).ty.Contents (Elt F)) (ld4 : (cc0_scratch5 : Ref sig .tc).ty.Contents (Elt F)) (ld5 : (cc0_scratch5 : Ref sig .tc).ty.Contents (Elt F)) (ld6 : (cc0_scratch5 : Ref sig .tc).ty.Contents (Elt F))
  (hld0 : (cdP 0).view.read (Elt F) ld0 = VdI m ρ (inp (7 - 0) c) 0)
  (hld1 : (cdP 1).view.read (Elt F) ld1 = VdI m ρ (inp (7 - 1) c) 1)
  (hld2 : (cdP 2).view.read (Elt F) ld2 = VdI m ρ (inp (7 - 2) c) 2)
  (hld3 : (cdP 3).view.read (Elt F) ld3 = VdI m ρ (inp (7 - 3) c) 3)
  (hld4 : (cdP 4).view.read (Elt F) ld4 = VdI m ρ (inp (7 - 4) c) 4)
  (hld5 : (cdP 5).view.read (Elt F) ld5 = VdI m ρ (inp (7 - 5) c) 5)
  (hld6 : (cdP 6).view.read (Elt F) ld6 = VdI m ρ (inp (7 - 6) c) 6)

def oW0 : Vec F S48x1536 .f32 :=
  r1M.view.readAt (Elt F) (Rect.unit (s := S384x1536) (k0_off12 c) S48x1536.size (k0_off12_inb c)).toLoadRect
    (r1M.view.writes (Elt F) r1M.view.junk (lastList4 c lf20 lb20 lf21 lb21 (prodList (Astg m ρ) (Bstg m ρ) c)))
def oL0 : List (View.Piece (Elt F) S48x1536 .f32) :=
  [(⟨Rect.unit (s := S48x1536) ![0, 0] S48x1536.size inb_S48x1536_S48x1536_0_0, oW0 m ρ c lf20 lb20 lf21 lb21⟩ : View.Piece (Elt F) S48x1536 .f32)]
def oW1 : Vec F S48x1536 .f32 :=
  k0_pay31 (oM.view.readCov (oL0 m ρ c lf20 lb20 lf21 lb21) (Rect.unit (s := S48x1536) ![0, 0] S48x1536.size inb_S48x1536_S48x1536_0_0).toLoadRect) ((Memref.whole cc0_scratch5).view.readAt (Elt F) (Rect.unit (s := S7x48x1536) ![0, 0, 0] S1x48x1536.size inb_S7x48x1536_S1x48x1536_0_0_0).toLoadRect ld0)
def oL1 : List (View.Piece (Elt F) S48x1536 .f32) :=
  (⟨Rect.unit (s := S48x1536) ![0, 0] S48x1536.size inb_S48x1536_S48x1536_0_0, oW1 m ρ c lf20 lb20 lf21 lb21 ld0⟩ : View.Piece (Elt F) S48x1536 .f32) :: oL0 m ρ c lf20 lb20 lf21 lb21
def oW2 : Vec F S48x1536 .f32 :=
  k0_pay33 (k0_pay32 (oM.view.readCov (oL1 m ρ c lf20 lb20 lf21 lb21 ld0) (Rect.unit (s := S48x1536) ![0, 0] S48x1536.size inb_S48x1536_S48x1536_0_0).toLoadRect)) ((Memref.whole cc0_scratch5).view.readAt (Elt F) (Rect.unit (s := S7x48x1536) ![1, 0, 0] S1x48x1536.size inb_S7x48x1536_S1x48x1536_1_0_0).toLoadRect ld1)
def oL2 : List (View.Piece (Elt F) S48x1536 .f32) :=
  (⟨Rect.unit (s := S48x1536) ![0, 0] S48x1536.size inb_S48x1536_S48x1536_0_0, oW2 m ρ c lf20 lb20 lf21 lb21 ld0 ld1⟩ : View.Piece (Elt F) S48x1536 .f32) :: oL1 m ρ c lf20 lb20 lf21 lb21 ld0
def oW3 : Vec F S48x1536 .f32 :=
  k0_pay34 (oM.view.readCov (oL2 m ρ c lf20 lb20 lf21 lb21 ld0 ld1) (Rect.unit (s := S48x1536) ![0, 0] S48x1536.size inb_S48x1536_S48x1536_0_0).toLoadRect) ((Memref.whole cc0_scratch5).view.readAt (Elt F) (Rect.unit (s := S7x48x1536) ![2, 0, 0] S1x48x1536.size inb_S7x48x1536_S1x48x1536_2_0_0).toLoadRect ld2)
def oL3 : List (View.Piece (Elt F) S48x1536 .f32) :=
  (⟨Rect.unit (s := S48x1536) ![0, 0] S48x1536.size inb_S48x1536_S48x1536_0_0, oW3 m ρ c lf20 lb20 lf21 lb21 ld0 ld1 ld2⟩ : View.Piece (Elt F) S48x1536 .f32) :: oL2 m ρ c lf20 lb20 lf21 lb21 ld0 ld1
def oW4 : Vec F S48x1536 .f32 :=
  k0_pay35 (oM.view.readCov (oL3 m ρ c lf20 lb20 lf21 lb21 ld0 ld1 ld2) (Rect.unit (s := S48x1536) ![0, 0] S48x1536.size inb_S48x1536_S48x1536_0_0).toLoadRect) ((Memref.whole cc0_scratch5).view.readAt (Elt F) (Rect.unit (s := S7x48x1536) ![3, 0, 0] S1x48x1536.size inb_S7x48x1536_S1x48x1536_3_0_0).toLoadRect ld3)
def oL4 : List (View.Piece (Elt F) S48x1536 .f32) :=
  (⟨Rect.unit (s := S48x1536) ![0, 0] S48x1536.size inb_S48x1536_S48x1536_0_0, oW4 m ρ c lf20 lb20 lf21 lb21 ld0 ld1 ld2 ld3⟩ : View.Piece (Elt F) S48x1536 .f32) :: oL3 m ρ c lf20 lb20 lf21 lb21 ld0 ld1 ld2
def oW5 : Vec F S48x1536 .f32 :=
  k0_pay36 (oM.view.readCov (oL4 m ρ c lf20 lb20 lf21 lb21 ld0 ld1 ld2 ld3) (Rect.unit (s := S48x1536) ![0, 0] S48x1536.size inb_S48x1536_S48x1536_0_0).toLoadRect) ((Memref.whole cc0_scratch5).view.readAt (Elt F) (Rect.unit (s := S7x48x1536) ![4, 0, 0] S1x48x1536.size inb_S7x48x1536_S1x48x1536_4_0_0).toLoadRect ld4)
def oL5 : List (View.Piece (Elt F) S48x1536 .f32) :=
  (⟨Rect.unit (s := S48x1536) ![0, 0] S48x1536.size inb_S48x1536_S48x1536_0_0, oW5 m ρ c lf20 lb20 lf21 lb21 ld0 ld1 ld2 ld3 ld4⟩ : View.Piece (Elt F) S48x1536 .f32) :: oL4 m ρ c lf20 lb20 lf21 lb21 ld0 ld1 ld2 ld3
def oW6 : Vec F S48x1536 .f32 :=
  k0_pay37 (oM.view.readCov (oL5 m ρ c lf20 lb20 lf21 lb21 ld0 ld1 ld2 ld3 ld4) (Rect.unit (s := S48x1536) ![0, 0] S48x1536.size inb_S48x1536_S48x1536_0_0).toLoadRect) ((Memref.whole cc0_scratch5).view.readAt (Elt F) (Rect.unit (s := S7x48x1536) ![5, 0, 0] S1x48x1536.size inb_S7x48x1536_S1x48x1536_5_0_0).toLoadRect ld5)
def oL6 : List (View.Piece (Elt F) S48x1536 .f32) :=
  (⟨Rect.unit (s := S48x1536) ![0, 0] S48x1536.size inb_S48x1536_S48x1536_0_0, oW6 m ρ c lf20 lb20 lf21 lb21 ld0 ld1 ld2 ld3 ld4 ld5⟩ : View.Piece (Elt F) S48x1536 .f32) :: oL5 m ρ c lf20 lb20 lf21 lb21 ld0 ld1 ld2 ld3 ld4
def oW7 : Vec F S48x1536 .f32 :=
  k0_pay1 (oM.view.readCov (oL6 m ρ c lf20 lb20 lf21 lb21 ld0 ld1 ld2 ld3 ld4 ld5) (Rect.unit (s := S48x1536) ![0, 0] S48x1536.size inb_S48x1536_S48x1536_0_0).toLoadRect) ((Memref.whole cc0_scratch5).view.readAt (Elt F) (Rect.unit (s := S7x48x1536) ![6, 0, 0] S1x48x1536.size inb_S7x48x1536_S1x48x1536_6_0_0).toLoadRect ld6)
def oL7 : List (View.Piece (Elt F) S48x1536 .f32) :=
  (⟨Rect.unit (s := S48x1536) ![0, 0] S48x1536.size inb_S48x1536_S48x1536_0_0, oW7 m ρ c lf20 lb20 lf21 lb21 ld0 ld1 ld2 ld3 ld4 ld5 ld6⟩ : View.Piece (Elt F) S48x1536 .f32) :: oL6 m ρ c lf20 lb20 lf21 lb21 ld0 ld1 ld2 ld3 ld4 ld5

include hlf20 hlb20 hlf21 hlb21 in
theorem oW0_eq : oW0 m ρ c lf20 lb20 lf21 lb21 = outN (Astg m ρ) (Bstg m ρ) 0 c :=
  out_s_base m ρ c _ lf20 lb20 lf21 lb21 hlf20 hlb20 hlf21 hlb21 _ rfl (k0_off12_inb c)
include hlf20 hlb20 hlf21 hlb21 hld0 in
theorem oW1_eq : oW1 m ρ c lf20 lb20 lf21 lb21 ld0 = outN (Astg m ρ) (Bstg m ρ) 1 c :=
  out_step m ρ c 0 k0_pay31 pay31_eq [] _ (oW0_eq m ρ c lf20 lb20 lf21 lb21 hlf20 hlb20 hlf21 hlb21) ld0 hld0 inb_S48x1536_S48x1536_0_0 inb_S48x1536_S48x1536_0_0 inb_S7x48x1536_S1x48x1536_0_0_0
include hlf20 hlb20 hlf21 hlb21 hld0 hld1 in
theorem oW2_eq : oW2 m ρ c lf20 lb20 lf21 lb21 ld0 ld1 = outN (Astg m ρ) (Bstg m ρ) 2 c :=
  out_step m ρ c 1 (fun v w => k0_pay33 (k0_pay32 v) w) (fun v w => by rw [pay32_eq, pay33_eq]) (oL0 m ρ c lf20 lb20 lf21 lb21) _ (oW1_eq m ρ c lf20 lb20 lf21 lb21 hlf20 hlb20 hlf21 hlb21 ld0 hld0) ld1 hld1 inb_S48x1536_S48x1536_0_0 inb_S48x1536_S48x1536_0_0 inb_S7x48x1536_S1x48x1536_1_0_0
include hlf20 hlb20 hlf21 hlb21 hld0 hld1 hld2 in
theorem oW3_eq : oW3 m ρ c lf20 lb20 lf21 lb21 ld0 ld1 ld2 = outN (Astg m ρ) (Bstg m ρ) 3 c :=
  out_step m ρ c 2 k0_pay34 pay34_eq (oL1 m ρ c lf20 lb20 lf21 lb21 ld0) _ (oW2_eq m ρ c lf20 lb20 lf21 lb21 hlf20 hlb20 hlf21 hlb21 ld0 ld1 hld0 hld1) ld2 hld2 inb_S48x1536_S48x1536_0_0 inb_S48x1536_S48x1536_0_0 inb_S7x48x1536_S1x48x1536_2_0_0
include hlf20 hlb20 hlf21 hlb21 hld0 hld1 hld2 hld3 in
theorem oW4_eq : oW4 m ρ c lf20 lb20 lf21 lb21 ld0 ld1 ld2 ld3 = outN (Astg m ρ) (Bstg m ρ) 4 c :=
  out_step m ρ c 3 k0_pay35 pay35_eq (oL2 m ρ c lf20 lb20 lf21 lb21 ld0 ld1) _ (oW3_eq m ρ c lf20 lb20 lf21 lb21 hlf20 hlb20 hlf21 hlb21 ld0 ld1 ld2 hld0 hld1 hld2) ld3 hld3 inb_S48x1536_S48x1536_0_0 inb_S48x1536_S48x1536_0_0 inb_S7x48x1536_S1x48x1536_3_0_0
include hlf20 hlb20 hlf21 hlb21 hld0 hld1 hld2 hld3 hld4 in
theorem oW5_eq : oW5 m ρ c lf20 lb20 lf21 lb21 ld0 ld1 ld2 ld3 ld4 = outN (Astg m ρ) (Bstg m ρ) 5 c :=
  out_step m ρ c 4 k0_pay36 pay36_eq (oL3 m ρ c lf20 lb20 lf21 lb21 ld0 ld1 ld2) _ (oW4_eq m ρ c lf20 lb20 lf21 lb21 hlf20 hlb20 hlf21 hlb21 ld0 ld1 ld2 ld3 hld0 hld1 hld2 hld3) ld4 hld4 inb_S48x1536_S48x1536_0_0 inb_S48x1536_S48x1536_0_0 inb_S7x48x1536_S1x48x1536_4_0_0
include hlf20 hlb20 hlf21 hlb21 hld0 hld1 hld2 hld3 hld4 hld5 in
theorem oW6_eq : oW6 m ρ c lf20 lb20 lf21 lb21 ld0 ld1 ld2 ld3 ld4 ld5 = outN (Astg m ρ) (Bstg m ρ) 6 c :=
  out_step m ρ c 5 k0_pay37 pay37_eq (oL4 m ρ c lf20 lb20 lf21 lb21 ld0 ld1 ld2 ld3) _ (oW5_eq m ρ c lf20 lb20 lf21 lb21 hlf20 hlb20 hlf21 hlb21 ld0 ld1 ld2 ld3 ld4 hld0 hld1 hld2 hld3 hld4) ld5 hld5 inb_S48x1536_S48x1536_0_0 inb_S48x1536_S48x1536_0_0 inb_S7x48x1536_S1x48x1536_5_0_0
include hlf20 hlb20 hlf21 hlb21 hld0 hld1 hld2 hld3 hld4 hld5 hld6 in
theorem oW7_eq : oW7 m ρ c lf20 lb20 lf21 lb21 ld0 ld1 ld2 ld3 ld4 ld5 ld6 = outN (Astg m ρ) (Bstg m ρ) 7 c :=
  out_step m ρ c 6 k0_pay1 pay1_eq (oL5 m ρ c lf20 lb20 lf21 lb21 ld0 ld1 ld2 ld3 ld4) _ (oW6_eq m ρ c lf20 lb20 lf21 lb21 hlf20 hlb20 hlf21 hlb21 ld0 ld1 ld2 ld3 ld4 ld5 hld0 hld1 hld2 hld3 hld4 hld5) ld6 hld6 inb_S48x1536_S48x1536_0_0 inb_S48x1536_S48x1536_0_0 inb_S7x48x1536_S1x48x1536_6_0_0

include hlf20 hlb20 hlf21 hlb21 hld0 hld1 hld2 hld3 hld4 hld5 hld6 in
theorem out_all (g2 : Vec F S48x1536 .f32) :
    oM.view.writes (Elt F) g2 (oL7 m ρ c lf20 lb20 lf21 lb21 ld0 ld1 ld2 ld3 ld4 ld5 ld6) = outI m ρ c :=
  out_final m ρ c g2 _ (oL6 m ρ c lf20 lb20 lf21 lb21 ld0 ld1 ld2 ld3 ld4 ld5)
    (oW7_eq m ρ c lf20 lb20 lf21 lb21 hlf20 hlb20 hlf21 hlb21 ld0 ld1 ld2 ld3 ld4 ld5 ld6 hld0 hld1 hld2 hld3 hld4 hld5 hld6) inb_S48x1536_S48x1536_0_0

end Chain

end Cert.KernelIdeal.Ring

end
-- ==== Proof.Closed.lean ====
/- The same offsets read axis by axis. -/
import proofs.«900894_g7700000000000895_dist_matmul_mk_i_outk_m1536_n1536_k768_v7x_i32_f32_1_alg».proof.Proof.Offs
import Idealize.ShloMosaic.Lib.Tactic

noncomputable section

namespace Cert.KernelIdeal.Ring

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

instance (c : Dev nD) : ClosedOff (k0_off1 c 1#32) := ⟨![384 * ((c.val / 8 + 1) % 4), 0], off1_1 c⟩
instance (c : Dev nD) : ClosedOff (k0_off1 c 2#32) := ⟨![384 * ((c.val / 8 + 2) % 4), 0], off1_2 c⟩
instance (c : Dev nD) : ClosedOff (k0_off1 c 3#32) := ⟨![384 * ((c.val / 8 + 3) % 4), 0], off1_3 c⟩
instance (c : Dev nD) : ClosedOff (k0_off2 c 1#32) := ⟨![384 * ((c.val / 8 + 1) % 4), 0], off2_1 c⟩
instance (c : Dev nD) : ClosedOff (k0_off2 c 2#32) := ⟨![384 * ((c.val / 8 + 2) % 4), 0], off2_2 c⟩
instance (c : Dev nD) : ClosedOff (k0_off2 c 3#32) := ⟨![384 * ((c.val / 8 + 3) % 4), 0], off2_3 c⟩
instance (c : Dev nD) : ClosedOff (k0_off3 c 1#32) := ⟨![384 * ((c.val / 8 + 1) % 4), 768], off3_1 c⟩
instance (c : Dev nD) : ClosedOff (k0_off3 c 2#32) := ⟨![384 * ((c.val / 8 + 2) % 4), 768], off3_2 c⟩
instance (c : Dev nD) : ClosedOff (k0_off3 c 3#32) := ⟨![384 * ((c.val / 8 + 3) % 4), 768], off3_3 c⟩
instance (c : Dev nD) : ClosedOff (k0_off4 c) := ⟨![384 * (c.val / 8 % 4), 0], off4_eq c⟩
instance (c : Dev nD) : ClosedOff (k0_off5 c) := ⟨![384 * (c.val / 8 % 4), 0], off5_eq c⟩
instance (c : Dev nD) : ClosedOff (k0_off6 c) := ⟨![384 * (c.val / 8 % 4), 768], off6_eq c⟩
instance (c : Dev nD) : ClosedOff (k0_off7 c 0#32 0#32) := ⟨![384 * ((c.val / 8 + 6) % 4), 0], off7_0_0 c⟩
instance (c : Dev nD) : ClosedOff (k0_off7 c 0#32 192#32) := ⟨![384 * ((c.val / 8 + 6) % 4) + 192, 0], off7_0_192 c⟩
instance (c : Dev nD) : ClosedOff (k0_off7 c 1#32 0#32) := ⟨![384 * ((c.val / 8 + 5) % 4), 0], off7_1_0 c⟩
instance (c : Dev nD) : ClosedOff (k0_off7 c 1#32 192#32) := ⟨![384 * ((c.val / 8 + 5) % 4) + 192, 0], off7_1_192 c⟩
instance (c : Dev nD) : ClosedOff (k0_off8 c 0#32 0#32) := ⟨![384 * ((c.val / 8 + 2) % 4), 768], off8_0_0 c⟩
instance (c : Dev nD) : ClosedOff (k0_off8 c 0#32 192#32) := ⟨![384 * ((c.val / 8 + 2) % 4) + 192, 768], off8_0_192 c⟩
instance (c : Dev nD) : ClosedOff (k0_off8 c 1#32 0#32) := ⟨![384 * ((c.val / 8 + 3) % 4), 768], off8_1_0 c⟩
instance (c : Dev nD) : ClosedOff (k0_off8 c 1#32 192#32) := ⟨![384 * ((c.val / 8 + 3) % 4) + 192, 768], off8_1_192 c⟩
instance (c : Dev nD) : ClosedOff (k0_off9 c 0#32) := ⟨![384 * (c.val / 8 % 4), 0], off9_0 c⟩
instance (c : Dev nD) : ClosedOff (k0_off9 c 192#32) := ⟨![384 * (c.val / 8 % 4) + 192, 0], off9_192 c⟩
instance (c : Dev nD) : ClosedOff (k0_off10 c 0#32) := ⟨![384 * (c.val / 8 % 4), 768], off10_0 c⟩
instance (c : Dev nD) : ClosedOff (k0_off10 c 192#32) := ⟨![384 * (c.val / 8 % 4) + 192, 768], off10_192 c⟩
instance (c : Dev nD) : ClosedOff (k0_off11 c 1#32) := ⟨![48 * ((c.val % 8 + 1) % 8), 0], off11_1 c⟩
instance (c : Dev nD) : ClosedOff (k0_off11 c 2#32) := ⟨![48 * ((c.val % 8 + 2) % 8), 0], off11_2 c⟩
instance (c : Dev nD) : ClosedOff (k0_off11 c 3#32) := ⟨![48 * ((c.val % 8 + 3) % 8), 0], off11_3 c⟩
instance (c : Dev nD) : ClosedOff (k0_off11 c 4#32) := ⟨![48 * ((c.val % 8 + 4) % 8), 0], off11_4 c⟩
instance (c : Dev nD) : ClosedOff (k0_off11 c 5#32) := ⟨![48 * ((c.val % 8 + 5) % 8), 0], off11_5 c⟩
instance (c : Dev nD) : ClosedOff (k0_off11 c 6#32) := ⟨![48 * ((c.val % 8 + 6) % 8), 0], off11_6 c⟩
instance (c : Dev nD) : ClosedOff (k0_off11 c 7#32) := ⟨![48 * ((c.val % 8 + 7) % 8), 0], off11_7 c⟩
instance (c : Dev nD) : ClosedOff (k0_off12 c) := ⟨![48 * (c.val % 8), 0], off12_eq c⟩

end Cert.KernelIdeal.Ring

end
-- ==== Proof.Body.lean ====
/- One device's run of the body, step by step in program order. -/
import proofs.«900894_g7700000000000895_dist_matmul_mk_i_outk_m1536_n1536_k768_v7x_i32_f32_1_alg».proof.Proof.Steps
import proofs.«900894_g7700000000000895_dist_matmul_mk_i_outk_m1536_n1536_k768_v7x_i32_f32_1_alg».proof.Proof.Inst
import proofs.«900894_g7700000000000895_dist_matmul_mk_i_outk_m1536_n1536_k768_v7x_i32_f32_1_alg».proof.Proof.Pieces
import proofs.«900894_g7700000000000895_dist_matmul_mk_i_outk_m1536_n1536_k768_v7x_i32_f32_1_alg».proof.Proof.Finish
import proofs.«900894_g7700000000000895_dist_matmul_mk_i_outk_m1536_n1536_k768_v7x_i32_f32_1_alg».proof.Proof.Gather
import proofs.«900894_g7700000000000895_dist_matmul_mk_i_outk_m1536_n1536_k768_v7x_i32_f32_1_alg».proof.Proof.SendVals
import proofs.«900894_g7700000000000895_dist_matmul_mk_i_outk_m1536_n1536_k768_v7x_i32_f32_1_alg».proof.Proof.Hops
import proofs.«900894_g7700000000000895_dist_matmul_mk_i_outk_m1536_n1536_k768_v7x_i32_f32_1_alg».proof.Proof.HopVals
import proofs.«900894_g7700000000000895_dist_matmul_mk_i_outk_m1536_n1536_k768_v7x_i32_f32_1_alg».proof.Proof.Quarter
import proofs.«900894_g7700000000000895_dist_matmul_mk_i_outk_m1536_n1536_k768_v7x_i32_f32_1_alg».proof.Proof.Partial
import proofs.«900894_g7700000000000895_dist_matmul_mk_i_outk_m1536_n1536_k768_v7x_i32_f32_1_alg».proof.Proof.Closed
import proofs.«900894_g7700000000000895_dist_matmul_mk_i_outk_m1536_n1536_k768_v7x_i32_f32_1_alg».proof.Proof.Plane

noncomputable section

namespace Cert.KernelIdeal.Ring

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.Tactic

local notation "𝕄" => MT nD τ sig Unit (Elt F) ℕ UU ℕ

/- The payments, the tokens and the waited cells in program order; what is left of each after the first n. -/
def payOrd : List PK := [.sig 0, .sig 1, .sig 2, .sig 3, .sig 4, .sig 5, .sig 6, .sig 7, .sig 8, .rf 0 0, .rf 0 1, .rb 0 0, .rb 0 1, .rf 1 0, .rb 1 0, .rf 1 1, .rb 1 1, .rf 2 0, .rb 2 0, .rf 2 1, .rb 2 1, .dd 0, .dd 1, .dd 2, .dd 3, .dd 4, .dd 5, .dd 6]
def tokOrd : List TK := [.inl (.sig 0), .inl (.sig 1), .inl (.sig 2), .inl (.sig 3), .inl (.sig 4), .inl (.sig 5), .inl (.sig 6), .inl (.sig 7), .inl (.sig 8), .inl (.rf 0 0), .inr (.f 0 0), .inl (.rf 0 1), .inr (.f 0 1), .inl (.rb 0 0), .inr (.b 0 0), .inl (.rb 0 1), .inr (.b 0 1), .inl (.rf 1 0), .inr (.f 1 0), .inl (.rb 1 0), .inr (.b 1 0), .inl (.rf 1 1), .inr (.f 1 1), .inl (.rb 1 1), .inr (.b 1 1), .inl (.rf 2 0), .inr (.f 2 0), .inl (.rb 2 0), .inr (.b 2 0), .inl (.rf 2 1), .inr (.f 2 1), .inl (.rb 2 1), .inr (.b 2 1), .inl (.dd 0), .inr (.d 0), .inl (.dd 1), .inr (.d 1), .inl (.dd 2), .inr (.d 2), .inl (.dd 3), .inr (.d 3), .inl (.dd 4), .inr (.d 4), .inl (.dd 5), .inr (.d 5), .inl (.dd 6), .inr (.d 6)]
def waitOrd : List CK := [.bar, .fS 0 0, .fR 0 0, .bS 0 0, .bR 0 0, .fS 0 1, .fR 0 1, .bS 0 1, .bR 0 1, .fS 1 0, .fR 1 0, .bS 1 0, .bR 1 0, .fS 1 1, .fR 1 1, .bS 1 1, .bR 1 1, .fS 2 0, .fR 2 0, .bS 2 0, .bR 2 0, .fS 2 1, .fR 2 1, .bS 2 1, .bR 2 1, .dS 0, .dR 0, .dS 1, .dR 1, .dS 2, .dR 2, .dS 3, .dR 3, .dS 4, .dR 4, .dS 5, .dR 5, .dS 6, .dR 6]
def Oat : ℕ → Finset PK
  | 0 => Finset.univ
  | n + 1 => (Oat n).erase (payOrd.getD n (.sig 0))
def Tat : ℕ → Finset TK
  | 0 => Finset.univ
  | n + 1 => (Tat n).erase (tokOrd.getD n (.inl (.sig 0)))
def Pat : ℕ → Finset CK
  | 0 => Finset.univ
  | n + 1 => (Pat n).erase (waitOrd.getD n .bar)
def Wat : ℕ → Waits sig Unit → Waits sig Unit
  | 0, W => W
  | n + 1, W => insert (csem (waitOrd.getD n .bar), ()) (Wat n W)

section
variable (m : Mem F) (ρ : Dev nD → PrngReg)

abbrev cfTop : Memref sig .tc .vmem S1x384x768 .bf16 := cfM.slice top3R (fun _ => rfl)
abbrev cbTop : Memref sig .tc .vmem S1x384x768 .bf16 := cbM.slice top3R (fun _ => rfl)

omit [FloatOps F] in
theorem cfTop_eq (c : Dev nD) (f : Buf (Elt F) ((c : Thread nD τ).loc cc0_scratch1)) :
    (cfTop.view.loc (c : Thread nD τ) ↦[cfTop.view.set]{fullShare} f : sProp 𝕄)
      = ((c : Thread nD τ).loc cc0_scratch1 ↦[top3R.set]{fullShare} f) := by
  rw [show cfTop.view.set = top3R.set from View.set_slice_whole cc0_scratch1 top3R]
omit [FloatOps F] in
theorem cbTop_eq (c : Dev nD) (f : Buf (Elt F) ((c : Thread nD τ).loc cc0_scratch2)) :
    (cbTop.view.loc (c : Thread nD τ) ↦[cbTop.view.set]{fullShare} f : sProp 𝕄)
      = ((c : Thread nD τ).loc cc0_scratch2 ↦[top3R.set]{fullShare} f) := by
  rw [show cbTop.view.set = top3R.set from View.set_slice_whole cc0_scratch2 top3R]

theorem fetch_0 (t : Fin cfg0.N) : (cfg0.win (0 : Fin 3)).fetch t = true := fetch0_0 t
theorem fetch_1 (t : Fin cfg0.N) : (cfg0.win (1 : Fin 3)).fetch t = true := fetch0_1 t

set_option maxHeartbeats 4000000 in
theorem sound_body (K : Dev nD × CK → ℕ) (c : Dev nD) (Kt : PUnit → sProp 𝕄) :
    iprop(bodyPre (VfI m ρ) (VbI m ρ) (VdI m ρ) (R1bI m ρ) m ρ (outI m ρ) K c ∗ (bodyPost (VfI m ρ) (VbI m ρ) (VdI m ρ) (R1bI m ρ) m ρ (outI m ρ) c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            cc0_scratch6 cc0_scratch7 cc0_scratch8 cc0_scratch9 cc0_scratch10 cc0_scratch11) Kt := by
  unfold bodyPre ghost scratch credsAt
  iintro ⟨⟨⟨⟨#Hrec, Hpos, Htok⟩, ⟨HcB, HcF, HcBk, HcD⟩, #Hlev, ⟨%f0, H0⟩, ⟨%f1, H1⟩, ⟨%f2, H2⟩, ⟨%f3, H3⟩, ⟨%f4, H4⟩, ⟨%f5, H5⟩⟩,
    Ho, ⟨%d0, %g0, %hg0, Ha⟩, ⟨%d1, %g1, %hg1, Hb⟩, ⟨%d2, %g2, %hg2, Hout⟩⟩, Hk⟩
  have ha : g0 = Astg m ρ c := by rw [hg0]; unfold Dat.before; rw [if_pos (fetch_0 t₀)]; rfl
  have hb : g1 = Bstg m ρ c := by rw [hg1]; unfold Dat.before; rw [if_pos (fetch_1 t₀)]; rfl
  subst ha hb
  unfold Dat.owesAt Pipeline.owesWithin
  icases Ho with ⟨%W, %hW, HO⟩
  rw [show (dats (VfI m ρ) (VbI m ρ) (VdI m ρ) (R1bI m ρ) m ρ (outI m ρ) 0 c).owed t₀.castSucc = Orem c Finset.univ from rfl]
  ihave Ha := (Entails.of_eq (show ((((c : Thread nD τ).loc cc0_stg0_0) ↦{fullShare} Astg m ρ c : sProp 𝕄)
      = (aM.view.loc (c : Thread nD τ) ↦[aM.view.set]{fullShare} Astg m ρ c)) from by rw [View.set_whole])) $$ Ha
  ihave Hb := (Entails.of_eq (show ((((c : Thread nD τ).loc cc0_stg1_0) ↦{fullShare} Bstg m ρ c : sProp 𝕄)
      = (bM.view.loc (c : Thread nD τ) ↦[bM.view.set]{fullShare} Bstg m ρ c)) from by rw [View.set_whole])) $$ Hb
  ihave Hout := (Entails.of_eq (show ((((c : Thread nD τ).loc cc0_stg2_0) ↦{fullShare} g2 : sProp 𝕄)
      = (oM.view.loc (c : Thread nD τ) ↦[oM.view.set]{fullShare} g2)) from by rw [View.set_whole])) $$ Hout
  ihave H0 := (Entails.of_eq (show ((((c : Thread nD τ).loc cc0_scratch0) ↦{fullShare} f0 : sProp 𝕄)
      = (pM.view.loc (c : Thread nD τ) ↦[pM.view.set]{fullShare} f0)) from by rw [View.set_whole])) $$ H0
  ihave H3 := (Entails.of_eq (show ((((c : Thread nD τ).loc cc0_scratch3) ↦{fullShare} f3 : sProp 𝕄)
      = (r1M.view.loc (c : Thread nD τ) ↦[r1M.view.set]{fullShare} f3)) from by rw [View.set_whole])) $$ H3
  ihave H4 := (Entails.of_eq (show ((((c : Thread nD τ).loc cc0_scratch4) ↦{fullShare} f4 : sProp 𝕄)
      = (r1bM.view.loc (c : Thread nD τ) ↦[r1bM.view.set]{fullShare} f4)) from by rw [View.set_whole])) $$ H4
  ihave H1 := (Entails.of_eq (cf_split_eq c f1)) $$ H1
  icases H1 with ⟨F00, F01, F10, F11, F20, F21, F30, F31⟩
  ihave F3 := (cf_top3_split c f1).2 $$ [F30 F31]
  · isplitl [F30] <;> iassumption
  ihave F3 := (Entails.of_eq (cfTop_eq c f1).symm) $$ F3
  ihave H2 := (Entails.of_eq (cb_split_eq c f2)) $$ H2
  icases H2 with ⟨B00, B01, B10, B11, B20, B21, B30, B31⟩
  ihave B3 := (cb_top3_split c f2).2 $$ [B30 B31]
  · isplitl [B30] <;> iassumption
  ihave B3 := (Entails.of_eq (cbTop_eq c f2).symm) $$ B3
  ihave H5 := (Entails.of_eq (cd_split_eq c f5)) $$ H5
  icases H5 with ⟨D0, D1, D2, D3, D4, D5, D6⟩
  sl_unfold [cc0_body]
  sl_exec_parts
  iapply (wp_sig (VfI m ρ) (VbI m ρ) (VdI m ρ) (R1bI m ρ) K c 0 _ (dev1_eq c) (S := Finset.univ) (by decide) (T := Finset.univ) (by decide) W) $$ [HO Htok F00 F01 F10 F11 F20 F21]
  · iframe Hrec
    isplitl [HO]; · iexact HO
    isplitl [Htok]; · iexact Htok
    rw [myPay_0, sixFree_def]
    isplitl [F00]; · iapply (free_intro c _ _); iexact F00
    isplitl [F01]; · iapply (free_intro c _ _); iexact F01
    isplitl [F10]; · iapply (free_intro c _ _); iexact F10
    isplitl [F11]; · iapply (free_intro c _ _); iexact F11
    isplitl [F20]; · iapply (free_intro c _ _); iexact F20
    iapply (free_intro c _ _); iexact F21
  iintro ⟨HO, Htok⟩
  sl_exec_parts
  iapply (wp_sig (VfI m ρ) (VbI m ρ) (VdI m ρ) (R1bI m ρ) K c 1 _ (dev2_eq c) (S := Oat 1) (by decide) (T := Tat 1) (by decide) W) $$ [HO Htok B00 B01 B10 B11 B20 B21]
  · iframe Hrec
    isplitl [HO]; · iexact HO
    isplitl [Htok]; · iexact Htok
    rw [myPay_1, sixFree_def]
    isplitl [B00]; · iapply (free_intro c _ _); iexact B00
    isplitl [B01]; · iapply (free_intro c _ _); iexact B01
    isplitl [B10]; · iapply (free_intro c _ _); iexact B10
    isplitl [B11]; · iapply (free_intro c _ _); iexact B11
    isplitl [B20]; · iapply (free_intro c _ _); iexact B20
    iapply (free_intro c _ _); iexact B21
  iintro ⟨HO, Htok⟩
  sl_exec_parts
  iapply (wp_sig (VfI m ρ) (VbI m ρ) (VdI m ρ) (R1bI m ρ) K c 2 _ (dev3_eq c) (S := Oat 2) (by decide) (T := Tat 2) (by decide) W) $$ [HO Htok D6]
  · iframe Hrec
    isplitl [HO]; · iexact HO
    isplitl [Htok]; · iexact Htok
    rw [myPay_2]; iapply (free_intro c _ _); iexact D6
  iintro ⟨HO, Htok⟩
  sl_exec_parts
  iapply (wp_sig (VfI m ρ) (VbI m ρ) (VdI m ρ) (R1bI m ρ) K c 3 _ (dev4_eq c) (S := Oat 3) (by decide) (T := Tat 3) (by decide) W) $$ [HO Htok D5]
  · iframe Hrec
    isplitl [HO]; · iexact HO
    isplitl [Htok]; · iexact Htok
    rw [myPay_3]; iapply (free_intro c _ _); iexact D5
  iintro ⟨HO, Htok⟩
  sl_exec_parts
  iapply (wp_sig (VfI m ρ) (VbI m ρ) (VdI m ρ) (R1bI m ρ) K c 4 _ (dev5_eq c) (S := Oat 4) (by decide) (T := Tat 4) (by decide) W) $$ [HO Htok D4]
  · iframe Hrec
    isplitl [HO]; · iexact HO
    isplitl [Htok]; · iexact Htok
    rw [myPay_4]; iapply (free_intro c _ _); iexact D4
  iintro ⟨HO, Htok⟩
  sl_exec_parts
  iapply (wp_sig (VfI m ρ) (VbI m ρ) (VdI m ρ) (R1bI m ρ) K c 5 _ (dev6_eq c) (S := Oat 5) (by decide) (T := Tat 5) (by decide) W) $$ [HO Htok D3]
  · iframe Hrec
    isplitl [HO]; · iexact HO
    isplitl [Htok]; · iexact Htok
    rw [myPay_5]; iapply (free_intro c _ _); iexact D3
  iintro ⟨HO, Htok⟩
  sl_exec_parts
  iapply (wp_sig (VfI m ρ) (VbI m ρ) (VdI m ρ) (R1bI m ρ) K c 6 _ (dev7_eq c) (S := Oat 6) (by decide) (T := Tat 6) (by decide) W) $$ [HO Htok D2]
  · iframe Hrec
    isplitl [HO]; · iexact HO
    isplitl [Htok]; · iexact Htok
    rw [myPay_6]; iapply (free_intro c _ _); iexact D2
  iintro ⟨HO, Htok⟩
  sl_exec_parts
  iapply (wp_sig (VfI m ρ) (VbI m ρ) (VdI m ρ) (R1bI m ρ) K c 7 _ (dev8_eq c) (S := Oat 7) (by decide) (T := Tat 7) (by decide) W) $$ [HO Htok D1]
  · iframe Hrec
    isplitl [HO]; · iexact HO
    isplitl [Htok]; · iexact Htok
    rw [myPay_7]; iapply (free_intro c _ _); iexact D1
  iintro ⟨HO, Htok⟩
  sl_exec_parts
  iapply (wp_sig (VfI m ρ) (VbI m ρ) (VdI m ρ) (R1bI m ρ) K c 8 _ (dev9_eq c) (S := Oat 8) (by decide) (T := Tat 8) (by decide) W) $$ [HO Htok D0]
  · iframe Hrec
    isplitl [HO]; · iexact HO
    isplitl [Htok]; · iexact Htok
    rw [myPay_8]; iapply (free_intro c _ _); iexact D0
  iintro ⟨HO, Htok⟩
  sl_exec_parts
  ihave Hpos := (Entails.of_eq (pos_take (F := F) c (S := Finset.univ) (k := CK.bar) (by decide))) $$ Hpos
  icases Hpos with ⟨HatB, Hpos⟩
  iapply (wp_bar_wait (VfI m ρ) (VbI m ρ) (VdI m ρ) (R1bI m ρ) K c (S := Oat 9) (by decide) W (wpE_semWait_eq 𝒱₀ (c : Thread nD τ) none Set.univ)) $$ [HcB HO HatB]
  · iframe Hrec Hlev HatB
    isplitl [HcB]; · iexact HcB
    iexact HO
  iintro ⟨HO, N6f, N6b, ND6, ND5, ND4, ND3, ND2, ND1, ND0⟩
  unfold sixFree free
  icases N6f with ⟨⟨%nf00, NF00⟩, ⟨%nf01, NF01⟩, ⟨%nf10, NF10⟩, ⟨%nf11, NF11⟩, ⟨%nf20, NF20⟩, ⟨%nf21, NF21⟩⟩
  icases N6b with ⟨⟨%nb00, NB00⟩, ⟨%nb01, NB01⟩, ⟨%nb10, NB10⟩, ⟨%nb11, NB11⟩, ⟨%nb20, NB20⟩, ⟨%nb21, NB21⟩⟩
  icases ND6 with ⟨%nd6, ND6⟩
  icases ND5 with ⟨%nd5, ND5⟩
  icases ND4 with ⟨%nd4, ND4⟩
  icases ND3 with ⟨%nd3, ND3⟩
  icases ND2 with ⟨%nd2, ND2⟩
  icases ND1 with ⟨%nd1, ND1⟩
  icases ND0 with ⟨%nd0, ND0⟩
  sl_exec_parts
  ihave F3 := (Entails.of_eq (cfTop_eq c _)) $$ F3
  ihave F3 := (cf_top3_split c _).1 $$ F3
  icases F3 with ⟨F30, F31⟩
  iapply (wp_send_f (VfI m ρ) (VbI m ρ) (VdI m ρ) (R1bI m ρ) K c 0 0 _ (dev10_eq c) (S := Oat 9) (by decide) (T := Tat 9) (by decide) (by decide) (Wat 1 W)
      _ (by show (cfP (srcSlot 0) 0).view.read (Elt F) (sound_body.sl.F3_w1 m ρ c f1) = VfI m ρ c 0 0; exact sendF0 m ρ c 0 f1 [] _ _ _ _ _)) $$ [HO Htok F30 NF00]
  · iframe Hrec
    isplitl [HO]; · iexact HO
    isplitl [Htok]; · iexact Htok
    isplitl [F30]; · iexact F30
    iapply (free_intro _ _ _); iexact NF00
  iintro ⟨HcfS00, HO, Htok⟩
  sl_exec_parts
  iapply (wp_send_f (VfI m ρ) (VbI m ρ) (VdI m ρ) (R1bI m ρ) K c 0 1 _ (dev11_eq c) (S := Oat 10) (by decide) (T := Tat 11) (by decide) (by decide) (Wat 1 W)
      _ (by show (cfP (srcSlot 0) 1).view.read (Elt F) (sound_body.sl.F3_w1 m ρ c f1) = VfI m ρ c 0 1; exact sendF0 m ρ c 1 f1 [] _ _ _ _ _)) $$ [HO Htok F31 NF01]
  · iframe Hrec
    isplitl [HO]; · iexact HO
    isplitl [Htok]; · iexact Htok
    isplitl [F31]; · iexact F31
    iapply (free_intro _ _ _); iexact NF01
  iintro ⟨HcfS01, HO, Htok⟩
  sl_exec_parts
  ihave B3 := (Entails.of_eq (cbTop_eq c _)) $$ B3
  ihave B3 := (cb_top3_split c _).1 $$ B3
  icases B3 with ⟨B30, B31⟩
  iapply (wp_send_b (VfI m ρ) (VbI m ρ) (VdI m ρ) (R1bI m ρ) K c 0 0 _ (dev12_eq c) (S := Oat 11) (by decide) (T := Tat 13) (by decide) (by decide) (Wat 1 W)
      _ (by show (cbP (srcSlot 0) 0).view.read (Elt F) (sound_body.sl.B3_w1 m ρ c f2) = VbI m ρ c 0 0; exact sendB0 m ρ c 0 f2 _ _ _ _ _ _)) $$ [HO Htok B30 NB00]
  · iframe Hrec
    isplitl [HO]; · iexact HO
    isplitl [Htok]; · iexact Htok
    isplitl [B30]; · iexact B30
    iapply (free_intro _ _ _); iexact NB00
  iintro ⟨HcbS00, HO, Htok⟩
  sl_exec_parts
  iapply (wp_send_b (VfI m ρ) (VbI m ρ) (VdI m ρ) (R1bI m ρ) K c 0 1 _ (dev13_eq c) (S := Oat 12) (by decide) (T := Tat 15) (by decide) (by decide) (Wat 1 W)
      _ (by show (cbP (srcSlot 0) 1).view.read (Elt F) (sound_body.sl.B3_w1 m ρ c f2) = VbI m ρ c 0 1; exact sendB0 m ρ c 1 f2 _ _ _ _ _ _)) $$ [HO Htok B31 NB01]
  · iframe Hrec
    isplitl [HO]; · iexact HO
    isplitl [Htok]; · iexact Htok
    isplitl [B31]; · iexact B31
    iapply (free_intro _ _ _); iexact NB01
  iintro ⟨HcbS01, HO, Htok⟩
  sl_exec_parts
  iapply (wp_wait_dma (VfI m ρ) (VbI m ρ) (VdI m ρ) (R1bI m ρ) K c (CK.fS 0 0) (by decide) (S := Oat 13) (by decide) (P := Pat 1) (by decide) (Wat 1 W)
      (fSs 0 0) (cfP 0 0) (cfP 3 0) rfl rfl) $$ [HcfS00 HO Hpos]
  · iframe Hrec Hlev
    isplitl [HcfS00]; · iexact HcfS00
    isplitl [HO]; · iexact HO
    iexact Hpos
  iintro ⟨HO, HdnfS00, Hpay, Hpos⟩
  unfold cellPay holds
  icases Hpay with ⟨%rfs00, %hrfs00, RFS00⟩
  sl_exec_parts
  ihave HcF := (Entails.of_eq (credF_take (F := F) c (S := Finset.univ) (hs := (0, 0)) (by decide))) $$ HcF
  icases HcF with ⟨Hcr, HcF⟩
  iapply (wp_wait_dma (VfI m ρ) (VbI m ρ) (VdI m ρ) (R1bI m ρ) K c (CK.fR 0 0) (by decide) (S := Oat 13) (by decide) (P := Pat 2) (by decide) (Wat 2 W)
      (fRs 0 0) (cfP 3 0) (cfP 0 0) rfl rfl) $$ [Hcr HO Hpos]
  · iframe Hrec Hlev
    isplitl [Hcr]; · iexact Hcr
    isplitl [HO]; · iexact HO
    iexact Hpos
  iintro ⟨HO, HdnfR00, Hpay, Hpos⟩
  unfold cellPay holds
  icases Hpay with ⟨%lf00, %hlf00, LF00⟩
  sl_exec_parts
  iapply (wp_wait_dma (VfI m ρ) (VbI m ρ) (VdI m ρ) (R1bI m ρ) K c (CK.bS 0 0) (by decide) (S := Oat 13) (by decide) (P := Pat 3) (by decide) (Wat 3 W)
      (bSs 0 0) (cbP 0 0) (cbP 3 0) rfl rfl) $$ [HcbS00 HO Hpos]
  · iframe Hrec Hlev
    isplitl [HcbS00]; · iexact HcbS00
    isplitl [HO]; · iexact HO
    iexact Hpos
  iintro ⟨HO, HdnbS00, Hpay, Hpos⟩
  unfold cellPay holds
  icases Hpay with ⟨%rbs00, %hrbs00, RBS00⟩
  sl_exec_parts
  ihave HcBk := (Entails.of_eq (credB_take (F := F) c (S := Finset.univ) (hs := (0, 0)) (by decide))) $$ HcBk
  icases HcBk with ⟨Hcr, HcBk⟩
  iapply (wp_wait_dma (VfI m ρ) (VbI m ρ) (VdI m ρ) (R1bI m ρ) K c (CK.bR 0 0) (by decide) (S := Oat 13) (by decide) (P := Pat 4) (by decide) (Wat 4 W)
      (bRs 0 0) (cbP 3 0) (cbP 0 0) rfl rfl) $$ [Hcr HO Hpos]
  · iframe Hrec Hlev
    isplitl [Hcr]; · iexact Hcr
    isplitl [HO]; · iexact HO
    iexact Hpos
  iintro ⟨HO, HdnbR00, Hpay, Hpos⟩
  unfold cellPay holds
  icases Hpay with ⟨%lb00, %hlb00, LB00⟩
  sl_exec_parts
  iapply (wp_send_f (VfI m ρ) (VbI m ρ) (VdI m ρ) (R1bI m ρ) K c 1 0 _ (dev14_eq c) (S := Oat 13) (by decide) (T := Tat 17) (by decide) (by decide) (Wat 5 W)
      _ (by show (cfP (srcSlot 1) 0).view.read (Elt F) (sound_body.sl.LF00_w1 m ρ c f0 lf00) = VfI m ρ c 1 0; exact hop_send_f m ρ c 0 0 0 lf00 hlf00 _ rfl _ _ _ _ (pay14_13_cast _ _) (strip_at _ _ c (q4 (zi c + 6 - 0)) 0 0 _ _ (strip7_0_0_cov c) (strip7_0_0_off c) (k0_off2_inb c 1) _ _ (prodList_mem7 _ _ c) f0))) $$ [HO Htok LF00 NF10]
  · iframe Hrec
    isplitl [HO]; · iexact HO
    isplitl [Htok]; · iexact Htok
    isplitl [LF00]; · iexact LF00
    iapply (free_intro _ _ _); iexact NF10
  iintro ⟨HcfS10, HO, Htok⟩
  sl_exec_parts
  iapply (wp_send_b (VfI m ρ) (VbI m ρ) (VdI m ρ) (R1bI m ρ) K c 1 0 _ (dev15_eq c) (S := Oat 14) (by decide) (T := Tat 19) (by decide) (by decide) (Wat 5 W)
      _ (by show (cbP (srcSlot 1) 0).view.read (Elt F) (sound_body.sl.LB00_w2 m ρ c lb00) = VbI m ρ c 1 0; exact hop_send_b m ρ c 0 0 0 lb00 hlb00 _ rfl _ _ _ _ (pay15_cast _ _) (strip_cov _ _ c (q4 (zi c + 2 + 0)) 1 0 _ _ (strip8_0_0_cov c) (strip8_0_0_off c) (k0_off3_inb c 1) _ _ (prodList_mem8 _ _ c)))) $$ [HO Htok LB00 NB10]
  · iframe Hrec
    isplitl [HO]; · iexact HO
    isplitl [Htok]; · iexact Htok
    isplitl [LB00]; · iexact LB00
    iapply (free_intro _ _ _); iexact NB10
  iintro ⟨HcbS10, HO, Htok⟩
  sl_exec_parts
  iapply (wp_wait_dma (VfI m ρ) (VbI m ρ) (VdI m ρ) (R1bI m ρ) K c (CK.fS 0 1) (by decide) (S := Oat 15) (by decide) (P := Pat 5) (by decide) (Wat 5 W)
      (fSs 0 1) (cfP 0 1) (cfP 3 1) rfl rfl) $$ [HcfS01 HO Hpos]
  · iframe Hrec Hlev
    isplitl [HcfS01]; · iexact HcfS01
    isplitl [HO]; · iexact HO
    iexact Hpos
  iintro ⟨HO, HdnfS01, Hpay, Hpos⟩
  unfold cellPay holds
  icases Hpay with ⟨%rfs01, %hrfs01, RFS01⟩
  sl_exec_parts
  ihave HcF := (Entails.of_eq (credF_take (F := F) c (S := (Finset.univ.erase (0, 0))) (hs := (0, 1)) (by decide))) $$ HcF
  icases HcF with ⟨Hcr, HcF⟩
  iapply (wp_wait_dma (VfI m ρ) (VbI m ρ) (VdI m ρ) (R1bI m ρ) K c (CK.fR 0 1) (by decide) (S := Oat 15) (by decide) (P := Pat 6) (by decide) (Wat 6 W)
      (fRs 0 1) (cfP 3 1) (cfP 0 1) rfl rfl) $$ [Hcr HO Hpos]
  · iframe Hrec Hlev
    isplitl [Hcr]; · iexact Hcr
    isplitl [HO]; · iexact HO
    iexact Hpos
  iintro ⟨HO, HdnfR01, Hpay, Hpos⟩
  unfold cellPay holds
  icases Hpay with ⟨%lf01, %hlf01, LF01⟩
  sl_exec_parts
  iapply (wp_wait_dma (VfI m ρ) (VbI m ρ) (VdI m ρ) (R1bI m ρ) K c (CK.bS 0 1) (by decide) (S := Oat 15) (by decide) (P := Pat 7) (by decide) (Wat 7 W)
      (bSs 0 1) (cbP 0 1) (cbP 3 1) rfl rfl) $$ [HcbS01 HO Hpos]
  · iframe Hrec Hlev
    isplitl [HcbS01]; · iexact HcbS01
    isplitl [HO]; · iexact HO
    iexact Hpos
  iintro ⟨HO, HdnbS01, Hpay, Hpos⟩
  unfold cellPay holds
  icases Hpay with ⟨%rbs01, %hrbs01, RBS01⟩
  sl_exec_parts
  ihave HcBk := (Entails.of_eq (credB_take (F := F) c (S := (Finset.univ.erase (0, 0))) (hs := (0, 1)) (by decide))) $$ HcBk
  icases HcBk with ⟨Hcr, HcBk⟩
  iapply (wp_wait_dma (VfI m ρ) (VbI m ρ) (VdI m ρ) (R1bI m ρ) K c (CK.bR 0 1) (by decide) (S := Oat 15) (by decide) (P := Pat 8) (by decide) (Wat 8 W)
      (bRs 0 1) (cbP 3 1) (cbP 0 1) rfl rfl) $$ [Hcr HO Hpos]
  · iframe Hrec Hlev
    isplitl [Hcr]; · iexact Hcr
    isplitl [HO]; · iexact HO
    iexact Hpos
  iintro ⟨HO, HdnbR01, Hpay, Hpos⟩
  unfold cellPay holds
  icases Hpay with ⟨%lb01, %hlb01, LB01⟩
  sl_exec_parts
  iapply (wp_send_f (VfI m ρ) (VbI m ρ) (VdI m ρ) (R1bI m ρ) K c 1 1 _ (dev16_eq c) (S := Oat 15) (by decide) (T := Tat 21) (by decide) (by decide) (Wat 9 W)
      _ (by show (cfP (srcSlot 1) 1).view.read (Elt F) (sound_body.sl.LF01_w1 m ρ c f0 lf01) = VfI m ρ c 1 1; exact hop_send_f m ρ c 0 1 0 lf01 hlf01 _ rfl _ _ _ _ (pay17_16_cast _ _) (strip_at _ _ c (q4 (zi c + 6 - 0)) 0 1 _ _ (strip7_0_1_cov c) (strip7_0_1_off c) (k0_off2_inb c 1) _ _ (prodList_mem7 _ _ c) f0))) $$ [HO Htok LF01 NF11]
  · iframe Hrec
    isplitl [HO]; · iexact HO
    isplitl [Htok]; · iexact Htok
    isplitl [LF01]; · iexact LF01
    iapply (free_intro _ _ _); iexact NF11
  iintro ⟨HcfS11, HO, Htok⟩
  sl_exec_parts
  iapply (wp_send_b (VfI m ρ) (VbI m ρ) (VdI m ρ) (R1bI m ρ) K c 1 1 _ (dev17_eq c) (S := Oat 16) (by decide) (T := Tat 23) (by decide) (by decide) (Wat 9 W)
      _ (by show (cbP (srcSlot 1) 1).view.read (Elt F) (sound_body.sl.LB01_w2 m ρ c lb01) = VbI m ρ c 1 1; exact hop_send_b m ρ c 0 1 0 lb01 hlb01 _ rfl _ _ _ _ (pay18_cast _ _) (strip_cov _ _ c (q4 (zi c + 2 + 0)) 1 1 _ _ (strip8_0_1_cov c) (strip8_0_1_off c) (k0_off3_inb c 1) _ _ (prodList_mem8 _ _ c)))) $$ [HO Htok LB01 NB11]
  · iframe Hrec
    isplitl [HO]; · iexact HO
    isplitl [Htok]; · iexact Htok
    isplitl [LB01]; · iexact LB01
    iapply (free_intro _ _ _); iexact NB11
  iintro ⟨HcbS11, HO, Htok⟩
  sl_exec_parts
  iapply (wp_wait_dma (VfI m ρ) (VbI m ρ) (VdI m ρ) (R1bI m ρ) K c (CK.fS 1 0) (by decide) (S := Oat 17) (by decide) (P := Pat 9) (by decide) (Wat 9 W)
      (fSs 1 0) (cfP 1 0) (cfP 0 0) rfl rfl) $$ [HcfS10 HO Hpos]
  · iframe Hrec Hlev
    isplitl [HcfS10]; · iexact HcfS10
    isplitl [HO]; · iexact HO
    iexact Hpos
  iintro ⟨HO, HdnfS10, Hpay, Hpos⟩
  unfold cellPay holds
  icases Hpay with ⟨%rfs10, %hrfs10, RFS10⟩
  sl_exec_parts
  ihave HcF := (Entails.of_eq (credF_take (F := F) c (S := ((Finset.univ.erase (0, 0)).erase (0, 1))) (hs := (1, 0)) (by decide))) $$ HcF
  icases HcF with ⟨Hcr, HcF⟩
  iapply (wp_wait_dma (VfI m ρ) (VbI m ρ) (VdI m ρ) (R1bI m ρ) K c (CK.fR 1 0) (by decide) (S := Oat 17) (by decide) (P := Pat 10) (by decide) (Wat 10 W)
      (fRs 1 0) (cfP 0 0) (cfP 1 0) rfl rfl) $$ [Hcr HO Hpos]
  · iframe Hrec Hlev
    isplitl [Hcr]; · iexact Hcr
    isplitl [HO]; · iexact HO
    iexact Hpos
  iintro ⟨HO, HdnfR10, Hpay, Hpos⟩
  unfold cellPay holds
  icases Hpay with ⟨%lf10, %hlf10, LF10⟩
  sl_exec_parts
  iapply (wp_wait_dma (VfI m ρ) (VbI m ρ) (VdI m ρ) (R1bI m ρ) K c (CK.bS 1 0) (by decide) (S := Oat 17) (by decide) (P := Pat 11) (by decide) (Wat 11 W)
      (bSs 1 0) (cbP 1 0) (cbP 0 0) rfl rfl) $$ [HcbS10 HO Hpos]
  · iframe Hrec Hlev
    isplitl [HcbS10]; · iexact HcbS10
    isplitl [HO]; · iexact HO
    iexact Hpos
  iintro ⟨HO, HdnbS10, Hpay, Hpos⟩
  unfold cellPay holds
  icases Hpay with ⟨%rbs10, %hrbs10, RBS10⟩
  sl_exec_parts
  ihave HcBk := (Entails.of_eq (credB_take (F := F) c (S := ((Finset.univ.erase (0, 0)).erase (0, 1))) (hs := (1, 0)) (by decide))) $$ HcBk
  icases HcBk with ⟨Hcr, HcBk⟩
  iapply (wp_wait_dma (VfI m ρ) (VbI m ρ) (VdI m ρ) (R1bI m ρ) K c (CK.bR 1 0) (by decide) (S := Oat 17) (by decide) (P := Pat 12) (by decide) (Wat 12 W)
      (bRs 1 0) (cbP 0 0) (cbP 1 0) rfl rfl) $$ [Hcr HO Hpos]
  · iframe Hrec Hlev
    isplitl [Hcr]; · iexact Hcr
    isplitl [HO]; · iexact HO
    iexact Hpos
  iintro ⟨HO, HdnbR10, Hpay, Hpos⟩
  unfold cellPay holds
  icases Hpay with ⟨%lb10, %hlb10, LB10⟩
  sl_exec_parts
  iapply (wp_send_f (VfI m ρ) (VbI m ρ) (VdI m ρ) (R1bI m ρ) K c 2 0 _ (dev18_eq c) (S := Oat 17) (by decide) (T := Tat 25) (by decide) (by decide) (Wat 13 W)
      _ (by show (cfP (srcSlot 2) 0).view.read (Elt F) (sound_body.sl.LF10_w1 m ρ c f0 lf10) = VfI m ρ c 2 0; exact hop_send_f m ρ c 1 0 1 lf10 hlf10 _ rfl _ _ _ _ (pay19_cast _ _) (strip_at _ _ c (q4 (zi c + 6 - 1)) 0 0 _ _ (strip7_1_0_cov c) (strip7_1_0_off c) (k0_off2_inb c 0) _ _ (prodList_mem9 _ _ c) f0))) $$ [HO Htok LF10 NF20]
  · iframe Hrec
    isplitl [HO]; · iexact HO
    isplitl [Htok]; · iexact Htok
    isplitl [LF10]; · iexact LF10
    iapply (free_intro _ _ _); iexact NF20
  iintro ⟨HcfS20, HO, Htok⟩
  sl_exec_parts
  iapply (wp_send_b (VfI m ρ) (VbI m ρ) (VdI m ρ) (R1bI m ρ) K c 2 0 _ (dev19_eq c) (S := Oat 18) (by decide) (T := Tat 27) (by decide) (by decide) (Wat 13 W)
      _ (by show (cbP (srcSlot 2) 0).view.read (Elt F) (sound_body.sl.LB10_w2 m ρ c lb10) = VbI m ρ c 2 0; exact hop_send_b m ρ c 1 0 1 lb10 hlb10 _ rfl _ _ _ _ (pay20_cast _ _) (strip_cov _ _ c (q4 (zi c + 2 + 1)) 1 0 _ _ (strip8_1_0_cov c) (strip8_1_0_off c) (k0_off3_inb c 2) _ _ (prodList_mem10 _ _ c)))) $$ [HO Htok LB10 NB20]
  · iframe Hrec
    isplitl [HO]; · iexact HO
    isplitl [Htok]; · iexact Htok
    isplitl [LB10]; · iexact LB10
    iapply (free_intro _ _ _); iexact NB20
  iintro ⟨HcbS20, HO, Htok⟩
  sl_exec_parts
  iapply (wp_wait_dma (VfI m ρ) (VbI m ρ) (VdI m ρ) (R1bI m ρ) K c (CK.fS 1 1) (by decide) (S := Oat 19) (by decide) (P := Pat 13) (by decide) (Wat 13 W)
      (fSs 1 1) (cfP 1 1) (cfP 0 1) rfl rfl) $$ [HcfS11 HO Hpos]
  · iframe Hrec Hlev
    isplitl [HcfS11]; · iexact HcfS11
    isplitl [HO]; · iexact HO
    iexact Hpos
  iintro ⟨HO, HdnfS11, Hpay, Hpos⟩
  unfold cellPay holds
  icases Hpay with ⟨%rfs11, %hrfs11, RFS11⟩
  sl_exec_parts
  ihave HcF := (Entails.of_eq (credF_take (F := F) c (S := (((Finset.univ.erase (0, 0)).erase (0, 1)).erase (1, 0))) (hs := (1, 1)) (by decide))) $$ HcF
  icases HcF with ⟨Hcr, HcF⟩
  iapply (wp_wait_dma (VfI m ρ) (VbI m ρ) (VdI m ρ) (R1bI m ρ) K c (CK.fR 1 1) (by decide) (S := Oat 19) (by decide) (P := Pat 14) (by decide) (Wat 14 W)
      (fRs 1 1) (cfP 0 1) (cfP 1 1) rfl rfl) $$ [Hcr HO Hpos]
  · iframe Hrec Hlev
    isplitl [Hcr]; · iexact Hcr
    isplitl [HO]; · iexact HO
    iexact Hpos
  iintro ⟨HO, HdnfR11, Hpay, Hpos⟩
  unfold cellPay holds
  icases Hpay with ⟨%lf11, %hlf11, LF11⟩
  sl_exec_parts
  iapply (wp_wait_dma (VfI m ρ) (VbI m ρ) (VdI m ρ) (R1bI m ρ) K c (CK.bS 1 1) (by decide) (S := Oat 19) (by decide) (P := Pat 15) (by decide) (Wat 15 W)
      (bSs 1 1) (cbP 1 1) (cbP 0 1) rfl rfl) $$ [HcbS11 HO Hpos]
  · iframe Hrec Hlev
    isplitl [HcbS11]; · iexact HcbS11
    isplitl [HO]; · iexact HO
    iexact Hpos
  iintro ⟨HO, HdnbS11, Hpay, Hpos⟩
  unfold cellPay holds
  icases Hpay with ⟨%rbs11, %hrbs11, RBS11⟩
  sl_exec_parts
  ihave HcBk := (Entails.of_eq (credB_take (F := F) c (S := (((Finset.univ.erase (0, 0)).erase (0, 1)).erase (1, 0))) (hs := (1, 1)) (by decide))) $$ HcBk
  icases HcBk with ⟨Hcr, HcBk⟩
  iapply (wp_wait_dma (VfI m ρ) (VbI m ρ) (VdI m ρ) (R1bI m ρ) K c (CK.bR 1 1) (by decide) (S := Oat 19) (by decide) (P := Pat 16) (by decide) (Wat 16 W)
      (bRs 1 1) (cbP 0 1) (cbP 1 1) rfl rfl) $$ [Hcr HO Hpos]
  · iframe Hrec Hlev
    isplitl [Hcr]; · iexact Hcr
    isplitl [HO]; · iexact HO
    iexact Hpos
  iintro ⟨HO, HdnbR11, Hpay, Hpos⟩
  unfold cellPay holds
  icases Hpay with ⟨%lb11, %hlb11, LB11⟩
  sl_exec_parts
  iapply (wp_send_f (VfI m ρ) (VbI m ρ) (VdI m ρ) (R1bI m ρ) K c 2 1 _ (dev20_eq c) (S := Oat 19) (by decide) (T := Tat 29) (by decide) (by decide) (Wat 17 W)
      _ (by show (cfP (srcSlot 2) 1).view.read (Elt F) (sound_body.sl.LF11_w1 m ρ c f0 lf11) = VfI m ρ c 2 1; exact hop_send_f m ρ c 1 1 1 lf11 hlf11 _ rfl _ _ _ _ (pay21_cast _ _) (strip_at _ _ c (q4 (zi c + 6 - 1)) 0 1 _ _ (strip7_1_1_cov c) (strip7_1_1_off c) (k0_off2_inb c 0) _ _ (prodList_mem9 _ _ c) f0))) $$ [HO Htok LF11 NF21]
  · iframe Hrec
    isplitl [HO]; · iexact HO
    isplitl [Htok]; · iexact Htok
    isplitl [LF11]; · iexact LF11
    iapply (free_intro _ _ _); iexact NF21
  iintro ⟨HcfS21, HO, Htok⟩
  sl_exec_parts
  iapply (wp_send_b (VfI m ρ) (VbI m ρ) (VdI m ρ) (R1bI m ρ) K c 2 1 _ (dev21_eq c) (S := Oat 20) (by decide) (T := Tat 31) (by decide) (by decide) (Wat 17 W)
      _ (by show (cbP (srcSlot 2) 1).view.read (Elt F) (sound_body.sl.LB11_w2 m ρ c lb11) = VbI m ρ c 2 1; exact hop_send_b m ρ c 1 1 1 lb11 hlb11 _ rfl _ _ _ _ (pay22_cast _ _) (strip_cov _ _ c (q4 (zi c + 2 + 1)) 1 1 _ _ (strip8_1_1_cov c) (strip8_1_1_off c) (k0_off3_inb c 2) _ _ (prodList_mem10 _ _ c)))) $$ [HO Htok LB11 NB21]
  · iframe Hrec
    isplitl [HO]; · iexact HO
    isplitl [Htok]; · iexact Htok
    isplitl [LB11]; · iexact LB11
    iapply (free_intro _ _ _); iexact NB21
  iintro ⟨HcbS21, HO, Htok⟩
  sl_exec_parts
  iapply (wp_wait_dma (VfI m ρ) (VbI m ρ) (VdI m ρ) (R1bI m ρ) K c (CK.fS 2 0) (by decide) (S := Oat 21) (by decide) (P := Pat 17) (by decide) (Wat 17 W)
      (fSs 2 0) (cfP 2 0) (cfP 1 0) rfl rfl) $$ [HcfS20 HO Hpos]
  · iframe Hrec Hlev
    isplitl [HcfS20]; · iexact HcfS20
    isplitl [HO]; · iexact HO
    iexact Hpos
  iintro ⟨HO, HdnfS20, Hpay, Hpos⟩
  unfold cellPay holds
  icases Hpay with ⟨%rfs20, %hrfs20, RFS20⟩
  sl_exec_parts
  ihave HcF := (Entails.of_eq (credF_take (F := F) c (S := ((((Finset.univ.erase (0, 0)).erase (0, 1)).erase (1, 0)).erase (1, 1))) (hs := (2, 0)) (by decide))) $$ HcF
  icases HcF with ⟨Hcr, HcF⟩
  iapply (wp_wait_dma (VfI m ρ) (VbI m ρ) (VdI m ρ) (R1bI m ρ) K c (CK.fR 2 0) (by decide) (S := Oat 21) (by decide) (P := Pat 18) (by decide) (Wat 18 W)
      (fRs 2 0) (cfP 1 0) (cfP 2 0) rfl rfl) $$ [Hcr HO Hpos]
  · iframe Hrec Hlev
    isplitl [Hcr]; · iexact Hcr
    isplitl [HO]; · iexact HO
    iexact Hpos
  iintro ⟨HO, HdnfR20, Hpay, Hpos⟩
  unfold cellPay holds
  icases Hpay with ⟨%lf20, %hlf20, LF20⟩
  sl_exec_parts
  iapply (wp_wait_dma (VfI m ρ) (VbI m ρ) (VdI m ρ) (R1bI m ρ) K c (CK.bS 2 0) (by decide) (S := Oat 21) (by decide) (P := Pat 19) (by decide) (Wat 19 W)
      (bSs 2 0) (cbP 2 0) (cbP 1 0) rfl rfl) $$ [HcbS20 HO Hpos]
  · iframe Hrec Hlev
    isplitl [HcbS20]; · iexact HcbS20
    isplitl [HO]; · iexact HO
    iexact Hpos
  iintro ⟨HO, HdnbS20, Hpay, Hpos⟩
  unfold cellPay holds
  icases Hpay with ⟨%rbs20, %hrbs20, RBS20⟩
  sl_exec_parts
  ihave HcBk := (Entails.of_eq (credB_take (F := F) c (S := ((((Finset.univ.erase (0, 0)).erase (0, 1)).erase (1, 0)).erase (1, 1))) (hs := (2, 0)) (by decide))) $$ HcBk
  icases HcBk with ⟨Hcr, HcBk⟩
  iapply (wp_wait_dma (VfI m ρ) (VbI m ρ) (VdI m ρ) (R1bI m ρ) K c (CK.bR 2 0) (by decide) (S := Oat 21) (by decide) (P := Pat 20) (by decide) (Wat 20 W)
      (bRs 2 0) (cbP 1 0) (cbP 2 0) rfl rfl) $$ [Hcr HO Hpos]
  · iframe Hrec Hlev
    isplitl [Hcr]; · iexact Hcr
    isplitl [HO]; · iexact HO
    iexact Hpos
  iintro ⟨HO, HdnbR20, Hpay, Hpos⟩
  unfold cellPay holds
  icases Hpay with ⟨%lb20, %hlb20, LB20⟩
  sl_exec_parts
  iapply (wp_wait_dma (VfI m ρ) (VbI m ρ) (VdI m ρ) (R1bI m ρ) K c (CK.fS 2 1) (by decide) (S := Oat 21) (by decide) (P := Pat 21) (by decide) (Wat 21 W)
      (fSs 2 1) (cfP 2 1) (cfP 1 1) rfl rfl) $$ [HcfS21 HO Hpos]
  · iframe Hrec Hlev
    isplitl [HcfS21]; · iexact HcfS21
    isplitl [HO]; · iexact HO
    iexact Hpos
  iintro ⟨HO, HdnfS21, Hpay, Hpos⟩
  unfold cellPay holds
  icases Hpay with ⟨%rfs21, %hrfs21, RFS21⟩
  sl_exec_parts
  ihave HcF := (Entails.of_eq (credF_take (F := F) c (S := (((((Finset.univ.erase (0, 0)).erase (0, 1)).erase (1, 0)).erase (1, 1)).erase (2, 0))) (hs := (2, 1)) (by decide))) $$ HcF
  icases HcF with ⟨Hcr, HcF⟩
  iapply (wp_wait_dma (VfI m ρ) (VbI m ρ) (VdI m ρ) (R1bI m ρ) K c (CK.fR 2 1) (by decide) (S := Oat 21) (by decide) (P := Pat 22) (by decide) (Wat 22 W)
      (fRs 2 1) (cfP 1 1) (cfP 2 1) rfl rfl) $$ [Hcr HO Hpos]
  · iframe Hrec Hlev
    isplitl [Hcr]; · iexact Hcr
    isplitl [HO]; · iexact HO
    iexact Hpos
  iintro ⟨HO, HdnfR21, Hpay, Hpos⟩
  unfold cellPay holds
  icases Hpay with ⟨%lf21, %hlf21, LF21⟩
  sl_exec_parts
  iapply (wp_wait_dma (VfI m ρ) (VbI m ρ) (VdI m ρ) (R1bI m ρ) K c (CK.bS 2 1) (by decide) (S := Oat 21) (by decide) (P := Pat 23) (by decide) (Wat 23 W)
      (bSs 2 1) (cbP 2 1) (cbP 1 1) rfl rfl) $$ [HcbS21 HO Hpos]
  · iframe Hrec Hlev
    isplitl [HcbS21]; · iexact HcbS21
    isplitl [HO]; · iexact HO
    iexact Hpos
  iintro ⟨HO, HdnbS21, Hpay, Hpos⟩
  unfold cellPay holds
  icases Hpay with ⟨%rbs21, %hrbs21, RBS21⟩
  sl_exec_parts
  ihave HcBk := (Entails.of_eq (credB_take (F := F) c (S := (((((Finset.univ.erase (0, 0)).erase (0, 1)).erase (1, 0)).erase (1, 1)).erase (2, 0))) (hs := (2, 1)) (by decide))) $$ HcBk
  icases HcBk with ⟨Hcr, HcBk⟩
  iapply (wp_wait_dma (VfI m ρ) (VbI m ρ) (VdI m ρ) (R1bI m ρ) K c (CK.bR 2 1) (by decide) (S := Oat 21) (by decide) (P := Pat 24) (by decide) (Wat 24 W)
      (bRs 2 1) (cbP 1 1) (cbP 2 1) rfl rfl) $$ [Hcr HO Hpos]
  · iframe Hrec Hlev
    isplitl [Hcr]; · iexact Hcr
    isplitl [HO]; · iexact HO
    iexact Hpos
  iintro ⟨HO, HdnbR21, Hpay, Hpos⟩
  unfold cellPay holds
  icases Hpay with ⟨%lb21, %hlb21, LB21⟩
  sl_exec_parts
  have hR : r1bM.view.writes (Elt F) f4 (sound_body.sl.H4_2 m ρ c lf20 lb20 lf21 lb21) = R1bI m ρ c :=
    quarter_eq m ρ c lf20 lb20 lf21 lb21 hlf20 hlb20 hlf21 hlb21 f4 _ rfl
  ihave H4 := (Entails.of_eq (show ((r1bM.view.loc (c : Thread nD τ) ↦[r1bM.view.set]{fullShare}
        r1bM.view.writes (Elt F) f4 (sound_body.sl.H4_2 m ρ c lf20 lb20 lf21 lb21) : sProp 𝕄))
      = (((c : Thread nD τ).loc cc0_scratch4) ↦{fullShare} R1bI m ρ c) from by rw [hR, View.set_whole])) $$ H4
  ihave H4 := (Entails.of_eq (ch_split_eq c (R1bI m ρ c))) $$ H4
  icases H4 with ⟨⟨C0, C1, C2, C3, C4, C5, C6⟩, Crest⟩
  iapply (wp_send_d (VfI m ρ) (VbI m ρ) (VdI m ρ) (R1bI m ρ) K c 0 _ (dev22_eq c) (S := Oat 21) (by decide) (T := Tat 33) (by decide) (by decide) (Wat 25 W)
      (chunk_read m ρ c 0)) $$ [HO Htok C0 ND0]
  · iframe Hrec C0
    isplitl [HO]; · iexact HO
    isplitl [Htok]; · iexact Htok
    iapply (free_intro _ _ _); iexact ND0
  iintro ⟨HcdS0, HO, Htok⟩
  sl_exec_parts
  iapply (wp_send_d (VfI m ρ) (VbI m ρ) (VdI m ρ) (R1bI m ρ) K c 1 _ (dev23_eq c) (S := Oat 22) (by decide) (T := Tat 35) (by decide) (by decide) (Wat 25 W)
      (chunk_read m ρ c 1)) $$ [HO Htok C1 ND1]
  · iframe Hrec C1
    isplitl [HO]; · iexact HO
    isplitl [Htok]; · iexact Htok
    iapply (free_intro _ _ _); iexact ND1
  iintro ⟨HcdS1, HO, Htok⟩
  sl_exec_parts
  iapply (wp_send_d (VfI m ρ) (VbI m ρ) (VdI m ρ) (R1bI m ρ) K c 2 _ (dev24_eq c) (S := Oat 23) (by decide) (T := Tat 37) (by decide) (by decide) (Wat 25 W)
      (chunk_read m ρ c 2)) $$ [HO Htok C2 ND2]
  · iframe Hrec C2
    isplitl [HO]; · iexact HO
    isplitl [Htok]; · iexact Htok
    iapply (free_intro _ _ _); iexact ND2
  iintro ⟨HcdS2, HO, Htok⟩
  sl_exec_parts
  iapply (wp_send_d (VfI m ρ) (VbI m ρ) (VdI m ρ) (R1bI m ρ) K c 3 _ (dev25_eq c) (S := Oat 24) (by decide) (T := Tat 39) (by decide) (by decide) (Wat 25 W)
      (chunk_read m ρ c 3)) $$ [HO Htok C3 ND3]
  · iframe Hrec C3
    isplitl [HO]; · iexact HO
    isplitl [Htok]; · iexact Htok
    iapply (free_intro _ _ _); iexact ND3
  iintro ⟨HcdS3, HO, Htok⟩
  sl_exec_parts
  iapply (wp_send_d (VfI m ρ) (VbI m ρ) (VdI m ρ) (R1bI m ρ) K c 4 _ (dev26_eq c) (S := Oat 25) (by decide) (T := Tat 41) (by decide) (by decide) (Wat 25 W)
      (chunk_read m ρ c 4)) $$ [HO Htok C4 ND4]
  · iframe Hrec C4
    isplitl [HO]; · iexact HO
    isplitl [Htok]; · iexact Htok
    iapply (free_intro _ _ _); iexact ND4
  iintro ⟨HcdS4, HO, Htok⟩
  sl_exec_parts
  iapply (wp_send_d (VfI m ρ) (VbI m ρ) (VdI m ρ) (R1bI m ρ) K c 5 _ (dev27_eq c) (S := Oat 26) (by decide) (T := Tat 43) (by decide) (by decide) (Wat 25 W)
      (chunk_read m ρ c 5)) $$ [HO Htok C5 ND5]
  · iframe Hrec C5
    isplitl [HO]; · iexact HO
    isplitl [Htok]; · iexact Htok
    iapply (free_intro _ _ _); iexact ND5
  iintro ⟨HcdS5, HO, Htok⟩
  sl_exec_parts
  iapply (wp_send_d (VfI m ρ) (VbI m ρ) (VdI m ρ) (R1bI m ρ) K c 6 _ (dev28_eq c) (S := Oat 27) (by decide) (T := Tat 45) (by decide) (by decide) (Wat 25 W)
      (chunk_read m ρ c 6)) $$ [HO Htok C6 ND6]
  · iframe Hrec C6
    isplitl [HO]; · iexact HO
    isplitl [Htok]; · iexact Htok
    iapply (free_intro _ _ _); iexact ND6
  iintro ⟨HcdS6, HO, Htok⟩
  sl_exec_parts
  iapply (wp_wait_dma (VfI m ρ) (VbI m ρ) (VdI m ρ) (R1bI m ρ) K c (CK.dS 0) (by decide) (S := Oat 28) (by decide) (P := Pat 25) (by decide) (Wat 25 W)
      (dSs 0) (cdP 0) (chM c 0) rfl rfl) $$ [HcdS0 HO Hpos]
  · iframe Hrec Hlev
    isplitl [HcdS0]; · iexact HcdS0
    isplitl [HO]; · iexact HO
    iexact Hpos
  iintro ⟨HO, HdndS0, Hpay, Hpos⟩
  unfold cellPay holds
  icases Hpay with C0
  sl_exec_parts
  ihave HcD := (Entails.of_eq (credD_take (F := F) c (S := Finset.univ) (o := 0) (by decide))) $$ HcD
  icases HcD with ⟨Hcr, HcD⟩
  iapply (wp_wait_dma (VfI m ρ) (VbI m ρ) (VdI m ρ) (R1bI m ρ) K c (CK.dR 0) (by decide) (S := Oat 28) (by decide) (P := Pat 26) (by decide) (Wat 26 W)
      (dRs 0) (chM c 0) (cdP 0) rfl rfl) $$ [Hcr HO Hpos]
  · iframe Hrec Hlev
    isplitl [Hcr]; · iexact Hcr
    isplitl [HO]; · iexact HO
    iexact Hpos
  iintro ⟨HO, HdndR0, Hpay, Hpos⟩
  unfold cellPay holds
  icases Hpay with ⟨%ld0, %hld0, LD0⟩
  sl_exec_parts
  iapply (wp_wait_dma (VfI m ρ) (VbI m ρ) (VdI m ρ) (R1bI m ρ) K c (CK.dS 1) (by decide) (S := Oat 28) (by decide) (P := Pat 27) (by decide) (Wat 27 W)
      (dSs 1) (cdP 1) (chM c 1) rfl rfl) $$ [HcdS1 HO Hpos]
  · iframe Hrec Hlev
    isplitl [HcdS1]; · iexact HcdS1
    isplitl [HO]; · iexact HO
    iexact Hpos
  iintro ⟨HO, HdndS1, Hpay, Hpos⟩
  unfold cellPay holds
  icases Hpay with C1
  sl_exec_parts
  ihave HcD := (Entails.of_eq (credD_take (F := F) c (S := (Finset.univ.erase 0)) (o := 1) (by decide))) $$ HcD
  icases HcD with ⟨Hcr, HcD⟩
  iapply (wp_wait_dma (VfI m ρ) (VbI m ρ) (VdI m ρ) (R1bI m ρ) K c (CK.dR 1) (by decide) (S := Oat 28) (by decide) (P := Pat 28) (by decide) (Wat 28 W)
      (dRs 1) (chM c 1) (cdP 1) rfl rfl) $$ [Hcr HO Hpos]
  · iframe Hrec Hlev
    isplitl [Hcr]; · iexact Hcr
    isplitl [HO]; · iexact HO
    iexact Hpos
  iintro ⟨HO, HdndR1, Hpay, Hpos⟩
  unfold cellPay holds
  icases Hpay with ⟨%ld1, %hld1, LD1⟩
  sl_exec_parts
  iapply (wp_wait_dma (VfI m ρ) (VbI m ρ) (VdI m ρ) (R1bI m ρ) K c (CK.dS 2) (by decide) (S := Oat 28) (by decide) (P := Pat 29) (by decide) (Wat 29 W)
      (dSs 2) (cdP 2) (chM c 2) rfl rfl) $$ [HcdS2 HO Hpos]
  · iframe Hrec Hlev
    isplitl [HcdS2]; · iexact HcdS2
    isplitl [HO]; · iexact HO
    iexact Hpos
  iintro ⟨HO, HdndS2, Hpay, Hpos⟩
  unfold cellPay holds
  icases Hpay with C2
  sl_exec_parts
  ihave HcD := (Entails.of_eq (credD_take (F := F) c (S := ((Finset.univ.erase 0).erase 1)) (o := 2) (by decide))) $$ HcD
  icases HcD with ⟨Hcr, HcD⟩
  iapply (wp_wait_dma (VfI m ρ) (VbI m ρ) (VdI m ρ) (R1bI m ρ) K c (CK.dR 2) (by decide) (S := Oat 28) (by decide) (P := Pat 30) (by decide) (Wat 30 W)
      (dRs 2) (chM c 2) (cdP 2) rfl rfl) $$ [Hcr HO Hpos]
  · iframe Hrec Hlev
    isplitl [Hcr]; · iexact Hcr
    isplitl [HO]; · iexact HO
    iexact Hpos
  iintro ⟨HO, HdndR2, Hpay, Hpos⟩
  unfold cellPay holds
  icases Hpay with ⟨%ld2, %hld2, LD2⟩
  sl_exec_parts
  iapply (wp_wait_dma (VfI m ρ) (VbI m ρ) (VdI m ρ) (R1bI m ρ) K c (CK.dS 3) (by decide) (S := Oat 28) (by decide) (P := Pat 31) (by decide) (Wat 31 W)
      (dSs 3) (cdP 3) (chM c 3) rfl rfl) $$ [HcdS3 HO Hpos]
  · iframe Hrec Hlev
    isplitl [HcdS3]; · iexact HcdS3
    isplitl [HO]; · iexact HO
    iexact Hpos
  iintro ⟨HO, HdndS3, Hpay, Hpos⟩
  unfold cellPay holds
  icases Hpay with C3
  sl_exec_parts
  ihave HcD := (Entails.of_eq (credD_take (F := F) c (S := (((Finset.univ.erase 0).erase 1).erase 2)) (o := 3) (by decide))) $$ HcD
  icases HcD with ⟨Hcr, HcD⟩
  iapply (wp_wait_dma (VfI m ρ) (VbI m ρ) (VdI m ρ) (R1bI m ρ) K c (CK.dR 3) (by decide) (S := Oat 28) (by decide) (P := Pat 32) (by decide) (Wat 32 W)
      (dRs 3) (chM c 3) (cdP 3) rfl rfl) $$ [Hcr HO Hpos]
  · iframe Hrec Hlev
    isplitl [Hcr]; · iexact Hcr
    isplitl [HO]; · iexact HO
    iexact Hpos
  iintro ⟨HO, HdndR3, Hpay, Hpos⟩
  unfold cellPay holds
  icases Hpay with ⟨%ld3, %hld3, LD3⟩
  sl_exec_parts
  iapply (wp_wait_dma (VfI m ρ) (VbI m ρ) (VdI m ρ) (R1bI m ρ) K c (CK.dS 4) (by decide) (S := Oat 28) (by decide) (P := Pat 33) (by decide) (Wat 33 W)
      (dSs 4) (cdP 4) (chM c 4) rfl rfl) $$ [HcdS4 HO Hpos]
  · iframe Hrec Hlev
    isplitl [HcdS4]; · iexact HcdS4
    isplitl [HO]; · iexact HO
    iexact Hpos
  iintro ⟨HO, HdndS4, Hpay, Hpos⟩
  unfold cellPay holds
  icases Hpay with C4
  sl_exec_parts
  ihave HcD := (Entails.of_eq (credD_take (F := F) c (S := ((((Finset.univ.erase 0).erase 1).erase 2).erase 3)) (o := 4) (by decide))) $$ HcD
  icases HcD with ⟨Hcr, HcD⟩
  iapply (wp_wait_dma (VfI m ρ) (VbI m ρ) (VdI m ρ) (R1bI m ρ) K c (CK.dR 4) (by decide) (S := Oat 28) (by decide) (P := Pat 34) (by decide) (Wat 34 W)
      (dRs 4) (chM c 4) (cdP 4) rfl rfl) $$ [Hcr HO Hpos]
  · iframe Hrec Hlev
    isplitl [Hcr]; · iexact Hcr
    isplitl [HO]; · iexact HO
    iexact Hpos
  iintro ⟨HO, HdndR4, Hpay, Hpos⟩
  unfold cellPay holds
  icases Hpay with ⟨%ld4, %hld4, LD4⟩
  sl_exec_parts
  iapply (wp_wait_dma (VfI m ρ) (VbI m ρ) (VdI m ρ) (R1bI m ρ) K c (CK.dS 5) (by decide) (S := Oat 28) (by decide) (P := Pat 35) (by decide) (Wat 35 W)
      (dSs 5) (cdP 5) (chM c 5) rfl rfl) $$ [HcdS5 HO Hpos]
  · iframe Hrec Hlev
    isplitl [HcdS5]; · iexact HcdS5
    isplitl [HO]; · iexact HO
    iexact Hpos
  iintro ⟨HO, HdndS5, Hpay, Hpos⟩
  unfold cellPay holds
  icases Hpay with C5
  sl_exec_parts
  ihave HcD := (Entails.of_eq (credD_take (F := F) c (S := (((((Finset.univ.erase 0).erase 1).erase 2).erase 3).erase 4)) (o := 5) (by decide))) $$ HcD
  icases HcD with ⟨Hcr, HcD⟩
  iapply (wp_wait_dma (VfI m ρ) (VbI m ρ) (VdI m ρ) (R1bI m ρ) K c (CK.dR 5) (by decide) (S := Oat 28) (by decide) (P := Pat 36) (by decide) (Wat 36 W)
      (dRs 5) (chM c 5) (cdP 5) rfl rfl) $$ [Hcr HO Hpos]
  · iframe Hrec Hlev
    isplitl [Hcr]; · iexact Hcr
    isplitl [HO]; · iexact HO
    iexact Hpos
  iintro ⟨HO, HdndR5, Hpay, Hpos⟩
  unfold cellPay holds
  icases Hpay with ⟨%ld5, %hld5, LD5⟩
  sl_exec_parts
  iapply (wp_wait_dma (VfI m ρ) (VbI m ρ) (VdI m ρ) (R1bI m ρ) K c (CK.dS 6) (by decide) (S := Oat 28) (by decide) (P := Pat 37) (by decide) (Wat 37 W)
      (dSs 6) (cdP 6) (chM c 6) rfl rfl) $$ [HcdS6 HO Hpos]
  · iframe Hrec Hlev
    isplitl [HcdS6]; · iexact HcdS6
    isplitl [HO]; · iexact HO
    iexact Hpos
  iintro ⟨HO, HdndS6, Hpay, Hpos⟩
  unfold cellPay holds
  icases Hpay with C6
  sl_exec_parts
  ihave HcD := (Entails.of_eq (credD_take (F := F) c (S := ((((((Finset.univ.erase 0).erase 1).erase 2).erase 3).erase 4).erase 5)) (o := 6) (by decide))) $$ HcD
  icases HcD with ⟨Hcr, HcD⟩
  iapply (wp_wait_dma (VfI m ρ) (VbI m ρ) (VdI m ρ) (R1bI m ρ) K c (CK.dR 6) (by decide) (S := Oat 28) (by decide) (P := Pat 38) (by decide) (Wat 38 W)
      (dRs 6) (chM c 6) (cdP 6) rfl rfl) $$ [Hcr HO Hpos]
  · iframe Hrec Hlev
    isplitl [Hcr]; · iexact Hcr
    isplitl [HO]; · iexact HO
    iexact Hpos
  iintro ⟨HO, HdndR6, Hpay, Hpos⟩
  unfold cellPay holds
  icases Hpay with ⟨%ld6, %hld6, LD6⟩
  sl_exec_parts
  rw [wp_ret]
  ihave H4 := (ch_split c (R1bI m ρ c)).2 $$ [C0 C1 C2 C3 C4 C5 C6 Crest]
  · isplitl [C0 C1 C2 C3 C4 C5 C6]
    · isplitl [C0]; · iexact C0
      isplitl [C1]; · iexact C1
      isplitl [C2]; · iexact C2
      isplitl [C3]; · iexact C3
      isplitl [C4]; · iexact C4
      isplitl [C5]; · iexact C5
      iexact C6
    · iexact Crest
  ihave H4 := (Entails.of_eq (show ((((c : Thread nD τ).loc cc0_scratch4) ↦{fullShare} R1bI m ρ c : sProp 𝕄))
      = (r1bM.view.loc (c : Thread nD τ) ↦[r1bM.view.set]{fullShare} R1bI m ρ c) from by rw [View.set_whole])) $$ H4
  ihave Hdn := (done_all (F := F) c) $$ [HdnfS00 HdnfR00 HdnbS00 HdnbR00 HdnfS01 HdnfR01 HdnbS01 HdnbR01 HdnfS10 HdnfR10 HdnbS10 HdnbR10 HdnfS11 HdnfR11 HdnbS11 HdnbR11 HdnfS20 HdnfR20 HdnbS20 HdnbR20 HdnfS21 HdnfR21 HdnbS21 HdnbR21 HdndS0 HdndR0 HdndS1 HdndR1 HdndS2 HdndR2 HdndS3 HdndR3 HdndS4 HdndR4 HdndS5 HdndR5 HdndS6 HdndR6]
  · iframe HdnfS00 HdnfR00 HdnbS00 HdnbR00 HdnfS01 HdnfR01 HdnbS01 HdnbR01 HdnfS10 HdnfR10 HdnbS10 HdnbR10 HdnfS11 HdnfR11 HdnbS11 HdnbR11 HdnfS20 HdnfR20 HdnbS20 HdnbR20 HdnfS21 HdnfR21 HdnbS21 HdnbR21 HdndS0 HdndR0 HdndS1 HdndR1 HdndS2 HdndR2 HdndS3 HdndR3 HdndS4 HdndR4 HdndS5 HdndR5 HdndS6 HdndR6
  ihave HO := (Entails.of_eq (congrArg (fun O => (owes (c : Thread nD τ) O (insert (csem (CK.dR 6), ()) (Wat 38 W)) : sProp 𝕄))
      (Orem_done c (Oat 28) (by decide)))) $$ HO
  imod (finish m ρ K c (Wat 39 W) _ _ _ _
      (by exact out_all m ρ c lf20 lb20 lf21 lb21 hlf20 hlb20 hlf21 hlb21 ld0 ld1 ld2 ld3 ld4 ld5 ld6 hld0 hld1 hld2 hld3 hld4 hld5 hld6 g2)) $$ [Hrec Hdn HO H0 RFS10 RFS11 RFS20 RFS21 LF20 LF21 RFS00 RFS01 RBS10 RBS11 RBS20 RBS21 LB20 LB21 RBS00 RBS01 H3 H4 LD0 LD1 LD2 LD3 LD4 LD5 LD6 Ha Hb Hout] with Hpost
  · iframe Hrec Hdn H0
    isplitl [HO]; · iexact HO
    isplitl [RFS10 RFS11 RFS20 RFS21 LF20 LF21 RFS00 RFS01]
    · isplitl [RFS10]; · (iapply (free_intro _ _ _); iexact RFS10)
      isplitl [RFS11]; · (iapply (free_intro _ _ _); iexact RFS11)
      isplitl [RFS20]; · (iapply (free_intro _ _ _); iexact RFS20)
      isplitl [RFS21]; · (iapply (free_intro _ _ _); iexact RFS21)
      isplitl [LF20]; · (iapply (free_intro _ _ _); iexact LF20)
      isplitl [LF21]; · (iapply (free_intro _ _ _); iexact LF21)
      isplitl [RFS00]; · (iapply (free_intro _ _ _); iexact RFS00)
      (iapply (free_intro _ _ _); iexact RFS01)
    isplitl [RBS10 RBS11 RBS20 RBS21 LB20 LB21 RBS00 RBS01]
    · isplitl [RBS10]; · (iapply (free_intro _ _ _); iexact RBS10)
      isplitl [RBS11]; · (iapply (free_intro _ _ _); iexact RBS11)
      isplitl [RBS20]; · (iapply (free_intro _ _ _); iexact RBS20)
      isplitl [RBS21]; · (iapply (free_intro _ _ _); iexact RBS21)
      isplitl [LB20]; · (iapply (free_intro _ _ _); iexact LB20)
      isplitl [LB21]; · (iapply (free_intro _ _ _); iexact LB21)
      isplitl [RBS00]; · (iapply (free_intro _ _ _); iexact RBS00)
      (iapply (free_intro _ _ _); iexact RBS01)
    isplitl [H3]; · iexact H3
    isplitl [H4]; · iexact H4
    isplitl [LD0 LD1 LD2 LD3 LD4 LD5 LD6]
    · isplitl [LD0]; · (iapply (free_intro _ _ _); iexact LD0)
      isplitl [LD1]; · (iapply (free_intro _ _ _); iexact LD1)
      isplitl [LD2]; · (iapply (free_intro _ _ _); iexact LD2)
      isplitl [LD3]; · (iapply (free_intro _ _ _); iexact LD3)
      isplitl [LD4]; · (iapply (free_intro _ _ _); iexact LD4)
      isplitl [LD5]; · (iapply (free_intro _ _ _); iexact LD5)
      (iapply (free_intro _ _ _); iexact LD6)
    isplitl [Ha]; · iexact Ha
    isplitl [Hb]; · iexact Hb
    iexact Hout
  imodintro
  iapply Hk
  iexact Hpost

end

end Cert.KernelIdeal.Ring

end
-- ==== Proof.K.Steps.lean ====
/- One rule for each kind of step: an entry signal, the entry wait, a transfer, a wait for a transfer. A step erases
   what it pays from what is owed. -/
import proofs.«900894_g7700000000000895_dist_matmul_mk_i_outk_m1536_n1536_k768_v7x_i32_f32_1_alg».proof.Proof.K.Ghost

noncomputable section

namespace Cert.Kernel.Ring

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section
variable (Vf Vb : Dev nD → Fin 3 → Fin 2 → Vec F S192x768 .bf16) (Vd : Dev nD → Fin 7 → Vec F S48x1536 .bf16)
variable (R1b : Dev nD → (cc0_scratch4 : Ref sig .tc).ty.Contents (Elt F))
variable (K : Dev nD × CK → ℕ) (c : Dev nD)

omit [FloatOps F] in
theorem toks_take {T : Finset TK} {i : TK} (hi : i ∈ T) :
    toksAt (F := F) c T = iprop(dutyTok ER (tokCell c i) 0 (tokDuty i) ∗ toksAt (F := F) c (T.erase i)) := by
  unfold toksAt; exact bigSep_erase hi
omit [FloatOps F] in
theorem pos_take {S : Finset CK} {k : CK} (hk : k ∈ S) :
    posAt (F := F) c S = iprop(atPos ER (kcell (c, k)) 0 ∅ 0 ∗ posAt (F := F) c (S.erase k)) := by
  unfold posAt; exact bigSep_erase hk
def myPay (j : Fin 9) : sProp 𝕄 :=
  if j.val = 0 then sixFree (F := F) c cfP
  else if j.val = 1 then sixFree (F := F) c cbP
  else if h : j.val < 9 ∧ 2 ≤ j.val then free (F := F) c (cdP ⟨8 - j.val, by omega⟩)
  else iprop(emp)

omit [FloatOps F] in
theorem barPay_peer (j : Fin 9) : barPay (F := F) (peer j c) j = myPay (F := F) c j := by
  unfold barPay myPay
  by_cases h0 : j.val = 0
  · have hp : peer j c = zl c := if_pos h0
    rw [if_pos h0, if_pos h0, hp, zr_zl]
  · by_cases h1 : j.val = 1
    · have hp : peer j c = zr c := by unfold peer; rw [if_neg h0, if_pos h1]
      rw [if_neg h0, if_pos h1, if_neg h0, if_pos h1, hp, zl_zr]
    · have h2 : j.val < 9 ∧ 2 ≤ j.val := ⟨j.isLt, by omega⟩
      have hp : inp (9 - j.val) (peer j c) = c := by
        have := peerInv_peer j c
        unfold peerInv at this
        rwa [if_neg h0, if_neg h1] at this
      rw [if_neg h0, if_neg h1, dif_pos h2, if_neg h0, if_neg h1, dif_pos h2, hp]

omit [FloatOps F] in
theorem myPay_0 : myPay (F := F) c 0 = sixFree (F := F) c cfP := rfl
omit [FloatOps F] in
theorem myPay_1 : myPay (F := F) c 1 = sixFree (F := F) c cbP := rfl
omit [FloatOps F] in
theorem myPay_2 : myPay (F := F) c 2 = free (F := F) c (cdP 6) := rfl
omit [FloatOps F] in
theorem myPay_3 : myPay (F := F) c 3 = free (F := F) c (cdP 5) := rfl
omit [FloatOps F] in
theorem myPay_4 : myPay (F := F) c 4 = free (F := F) c (cdP 4) := rfl
omit [FloatOps F] in
theorem myPay_5 : myPay (F := F) c 5 = free (F := F) c (cdP 3) := rfl
omit [FloatOps F] in
theorem myPay_6 : myPay (F := F) c 6 = free (F := F) c (cdP 2) := rfl
omit [FloatOps F] in
theorem myPay_7 : myPay (F := F) c 7 = free (F := F) c (cdP 1) := rfl
omit [FloatOps F] in
theorem myPay_8 : myPay (F := F) c 8 = free (F := F) c (cdP 0) := rfl

omit [FloatOps F] in
theorem sixFree_def (d : Dev nD) (P : Fin 4 → Fin 2 → Memref sig .tc .vmem S192x768 .bf16) :
    sixFree (F := F) d P = iprop(free (F := F) d (P 0 0) ∗ free (F := F) d (P 0 1) ∗ free (F := F) d (P 1 0) ∗ free (F := F) d (P 1 1)
      ∗ free (F := F) d (P 2 0) ∗ free (F := F) d (P 2 1)) := rfl

omit [FloatOps F] in
theorem free_intro (d : Dev nD) {s : Shape} {e : EltTy} (M : Memref sig .tc .vmem s e) (f : Buf (Elt F) (M.view.loc (d : Thread nD τ))) :
    (M.view.loc (d : Thread nD τ) ↦[M.view.set]{fullShare} f) ⊢ free (F := F) d M := by
  unfold free; iintro H; iexists f; iexact H

theorem wp_sig (j : Fin 9) (n : Dev nD) (hn : n = peer j c) {S : Finset PK} (hS : PK.sig j ∈ S) {T : Finset TK} (hT : Sum.inl (PK.sig j) ∈ T)
    (W : Waits sig Unit) {α : Type} {Q : α → sProp 𝕄} {k : PUnit → Prog (TpuEff nD τ sig (Elt F) Λ₀ .tc) α} :
    iprop(records Vf Vb Vd R1b K ∗ owes (c : Thread nD τ) (Orem c S) W ∗ toksAt (F := F) c T ∗ myPay (F := F) c j)
      ⊢ iprop(((owes (c : Thread nD τ) (Orem c (S.erase (.sig j))) W ∗ toksAt (F := F) c (T.erase (.inl (.sig j))))
            -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS 1) k) Q) := by
  subst hn
  have hpay : myPay (F := F) c j ⊢ (ringRd Vf Vb Vd R1b).payload (((peer j c : Dev nD) : Thread nD τ), SemLoc.reg barS) 0 j := by
    show myPay (F := F) c j ⊢ (ringRd Vf Vb Vd R1b).payload (kcell (peer j c, .bar)) 0 j
    rw [payload_cell, ← barPay_peer]; exact .rfl
  have hrule := Rounds.wp_signal 𝒱₀ ER (ringRd Vf Vb Vd R1b) (c : Thread nD τ) none (dst := (peer j c : Thread nD τ)) (sem := barS) (r := 0) (d := j) (k' := 1)
    (defs := defs₀ (F := F)) (Γ := .empty) (Q := Q) (k := k) (κ := K (peer j c, .bar))
    (by rw [show (((peer j c : Dev nD) : Thread nD τ), SemLoc.reg barS) = kcell (peer j c, .bar) from rfl, duties_bar]; exact Finset.mem_univ _)
    (amount_cell Vf Vb Vd R1b (peer j c) .bar 0 j) () (Orem c (S.erase (.sig j))) (Orem_erase c hS) (W := W) (Es := Set.univ)
  rw [toks_take c hT]
  iintro ⟨#Hrec, HL, ⟨Ht, Htok⟩, Hpay⟩ Hk
  iapply hrule $$ [HL Ht Hpay] [Hk Htok]
  · isplitr; · iapply (inv_at Vf Vb Vd R1b K (peer j c, .bar)); iexact Hrec
    isplitl [HL]; · iexact HL
    isplitl [Ht]; · iexact Ht
    isplitl [Hpay]; · iapply hpay; iexact Hpay
    iapply (reached_at Vf Vb Vd R1b K (peer j c, .bar)); iexact Hrec
  · iintro HL
    iapply Hk
    isplitl [HL]; · iexact HL
    iexact Htok

theorem wp_bar_wait {S : Finset PK} (hlev : ∀ i ∈ S, 1 < lvP i) (W : Waits sig Unit)
    {w : TpuEff nD τ sig (Elt F) Λ₀ .tc PUnit}
    (hw : ∀ K' : PUnit → sProp 𝕄, wpE (defs₀ (F := F)) 𝒱₀ (c : Thread nD τ) none Set.univ w K' = waitSpec (c : Thread nD τ) Set.univ (.reg barS) 9 K')
    {α : Type} {Q : α → sProp 𝕄} {k : PUnit → Prog (TpuEff nD τ sig (Elt F) Λ₀ .tc) α} :
    iprop(records Vf Vb Vd R1b K ∗ cred (tallyAt (kcell (c, .bar)) () 9) ∗ owes (c : Thread nD τ) (Orem c S) W ∗ levAts L lv
        ∗ atPos ER (kcell (c, .bar)) 0 ∅ 0)
      ⊢ iprop(((owes (c : Thread nD τ) (Orem c S) (insert (SemLoc.reg barS, ()) W)
              ∗ sixFree (F := F) (zr c) cfP ∗ sixFree (F := F) (zl c) cbP
              ∗ free (F := F) (inp 7 c) (cdP 6) ∗ free (F := F) (inp 6 c) (cdP 5) ∗ free (F := F) (inp 5 c) (cdP 4) ∗ free (F := F) (inp 4 c) (cdP 3)
              ∗ free (F := F) (inp 3 c) (cdP 2) ∗ free (F := F) (inp 2 c) (cdP 1) ∗ free (F := F) (inp 1 c) (cdP 0))
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  have hrule := Rounds.wp_wait_rest_token 𝒱₀ ER (ringRd Vf Vb Vd R1b) (c : Thread nD τ) none (sm := csem .bar) (k' := 9) (κ := K (c, .bar))
    (Q := Q) (k := k) hw (Set.mem_univ _) () (O := Orem c S) (W := W) (R := 0) (m := 0) (T := ∅)
    (by rw [Nat.zero_add]; exact (expect_bar Vf Vb Vd R1b c).symm)
  rw [rest_bar Vf Vb Vd R1b c] at hrule
  iintro ⟨#Hrec, Hc, HL, #Hlev, Hat⟩ Hk
  iapply hrule $$ [Hc HL Hat] [Hk]
  · isplitr; · iapply (inv_at Vf Vb Vd R1b K (c, .bar)); iexact Hrec
    isplitl [Hc]; · iexact Hc
    isplitl [HL]; · iexact HL
    isplitr; · iapply (mayWait_cellP c .bar S hlev); iexact Hlev
    iexact Hat
  · iintro ⟨HL, -, -, Hpay⟩
    iapply Hk
    isplitl [HL]; · iexact HL
    iexact Hpay

theorem wp_send_f (h : Fin 3) (s : Fin 2) (n : Dev nD) (hn : n = zr c) {S : Finset PK} (hS : PK.rf h s ∈ S) {T : Finset TK}
    (hT1 : Sum.inl (PK.rf h s) ∈ T) (hT2 : Sum.inr (SK.f h s) ∈ T) (W : Waits sig Unit)
    (fs : Buf (Elt F) ((cfP (srcSlot h) s).view.loc (c : Thread nD τ))) (hV : (cfP (srcSlot h) s).view.read (Elt F) fs = Vf c h s)
    {hsc : (cfP (dstSlot h) s : Memref sig (Dev.tc n : Thread nD τ).2.kind .vmem S192x768 .bf16).view.ref.isScScratch = false}
    {hsrc : (cfP (srcSlot h) s).view.WordExact} {hdst : (cfP (dstSlot h) s).view.WordExact}
    {hsem : DmaTarget.Typed .vmem (.dma (fRs h s)) (.remote (Dev.tc n : Thread nD τ) (cfP (dstSlot h) s) (.dma (fSs h s)) hsc)}
    {α : Type} {Q : α → sProp 𝕄} {k : PUnit → Prog (TpuEff nD τ sig (Elt F) Λ₀ .tc) α} :
    iprop(records Vf Vb Vd R1b K ∗ owes (c : Thread nD τ) (Orem c S) W ∗ toksAt (F := F) c T
        ∗ ((cfP (srcSlot h) s).view.loc (c : Thread nD τ) ↦[(cfP (srcSlot h) s).view.set]{fullShare} fs)
        ∗ free (F := F) (zr c) (cfP (dstSlot h) s))
      ⊢ iprop(((cred (tallyAt (kcell (c, .fS h s)) () N192) ∗ owes (c : Thread nD τ) (Orem c (S.erase (.rf h s))) W
              ∗ toksAt (F := F) c ((T.erase (.inl (.rf h s))).erase (.inr (.f h s))))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (cfP (srcSlot h) s) (.remote (Dev.tc n : Thread nD τ) (cfP (dstSlot h) s) (.dma (fSs h s)) hsc) (.dma (fRs h s)) hsrc hdst hsem) k) Q) := by
  subst hn
  have hkS : CK.fS h s ≠ CK.bar := fun e => by cases e
  have hkR : CK.fR h s ≠ CK.bar := fun e => by cases e
  have hpay₁ : ((cfP (srcSlot h) s).view.loc (c : Thread nD τ) ↦[(cfP (srcSlot h) s).view.set]{fullShare} fs)
      ⊢ (ringRd Vf Vb Vd R1b).payload (kcell (c, CK.fS h s)) 0 0 := by
    rw [payload_cell]
    show _ ⊢ holds c (cfP (srcSlot h) s) (Vf c h s)
    unfold holds
    iintro H; iexists fs; isplitr
    · ipureintro; exact hV
    iexact H
  have hpay₂ (fd : Buf (Elt F) ((cfP (dstSlot h) s).view.loc (zr c : Thread nD τ))) :
      ((cfP (dstSlot h) s).view.loc (zr c : Thread nD τ) ↦[(cfP (dstSlot h) s).view.set]{fullShare}
          ((cfP (dstSlot h) s).view.write (Elt F) fd ((cfP (srcSlot h) s).view.read (Elt F) fs) Finset.univ))
      ⊢ (ringRd Vf Vb Vd R1b).payload (kcell (zr c, CK.fR h s)) 0 0 := by
    rw [payload_cell]
    show _ ⊢ holds (zr c) (cfP (dstSlot h) s) (Vf (zl (zr c)) h s)
    rw [zl_zr]
    unfold holds
    iintro H
    iexists ((cfP (dstSlot h) s).view.write (Elt F) fd ((cfP (srcSlot h) s).view.read (Elt F) fs) Finset.univ)
    isplitr
    · ipureintro; rw [View.read_write_univ]; exact hV
    iexact H
  have hrule (fd : Buf (Elt F) ((cfP (dstSlot h) s).view.loc (zr c : Thread nD τ))) :=
    Rounds.wp_send_pointsTo 𝒱₀ ER (ringRd Vf Vb Vd R1b) (c : Thread nD τ) none (defs := defs₀ (F := F)) (Γ := .empty) (Q := Q) (k := k)
      (c' := (zr c : Thread nD τ)) (src := cfP (srcSlot h) s) (dst := cfP (dstSlot h) s) (hsc := hsc) (sS := .dma (fSs h s)) (sem := .dma (fRs h s))
      (hsrc := hsrc) (hdst := hdst) (hsem := hsem) (q := fullShare) (fs := fs) (fd := fd)
      (r₁ := 0) (r₂ := 0) (d₁ := 0) (d₂ := 0) (κ₁ := K (c, CK.fS h s)) (κ₂ := K (zr c, CK.fR h s))
      (by rw [show ((c : Thread nD τ), SemLoc.dma (fSs h s)) = kcell (c, CK.fS h s) from rfl, duties_one Vf Vb Vd R1b c _ hkS]; exact Finset.mem_singleton_self _)
      (by rw [show (((zr c : Dev nD) : Thread nD τ), SemLoc.dma (fRs h s)) = kcell (zr c, CK.fR h s) from rfl, duties_one Vf Vb Vd R1b (zr c) _ hkR]; exact Finset.mem_singleton_self _)
      () () N192 rfl (amount_cell Vf Vb Vd R1b c (CK.fS h s) 0 0) (amount_cell Vf Vb Vd R1b (zr c) (CK.fR h s) 0 0)
      (Orem c (S.erase (PK.rf h s))) (Orem_erase c hS) (W := W) (Es := Set.univ) hpay₁ (hpay₂ fd)
  rw [toks_take c hT1, toks_take c (Finset.mem_erase.mpr ⟨Sum.inr_ne_inl, hT2⟩)]
  unfold free
  iintro ⟨#Hrec, HL, ⟨Ht1, Ht2, Htok⟩, Hs, ⟨%fd, Hd⟩⟩ Hk
  iapply (hrule fd) $$ [HL Ht1 Ht2 Hs Hd] [Hk Htok]
  · isplitr; · iapply (inv_at Vf Vb Vd R1b K (c, CK.fS h s)); iexact Hrec
    isplitr; · iapply (inv_at Vf Vb Vd R1b K (zr c, CK.fR h s)); iexact Hrec
    isplitl [Hs]; · iexact Hs
    isplitl [Hd]; · iexact Hd
    isplitl [HL]; · iexact HL
    isplitl [Ht2]; · iexact Ht2
    isplitr; · iapply (reached_at Vf Vb Vd R1b K (c, CK.fS h s)); iexact Hrec
    isplitl [Ht1]; · iexact Ht1
    iapply (reached_at Vf Vb Vd R1b K (zr c, CK.fR h s)); iexact Hrec
  · iintro ⟨Hc, HL⟩
    iapply Hk
    isplitl [Hc]; · iexact Hc
    isplitl [HL]; · iexact HL
    iexact Htok

theorem wp_send_b (h : Fin 3) (s : Fin 2) (n : Dev nD) (hn : n = zl c) {S : Finset PK} (hS : PK.rb h s ∈ S) {T : Finset TK}
    (hT1 : Sum.inl (PK.rb h s) ∈ T) (hT2 : Sum.inr (SK.b h s) ∈ T) (W : Waits sig Unit)
    (fs : Buf (Elt F) ((cbP (srcSlot h) s).view.loc (c : Thread nD τ))) (hV : (cbP (srcSlot h) s).view.read (Elt F) fs = Vb c h s)
    {hsc : (cbP (dstSlot h) s : Memref sig (Dev.tc n : Thread nD τ).2.kind .vmem S192x768 .bf16).view.ref.isScScratch = false}
    {hsrc : (cbP (srcSlot h) s).view.WordExact} {hdst : (cbP (dstSlot h) s).view.WordExact}
    {hsem : DmaTarget.Typed .vmem (.dma (bRs h s)) (.remote (Dev.tc n : Thread nD τ) (cbP (dstSlot h) s) (.dma (bSs h s)) hsc)}
    {α : Type} {Q : α → sProp 𝕄} {k : PUnit → Prog (TpuEff nD τ sig (Elt F) Λ₀ .tc) α} :
    iprop(records Vf Vb Vd R1b K ∗ owes (c : Thread nD τ) (Orem c S) W ∗ toksAt (F := F) c T
        ∗ ((cbP (srcSlot h) s).view.loc (c : Thread nD τ) ↦[(cbP (srcSlot h) s).view.set]{fullShare} fs)
        ∗ free (F := F) (zl c) (cbP (dstSlot h) s))
      ⊢ iprop(((cred (tallyAt (kcell (c, .bS h s)) () N192) ∗ owes (c : Thread nD τ) (Orem c (S.erase (.rb h s))) W
              ∗ toksAt (F := F) c ((T.erase (.inl (.rb h s))).erase (.inr (.b h s))))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (cbP (srcSlot h) s) (.remote (Dev.tc n : Thread nD τ) (cbP (dstSlot h) s) (.dma (bSs h s)) hsc) (.dma (bRs h s)) hsrc hdst hsem) k) Q) := by
  subst hn
  have hkS : CK.bS h s ≠ CK.bar := fun e => by cases e
  have hkR : CK.bR h s ≠ CK.bar := fun e => by cases e
  have hpay₁ : ((cbP (srcSlot h) s).view.loc (c : Thread nD τ) ↦[(cbP (srcSlot h) s).view.set]{fullShare} fs)
      ⊢ (ringRd Vf Vb Vd R1b).payload (kcell (c, CK.bS h s)) 0 0 := by
    rw [payload_cell]
    show _ ⊢ holds c (cbP (srcSlot h) s) (Vb c h s)
    unfold holds
    iintro H; iexists fs; isplitr
    · ipureintro; exact hV
    iexact H
  have hpay₂ (fd : Buf (Elt F) ((cbP (dstSlot h) s).view.loc (zl c : Thread nD τ))) :
      ((cbP (dstSlot h) s).view.loc (zl c : Thread nD τ) ↦[(cbP (dstSlot h) s).view.set]{fullShare}
          ((cbP (dstSlot h) s).view.write (Elt F) fd ((cbP (srcSlot h) s).view.read (Elt F) fs) Finset.univ))
      ⊢ (ringRd Vf Vb Vd R1b).payload (kcell (zl c, CK.bR h s)) 0 0 := by
    rw [payload_cell]
    show _ ⊢ holds (zl c) (cbP (dstSlot h) s) (Vb (zr (zl c)) h s)
    rw [zr_zl]
    unfold holds
    iintro H
    iexists ((cbP (dstSlot h) s).view.write (Elt F) fd ((cbP (srcSlot h) s).view.read (Elt F) fs) Finset.univ)
    isplitr
    · ipureintro; rw [View.read_write_univ]; exact hV
    iexact H
  have hrule (fd : Buf (Elt F) ((cbP (dstSlot h) s).view.loc (zl c : Thread nD τ))) :=
    Rounds.wp_send_pointsTo 𝒱₀ ER (ringRd Vf Vb Vd R1b) (c : Thread nD τ) none (defs := defs₀ (F := F)) (Γ := .empty) (Q := Q) (k := k)
      (c' := (zl c : Thread nD τ)) (src := cbP (srcSlot h) s) (dst := cbP (dstSlot h) s) (hsc := hsc) (sS := .dma (bSs h s)) (sem := .dma (bRs h s))
      (hsrc := hsrc) (hdst := hdst) (hsem := hsem) (q := fullShare) (fs := fs) (fd := fd)
      (r₁ := 0) (r₂ := 0) (d₁ := 0) (d₂ := 0) (κ₁ := K (c, CK.bS h s)) (κ₂ := K (zl c, CK.bR h s))
      (by rw [show ((c : Thread nD τ), SemLoc.dma (bSs h s)) = kcell (c, CK.bS h s) from rfl, duties_one Vf Vb Vd R1b c _ hkS]; exact Finset.mem_singleton_self _)
      (by rw [show (((zl c : Dev nD) : Thread nD τ), SemLoc.dma (bRs h s)) = kcell (zl c, CK.bR h s) from rfl, duties_one Vf Vb Vd R1b (zl c) _ hkR]; exact Finset.mem_singleton_self _)
      () () N192 rfl (amount_cell Vf Vb Vd R1b c (CK.bS h s) 0 0) (amount_cell Vf Vb Vd R1b (zl c) (CK.bR h s) 0 0)
      (Orem c (S.erase (PK.rb h s))) (Orem_erase c hS) (W := W) (Es := Set.univ) hpay₁ (hpay₂ fd)
  rw [toks_take c hT1, toks_take c (Finset.mem_erase.mpr ⟨Sum.inr_ne_inl, hT2⟩)]
  unfold free
  iintro ⟨#Hrec, HL, ⟨Ht1, Ht2, Htok⟩, Hs, ⟨%fd, Hd⟩⟩ Hk
  iapply (hrule fd) $$ [HL Ht1 Ht2 Hs Hd] [Hk Htok]
  · isplitr; · iapply (inv_at Vf Vb Vd R1b K (c, CK.bS h s)); iexact Hrec
    isplitr; · iapply (inv_at Vf Vb Vd R1b K (zl c, CK.bR h s)); iexact Hrec
    isplitl [Hs]; · iexact Hs
    isplitl [Hd]; · iexact Hd
    isplitl [HL]; · iexact HL
    isplitl [Ht2]; · iexact Ht2
    isplitr; · iapply (reached_at Vf Vb Vd R1b K (c, CK.bS h s)); iexact Hrec
    isplitl [Ht1]; · iexact Ht1
    iapply (reached_at Vf Vb Vd R1b K (zl c, CK.bR h s)); iexact Hrec
  · iintro ⟨Hc, HL⟩
    iapply Hk
    isplitl [Hc]; · iexact Hc
    isplitl [HL]; · iexact HL
    iexact Htok

theorem wp_send_d (o : Fin 7) (n : Dev nD) (hn : n = inp (o.val + 1) c) {S : Finset PK} (hS : PK.dd o ∈ S) {T : Finset TK}
    (hT1 : Sum.inl (PK.dd o) ∈ T) (hT2 : Sum.inr (SK.d o) ∈ T) (W : Waits sig Unit)
    (hV : (chM c o).view.read (Elt F) (R1b c) = Vd c o)
    {hsc : (cdP o : Memref sig (Dev.tc n : Thread nD τ).2.kind .vmem S48x1536 .bf16).view.ref.isScScratch = false}
    {hsrc : (chM c o).view.WordExact} {hdst : (cdP o).view.WordExact}
    {hsem : DmaTarget.Typed .vmem (.dma (dRs o)) (.remote (Dev.tc n : Thread nD τ) (cdP o) (.dma (dSs o)) hsc)}
    {α : Type} {Q : α → sProp 𝕄} {k : PUnit → Prog (TpuEff nD τ sig (Elt F) Λ₀ .tc) α} :
    iprop(records Vf Vb Vd R1b K ∗ owes (c : Thread nD τ) (Orem c S) W ∗ toksAt (F := F) c T
        ∗ ((chM c o).view.loc (c : Thread nD τ) ↦[(chM c o).view.set]{fullShare} R1b c)
        ∗ free (F := F) (inp (o.val + 1) c) (cdP o))
      ⊢ iprop(((cred (tallyAt (kcell (c, .dS o)) () N48) ∗ owes (c : Thread nD τ) (Orem c (S.erase (.dd o))) W
              ∗ toksAt (F := F) c ((T.erase (.inl (.dd o))).erase (.inr (.d o))))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (chM c o) (.remote (Dev.tc n : Thread nD τ) (cdP o) (.dma (dSs o)) hsc) (.dma (dRs o)) hsrc hdst hsem) k) Q) := by
  subst hn
  have hkS : CK.dS o ≠ CK.bar := fun e => by cases e
  have hkR : CK.dR o ≠ CK.bar := fun e => by cases e
  have hpay₁ : ((chM c o).view.loc (c : Thread nD τ) ↦[(chM c o).view.set]{fullShare} (R1b c))
      ⊢ (ringRd Vf Vb Vd R1b).payload (kcell (c, CK.dS o)) 0 0 := by
    rw [payload_cell]
    exact .rfl
  have hpay₂ (fd : Buf (Elt F) ((cdP o).view.loc (inp (o.val + 1) c : Thread nD τ))) :
      ((cdP o).view.loc (inp (o.val + 1) c : Thread nD τ) ↦[(cdP o).view.set]{fullShare}
          ((cdP o).view.write (Elt F) fd ((chM c o).view.read (Elt F) (R1b c)) Finset.univ))
      ⊢ (ringRd Vf Vb Vd R1b).payload (kcell (inp (o.val + 1) c, CK.dR o)) 0 0 := by
    rw [payload_cell]
    show _ ⊢ holds (inp (o.val + 1) c) (cdP o) (Vd (inp (7 - o.val) (inp (o.val + 1) c)) o)
    rw [inp_inp o c]
    unfold holds
    iintro H
    iexists ((cdP o).view.write (Elt F) fd ((chM c o).view.read (Elt F) (R1b c)) Finset.univ)
    isplitr
    · ipureintro; rw [View.read_write_univ]; exact hV
    iexact H
  have hrule (fd : Buf (Elt F) ((cdP o).view.loc (inp (o.val + 1) c : Thread nD τ))) :=
    Rounds.wp_send_pointsTo 𝒱₀ ER (ringRd Vf Vb Vd R1b) (c : Thread nD τ) none (defs := defs₀ (F := F)) (Γ := .empty) (Q := Q) (k := k)
      (c' := (inp (o.val + 1) c : Thread nD τ)) (src := chM c o) (dst := cdP o) (hsc := hsc) (sS := .dma (dSs o)) (sem := .dma (dRs o))
      (hsrc := hsrc) (hdst := hdst) (hsem := hsem) (q := fullShare) (fs := (R1b c)) (fd := fd)
      (r₁ := 0) (r₂ := 0) (d₁ := 0) (d₂ := 0) (κ₁ := K (c, CK.dS o)) (κ₂ := K (inp (o.val + 1) c, CK.dR o))
      (by rw [show ((c : Thread nD τ), SemLoc.dma (dSs o)) = kcell (c, CK.dS o) from rfl, duties_one Vf Vb Vd R1b c _ hkS]; exact Finset.mem_singleton_self _)
      (by rw [show (((inp (o.val + 1) c : Dev nD) : Thread nD τ), SemLoc.dma (dRs o)) = kcell (inp (o.val + 1) c, CK.dR o) from rfl, duties_one Vf Vb Vd R1b (inp (o.val + 1) c) _ hkR]; exact Finset.mem_singleton_self _)
      () () N48 rfl (amount_cell Vf Vb Vd R1b c (CK.dS o) 0 0) (amount_cell Vf Vb Vd R1b (inp (o.val + 1) c) (CK.dR o) 0 0)
      (Orem c (S.erase (PK.dd o))) (Orem_erase c hS) (W := W) (Es := Set.univ) hpay₁ (hpay₂ fd)
  rw [toks_take c hT1, toks_take c (Finset.mem_erase.mpr ⟨Sum.inr_ne_inl, hT2⟩)]
  unfold free
  iintro ⟨#Hrec, HL, ⟨Ht1, Ht2, Htok⟩, Hs, ⟨%fd, Hd⟩⟩ Hk
  iapply (hrule fd) $$ [HL Ht1 Ht2 Hs Hd] [Hk Htok]
  · isplitr; · iapply (inv_at Vf Vb Vd R1b K (c, CK.dS o)); iexact Hrec
    isplitr; · iapply (inv_at Vf Vb Vd R1b K (inp (o.val + 1) c, CK.dR o)); iexact Hrec
    isplitl [Hs]; · iexact Hs
    isplitl [Hd]; · iexact Hd
    isplitl [HL]; · iexact HL
    isplitl [Ht2]; · iexact Ht2
    isplitr; · iapply (reached_at Vf Vb Vd R1b K (c, CK.dS o)); iexact Hrec
    isplitl [Ht1]; · iexact Ht1
    iapply (reached_at Vf Vb Vd R1b K (inp (o.val + 1) c, CK.dR o)); iexact Hrec
  · iintro ⟨Hc, HL⟩
    iapply Hk
    isplitl [Hc]; · iexact Hc
    isplitl [HL]; · iexact HL
    iexact Htok

theorem wp_wait_dma (k : CK) (hk : k ≠ .bar) {S : Finset PK} (hlev : ∀ i ∈ S, lvK k < lvP i) {P : Finset CK} (hP : k ∈ P) (W : Waits sig Unit)
    (sem : DmaSem sig) {sh : Shape} {e : EltTy} (src dst : Memref sig .tc .vmem sh e)
    {hsrc : src.view.WordExact} {hdst : dst.view.WordExact}
    (hsem : SemLoc.dma sem = csem k) (hamt : dst.view.dmaCredit = amt k)
    {α : Type} {Q : α → sProp 𝕄} {k' : PUnit → Prog (TpuEff nD τ sig (Elt F) Λ₀ .tc) α} :
    iprop(records Vf Vb Vd R1b K ∗ cred (tallyAt (kcell (c, k)) () (amt k)) ∗ owes (c : Thread nD τ) (Orem c S) W ∗ levAts L lv
        ∗ posAt (F := F) c P)
      ⊢ iprop(((owes (c : Thread nD τ) (Orem c S) (insert (csem k, ()) W) ∗ atPos ER (kcell (c, k)) 1 ∅ 0 ∗ cellPay Vf Vb Vd R1b c k 0
              ∗ posAt (F := F) c (P.erase k))
            -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 sem src dst hsrc hdst) k') Q) := by
  have hw : ∀ K' : PUnit → sProp 𝕄, wpE (defs₀ (F := F)) 𝒱₀ (c : Thread nD τ) none Set.univ (.waitDma2 sem src dst hsrc hdst) K'
      = waitSpec (c : Thread nD τ) Set.univ (csem k) (amt k) K' := fun K' => by rw [wpE_waitDma2_eq, hsem, hamt]
  have hrule := Rounds.wp_wait_rest_token 𝒱₀ ER (ringRd Vf Vb Vd R1b) (c : Thread nD τ) none (sm := csem k) (k' := amt k) (κ := K (c, k))
    (Q := Q) (k := k') hw (Set.mem_univ _) () (O := Orem c S) (W := W) (R := 0) (m := 0) (T := ∅)
    (by rw [Nat.zero_add]; exact (expect_one Vf Vb Vd R1b c k hk).symm)
  rw [rest_one Vf Vb Vd R1b c k hk] at hrule
  rw [pos_take c hP]
  iintro ⟨#Hrec, Hc, HL, #Hlev, Hat, Hpos⟩ Hk
  iapply hrule $$ [Hc HL Hat] [Hk Hpos]
  · isplitr; · iapply (inv_at Vf Vb Vd R1b K (c, k)); iexact Hrec
    isplitl [Hc]; · iexact Hc
    isplitl [HL]; · iexact HL
    isplitr; · iapply (mayWait_cellP c k S hlev); iexact Hlev
    iexact Hat
  · iintro ⟨HL, Hat, -, Hpay⟩
    iapply Hk
    isplitl [HL]; · iexact HL
    isplitl [Hat]; · iexact Hat
    isplitl [Hpay]; · iexact Hpay
    iexact Hpos

theorem close_one (k : CK) (hk : k ≠ .bar) :
    iprop(records Vf Vb Vd R1b K ∗ atPos ER (kcell (c, k)) 1 ∅ 0) ⊢ (|={Set.univ}=> semVal (kcell (c, k)) 0 : sProp 𝕄) :=
  (sep_mono_left (inv_at Vf Vb Vd R1b K (c, k))).trans
    (Rounds.cell_close ER (ringRd Vf Vb Vd R1b) (Set.mem_univ (K (c, k))) (fun h => h) (R := 1) (duties_later Vf Vb Vd R1b (kcell (c, k))))

end

end Cert.Kernel.Ring

end
-- ==== Proof.K.Pieces.lean ====
/- A buffer is the disjoint union of its pieces, so holding it whole is holding every piece. -/
import proofs.«900894_g7700000000000895_dist_matmul_mk_i_outk_m1536_n1536_k768_v7x_i32_f32_1_alg».proof.Proof.K.Cells
import Idealize.ShloMosaic.Lib.Pipeline.Value
import Idealize.ShloMosaic.Rules.PointsTo
import Idealize.SL.ProofMode.BigOp
import Idealize.ShloMosaic.Lib.ValueIdx

noncomputable section

namespace Cert.Kernel.Ring

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix3)

variable {F : FTy → Type} [FloatOps F]

local notation "𝕄" => MT nD τ sig Unit (Elt F) ℕ UU ℕ

theorem cf_set (k : Fin 4) (s : Fin 2) : (cfP k s).view.set = (pieceR k s).set :=
  (View.set_reshape (cfM.view.slice (pieceR k s)) _).trans (View.set_slice_whole cc0_scratch1 (pieceR k s))

theorem cb_set (k : Fin 4) (s : Fin 2) : (cbP k s).view.set = (pieceR k s).set :=
  (View.set_reshape (cbM.view.slice (pieceR k s)) _).trans (View.set_slice_whole cc0_scratch2 (pieceR k s))

theorem cd_set (o : Fin 7) : (cdP o).view.set = (cdR o).set :=
  (View.set_reshape (cdM.view.slice (cdR o)) _).trans (View.set_slice_whole cc0_scratch5 (cdR o))

theorem ch_set (c : Dev nD) (o : Fin 7) : (chM c o).view.set = (chR c o).set :=
  View.set_slice_whole cc0_scratch4 (chR c o)

theorem mem_piece (k : Fin 4) (s : Fin 2) (i : S4x384x768.Idx) :
    i ∈ (pieceR k s).set ↔ (i 0).val = k.val ∧ 192 * s.val ≤ (i 1).val ∧ (i 1).val < 192 * s.val + 192 := by
  rw [Rect.mem_set_unit]
  have h2 : (i 2).val < 768 := (i 2).isLt
  constructor
  · intro H
    have a0 : k.val ≤ (i 0).val ∧ (i 0).val < k.val + 1 := H 0
    have a1 : 192 * s.val ≤ (i 1).val ∧ (i 1).val < 192 * s.val + 192 := H 1
    omega
  · intro H a
    fin_cases a
    · show k.val ≤ (i 0).val ∧ (i 0).val < k.val + 1; omega
    · show 192 * s.val ≤ (i 1).val ∧ (i 1).val < 192 * s.val + 192; omega
    · show 0 ≤ (i 2).val ∧ (i 2).val < 0 + 768; omega

theorem mem_cd (o : Fin 7) (i : S7x48x1536.Idx) : i ∈ (cdR o).set ↔ (i 0).val = o.val := by
  rw [Rect.mem_set_unit]
  have h1 : (i 1).val < 48 := (i 1).isLt
  have h2 : (i 2).val < 1536 := (i 2).isLt
  constructor
  · intro H
    have a0 : o.val ≤ (i 0).val ∧ (i 0).val < o.val + 1 := H 0
    omega
  · intro H a
    fin_cases a
    · show o.val ≤ (i 0).val ∧ (i 0).val < o.val + 1; omega
    · show 0 ≤ (i 1).val ∧ (i 1).val < 0 + 48; omega
    · show 0 ≤ (i 2).val ∧ (i 2).val < 0 + 1536; omega

theorem piece_disjoint {k k' : Fin 4} {s s' : Fin 2} (h : (k, s) ≠ (k', s')) :
    Disjoint (pieceR k s).set (pieceR k' s').set := by
  rw [Finset.disjoint_left]
  intro i hi hi'
  rw [mem_piece] at hi hi'
  have hk : k = k' := Fin.ext (by omega)
  have hs : s = s' := Fin.ext (by omega)
  exact h (by rw [hk, hs])

theorem piece_cover :
    (Finset.univ : Finset (Fin 4 × Fin 2)).biUnion (fun ks => (pieceR ks.1 ks.2).set) = Finset.univ := by
  ext i
  simp only [Finset.mem_biUnion, Finset.mem_univ, true_and, iff_true]
  have h0 : (i 0).val < 4 := (i 0).isLt
  have h1 : (i 1).val < 384 := (i 1).isLt
  refine ⟨(⟨(i 0).val, h0⟩, ⟨(i 1).val / 192, by omega⟩), ?_⟩
  rw [mem_piece]
  refine ⟨rfl, ?_, ?_⟩
  · show 192 * ((i 1).val / 192) ≤ (i 1).val; omega
  · show (i 1).val < 192 * ((i 1).val / 192) + 192; omega

theorem cd_disjoint {o o' : Fin 7} (h : o ≠ o') : Disjoint (cdR o).set (cdR o').set := by
  rw [Finset.disjoint_left]
  intro i hi hi'
  rw [mem_cd] at hi hi'
  exact h (Fin.ext (by omega))

theorem cd_cover : (Finset.univ : Finset (Fin 7)).biUnion (fun o => (cdR o).set) = Finset.univ := by
  ext i
  simp only [Finset.mem_biUnion, Finset.mem_univ, true_and, iff_true]
  have h0 : (i 0).val < 7 := (i 0).isLt
  exact ⟨⟨(i 0).val, h0⟩, (mem_cd _ i).mpr rfl⟩

universe u

theorem bigSep_pieces {M : Type u} [URA M] (Φ : Fin 4 × Fin 2 → sProp M) :
    bigSep Finset.univ Φ
      = iprop(Φ (0, 0) ∗ Φ (0, 1) ∗ Φ (1, 0) ∗ Φ (1, 1) ∗ Φ (2, 0) ∗ Φ (2, 1) ∗ Φ (3, 0) ∗ Φ (3, 1)) := by
  rw [show (Finset.univ : Finset (Fin 4 × Fin 2))
        = {(0, 0), (0, 1), (1, 0), (1, 1), (2, 0), (2, 1), (3, 0), (3, 1)} from by decide,
    bigSep_insert (by decide), bigSep_insert (by decide), bigSep_insert (by decide), bigSep_insert (by decide),
    bigSep_insert (by decide), bigSep_insert (by decide), bigSep_insert (by decide), bigSep_singleton]
  rfl

theorem bigSep_slots {M : Type u} [URA M] (Φ : Fin 7 → sProp M) :
    bigSep Finset.univ Φ = iprop(Φ 0 ∗ Φ 1 ∗ Φ 2 ∗ Φ 3 ∗ Φ 4 ∗ Φ 5 ∗ Φ 6) := by
  rw [show (Finset.univ : Finset (Fin 7)) = {0, 1, 2, 3, 4, 5, 6} from by decide,
    bigSep_insert (by decide), bigSep_insert (by decide), bigSep_insert (by decide), bigSep_insert (by decide),
    bigSep_insert (by decide), bigSep_insert (by decide), bigSep_singleton]
  rfl

theorem pointsTo_univ_family {ℓ : Loc nD τ sig} {T : Type} [Fintype T] (K : T → Finset (Idx ℓ))
    (hd : ∀ t t', t ≠ t' → Disjoint (K t) (K t')) (hc : Finset.univ.biUnion K = Finset.univ)
    (f : Buf (Elt F) ℓ) :
    (ℓ ↦{fullShare} f : sProp 𝕄) = bigSep Finset.univ fun t => (ℓ ↦[K t]{fullShare} f : sProp 𝕄) := by
  rw [← pointsTo_biUnion Finset.univ K (fun t _ t' _ h => hd t t' h), hc]

theorem pointsTo_univ_family_join {ℓ : Loc nD τ sig} {T : Type} [Fintype T] [DecidableEq T] (K : T → Finset (Idx ℓ))
    (hd : ∀ t t', t ≠ t' → Disjoint (K t) (K t')) (hc : Finset.univ.biUnion K = Finset.univ) :
    bigSep Finset.univ (fun t => (iprop(∃ f : Buf (Elt F) ℓ, ℓ ↦[K t]{fullShare} f) : sProp 𝕄))
      ⊢ (iprop(∃ f : Buf (Elt F) ℓ, ℓ ↦{fullShare} f) : sProp 𝕄) := by
  have f₀ : Buf (Elt F) ℓ := Classical.choice inferInstance
  have hj := fun fs : T → Buf (Elt F) ℓ =>
    pointsTo_biUnion_join (nD := nD) (τ := τ) (sig := sig) (Ix := Unit) (Val := Elt F) (Name := ℕ) (U := UU) (Lvl := ℕ)
      (q := fullShare) Finset.univ K fs f₀ (fun t _ t' _ h => hd t t' h)
  rw [hc] at hj
  iintro H
  ihave H := (bigSep_exists_pi Finset.univ (fun t (f : Buf (Elt F) ℓ) => (ℓ ↦[K t]{fullShare} f : sProp 𝕄))) $$ H
  icases H with ⟨%fs, H⟩
  ihave H := (hj fs) $$ H
  icases H with ⟨%g, %hg, H⟩
  iexists g
  iexact H

abbrev cfK (t : Fin 4 × Fin 2) : Finset S4x384x768.Idx := (cfP t.1 t.2).view.set

theorem cfK_disjoint (t t' : Fin 4 × Fin 2) (h : t ≠ t') : Disjoint (cfK t) (cfK t') := by
  show Disjoint (cfP t.1 t.2).view.set (cfP t'.1 t'.2).view.set
  rw [cf_set, cf_set]
  exact piece_disjoint fun e => h (Prod.ext (congrArg Prod.fst e) (congrArg Prod.snd e))

theorem cfK_cover : (Finset.univ : Finset (Fin 4 × Fin 2)).biUnion cfK = Finset.univ := by
  have e : cfK = fun t => (pieceR t.1 t.2).set := funext fun t => cf_set t.1 t.2
  rw [e]
  exact piece_cover

theorem cf_split_eq (c : Dev nD) (f : Buf (Elt F) ((c : Thread nD τ).loc cc0_scratch1)) :
    ((c : Thread nD τ).loc cc0_scratch1 ↦{fullShare} f : sProp 𝕄)
      = iprop(((cfP 0 0).view.loc c ↦[(cfP 0 0).view.set]{fullShare} f) ∗ ((cfP 0 1).view.loc c ↦[(cfP 0 1).view.set]{fullShare} f)
          ∗ ((cfP 1 0).view.loc c ↦[(cfP 1 0).view.set]{fullShare} f) ∗ ((cfP 1 1).view.loc c ↦[(cfP 1 1).view.set]{fullShare} f)
          ∗ ((cfP 2 0).view.loc c ↦[(cfP 2 0).view.set]{fullShare} f) ∗ ((cfP 2 1).view.loc c ↦[(cfP 2 1).view.set]{fullShare} f)
          ∗ ((cfP 3 0).view.loc c ↦[(cfP 3 0).view.set]{fullShare} f) ∗ ((cfP 3 1).view.loc c ↦[(cfP 3 1).view.set]{fullShare} f)) := by
  have e := pointsTo_univ_family (F := F) (ℓ := (c : Thread nD τ).loc cc0_scratch1) cfK cfK_disjoint cfK_cover f
  rw [bigSep_pieces] at e
  exact e

theorem cf_join (c : Dev nD) :
    (iprop((∃ f, (cfP 0 0).view.loc c ↦[(cfP 0 0).view.set]{fullShare} f) ∗ (∃ f, (cfP 0 1).view.loc c ↦[(cfP 0 1).view.set]{fullShare} f)
          ∗ (∃ f, (cfP 1 0).view.loc c ↦[(cfP 1 0).view.set]{fullShare} f) ∗ (∃ f, (cfP 1 1).view.loc c ↦[(cfP 1 1).view.set]{fullShare} f)
          ∗ (∃ f, (cfP 2 0).view.loc c ↦[(cfP 2 0).view.set]{fullShare} f) ∗ (∃ f, (cfP 2 1).view.loc c ↦[(cfP 2 1).view.set]{fullShare} f)
          ∗ (∃ f, (cfP 3 0).view.loc c ↦[(cfP 3 0).view.set]{fullShare} f) ∗ (∃ f, (cfP 3 1).view.loc c ↦[(cfP 3 1).view.set]{fullShare} f)) : sProp 𝕄)
      ⊢ iprop(∃ f, (c : Thread nD τ).loc cc0_scratch1 ↦{fullShare} f) := by
  have e := pointsTo_univ_family_join (F := F) (ℓ := (c : Thread nD τ).loc cc0_scratch1) cfK cfK_disjoint cfK_cover
  rw [bigSep_pieces] at e
  exact e

abbrev cbK (t : Fin 4 × Fin 2) : Finset S4x384x768.Idx := (cbP t.1 t.2).view.set

theorem cbK_disjoint (t t' : Fin 4 × Fin 2) (h : t ≠ t') : Disjoint (cbK t) (cbK t') := by
  show Disjoint (cbP t.1 t.2).view.set (cbP t'.1 t'.2).view.set
  rw [cb_set, cb_set]
  exact piece_disjoint fun e => h (Prod.ext (congrArg Prod.fst e) (congrArg Prod.snd e))

theorem cbK_cover : (Finset.univ : Finset (Fin 4 × Fin 2)).biUnion cbK = Finset.univ := by
  have e : cbK = fun t => (pieceR t.1 t.2).set := funext fun t => cb_set t.1 t.2
  rw [e]
  exact piece_cover

theorem cb_split_eq (c : Dev nD) (f : Buf (Elt F) ((c : Thread nD τ).loc cc0_scratch2)) :
    ((c : Thread nD τ).loc cc0_scratch2 ↦{fullShare} f : sProp 𝕄)
      = iprop(((cbP 0 0).view.loc c ↦[(cbP 0 0).view.set]{fullShare} f) ∗ ((cbP 0 1).view.loc c ↦[(cbP 0 1).view.set]{fullShare} f)
          ∗ ((cbP 1 0).view.loc c ↦[(cbP 1 0).view.set]{fullShare} f) ∗ ((cbP 1 1).view.loc c ↦[(cbP 1 1).view.set]{fullShare} f)
          ∗ ((cbP 2 0).view.loc c ↦[(cbP 2 0).view.set]{fullShare} f) ∗ ((cbP 2 1).view.loc c ↦[(cbP 2 1).view.set]{fullShare} f)
          ∗ ((cbP 3 0).view.loc c ↦[(cbP 3 0).view.set]{fullShare} f) ∗ ((cbP 3 1).view.loc c ↦[(cbP 3 1).view.set]{fullShare} f)) := by
  have e := pointsTo_univ_family (F := F) (ℓ := (c : Thread nD τ).loc cc0_scratch2) cbK cbK_disjoint cbK_cover f
  rw [bigSep_pieces] at e
  exact e

theorem cb_join (c : Dev nD) :
    (iprop((∃ f, (cbP 0 0).view.loc c ↦[(cbP 0 0).view.set]{fullShare} f) ∗ (∃ f, (cbP 0 1).view.loc c ↦[(cbP 0 1).view.set]{fullShare} f)
          ∗ (∃ f, (cbP 1 0).view.loc c ↦[(cbP 1 0).view.set]{fullShare} f) ∗ (∃ f, (cbP 1 1).view.loc c ↦[(cbP 1 1).view.set]{fullShare} f)
          ∗ (∃ f, (cbP 2 0).view.loc c ↦[(cbP 2 0).view.set]{fullShare} f) ∗ (∃ f, (cbP 2 1).view.loc c ↦[(cbP 2 1).view.set]{fullShare} f)
          ∗ (∃ f, (cbP 3 0).view.loc c ↦[(cbP 3 0).view.set]{fullShare} f) ∗ (∃ f, (cbP 3 1).view.loc c ↦[(cbP 3 1).view.set]{fullShare} f)) : sProp 𝕄)
      ⊢ iprop(∃ f, (c : Thread nD τ).loc cc0_scratch2 ↦{fullShare} f) := by
  have e := pointsTo_univ_family_join (F := F) (ℓ := (c : Thread nD τ).loc cc0_scratch2) cbK cbK_disjoint cbK_cover
  rw [bigSep_pieces] at e
  exact e

abbrev cdK (o : Fin 7) : Finset S7x48x1536.Idx := (cdP o).view.set

theorem cdK_disjoint (o o' : Fin 7) (h : o ≠ o') : Disjoint (cdK o) (cdK o') := by
  show Disjoint (cdP o).view.set (cdP o').view.set
  rw [cd_set, cd_set]
  exact cd_disjoint h

theorem cdK_cover : (Finset.univ : Finset (Fin 7)).biUnion cdK = Finset.univ := by
  have e : cdK = fun o => (cdR o).set := funext fun o => cd_set o
  rw [e]
  exact cd_cover

theorem cd_split_eq (c : Dev nD) (f : Buf (Elt F) ((c : Thread nD τ).loc cc0_scratch5)) :
    ((c : Thread nD τ).loc cc0_scratch5 ↦{fullShare} f : sProp 𝕄)
      = iprop(((cdP 0).view.loc c ↦[(cdP 0).view.set]{fullShare} f) ∗ ((cdP 1).view.loc c ↦[(cdP 1).view.set]{fullShare} f) ∗ ((cdP 2).view.loc c ↦[(cdP 2).view.set]{fullShare} f)
          ∗ ((cdP 3).view.loc c ↦[(cdP 3).view.set]{fullShare} f) ∗ ((cdP 4).view.loc c ↦[(cdP 4).view.set]{fullShare} f) ∗ ((cdP 5).view.loc c ↦[(cdP 5).view.set]{fullShare} f)
          ∗ ((cdP 6).view.loc c ↦[(cdP 6).view.set]{fullShare} f)) := by
  have e := pointsTo_univ_family (F := F) (ℓ := (c : Thread nD τ).loc cc0_scratch5) cdK cdK_disjoint cdK_cover f
  rw [bigSep_slots] at e
  exact e

theorem cd_join (c : Dev nD) :
    (iprop((∃ f, (cdP 0).view.loc c ↦[(cdP 0).view.set]{fullShare} f) ∗ (∃ f, (cdP 1).view.loc c ↦[(cdP 1).view.set]{fullShare} f) ∗ (∃ f, (cdP 2).view.loc c ↦[(cdP 2).view.set]{fullShare} f)
          ∗ (∃ f, (cdP 3).view.loc c ↦[(cdP 3).view.set]{fullShare} f) ∗ (∃ f, (cdP 4).view.loc c ↦[(cdP 4).view.set]{fullShare} f) ∗ (∃ f, (cdP 5).view.loc c ↦[(cdP 5).view.set]{fullShare} f)
          ∗ (∃ f, (cdP 6).view.loc c ↦[(cdP 6).view.set]{fullShare} f)) : sProp 𝕄)
      ⊢ iprop(∃ f, (c : Thread nD τ).loc cc0_scratch5 ↦{fullShare} f) := by
  have e := pointsTo_univ_family_join (F := F) (ℓ := (c : Thread nD τ).loc cc0_scratch5) cdK cdK_disjoint cdK_cover
  rw [bigSep_slots] at e
  exact e

abbrev top3R : Rect S4x384x768 :=
  Rect.unit (s := S4x384x768) ![3, 0, 0] S1x384x768.size inb_S4x384x768_S1x384x768_3_0_0

theorem mem_top3 (i : S4x384x768.Idx) : i ∈ top3R.set ↔ (i 0).val = 3 := by
  rw [Rect.mem_set_unit]
  have h1 : (i 1).val < 384 := (i 1).isLt
  have h2 : (i 2).val < 768 := (i 2).isLt
  constructor
  · intro H
    have a0 : 3 ≤ (i 0).val ∧ (i 0).val < 3 + 1 := H 0
    omega
  · intro H a
    fin_cases a
    · show 3 ≤ (i 0).val ∧ (i 0).val < 3 + 1; omega
    · show 0 ≤ (i 1).val ∧ (i 1).val < 0 + 384; omega
    · show 0 ≤ (i 2).val ∧ (i 2).val < 0 + 768; omega

theorem top3_set : top3R.set = (pieceR 3 0).set ∪ (pieceR 3 1).set := by
  ext i
  rw [Finset.mem_union, mem_top3, mem_piece, mem_piece]
  have h1 : (i 1).val < 384 := (i 1).isLt
  show (i 0).val = 3 ↔ ((i 0).val = 3 ∧ 192 * 0 ≤ (i 1).val ∧ (i 1).val < 192 * 0 + 192)
      ∨ ((i 0).val = 3 ∧ 192 * 1 ≤ (i 1).val ∧ (i 1).val < 192 * 1 + 192)
  omega

theorem top3_disjoint : Disjoint (pieceR 3 0).set (pieceR 3 1).set := piece_disjoint (by decide)

theorem cf_top3_split (c : Dev nD) (f : Buf (Elt F) ((c : Thread nD τ).loc cc0_scratch1)) :
    ((c : Thread nD τ).loc cc0_scratch1 ↦[top3R.set]{fullShare} f : sProp 𝕄)
      ⊣⊢ iprop(((cfP 3 0).view.loc c ↦[(cfP 3 0).view.set]{fullShare} f) ∗ ((cfP 3 1).view.loc c ↦[(cfP 3 1).view.set]{fullShare} f)) := by
  rw [cf_set, cf_set, top3_set]
  exact pointsTo_union top3_disjoint

theorem cb_top3_split (c : Dev nD) (f : Buf (Elt F) ((c : Thread nD τ).loc cc0_scratch2)) :
    ((c : Thread nD τ).loc cc0_scratch2 ↦[top3R.set]{fullShare} f : sProp 𝕄)
      ⊣⊢ iprop(((cbP 3 0).view.loc c ↦[(cbP 3 0).view.set]{fullShare} f) ∗ ((cbP 3 1).view.loc c ↦[(cbP 3 1).view.set]{fullShare} f)) := by
  rw [cb_set, cb_set, top3_set]
  exact pointsTo_union top3_disjoint

theorem ch_off : ∀ (c : Dev nD) (o : Fin 7),
    k0_off11 c (BitVec.ofNat 32 (1 + o.val)) = ![48 * ((c.val % 8 + o.val + 1) % 8), 0] := by decide +kernel

theorem mem_ch (c : Dev nD) (o : Fin 7) (i : S384x1536.Idx) :
    i ∈ (chR c o).set ↔ (48 * ((c.val % 8 + o.val + 1) % 8)) ≤ (i 0).val ∧ (i 0).val < (48 * ((c.val % 8 + o.val + 1) % 8)) + 48 := by
  rw [Rect.mem_set_unit, ch_off c o]
  have h1 : (i 1).val < 1536 := (i 1).isLt
  constructor
  · intro H
    have a0 : (48 * ((c.val % 8 + o.val + 1) % 8)) ≤ (i 0).val ∧ (i 0).val < (48 * ((c.val % 8 + o.val + 1) % 8)) + 48 := H 0
    exact a0
  · intro H a
    fin_cases a
    · show (48 * ((c.val % 8 + o.val + 1) % 8)) ≤ (i 0).val ∧ (i 0).val < (48 * ((c.val % 8 + o.val + 1) % 8)) + 48; exact H
    · show 0 ≤ (i 1).val ∧ (i 1).val < 0 + 1536; omega

theorem ch_disjoint (c : Dev nD) {o o' : Fin 7} (h : o ≠ o') : Disjoint (chR c o).set (chR c o').set := by
  rw [Finset.disjoint_left]
  intro i hi hi'
  rw [mem_ch] at hi hi'
  have := o.isLt
  have := o'.isLt
  exact h (Fin.ext (by omega))

abbrev chK (c : Dev nD) (o : Fin 7) : Finset S384x1536.Idx := (chM c o).view.set

theorem chK_disjoint (c : Dev nD) (o o' : Fin 7) (h : o ≠ o') : Disjoint (chK c o) (chK c o') := by
  show Disjoint (chM c o).view.set (chM c o').view.set
  rw [ch_set, ch_set]
  exact ch_disjoint c h

theorem ch_split_eq (c : Dev nD) (f : Buf (Elt F) ((c : Thread nD τ).loc cc0_scratch4)) :
    ((c : Thread nD τ).loc cc0_scratch4 ↦{fullShare} f : sProp 𝕄)
      = iprop((((chM c 0).view.loc c ↦[(chM c 0).view.set]{fullShare} f) ∗ ((chM c 1).view.loc c ↦[(chM c 1).view.set]{fullShare} f) ∗ ((chM c 2).view.loc c ↦[(chM c 2).view.set]{fullShare} f)
          ∗ ((chM c 3).view.loc c ↦[(chM c 3).view.set]{fullShare} f) ∗ ((chM c 4).view.loc c ↦[(chM c 4).view.set]{fullShare} f) ∗ ((chM c 5).view.loc c ↦[(chM c 5).view.set]{fullShare} f)
          ∗ ((chM c 6).view.loc c ↦[(chM c 6).view.set]{fullShare} f))
          ∗ ((c : Thread nD τ).loc cc0_scratch4 ↦[Finset.univ \ Finset.univ.biUnion (chK c)]{fullShare} f)) := by
  have h : ((c : Thread nD τ).loc cc0_scratch4 ↦{fullShare} f : sProp 𝕄)
      ⊣⊢ iprop(((c : Thread nD τ).loc cc0_scratch4 ↦[Finset.univ.biUnion (chK c)]{fullShare} f)
          ∗ ((c : Thread nD τ).loc cc0_scratch4 ↦[Finset.univ \ Finset.univ.biUnion (chK c)]{fullShare} f)) :=
    pointsTo_split_subset (Finset.subset_univ _)
  have e := BI.equiv_iff.mp ⟨h.1, h.2⟩
  have e1 : ((c : Thread nD τ).loc cc0_scratch4 ↦[Finset.univ.biUnion (chK c)]{fullShare} f : sProp 𝕄)
      = bigSep Finset.univ fun o => ((c : Thread nD τ).loc cc0_scratch4 ↦[chK c o]{fullShare} f : sProp 𝕄) :=
    pointsTo_biUnion (ℓ := (c : Thread nD τ).loc cc0_scratch4) (q := fullShare) (f := f)
      Finset.univ (chK c) (fun t _ t' _ hne => chK_disjoint c t t' hne)
  rw [bigSep_slots] at e1
  exact e.trans (congrArg
    (fun P : sProp 𝕄 =>
      iprop(P ∗ ((c : Thread nD τ).loc cc0_scratch4 ↦[Finset.univ \ Finset.univ.biUnion (chK c)]{fullShare} f))) e1)

theorem ch_split (c : Dev nD) (f : Buf (Elt F) ((c : Thread nD τ).loc cc0_scratch4)) :
    ((c : Thread nD τ).loc cc0_scratch4 ↦{fullShare} f : sProp 𝕄)
      ⊣⊢ iprop((((chM c 0).view.loc c ↦[(chM c 0).view.set]{fullShare} f) ∗ ((chM c 1).view.loc c ↦[(chM c 1).view.set]{fullShare} f) ∗ ((chM c 2).view.loc c ↦[(chM c 2).view.set]{fullShare} f)
          ∗ ((chM c 3).view.loc c ↦[(chM c 3).view.set]{fullShare} f) ∗ ((chM c 4).view.loc c ↦[(chM c 4).view.set]{fullShare} f) ∗ ((chM c 5).view.loc c ↦[(chM c 5).view.set]{fullShare} f)
          ∗ ((chM c 6).view.loc c ↦[(chM c 6).view.set]{fullShare} f))
          ∗ ((c : Thread nD τ).loc cc0_scratch4 ↦[Finset.univ \ Finset.univ.biUnion (chK c)]{fullShare} f)) :=
  BiEntails.of_eq (ch_split_eq c f)

theorem cf_read (k : Fin 4) (s : Fin 2) (f : (cc0_scratch1 : Ref sig .tc).ty.Contents (Elt F)) :
    (cfP k s).view.read (Elt F) f
      = shapeCast S192x768 (cfM.view.readAt (Elt F) (pieceR k s).toLoadRect f) shapeCasts_S1x192x768_S192x768 :=
  Memref.read_squeeze_slice cfM (pieceR k s) (fun _ => rfl) squeezes_S1x192x768_S192x768 shapeCasts_S1x192x768_S192x768 f

theorem cf_read_write (k : Fin 4) (s : Fin 2) {off : Fin 3 → Nat} (hoff : off = pieceOff k s)
    (inb : ∀ a, off a + S1x192x768.size a ≤ S4x384x768.size a)
    (f : (cc0_scratch1 : Ref sig .tc).ty.Contents (Elt F)) (w : Vec F S1x192x768 .bf16) :
    (cfP k s).view.read (Elt F)
        (View.write (Elt F) (cfM.access (Rect.unit (s := S4x384x768) off S1x192x768.size inb)) f w Finset.univ)
      = shapeCast S192x768 w shapeCasts_S1x192x768_S192x768 := by
  subst hoff
  have hw : (cfM.access (pieceR k s)).read (Elt F) (View.write (Elt F) (cfM.access (pieceR k s)) f w Finset.univ) = w :=
    View.read_write_univ _ _
  rw [cf_read, View.readAt_rect]
  exact congrArg (fun v => shapeCast S192x768 v shapeCasts_S1x192x768_S192x768) hw

theorem cb_read (k : Fin 4) (s : Fin 2) (f : (cc0_scratch2 : Ref sig .tc).ty.Contents (Elt F)) :
    (cbP k s).view.read (Elt F) f
      = shapeCast S192x768 (cbM.view.readAt (Elt F) (pieceR k s).toLoadRect f) shapeCasts_S1x192x768_S192x768 :=
  Memref.read_squeeze_slice cbM (pieceR k s) (fun _ => rfl) squeezes_S1x192x768_S192x768 shapeCasts_S1x192x768_S192x768 f

theorem cb_read_write (k : Fin 4) (s : Fin 2) {off : Fin 3 → Nat} (hoff : off = pieceOff k s)
    (inb : ∀ a, off a + S1x192x768.size a ≤ S4x384x768.size a)
    (f : (cc0_scratch2 : Ref sig .tc).ty.Contents (Elt F)) (w : Vec F S1x192x768 .bf16) :
    (cbP k s).view.read (Elt F)
        (View.write (Elt F) (cbM.access (Rect.unit (s := S4x384x768) off S1x192x768.size inb)) f w Finset.univ)
      = shapeCast S192x768 w shapeCasts_S1x192x768_S192x768 := by
  subst hoff
  have hw : (cbM.access (pieceR k s)).read (Elt F) (View.write (Elt F) (cbM.access (pieceR k s)) f w Finset.univ) = w :=
    View.read_write_univ _ _
  rw [cb_read, View.readAt_rect]
  exact congrArg (fun v => shapeCast S192x768 v shapeCasts_S1x192x768_S192x768) hw

theorem cd_read (o : Fin 7) (f : (cc0_scratch5 : Ref sig .tc).ty.Contents (Elt F)) :
    (cdP o).view.read (Elt F) f
      = shapeCast S48x1536 (cdM.view.readAt (Elt F) (cdR o).toLoadRect f) shapeCasts_S1x48x1536_S48x1536 :=
  Memref.read_squeeze_slice cdM (cdR o) (fun _ => rfl) squeezes_S1x48x1536_S48x1536 shapeCasts_S1x48x1536_S48x1536 f

theorem cf_top3_read_write (s : Fin 2) {off : Fin 3 → Nat} (hoff : off = ![3, 0, 0])
    (inb : ∀ a, off a + S1x384x768.size a ≤ S4x384x768.size a)
    (f : (cc0_scratch1 : Ref sig .tc).ty.Contents (Elt F)) (w : Vec F S1x384x768 .bf16)
    (x : S192x768.Idx) (y : S1x384x768.Idx)
    (h0 : (y 0).val = 0) (h1 : (y 1).val = 192 * s.val + (x 0).val) (h2 : (y 2).val = (x 1).val) :
    (cfP 3 s).view.read (Elt F)
        (View.write (Elt F) (cfM.access (Rect.unit (s := S4x384x768) off S1x384x768.size inb)) f w Finset.univ) x
      = w y := by
  subst hoff
  rw [cf_read]
  refine (shapeCast_dropUnit_apply (![192, 768] : Fin 2 → Nat) _ shapeCasts_S1x192x768_S192x768 x).trans ?_
  rw [View.readAt_rect, View.read_apply]
  have hemb : (cfM.view.slice (pieceR 3 s)).emb (Fin.cons ⟨0, Nat.one_pos⟩ x)
      = (cfM.access (Rect.unit (s := S4x384x768) ![3, 0, 0] S1x384x768.size inb)).emb y := by
    have key : ∀ a : Fin 3, ((cfM.view.slice (pieceR 3 s)).emb (Fin.cons ⟨0, Nat.one_pos⟩ x) a).val
        = ((cfM.access (Rect.unit (s := S4x384x768) ![3, 0, 0] S1x384x768.size inb)).emb y a).val := by
      intro a
      fin_cases a
      · show 3 + 1 * 0 = 3 + 1 * (y 0).val; omega
      · show 192 * s.val + 1 * (x 0).val = 0 + 1 * (y 1).val; omega
      · show 0 + 1 * (x 1).val = 0 + 1 * (y 2).val; omega
    exact funext fun a => Fin.ext (key a)
  rw [hemb, View.write_emb_of_mem _ _ (Finset.mem_univ y), cast_cast, cast_eq]

theorem cb_top3_read_write (s : Fin 2) {off : Fin 3 → Nat} (hoff : off = ![3, 0, 0])
    (inb : ∀ a, off a + S1x384x768.size a ≤ S4x384x768.size a)
    (f : (cc0_scratch2 : Ref sig .tc).ty.Contents (Elt F)) (w : Vec F S1x384x768 .bf16)
    (x : S192x768.Idx) (y : S1x384x768.Idx)
    (h0 : (y 0).val = 0) (h1 : (y 1).val = 192 * s.val + (x 0).val) (h2 : (y 2).val = (x 1).val) :
    (cbP 3 s).view.read (Elt F)
        (View.write (Elt F) (cbM.access (Rect.unit (s := S4x384x768) off S1x384x768.size inb)) f w Finset.univ) x
      = w y := by
  subst hoff
  rw [cb_read]
  refine (shapeCast_dropUnit_apply (![192, 768] : Fin 2 → Nat) _ shapeCasts_S1x192x768_S192x768 x).trans ?_
  rw [View.readAt_rect, View.read_apply]
  have hemb : (cbM.view.slice (pieceR 3 s)).emb (Fin.cons ⟨0, Nat.one_pos⟩ x)
      = (cbM.access (Rect.unit (s := S4x384x768) ![3, 0, 0] S1x384x768.size inb)).emb y := by
    have key : ∀ a : Fin 3, ((cbM.view.slice (pieceR 3 s)).emb (Fin.cons ⟨0, Nat.one_pos⟩ x) a).val
        = ((cbM.access (Rect.unit (s := S4x384x768) ![3, 0, 0] S1x384x768.size inb)).emb y a).val := by
      intro a
      fin_cases a
      · show 3 + 1 * 0 = 3 + 1 * (y 0).val; omega
      · show 192 * s.val + 1 * (x 0).val = 0 + 1 * (y 1).val; omega
      · show 0 + 1 * (x 1).val = 0 + 1 * (y 2).val; omega
    exact funext fun a => Fin.ext (key a)
  rw [hemb, View.write_emb_of_mem _ _ (Finset.mem_univ y), cast_cast, cast_eq]

end Cert.Kernel.Ring

end
-- ==== Proof.K.Exit.lean ====
/- A cell whose one round is consumed closes with its counter at zero. -/
import proofs.«900894_g7700000000000895_dist_matmul_mk_i_outk_m1536_n1536_k768_v7x_i32_f32_1_alg».proof.Proof.K.Steps

noncomputable section

namespace Cert.Kernel.Ring

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

def doneAt (c : Dev nD) (D : Finset CK) : sProp 𝕄 := bigSep D fun k => atPos ER (kcell (c, k)) 1 ∅ 0

section
variable (Vf Vb : Dev nD → Fin 3 → Fin 2 → Vec F S192x768 .bf16) (Vd : Dev nD → Fin 7 → Vec F S48x1536 .bf16)
variable (R1b : Dev nD → (cc0_scratch4 : Ref sig .tc).ty.Contents (Elt F))
variable (K : Dev nD × CK → ℕ) (c : Dev nD)

theorem close_all :
    iprop(records Vf Vb Vd R1b K ∗ doneAt (F := F) c (Finset.univ.erase CK.bar)) ⊢ (|={Set.univ}=> Pipeline.ownSems0 osem c : sProp 𝕄) := by
  have hsems : (Pipeline.ownSems0 osem c : sProp 𝕄) = bigSep (Finset.univ.erase CK.bar) fun k => semVal (kcell (c, k)) 0 := by
    unfold Pipeline.ownSems0
    exact bigSep_subtype_ne CK.bar fun k => (semVal (kcell (c, k)) 0 : sProp 𝕄)
  rw [hsems]
  unfold doneAt
  refine (bigSep_with_persistent (Ψ := fun k => iprop(|={Set.univ}=> semVal (kcell (c, k)) 0)) fun k hk => ?_).trans (bigSep_fupd _ _)
  exact close_one Vf Vb Vd R1b K c k (Finset.ne_of_mem_erase hk)

omit [FloatOps F] in
theorem credF_take {S : Finset (Fin 3 × Fin 2)} {hs : Fin 3 × Fin 2} (h : hs ∈ S) :
    (bigSep S fun hs : Fin 3 × Fin 2 => (cred (tallyAt (kcell (c, .fR hs.1 hs.2)) () N192) : sProp 𝕄))
      = iprop(cred (tallyAt (kcell (c, .fR hs.1 hs.2)) () N192) ∗ bigSep (S.erase hs) fun hs : Fin 3 × Fin 2 => cred (tallyAt (kcell (c, .fR hs.1 hs.2)) () N192)) :=
  bigSep_erase h

omit [FloatOps F] in
theorem credB_take {S : Finset (Fin 3 × Fin 2)} {hs : Fin 3 × Fin 2} (h : hs ∈ S) :
    (bigSep S fun hs : Fin 3 × Fin 2 => (cred (tallyAt (kcell (c, .bR hs.1 hs.2)) () N192) : sProp 𝕄))
      = iprop(cred (tallyAt (kcell (c, .bR hs.1 hs.2)) () N192) ∗ bigSep (S.erase hs) fun hs : Fin 3 × Fin 2 => cred (tallyAt (kcell (c, .bR hs.1 hs.2)) () N192)) :=
  bigSep_erase h

omit [FloatOps F] in
theorem credD_take {S : Finset (Fin 7)} {o : Fin 7} (h : o ∈ S) :
    (bigSep S fun o : Fin 7 => (cred (tallyAt (kcell (c, .dR o)) () N48) : sProp 𝕄))
      = iprop(cred (tallyAt (kcell (c, .dR o)) () N48) ∗ bigSep (S.erase o) fun o : Fin 7 => cred (tallyAt (kcell (c, .dR o)) () N48)) :=
  bigSep_erase h

end

end Cert.Kernel.Ring

end
-- ==== Proof.K.Finish.lean ====
/- The exit: pieces rejoin to whole buffers and nothing is owed. -/
import proofs.«900894_g7700000000000895_dist_matmul_mk_i_outk_m1536_n1536_k768_v7x_i32_f32_1_alg».proof.Proof.K.Exit
import proofs.«900894_g7700000000000895_dist_matmul_mk_i_outk_m1536_n1536_k768_v7x_i32_f32_1_alg».proof.Proof.K.Pieces
import proofs.«900894_g7700000000000895_dist_matmul_mk_i_outk_m1536_n1536_k768_v7x_i32_f32_1_alg».proof.Proof.K.Inst

noncomputable section

namespace Cert.Kernel.Ring

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section
variable (m : Mem F) (ρ : Dev nD → PrngReg)

theorem finish (K : Dev nD × CK → ℕ) (c : Dev nD) (W' : Waits sig Unit)
    (fp : Buf (Elt F) (pM.view.loc (c : Thread nD τ))) (f3' : Buf (Elt F) (r1M.view.loc (c : Thread nD τ)))
    (f4' : Buf (Elt F) (r1bM.view.loc (c : Thread nD τ))) (go : Buf (Elt F) (oM.view.loc (c : Thread nD τ))) (hgo : go = outI m ρ c) :
    iprop(records (VfI m ρ) (VbI m ρ) (VdI m ρ) (R1bI m ρ) K ∗ doneAt (F := F) c (Finset.univ.erase CK.bar) ∗ owes (c : Thread nD τ) 0 W'
        ∗ (pM.view.loc (c : Thread nD τ) ↦[pM.view.set]{fullShare} fp)
        ∗ (free (F := F) c (cfP 0 0) ∗ free (F := F) c (cfP 0 1) ∗ free (F := F) c (cfP 1 0) ∗ free (F := F) c (cfP 1 1)
            ∗ free (F := F) c (cfP 2 0) ∗ free (F := F) c (cfP 2 1) ∗ free (F := F) c (cfP 3 0) ∗ free (F := F) c (cfP 3 1))
        ∗ (free (F := F) c (cbP 0 0) ∗ free (F := F) c (cbP 0 1) ∗ free (F := F) c (cbP 1 0) ∗ free (F := F) c (cbP 1 1)
            ∗ free (F := F) c (cbP 2 0) ∗ free (F := F) c (cbP 2 1) ∗ free (F := F) c (cbP 3 0) ∗ free (F := F) c (cbP 3 1))
        ∗ (r1M.view.loc (c : Thread nD τ) ↦[r1M.view.set]{fullShare} f3') ∗ (r1bM.view.loc (c : Thread nD τ) ↦[r1bM.view.set]{fullShare} f4')
        ∗ (free (F := F) c (cdP 0) ∗ free (F := F) c (cdP 1) ∗ free (F := F) c (cdP 2) ∗ free (F := F) c (cdP 3)
            ∗ free (F := F) c (cdP 4) ∗ free (F := F) c (cdP 5) ∗ free (F := F) c (cdP 6))
        ∗ (aM.view.loc (c : Thread nD τ) ↦[aM.view.set]{fullShare} Astg m ρ c) ∗ (bM.view.loc (c : Thread nD τ) ↦[bM.view.set]{fullShare} Bstg m ρ c)
        ∗ (oM.view.loc (c : Thread nD τ) ↦[oM.view.set]{fullShare} go))
      ⊢ (|={Set.univ}=> bodyPost (VfI m ρ) (VbI m ρ) (VdI m ρ) (R1bI m ρ) m ρ (outI m ρ) c : sProp 𝕄) := by
  subst hgo
  unfold bodyPost Φ₁ scratch free
  iintro ⟨#Hrec, Hdone, HL, H0, Hcf, Hcb, H3, H4, Hcd, Ha, Hb, Ho⟩
  imod (close_all (VfI m ρ) (VbI m ρ) (VdI m ρ) (R1bI m ρ) K c) $$ [Hdone] with Hsems
  · isplitr; · iexact Hrec
    iexact Hdone
  imodintro
  ihave H1 := (cf_join (F := F) c) $$ Hcf
  ihave H2 := (cb_join (F := F) c) $$ Hcb
  ihave H5 := (cd_join (F := F) c) $$ Hcd
  ihave H0 := (Entails.of_eq (show ((pM.view.loc (c : Thread nD τ) ↦[pM.view.set]{fullShare} fp) : sProp 𝕄)
      = (((c : Thread nD τ).loc cc0_scratch0) ↦{fullShare} fp) from by rw [View.set_whole])) $$ H0
  ihave H3 := (Entails.of_eq (show ((r1M.view.loc (c : Thread nD τ) ↦[r1M.view.set]{fullShare} f3') : sProp 𝕄)
      = (((c : Thread nD τ).loc cc0_scratch3) ↦{fullShare} f3') from by rw [View.set_whole])) $$ H3
  ihave H4 := (Entails.of_eq (show ((r1bM.view.loc (c : Thread nD τ) ↦[r1bM.view.set]{fullShare} f4') : sProp 𝕄)
      = (((c : Thread nD τ).loc cc0_scratch4) ↦{fullShare} f4') from by rw [View.set_whole])) $$ H4
  ihave Ha := (Entails.of_eq (show ((aM.view.loc (c : Thread nD τ) ↦[aM.view.set]{fullShare} Astg m ρ c) : sProp 𝕄)
      = (((c : Thread nD τ).loc cc0_stg0_0) ↦{fullShare} Astg m ρ c) from by rw [View.set_whole])) $$ Ha
  ihave Hb := (Entails.of_eq (show ((bM.view.loc (c : Thread nD τ) ↦[bM.view.set]{fullShare} Bstg m ρ c) : sProp 𝕄)
      = (((c : Thread nD τ).loc cc0_stg1_0) ↦{fullShare} Bstg m ρ c) from by rw [View.set_whole])) $$ Hb
  ihave Ho := (Entails.of_eq (show ((oM.view.loc (c : Thread nD τ) ↦[oM.view.set]{fullShare} outI m ρ c) : sProp 𝕄)
      = (((c : Thread nD τ).loc cc0_stg2_0) ↦{fullShare} outI m ρ c) from by rw [View.set_whole])) $$ Ho
  isplitl [H0 H1 H2 H3 H4 H5 Hsems]
  · isplitr [Hsems]
    · isplitl [H0]; · iexists fp; iexact H0
      isplitl [H1]; · iexact H1
      isplitl [H2]; · iexact H2
      isplitl [H3]; · iexists f3'; iexact H3
      isplitl [H4]; · iexists f4'; iexact H4
      iexact H5
    · iexact Hsems
  isplitl [HL]
  · iexists W'
    isplitr
    · ipureintro; exact fun _ _ => Or.inl trivial
    iexact HL
  isplitl [Ha]
  · iexists (Astg m ρ c); isplitr
    · ipureintro; rfl
    iexact Ha
  isplitl [Hb]
  · iexists (Bstg m ρ c); isplitr
    · ipureintro; rfl
    iexact Hb
  iexists (outI m ρ c); isplitr
  · ipureintro; rfl
  iexact Ho

end

end Cert.Kernel.Ring

end
-- ==== Proof.K.Gather.lean ====
/- The consumed cells, gathered: all of a device's cells but the entry cell. -/
import proofs.«900894_g7700000000000895_dist_matmul_mk_i_outk_m1536_n1536_k768_v7x_i32_f32_1_alg».proof.Proof.K.Exit
import Idealize.ShloMosaic.Lib.Pipeline.Kit

noncomputable section

namespace Cert.Kernel.Ring

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.SL.BI (bigSepL bigSep_eq_bigSepL_of_eq)

variable {F : FTy → Type} [FloatOps F]

local notation "𝕄" => MT nD τ sig Unit (Elt F) ℕ UU ℕ

def doneList : List CK :=
  [CK.fS 0 0, CK.fR 0 0, CK.bS 0 0, CK.bR 0 0, CK.fS 0 1, CK.fR 0 1, CK.bS 0 1, CK.bR 0 1,
   CK.fS 1 0, CK.fR 1 0, CK.bS 1 0, CK.bR 1 0, CK.fS 1 1, CK.fR 1 1, CK.bS 1 1, CK.bR 1 1,
   CK.fS 2 0, CK.fR 2 0, CK.bS 2 0, CK.bR 2 0, CK.fS 2 1, CK.fR 2 1, CK.bS 2 1, CK.bR 2 1,
   CK.dS 0, CK.dR 0, CK.dS 1, CK.dR 1, CK.dS 2, CK.dR 2, CK.dS 3, CK.dR 3, CK.dS 4, CK.dR 4, CK.dS 5, CK.dR 5, CK.dS 6, CK.dR 6]

theorem doneList_all : Finset.univ.erase CK.bar = doneList.toFinset := by decide
theorem doneList_nodup : doneList.Nodup := by decide

omit [FloatOps F] in
theorem doneAt_list (c : Dev nD) :
    doneAt (F := F) c (Finset.univ.erase CK.bar) = bigSepL doneList fun k => (atPos ER (kcell (c, k)) 1 ∅ 0 : sProp 𝕄) := by
  unfold doneAt
  exact bigSep_eq_bigSepL_of_eq doneList doneList_all doneList_nodup _

omit [FloatOps F] in
theorem done_all (c : Dev nD) :
    (iprop(atPos ER (kcell (c, CK.fS 0 0)) 1 ∅ 0 ∗ atPos ER (kcell (c, CK.fR 0 0)) 1 ∅ 0 ∗ atPos ER (kcell (c, CK.bS 0 0)) 1 ∅ 0 ∗ atPos ER (kcell (c, CK.bR 0 0)) 1 ∅ 0
      ∗ atPos ER (kcell (c, CK.fS 0 1)) 1 ∅ 0 ∗ atPos ER (kcell (c, CK.fR 0 1)) 1 ∅ 0 ∗ atPos ER (kcell (c, CK.bS 0 1)) 1 ∅ 0 ∗ atPos ER (kcell (c, CK.bR 0 1)) 1 ∅ 0
      ∗ atPos ER (kcell (c, CK.fS 1 0)) 1 ∅ 0 ∗ atPos ER (kcell (c, CK.fR 1 0)) 1 ∅ 0 ∗ atPos ER (kcell (c, CK.bS 1 0)) 1 ∅ 0 ∗ atPos ER (kcell (c, CK.bR 1 0)) 1 ∅ 0
      ∗ atPos ER (kcell (c, CK.fS 1 1)) 1 ∅ 0 ∗ atPos ER (kcell (c, CK.fR 1 1)) 1 ∅ 0 ∗ atPos ER (kcell (c, CK.bS 1 1)) 1 ∅ 0 ∗ atPos ER (kcell (c, CK.bR 1 1)) 1 ∅ 0
      ∗ atPos ER (kcell (c, CK.fS 2 0)) 1 ∅ 0 ∗ atPos ER (kcell (c, CK.fR 2 0)) 1 ∅ 0 ∗ atPos ER (kcell (c, CK.bS 2 0)) 1 ∅ 0 ∗ atPos ER (kcell (c, CK.bR 2 0)) 1 ∅ 0
      ∗ atPos ER (kcell (c, CK.fS 2 1)) 1 ∅ 0 ∗ atPos ER (kcell (c, CK.fR 2 1)) 1 ∅ 0 ∗ atPos ER (kcell (c, CK.bS 2 1)) 1 ∅ 0 ∗ atPos ER (kcell (c, CK.bR 2 1)) 1 ∅ 0
      ∗ atPos ER (kcell (c, CK.dS 0)) 1 ∅ 0 ∗ atPos ER (kcell (c, CK.dR 0)) 1 ∅ 0 ∗ atPos ER (kcell (c, CK.dS 1)) 1 ∅ 0 ∗ atPos ER (kcell (c, CK.dR 1)) 1 ∅ 0
      ∗ atPos ER (kcell (c, CK.dS 2)) 1 ∅ 0 ∗ atPos ER (kcell (c, CK.dR 2)) 1 ∅ 0 ∗ atPos ER (kcell (c, CK.dS 3)) 1 ∅ 0 ∗ atPos ER (kcell (c, CK.dR 3)) 1 ∅ 0
      ∗ atPos ER (kcell (c, CK.dS 4)) 1 ∅ 0 ∗ atPos ER (kcell (c, CK.dR 4)) 1 ∅ 0 ∗ atPos ER (kcell (c, CK.dS 5)) 1 ∅ 0 ∗ atPos ER (kcell (c, CK.dR 5)) 1 ∅ 0
      ∗ atPos ER (kcell (c, CK.dS 6)) 1 ∅ 0 ∗ atPos ER (kcell (c, CK.dR 6)) 1 ∅ 0) : sProp 𝕄)
      ⊢ doneAt (F := F) c (Finset.univ.erase CK.bar) := by
  rw [doneAt_list]
  exact .rfl

theorem Orem_done (c : Dev nD) (S : Finset PK) (hS : S = ∅) : Orem c S = 0 := by
  subst hS; exact Orem_empty c

end Cert.Kernel.Ring

end
-- ==== Proof.K.Offs.lean ====
/- Every offset the body computes from the device's number, in closed form, decided over the 32 devices. -/
import proofs.«900894_g7700000000000895_dist_matmul_mk_i_outk_m1536_n1536_k768_v7x_i32_f32_1_alg».proof.Proof.K.Vals
import Idealize.ShloMosaic.Lib.Decide

set_option Elab.async false

namespace Cert.Kernel.Ring

open Idealize.ShloMosaic Cert.Kernel Cert.Kernel.Gen Cert.Kernel.Mesh

theorem off1_1 (c : Dev nD) : k0_off1 c 1#32 = ![384 * (q4 (zi c + 1)).val, 0] := by revert c; decide +kernel
theorem off1_2 (c : Dev nD) : k0_off1 c 2#32 = ![384 * (q4 (zi c + 2)).val, 0] := by revert c; decide +kernel
theorem off1_3 (c : Dev nD) : k0_off1 c 3#32 = ![384 * (q4 (zi c + 3)).val, 0] := by revert c; decide +kernel

theorem off2_1 (c : Dev nD) : k0_off2 c 1#32 = ![384 * (q4 (zi c + 1)).val, 0] := by revert c; decide +kernel
theorem off2_2 (c : Dev nD) : k0_off2 c 2#32 = ![384 * (q4 (zi c + 2)).val, 0] := by revert c; decide +kernel
theorem off2_3 (c : Dev nD) : k0_off2 c 3#32 = ![384 * (q4 (zi c + 3)).val, 0] := by revert c; decide +kernel

theorem off3_1 (c : Dev nD) : k0_off3 c 1#32 = ![384 * (q4 (zi c + 1)).val, 768] := by revert c; decide +kernel
theorem off3_2 (c : Dev nD) : k0_off3 c 2#32 = ![384 * (q4 (zi c + 2)).val, 768] := by revert c; decide +kernel
theorem off3_3 (c : Dev nD) : k0_off3 c 3#32 = ![384 * (q4 (zi c + 3)).val, 768] := by revert c; decide +kernel

theorem off4_eq (c : Dev nD) : k0_off4 c = ![384 * (q4 (zi c)).val, 0] := by revert c; decide +kernel
theorem off5_eq (c : Dev nD) : k0_off5 c = ![384 * (q4 (zi c)).val, 0] := by revert c; decide +kernel
theorem off6_eq (c : Dev nD) : k0_off6 c = ![384 * (q4 (zi c)).val, 768] := by revert c; decide +kernel

theorem off7_0_0 (c : Dev nD) : k0_off7 c 0#32 0#32 = ![384 * (q4 (zi c + 6)).val, 0] := by revert c; decide +kernel
theorem off7_0_192 (c : Dev nD) : k0_off7 c 0#32 192#32 = ![384 * (q4 (zi c + 6)).val + 192, 0] := by revert c; decide +kernel
theorem off7_1_0 (c : Dev nD) : k0_off7 c 1#32 0#32 = ![384 * (q4 (zi c + 5)).val, 0] := by revert c; decide +kernel
theorem off7_1_192 (c : Dev nD) : k0_off7 c 1#32 192#32 = ![384 * (q4 (zi c + 5)).val + 192, 0] := by revert c; decide +kernel

theorem off8_0_0 (c : Dev nD) : k0_off8 c 0#32 0#32 = ![384 * (q4 (zi c + 2)).val, 768] := by revert c; decide +kernel
theorem off8_0_192 (c : Dev nD) : k0_off8 c 0#32 192#32 = ![384 * (q4 (zi c + 2)).val + 192, 768] := by revert c; decide +kernel
theorem off8_1_0 (c : Dev nD) : k0_off8 c 1#32 0#32 = ![384 * (q4 (zi c + 3)).val, 768] := by revert c; decide +kernel
theorem off8_1_192 (c : Dev nD) : k0_off8 c 1#32 192#32 = ![384 * (q4 (zi c + 3)).val + 192, 768] := by revert c; decide +kernel

theorem off9_0 (c : Dev nD) : k0_off9 c 0#32 = ![384 * (q4 (zi c)).val, 0] := by revert c; decide +kernel
theorem off9_192 (c : Dev nD) : k0_off9 c 192#32 = ![384 * (q4 (zi c)).val + 192, 0] := by revert c; decide +kernel

theorem off10_0 (c : Dev nD) : k0_off10 c 0#32 = ![384 * (q4 (zi c)).val, 768] := by revert c; decide +kernel
theorem off10_192 (c : Dev nD) : k0_off10 c 192#32 = ![384 * (q4 (zi c)).val + 192, 768] := by revert c; decide +kernel

theorem off11_r (c : Dev nD) (r : Fin 7) :
    k0_off11 c (BitVec.ofNat 32 (1 + r.val)) = ![48 * ((wi c + r.val + 1) % 8), 0] := by
  revert c r; decide +kernel
theorem off11_1 (c : Dev nD) : k0_off11 c 1#32 = ![48 * ((wi c + 1) % 8), 0] := by revert c; decide +kernel
theorem off11_2 (c : Dev nD) : k0_off11 c 2#32 = ![48 * ((wi c + 2) % 8), 0] := by revert c; decide +kernel
theorem off11_3 (c : Dev nD) : k0_off11 c 3#32 = ![48 * ((wi c + 3) % 8), 0] := by revert c; decide +kernel
theorem off11_4 (c : Dev nD) : k0_off11 c 4#32 = ![48 * ((wi c + 4) % 8), 0] := by revert c; decide +kernel
theorem off11_5 (c : Dev nD) : k0_off11 c 5#32 = ![48 * ((wi c + 5) % 8), 0] := by revert c; decide +kernel
theorem off11_6 (c : Dev nD) : k0_off11 c 6#32 = ![48 * ((wi c + 6) % 8), 0] := by revert c; decide +kernel
theorem off11_7 (c : Dev nD) : k0_off11 c 7#32 = ![48 * ((wi c + 7) % 8), 0] := by revert c; decide +kernel

theorem off12_eq (c : Dev nD) : k0_off12 c = ![48 * wi c, 0] := by revert c; decide +kernel

end Cert.Kernel.Ring
-- ==== Proof.K.ReadAt.lean ====
/- Reading a rectangle of an array at coordinates: the entry at off + i; re-indexing commutes with pointwise operations. -/
import proofs.«900894_g7700000000000895_dist_matmul_mk_i_outk_m1536_n1536_k768_v7x_i32_f32_1_alg».proof.Proof.K.Cells
import Idealize.ShloMosaic.Lib.ValueIdx
import Idealize.ShloMosaic.Lib.ValueLayout
import Idealize.ShloMosaic.Lib.Pipeline.Value

noncomputable section

namespace Cert.Kernel.Ring

open Cert.Kernel Cert.Kernel.Gen Cert.Kernel.Mesh
open Idealize.ShloMosaic
open Idealize.ShloMosaic.ValueIdx (ix2 ix3 eq_ix2 eq_ix3 idx2_lt0 idx2_lt1)

section Landing
variable {α : Type}

theorem unit_idx2 {R C : ℕ} (off size : Fin 2 → Nat) (inb : ∀ a, off a + size a ≤ (⟨2, ![R, C]⟩ : Shape).size a)
    (x : (Rect.unit (s := ⟨2, ![R, C]⟩) off size inb).toLoadRect.shape.Idx) :
    (Rect.unit (s := ⟨2, ![R, C]⟩) off size inb).toLoadRect.idx x
      = ix2 (⟨off 0 + (x 0).val, by have h1 : off 0 + size 0 ≤ R := inb 0; have h2 : (x 0).val < size 0 := (x 0).isLt; omega⟩ : Fin R)
          (⟨off 1 + (x 1).val, by have h1 : off 1 + size 1 ≤ C := inb 1; have h2 : (x 1).val < size 1 := (x 1).isLt; omega⟩ : Fin C) :=
  funext fun a => Fin.ext (by
    match a with
    | ⟨0, _⟩ => show off 0 + 1 * (x 0).val = off 0 + (x 0).val; rw [Nat.one_mul]
    | ⟨1, _⟩ => show off 1 + 1 * (x 1).val = off 1 + (x 1).val; rw [Nat.one_mul])

theorem comp_unit_idx2 {R C : ℕ} (g : (⟨2, ![R, C]⟩ : Shape).Idx → α) (off size : Fin 2 → Nat)
    (inb : ∀ a, off a + size a ≤ (⟨2, ![R, C]⟩ : Shape).size a) :
    (fun x => g ((Rect.unit (s := ⟨2, ![R, C]⟩) off size inb).toLoadRect.idx x))
      = fun x : (Rect.unit (s := ⟨2, ![R, C]⟩) off size inb).toLoadRect.shape.Idx =>
          g (ix2 (⟨off 0 + (x 0).val, by have h1 : off 0 + size 0 ≤ R := inb 0; have h2 : (x 0).val < size 0 := (x 0).isLt; omega⟩ : Fin R)
            (⟨off 1 + (x 1).val, by have h1 : off 1 + size 1 ≤ C := inb 1; have h2 : (x 1).val < size 1 := (x 1).isLt; omega⟩ : Fin C)) :=
  funext fun x => congrArg g (unit_idx2 off size inb x)

end Landing

section Pointwise
variable {F : FTy → Type} [FloatOps F] {s t : Shape} {φ ψ : FTy}

end Pointwise

section Buffers
variable {F : FTy → Type} [FloatOps F]

theorem aM_readAt (off size : Fin 2 → Nat) (inb : ∀ a, off a + size a ≤ S1536x768.size a) (f : Vec F S1536x768 .f32) :
    aM.view.readAt (Elt F) (Rect.unit (s := S1536x768) off size inb).toLoadRect f
      = fun x : (Rect.unit (s := S1536x768) off size inb).toLoadRect.shape.Idx =>
          f (ix2 (⟨off 0 + (x 0).val, by have h1 : off 0 + size 0 ≤ 1536 := inb 0; have h2 : (x 0).val < size 0 := (x 0).isLt; omega⟩ : Fin 1536)
            (⟨off 1 + (x 1).val, by have h1 : off 1 + size 1 ≤ 768 := inb 1; have h2 : (x 1).val < size 1 := (x 1).isLt; omega⟩ : Fin 768)) :=
  comp_unit_idx2 f off size inb
theorem bM_readAt (off size : Fin 2 → Nat) (inb : ∀ a, off a + size a ≤ S768x1536.size a) (f : Vec F S768x1536 .f32) :
    bM.view.readAt (Elt F) (Rect.unit (s := S768x1536) off size inb).toLoadRect f
      = fun x : (Rect.unit (s := S768x1536) off size inb).toLoadRect.shape.Idx =>
          f (ix2 (⟨off 0 + (x 0).val, by have h1 : off 0 + size 0 ≤ 768 := inb 0; have h2 : (x 0).val < size 0 := (x 0).isLt; omega⟩ : Fin 768)
            (⟨off 1 + (x 1).val, by have h1 : off 1 + size 1 ≤ 1536 := inb 1; have h2 : (x 1).val < size 1 := (x 1).isLt; omega⟩ : Fin 1536)) :=
  comp_unit_idx2 f off size inb
theorem r1M_readAt (off size : Fin 2 → Nat) (inb : ∀ a, off a + size a ≤ S384x1536.size a) (f : Vec F S384x1536 .f32) :
    r1M.view.readAt (Elt F) (Rect.unit (s := S384x1536) off size inb).toLoadRect f
      = fun x : (Rect.unit (s := S384x1536) off size inb).toLoadRect.shape.Idx =>
          f (ix2 (⟨off 0 + (x 0).val, by have h1 : off 0 + size 0 ≤ 384 := inb 0; have h2 : (x 0).val < size 0 := (x 0).isLt; omega⟩ : Fin 384)
            (⟨off 1 + (x 1).val, by have h1 : off 1 + size 1 ≤ 1536 := inb 1; have h2 : (x 1).val < size 1 := (x 1).isLt; omega⟩ : Fin 1536)) :=
  comp_unit_idx2 f off size inb
theorem r1bM_readAt (off size : Fin 2 → Nat) (inb : ∀ a, off a + size a ≤ S384x1536.size a) (f : Vec F S384x1536 .bf16) :
    r1bM.view.readAt (Elt F) (Rect.unit (s := S384x1536) off size inb).toLoadRect f
      = fun x : (Rect.unit (s := S384x1536) off size inb).toLoadRect.shape.Idx =>
          f (ix2 (⟨off 0 + (x 0).val, by have h1 : off 0 + size 0 ≤ 384 := inb 0; have h2 : (x 0).val < size 0 := (x 0).isLt; omega⟩ : Fin 384)
            (⟨off 1 + (x 1).val, by have h1 : off 1 + size 1 ≤ 1536 := inb 1; have h2 : (x 1).val < size 1 := (x 1).isLt; omega⟩ : Fin 1536)) :=
  comp_unit_idx2 f off size inb
end Buffers

end Cert.Kernel.Ring

end
-- ==== Proof.K.Loads.lean ====
/- Each of the eight block products is a row block times a column half of the device's own factors. -/
import proofs.«900894_g7700000000000895_dist_matmul_mk_i_outk_m1536_n1536_k768_v7x_i32_f32_1_alg».proof.Proof.K.Offs
import proofs.«900894_g7700000000000895_dist_matmul_mk_i_outk_m1536_n1536_k768_v7x_i32_f32_1_alg».proof.Proof.K.ReadAt
import proofs.«900894_g7700000000000895_dist_matmul_mk_i_outk_m1536_n1536_k768_v7x_i32_f32_1_alg».proof.Proof.Gen.Kernel.Skeleton

noncomputable section

namespace Cert.Kernel.Ring

open Cert.Kernel Cert.Kernel.Gen Cert.Kernel.Mesh
open Idealize.ShloMosaic
open Idealize.ShloMosaic.ValueIdx (ix2)

variable {F : FTy → Type} [FloatOps F]

theorem aM_rows (A : Dev nD → Vec F S1536x768 .f32) (c : Dev nD) (off : Fin 2 → Nat) (q : Fin 4)
    (hoff : off = ![384 * q.val, 0]) (inb : ∀ a, off a + S384x768.size a ≤ S1536x768.size a) :
    aM.view.readAt (Elt F) (Rect.unit (s := S1536x768) off S384x768.size inb).toLoadRect (A c) = aRows A c q := by
  subst hoff
  rw [aM_readAt]
  unfold aRows
  funext x
  exact congrArg (A c) (funext fun a => Fin.ext (by
    match a with
    | ⟨0, _⟩ => rfl
    | ⟨1, _⟩ => exact Nat.zero_add _))

theorem bM_cols (B : Dev nD → Vec F S768x1536 .f32) (c : Dev nD) (off : Fin 2 → Nat) (hf : Fin 2)
    (hoff : off = ![0, 768 * hf.val]) (inb : ∀ a, off a + S768x768.size a ≤ S768x1536.size a) :
    bM.view.readAt (Elt F) (Rect.unit (s := S768x1536) off S768x768.size inb).toLoadRect (B c) = bCols B c hf := by
  subst hoff
  rw [bM_readAt]
  unfold bCols
  funext x
  exact congrArg (B c) (funext fun a => Fin.ext (by
    match a with
    | ⟨0, _⟩ => exact Nat.zero_add _
    | ⟨1, _⟩ => rfl))

variable (A : Dev nD → Vec F S1536x768 .f32) (B : Dev nD → Vec F S768x1536 .f32)

theorem k0_pay2_eq (u : Vec F S384x768 .f32) (w : Vec F S768x768 .f32) :
    k0_pay2 u w = matmul dot_S384x768_S768x768_S384x768_1_0_0_1_n_n none u w (constant S384x768 .f32 0x00000000#32) := by
  unfold k0_pay2; simp only [shapeCast_self]
theorem k0_pay5_eq (u : Vec F S384x768 .f32) (w : Vec F S768x768 .f32) :
    k0_pay5 u w = matmul dot_S384x768_S768x768_S384x768_1_0_0_1_n_n none u w (constant S384x768 .f32 0x00000000#32) := by
  unfold k0_pay5; simp only [shapeCast_self]
theorem k0_pay7_eq (u : Vec F S384x768 .f32) (w : Vec F S768x768 .f32) :
    k0_pay7 u w = matmul dot_S384x768_S768x768_S384x768_1_0_0_1_n_n none u w (constant S384x768 .f32 0x00000000#32) := by
  unfold k0_pay7; simp only [shapeCast_self]
theorem k0_pay8_eq (u : Vec F S384x768 .f32) (w : Vec F S768x768 .f32) :
    k0_pay8 u w = matmul dot_S384x768_S768x768_S384x768_1_0_0_1_n_n none u w (constant S384x768 .f32 0x00000000#32) := by
  unfold k0_pay8; simp only [shapeCast_self]
theorem k0_pay9_eq (u : Vec F S384x768 .f32) (w : Vec F S768x768 .f32) :
    k0_pay9 u w = matmul dot_S384x768_S768x768_S384x768_1_0_0_1_n_n none u w (constant S384x768 .f32 0x00000000#32) := by
  unfold k0_pay9; simp only [shapeCast_self]
theorem k0_pay10_eq (u : Vec F S384x768 .f32) (w : Vec F S768x768 .f32) :
    k0_pay10 u w = matmul dot_S384x768_S768x768_S384x768_1_0_0_1_n_n none u w (constant S384x768 .f32 0x00000000#32) := by
  unfold k0_pay10; simp only [shapeCast_self]
theorem k0_pay11_eq (u : Vec F S384x768 .f32) (w : Vec F S768x768 .f32) :
    k0_pay11 u w = matmul dot_S384x768_S768x768_S384x768_1_0_0_1_n_n none u w (constant S384x768 .f32 0x00000000#32) := by
  unfold k0_pay11; simp only [shapeCast_self]
theorem k0_pay12_eq (u : Vec F S384x768 .f32) (w : Vec F S768x768 .f32) :
    k0_pay12 u w = matmul dot_S384x768_S768x768_S384x768_1_0_0_1_n_n none u w (constant S384x768 .f32 0x00000000#32) := by
  unfold k0_pay12; simp only [shapeCast_self]

/- A block product of a row-block load and a column-half load is that piece of the device's own product. -/
theorem pay_loads (p : Vec F S384x768 .f32 → Vec F S768x768 .f32 → Vec F S384x768 .f32)
    (hp : ∀ u w, p u w = matmul dot_S384x768_S768x768_S384x768_1_0_0_1_n_n none u w (constant S384x768 .f32 0x00000000#32))
    (c : Dev nD) (q : Fin 4) (hf : Fin 2) (oa ob : Fin 2 → Nat) (ha : oa = ![384 * q.val, 0]) (hb : ob = ![0, 768 * hf.val])
    (ia : ∀ a, oa a + S384x768.size a ≤ S1536x768.size a) (ib : ∀ a, ob a + S768x768.size a ≤ S768x1536.size a) :
    p (aM.view.readAt (Elt F) (Rect.unit (s := S1536x768) oa S384x768.size ia).toLoadRect (A c))
        (bM.view.readAt (Elt F) (Rect.unit (s := S768x1536) ob S768x768.size ib).toLoadRect (B c))
      = mm A B c q hf := by
  rw [aM_rows A c oa q ha ia, bM_cols B c ob hf hb ib]; exact hp _ _

end Cert.Kernel.Ring

end
-- ==== Proof.K.SendVals.lean ====
/- What the first sends carry: the strips of the block product just stored. -/
import proofs.«900894_g7700000000000895_dist_matmul_mk_i_outk_m1536_n1536_k768_v7x_i32_f32_1_alg».proof.Proof.K.Loads
import proofs.«900894_g7700000000000895_dist_matmul_mk_i_outk_m1536_n1536_k768_v7x_i32_f32_1_alg».proof.Proof.K.Pieces
import proofs.«900894_g7700000000000895_dist_matmul_mk_i_outk_m1536_n1536_k768_v7x_i32_f32_1_alg».proof.Proof.K.Inst
import proofs.«900894_g7700000000000895_dist_matmul_mk_i_outk_m1536_n1536_k768_v7x_i32_f32_1_alg».proof.Proof.Gen.Kernel.Skeleton

noncomputable section

namespace Cert.Kernel.Ring

open Cert.Kernel Cert.Kernel.Gen Cert.Kernel.Mesh
open Idealize.ShloMosaic
open Idealize.ShloMosaic.TcCoe
open Idealize.SL.Sem
open Idealize.ShloMosaic.ValueIdx (ix2 ix3)

variable {F : FTy → Type} [FloatOps F]

theorem k0_pay4_apply (u : FVec F S384x768 .bf16) (p : Fin 384) (q : Fin 768) :
    k0_pay4 u (ix3 (0 : Fin 1) p q) = u (ix2 p q) :=
  ValueIdx.shapeCast_ab_1ab_apply u shapeCasts_S384x768_S1x384x768 0 p q
theorem k0_pay6_apply (v : Vec F S384x768 .f32) (p : Fin 384) (q : Fin 768) :
    k0_pay6 v (ix3 (0 : Fin 1) p q) = truncf .bf16 v bitsLt_bf16_f32 (ix2 p q) :=
  ValueIdx.shapeCast_ab_1ab_apply (truncf .bf16 v bitsLt_bf16_f32) shapeCasts_S384x768_S1x384x768 0 p q

theorem sendF0 (m : Mem F) (ρ : Dev nD → PrngReg) (c : Dev nD) (s : Fin 2)
    (f1 : (cc0_scratch1 : Ref sig .tc).ty.Contents (Elt F)) (L : List (View.Piece (Elt F) S1536x1536 .f32))
    (i1 : ∀ a, k0_off1 c 3#32 a + S384x768.size a ≤ S1536x768.size a)
    (ib : ∀ a, (![0, 0] : Fin 2 → Nat) a + S768x768.size a ≤ S768x1536.size a)
    (i2 i2' : ∀ a, k0_off2 c 3#32 a + S384x768.size a ≤ S1536x1536.size a)
    (i3 : ∀ a, (![3, 0, 0] : Fin 3 → Nat) a + S1x384x768.size a ≤ S4x384x768.size a) :
    (cfP 3 s).view.read (Elt F)
        (View.write (Elt F) ((Memref.whole cc0_scratch1).access (Rect.unit (s := S4x384x768) ![3, 0, 0] S1x384x768.size i3)) f1
          (k0_pay4 (k0_pay3 (pM.view.readCov
            ((⟨Rect.unit (s := S1536x1536) (k0_off2 c 3#32) S384x768.size i2',
                k0_pay2 (aM.view.readAt (Elt F) (Rect.unit (s := S1536x768) (k0_off1 c 3#32) S384x768.size i1).toLoadRect (Astg m ρ c))
                  (bM.view.readAt (Elt F) (Rect.unit (s := S768x1536) ![0, 0] S768x768.size ib).toLoadRect (Bstg m ρ c))⟩
              : View.Piece (Elt F) S1536x1536 .f32) :: L)
            (Rect.unit (s := S1536x1536) (k0_off2 c 3#32) S384x768.size i2).toLoadRect)))
          Finset.univ)
      = VfI m ρ c 0 s := by
  rw [View.readCov_cons_toLoadRect, pay_loads _ _ k0_pay2 k0_pay2_eq c (q4 (zi c + 3)) 0 _ ![0, 0] (off1_3 c) rfl]
  funext x
  rw [cf_top3_read_write s rfl i3 f1 _ x
    (ix3 (0 : Fin 1) (⟨192 * s.val + (x 0).val, by have h : (x 0).val < 192 := (x 0).isLt; have := s.isLt; omega⟩ : Fin 384)
      (⟨(x 1).val, (x 1).isLt⟩ : Fin 768)) rfl rfl rfl,
    k0_pay4_apply]
  rfl

theorem sendB0 (m : Mem F) (ρ : Dev nD → PrngReg) (c : Dev nD) (s : Fin 2)
    (f2 : (cc0_scratch2 : Ref sig .tc).ty.Contents (Elt F)) (L : List (View.Piece (Elt F) S1536x1536 .f32))
    (i1 : ∀ a, k0_off1 c 1#32 a + S384x768.size a ≤ S1536x768.size a)
    (ib : ∀ a, (![0, 768] : Fin 2 → Nat) a + S768x768.size a ≤ S768x1536.size a)
    (i2 i2' : ∀ a, k0_off3 c 1#32 a + S384x768.size a ≤ S1536x1536.size a)
    (i3 : ∀ a, (![3, 0, 0] : Fin 3 → Nat) a + S1x384x768.size a ≤ S4x384x768.size a) :
    (cbP 3 s).view.read (Elt F)
        (View.write (Elt F) ((Memref.whole cc0_scratch2).access (Rect.unit (s := S4x384x768) ![3, 0, 0] S1x384x768.size i3)) f2
          (k0_pay6 (pM.view.readCov
            ((⟨Rect.unit (s := S1536x1536) (k0_off3 c 1#32) S384x768.size i2',
                k0_pay5 (aM.view.readAt (Elt F) (Rect.unit (s := S1536x768) (k0_off1 c 1#32) S384x768.size i1).toLoadRect (Astg m ρ c))
                  (bM.view.readAt (Elt F) (Rect.unit (s := S768x1536) ![0, 768] S768x768.size ib).toLoadRect (Bstg m ρ c))⟩
              : View.Piece (Elt F) S1536x1536 .f32) :: L)
            (Rect.unit (s := S1536x1536) (k0_off3 c 1#32) S384x768.size i2).toLoadRect))
          Finset.univ)
      = VbI m ρ c 0 s := by
  rw [View.readCov_cons_toLoadRect, pay_loads _ _ k0_pay5 k0_pay5_eq c (q4 (zi c + 1)) 1 _ ![0, 768] (off1_1 c) rfl]
  funext x
  rw [cb_top3_read_write s rfl i3 f2 _ x
    (ix3 (0 : Fin 1) (⟨192 * s.val + (x 0).val, by have h : (x 0).val < 192 := (x 0).isLt; have := s.isLt; omega⟩ : Fin 384)
      (⟨(x 1).val, (x 1).isLt⟩ : Fin 768)) rfl rfl rfl,
    k0_pay6_apply]
  rfl

end Cert.Kernel.Ring

end
-- ==== Proof.K.Pays.lean ====
/- The body's arithmetic: a received piece widened, plus the device's own strip, narrowed again. -/
import proofs.«900894_g7700000000000895_dist_matmul_mk_i_outk_m1536_n1536_k768_v7x_i32_f32_1_alg».proof.Proof.Gen.Kernel.Skeleton
import Idealize.ShloMosaic.Lib.Pipeline.Value

noncomputable section

namespace Cert.Kernel.Ring

open Cert.Kernel Cert.Kernel.Gen
open Idealize.ShloMosaic

variable {F : FTy → Type} [FloatOps F]

abbrev recv (u : Vec F S1x192x768 .bf16) : FVec F S192x768 .bf16 := shapeCast S192x768 u shapeCasts_S1x192x768_S192x768
abbrev hopVal (u : Vec F S1x192x768 .bf16) (x : Vec F S192x768 .f32) : FVec F S192x768 .bf16 :=
  truncf .bf16 (addf (extf .f32 (recv u) bitsLt_bf16_f32) x) bitsLt_bf16_f32
abbrev lastVal (u : Vec F S1x192x768 .bf16) (x : Vec F S192x768 .f32) : FVec F S192x768 .f32 :=
  addf (extf .f32 (recv u) bitsLt_bf16_f32) x
abbrev recvD (w : Vec F S1x48x1536 .bf16) : FVec F S48x1536 .bf16 := shapeCast S48x1536 w shapeCasts_S1x48x1536_S48x1536

theorem pay14_13_cast (u : Vec F S1x192x768 .bf16) (x : Vec F S192x768 .f32) :
    shapeCast S192x768 (k0_pay14 (k0_pay13 u) x) shapeCasts_S1x192x768_S192x768 = hopVal u x :=
  shapeCast_shapeCast (hopVal u x) shapeCasts_S192x768_S1x192x768 shapeCasts_S1x192x768_S192x768

theorem pay15_cast (u : Vec F S1x192x768 .bf16) (x : Vec F S192x768 .f32) :
    shapeCast S192x768 (k0_pay15 u x) shapeCasts_S1x192x768_S192x768 = hopVal u x :=
  shapeCast_shapeCast (hopVal u x) shapeCasts_S192x768_S1x192x768 shapeCasts_S1x192x768_S192x768

theorem pay17_16_cast (u : Vec F S1x192x768 .bf16) (x : Vec F S192x768 .f32) :
    shapeCast S192x768 (k0_pay17 (k0_pay16 u x)) shapeCasts_S1x192x768_S192x768 = hopVal u x :=
  shapeCast_shapeCast (hopVal u x) shapeCasts_S192x768_S1x192x768 shapeCasts_S1x192x768_S192x768

theorem pay18_cast (u : Vec F S1x192x768 .bf16) (x : Vec F S192x768 .f32) :
    shapeCast S192x768 (k0_pay18 u x) shapeCasts_S1x192x768_S192x768 = hopVal u x :=
  shapeCast_shapeCast (hopVal u x) shapeCasts_S192x768_S1x192x768 shapeCasts_S1x192x768_S192x768

theorem pay19_cast (u : Vec F S1x192x768 .bf16) (x : Vec F S192x768 .f32) :
    shapeCast S192x768 (k0_pay19 u x) shapeCasts_S1x192x768_S192x768 = hopVal u x :=
  shapeCast_shapeCast (hopVal u x) shapeCasts_S192x768_S1x192x768 shapeCasts_S1x192x768_S192x768

theorem pay20_cast (u : Vec F S1x192x768 .bf16) (x : Vec F S192x768 .f32) :
    shapeCast S192x768 (k0_pay20 u x) shapeCasts_S1x192x768_S192x768 = hopVal u x :=
  shapeCast_shapeCast (hopVal u x) shapeCasts_S192x768_S1x192x768 shapeCasts_S1x192x768_S192x768

theorem pay21_cast (u : Vec F S1x192x768 .bf16) (x : Vec F S192x768 .f32) :
    shapeCast S192x768 (k0_pay21 u x) shapeCasts_S1x192x768_S192x768 = hopVal u x :=
  shapeCast_shapeCast (hopVal u x) shapeCasts_S192x768_S1x192x768 shapeCasts_S1x192x768_S192x768

theorem pay22_cast (u : Vec F S1x192x768 .bf16) (x : Vec F S192x768 .f32) :
    shapeCast S192x768 (k0_pay22 u x) shapeCasts_S1x192x768_S192x768 = hopVal u x :=
  shapeCast_shapeCast (hopVal u x) shapeCasts_S192x768_S1x192x768 shapeCasts_S1x192x768_S192x768

theorem pay24_23 (u : Vec F S1x192x768 .bf16) (x : Vec F S192x768 .f32) : k0_pay24 (k0_pay23 u x) = lastVal u x :=
  shapeCast_self _ _
theorem pay25_eq (u : Vec F S1x192x768 .bf16) (x : Vec F S192x768 .f32) : k0_pay25 u x = lastVal u x :=
  shapeCast_self _ _
theorem pay28_27 (u : Vec F S1x192x768 .bf16) (x : Vec F S192x768 .f32) : k0_pay28 (k0_pay27 u) x = lastVal u x :=
  shapeCast_self _ _
theorem pay29_eq (u : Vec F S1x192x768 .bf16) (x : Vec F S192x768 .f32) : k0_pay29 u x = lastVal u x :=
  shapeCast_self _ _
theorem pay26_eq (v : Vec F S192x1536 .f32) : k0_pay26 v = truncf .bf16 v bitsLt_bf16_f32 := shapeCast_self _ _
theorem pay30_eq (v : Vec F S192x1536 .f32) : k0_pay30 v = truncf .bf16 v bitsLt_bf16_f32 := shapeCast_self _ _

theorem pay32_eq (v : Vec F S48x1536 .f32) : k0_pay32 v = v := shapeCast_self _ _
theorem pay33_eq (v : FVec F S48x1536 .f32) (w : Vec F S1x48x1536 .bf16) :
    k0_pay33 v w = addf v (extf .f32 (recvD w) bitsLt_bf16_f32) := rfl
theorem pay1_eq (v : Vec F S48x1536 .f32) (w : Vec F S1x48x1536 .bf16) :
    k0_pay1 v w = addf v (extf .f32 (recvD w) bitsLt_bf16_f32) := by
  unfold k0_pay1; simp only [shapeCast_self]
theorem pay31_eq (v : Vec F S48x1536 .f32) (w : Vec F S1x48x1536 .bf16) :
    k0_pay31 v w = addf v (extf .f32 (recvD w) bitsLt_bf16_f32) := by
  unfold k0_pay31; simp only [shapeCast_self]
theorem pay34_eq (v : Vec F S48x1536 .f32) (w : Vec F S1x48x1536 .bf16) :
    k0_pay34 v w = addf v (extf .f32 (recvD w) bitsLt_bf16_f32) := by
  unfold k0_pay34; simp only [shapeCast_self]
theorem pay35_eq (v : Vec F S48x1536 .f32) (w : Vec F S1x48x1536 .bf16) :
    k0_pay35 v w = addf v (extf .f32 (recvD w) bitsLt_bf16_f32) := by
  unfold k0_pay35; simp only [shapeCast_self]
theorem pay36_eq (v : Vec F S48x1536 .f32) (w : Vec F S1x48x1536 .bf16) :
    k0_pay36 v w = addf v (extf .f32 (recvD w) bitsLt_bf16_f32) := by
  unfold k0_pay36; simp only [shapeCast_self]
theorem pay37_eq (v : Vec F S48x1536 .f32) (w : Vec F S1x48x1536 .bf16) :
    k0_pay37 v w = addf v (extf .f32 (recvD w) bitsLt_bf16_f32) := by
  unfold k0_pay37; simp only [shapeCast_self]

end Cert.Kernel.Ring

end
-- ==== Proof.K.Hops.lean ====
/- One hop: from what arrived and the device's own strip to what is sent on. -/
import proofs.«900894_g7700000000000895_dist_matmul_mk_i_outk_m1536_n1536_k768_v7x_i32_f32_1_alg».proof.Proof.K.Vals
import proofs.«900894_g7700000000000895_dist_matmul_mk_i_outk_m1536_n1536_k768_v7x_i32_f32_1_alg».proof.Proof.K.Pays

noncomputable section

namespace Cert.Kernel.Ring

open Cert.Kernel Cert.Kernel.Gen Cert.Kernel.Mesh
open Idealize.ShloMosaic

variable {F : FTy → Type} [FloatOps F]
variable (A : Dev nD → Vec F S1536x768 .f32) (B : Dev nD → Vec F S768x1536 .f32)

theorem hopF (c : Dev nD) (h : ℕ) (s : Fin 2) (u : Vec F S1x192x768 .bf16) (x : Vec F S192x768 .f32)
    (hu : recv u = VfN A B h (zl c) s) (hx : x = X A B c (q4 (zi c + 6 - h)) 0 s) :
    hopVal u x = VfN A B (h + 1) c s := by
  subst hx; show truncf .bf16 (addf (extf .f32 (recv u) bitsLt_bf16_f32) _) bitsLt_bf16_f32 = _; rw [hu]; rfl

theorem hopB (c : Dev nD) (h : ℕ) (s : Fin 2) (u : Vec F S1x192x768 .bf16) (x : Vec F S192x768 .f32)
    (hu : recv u = VbN A B h (zr c) s) (hx : x = X A B c (q4 (zi c + 2 + h)) 1 s) :
    hopVal u x = VbN A B (h + 1) c s := by
  subst hx; show truncf .bf16 (addf (extf .f32 (recv u) bitsLt_bf16_f32) _) bitsLt_bf16_f32 = _; rw [hu]; rfl

theorem lastF (c : Dev nD) (s : Fin 2) (u : Vec F S1x192x768 .bf16) (x : Vec F S192x768 .f32)
    (hu : recv u = VfN A B 2 (zl c) s) (hx : x = X A B c (q4 (zi c)) 0 s) :
    lastVal u x = R1 A B c 0 s := by
  subst hx; show addf (extf .f32 (recv u) bitsLt_bf16_f32) _ = _; rw [hu]; rfl
theorem lastB (c : Dev nD) (s : Fin 2) (u : Vec F S1x192x768 .bf16) (x : Vec F S192x768 .f32)
    (hu : recv u = VbN A B 2 (zr c) s) (hx : x = X A B c (q4 (zi c)) 1 s) :
    lastVal u x = R1 A B c 1 s := by
  subst hx; show addf (extf .f32 (recv u) bitsLt_bf16_f32) _ = _; rw [hu]; rfl

theorem planeStep (c : Dev nD) (n : ℕ) (hn : n < 7) (v : FVec F S48x1536 .f32) (w : Vec F S1x48x1536 .bf16)
    (hv : v = outN A B n c) (hw : recvD w = Vd A B (inp (7 - n) c) ⟨n, hn⟩) :
    addf v (extf .f32 (recvD w) bitsLt_bf16_f32) = outN A B (n + 1) c := by
  subst hv; rw [hw, outN_succ A B n hn c]

end Cert.Kernel.Ring

end
-- ==== Proof.K.Partial.lean ====
/- The eight block products tile the device's own 1536 × 1536 product; a strip read from it is the protocol's strip. -/
import proofs.«900894_g7700000000000895_dist_matmul_mk_i_outk_m1536_n1536_k768_v7x_i32_f32_1_alg».proof.Proof.K.Loads
import Idealize.ShloMosaic.Lib.Decide

set_option Elab.async false

noncomputable section

namespace Cert.Kernel.Ring

open Cert.Kernel Cert.Kernel.Gen Cert.Kernel.Mesh
open Idealize.ShloMosaic
open Idealize.ShloMosaic.ValueIdx (ix2 idx2_lt0 idx2_lt1)

variable {F : FTy → Type} [FloatOps F]
variable (A : Dev nD → Vec F S1536x768 .f32) (B : Dev nD → Vec F S768x1536 .f32)

theorem mm_congr (c : Dev nD) {q q' : Fin 4} {hf hf' : Fin 2} {i i' : S384x768.Idx}
    (hq : q.val = q'.val) (hh : hf.val = hf'.val) (h0 : (i 0).val = (i' 0).val) (h1 : (i 1).val = (i' 1).val) :
    mm A B c q hf i = mm A B c q' hf' i' := by
  obtain rfl : q = q' := Fin.ext hq
  obtain rfl : hf = hf' := Fin.ext hh
  obtain rfl : i = i' := funext fun a => Fin.ext (by
    match a with
    | ⟨0, _⟩ => exact h0
    | ⟨1, _⟩ => exact h1)
  rfl

def Pfull (c : Dev nD) : Vec F S1536x1536 .f32 := fun y =>
  mm A B c (⟨(y 0).val / 384, by have := idx2_lt0 y; omega⟩ : Fin 4) (⟨(y 1).val / 768, by have := idx2_lt1 y; omega⟩ : Fin 2)
    (ix2 (⟨(y 0).val % 384, Nat.mod_lt _ (by decide)⟩ : Fin 384) (⟨(y 1).val % 768, Nat.mod_lt _ (by decide)⟩ : Fin 768))

theorem Pfull_at (c : Dev nD) (y : S1536x1536.Idx) (q : Fin 4) (hf : Fin 2) (i : S384x768.Idx)
    (h0 : (y 0).val = 384 * q.val + (i 0).val) (h1 : (y 1).val = 768 * hf.val + (i 1).val) :
    Pfull A B c y = mm A B c q hf i := by
  have hi0 := idx2_lt0 i
  have hi1 := idx2_lt1 i
  exact mm_congr A B c (by show (y 0).val / 384 = q.val; omega) (by show (y 1).val / 768 = hf.val; omega)
    (by show (y 0).val % 384 = (i 0).val; omega) (by show (y 1).val % 768 = (i 1).val; omega)

theorem agrees_mm (c : Dev nD) (q : Fin 4) (hf : Fin 2) (off : Fin 2 → Nat) (hoff : off = ![384 * q.val, 768 * hf.val])
    (inb : ∀ a, off a + S384x768.size a ≤ S1536x1536.size a)
    (w : (Rect.unit (s := S1536x1536) off S384x768.size inb).shape.Idx → Elt F .f32) (hw : w = mm A B c q hf)
    (x : (Rect.unit (s := S1536x1536) off S384x768.size inb).shape.Idx) :
    w x = Pfull A B c ((Rect.unit (s := S1536x1536) off S384x768.size inb).emb x) := by
  subst hoff hw
  refine (Pfull_at A B c _ q hf x ?_ ?_).symm
  · show 384 * q.val + 1 * (x 0).val = 384 * q.val + (x 0).val; rw [Nat.one_mul]
  · show 768 * hf.val + 1 * (x 1).val = 768 * hf.val + (x 1).val; rw [Nat.one_mul]

theorem strip_mem (q : Fin 4) (hf s : Fin 2) (off0 off : Fin 2 → Nat) (h0 : off0 = ![384 * q.val, 768 * hf.val])
    (h : off = ![384 * q.val + 192 * s.val, 768 * hf.val])
    (inb0 : ∀ a, off0 a + S384x768.size a ≤ S1536x1536.size a) (inb : ∀ a, off a + S192x768.size a ≤ S1536x1536.size a)
    (j : (Rect.unit (s := S1536x1536) off S192x768.size inb).toLoadRect.shape.Idx) :
    (Rect.unit (s := S1536x1536) off S192x768.size inb).toLoadRect.idx j
      ∈ (Rect.unit (s := S1536x1536) off0 S384x768.size inb0).set := by
  subst h0 h
  rw [Rect.mem_set_unit]
  have hj0 : (j 0).val < 192 := (j 0).isLt
  have hj1 : (j 1).val < 768 := (j 1).isLt
  have hs := s.isLt
  intro a
  match a with
  | ⟨0, _⟩ =>
    show 384 * q.val ≤ 384 * q.val + 192 * s.val + 1 * (j 0).val ∧ 384 * q.val + 192 * s.val + 1 * (j 0).val < 384 * q.val + 384
    omega
  | ⟨1, _⟩ =>
    show 768 * hf.val ≤ 768 * hf.val + 1 * (j 1).val ∧ 768 * hf.val + 1 * (j 1).val < 768 * hf.val + 768
    omega

theorem readCov_strip (c : Dev nD) (L : List (View.Piece (Elt F) S1536x1536 .f32))
    (hL : ∀ p ∈ L, ∀ x : p.1.shape.Idx, p.2 x = Pfull A B c (p.1.emb x))
    (q : Fin 4) (hf s : Fin 2) (off : Fin 2 → Nat) (hoff : off = ![384 * q.val + 192 * s.val, 768 * hf.val])
    (inb : ∀ a, off a + S192x768.size a ≤ S1536x1536.size a)
    (hcov : ∀ j : (Rect.unit (s := S1536x1536) off S192x768.size inb).toLoadRect.shape.Idx,
      ∃ p ∈ L, (Rect.unit (s := S1536x1536) off S192x768.size inb).toLoadRect.idx j ∈ p.1.set) :
    pM.view.readCov L (Rect.unit (s := S1536x1536) off S192x768.size inb).toLoadRect = X A B c q hf s := by
  subst hoff
  rw [View.readCov_eq_canon']
  funext j
  rw [View.canon_apply_of_pieces (Pfull A B c) L hL _ (hcov j)]
  refine Pfull_at A B c _ q hf _ ?_ ?_
  · show 384 * q.val + 192 * s.val + 1 * (j 0).val = 384 * q.val + (192 * s.val + (j 0).val); omega
  · show 768 * hf.val + 1 * (j 1).val = 768 * hf.val + (j 1).val; omega

theorem readCov_strip_of_mem (c : Dev nD) (L : List (View.Piece (Elt F) S1536x1536 .f32))
    (hL : ∀ p ∈ L, ∀ x : p.1.shape.Idx, p.2 x = Pfull A B c (p.1.emb x))
    (q : Fin 4) (hf s : Fin 2) (off0 off : Fin 2 → Nat) (h0 : off0 = ![384 * q.val, 768 * hf.val])
    (hoff : off = ![384 * q.val + 192 * s.val, 768 * hf.val])
    (inb0 : ∀ a, off0 a + S384x768.size a ≤ S1536x1536.size a) (inb : ∀ a, off a + S192x768.size a ≤ S1536x1536.size a)
    (w : (Rect.unit (s := S1536x1536) off0 S384x768.size inb0).shape.Idx → Elt F .f32)
    (hmem : (⟨Rect.unit (s := S1536x1536) off0 S384x768.size inb0, w⟩ : View.Piece (Elt F) S1536x1536 .f32) ∈ L) :
    pM.view.readCov L (Rect.unit (s := S1536x1536) off S192x768.size inb).toLoadRect = X A B c q hf s :=
  readCov_strip A B c L hL q hf s off hoff inb fun j =>
    ⟨_, hmem, strip_mem q hf s off0 off h0 hoff inb0 inb j⟩

theorem agrees_pay (p : Vec F S384x768 .f32 → Vec F S768x768 .f32 → Vec F S384x768 .f32)
    (hp : ∀ u w, p u w = matmul dot_S384x768_S768x768_S384x768_1_0_0_1_n_n none u w (constant S384x768 .f32 0x00000000#32))
    (c : Dev nD) (q : Fin 4) (hf : Fin 2) (oa ob o3 : Fin 2 → Nat) (ha : oa = ![384 * q.val, 0]) (hb : ob = ![0, 768 * hf.val])
    (h3 : o3 = ![384 * q.val, 768 * hf.val])
    (ia : ∀ a, oa a + S384x768.size a ≤ S1536x768.size a) (ib : ∀ a, ob a + S768x768.size a ≤ S768x1536.size a)
    (ir : ∀ a, o3 a + S384x768.size a ≤ S1536x1536.size a)
    (x : (Rect.unit (s := S1536x1536) o3 S384x768.size ir).shape.Idx) :
    p (aM.view.readAt (Elt F) (Rect.unit (s := S1536x768) oa S384x768.size ia).toLoadRect (A c))
        (bM.view.readAt (Elt F) (Rect.unit (s := S768x1536) ob S768x768.size ib).toLoadRect (B c)) x
      = Pfull A B c ((Rect.unit (s := S1536x1536) o3 S384x768.size ir).emb x) :=
  agrees_mm A B c q hf o3 h3 ir _ (pay_loads A B p hp c q hf oa ob ha hb ia ib) x

theorem strip7_0_0_cov (c : Dev nD) : (k0_off2 c 2#32) = ![384 * (q4 (zi c + 6 - 0)).val, 768 * (0 : Fin 2).val] := by revert c; decide +kernel
theorem strip7_0_0_off (c : Dev nD) : (k0_off7 c 0#32 0#32) = ![384 * (q4 (zi c + 6 - 0)).val + 192 * (0 : Fin 2).val, 768 * (0 : Fin 2).val] := by
  revert c; decide +kernel
theorem strip8_0_0_cov (c : Dev nD) : (k0_off3 c 2#32) = ![384 * (q4 (zi c + 2 + 0)).val, 768 * (1 : Fin 2).val] := by revert c; decide +kernel
theorem strip8_0_0_off (c : Dev nD) : (k0_off8 c 0#32 0#32) = ![384 * (q4 (zi c + 2 + 0)).val + 192 * (0 : Fin 2).val, 768 * (1 : Fin 2).val] := by
  revert c; decide +kernel
theorem strip7_0_1_cov (c : Dev nD) : (k0_off2 c 2#32) = ![384 * (q4 (zi c + 6 - 0)).val, 768 * (0 : Fin 2).val] := by revert c; decide +kernel
theorem strip7_0_1_off (c : Dev nD) : (k0_off7 c 0#32 192#32) = ![384 * (q4 (zi c + 6 - 0)).val + 192 * (1 : Fin 2).val, 768 * (0 : Fin 2).val] := by
  revert c; decide +kernel
theorem strip8_0_1_cov (c : Dev nD) : (k0_off3 c 2#32) = ![384 * (q4 (zi c + 2 + 0)).val, 768 * (1 : Fin 2).val] := by revert c; decide +kernel
theorem strip8_0_1_off (c : Dev nD) : (k0_off8 c 0#32 192#32) = ![384 * (q4 (zi c + 2 + 0)).val + 192 * (1 : Fin 2).val, 768 * (1 : Fin 2).val] := by
  revert c; decide +kernel
theorem strip7_1_0_cov (c : Dev nD) : (k0_off2 c 1#32) = ![384 * (q4 (zi c + 6 - 1)).val, 768 * (0 : Fin 2).val] := by revert c; decide +kernel
theorem strip7_1_0_off (c : Dev nD) : (k0_off7 c 1#32 0#32) = ![384 * (q4 (zi c + 6 - 1)).val + 192 * (0 : Fin 2).val, 768 * (0 : Fin 2).val] := by
  revert c; decide +kernel
theorem strip8_1_0_cov (c : Dev nD) : (k0_off3 c 3#32) = ![384 * (q4 (zi c + 2 + 1)).val, 768 * (1 : Fin 2).val] := by revert c; decide +kernel
theorem strip8_1_0_off (c : Dev nD) : (k0_off8 c 1#32 0#32) = ![384 * (q4 (zi c + 2 + 1)).val + 192 * (0 : Fin 2).val, 768 * (1 : Fin 2).val] := by
  revert c; decide +kernel
theorem strip7_1_1_cov (c : Dev nD) : (k0_off2 c 1#32) = ![384 * (q4 (zi c + 6 - 1)).val, 768 * (0 : Fin 2).val] := by revert c; decide +kernel
theorem strip7_1_1_off (c : Dev nD) : (k0_off7 c 1#32 192#32) = ![384 * (q4 (zi c + 6 - 1)).val + 192 * (1 : Fin 2).val, 768 * (0 : Fin 2).val] := by
  revert c; decide +kernel
theorem strip8_1_1_cov (c : Dev nD) : (k0_off3 c 3#32) = ![384 * (q4 (zi c + 2 + 1)).val, 768 * (1 : Fin 2).val] := by revert c; decide +kernel
theorem strip8_1_1_off (c : Dev nD) : (k0_off8 c 1#32 192#32) = ![384 * (q4 (zi c + 2 + 1)).val + 192 * (1 : Fin 2).val, 768 * (1 : Fin 2).val] := by
  revert c; decide +kernel
theorem strip9_0_cov (c : Dev nD) : (k0_off5 c) = ![384 * (q4 (zi c)).val, 768 * (0 : Fin 2).val] := by revert c; decide +kernel
theorem strip9_0_off (c : Dev nD) : (k0_off9 c 0#32) = ![384 * (q4 (zi c)).val + 192 * (0 : Fin 2).val, 768 * (0 : Fin 2).val] := by
  revert c; decide +kernel
theorem strip10_0_cov (c : Dev nD) : (k0_off6 c) = ![384 * (q4 (zi c)).val, 768 * (1 : Fin 2).val] := by revert c; decide +kernel
theorem strip10_0_off (c : Dev nD) : (k0_off10 c 0#32) = ![384 * (q4 (zi c)).val + 192 * (0 : Fin 2).val, 768 * (1 : Fin 2).val] := by
  revert c; decide +kernel
theorem strip9_1_cov (c : Dev nD) : (k0_off5 c) = ![384 * (q4 (zi c)).val, 768 * (0 : Fin 2).val] := by revert c; decide +kernel
theorem strip9_1_off (c : Dev nD) : (k0_off9 c 192#32) = ![384 * (q4 (zi c)).val + 192 * (1 : Fin 2).val, 768 * (0 : Fin 2).val] := by
  revert c; decide +kernel
theorem strip10_1_cov (c : Dev nD) : (k0_off6 c) = ![384 * (q4 (zi c)).val, 768 * (1 : Fin 2).val] := by revert c; decide +kernel
theorem strip10_1_off (c : Dev nD) : (k0_off10 c 192#32) = ![384 * (q4 (zi c)).val + 192 * (1 : Fin 2).val, 768 * (1 : Fin 2).val] := by
  revert c; decide +kernel
end Cert.Kernel.Ring

end
-- ==== Proof.K.HopVals.lean ====
/- What each later send carries: the piece received, plus the device's own strip. -/
import proofs.«900894_g7700000000000895_dist_matmul_mk_i_outk_m1536_n1536_k768_v7x_i32_f32_1_alg».proof.Proof.K.SendVals
import proofs.«900894_g7700000000000895_dist_matmul_mk_i_outk_m1536_n1536_k768_v7x_i32_f32_1_alg».proof.Proof.K.Hops
import proofs.«900894_g7700000000000895_dist_matmul_mk_i_outk_m1536_n1536_k768_v7x_i32_f32_1_alg».proof.Proof.K.Partial

noncomputable section

namespace Cert.Kernel.Ring

open Cert.Kernel Cert.Kernel.Gen Cert.Kernel.Mesh
open Idealize.ShloMosaic
open Idealize.ShloMosaic.TcCoe
open Idealize.SL.Sem
open Idealize.ShloMosaic.ValueIdx (ix2 ix3)

variable {F : FTy → Type} [FloatOps F]

section List
variable (A : Dev nD → Vec F S1536x768 .f32) (B : Dev nD → Vec F S768x1536 .f32)

def prodList (c : Dev nD) : List (View.Piece (Elt F) S1536x1536 .f32) :=
  [ (⟨Rect.unit (s := S1536x1536) (k0_off6 c) S384x768.size (k0_off6_inb c),
        k0_pay12 (aM.view.readAt (Elt F) (Rect.unit (s := S1536x768) (k0_off4 c) S384x768.size (k0_off4_inb c)).toLoadRect (A c))
          (bM.view.readAt (Elt F) (Rect.unit (s := S768x1536) ![0, 768] S768x768.size inb_S768x1536_S768x768_0_768).toLoadRect (B c))⟩
      : View.Piece (Elt F) S1536x1536 .f32),
    (⟨Rect.unit (s := S1536x1536) (k0_off5 c) S384x768.size (k0_off5_inb c),
        k0_pay11 (aM.view.readAt (Elt F) (Rect.unit (s := S1536x768) (k0_off4 c) S384x768.size (k0_off4_inb c)).toLoadRect (A c))
          (bM.view.readAt (Elt F) (Rect.unit (s := S768x1536) ![0, 0] S768x768.size inb_S768x1536_S768x768_0_0).toLoadRect (B c))⟩
      : View.Piece (Elt F) S1536x1536 .f32),
    (⟨Rect.unit (s := S1536x1536) (k0_off3 c 3#32) S384x768.size (k0_off3_inb c 2),
        k0_pay10 (aM.view.readAt (Elt F) (Rect.unit (s := S1536x768) (k0_off1 c 3#32) S384x768.size (k0_off1_inb c 2)).toLoadRect (A c))
          (bM.view.readAt (Elt F) (Rect.unit (s := S768x1536) ![0, 768] S768x768.size inb_S768x1536_S768x768_0_768).toLoadRect (B c))⟩
      : View.Piece (Elt F) S1536x1536 .f32),
    (⟨Rect.unit (s := S1536x1536) (k0_off2 c 1#32) S384x768.size (k0_off2_inb c 0),
        k0_pay9 (aM.view.readAt (Elt F) (Rect.unit (s := S1536x768) (k0_off1 c 1#32) S384x768.size (k0_off1_inb c 0)).toLoadRect (A c))
          (bM.view.readAt (Elt F) (Rect.unit (s := S768x1536) ![0, 0] S768x768.size inb_S768x1536_S768x768_0_0).toLoadRect (B c))⟩
      : View.Piece (Elt F) S1536x1536 .f32),
    (⟨Rect.unit (s := S1536x1536) (k0_off3 c 2#32) S384x768.size (k0_off3_inb c 1),
        k0_pay8 (aM.view.readAt (Elt F) (Rect.unit (s := S1536x768) (k0_off1 c 2#32) S384x768.size (k0_off1_inb c 1)).toLoadRect (A c))
          (bM.view.readAt (Elt F) (Rect.unit (s := S768x1536) ![0, 768] S768x768.size inb_S768x1536_S768x768_0_768).toLoadRect (B c))⟩
      : View.Piece (Elt F) S1536x1536 .f32),
    (⟨Rect.unit (s := S1536x1536) (k0_off2 c 2#32) S384x768.size (k0_off2_inb c 1),
        k0_pay7 (aM.view.readAt (Elt F) (Rect.unit (s := S1536x768) (k0_off1 c 2#32) S384x768.size (k0_off1_inb c 1)).toLoadRect (A c))
          (bM.view.readAt (Elt F) (Rect.unit (s := S768x1536) ![0, 0] S768x768.size inb_S768x1536_S768x768_0_0).toLoadRect (B c))⟩
      : View.Piece (Elt F) S1536x1536 .f32),
    (⟨Rect.unit (s := S1536x1536) (k0_off3 c 1#32) S384x768.size (k0_off3_inb c 0),
        k0_pay5 (aM.view.readAt (Elt F) (Rect.unit (s := S1536x768) (k0_off1 c 1#32) S384x768.size (k0_off1_inb c 0)).toLoadRect (A c))
          (bM.view.readAt (Elt F) (Rect.unit (s := S768x1536) ![0, 768] S768x768.size inb_S768x1536_S768x768_0_768).toLoadRect (B c))⟩
      : View.Piece (Elt F) S1536x1536 .f32),
    (⟨Rect.unit (s := S1536x1536) (k0_off2 c 3#32) S384x768.size (k0_off2_inb c 2),
        k0_pay2 (aM.view.readAt (Elt F) (Rect.unit (s := S1536x768) (k0_off1 c 3#32) S384x768.size (k0_off1_inb c 2)).toLoadRect (A c))
          (bM.view.readAt (Elt F) (Rect.unit (s := S768x1536) ![0, 0] S768x768.size inb_S768x1536_S768x768_0_0).toLoadRect (B c))⟩
      : View.Piece (Elt F) S1536x1536 .f32) ]

theorem prodList_agrees (c : Dev nD) :
    ∀ p ∈ prodList A B c, ∀ x : p.1.shape.Idx, p.2 x = Pfull A B c (p.1.emb x) := by
  intro p hp
  simp only [prodList, List.mem_cons, List.mem_singleton, List.not_mem_nil, or_false] at hp
  rcases hp with rfl | rfl | rfl | rfl | rfl | rfl | rfl | rfl
  · exact agrees_pay A B k0_pay12 k0_pay12_eq c (q4 (zi c)) 1 _ ![0, 768] _ (off4_eq c) rfl ((off6_eq c).trans rfl) (k0_off4_inb c) inb_S768x1536_S768x768_0_768 (k0_off6_inb c)
  · exact agrees_pay A B k0_pay11 k0_pay11_eq c (q4 (zi c)) 0 _ ![0, 0] _ (off4_eq c) rfl ((off5_eq c).trans rfl) (k0_off4_inb c) inb_S768x1536_S768x768_0_0 (k0_off5_inb c)
  · exact agrees_pay A B k0_pay10 k0_pay10_eq c (q4 (zi c + 3)) 1 _ ![0, 768] _ (off1_3 c) rfl ((off3_3 c).trans rfl) (k0_off1_inb c 2) inb_S768x1536_S768x768_0_768 (k0_off3_inb c 2)
  · exact agrees_pay A B k0_pay9 k0_pay9_eq c (q4 (zi c + 1)) 0 _ ![0, 0] _ (off1_1 c) rfl ((off2_1 c).trans rfl) (k0_off1_inb c 0) inb_S768x1536_S768x768_0_0 (k0_off2_inb c 0)
  · exact agrees_pay A B k0_pay8 k0_pay8_eq c (q4 (zi c + 2)) 1 _ ![0, 768] _ (off1_2 c) rfl ((off3_2 c).trans rfl) (k0_off1_inb c 1) inb_S768x1536_S768x768_0_768 (k0_off3_inb c 1)
  · exact agrees_pay A B k0_pay7 k0_pay7_eq c (q4 (zi c + 2)) 0 _ ![0, 0] _ (off1_2 c) rfl ((off2_2 c).trans rfl) (k0_off1_inb c 1) inb_S768x1536_S768x768_0_0 (k0_off2_inb c 1)
  · exact agrees_pay A B k0_pay5 k0_pay5_eq c (q4 (zi c + 1)) 1 _ ![0, 768] _ (off1_1 c) rfl ((off3_1 c).trans rfl) (k0_off1_inb c 0) inb_S768x1536_S768x768_0_768 (k0_off3_inb c 0)
  · exact agrees_pay A B k0_pay2 k0_pay2_eq c (q4 (zi c + 3)) 0 _ ![0, 0] _ (off1_3 c) rfl ((off2_3 c).trans rfl) (k0_off1_inb c 2) inb_S768x1536_S768x768_0_0 (k0_off2_inb c 2)
theorem prodList_mem12 (c : Dev nD) : (⟨Rect.unit (s := S1536x1536) (k0_off6 c) S384x768.size (k0_off6_inb c),
        k0_pay12 (aM.view.readAt (Elt F) (Rect.unit (s := S1536x768) (k0_off4 c) S384x768.size (k0_off4_inb c)).toLoadRect (A c))
          (bM.view.readAt (Elt F) (Rect.unit (s := S768x1536) ![0, 768] S768x768.size inb_S768x1536_S768x768_0_768).toLoadRect (B c))⟩
      : View.Piece (Elt F) S1536x1536 .f32) ∈ prodList A B c := List.mem_cons_self
theorem prodList_mem11 (c : Dev nD) : (⟨Rect.unit (s := S1536x1536) (k0_off5 c) S384x768.size (k0_off5_inb c),
        k0_pay11 (aM.view.readAt (Elt F) (Rect.unit (s := S1536x768) (k0_off4 c) S384x768.size (k0_off4_inb c)).toLoadRect (A c))
          (bM.view.readAt (Elt F) (Rect.unit (s := S768x1536) ![0, 0] S768x768.size inb_S768x1536_S768x768_0_0).toLoadRect (B c))⟩
      : View.Piece (Elt F) S1536x1536 .f32) ∈ prodList A B c := List.mem_cons_of_mem _ (List.mem_cons_self)
theorem prodList_mem10 (c : Dev nD) : (⟨Rect.unit (s := S1536x1536) (k0_off3 c 3#32) S384x768.size (k0_off3_inb c 2),
        k0_pay10 (aM.view.readAt (Elt F) (Rect.unit (s := S1536x768) (k0_off1 c 3#32) S384x768.size (k0_off1_inb c 2)).toLoadRect (A c))
          (bM.view.readAt (Elt F) (Rect.unit (s := S768x1536) ![0, 768] S768x768.size inb_S768x1536_S768x768_0_768).toLoadRect (B c))⟩
      : View.Piece (Elt F) S1536x1536 .f32) ∈ prodList A B c := List.mem_cons_of_mem _ (List.mem_cons_of_mem _ (List.mem_cons_self))
theorem prodList_mem9 (c : Dev nD) : (⟨Rect.unit (s := S1536x1536) (k0_off2 c 1#32) S384x768.size (k0_off2_inb c 0),
        k0_pay9 (aM.view.readAt (Elt F) (Rect.unit (s := S1536x768) (k0_off1 c 1#32) S384x768.size (k0_off1_inb c 0)).toLoadRect (A c))
          (bM.view.readAt (Elt F) (Rect.unit (s := S768x1536) ![0, 0] S768x768.size inb_S768x1536_S768x768_0_0).toLoadRect (B c))⟩
      : View.Piece (Elt F) S1536x1536 .f32) ∈ prodList A B c := List.mem_cons_of_mem _ (List.mem_cons_of_mem _ (List.mem_cons_of_mem _ (List.mem_cons_self)))
theorem prodList_mem8 (c : Dev nD) : (⟨Rect.unit (s := S1536x1536) (k0_off3 c 2#32) S384x768.size (k0_off3_inb c 1),
        k0_pay8 (aM.view.readAt (Elt F) (Rect.unit (s := S1536x768) (k0_off1 c 2#32) S384x768.size (k0_off1_inb c 1)).toLoadRect (A c))
          (bM.view.readAt (Elt F) (Rect.unit (s := S768x1536) ![0, 768] S768x768.size inb_S768x1536_S768x768_0_768).toLoadRect (B c))⟩
      : View.Piece (Elt F) S1536x1536 .f32) ∈ prodList A B c := List.mem_cons_of_mem _ (List.mem_cons_of_mem _ (List.mem_cons_of_mem _ (List.mem_cons_of_mem _ (List.mem_cons_self))))
theorem prodList_mem7 (c : Dev nD) : (⟨Rect.unit (s := S1536x1536) (k0_off2 c 2#32) S384x768.size (k0_off2_inb c 1),
        k0_pay7 (aM.view.readAt (Elt F) (Rect.unit (s := S1536x768) (k0_off1 c 2#32) S384x768.size (k0_off1_inb c 1)).toLoadRect (A c))
          (bM.view.readAt (Elt F) (Rect.unit (s := S768x1536) ![0, 0] S768x768.size inb_S768x1536_S768x768_0_0).toLoadRect (B c))⟩
      : View.Piece (Elt F) S1536x1536 .f32) ∈ prodList A B c := List.mem_cons_of_mem _ (List.mem_cons_of_mem _ (List.mem_cons_of_mem _ (List.mem_cons_of_mem _ (List.mem_cons_of_mem _ (List.mem_cons_self)))))
/- A strip of 192 rows of a stored block product, read out of the listed stores, is the protocol's strip. -/
theorem strip_cov (c : Dev nD) (q : Fin 4) (hf s : Fin 2) (off0 off : Fin 2 → Nat) (h0 : off0 = ![384 * q.val, 768 * hf.val])
    (hoff : off = ![384 * q.val + 192 * s.val, 768 * hf.val])
    (inb0 : ∀ a, off0 a + S384x768.size a ≤ S1536x1536.size a) (inb : ∀ a, off a + S192x768.size a ≤ S1536x1536.size a)
    (w : (Rect.unit (s := S1536x1536) off0 S384x768.size inb0).shape.Idx → Elt F .f32)
    (hmem : (⟨Rect.unit (s := S1536x1536) off0 S384x768.size inb0, w⟩ : View.Piece (Elt F) S1536x1536 .f32) ∈ prodList A B c) :
    pM.view.readCov (prodList A B c) (Rect.unit (s := S1536x1536) off S192x768.size inb).toLoadRect = X A B c q hf s :=
  readCov_strip_of_mem A B c (prodList A B c) (prodList_agrees A B c) q hf s off0 off h0 hoff inb0 inb w hmem

theorem strip_at (c : Dev nD) (q : Fin 4) (hf s : Fin 2) (off0 off : Fin 2 → Nat) (h0 : off0 = ![384 * q.val, 768 * hf.val])
    (hoff : off = ![384 * q.val + 192 * s.val, 768 * hf.val])
    (inb0 : ∀ a, off0 a + S384x768.size a ≤ S1536x1536.size a) (inb : ∀ a, off a + S192x768.size a ≤ S1536x1536.size a)
    (w : (Rect.unit (s := S1536x1536) off0 S384x768.size inb0).shape.Idx → Elt F .f32)
    (hmem : (⟨Rect.unit (s := S1536x1536) off0 S384x768.size inb0, w⟩ : View.Piece (Elt F) S1536x1536 .f32) ∈ prodList A B c)
    (f0 : Vec F S1536x1536 .f32) :
    pM.view.readAt (Elt F) (Rect.unit (s := S1536x1536) off S192x768.size inb).toLoadRect (pM.view.writes (Elt F) f0 (prodList A B c))
      = X A B c q hf s :=
  (View.readAt_writes_of_cover pM.view f0 (prodList A B c) _ fun j =>
    ⟨_, hmem, strip_mem q hf s off0 off h0 hoff inb0 inb j⟩).trans (strip_cov A B c q hf s off0 off h0 hoff inb0 inb w hmem)

end List

section Sends
variable (m : Mem F) (ρ : Dev nD → PrngReg)

theorem hop_send_f (c : Dev nD) (hn : ℕ) (s : Fin 2) (k : Fin 4)
    (lf : (cc0_scratch1 : Ref sig .tc).ty.Contents (Elt F))
    (hlf : (cfP k s).view.read (Elt F) lf = VfN (Astg m ρ) (Bstg m ρ) hn (zl c) s)
    (off : Fin 3 → Nat) (hoff : off = pieceOff k s)
    (i1 i2 : ∀ a, off a + S1x192x768.size a ≤ S4x384x768.size a)
    (w : Vec F S1x192x768 .bf16) (x : Vec F S192x768 .f32)
    (hw : shapeCast S192x768 w shapeCasts_S1x192x768_S192x768
        = hopVal ((Memref.whole cc0_scratch1).view.readAt (Elt F) (Rect.unit (s := S4x384x768) off S1x192x768.size i2).toLoadRect lf) x)
    (hx : x = X (Astg m ρ) (Bstg m ρ) c (q4 (zi c + 6 - hn)) 0 s) :
    (cfP k s).view.read (Elt F)
        (View.write (Elt F) ((Memref.whole cc0_scratch1).access (Rect.unit (s := S4x384x768) off S1x192x768.size i1)) lf w Finset.univ)
      = VfN (Astg m ρ) (Bstg m ρ) (hn + 1) c s := by
  subst hoff
  rw [cf_read_write k s rfl i1 lf w, hw]
  exact hopF (Astg m ρ) (Bstg m ρ) c hn s _ x ((cf_read k s lf).symm.trans hlf) hx

theorem hop_send_b (c : Dev nD) (hn : ℕ) (s : Fin 2) (k : Fin 4)
    (lb : (cc0_scratch2 : Ref sig .tc).ty.Contents (Elt F))
    (hlb : (cbP k s).view.read (Elt F) lb = VbN (Astg m ρ) (Bstg m ρ) hn (zr c) s)
    (off : Fin 3 → Nat) (hoff : off = pieceOff k s)
    (i1 i2 : ∀ a, off a + S1x192x768.size a ≤ S4x384x768.size a)
    (w : Vec F S1x192x768 .bf16) (x : Vec F S192x768 .f32)
    (hw : shapeCast S192x768 w shapeCasts_S1x192x768_S192x768
        = hopVal ((Memref.whole cc0_scratch2).view.readAt (Elt F) (Rect.unit (s := S4x384x768) off S1x192x768.size i2).toLoadRect lb) x)
    (hx : x = X (Astg m ρ) (Bstg m ρ) c (q4 (zi c + 2 + hn)) 1 s) :
    (cbP k s).view.read (Elt F)
        (View.write (Elt F) ((Memref.whole cc0_scratch2).access (Rect.unit (s := S4x384x768) off S1x192x768.size i1)) lb w Finset.univ)
      = VbN (Astg m ρ) (Bstg m ρ) (hn + 1) c s := by
  subst hoff
  rw [cb_read_write k s rfl i1 lb w, hw]
  exact hopB (Astg m ρ) (Bstg m ρ) c hn s _ x ((cb_read k s lb).symm.trans hlb) hx

end Sends

end Cert.Kernel.Ring

end
-- ==== Proof.K.Plane.lean ====
/- The chunk sent o + 1 places on is the receiving place's 48 rows of the plane's sum. -/
import proofs.«900894_g7700000000000895_dist_matmul_mk_i_outk_m1536_n1536_k768_v7x_i32_f32_1_alg».proof.Proof.K.Inst
import proofs.«900894_g7700000000000895_dist_matmul_mk_i_outk_m1536_n1536_k768_v7x_i32_f32_1_alg».proof.Proof.K.Offs
import proofs.«900894_g7700000000000895_dist_matmul_mk_i_outk_m1536_n1536_k768_v7x_i32_f32_1_alg».proof.Proof.K.ReadAt

noncomputable section

namespace Cert.Kernel.Ring

open Cert.Kernel Cert.Kernel.Gen Cert.Kernel.Mesh
open Idealize.ShloMosaic
open Idealize.ShloMosaic.TcCoe
open Idealize.SL.Sem
open Idealize.ShloMosaic.ValueIdx (ix2)

variable {F : FTy → Type} [FloatOps F]

theorem chunk_read_of (c : Dev nD) (o : Fin 7) (f : Vec F S384x1536 .bf16) :
    (chM c o).view.read (Elt F) f
      = fun x : S48x1536.Idx =>
          f (ix2 (⟨48 * ((wi c + o.val + 1) % 8) + (x 0).val, by have h : (x 0).val < 48 := (x 0).isLt; omega⟩ : Fin 384)
            (⟨(x 1).val, (x 1).isLt⟩ : Fin 1536)) := by
  show r1bM.view.readAt (Elt F) (chR c o).toLoadRect f = _
  rw [r1bM_readAt]
  funext x
  have h := off11_r c o
  exact congrArg f (funext fun a => Fin.ext (by
    match a with
    | ⟨0, _⟩ => exact congrArg (· + (x 0).val) (congrFun h 0)
    | ⟨1, _⟩ => exact (congrArg (· + (x 1).val) (congrFun h 1)).trans (Nat.zero_add _)))

theorem chunk_read (m : Mem F) (ρ : Dev nD → PrngReg) (c : Dev nD) (o : Fin 7) :
    (chM c o).view.read (Elt F) (R1bI m ρ c) = VdI m ρ c o :=
  chunk_read_of c o (R1b (Astg m ρ) (Bstg m ρ) c)

end Cert.Kernel.Ring

end
-- ==== Proof.K.Quarter.lean ====
/- After the ring the device holds its plane's sum of its own row block; the result is that sum's 48 rows plus the seven chunks received. -/
import proofs.«900894_g7700000000000895_dist_matmul_mk_i_outk_m1536_n1536_k768_v7x_i32_f32_1_alg».proof.Proof.K.HopVals
import proofs.«900894_g7700000000000895_dist_matmul_mk_i_outk_m1536_n1536_k768_v7x_i32_f32_1_alg».proof.Proof.K.Plane

noncomputable section

namespace Cert.Kernel.Ring

open Cert.Kernel Cert.Kernel.Gen Cert.Kernel.Mesh
open Idealize.ShloMosaic
open Idealize.ShloMosaic.TcCoe
open Idealize.SL.Sem
open Idealize.ShloMosaic.ValueIdx (ix2 idx2_lt0 idx2_lt1)

variable {F : FTy → Type} [FloatOps F]

section Pure
variable (A : Dev nD → Vec F S1536x768 .f32) (B : Dev nD → Vec F S768x1536 .f32)

theorem R1_congr (c : Dev nD) {hf hf' s s' : Fin 2} {i i' : S192x768.Idx}
    (hh : hf.val = hf'.val) (hs : s.val = s'.val) (h0 : (i 0).val = (i' 0).val) (h1 : (i 1).val = (i' 1).val) :
    R1 A B c hf s i = R1 A B c hf' s' i' := by
  obtain rfl : hf = hf' := Fin.ext hh
  obtain rfl : s = s' := Fin.ext hs
  obtain rfl : i = i' := funext fun a => Fin.ext (by
    match a with
    | ⟨0, _⟩ => exact h0
    | ⟨1, _⟩ => exact h1)
  rfl

theorem R1full_at (c : Dev nD) (y : S384x1536.Idx) (hf s : Fin 2) (i : S192x768.Idx)
    (h0 : (y 0).val = 192 * s.val + (i 0).val) (h1 : (y 1).val = 768 * hf.val + (i 1).val) :
    R1full A B c y = R1 A B c hf s i := by
  have hi0 := idx2_lt0 i
  have hi1 := idx2_lt1 i
  exact R1_congr A B c (by show (y 1).val / 768 = hf.val; omega) (by show (y 0).val / 192 = s.val; omega)
    (by show (y 0).val % 192 = (i 0).val; omega) (by show (y 1).val % 768 = (i 1).val; omega)

theorem agrees_last (c : Dev nD) (hf s : Fin 2) (off : Fin 2 → Nat) (hoff : off = ![192 * s.val, 768 * hf.val])
    (inb : ∀ a, off a + S192x768.size a ≤ S384x1536.size a)
    (w : (Rect.unit (s := S384x1536) off S192x768.size inb).shape.Idx → Elt F .f32) (hw : w = R1 A B c hf s)
    (x : (Rect.unit (s := S384x1536) off S192x768.size inb).shape.Idx) :
    w x = R1full A B c ((Rect.unit (s := S384x1536) off S192x768.size inb).emb x) := by
  subst hoff hw
  refine (R1full_at A B c _ hf s x ?_ ?_).symm
  · show 192 * s.val + 1 * (x 0).val = 192 * s.val + (x 0).val; rw [Nat.one_mul]
  · show 768 * hf.val + 1 * (x 1).val = 768 * hf.val + (x 1).val; rw [Nat.one_mul]

theorem quarter_canon (c : Dev nD) (L : List (View.Piece (Elt F) S384x1536 .f32))
    (hL : ∀ p ∈ L, ∀ x : p.1.shape.Idx, p.2 x = R1full A B c (p.1.emb x)) (y : S384x1536.Idx)
    (hy : ∃ p ∈ L, y ∈ p.1.set) : View.canon L y = R1full A B c y :=
  View.canon_apply_of_pieces (R1full A B c) L hL y hy

theorem mem_last (hf s : Fin 2) (off : Fin 2 → Nat) (hoff : off = ![192 * s.val, 768 * hf.val])
    (inb : ∀ a, off a + S192x768.size a ≤ S384x1536.size a) (y : S384x1536.Idx)
    (h0 : 192 * s.val ≤ (y 0).val ∧ (y 0).val < 192 * s.val + 192)
    (h1 : 768 * hf.val ≤ (y 1).val ∧ (y 1).val < 768 * hf.val + 768) :
    y ∈ (Rect.unit (s := S384x1536) off S192x768.size inb).set := by
  subst hoff
  rw [Rect.mem_set_unit]
  intro a
  match a with
  | ⟨0, _⟩ => exact h0
  | ⟨1, _⟩ => exact h1

theorem narrow_of_lists (A : Dev nD → Vec F S1536x768 .f32) (B : Dev nD → Vec F S768x1536 .f32) (c : Dev nD)
    (f4 : Vec F S384x1536 .bf16) (L4 L2 : List (View.Piece (Elt F) S384x1536 .f32))
    (h4 : ∀ p ∈ L4, ∀ x : p.1.shape.Idx, p.2 x = R1full A B c (p.1.emb x))
    (h2 : ∀ p ∈ L2, ∀ x : p.1.shape.Idx, p.2 x = R1full A B c (p.1.emb x))
    (c4 : ∀ y : S384x1536.Idx, ∃ p ∈ L4, y ∈ p.1.set)
    (c2 : ∀ y : S384x1536.Idx, (y 0).val < 192 → ∃ p ∈ L2, y ∈ p.1.set) :
    r1bM.view.writes (Elt F) f4
        [ (⟨Rect.unit (s := S384x1536) ![192, 0] S192x1536.size inb_S384x1536_S192x1536_192_0,
            k0_pay30 (r1M.view.readCov L4
              (Rect.unit (s := S384x1536) ![192, 0] S192x1536.size inb_S384x1536_S192x1536_192_0).toLoadRect)⟩
            : View.Piece (Elt F) S384x1536 .bf16),
          (⟨Rect.unit (s := S384x1536) ![0, 0] S192x1536.size inb_S384x1536_S192x1536_0_0,
            k0_pay26 (r1M.view.readCov L2
              (Rect.unit (s := S384x1536) ![0, 0] S192x1536.size inb_S384x1536_S192x1536_0_0).toLoadRect)⟩
            : View.Piece (Elt F) S384x1536 .bf16) ]
      = R1b A B c := by
  funext y
  have h0 : (y 0).val < 384 := idx2_lt0 y
  have h1 : (y 1).val < 1536 := idx2_lt1 y
  generalize hv4 : r1M.view.readCov L4
      (Rect.unit (s := S384x1536) ![192, 0] S192x1536.size inb_S384x1536_S192x1536_192_0).toLoadRect = v4
  generalize hv2 : r1M.view.readCov L2
      (Rect.unit (s := S384x1536) ![0, 0] S192x1536.size inb_S384x1536_S192x1536_0_0).toLoadRect = v2
  have e4 : ∀ x, v4 x = R1full A B c ((Rect.unit (s := S384x1536) ![192, 0] S192x1536.size inb_S384x1536_S192x1536_192_0).emb x) := by
    intro x
    rw [← hv4]
    exact (congrFun (View.readCov_eq_canon' r1M.view L4 _) x).trans (quarter_canon A B c L4 h4 _ (c4 _))
  have e2 : ∀ x, v2 x = R1full A B c ((Rect.unit (s := S384x1536) ![0, 0] S192x1536.size inb_S384x1536_S192x1536_0_0).emb x) := by
    intro x
    have hx0 : (x 0).val < 192 := (x 0).isLt
    rw [← hv2]
    exact (congrFun (View.readCov_eq_canon' r1M.view L2 _) x).trans
      (quarter_canon A B c L2 h2 _ (c2 _ (by show 0 + 1 * (x 0).val < 192; omega)))
  have hy : ∃ p ∈ ([ (⟨Rect.unit (s := S384x1536) ![192, 0] S192x1536.size inb_S384x1536_S192x1536_192_0, k0_pay30 v4⟩
            : View.Piece (Elt F) S384x1536 .bf16),
          (⟨Rect.unit (s := S384x1536) ![0, 0] S192x1536.size inb_S384x1536_S192x1536_0_0, k0_pay26 v2⟩
            : View.Piece (Elt F) S384x1536 .bf16) ] : List (View.Piece (Elt F) S384x1536 .bf16)), y ∈ p.1.set := by
    by_cases hr : (y 0).val < 192
    · refine ⟨_, List.mem_cons_of_mem _ List.mem_cons_self, ?_⟩
      rw [Rect.mem_set_unit]
      intro a
      match a with
      | ⟨0, _⟩ => exact ⟨Nat.zero_le _, by show (y 0).val < 0 + 192; omega⟩
      | ⟨1, _⟩ => exact ⟨Nat.zero_le _, by show (y 1).val < 0 + 1536; omega⟩
    · refine ⟨_, List.mem_cons_self, ?_⟩
      rw [Rect.mem_set_unit]
      intro a
      match a with
      | ⟨0, _⟩ => exact ⟨by show 192 ≤ (y 0).val; omega, by show (y 0).val < 192 + 192; omega⟩
      | ⟨1, _⟩ => exact ⟨Nat.zero_le _, by show (y 1).val < 0 + 1536; omega⟩
  generalize hLN : ([ (⟨Rect.unit (s := S384x1536) ![192, 0] S192x1536.size inb_S384x1536_S192x1536_192_0, k0_pay30 v4⟩
            : View.Piece (Elt F) S384x1536 .bf16),
          (⟨Rect.unit (s := S384x1536) ![0, 0] S192x1536.size inb_S384x1536_S192x1536_0_0, k0_pay26 v2⟩
            : View.Piece (Elt F) S384x1536 .bf16) ] : List (View.Piece (Elt F) S384x1536 .bf16)) = LN at hy ⊢
  have e1 : r1bM.view.writes (Elt F) f4 LN y = r1bM.view.read (Elt F) (r1bM.view.writes (Elt F) f4 LN) y := rfl
  rw [e1, View.read_writes_apply_eq_canon r1bM.view f4 y LN hy]
  refine View.canon_apply_of_pieces (R1b A B c) LN ?_ y hy
  intro p hp
  rw [← hLN] at hp
  simp only [List.mem_cons, List.mem_singleton, List.not_mem_nil, or_false] at hp
  rcases hp with rfl | rfl
  · intro x
    rw [pay30_eq]
    exact congrArg (FloatOps.truncf .bf16 bitsLt_bf16_f32) (e4 x)
  · intro x
    rw [pay26_eq]
    exact congrArg (FloatOps.truncf .bf16 bitsLt_bf16_f32) (e2 x)

end Pure

section Concrete
variable (m : Mem F) (ρ : Dev nD → PrngReg)

def lastList2 (c : Dev nD) (lf20 : (cc0_scratch1 : Ref sig .tc).ty.Contents (Elt F)) (lb20 : (cc0_scratch2 : Ref sig .tc).ty.Contents (Elt F))
    (L : List (View.Piece (Elt F) S1536x1536 .f32)) : List (View.Piece (Elt F) S384x1536 .f32) :=
  [ (⟨Rect.unit (s := S384x1536) ![0, 768] S192x768.size inb_S384x1536_S192x768_0_768,
        k0_pay25 ((Memref.whole cc0_scratch2).view.readAt (Elt F) (Rect.unit (s := S4x384x768) ![2, 0, 0] S1x192x768.size inb_S4x384x768_S1x192x768_2_0_0).toLoadRect lb20)
          (pM.view.readCov L (Rect.unit (s := S1536x1536) (k0_off10 c 0#32) S192x768.size (k0_off10_inb c 0)).toLoadRect)⟩
      : View.Piece (Elt F) S384x1536 .f32),
    (⟨Rect.unit (s := S384x1536) ![0, 0] S192x768.size inb_S384x1536_S192x768_0_0,
        k0_pay24 (k0_pay23 ((Memref.whole cc0_scratch1).view.readAt (Elt F) (Rect.unit (s := S4x384x768) ![2, 0, 0] S1x192x768.size inb_S4x384x768_S1x192x768_2_0_0).toLoadRect lf20)
          (pM.view.readCov L (Rect.unit (s := S1536x1536) (k0_off9 c 0#32) S192x768.size (k0_off9_inb c 0)).toLoadRect))⟩
      : View.Piece (Elt F) S384x1536 .f32) ]

def lastList4 (c : Dev nD) (lf20 : (cc0_scratch1 : Ref sig .tc).ty.Contents (Elt F)) (lb20 : (cc0_scratch2 : Ref sig .tc).ty.Contents (Elt F))
    (lf21 : (cc0_scratch1 : Ref sig .tc).ty.Contents (Elt F)) (lb21 : (cc0_scratch2 : Ref sig .tc).ty.Contents (Elt F))
    (L : List (View.Piece (Elt F) S1536x1536 .f32)) : List (View.Piece (Elt F) S384x1536 .f32) :=
  (⟨Rect.unit (s := S384x1536) ![192, 768] S192x768.size inb_S384x1536_S192x768_192_768,
        k0_pay29 ((Memref.whole cc0_scratch2).view.readAt (Elt F) (Rect.unit (s := S4x384x768) ![2, 192, 0] S1x192x768.size inb_S4x384x768_S1x192x768_2_192_0).toLoadRect lb21)
          (pM.view.readCov L (Rect.unit (s := S1536x1536) (k0_off10 c 192#32) S192x768.size (k0_off10_inb c 1)).toLoadRect)⟩
      : View.Piece (Elt F) S384x1536 .f32) ::
    (⟨Rect.unit (s := S384x1536) ![192, 0] S192x768.size inb_S384x1536_S192x768_192_0,
        k0_pay28 (k0_pay27 ((Memref.whole cc0_scratch1).view.readAt (Elt F) (Rect.unit (s := S4x384x768) ![2, 192, 0] S1x192x768.size inb_S4x384x768_S1x192x768_2_192_0).toLoadRect lf21))
          (pM.view.readCov L (Rect.unit (s := S1536x1536) (k0_off9 c 192#32) S192x768.size (k0_off9_inb c 1)).toLoadRect)⟩
      : View.Piece (Elt F) S384x1536 .f32) ::
    lastList2 c lf20 lb20 L

variable (c : Dev nD)
  (lf20 : (cc0_scratch1 : Ref sig .tc).ty.Contents (Elt F)) (lb20 : (cc0_scratch2 : Ref sig .tc).ty.Contents (Elt F))
  (lf21 : (cc0_scratch1 : Ref sig .tc).ty.Contents (Elt F)) (lb21 : (cc0_scratch2 : Ref sig .tc).ty.Contents (Elt F))
  (hlf20 : (cfP 2 0).view.read (Elt F) lf20 = VfI m ρ (zl c) 2 0) (hlb20 : (cbP 2 0).view.read (Elt F) lb20 = VbI m ρ (zr c) 2 0)
  (hlf21 : (cfP 2 1).view.read (Elt F) lf21 = VfI m ρ (zl c) 2 1) (hlb21 : (cbP 2 1).view.read (Elt F) lb21 = VbI m ρ (zr c) 2 1)

include hlf20 hlb20 in
theorem lastList2_agrees :
    ∀ p ∈ lastList2 c lf20 lb20 (prodList (Astg m ρ) (Bstg m ρ) c), ∀ x : p.1.shape.Idx,
      p.2 x = R1full (Astg m ρ) (Bstg m ρ) c (p.1.emb x) := by
  intro p hp
  simp only [lastList2, List.mem_cons, List.mem_singleton, List.not_mem_nil, or_false] at hp
  rcases hp with rfl | rfl
  · exact agrees_last (Astg m ρ) (Bstg m ρ) c 1 0 _ rfl inb_S384x1536_S192x768_0_768 _
      ((pay25_eq _ _).trans (lastB (Astg m ρ) (Bstg m ρ) c 0 _ _ ((cb_read 2 0 lb20).symm.trans hlb20)
        (strip_cov (Astg m ρ) (Bstg m ρ) c (q4 (zi c)) 1 0 _ _ (strip10_0_cov c) (strip10_0_off c) (k0_off6_inb c) (k0_off10_inb c 0) _ (prodList_mem12 _ _ c))))
  · exact agrees_last (Astg m ρ) (Bstg m ρ) c 0 0 _ rfl inb_S384x1536_S192x768_0_0 _
      ((pay24_23 _ _).trans (lastF (Astg m ρ) (Bstg m ρ) c 0 _ _ ((cf_read 2 0 lf20).symm.trans hlf20)
        (strip_cov (Astg m ρ) (Bstg m ρ) c (q4 (zi c)) 0 0 _ _ (strip9_0_cov c) (strip9_0_off c) (k0_off5_inb c) (k0_off9_inb c 0) _ (prodList_mem11 _ _ c))))

include hlf20 hlb20 hlf21 hlb21 in
theorem lastList4_agrees :
    ∀ p ∈ lastList4 c lf20 lb20 lf21 lb21 (prodList (Astg m ρ) (Bstg m ρ) c), ∀ x : p.1.shape.Idx,
      p.2 x = R1full (Astg m ρ) (Bstg m ρ) c (p.1.emb x) := by
  intro p hp
  rcases List.mem_cons.mp hp with rfl | hp
  · exact agrees_last (Astg m ρ) (Bstg m ρ) c 1 1 _ rfl inb_S384x1536_S192x768_192_768 _
      ((pay29_eq _ _).trans (lastB (Astg m ρ) (Bstg m ρ) c 1 _ _ ((cb_read 2 1 lb21).symm.trans hlb21)
        (strip_cov (Astg m ρ) (Bstg m ρ) c (q4 (zi c)) 1 1 _ _ (strip10_1_cov c) (strip10_1_off c) (k0_off6_inb c) (k0_off10_inb c 1) _ (prodList_mem12 _ _ c))))
  rcases List.mem_cons.mp hp with rfl | hp
  · exact agrees_last (Astg m ρ) (Bstg m ρ) c 0 1 _ rfl inb_S384x1536_S192x768_192_0 _
      ((pay28_27 _ _).trans (lastF (Astg m ρ) (Bstg m ρ) c 1 _ _ ((cf_read 2 1 lf21).symm.trans hlf21)
        (strip_cov (Astg m ρ) (Bstg m ρ) c (q4 (zi c)) 0 1 _ _ (strip9_1_cov c) (strip9_1_off c) (k0_off5_inb c) (k0_off9_inb c 1) _ (prodList_mem11 _ _ c))))
  · exact lastList2_agrees m ρ c lf20 lb20 hlf20 hlb20 p hp

end Concrete

section Final
variable (m : Mem F) (ρ : Dev nD → PrngReg) (c : Dev nD)
  (lf20 : (cc0_scratch1 : Ref sig .tc).ty.Contents (Elt F)) (lb20 : (cc0_scratch2 : Ref sig .tc).ty.Contents (Elt F))
  (lf21 : (cc0_scratch1 : Ref sig .tc).ty.Contents (Elt F)) (lb21 : (cc0_scratch2 : Ref sig .tc).ty.Contents (Elt F))
  (hlf20 : (cfP 2 0).view.read (Elt F) lf20 = VfI m ρ (zl c) 2 0) (hlb20 : (cbP 2 0).view.read (Elt F) lb20 = VbI m ρ (zr c) 2 0)
  (hlf21 : (cfP 2 1).view.read (Elt F) lf21 = VfI m ρ (zl c) 2 1) (hlb21 : (cbP 2 1).view.read (Elt F) lb21 = VbI m ρ (zr c) 2 1)

theorem lastList2_cover (L : List (View.Piece (Elt F) S1536x1536 .f32)) (y : S384x1536.Idx) (h : (y 0).val < 192) :
    ∃ p ∈ lastList2 c lf20 lb20 L, y ∈ p.1.set := by
  have h1 : (y 1).val < 1536 := idx2_lt1 y
  by_cases hc : (y 1).val < 768
  · exact ⟨_, List.mem_cons_of_mem _ List.mem_cons_self,
      mem_last 0 0 _ rfl inb_S384x1536_S192x768_0_0 y ⟨by show 192 * 0 ≤ _; omega, by show _ < 192 * 0 + 192; omega⟩
        ⟨by show 768 * 0 ≤ _; omega, by show _ < 768 * 0 + 768; omega⟩⟩
  · exact ⟨_, List.mem_cons_self,
      mem_last 1 0 _ rfl inb_S384x1536_S192x768_0_768 y ⟨by show 192 * 0 ≤ _; omega, by show _ < 192 * 0 + 192; omega⟩
        ⟨by show 768 * 1 ≤ _; omega, by show _ < 768 * 1 + 768; omega⟩⟩

theorem lastList4_cover (L : List (View.Piece (Elt F) S1536x1536 .f32)) (y : S384x1536.Idx) :
    ∃ p ∈ lastList4 c lf20 lb20 lf21 lb21 L, y ∈ p.1.set := by
  have h0 : (y 0).val < 384 := idx2_lt0 y
  have h1 : (y 1).val < 1536 := idx2_lt1 y
  by_cases hr : (y 0).val < 192
  · obtain ⟨p, hp, hy⟩ := lastList2_cover c lf20 lb20 L y hr
    exact ⟨p, List.mem_cons_of_mem _ (List.mem_cons_of_mem _ hp), hy⟩
  by_cases hc : (y 1).val < 768
  · exact ⟨_, List.mem_cons_of_mem _ List.mem_cons_self,
      mem_last 0 1 _ rfl inb_S384x1536_S192x768_192_0 y ⟨by show 192 * 1 ≤ _; omega, by show _ < 192 * 1 + 192; omega⟩
        ⟨by show 768 * 0 ≤ _; omega, by show _ < 768 * 0 + 768; omega⟩⟩
  · exact ⟨_, List.mem_cons_self,
      mem_last 1 1 _ rfl inb_S384x1536_S192x768_192_768 y ⟨by show 192 * 1 ≤ _; omega, by show _ < 192 * 1 + 192; omega⟩
        ⟨by show 768 * 1 ≤ _; omega, by show _ < 768 * 1 + 768; omega⟩⟩

include hlf20 hlb20 hlf21 hlb21 in
theorem quarter_writes (g : Vec F S384x1536 .f32) :
    r1M.view.writes (Elt F) g (lastList4 c lf20 lb20 lf21 lb21 (prodList (Astg m ρ) (Bstg m ρ) c))
      = R1full (Astg m ρ) (Bstg m ρ) c := by
  funext y
  have hag := lastList4_agrees m ρ c lf20 lb20 lf21 lb21 hlf20 hlb20 hlf21 hlb21
  have hy := lastList4_cover c lf20 lb20 lf21 lb21 (prodList (Astg m ρ) (Bstg m ρ) c) y
  generalize lastList4 c lf20 lb20 lf21 lb21 (prodList (Astg m ρ) (Bstg m ρ) c) = LL at hag hy ⊢
  have e1 : r1M.view.writes (Elt F) g LL y = r1M.view.read (Elt F) (r1M.view.writes (Elt F) g LL) y := rfl
  rw [e1, View.read_writes_apply_eq_canon r1M.view g y LL hy]
  exact quarter_canon (Astg m ρ) (Bstg m ρ) c LL hag y hy

include hlf20 hlb20 hlf21 hlb21 in
theorem quarter_eq (f4 : Vec F S384x1536 .bf16) (L : List (View.Piece (Elt F) S1536x1536 .f32))
    (hL : L = prodList (Astg m ρ) (Bstg m ρ) c) :
    r1bM.view.writes (Elt F) f4
        [ (⟨Rect.unit (s := S384x1536) ![192, 0] S192x1536.size inb_S384x1536_S192x1536_192_0,
            k0_pay30 (r1M.view.readCov (lastList4 c lf20 lb20 lf21 lb21 L)
              (Rect.unit (s := S384x1536) ![192, 0] S192x1536.size inb_S384x1536_S192x1536_192_0).toLoadRect)⟩
            : View.Piece (Elt F) S384x1536 .bf16),
          (⟨Rect.unit (s := S384x1536) ![0, 0] S192x1536.size inb_S384x1536_S192x1536_0_0,
            k0_pay26 (r1M.view.readCov (lastList2 c lf20 lb20 L)
              (Rect.unit (s := S384x1536) ![0, 0] S192x1536.size inb_S384x1536_S192x1536_0_0).toLoadRect)⟩
            : View.Piece (Elt F) S384x1536 .bf16) ]
      = R1bI m ρ c := by
  subst hL
  exact narrow_of_lists (Astg m ρ) (Bstg m ρ) c f4 _ _
    (lastList4_agrees m ρ c lf20 lb20 lf21 lb21 hlf20 hlb20 hlf21 hlb21)
    (lastList2_agrees m ρ c lf20 lb20 hlf20 hlb20)
    (lastList4_cover c lf20 lb20 lf21 lb21 _)
    (lastList2_cover c lf20 lb20 _)

end Final

section Out
variable (m : Mem F) (ρ : Dev nD → PrngReg) (c : Dev nD)

theorem out_writes_top (g2 w : Vec F S48x1536 .f32) (T : List (View.Piece (Elt F) S48x1536 .f32))
    (inb : ∀ a, (![0, 0] : Fin 2 → Nat) a + S48x1536.size a ≤ S48x1536.size a) :
    oM.view.writes (Elt F) g2 ((⟨Rect.unit (s := S48x1536) ![0, 0] S48x1536.size inb, w⟩ : View.Piece (Elt F) S48x1536 .f32) :: T) = w :=
  Memref.write_access_unit_zero_univ (Elt F) cc0_stg2_0
    (funext fun a => by
      match a with
      | ⟨0, _⟩ => rfl
      | ⟨1, _⟩ => rfl) inb _ w

theorem out_s_base (g : Vec F S384x1536 .f32)
    (lf20 : (cc0_scratch1 : Ref sig .tc).ty.Contents (Elt F)) (lb20 : (cc0_scratch2 : Ref sig .tc).ty.Contents (Elt F))
    (lf21 : (cc0_scratch1 : Ref sig .tc).ty.Contents (Elt F)) (lb21 : (cc0_scratch2 : Ref sig .tc).ty.Contents (Elt F))
    (hlf20 : (cfP 2 0).view.read (Elt F) lf20 = VfI m ρ (zl c) 2 0) (hlb20 : (cbP 2 0).view.read (Elt F) lb20 = VbI m ρ (zr c) 2 0)
    (hlf21 : (cfP 2 1).view.read (Elt F) lf21 = VfI m ρ (zl c) 2 1) (hlb21 : (cbP 2 1).view.read (Elt F) lb21 = VbI m ρ (zr c) 2 1)
    (L : List (View.Piece (Elt F) S1536x1536 .f32)) (hL : L = prodList (Astg m ρ) (Bstg m ρ) c)
    (inb : ∀ a, k0_off12 c a + S48x1536.size a ≤ S384x1536.size a) :
    r1M.view.readAt (Elt F) (Rect.unit (s := S384x1536) (k0_off12 c) S48x1536.size inb).toLoadRect
        (r1M.view.writes (Elt F) g (lastList4 c lf20 lb20 lf21 lb21 L))
      = outN (Astg m ρ) (Bstg m ρ) 0 c := by
  subst hL
  rw [quarter_writes m ρ c lf20 lb20 lf21 lb21 hlf20 hlb20 hlf21 hlb21 g, r1M_readAt]
  funext x
  have h := off12_eq c
  exact congrArg (R1full (Astg m ρ) (Bstg m ρ) c) (funext fun a => Fin.ext (by
    match a with
    | ⟨0, _⟩ => exact congrArg (· + (x 0).val) (congrFun h 0)
    | ⟨1, _⟩ => exact (congrArg (· + (x 1).val) (congrFun h 1)).trans (Nat.zero_add _)))

theorem out_step (o : Fin 7) (p : Vec F S48x1536 .f32 → Vec F S1x48x1536 .bf16 → Vec F S48x1536 .f32)
    (hp : ∀ v w, p v w = addf v (extf .f32 (recvD w) bitsLt_bf16_f32))
    (T : List (View.Piece (Elt F) S48x1536 .f32)) (w : Vec F S48x1536 .f32)
    (hw : w = outN (Astg m ρ) (Bstg m ρ) o.val c)
    (ld : (cc0_scratch5 : Ref sig .tc).ty.Contents (Elt F))
    (hld : (cdP o).view.read (Elt F) ld = VdI m ρ (inp (7 - o.val) c) o)
    (i1 i2 : ∀ a, (![0, 0] : Fin 2 → Nat) a + S48x1536.size a ≤ S48x1536.size a)
    (i3 : ∀ a, (![o.val, 0, 0] : Fin 3 → Nat) a + S1x48x1536.size a ≤ S7x48x1536.size a) :
    p (oM.view.readCov ((⟨Rect.unit (s := S48x1536) ![0, 0] S48x1536.size i1, w⟩ : View.Piece (Elt F) S48x1536 .f32) :: T) (Rect.unit (s := S48x1536) ![0, 0] S48x1536.size i2).toLoadRect) ((Memref.whole cc0_scratch5).view.readAt (Elt F) (Rect.unit (s := S7x48x1536) ![o.val, 0, 0] S1x48x1536.size i3).toLoadRect ld) = outN (Astg m ρ) (Bstg m ρ) (o.val + 1) c := by
  rw [hp, View.readCov_cons_toLoadRect]
  exact planeStep (Astg m ρ) (Bstg m ρ) c o.val o.isLt w _ hw ((cd_read o ld).symm.trans hld)

theorem out_final (g2 w : Vec F S48x1536 .f32) (T : List (View.Piece (Elt F) S48x1536 .f32))
    (hw : w = outN (Astg m ρ) (Bstg m ρ) 7 c)
    (inb : ∀ a, (![0, 0] : Fin 2 → Nat) a + S48x1536.size a ≤ S48x1536.size a) :
    oM.view.writes (Elt F) g2 ((⟨Rect.unit (s := S48x1536) ![0, 0] S48x1536.size inb, w⟩ : View.Piece (Elt F) S48x1536 .f32) :: T)
      = outI m ρ c :=
  (out_writes_top g2 w T inb).trans hw

end Out

section Chain
variable (m : Mem F) (ρ : Dev nD → PrngReg)
variable (c : Dev nD) (lf20 : (cc0_scratch1 : Ref sig .tc).ty.Contents (Elt F)) (lb20 : (cc0_scratch2 : Ref sig .tc).ty.Contents (Elt F)) (lf21 : (cc0_scratch1 : Ref sig .tc).ty.Contents (Elt F)) (lb21 : (cc0_scratch2 : Ref sig .tc).ty.Contents (Elt F))
  (hlf20 : (cfP 2 0).view.read (Elt F) lf20 = VfI m ρ (zl c) 2 0) (hlb20 : (cbP 2 0).view.read (Elt F) lb20 = VbI m ρ (zr c) 2 0)
  (hlf21 : (cfP 2 1).view.read (Elt F) lf21 = VfI m ρ (zl c) 2 1) (hlb21 : (cbP 2 1).view.read (Elt F) lb21 = VbI m ρ (zr c) 2 1)
  (ld0 : (cc0_scratch5 : Ref sig .tc).ty.Contents (Elt F)) (ld1 : (cc0_scratch5 : Ref sig .tc).ty.Contents (Elt F)) (ld2 : (cc0_scratch5 : Ref sig .tc).ty.Contents (Elt F)) (ld3 : (cc0_scratch5 : Ref sig .tc).ty.Contents (Elt F)) (ld4 : (cc0_scratch5 : Ref sig .tc).ty.Contents (Elt F)) (ld5 : (cc0_scratch5 : Ref sig .tc).ty.Contents (Elt F)) (ld6 : (cc0_scratch5 : Ref sig .tc).ty.Contents (Elt F))
  (hld0 : (cdP 0).view.read (Elt F) ld0 = VdI m ρ (inp (7 - 0) c) 0)
  (hld1 : (cdP 1).view.read (Elt F) ld1 = VdI m ρ (inp (7 - 1) c) 1)
  (hld2 : (cdP 2).view.read (Elt F) ld2 = VdI m ρ (inp (7 - 2) c) 2)
  (hld3 : (cdP 3).view.read (Elt F) ld3 = VdI m ρ (inp (7 - 3) c) 3)
  (hld4 : (cdP 4).view.read (Elt F) ld4 = VdI m ρ (inp (7 - 4) c) 4)
  (hld5 : (cdP 5).view.read (Elt F) ld5 = VdI m ρ (inp (7 - 5) c) 5)
  (hld6 : (cdP 6).view.read (Elt F) ld6 = VdI m ρ (inp (7 - 6) c) 6)

def oW0 : Vec F S48x1536 .f32 :=
  r1M.view.readAt (Elt F) (Rect.unit (s := S384x1536) (k0_off12 c) S48x1536.size (k0_off12_inb c)).toLoadRect
    (r1M.view.writes (Elt F) r1M.view.junk (lastList4 c lf20 lb20 lf21 lb21 (prodList (Astg m ρ) (Bstg m ρ) c)))
def oL0 : List (View.Piece (Elt F) S48x1536 .f32) :=
  [(⟨Rect.unit (s := S48x1536) ![0, 0] S48x1536.size inb_S48x1536_S48x1536_0_0, oW0 m ρ c lf20 lb20 lf21 lb21⟩ : View.Piece (Elt F) S48x1536 .f32)]
def oW1 : Vec F S48x1536 .f32 :=
  k0_pay31 (oM.view.readCov (oL0 m ρ c lf20 lb20 lf21 lb21) (Rect.unit (s := S48x1536) ![0, 0] S48x1536.size inb_S48x1536_S48x1536_0_0).toLoadRect) ((Memref.whole cc0_scratch5).view.readAt (Elt F) (Rect.unit (s := S7x48x1536) ![0, 0, 0] S1x48x1536.size inb_S7x48x1536_S1x48x1536_0_0_0).toLoadRect ld0)
def oL1 : List (View.Piece (Elt F) S48x1536 .f32) :=
  (⟨Rect.unit (s := S48x1536) ![0, 0] S48x1536.size inb_S48x1536_S48x1536_0_0, oW1 m ρ c lf20 lb20 lf21 lb21 ld0⟩ : View.Piece (Elt F) S48x1536 .f32) :: oL0 m ρ c lf20 lb20 lf21 lb21
def oW2 : Vec F S48x1536 .f32 :=
  k0_pay33 (k0_pay32 (oM.view.readCov (oL1 m ρ c lf20 lb20 lf21 lb21 ld0) (Rect.unit (s := S48x1536) ![0, 0] S48x1536.size inb_S48x1536_S48x1536_0_0).toLoadRect)) ((Memref.whole cc0_scratch5).view.readAt (Elt F) (Rect.unit (s := S7x48x1536) ![1, 0, 0] S1x48x1536.size inb_S7x48x1536_S1x48x1536_1_0_0).toLoadRect ld1)
def oL2 : List (View.Piece (Elt F) S48x1536 .f32) :=
  (⟨Rect.unit (s := S48x1536) ![0, 0] S48x1536.size inb_S48x1536_S48x1536_0_0, oW2 m ρ c lf20 lb20 lf21 lb21 ld0 ld1⟩ : View.Piece (Elt F) S48x1536 .f32) :: oL1 m ρ c lf20 lb20 lf21 lb21 ld0
def oW3 : Vec F S48x1536 .f32 :=
  k0_pay34 (oM.view.readCov (oL2 m ρ c lf20 lb20 lf21 lb21 ld0 ld1) (Rect.unit (s := S48x1536) ![0, 0] S48x1536.size inb_S48x1536_S48x1536_0_0).toLoadRect) ((Memref.whole cc0_scratch5).view.readAt (Elt F) (Rect.unit (s := S7x48x1536) ![2, 0, 0] S1x48x1536.size inb_S7x48x1536_S1x48x1536_2_0_0).toLoadRect ld2)
def oL3 : List (View.Piece (Elt F) S48x1536 .f32) :=
  (⟨Rect.unit (s := S48x1536) ![0, 0] S48x1536.size inb_S48x1536_S48x1536_0_0, oW3 m ρ c lf20 lb20 lf21 lb21 ld0 ld1 ld2⟩ : View.Piece (Elt F) S48x1536 .f32) :: oL2 m ρ c lf20 lb20 lf21 lb21 ld0 ld1
def oW4 : Vec F S48x1536 .f32 :=
  k0_pay35 (oM.view.readCov (oL3 m ρ c lf20 lb20 lf21 lb21 ld0 ld1 ld2) (Rect.unit (s := S48x1536) ![0, 0] S48x1536.size inb_S48x1536_S48x1536_0_0).toLoadRect) ((Memref.whole cc0_scratch5).view.readAt (Elt F) (Rect.unit (s := S7x48x1536) ![3, 0, 0] S1x48x1536.size inb_S7x48x1536_S1x48x1536_3_0_0).toLoadRect ld3)
def oL4 : List (View.Piece (Elt F) S48x1536 .f32) :=
  (⟨Rect.unit (s := S48x1536) ![0, 0] S48x1536.size inb_S48x1536_S48x1536_0_0, oW4 m ρ c lf20 lb20 lf21 lb21 ld0 ld1 ld2 ld3⟩ : View.Piece (Elt F) S48x1536 .f32) :: oL3 m ρ c lf20 lb20 lf21 lb21 ld0 ld1 ld2
def oW5 : Vec F S48x1536 .f32 :=
  k0_pay36 (oM.view.readCov (oL4 m ρ c lf20 lb20 lf21 lb21 ld0 ld1 ld2 ld3) (Rect.unit (s := S48x1536) ![0, 0] S48x1536.size inb_S48x1536_S48x1536_0_0).toLoadRect) ((Memref.whole cc0_scratch5).view.readAt (Elt F) (Rect.unit (s := S7x48x1536) ![4, 0, 0] S1x48x1536.size inb_S7x48x1536_S1x48x1536_4_0_0).toLoadRect ld4)
def oL5 : List (View.Piece (Elt F) S48x1536 .f32) :=
  (⟨Rect.unit (s := S48x1536) ![0, 0] S48x1536.size inb_S48x1536_S48x1536_0_0, oW5 m ρ c lf20 lb20 lf21 lb21 ld0 ld1 ld2 ld3 ld4⟩ : View.Piece (Elt F) S48x1536 .f32) :: oL4 m ρ c lf20 lb20 lf21 lb21 ld0 ld1 ld2 ld3
def oW6 : Vec F S48x1536 .f32 :=
  k0_pay37 (oM.view.readCov (oL5 m ρ c lf20 lb20 lf21 lb21 ld0 ld1 ld2 ld3 ld4) (Rect.unit (s := S48x1536) ![0, 0] S48x1536.size inb_S48x1536_S48x1536_0_0).toLoadRect) ((Memref.whole cc0_scratch5).view.readAt (Elt F) (Rect.unit (s := S7x48x1536) ![5, 0, 0] S1x48x1536.size inb_S7x48x1536_S1x48x1536_5_0_0).toLoadRect ld5)
def oL6 : List (View.Piece (Elt F) S48x1536 .f32) :=
  (⟨Rect.unit (s := S48x1536) ![0, 0] S48x1536.size inb_S48x1536_S48x1536_0_0, oW6 m ρ c lf20 lb20 lf21 lb21 ld0 ld1 ld2 ld3 ld4 ld5⟩ : View.Piece (Elt F) S48x1536 .f32) :: oL5 m ρ c lf20 lb20 lf21 lb21 ld0 ld1 ld2 ld3 ld4
def oW7 : Vec F S48x1536 .f32 :=
  k0_pay1 (oM.view.readCov (oL6 m ρ c lf20 lb20 lf21 lb21 ld0 ld1 ld2 ld3 ld4 ld5) (Rect.unit (s := S48x1536) ![0, 0] S48x1536.size inb_S48x1536_S48x1536_0_0).toLoadRect) ((Memref.whole cc0_scratch5).view.readAt (Elt F) (Rect.unit (s := S7x48x1536) ![6, 0, 0] S1x48x1536.size inb_S7x48x1536_S1x48x1536_6_0_0).toLoadRect ld6)
def oL7 : List (View.Piece (Elt F) S48x1536 .f32) :=
  (⟨Rect.unit (s := S48x1536) ![0, 0] S48x1536.size inb_S48x1536_S48x1536_0_0, oW7 m ρ c lf20 lb20 lf21 lb21 ld0 ld1 ld2 ld3 ld4 ld5 ld6⟩ : View.Piece (Elt F) S48x1536 .f32) :: oL6 m ρ c lf20 lb20 lf21 lb21 ld0 ld1 ld2 ld3 ld4 ld5

include hlf20 hlb20 hlf21 hlb21 in
theorem oW0_eq : oW0 m ρ c lf20 lb20 lf21 lb21 = outN (Astg m ρ) (Bstg m ρ) 0 c :=
  out_s_base m ρ c _ lf20 lb20 lf21 lb21 hlf20 hlb20 hlf21 hlb21 _ rfl (k0_off12_inb c)
include hlf20 hlb20 hlf21 hlb21 hld0 in
theorem oW1_eq : oW1 m ρ c lf20 lb20 lf21 lb21 ld0 = outN (Astg m ρ) (Bstg m ρ) 1 c :=
  out_step m ρ c 0 k0_pay31 pay31_eq [] _ (oW0_eq m ρ c lf20 lb20 lf21 lb21 hlf20 hlb20 hlf21 hlb21) ld0 hld0 inb_S48x1536_S48x1536_0_0 inb_S48x1536_S48x1536_0_0 inb_S7x48x1536_S1x48x1536_0_0_0
include hlf20 hlb20 hlf21 hlb21 hld0 hld1 in
theorem oW2_eq : oW2 m ρ c lf20 lb20 lf21 lb21 ld0 ld1 = outN (Astg m ρ) (Bstg m ρ) 2 c :=
  out_step m ρ c 1 (fun v w => k0_pay33 (k0_pay32 v) w) (fun v w => by rw [pay32_eq, pay33_eq]) (oL0 m ρ c lf20 lb20 lf21 lb21) _ (oW1_eq m ρ c lf20 lb20 lf21 lb21 hlf20 hlb20 hlf21 hlb21 ld0 hld0) ld1 hld1 inb_S48x1536_S48x1536_0_0 inb_S48x1536_S48x1536_0_0 inb_S7x48x1536_S1x48x1536_1_0_0
include hlf20 hlb20 hlf21 hlb21 hld0 hld1 hld2 in
theorem oW3_eq : oW3 m ρ c lf20 lb20 lf21 lb21 ld0 ld1 ld2 = outN (Astg m ρ) (Bstg m ρ) 3 c :=
  out_step m ρ c 2 k0_pay34 pay34_eq (oL1 m ρ c lf20 lb20 lf21 lb21 ld0) _ (oW2_eq m ρ c lf20 lb20 lf21 lb21 hlf20 hlb20 hlf21 hlb21 ld0 ld1 hld0 hld1) ld2 hld2 inb_S48x1536_S48x1536_0_0 inb_S48x1536_S48x1536_0_0 inb_S7x48x1536_S1x48x1536_2_0_0
include hlf20 hlb20 hlf21 hlb21 hld0 hld1 hld2 hld3 in
theorem oW4_eq : oW4 m ρ c lf20 lb20 lf21 lb21 ld0 ld1 ld2 ld3 = outN (Astg m ρ) (Bstg m ρ) 4 c :=
  out_step m ρ c 3 k0_pay35 pay35_eq (oL2 m ρ c lf20 lb20 lf21 lb21 ld0 ld1) _ (oW3_eq m ρ c lf20 lb20 lf21 lb21 hlf20 hlb20 hlf21 hlb21 ld0 ld1 ld2 hld0 hld1 hld2) ld3 hld3 inb_S48x1536_S48x1536_0_0 inb_S48x1536_S48x1536_0_0 inb_S7x48x1536_S1x48x1536_3_0_0
include hlf20 hlb20 hlf21 hlb21 hld0 hld1 hld2 hld3 hld4 in
theorem oW5_eq : oW5 m ρ c lf20 lb20 lf21 lb21 ld0 ld1 ld2 ld3 ld4 = outN (Astg m ρ) (Bstg m ρ) 5 c :=
  out_step m ρ c 4 k0_pay36 pay36_eq (oL3 m ρ c lf20 lb20 lf21 lb21 ld0 ld1 ld2) _ (oW4_eq m ρ c lf20 lb20 lf21 lb21 hlf20 hlb20 hlf21 hlb21 ld0 ld1 ld2 ld3 hld0 hld1 hld2 hld3) ld4 hld4 inb_S48x1536_S48x1536_0_0 inb_S48x1536_S48x1536_0_0 inb_S7x48x1536_S1x48x1536_4_0_0
include hlf20 hlb20 hlf21 hlb21 hld0 hld1 hld2 hld3 hld4 hld5 in
theorem oW6_eq : oW6 m ρ c lf20 lb20 lf21 lb21 ld0 ld1 ld2 ld3 ld4 ld5 = outN (Astg m ρ) (Bstg m ρ) 6 c :=
  out_step m ρ c 5 k0_pay37 pay37_eq (oL4 m ρ c lf20 lb20 lf21 lb21 ld0 ld1 ld2 ld3) _ (oW5_eq m ρ c lf20 lb20 lf21 lb21 hlf20 hlb20 hlf21 hlb21 ld0 ld1 ld2 ld3 ld4 hld0 hld1 hld2 hld3 hld4) ld5 hld5 inb_S48x1536_S48x1536_0_0 inb_S48x1536_S48x1536_0_0 inb_S7x48x1536_S1x48x1536_5_0_0
include hlf20 hlb20 hlf21 hlb21 hld0 hld1 hld2 hld3 hld4 hld5 hld6 in
theorem oW7_eq : oW7 m ρ c lf20 lb20 lf21 lb21 ld0 ld1 ld2 ld3 ld4 ld5 ld6 = outN (Astg m ρ) (Bstg m ρ) 7 c :=
  out_step m ρ c 6 k0_pay1 pay1_eq (oL5 m ρ c lf20 lb20 lf21 lb21 ld0 ld1 ld2 ld3 ld4) _ (oW6_eq m ρ c lf20 lb20 lf21 lb21 hlf20 hlb20 hlf21 hlb21 ld0 ld1 ld2 ld3 ld4 ld5 hld0 hld1 hld2 hld3 hld4 hld5) ld6 hld6 inb_S48x1536_S48x1536_0_0 inb_S48x1536_S48x1536_0_0 inb_S7x48x1536_S1x48x1536_6_0_0

include hlf20 hlb20 hlf21 hlb21 hld0 hld1 hld2 hld3 hld4 hld5 hld6 in
theorem out_all (g2 : Vec F S48x1536 .f32) :
    oM.view.writes (Elt F) g2 (oL7 m ρ c lf20 lb20 lf21 lb21 ld0 ld1 ld2 ld3 ld4 ld5 ld6) = outI m ρ c :=
  out_final m ρ c g2 _ (oL6 m ρ c lf20 lb20 lf21 lb21 ld0 ld1 ld2 ld3 ld4 ld5)
    (oW7_eq m ρ c lf20 lb20 lf21 lb21 hlf20 hlb20 hlf21 hlb21 ld0 ld1 ld2 ld3 ld4 ld5 ld6 hld0 hld1 hld2 hld3 hld4 hld5 hld6) inb_S48x1536_S48x1536_0_0

end Chain

end Cert.Kernel.Ring

end
-- ==== Proof.K.Closed.lean ====
/- The same offsets read axis by axis. -/
import proofs.«900894_g7700000000000895_dist_matmul_mk_i_outk_m1536_n1536_k768_v7x_i32_f32_1_alg».proof.Proof.K.Offs
import Idealize.ShloMosaic.Lib.Tactic

noncomputable section

namespace Cert.Kernel.Ring

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

instance (c : Dev nD) : ClosedOff (k0_off1 c 1#32) := ⟨![384 * ((c.val / 8 + 1) % 4), 0], off1_1 c⟩
instance (c : Dev nD) : ClosedOff (k0_off1 c 2#32) := ⟨![384 * ((c.val / 8 + 2) % 4), 0], off1_2 c⟩
instance (c : Dev nD) : ClosedOff (k0_off1 c 3#32) := ⟨![384 * ((c.val / 8 + 3) % 4), 0], off1_3 c⟩
instance (c : Dev nD) : ClosedOff (k0_off2 c 1#32) := ⟨![384 * ((c.val / 8 + 1) % 4), 0], off2_1 c⟩
instance (c : Dev nD) : ClosedOff (k0_off2 c 2#32) := ⟨![384 * ((c.val / 8 + 2) % 4), 0], off2_2 c⟩
instance (c : Dev nD) : ClosedOff (k0_off2 c 3#32) := ⟨![384 * ((c.val / 8 + 3) % 4), 0], off2_3 c⟩
instance (c : Dev nD) : ClosedOff (k0_off3 c 1#32) := ⟨![384 * ((c.val / 8 + 1) % 4), 768], off3_1 c⟩
instance (c : Dev nD) : ClosedOff (k0_off3 c 2#32) := ⟨![384 * ((c.val / 8 + 2) % 4), 768], off3_2 c⟩
instance (c : Dev nD) : ClosedOff (k0_off3 c 3#32) := ⟨![384 * ((c.val / 8 + 3) % 4), 768], off3_3 c⟩
instance (c : Dev nD) : ClosedOff (k0_off4 c) := ⟨![384 * (c.val / 8 % 4), 0], off4_eq c⟩
instance (c : Dev nD) : ClosedOff (k0_off5 c) := ⟨![384 * (c.val / 8 % 4), 0], off5_eq c⟩
instance (c : Dev nD) : ClosedOff (k0_off6 c) := ⟨![384 * (c.val / 8 % 4), 768], off6_eq c⟩
instance (c : Dev nD) : ClosedOff (k0_off7 c 0#32 0#32) := ⟨![384 * ((c.val / 8 + 6) % 4), 0], off7_0_0 c⟩
instance (c : Dev nD) : ClosedOff (k0_off7 c 0#32 192#32) := ⟨![384 * ((c.val / 8 + 6) % 4) + 192, 0], off7_0_192 c⟩
instance (c : Dev nD) : ClosedOff (k0_off7 c 1#32 0#32) := ⟨![384 * ((c.val / 8 + 5) % 4), 0], off7_1_0 c⟩
instance (c : Dev nD) : ClosedOff (k0_off7 c 1#32 192#32) := ⟨![384 * ((c.val / 8 + 5) % 4) + 192, 0], off7_1_192 c⟩
instance (c : Dev nD) : ClosedOff (k0_off8 c 0#32 0#32) := ⟨![384 * ((c.val / 8 + 2) % 4), 768], off8_0_0 c⟩
instance (c : Dev nD) : ClosedOff (k0_off8 c 0#32 192#32) := ⟨![384 * ((c.val / 8 + 2) % 4) + 192, 768], off8_0_192 c⟩
instance (c : Dev nD) : ClosedOff (k0_off8 c 1#32 0#32) := ⟨![384 * ((c.val / 8 + 3) % 4), 768], off8_1_0 c⟩
instance (c : Dev nD) : ClosedOff (k0_off8 c 1#32 192#32) := ⟨![384 * ((c.val / 8 + 3) % 4) + 192, 768], off8_1_192 c⟩
instance (c : Dev nD) : ClosedOff (k0_off9 c 0#32) := ⟨![384 * (c.val / 8 % 4), 0], off9_0 c⟩
instance (c : Dev nD) : ClosedOff (k0_off9 c 192#32) := ⟨![384 * (c.val / 8 % 4) + 192, 0], off9_192 c⟩
instance (c : Dev nD) : ClosedOff (k0_off10 c 0#32) := ⟨![384 * (c.val / 8 % 4), 768], off10_0 c⟩
instance (c : Dev nD) : ClosedOff (k0_off10 c 192#32) := ⟨![384 * (c.val / 8 % 4) + 192, 768], off10_192 c⟩
instance (c : Dev nD) : ClosedOff (k0_off11 c 1#32) := ⟨![48 * ((c.val % 8 + 1) % 8), 0], off11_1 c⟩
instance (c : Dev nD) : ClosedOff (k0_off11 c 2#32) := ⟨![48 * ((c.val % 8 + 2) % 8), 0], off11_2 c⟩
instance (c : Dev nD) : ClosedOff (k0_off11 c 3#32) := ⟨![48 * ((c.val % 8 + 3) % 8), 0], off11_3 c⟩
instance (c : Dev nD) : ClosedOff (k0_off11 c 4#32) := ⟨![48 * ((c.val % 8 + 4) % 8), 0], off11_4 c⟩
instance (c : Dev nD) : ClosedOff (k0_off11 c 5#32) := ⟨![48 * ((c.val % 8 + 5) % 8), 0], off11_5 c⟩
instance (c : Dev nD) : ClosedOff (k0_off11 c 6#32) := ⟨![48 * ((c.val % 8 + 6) % 8), 0], off11_6 c⟩
instance (c : Dev nD) : ClosedOff (k0_off11 c 7#32) := ⟨![48 * ((c.val % 8 + 7) % 8), 0], off11_7 c⟩
instance (c : Dev nD) : ClosedOff (k0_off12 c) := ⟨![48 * (c.val % 8), 0], off12_eq c⟩

end Cert.Kernel.Ring

end
-- ==== Proof.K.Body.lean ====
/- One device's run of the body, step by step in program order. -/
import proofs.«900894_g7700000000000895_dist_matmul_mk_i_outk_m1536_n1536_k768_v7x_i32_f32_1_alg».proof.Proof.K.Steps
import proofs.«900894_g7700000000000895_dist_matmul_mk_i_outk_m1536_n1536_k768_v7x_i32_f32_1_alg».proof.Proof.K.Inst
import proofs.«900894_g7700000000000895_dist_matmul_mk_i_outk_m1536_n1536_k768_v7x_i32_f32_1_alg».proof.Proof.K.Pieces
import proofs.«900894_g7700000000000895_dist_matmul_mk_i_outk_m1536_n1536_k768_v7x_i32_f32_1_alg».proof.Proof.K.Finish
import proofs.«900894_g7700000000000895_dist_matmul_mk_i_outk_m1536_n1536_k768_v7x_i32_f32_1_alg».proof.Proof.K.Gather
import proofs.«900894_g7700000000000895_dist_matmul_mk_i_outk_m1536_n1536_k768_v7x_i32_f32_1_alg».proof.Proof.K.SendVals
import proofs.«900894_g7700000000000895_dist_matmul_mk_i_outk_m1536_n1536_k768_v7x_i32_f32_1_alg».proof.Proof.K.Hops
import proofs.«900894_g7700000000000895_dist_matmul_mk_i_outk_m1536_n1536_k768_v7x_i32_f32_1_alg».proof.Proof.K.HopVals
import proofs.«900894_g7700000000000895_dist_matmul_mk_i_outk_m1536_n1536_k768_v7x_i32_f32_1_alg».proof.Proof.K.Quarter
import proofs.«900894_g7700000000000895_dist_matmul_mk_i_outk_m1536_n1536_k768_v7x_i32_f32_1_alg».proof.Proof.K.Partial
import proofs.«900894_g7700000000000895_dist_matmul_mk_i_outk_m1536_n1536_k768_v7x_i32_f32_1_alg».proof.Proof.K.Closed
import proofs.«900894_g7700000000000895_dist_matmul_mk_i_outk_m1536_n1536_k768_v7x_i32_f32_1_alg».proof.Proof.K.Plane

noncomputable section

namespace Cert.Kernel.Ring

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.Tactic

local notation "𝕄" => MT nD τ sig Unit (Elt F) ℕ UU ℕ

/- The payments, the tokens and the waited cells in program order; what is left of each after the first n. -/
def payOrd : List PK := [.sig 0, .sig 1, .sig 2, .sig 3, .sig 4, .sig 5, .sig 6, .sig 7, .sig 8, .rf 0 0, .rf 0 1, .rb 0 0, .rb 0 1, .rf 1 0, .rb 1 0, .rf 1 1, .rb 1 1, .rf 2 0, .rb 2 0, .rf 2 1, .rb 2 1, .dd 0, .dd 1, .dd 2, .dd 3, .dd 4, .dd 5, .dd 6]
def tokOrd : List TK := [.inl (.sig 0), .inl (.sig 1), .inl (.sig 2), .inl (.sig 3), .inl (.sig 4), .inl (.sig 5), .inl (.sig 6), .inl (.sig 7), .inl (.sig 8), .inl (.rf 0 0), .inr (.f 0 0), .inl (.rf 0 1), .inr (.f 0 1), .inl (.rb 0 0), .inr (.b 0 0), .inl (.rb 0 1), .inr (.b 0 1), .inl (.rf 1 0), .inr (.f 1 0), .inl (.rb 1 0), .inr (.b 1 0), .inl (.rf 1 1), .inr (.f 1 1), .inl (.rb 1 1), .inr (.b 1 1), .inl (.rf 2 0), .inr (.f 2 0), .inl (.rb 2 0), .inr (.b 2 0), .inl (.rf 2 1), .inr (.f 2 1), .inl (.rb 2 1), .inr (.b 2 1), .inl (.dd 0), .inr (.d 0), .inl (.dd 1), .inr (.d 1), .inl (.dd 2), .inr (.d 2), .inl (.dd 3), .inr (.d 3), .inl (.dd 4), .inr (.d 4), .inl (.dd 5), .inr (.d 5), .inl (.dd 6), .inr (.d 6)]
def waitOrd : List CK := [.bar, .fS 0 0, .fR 0 0, .bS 0 0, .bR 0 0, .fS 0 1, .fR 0 1, .bS 0 1, .bR 0 1, .fS 1 0, .fR 1 0, .bS 1 0, .bR 1 0, .fS 1 1, .fR 1 1, .bS 1 1, .bR 1 1, .fS 2 0, .fR 2 0, .bS 2 0, .bR 2 0, .fS 2 1, .fR 2 1, .bS 2 1, .bR 2 1, .dS 0, .dR 0, .dS 1, .dR 1, .dS 2, .dR 2, .dS 3, .dR 3, .dS 4, .dR 4, .dS 5, .dR 5, .dS 6, .dR 6]
def Oat : ℕ → Finset PK
  | 0 => Finset.univ
  | n + 1 => (Oat n).erase (payOrd.getD n (.sig 0))
def Tat : ℕ → Finset TK
  | 0 => Finset.univ
  | n + 1 => (Tat n).erase (tokOrd.getD n (.inl (.sig 0)))
def Pat : ℕ → Finset CK
  | 0 => Finset.univ
  | n + 1 => (Pat n).erase (waitOrd.getD n .bar)
def Wat : ℕ → Waits sig Unit → Waits sig Unit
  | 0, W => W
  | n + 1, W => insert (csem (waitOrd.getD n .bar), ()) (Wat n W)

section
variable (m : Mem F) (ρ : Dev nD → PrngReg)

abbrev cfTop : Memref sig .tc .vmem S1x384x768 .bf16 := cfM.slice top3R (fun _ => rfl)
abbrev cbTop : Memref sig .tc .vmem S1x384x768 .bf16 := cbM.slice top3R (fun _ => rfl)

omit [FloatOps F] in
theorem cfTop_eq (c : Dev nD) (f : Buf (Elt F) ((c : Thread nD τ).loc cc0_scratch1)) :
    (cfTop.view.loc (c : Thread nD τ) ↦[cfTop.view.set]{fullShare} f : sProp 𝕄)
      = ((c : Thread nD τ).loc cc0_scratch1 ↦[top3R.set]{fullShare} f) := by
  rw [show cfTop.view.set = top3R.set from View.set_slice_whole cc0_scratch1 top3R]
omit [FloatOps F] in
theorem cbTop_eq (c : Dev nD) (f : Buf (Elt F) ((c : Thread nD τ).loc cc0_scratch2)) :
    (cbTop.view.loc (c : Thread nD τ) ↦[cbTop.view.set]{fullShare} f : sProp 𝕄)
      = ((c : Thread nD τ).loc cc0_scratch2 ↦[top3R.set]{fullShare} f) := by
  rw [show cbTop.view.set = top3R.set from View.set_slice_whole cc0_scratch2 top3R]

theorem fetch_0 (t : Fin cfg0.N) : (cfg0.win (0 : Fin 3)).fetch t = true := fetch0_0 t
theorem fetch_1 (t : Fin cfg0.N) : (cfg0.win (1 : Fin 3)).fetch t = true := fetch0_1 t

set_option maxHeartbeats 4000000 in
theorem sound_body (K : Dev nD × CK → ℕ) (c : Dev nD) (Kt : PUnit → sProp 𝕄) :
    iprop(bodyPre (VfI m ρ) (VbI m ρ) (VdI m ρ) (R1bI m ρ) m ρ (outI m ρ) K c ∗ (bodyPost (VfI m ρ) (VbI m ρ) (VdI m ρ) (R1bI m ρ) m ρ (outI m ρ) c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            cc0_scratch6 cc0_scratch7 cc0_scratch8 cc0_scratch9 cc0_scratch10 cc0_scratch11) Kt := by
  unfold bodyPre ghost scratch credsAt
  iintro ⟨⟨⟨⟨#Hrec, Hpos, Htok⟩, ⟨HcB, HcF, HcBk, HcD⟩, #Hlev, ⟨%f0, H0⟩, ⟨%f1, H1⟩, ⟨%f2, H2⟩, ⟨%f3, H3⟩, ⟨%f4, H4⟩, ⟨%f5, H5⟩⟩,
    Ho, ⟨%d0, %g0, %hg0, Ha⟩, ⟨%d1, %g1, %hg1, Hb⟩, ⟨%d2, %g2, %hg2, Hout⟩⟩, Hk⟩
  have ha : g0 = Astg m ρ c := by rw [hg0]; unfold Dat.before; rw [if_pos (fetch_0 t₀)]; rfl
  have hb : g1 = Bstg m ρ c := by rw [hg1]; unfold Dat.before; rw [if_pos (fetch_1 t₀)]; rfl
  subst ha hb
  unfold Dat.owesAt Pipeline.owesWithin
  icases Ho with ⟨%W, %hW, HO⟩
  rw [show (dats (VfI m ρ) (VbI m ρ) (VdI m ρ) (R1bI m ρ) m ρ (outI m ρ) 0 c).owed t₀.castSucc = Orem c Finset.univ from rfl]
  ihave Ha := (Entails.of_eq (show ((((c : Thread nD τ).loc cc0_stg0_0) ↦{fullShare} Astg m ρ c : sProp 𝕄)
      = (aM.view.loc (c : Thread nD τ) ↦[aM.view.set]{fullShare} Astg m ρ c)) from by rw [View.set_whole])) $$ Ha
  ihave Hb := (Entails.of_eq (show ((((c : Thread nD τ).loc cc0_stg1_0) ↦{fullShare} Bstg m ρ c : sProp 𝕄)
      = (bM.view.loc (c : Thread nD τ) ↦[bM.view.set]{fullShare} Bstg m ρ c)) from by rw [View.set_whole])) $$ Hb
  ihave Hout := (Entails.of_eq (show ((((c : Thread nD τ).loc cc0_stg2_0) ↦{fullShare} g2 : sProp 𝕄)
      = (oM.view.loc (c : Thread nD τ) ↦[oM.view.set]{fullShare} g2)) from by rw [View.set_whole])) $$ Hout
  ihave H0 := (Entails.of_eq (show ((((c : Thread nD τ).loc cc0_scratch0) ↦{fullShare} f0 : sProp 𝕄)
      = (pM.view.loc (c : Thread nD τ) ↦[pM.view.set]{fullShare} f0)) from by rw [View.set_whole])) $$ H0
  ihave H3 := (Entails.of_eq (show ((((c : Thread nD τ).loc cc0_scratch3) ↦{fullShare} f3 : sProp 𝕄)
      = (r1M.view.loc (c : Thread nD τ) ↦[r1M.view.set]{fullShare} f3)) from by rw [View.set_whole])) $$ H3
  ihave H4 := (Entails.of_eq (show ((((c : Thread nD τ).loc cc0_scratch4) ↦{fullShare} f4 : sProp 𝕄)
      = (r1bM.view.loc (c : Thread nD τ) ↦[r1bM.view.set]{fullShare} f4)) from by rw [View.set_whole])) $$ H4
  ihave H1 := (Entails.of_eq (cf_split_eq c f1)) $$ H1
  icases H1 with ⟨F00, F01, F10, F11, F20, F21, F30, F31⟩
  ihave F3 := (cf_top3_split c f1).2 $$ [F30 F31]
  · isplitl [F30] <;> iassumption
  ihave F3 := (Entails.of_eq (cfTop_eq c f1).symm) $$ F3
  ihave H2 := (Entails.of_eq (cb_split_eq c f2)) $$ H2
  icases H2 with ⟨B00, B01, B10, B11, B20, B21, B30, B31⟩
  ihave B3 := (cb_top3_split c f2).2 $$ [B30 B31]
  · isplitl [B30] <;> iassumption
  ihave B3 := (Entails.of_eq (cbTop_eq c f2).symm) $$ B3
  ihave H5 := (Entails.of_eq (cd_split_eq c f5)) $$ H5
  icases H5 with ⟨D0, D1, D2, D3, D4, D5, D6⟩
  sl_unfold [cc0_body]
  sl_exec_parts
  iapply (wp_sig (VfI m ρ) (VbI m ρ) (VdI m ρ) (R1bI m ρ) K c 0 _ (dev1_eq c) (S := Finset.univ) (by decide) (T := Finset.univ) (by decide) W) $$ [HO Htok F00 F01 F10 F11 F20 F21]
  · iframe Hrec
    isplitl [HO]; · iexact HO
    isplitl [Htok]; · iexact Htok
    rw [myPay_0, sixFree_def]
    isplitl [F00]; · iapply (free_intro c _ _); iexact F00
    isplitl [F01]; · iapply (free_intro c _ _); iexact F01
    isplitl [F10]; · iapply (free_intro c _ _); iexact F10
    isplitl [F11]; · iapply (free_intro c _ _); iexact F11
    isplitl [F20]; · iapply (free_intro c _ _); iexact F20
    iapply (free_intro c _ _); iexact F21
  iintro ⟨HO, Htok⟩
  sl_exec_parts
  iapply (wp_sig (VfI m ρ) (VbI m ρ) (VdI m ρ) (R1bI m ρ) K c 1 _ (dev2_eq c) (S := Oat 1) (by decide) (T := Tat 1) (by decide) W) $$ [HO Htok B00 B01 B10 B11 B20 B21]
  · iframe Hrec
    isplitl [HO]; · iexact HO
    isplitl [Htok]; · iexact Htok
    rw [myPay_1, sixFree_def]
    isplitl [B00]; · iapply (free_intro c _ _); iexact B00
    isplitl [B01]; · iapply (free_intro c _ _); iexact B01
    isplitl [B10]; · iapply (free_intro c _ _); iexact B10
    isplitl [B11]; · iapply (free_intro c _ _); iexact B11
    isplitl [B20]; · iapply (free_intro c _ _); iexact B20
    iapply (free_intro c _ _); iexact B21
  iintro ⟨HO, Htok⟩
  sl_exec_parts
  iapply (wp_sig (VfI m ρ) (VbI m ρ) (VdI m ρ) (R1bI m ρ) K c 2 _ (dev3_eq c) (S := Oat 2) (by decide) (T := Tat 2) (by decide) W) $$ [HO Htok D6]
  · iframe Hrec
    isplitl [HO]; · iexact HO
    isplitl [Htok]; · iexact Htok
    rw [myPay_2]; iapply (free_intro c _ _); iexact D6
  iintro ⟨HO, Htok⟩
  sl_exec_parts
  iapply (wp_sig (VfI m ρ) (VbI m ρ) (VdI m ρ) (R1bI m ρ) K c 3 _ (dev4_eq c) (S := Oat 3) (by decide) (T := Tat 3) (by decide) W) $$ [HO Htok D5]
  · iframe Hrec
    isplitl [HO]; · iexact HO
    isplitl [Htok]; · iexact Htok
    rw [myPay_3]; iapply (free_intro c _ _); iexact D5
  iintro ⟨HO, Htok⟩
  sl_exec_parts
  iapply (wp_sig (VfI m ρ) (VbI m ρ) (VdI m ρ) (R1bI m ρ) K c 4 _ (dev5_eq c) (S := Oat 4) (by decide) (T := Tat 4) (by decide) W) $$ [HO Htok D4]
  · iframe Hrec
    isplitl [HO]; · iexact HO
    isplitl [Htok]; · iexact Htok
    rw [myPay_4]; iapply (free_intro c _ _); iexact D4
  iintro ⟨HO, Htok⟩
  sl_exec_parts
  iapply (wp_sig (VfI m ρ) (VbI m ρ) (VdI m ρ) (R1bI m ρ) K c 5 _ (dev6_eq c) (S := Oat 5) (by decide) (T := Tat 5) (by decide) W) $$ [HO Htok D3]
  · iframe Hrec
    isplitl [HO]; · iexact HO
    isplitl [Htok]; · iexact Htok
    rw [myPay_5]; iapply (free_intro c _ _); iexact D3
  iintro ⟨HO, Htok⟩
  sl_exec_parts
  iapply (wp_sig (VfI m ρ) (VbI m ρ) (VdI m ρ) (R1bI m ρ) K c 6 _ (dev7_eq c) (S := Oat 6) (by decide) (T := Tat 6) (by decide) W) $$ [HO Htok D2]
  · iframe Hrec
    isplitl [HO]; · iexact HO
    isplitl [Htok]; · iexact Htok
    rw [myPay_6]; iapply (free_intro c _ _); iexact D2
  iintro ⟨HO, Htok⟩
  sl_exec_parts
  iapply (wp_sig (VfI m ρ) (VbI m ρ) (VdI m ρ) (R1bI m ρ) K c 7 _ (dev8_eq c) (S := Oat 7) (by decide) (T := Tat 7) (by decide) W) $$ [HO Htok D1]
  · iframe Hrec
    isplitl [HO]; · iexact HO
    isplitl [Htok]; · iexact Htok
    rw [myPay_7]; iapply (free_intro c _ _); iexact D1
  iintro ⟨HO, Htok⟩
  sl_exec_parts
  iapply (wp_sig (VfI m ρ) (VbI m ρ) (VdI m ρ) (R1bI m ρ) K c 8 _ (dev9_eq c) (S := Oat 8) (by decide) (T := Tat 8) (by decide) W) $$ [HO Htok D0]
  · iframe Hrec
    isplitl [HO]; · iexact HO
    isplitl [Htok]; · iexact Htok
    rw [myPay_8]; iapply (free_intro c _ _); iexact D0
  iintro ⟨HO, Htok⟩
  sl_exec_parts
  ihave Hpos := (Entails.of_eq (pos_take (F := F) c (S := Finset.univ) (k := CK.bar) (by decide))) $$ Hpos
  icases Hpos with ⟨HatB, Hpos⟩
  iapply (wp_bar_wait (VfI m ρ) (VbI m ρ) (VdI m ρ) (R1bI m ρ) K c (S := Oat 9) (by decide) W (wpE_semWait_eq 𝒱₀ (c : Thread nD τ) none Set.univ)) $$ [HcB HO HatB]
  · iframe Hrec Hlev HatB
    isplitl [HcB]; · iexact HcB
    iexact HO
  iintro ⟨HO, N6f, N6b, ND6, ND5, ND4, ND3, ND2, ND1, ND0⟩
  unfold sixFree free
  icases N6f with ⟨⟨%nf00, NF00⟩, ⟨%nf01, NF01⟩, ⟨%nf10, NF10⟩, ⟨%nf11, NF11⟩, ⟨%nf20, NF20⟩, ⟨%nf21, NF21⟩⟩
  icases N6b with ⟨⟨%nb00, NB00⟩, ⟨%nb01, NB01⟩, ⟨%nb10, NB10⟩, ⟨%nb11, NB11⟩, ⟨%nb20, NB20⟩, ⟨%nb21, NB21⟩⟩
  icases ND6 with ⟨%nd6, ND6⟩
  icases ND5 with ⟨%nd5, ND5⟩
  icases ND4 with ⟨%nd4, ND4⟩
  icases ND3 with ⟨%nd3, ND3⟩
  icases ND2 with ⟨%nd2, ND2⟩
  icases ND1 with ⟨%nd1, ND1⟩
  icases ND0 with ⟨%nd0, ND0⟩
  sl_exec_parts
  ihave F3 := (Entails.of_eq (cfTop_eq c _)) $$ F3
  ihave F3 := (cf_top3_split c _).1 $$ F3
  icases F3 with ⟨F30, F31⟩
  iapply (wp_send_f (VfI m ρ) (VbI m ρ) (VdI m ρ) (R1bI m ρ) K c 0 0 _ (dev10_eq c) (S := Oat 9) (by decide) (T := Tat 9) (by decide) (by decide) (Wat 1 W)
      _ (by show (cfP (srcSlot 0) 0).view.read (Elt F) (sound_body.sl.F3_w1 m ρ c f1) = VfI m ρ c 0 0; exact sendF0 m ρ c 0 f1 [] _ _ _ _ _)) $$ [HO Htok F30 NF00]
  · iframe Hrec
    isplitl [HO]; · iexact HO
    isplitl [Htok]; · iexact Htok
    isplitl [F30]; · iexact F30
    iapply (free_intro _ _ _); iexact NF00
  iintro ⟨HcfS00, HO, Htok⟩
  sl_exec_parts
  iapply (wp_send_f (VfI m ρ) (VbI m ρ) (VdI m ρ) (R1bI m ρ) K c 0 1 _ (dev11_eq c) (S := Oat 10) (by decide) (T := Tat 11) (by decide) (by decide) (Wat 1 W)
      _ (by show (cfP (srcSlot 0) 1).view.read (Elt F) (sound_body.sl.F3_w1 m ρ c f1) = VfI m ρ c 0 1; exact sendF0 m ρ c 1 f1 [] _ _ _ _ _)) $$ [HO Htok F31 NF01]
  · iframe Hrec
    isplitl [HO]; · iexact HO
    isplitl [Htok]; · iexact Htok
    isplitl [F31]; · iexact F31
    iapply (free_intro _ _ _); iexact NF01
  iintro ⟨HcfS01, HO, Htok⟩
  sl_exec_parts
  ihave B3 := (Entails.of_eq (cbTop_eq c _)) $$ B3
  ihave B3 := (cb_top3_split c _).1 $$ B3
  icases B3 with ⟨B30, B31⟩
  iapply (wp_send_b (VfI m ρ) (VbI m ρ) (VdI m ρ) (R1bI m ρ) K c 0 0 _ (dev12_eq c) (S := Oat 11) (by decide) (T := Tat 13) (by decide) (by decide) (Wat 1 W)
      _ (by show (cbP (srcSlot 0) 0).view.read (Elt F) (sound_body.sl.B3_w1 m ρ c f2) = VbI m ρ c 0 0; exact sendB0 m ρ c 0 f2 _ _ _ _ _ _)) $$ [HO Htok B30 NB00]
  · iframe Hrec
    isplitl [HO]; · iexact HO
    isplitl [Htok]; · iexact Htok
    isplitl [B30]; · iexact B30
    iapply (free_intro _ _ _); iexact NB00
  iintro ⟨HcbS00, HO, Htok⟩
  sl_exec_parts
  iapply (wp_send_b (VfI m ρ) (VbI m ρ) (VdI m ρ) (R1bI m ρ) K c 0 1 _ (dev13_eq c) (S := Oat 12) (by decide) (T := Tat 15) (by decide) (by decide) (Wat 1 W)
      _ (by show (cbP (srcSlot 0) 1).view.read (Elt F) (sound_body.sl.B3_w1 m ρ c f2) = VbI m ρ c 0 1; exact sendB0 m ρ c 1 f2 _ _ _ _ _ _)) $$ [HO Htok B31 NB01]
  · iframe Hrec
    isplitl [HO]; · iexact HO
    isplitl [Htok]; · iexact Htok
    isplitl [B31]; · iexact B31
    iapply (free_intro _ _ _); iexact NB01
  iintro ⟨HcbS01, HO, Htok⟩
  sl_exec_parts
  iapply (wp_wait_dma (VfI m ρ) (VbI m ρ) (VdI m ρ) (R1bI m ρ) K c (CK.fS 0 0) (by decide) (S := Oat 13) (by decide) (P := Pat 1) (by decide) (Wat 1 W)
      (fSs 0 0) (cfP 0 0) (cfP 3 0) rfl rfl) $$ [HcfS00 HO Hpos]
  · iframe Hrec Hlev
    isplitl [HcfS00]; · iexact HcfS00
    isplitl [HO]; · iexact HO
    iexact Hpos
  iintro ⟨HO, HdnfS00, Hpay, Hpos⟩
  unfold cellPay holds
  icases Hpay with ⟨%rfs00, %hrfs00, RFS00⟩
  sl_exec_parts
  ihave HcF := (Entails.of_eq (credF_take (F := F) c (S := Finset.univ) (hs := (0, 0)) (by decide))) $$ HcF
  icases HcF with ⟨Hcr, HcF⟩
  iapply (wp_wait_dma (VfI m ρ) (VbI m ρ) (VdI m ρ) (R1bI m ρ) K c (CK.fR 0 0) (by decide) (S := Oat 13) (by decide) (P := Pat 2) (by decide) (Wat 2 W)
      (fRs 0 0) (cfP 3 0) (cfP 0 0) rfl rfl) $$ [Hcr HO Hpos]
  · iframe Hrec Hlev
    isplitl [Hcr]; · iexact Hcr
    isplitl [HO]; · iexact HO
    iexact Hpos
  iintro ⟨HO, HdnfR00, Hpay, Hpos⟩
  unfold cellPay holds
  icases Hpay with ⟨%lf00, %hlf00, LF00⟩
  sl_exec_parts
  iapply (wp_wait_dma (VfI m ρ) (VbI m ρ) (VdI m ρ) (R1bI m ρ) K c (CK.bS 0 0) (by decide) (S := Oat 13) (by decide) (P := Pat 3) (by decide) (Wat 3 W)
      (bSs 0 0) (cbP 0 0) (cbP 3 0) rfl rfl) $$ [HcbS00 HO Hpos]
  · iframe Hrec Hlev
    isplitl [HcbS00]; · iexact HcbS00
    isplitl [HO]; · iexact HO
    iexact Hpos
  iintro ⟨HO, HdnbS00, Hpay, Hpos⟩
  unfold cellPay holds
  icases Hpay with ⟨%rbs00, %hrbs00, RBS00⟩
  sl_exec_parts
  ihave HcBk := (Entails.of_eq (credB_take (F := F) c (S := Finset.univ) (hs := (0, 0)) (by decide))) $$ HcBk
  icases HcBk with ⟨Hcr, HcBk⟩
  iapply (wp_wait_dma (VfI m ρ) (VbI m ρ) (VdI m ρ) (R1bI m ρ) K c (CK.bR 0 0) (by decide) (S := Oat 13) (by decide) (P := Pat 4) (by decide) (Wat 4 W)
      (bRs 0 0) (cbP 3 0) (cbP 0 0) rfl rfl) $$ [Hcr HO Hpos]
  · iframe Hrec Hlev
    isplitl [Hcr]; · iexact Hcr
    isplitl [HO]; · iexact HO
    iexact Hpos
  iintro ⟨HO, HdnbR00, Hpay, Hpos⟩
  unfold cellPay holds
  icases Hpay with ⟨%lb00, %hlb00, LB00⟩
  sl_exec_parts
  iapply (wp_send_f (VfI m ρ) (VbI m ρ) (VdI m ρ) (R1bI m ρ) K c 1 0 _ (dev14_eq c) (S := Oat 13) (by decide) (T := Tat 17) (by decide) (by decide) (Wat 5 W)
      _ (by show (cfP (srcSlot 1) 0).view.read (Elt F) (sound_body.sl.LF00_w1 m ρ c f0 lf00) = VfI m ρ c 1 0; exact hop_send_f m ρ c 0 0 0 lf00 hlf00 _ rfl _ _ _ _ (pay14_13_cast _ _) (strip_at _ _ c (q4 (zi c + 6 - 0)) 0 0 _ _ (strip7_0_0_cov c) (strip7_0_0_off c) (k0_off2_inb c 1) _ _ (prodList_mem7 _ _ c) f0))) $$ [HO Htok LF00 NF10]
  · iframe Hrec
    isplitl [HO]; · iexact HO
    isplitl [Htok]; · iexact Htok
    isplitl [LF00]; · iexact LF00
    iapply (free_intro _ _ _); iexact NF10
  iintro ⟨HcfS10, HO, Htok⟩
  sl_exec_parts
  iapply (wp_send_b (VfI m ρ) (VbI m ρ) (VdI m ρ) (R1bI m ρ) K c 1 0 _ (dev15_eq c) (S := Oat 14) (by decide) (T := Tat 19) (by decide) (by decide) (Wat 5 W)
      _ (by show (cbP (srcSlot 1) 0).view.read (Elt F) (sound_body.sl.LB00_w2 m ρ c lb00) = VbI m ρ c 1 0; exact hop_send_b m ρ c 0 0 0 lb00 hlb00 _ rfl _ _ _ _ (pay15_cast _ _) (strip_cov _ _ c (q4 (zi c + 2 + 0)) 1 0 _ _ (strip8_0_0_cov c) (strip8_0_0_off c) (k0_off3_inb c 1) _ _ (prodList_mem8 _ _ c)))) $$ [HO Htok LB00 NB10]
  · iframe Hrec
    isplitl [HO]; · iexact HO
    isplitl [Htok]; · iexact Htok
    isplitl [LB00]; · iexact LB00
    iapply (free_intro _ _ _); iexact NB10
  iintro ⟨HcbS10, HO, Htok⟩
  sl_exec_parts
  iapply (wp_wait_dma (VfI m ρ) (VbI m ρ) (VdI m ρ) (R1bI m ρ) K c (CK.fS 0 1) (by decide) (S := Oat 15) (by decide) (P := Pat 5) (by decide) (Wat 5 W)
      (fSs 0 1) (cfP 0 1) (cfP 3 1) rfl rfl) $$ [HcfS01 HO Hpos]
  · iframe Hrec Hlev
    isplitl [HcfS01]; · iexact HcfS01
    isplitl [HO]; · iexact HO
    iexact Hpos
  iintro ⟨HO, HdnfS01, Hpay, Hpos⟩
  unfold cellPay holds
  icases Hpay with ⟨%rfs01, %hrfs01, RFS01⟩
  sl_exec_parts
  ihave HcF := (Entails.of_eq (credF_take (F := F) c (S := (Finset.univ.erase (0, 0))) (hs := (0, 1)) (by decide))) $$ HcF
  icases HcF with ⟨Hcr, HcF⟩
  iapply (wp_wait_dma (VfI m ρ) (VbI m ρ) (VdI m ρ) (R1bI m ρ) K c (CK.fR 0 1) (by decide) (S := Oat 15) (by decide) (P := Pat 6) (by decide) (Wat 6 W)
      (fRs 0 1) (cfP 3 1) (cfP 0 1) rfl rfl) $$ [Hcr HO Hpos]
  · iframe Hrec Hlev
    isplitl [Hcr]; · iexact Hcr
    isplitl [HO]; · iexact HO
    iexact Hpos
  iintro ⟨HO, HdnfR01, Hpay, Hpos⟩
  unfold cellPay holds
  icases Hpay with ⟨%lf01, %hlf01, LF01⟩
  sl_exec_parts
  iapply (wp_wait_dma (VfI m ρ) (VbI m ρ) (VdI m ρ) (R1bI m ρ) K c (CK.bS 0 1) (by decide) (S := Oat 15) (by decide) (P := Pat 7) (by decide) (Wat 7 W)
      (bSs 0 1) (cbP 0 1) (cbP 3 1) rfl rfl) $$ [HcbS01 HO Hpos]
  · iframe Hrec Hlev
    isplitl [HcbS01]; · iexact HcbS01
    isplitl [HO]; · iexact HO
    iexact Hpos
  iintro ⟨HO, HdnbS01, Hpay, Hpos⟩
  unfold cellPay holds
  icases Hpay with ⟨%rbs01, %hrbs01, RBS01⟩
  sl_exec_parts
  ihave HcBk := (Entails.of_eq (credB_take (F := F) c (S := (Finset.univ.erase (0, 0))) (hs := (0, 1)) (by decide))) $$ HcBk
  icases HcBk with ⟨Hcr, HcBk⟩
  iapply (wp_wait_dma (VfI m ρ) (VbI m ρ) (VdI m ρ) (R1bI m ρ) K c (CK.bR 0 1) (by decide) (S := Oat 15) (by decide) (P := Pat 8) (by decide) (Wat 8 W)
      (bRs 0 1) (cbP 3 1) (cbP 0 1) rfl rfl) $$ [Hcr HO Hpos]
  · iframe Hrec Hlev
    isplitl [Hcr]; · iexact Hcr
    isplitl [HO]; · iexact HO
    iexact Hpos
  iintro ⟨HO, HdnbR01, Hpay, Hpos⟩
  unfold cellPay holds
  icases Hpay with ⟨%lb01, %hlb01, LB01⟩
  sl_exec_parts
  iapply (wp_send_f (VfI m ρ) (VbI m ρ) (VdI m ρ) (R1bI m ρ) K c 1 1 _ (dev16_eq c) (S := Oat 15) (by decide) (T := Tat 21) (by decide) (by decide) (Wat 9 W)
      _ (by show (cfP (srcSlot 1) 1).view.read (Elt F) (sound_body.sl.LF01_w1 m ρ c f0 lf01) = VfI m ρ c 1 1; exact hop_send_f m ρ c 0 1 0 lf01 hlf01 _ rfl _ _ _ _ (pay17_16_cast _ _) (strip_at _ _ c (q4 (zi c + 6 - 0)) 0 1 _ _ (strip7_0_1_cov c) (strip7_0_1_off c) (k0_off2_inb c 1) _ _ (prodList_mem7 _ _ c) f0))) $$ [HO Htok LF01 NF11]
  · iframe Hrec
    isplitl [HO]; · iexact HO
    isplitl [Htok]; · iexact Htok
    isplitl [LF01]; · iexact LF01
    iapply (free_intro _ _ _); iexact NF11
  iintro ⟨HcfS11, HO, Htok⟩
  sl_exec_parts
  iapply (wp_send_b (VfI m ρ) (VbI m ρ) (VdI m ρ) (R1bI m ρ) K c 1 1 _ (dev17_eq c) (S := Oat 16) (by decide) (T := Tat 23) (by decide) (by decide) (Wat 9 W)
      _ (by show (cbP (srcSlot 1) 1).view.read (Elt F) (sound_body.sl.LB01_w2 m ρ c lb01) = VbI m ρ c 1 1; exact hop_send_b m ρ c 0 1 0 lb01 hlb01 _ rfl _ _ _ _ (pay18_cast _ _) (strip_cov _ _ c (q4 (zi c + 2 + 0)) 1 1 _ _ (strip8_0_1_cov c) (strip8_0_1_off c) (k0_off3_inb c 1) _ _ (prodList_mem8 _ _ c)))) $$ [HO Htok LB01 NB11]
  · iframe Hrec
    isplitl [HO]; · iexact HO
    isplitl [Htok]; · iexact Htok
    isplitl [LB01]; · iexact LB01
    iapply (free_intro _ _ _); iexact NB11
  iintro ⟨HcbS11, HO, Htok⟩
  sl_exec_parts
  iapply (wp_wait_dma (VfI m ρ) (VbI m ρ) (VdI m ρ) (R1bI m ρ) K c (CK.fS 1 0) (by decide) (S := Oat 17) (by decide) (P := Pat 9) (by decide) (Wat 9 W)
      (fSs 1 0) (cfP 1 0) (cfP 0 0) rfl rfl) $$ [HcfS10 HO Hpos]
  · iframe Hrec Hlev
    isplitl [HcfS10]; · iexact HcfS10
    isplitl [HO]; · iexact HO
    iexact Hpos
  iintro ⟨HO, HdnfS10, Hpay, Hpos⟩
  unfold cellPay holds
  icases Hpay with ⟨%rfs10, %hrfs10, RFS10⟩
  sl_exec_parts
  ihave HcF := (Entails.of_eq (credF_take (F := F) c (S := ((Finset.univ.erase (0, 0)).erase (0, 1))) (hs := (1, 0)) (by decide))) $$ HcF
  icases HcF with ⟨Hcr, HcF⟩
  iapply (wp_wait_dma (VfI m ρ) (VbI m ρ) (VdI m ρ) (R1bI m ρ) K c (CK.fR 1 0) (by decide) (S := Oat 17) (by decide) (P := Pat 10) (by decide) (Wat 10 W)
      (fRs 1 0) (cfP 0 0) (cfP 1 0) rfl rfl) $$ [Hcr HO Hpos]
  · iframe Hrec Hlev
    isplitl [Hcr]; · iexact Hcr
    isplitl [HO]; · iexact HO
    iexact Hpos
  iintro ⟨HO, HdnfR10, Hpay, Hpos⟩
  unfold cellPay holds
  icases Hpay with ⟨%lf10, %hlf10, LF10⟩
  sl_exec_parts
  iapply (wp_wait_dma (VfI m ρ) (VbI m ρ) (VdI m ρ) (R1bI m ρ) K c (CK.bS 1 0) (by decide) (S := Oat 17) (by decide) (P := Pat 11) (by decide) (Wat 11 W)
      (bSs 1 0) (cbP 1 0) (cbP 0 0) rfl rfl) $$ [HcbS10 HO Hpos]
  · iframe Hrec Hlev
    isplitl [HcbS10]; · iexact HcbS10
    isplitl [HO]; · iexact HO
    iexact Hpos
  iintro ⟨HO, HdnbS10, Hpay, Hpos⟩
  unfold cellPay holds
  icases Hpay with ⟨%rbs10, %hrbs10, RBS10⟩
  sl_exec_parts
  ihave HcBk := (Entails.of_eq (credB_take (F := F) c (S := ((Finset.univ.erase (0, 0)).erase (0, 1))) (hs := (1, 0)) (by decide))) $$ HcBk
  icases HcBk with ⟨Hcr, HcBk⟩
  iapply (wp_wait_dma (VfI m ρ) (VbI m ρ) (VdI m ρ) (R1bI m ρ) K c (CK.bR 1 0) (by decide) (S := Oat 17) (by decide) (P := Pat 12) (by decide) (Wat 12 W)
      (bRs 1 0) (cbP 0 0) (cbP 1 0) rfl rfl) $$ [Hcr HO Hpos]
  · iframe Hrec Hlev
    isplitl [Hcr]; · iexact Hcr
    isplitl [HO]; · iexact HO
    iexact Hpos
  iintro ⟨HO, HdnbR10, Hpay, Hpos⟩
  unfold cellPay holds
  icases Hpay with ⟨%lb10, %hlb10, LB10⟩
  sl_exec_parts
  iapply (wp_send_f (VfI m ρ) (VbI m ρ) (VdI m ρ) (R1bI m ρ) K c 2 0 _ (dev18_eq c) (S := Oat 17) (by decide) (T := Tat 25) (by decide) (by decide) (Wat 13 W)
      _ (by show (cfP (srcSlot 2) 0).view.read (Elt F) (sound_body.sl.LF10_w1 m ρ c f0 lf10) = VfI m ρ c 2 0; exact hop_send_f m ρ c 1 0 1 lf10 hlf10 _ rfl _ _ _ _ (pay19_cast _ _) (strip_at _ _ c (q4 (zi c + 6 - 1)) 0 0 _ _ (strip7_1_0_cov c) (strip7_1_0_off c) (k0_off2_inb c 0) _ _ (prodList_mem9 _ _ c) f0))) $$ [HO Htok LF10 NF20]
  · iframe Hrec
    isplitl [HO]; · iexact HO
    isplitl [Htok]; · iexact Htok
    isplitl [LF10]; · iexact LF10
    iapply (free_intro _ _ _); iexact NF20
  iintro ⟨HcfS20, HO, Htok⟩
  sl_exec_parts
  iapply (wp_send_b (VfI m ρ) (VbI m ρ) (VdI m ρ) (R1bI m ρ) K c 2 0 _ (dev19_eq c) (S := Oat 18) (by decide) (T := Tat 27) (by decide) (by decide) (Wat 13 W)
      _ (by show (cbP (srcSlot 2) 0).view.read (Elt F) (sound_body.sl.LB10_w2 m ρ c lb10) = VbI m ρ c 2 0; exact hop_send_b m ρ c 1 0 1 lb10 hlb10 _ rfl _ _ _ _ (pay20_cast _ _) (strip_cov _ _ c (q4 (zi c + 2 + 1)) 1 0 _ _ (strip8_1_0_cov c) (strip8_1_0_off c) (k0_off3_inb c 2) _ _ (prodList_mem10 _ _ c)))) $$ [HO Htok LB10 NB20]
  · iframe Hrec
    isplitl [HO]; · iexact HO
    isplitl [Htok]; · iexact Htok
    isplitl [LB10]; · iexact LB10
    iapply (free_intro _ _ _); iexact NB20
  iintro ⟨HcbS20, HO, Htok⟩
  sl_exec_parts
  iapply (wp_wait_dma (VfI m ρ) (VbI m ρ) (VdI m ρ) (R1bI m ρ) K c (CK.fS 1 1) (by decide) (S := Oat 19) (by decide) (P := Pat 13) (by decide) (Wat 13 W)
      (fSs 1 1) (cfP 1 1) (cfP 0 1) rfl rfl) $$ [HcfS11 HO Hpos]
  · iframe Hrec Hlev
    isplitl [HcfS11]; · iexact HcfS11
    isplitl [HO]; · iexact HO
    iexact Hpos
  iintro ⟨HO, HdnfS11, Hpay, Hpos⟩
  unfold cellPay holds
  icases Hpay with ⟨%rfs11, %hrfs11, RFS11⟩
  sl_exec_parts
  ihave HcF := (Entails.of_eq (credF_take (F := F) c (S := (((Finset.univ.erase (0, 0)).erase (0, 1)).erase (1, 0))) (hs := (1, 1)) (by decide))) $$ HcF
  icases HcF with ⟨Hcr, HcF⟩
  iapply (wp_wait_dma (VfI m ρ) (VbI m ρ) (VdI m ρ) (R1bI m ρ) K c (CK.fR 1 1) (by decide) (S := Oat 19) (by decide) (P := Pat 14) (by decide) (Wat 14 W)
      (fRs 1 1) (cfP 0 1) (cfP 1 1) rfl rfl) $$ [Hcr HO Hpos]
  · iframe Hrec Hlev
    isplitl [Hcr]; · iexact Hcr
    isplitl [HO]; · iexact HO
    iexact Hpos
  iintro ⟨HO, HdnfR11, Hpay, Hpos⟩
  unfold cellPay holds
  icases Hpay with ⟨%lf11, %hlf11, LF11⟩
  sl_exec_parts
  iapply (wp_wait_dma (VfI m ρ) (VbI m ρ) (VdI m ρ) (R1bI m ρ) K c (CK.bS 1 1) (by decide) (S := Oat 19) (by decide) (P := Pat 15) (by decide) (Wat 15 W)
      (bSs 1 1) (cbP 1 1) (cbP 0 1) rfl rfl) $$ [HcbS11 HO Hpos]
  · iframe Hrec Hlev
    isplitl [HcbS11]; · iexact HcbS11
    isplitl [HO]; · iexact HO
    iexact Hpos
  iintro ⟨HO, HdnbS11, Hpay, Hpos⟩
  unfold cellPay holds
  icases Hpay with ⟨%rbs11, %hrbs11, RBS11⟩
  sl_exec_parts
  ihave HcBk := (Entails.of_eq (credB_take (F := F) c (S := (((Finset.univ.erase (0, 0)).erase (0, 1)).erase (1, 0))) (hs := (1, 1)) (by decide))) $$ HcBk
  icases HcBk with ⟨Hcr, HcBk⟩
  iapply (wp_wait_dma (VfI m ρ) (VbI m ρ) (VdI m ρ) (R1bI m ρ) K c (CK.bR 1 1) (by decide) (S := Oat 19) (by decide) (P := Pat 16) (by decide) (Wat 16 W)
      (bRs 1 1) (cbP 0 1) (cbP 1 1) rfl rfl) $$ [Hcr HO Hpos]
  · iframe Hrec Hlev
    isplitl [Hcr]; · iexact Hcr
    isplitl [HO]; · iexact HO
    iexact Hpos
  iintro ⟨HO, HdnbR11, Hpay, Hpos⟩
  unfold cellPay holds
  icases Hpay with ⟨%lb11, %hlb11, LB11⟩
  sl_exec_parts
  iapply (wp_send_f (VfI m ρ) (VbI m ρ) (VdI m ρ) (R1bI m ρ) K c 2 1 _ (dev20_eq c) (S := Oat 19) (by decide) (T := Tat 29) (by decide) (by decide) (Wat 17 W)
      _ (by show (cfP (srcSlot 2) 1).view.read (Elt F) (sound_body.sl.LF11_w1 m ρ c f0 lf11) = VfI m ρ c 2 1; exact hop_send_f m ρ c 1 1 1 lf11 hlf11 _ rfl _ _ _ _ (pay21_cast _ _) (strip_at _ _ c (q4 (zi c + 6 - 1)) 0 1 _ _ (strip7_1_1_cov c) (strip7_1_1_off c) (k0_off2_inb c 0) _ _ (prodList_mem9 _ _ c) f0))) $$ [HO Htok LF11 NF21]
  · iframe Hrec
    isplitl [HO]; · iexact HO
    isplitl [Htok]; · iexact Htok
    isplitl [LF11]; · iexact LF11
    iapply (free_intro _ _ _); iexact NF21
  iintro ⟨HcfS21, HO, Htok⟩
  sl_exec_parts
  iapply (wp_send_b (VfI m ρ) (VbI m ρ) (VdI m ρ) (R1bI m ρ) K c 2 1 _ (dev21_eq c) (S := Oat 20) (by decide) (T := Tat 31) (by decide) (by decide) (Wat 17 W)
      _ (by show (cbP (srcSlot 2) 1).view.read (Elt F) (sound_body.sl.LB11_w2 m ρ c lb11) = VbI m ρ c 2 1; exact hop_send_b m ρ c 1 1 1 lb11 hlb11 _ rfl _ _ _ _ (pay22_cast _ _) (strip_cov _ _ c (q4 (zi c + 2 + 1)) 1 1 _ _ (strip8_1_1_cov c) (strip8_1_1_off c) (k0_off3_inb c 2) _ _ (prodList_mem10 _ _ c)))) $$ [HO Htok LB11 NB21]
  · iframe Hrec
    isplitl [HO]; · iexact HO
    isplitl [Htok]; · iexact Htok
    isplitl [LB11]; · iexact LB11
    iapply (free_intro _ _ _); iexact NB21
  iintro ⟨HcbS21, HO, Htok⟩
  sl_exec_parts
  iapply (wp_wait_dma (VfI m ρ) (VbI m ρ) (VdI m ρ) (R1bI m ρ) K c (CK.fS 2 0) (by decide) (S := Oat 21) (by decide) (P := Pat 17) (by decide) (Wat 17 W)
      (fSs 2 0) (cfP 2 0) (cfP 1 0) rfl rfl) $$ [HcfS20 HO Hpos]
  · iframe Hrec Hlev
    isplitl [HcfS20]; · iexact HcfS20
    isplitl [HO]; · iexact HO
    iexact Hpos
  iintro ⟨HO, HdnfS20, Hpay, Hpos⟩
  unfold cellPay holds
  icases Hpay with ⟨%rfs20, %hrfs20, RFS20⟩
  sl_exec_parts
  ihave HcF := (Entails.of_eq (credF_take (F := F) c (S := ((((Finset.univ.erase (0, 0)).erase (0, 1)).erase (1, 0)).erase (1, 1))) (hs := (2, 0)) (by decide))) $$ HcF
  icases HcF with ⟨Hcr, HcF⟩
  iapply (wp_wait_dma (VfI m ρ) (VbI m ρ) (VdI m ρ) (R1bI m ρ) K c (CK.fR 2 0) (by decide) (S := Oat 21) (by decide) (P := Pat 18) (by decide) (Wat 18 W)
      (fRs 2 0) (cfP 1 0) (cfP 2 0) rfl rfl) $$ [Hcr HO Hpos]
  · iframe Hrec Hlev
    isplitl [Hcr]; · iexact Hcr
    isplitl [HO]; · iexact HO
    iexact Hpos
  iintro ⟨HO, HdnfR20, Hpay, Hpos⟩
  unfold cellPay holds
  icases Hpay with ⟨%lf20, %hlf20, LF20⟩
  sl_exec_parts
  iapply (wp_wait_dma (VfI m ρ) (VbI m ρ) (VdI m ρ) (R1bI m ρ) K c (CK.bS 2 0) (by decide) (S := Oat 21) (by decide) (P := Pat 19) (by decide) (Wat 19 W)
      (bSs 2 0) (cbP 2 0) (cbP 1 0) rfl rfl) $$ [HcbS20 HO Hpos]
  · iframe Hrec Hlev
    isplitl [HcbS20]; · iexact HcbS20
    isplitl [HO]; · iexact HO
    iexact Hpos
  iintro ⟨HO, HdnbS20, Hpay, Hpos⟩
  unfold cellPay holds
  icases Hpay with ⟨%rbs20, %hrbs20, RBS20⟩
  sl_exec_parts
  ihave HcBk := (Entails.of_eq (credB_take (F := F) c (S := ((((Finset.univ.erase (0, 0)).erase (0, 1)).erase (1, 0)).erase (1, 1))) (hs := (2, 0)) (by decide))) $$ HcBk
  icases HcBk with ⟨Hcr, HcBk⟩
  iapply (wp_wait_dma (VfI m ρ) (VbI m ρ) (VdI m ρ) (R1bI m ρ) K c (CK.bR 2 0) (by decide) (S := Oat 21) (by decide) (P := Pat 20) (by decide) (Wat 20 W)
      (bRs 2 0) (cbP 1 0) (cbP 2 0) rfl rfl) $$ [Hcr HO Hpos]
  · iframe Hrec Hlev
    isplitl [Hcr]; · iexact Hcr
    isplitl [HO]; · iexact HO
    iexact Hpos
  iintro ⟨HO, HdnbR20, Hpay, Hpos⟩
  unfold cellPay holds
  icases Hpay with ⟨%lb20, %hlb20, LB20⟩
  sl_exec_parts
  iapply (wp_wait_dma (VfI m ρ) (VbI m ρ) (VdI m ρ) (R1bI m ρ) K c (CK.fS 2 1) (by decide) (S := Oat 21) (by decide) (P := Pat 21) (by decide) (Wat 21 W)
      (fSs 2 1) (cfP 2 1) (cfP 1 1) rfl rfl) $$ [HcfS21 HO Hpos]
  · iframe Hrec Hlev
    isplitl [HcfS21]; · iexact HcfS21
    isplitl [HO]; · iexact HO
    iexact Hpos
  iintro ⟨HO, HdnfS21, Hpay, Hpos⟩
  unfold cellPay holds
  icases Hpay with ⟨%rfs21, %hrfs21, RFS21⟩
  sl_exec_parts
  ihave HcF := (Entails.of_eq (credF_take (F := F) c (S := (((((Finset.univ.erase (0, 0)).erase (0, 1)).erase (1, 0)).erase (1, 1)).erase (2, 0))) (hs := (2, 1)) (by decide))) $$ HcF
  icases HcF with ⟨Hcr, HcF⟩
  iapply (wp_wait_dma (VfI m ρ) (VbI m ρ) (VdI m ρ) (R1bI m ρ) K c (CK.fR 2 1) (by decide) (S := Oat 21) (by decide) (P := Pat 22) (by decide) (Wat 22 W)
      (fRs 2 1) (cfP 1 1) (cfP 2 1) rfl rfl) $$ [Hcr HO Hpos]
  · iframe Hrec Hlev
    isplitl [Hcr]; · iexact Hcr
    isplitl [HO]; · iexact HO
    iexact Hpos
  iintro ⟨HO, HdnfR21, Hpay, Hpos⟩
  unfold cellPay holds
  icases Hpay with ⟨%lf21, %hlf21, LF21⟩
  sl_exec_parts
  iapply (wp_wait_dma (VfI m ρ) (VbI m ρ) (VdI m ρ) (R1bI m ρ) K c (CK.bS 2 1) (by decide) (S := Oat 21) (by decide) (P := Pat 23) (by decide) (Wat 23 W)
      (bSs 2 1) (cbP 2 1) (cbP 1 1) rfl rfl) $$ [HcbS21 HO Hpos]
  · iframe Hrec Hlev
    isplitl [HcbS21]; · iexact HcbS21
    isplitl [HO]; · iexact HO
    iexact Hpos
  iintro ⟨HO, HdnbS21, Hpay, Hpos⟩
  unfold cellPay holds
  icases Hpay with ⟨%rbs21, %hrbs21, RBS21⟩
  sl_exec_parts
  ihave HcBk := (Entails.of_eq (credB_take (F := F) c (S := (((((Finset.univ.erase (0, 0)).erase (0, 1)).erase (1, 0)).erase (1, 1)).erase (2, 0))) (hs := (2, 1)) (by decide))) $$ HcBk
  icases HcBk with ⟨Hcr, HcBk⟩
  iapply (wp_wait_dma (VfI m ρ) (VbI m ρ) (VdI m ρ) (R1bI m ρ) K c (CK.bR 2 1) (by decide) (S := Oat 21) (by decide) (P := Pat 24) (by decide) (Wat 24 W)
      (bRs 2 1) (cbP 1 1) (cbP 2 1) rfl rfl) $$ [Hcr HO Hpos]
  · iframe Hrec Hlev
    isplitl [Hcr]; · iexact Hcr
    isplitl [HO]; · iexact HO
    iexact Hpos
  iintro ⟨HO, HdnbR21, Hpay, Hpos⟩
  unfold cellPay holds
  icases Hpay with ⟨%lb21, %hlb21, LB21⟩
  sl_exec_parts
  have hR : r1bM.view.writes (Elt F) f4 (sound_body.sl.H4_2 m ρ c lf20 lb20 lf21 lb21) = R1bI m ρ c :=
    quarter_eq m ρ c lf20 lb20 lf21 lb21 hlf20 hlb20 hlf21 hlb21 f4 _ rfl
  ihave H4 := (Entails.of_eq (show ((r1bM.view.loc (c : Thread nD τ) ↦[r1bM.view.set]{fullShare}
        r1bM.view.writes (Elt F) f4 (sound_body.sl.H4_2 m ρ c lf20 lb20 lf21 lb21) : sProp 𝕄))
      = (((c : Thread nD τ).loc cc0_scratch4) ↦{fullShare} R1bI m ρ c) from by rw [hR, View.set_whole])) $$ H4
  ihave H4 := (Entails.of_eq (ch_split_eq c (R1bI m ρ c))) $$ H4
  icases H4 with ⟨⟨C0, C1, C2, C3, C4, C5, C6⟩, Crest⟩
  iapply (wp_send_d (VfI m ρ) (VbI m ρ) (VdI m ρ) (R1bI m ρ) K c 0 _ (dev22_eq c) (S := Oat 21) (by decide) (T := Tat 33) (by decide) (by decide) (Wat 25 W)
      (chunk_read m ρ c 0)) $$ [HO Htok C0 ND0]
  · iframe Hrec C0
    isplitl [HO]; · iexact HO
    isplitl [Htok]; · iexact Htok
    iapply (free_intro _ _ _); iexact ND0
  iintro ⟨HcdS0, HO, Htok⟩
  sl_exec_parts
  iapply (wp_send_d (VfI m ρ) (VbI m ρ) (VdI m ρ) (R1bI m ρ) K c 1 _ (dev23_eq c) (S := Oat 22) (by decide) (T := Tat 35) (by decide) (by decide) (Wat 25 W)
      (chunk_read m ρ c 1)) $$ [HO Htok C1 ND1]
  · iframe Hrec C1
    isplitl [HO]; · iexact HO
    isplitl [Htok]; · iexact Htok
    iapply (free_intro _ _ _); iexact ND1
  iintro ⟨HcdS1, HO, Htok⟩
  sl_exec_parts
  iapply (wp_send_d (VfI m ρ) (VbI m ρ) (VdI m ρ) (R1bI m ρ) K c 2 _ (dev24_eq c) (S := Oat 23) (by decide) (T := Tat 37) (by decide) (by decide) (Wat 25 W)
      (chunk_read m ρ c 2)) $$ [HO Htok C2 ND2]
  · iframe Hrec C2
    isplitl [HO]; · iexact HO
    isplitl [Htok]; · iexact Htok
    iapply (free_intro _ _ _); iexact ND2
  iintro ⟨HcdS2, HO, Htok⟩
  sl_exec_parts
  iapply (wp_send_d (VfI m ρ) (VbI m ρ) (VdI m ρ) (R1bI m ρ) K c 3 _ (dev25_eq c) (S := Oat 24) (by decide) (T := Tat 39) (by decide) (by decide) (Wat 25 W)
      (chunk_read m ρ c 3)) $$ [HO Htok C3 ND3]
  · iframe Hrec C3
    isplitl [HO]; · iexact HO
    isplitl [Htok]; · iexact Htok
    iapply (free_intro _ _ _); iexact ND3
  iintro ⟨HcdS3, HO, Htok⟩
  sl_exec_parts
  iapply (wp_send_d (VfI m ρ) (VbI m ρ) (VdI m ρ) (R1bI m ρ) K c 4 _ (dev26_eq c) (S := Oat 25) (by decide) (T := Tat 41) (by decide) (by decide) (Wat 25 W)
      (chunk_read m ρ c 4)) $$ [HO Htok C4 ND4]
  · iframe Hrec C4
    isplitl [HO]; · iexact HO
    isplitl [Htok]; · iexact Htok
    iapply (free_intro _ _ _); iexact ND4
  iintro ⟨HcdS4, HO, Htok⟩
  sl_exec_parts
  iapply (wp_send_d (VfI m ρ) (VbI m ρ) (VdI m ρ) (R1bI m ρ) K c 5 _ (dev27_eq c) (S := Oat 26) (by decide) (T := Tat 43) (by decide) (by decide) (Wat 25 W)
      (chunk_read m ρ c 5)) $$ [HO Htok C5 ND5]
  · iframe Hrec C5
    isplitl [HO]; · iexact HO
    isplitl [Htok]; · iexact Htok
    iapply (free_intro _ _ _); iexact ND5
  iintro ⟨HcdS5, HO, Htok⟩
  sl_exec_parts
  iapply (wp_send_d (VfI m ρ) (VbI m ρ) (VdI m ρ) (R1bI m ρ) K c 6 _ (dev28_eq c) (S := Oat 27) (by decide) (T := Tat 45) (by decide) (by decide) (Wat 25 W)
      (chunk_read m ρ c 6)) $$ [HO Htok C6 ND6]
  · iframe Hrec C6
    isplitl [HO]; · iexact HO
    isplitl [Htok]; · iexact Htok
    iapply (free_intro _ _ _); iexact ND6
  iintro ⟨HcdS6, HO, Htok⟩
  sl_exec_parts
  iapply (wp_wait_dma (VfI m ρ) (VbI m ρ) (VdI m ρ) (R1bI m ρ) K c (CK.dS 0) (by decide) (S := Oat 28) (by decide) (P := Pat 25) (by decide) (Wat 25 W)
      (dSs 0) (cdP 0) (chM c 0) rfl rfl) $$ [HcdS0 HO Hpos]
  · iframe Hrec Hlev
    isplitl [HcdS0]; · iexact HcdS0
    isplitl [HO]; · iexact HO
    iexact Hpos
  iintro ⟨HO, HdndS0, Hpay, Hpos⟩
  unfold cellPay holds
  icases Hpay with C0
  sl_exec_parts
  ihave HcD := (Entails.of_eq (credD_take (F := F) c (S := Finset.univ) (o := 0) (by decide))) $$ HcD
  icases HcD with ⟨Hcr, HcD⟩
  iapply (wp_wait_dma (VfI m ρ) (VbI m ρ) (VdI m ρ) (R1bI m ρ) K c (CK.dR 0) (by decide) (S := Oat 28) (by decide) (P := Pat 26) (by decide) (Wat 26 W)
      (dRs 0) (chM c 0) (cdP 0) rfl rfl) $$ [Hcr HO Hpos]
  · iframe Hrec Hlev
    isplitl [Hcr]; · iexact Hcr
    isplitl [HO]; · iexact HO
    iexact Hpos
  iintro ⟨HO, HdndR0, Hpay, Hpos⟩
  unfold cellPay holds
  icases Hpay with ⟨%ld0, %hld0, LD0⟩
  sl_exec_parts
  iapply (wp_wait_dma (VfI m ρ) (VbI m ρ) (VdI m ρ) (R1bI m ρ) K c (CK.dS 1) (by decide) (S := Oat 28) (by decide) (P := Pat 27) (by decide) (Wat 27 W)
      (dSs 1) (cdP 1) (chM c 1) rfl rfl) $$ [HcdS1 HO Hpos]
  · iframe Hrec Hlev
    isplitl [HcdS1]; · iexact HcdS1
    isplitl [HO]; · iexact HO
    iexact Hpos
  iintro ⟨HO, HdndS1, Hpay, Hpos⟩
  unfold cellPay holds
  icases Hpay with C1
  sl_exec_parts
  ihave HcD := (Entails.of_eq (credD_take (F := F) c (S := (Finset.univ.erase 0)) (o := 1) (by decide))) $$ HcD
  icases HcD with ⟨Hcr, HcD⟩
  iapply (wp_wait_dma (VfI m ρ) (VbI m ρ) (VdI m ρ) (R1bI m ρ) K c (CK.dR 1) (by decide) (S := Oat 28) (by decide) (P := Pat 28) (by decide) (Wat 28 W)
      (dRs 1) (chM c 1) (cdP 1) rfl rfl) $$ [Hcr HO Hpos]
  · iframe Hrec Hlev
    isplitl [Hcr]; · iexact Hcr
    isplitl [HO]; · iexact HO
    iexact Hpos
  iintro ⟨HO, HdndR1, Hpay, Hpos⟩
  unfold cellPay holds
  icases Hpay with ⟨%ld1, %hld1, LD1⟩
  sl_exec_parts
  iapply (wp_wait_dma (VfI m ρ) (VbI m ρ) (VdI m ρ) (R1bI m ρ) K c (CK.dS 2) (by decide) (S := Oat 28) (by decide) (P := Pat 29) (by decide) (Wat 29 W)
      (dSs 2) (cdP 2) (chM c 2) rfl rfl) $$ [HcdS2 HO Hpos]
  · iframe Hrec Hlev
    isplitl [HcdS2]; · iexact HcdS2
    isplitl [HO]; · iexact HO
    iexact Hpos
  iintro ⟨HO, HdndS2, Hpay, Hpos⟩
  unfold cellPay holds
  icases Hpay with C2
  sl_exec_parts
  ihave HcD := (Entails.of_eq (credD_take (F := F) c (S := ((Finset.univ.erase 0).erase 1)) (o := 2) (by decide))) $$ HcD
  icases HcD with ⟨Hcr, HcD⟩
  iapply (wp_wait_dma (VfI m ρ) (VbI m ρ) (VdI m ρ) (R1bI m ρ) K c (CK.dR 2) (by decide) (S := Oat 28) (by decide) (P := Pat 30) (by decide) (Wat 30 W)
      (dRs 2) (chM c 2) (cdP 2) rfl rfl) $$ [Hcr HO Hpos]
  · iframe Hrec Hlev
    isplitl [Hcr]; · iexact Hcr
    isplitl [HO]; · iexact HO
    iexact Hpos
  iintro ⟨HO, HdndR2, Hpay, Hpos⟩
  unfold cellPay holds
  icases Hpay with ⟨%ld2, %hld2, LD2⟩
  sl_exec_parts
  iapply (wp_wait_dma (VfI m ρ) (VbI m ρ) (VdI m ρ) (R1bI m ρ) K c (CK.dS 3) (by decide) (S := Oat 28) (by decide) (P := Pat 31) (by decide) (Wat 31 W)
      (dSs 3) (cdP 3) (chM c 3) rfl rfl) $$ [HcdS3 HO Hpos]
  · iframe Hrec Hlev
    isplitl [HcdS3]; · iexact HcdS3
    isplitl [HO]; · iexact HO
    iexact Hpos
  iintro ⟨HO, HdndS3, Hpay, Hpos⟩
  unfold cellPay holds
  icases Hpay with C3
  sl_exec_parts
  ihave HcD := (Entails.of_eq (credD_take (F := F) c (S := (((Finset.univ.erase 0).erase 1).erase 2)) (o := 3) (by decide))) $$ HcD
  icases HcD with ⟨Hcr, HcD⟩
  iapply (wp_wait_dma (VfI m ρ) (VbI m ρ) (VdI m ρ) (R1bI m ρ) K c (CK.dR 3) (by decide) (S := Oat 28) (by decide) (P := Pat 32) (by decide) (Wat 32 W)
      (dRs 3) (chM c 3) (cdP 3) rfl rfl) $$ [Hcr HO Hpos]
  · iframe Hrec Hlev
    isplitl [Hcr]; · iexact Hcr
    isplitl [HO]; · iexact HO
    iexact Hpos
  iintro ⟨HO, HdndR3, Hpay, Hpos⟩
  unfold cellPay holds
  icases Hpay with ⟨%ld3, %hld3, LD3⟩
  sl_exec_parts
  iapply (wp_wait_dma (VfI m ρ) (VbI m ρ) (VdI m ρ) (R1bI m ρ) K c (CK.dS 4) (by decide) (S := Oat 28) (by decide) (P := Pat 33) (by decide) (Wat 33 W)
      (dSs 4) (cdP 4) (chM c 4) rfl rfl) $$ [HcdS4 HO Hpos]
  · iframe Hrec Hlev
    isplitl [HcdS4]; · iexact HcdS4
    isplitl [HO]; · iexact HO
    iexact Hpos
  iintro ⟨HO, HdndS4, Hpay, Hpos⟩
  unfold cellPay holds
  icases Hpay with C4
  sl_exec_parts
  ihave HcD := (Entails.of_eq (credD_take (F := F) c (S := ((((Finset.univ.erase 0).erase 1).erase 2).erase 3)) (o := 4) (by decide))) $$ HcD
  icases HcD with ⟨Hcr, HcD⟩
  iapply (wp_wait_dma (VfI m ρ) (VbI m ρ) (VdI m ρ) (R1bI m ρ) K c (CK.dR 4) (by decide) (S := Oat 28) (by decide) (P := Pat 34) (by decide) (Wat 34 W)
      (dRs 4) (chM c 4) (cdP 4) rfl rfl) $$ [Hcr HO Hpos]
  · iframe Hrec Hlev
    isplitl [Hcr]; · iexact Hcr
    isplitl [HO]; · iexact HO
    iexact Hpos
  iintro ⟨HO, HdndR4, Hpay, Hpos⟩
  unfold cellPay holds
  icases Hpay with ⟨%ld4, %hld4, LD4⟩
  sl_exec_parts
  iapply (wp_wait_dma (VfI m ρ) (VbI m ρ) (VdI m ρ) (R1bI m ρ) K c (CK.dS 5) (by decide) (S := Oat 28) (by decide) (P := Pat 35) (by decide) (Wat 35 W)
      (dSs 5) (cdP 5) (chM c 5) rfl rfl) $$ [HcdS5 HO Hpos]
  · iframe Hrec Hlev
    isplitl [HcdS5]; · iexact HcdS5
    isplitl [HO]; · iexact HO
    iexact Hpos
  iintro ⟨HO, HdndS5, Hpay, Hpos⟩
  unfold cellPay holds
  icases Hpay with C5
  sl_exec_parts
  ihave HcD := (Entails.of_eq (credD_take (F := F) c (S := (((((Finset.univ.erase 0).erase 1).erase 2).erase 3).erase 4)) (o := 5) (by decide))) $$ HcD
  icases HcD with ⟨Hcr, HcD⟩
  iapply (wp_wait_dma (VfI m ρ) (VbI m ρ) (VdI m ρ) (R1bI m ρ) K c (CK.dR 5) (by decide) (S := Oat 28) (by decide) (P := Pat 36) (by decide) (Wat 36 W)
      (dRs 5) (chM c 5) (cdP 5) rfl rfl) $$ [Hcr HO Hpos]
  · iframe Hrec Hlev
    isplitl [Hcr]; · iexact Hcr
    isplitl [HO]; · iexact HO
    iexact Hpos
  iintro ⟨HO, HdndR5, Hpay, Hpos⟩
  unfold cellPay holds
  icases Hpay with ⟨%ld5, %hld5, LD5⟩
  sl_exec_parts
  iapply (wp_wait_dma (VfI m ρ) (VbI m ρ) (VdI m ρ) (R1bI m ρ) K c (CK.dS 6) (by decide) (S := Oat 28) (by decide) (P := Pat 37) (by decide) (Wat 37 W)
      (dSs 6) (cdP 6) (chM c 6) rfl rfl) $$ [HcdS6 HO Hpos]
  · iframe Hrec Hlev
    isplitl [HcdS6]; · iexact HcdS6
    isplitl [HO]; · iexact HO
    iexact Hpos
  iintro ⟨HO, HdndS6, Hpay, Hpos⟩
  unfold cellPay holds
  icases Hpay with C6
  sl_exec_parts
  ihave HcD := (Entails.of_eq (credD_take (F := F) c (S := ((((((Finset.univ.erase 0).erase 1).erase 2).erase 3).erase 4).erase 5)) (o := 6) (by decide))) $$ HcD
  icases HcD with ⟨Hcr, HcD⟩
  iapply (wp_wait_dma (VfI m ρ) (VbI m ρ) (VdI m ρ) (R1bI m ρ) K c (CK.dR 6) (by decide) (S := Oat 28) (by decide) (P := Pat 38) (by decide) (Wat 38 W)
      (dRs 6) (chM c 6) (cdP 6) rfl rfl) $$ [Hcr HO Hpos]
  · iframe Hrec Hlev
    isplitl [Hcr]; · iexact Hcr
    isplitl [HO]; · iexact HO
    iexact Hpos
  iintro ⟨HO, HdndR6, Hpay, Hpos⟩
  unfold cellPay holds
  icases Hpay with ⟨%ld6, %hld6, LD6⟩
  sl_exec_parts
  rw [wp_ret]
  ihave H4 := (ch_split c (R1bI m ρ c)).2 $$ [C0 C1 C2 C3 C4 C5 C6 Crest]
  · isplitl [C0 C1 C2 C3 C4 C5 C6]
    · isplitl [C0]; · iexact C0
      isplitl [C1]; · iexact C1
      isplitl [C2]; · iexact C2
      isplitl [C3]; · iexact C3
      isplitl [C4]; · iexact C4
      isplitl [C5]; · iexact C5
      iexact C6
    · iexact Crest
  ihave H4 := (Entails.of_eq (show ((((c : Thread nD τ).loc cc0_scratch4) ↦{fullShare} R1bI m ρ c : sProp 𝕄))
      = (r1bM.view.loc (c : Thread nD τ) ↦[r1bM.view.set]{fullShare} R1bI m ρ c) from by rw [View.set_whole])) $$ H4
  ihave Hdn := (done_all (F := F) c) $$ [HdnfS00 HdnfR00 HdnbS00 HdnbR00 HdnfS01 HdnfR01 HdnbS01 HdnbR01 HdnfS10 HdnfR10 HdnbS10 HdnbR10 HdnfS11 HdnfR11 HdnbS11 HdnbR11 HdnfS20 HdnfR20 HdnbS20 HdnbR20 HdnfS21 HdnfR21 HdnbS21 HdnbR21 HdndS0 HdndR0 HdndS1 HdndR1 HdndS2 HdndR2 HdndS3 HdndR3 HdndS4 HdndR4 HdndS5 HdndR5 HdndS6 HdndR6]
  · iframe HdnfS00 HdnfR00 HdnbS00 HdnbR00 HdnfS01 HdnfR01 HdnbS01 HdnbR01 HdnfS10 HdnfR10 HdnbS10 HdnbR10 HdnfS11 HdnfR11 HdnbS11 HdnbR11 HdnfS20 HdnfR20 HdnbS20 HdnbR20 HdnfS21 HdnfR21 HdnbS21 HdnbR21 HdndS0 HdndR0 HdndS1 HdndR1 HdndS2 HdndR2 HdndS3 HdndR3 HdndS4 HdndR4 HdndS5 HdndR5 HdndS6 HdndR6
  ihave HO := (Entails.of_eq (congrArg (fun O => (owes (c : Thread nD τ) O (insert (csem (CK.dR 6), ()) (Wat 38 W)) : sProp 𝕄))
      (Orem_done c (Oat 28) (by decide)))) $$ HO
  imod (finish m ρ K c (Wat 39 W) _ _ _ _
      (by exact out_all m ρ c lf20 lb20 lf21 lb21 hlf20 hlb20 hlf21 hlb21 ld0 ld1 ld2 ld3 ld4 ld5 ld6 hld0 hld1 hld2 hld3 hld4 hld5 hld6 g2)) $$ [Hrec Hdn HO H0 RFS10 RFS11 RFS20 RFS21 LF20 LF21 RFS00 RFS01 RBS10 RBS11 RBS20 RBS21 LB20 LB21 RBS00 RBS01 H3 H4 LD0 LD1 LD2 LD3 LD4 LD5 LD6 Ha Hb Hout] with Hpost
  · iframe Hrec Hdn H0
    isplitl [HO]; · iexact HO
    isplitl [RFS10 RFS11 RFS20 RFS21 LF20 LF21 RFS00 RFS01]
    · isplitl [RFS10]; · (iapply (free_intro _ _ _); iexact RFS10)
      isplitl [RFS11]; · (iapply (free_intro _ _ _); iexact RFS11)
      isplitl [RFS20]; · (iapply (free_intro _ _ _); iexact RFS20)
      isplitl [RFS21]; · (iapply (free_intro _ _ _); iexact RFS21)
      isplitl [LF20]; · (iapply (free_intro _ _ _); iexact LF20)
      isplitl [LF21]; · (iapply (free_intro _ _ _); iexact LF21)
      isplitl [RFS00]; · (iapply (free_intro _ _ _); iexact RFS00)
      (iapply (free_intro _ _ _); iexact RFS01)
    isplitl [RBS10 RBS11 RBS20 RBS21 LB20 LB21 RBS00 RBS01]
    · isplitl [RBS10]; · (iapply (free_intro _ _ _); iexact RBS10)
      isplitl [RBS11]; · (iapply (free_intro _ _ _); iexact RBS11)
      isplitl [RBS20]; · (iapply (free_intro _ _ _); iexact RBS20)
      isplitl [RBS21]; · (iapply (free_intro _ _ _); iexact RBS21)
      isplitl [LB20]; · (iapply (free_intro _ _ _); iexact LB20)
      isplitl [LB21]; · (iapply (free_intro _ _ _); iexact LB21)
      isplitl [RBS00]; · (iapply (free_intro _ _ _); iexact RBS00)
      (iapply (free_intro _ _ _); iexact RBS01)
    isplitl [H3]; · iexact H3
    isplitl [H4]; · iexact H4
    isplitl [LD0 LD1 LD2 LD3 LD4 LD5 LD6]
    · isplitl [LD0]; · (iapply (free_intro _ _ _); iexact LD0)
      isplitl [LD1]; · (iapply (free_intro _ _ _); iexact LD1)
      isplitl [LD2]; · (iapply (free_intro _ _ _); iexact LD2)
      isplitl [LD3]; · (iapply (free_intro _ _ _); iexact LD3)
      isplitl [LD4]; · (iapply (free_intro _ _ _); iexact LD4)
      isplitl [LD5]; · (iapply (free_intro _ _ _); iexact LD5)
      (iapply (free_intro _ _ _); iexact LD6)
    isplitl [Ha]; · iexact Ha
    isplitl [Hb]; · iexact Hb
    iexact Hout
  imodintro
  iapply Hk
  iexact Hpost

end

end Cert.Kernel.Ring

end
-- ==== Proof.lean ====
/- The product of a 1536 × 24576 and a 24576 × 1536 matrix with the inner dimension cut over 32 devices: each device
   multiplies its own blocks, and the 32 products are summed so that device c keeps rows 48 c … of the sum. Over the
   extended reals narrowing a format changes nothing and a sum may be regrouped freely, so those rows are the rows of
   the one whole product. -/
import proofs.«900894_g7700000000000895_dist_matmul_mk_i_outk_m1536_n1536_k768_v7x_i32_f32_1_alg».proof.Defs
import proofs.«900894_g7700000000000895_dist_matmul_mk_i_outk_m1536_n1536_k768_v7x_i32_f32_1_alg».proof.Proof.Gen.Kernel
import proofs.«900894_g7700000000000895_dist_matmul_mk_i_outk_m1536_n1536_k768_v7x_i32_f32_1_alg».proof.Proof.Gen.KernelIdeal
import proofs.«900894_g7700000000000895_dist_matmul_mk_i_outk_m1536_n1536_k768_v7x_i32_f32_1_alg».proof.Proof.Gen.ReferenceIdeal
import proofs.«900894_g7700000000000895_dist_matmul_mk_i_outk_m1536_n1536_k768_v7x_i32_f32_1_alg».proof.Proof.Gen.Pre_finite_inputs_Kernel
import proofs.«900894_g7700000000000895_dist_matmul_mk_i_outk_m1536_n1536_k768_v7x_i32_f32_1_alg».proof.Proof.Gen.Pre_finite_inputs_ReferenceIdeal
import proofs.«900894_g7700000000000895_dist_matmul_mk_i_outk_m1536_n1536_k768_v7x_i32_f32_1_alg».proof.Proof.Claims
import proofs.«900894_g7700000000000895_dist_matmul_mk_i_outk_m1536_n1536_k768_v7x_i32_f32_1_alg».proof.Proof.KClaims
import proofs.«900894_g7700000000000895_dist_matmul_mk_i_outk_m1536_n1536_k768_v7x_i32_f32_1_alg».proof.Proof.Body
import proofs.«900894_g7700000000000895_dist_matmul_mk_i_outk_m1536_n1536_k768_v7x_i32_f32_1_alg».proof.Proof.K.Body

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Pre_finite_inputs_Kernel.Gen.facts, Cert.Pre_finite_inputs_ReferenceIdeal.Gen.facts,
    Cert.Kernel.Ring.frame_p_of (fun m ρ => Cert.Kernel.Ring.sound_body m ρ),
    Cert.KernelIdeal.Ring.frame_pi_of (fun m ρ => Cert.KernelIdeal.Ring.sound_body m ρ),
    Cert.RefSide.frame_ri,
    trivial,
    Cert.KernelIdeal.Ring.algebraic_of (fun m ρ => Cert.KernelIdeal.Ring.sound_body m ρ)⟩

end Cert.Proof

end
